-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  IdealRules.truncf_extf.Statement Cert.KernelIdeal.S10240x512 .f32 .bf16
  ∧ IdealRules.truncf_extf.Statement Cert.KernelIdeal.S10240x512 .f32 .bf16
  ∧ IdealRules.truncf_extf.Statement Cert.KernelIdeal.S10240x512 .f32 .bf16
  ∧ IdealRules.truncf_extf.Statement Cert.KernelIdeal.S10240x512 .f32 .bf16

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S320000x128 : Shape := ⟨2, ![320000, 128]⟩
abbrev S320000x2 : Shape := ⟨2, ![320000, 2]⟩
abbrev S384x128 : Shape := ⟨2, ![384, 128]⟩
abbrev S128 : Shape := ⟨1, ![128]⟩
abbrev S128x384 : Shape := ⟨2, ![128, 384]⟩
abbrev S384 : Shape := ⟨1, ![384]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x128 : S_.BroadcastsInDim S320000x128 (![] : Fin 0 → Fin S320000x128.rank)
  reducesTo_S320000x128_S_d0_1 : S320000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_
  bcast_S_S320000x2 : S_.BroadcastsInDim S320000x2 (![] : Fin 0 → Fin S320000x2.rank)
  reducesTo_S320000x2_S_d0_1 : S320000x2.ReducesTo [0, 1] S_

variable [Facts]

def fn_part5 {F : FTy → Type} [FloatOps F] (main_arg2 : IVec S320000x2 32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_c_34 : IVec S_ 32 := constantI S_ 32 0#32
  let main_v89 : IVec S320000x2 32 := broadcastInDim S320000x2 ![] bcast_S_S320000x2 main_c_34
  let main_v90 : IVec S320000x2 1 := cmpi .sge main_arg2 main_v89
  let main_c_35 : IVec S_ 32 := constantI S_ 32 9999#32
  let main_v91 : IVec S320000x2 32 := broadcastInDim S320000x2 ![] bcast_S_S320000x2 main_c_35
  let main_v92 : IVec S320000x2 1 := cmpi .sle main_arg2 main_v91
  let main_v93 : IVec S320000x2 1 := andi main_v90 main_v92
  let main_c_36 : IVec S_ 1 := constantI S_ 1 1#1
  let main_v94 : IVec S_ 1 := (fun x v => Host.reduce IntOp.andi x v reducesTo_S320000x2_S_d0_1 h_S_) main_v93 main_c_36
  let main_v95 : IVec S_ 1 := andi main_v88 main_v94
  main_v95

def fn_part4 {F : FTy → Type} [FloatOps F] (main_arg2 : IVec S320000x2 32) (main_arg15 : FVec F S128x128 .f32) (main_arg16 : FVec F S128 .f32) (main_arg17 : FVec F S128x128 .f32) (main_arg18 : FVec F S128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg2 main_v83 main_v84 main_cst_32

def fn_part3 {F : FTy → Type} [FloatOps F] (main_arg2 : IVec S320000x2 32) (main_arg12 : FVec F S128 .f32) (main_arg13 : FVec F S128x384 .f32) (main_arg14 : FVec F S384 .f32) (main_arg15 : FVec F S128x128 .f32) (main_arg16 : FVec F S128 .f32) (main_arg17 : FVec F S128x128 .f32) (main_arg18 : FVec F S128 .f32) (main_v48 : IVec S_ 1) (main_v49 : FVec F S384x128 .f32) (main_v50 : FVec F S384x128 .f32) : IVec S_ 1 :=
  let main_v51 : IVec S384x128 1 := cmpf .olt main_v49 main_v50
  let main_c_19 : IVec S_ 1 := constantI S_ 1 1#1
  let main_v52 : IVec S_ 1 := (fun x v => Host.reduce IntOp.andi x v reducesTo_S384x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x384 .f32 := Host.absf main_arg13
  let main_cst_22 : FVec F S_ .f32 := constant S_ .f32 0x7F800000#32
  let main_v60 : FVec F S128x384 .f32 := broadcastInDim S128x384 ![] bcast_S_S128x384 main_cst_22
  let main_v61 : IVec S128x384 1 := cmpf .olt main_v59 main_v60
  let main_c_23 : IVec S_ 1 := constantI S_ 1 1#1
  let main_v62 : IVec S_ 1 := (fun x v => Host.reduce IntOp.andi x v reducesTo_S128x384_S_d0_1 h_S_) main_v61 main_c_23
  let main_v63 : IVec S_ 1 := andi main_v58 main_v62
  let main_v64 : FVec F S384 .f32 := Host.absf main_arg14
  let main_cst_24 : FVec F S_ .f32 := constant S_ .f32 0x7F800000#32
  let main_v65 : FVec F S384 .f32 := broadcastInDim S384 ![] bcast_S_S384 main_cst_24
  let main_v66 : IVec S384 1 := cmpf .olt main_v64 main_v65
  let main_c_25 : IVec S_ 1 := constantI S_ 1 1#1
  let main_v67 : IVec S_ 1 := (fun x v => Host.reduce IntOp.andi x v reducesTo_S384_S_d0 h_S_) main_v66 main_c_25
  fn_part4 (F := F) main_arg2 main_arg15 main_arg16 main_arg17 main_arg18 main_v63 main_v67

def fn_part2 {F : FTy → Type} [FloatOps F] (main_arg2 : IVec S320000x2 32) (main_arg8 : FVec F S128 .f32) (main_arg9 : FVec F S128x128 .f32) (main_arg10 : FVec F S128 .f32) (main_arg11 : FVec F S384x128 .f32) (main_arg12 : FVec F S128 .f32) (main_arg13 : FVec F S128x384 .f32) (main_arg14 : FVec F S384 .f32) (main_arg15 : FVec F S128x128 .f32) (main_arg16 : FVec F S128 .f32) (main_arg17 : FVec F S128x128 .f32) (main_arg18 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S384x128 .f32 := Host.absf main_arg11
  let main_cst_18 : FVec F S_ .f32 := constant S_ .f32 0x7F800000#32
  let main_v50 : FVec F S384x128 .f32 := broadcastInDim S384x128 ![] bcast_S_S384x128 main_cst_18
  fn_part3 (F := F) main_arg2 main_arg12 main_arg13 main_arg14 main_arg15 main_arg16 main_arg17 main_arg18 main_v48 main_v49 main_v50

def fn_part1 {F : FTy → Type} [FloatOps F] (main_arg2 : IVec S320000x2 32) (main_arg5 : FVec F S128x384 .f32) (main_arg6 : FVec F S384 .f32) (main_arg7 : FVec F S128x128 .f32) (main_arg8 : FVec F S128 .f32) (main_arg9 : FVec F S128x128 .f32) (main_arg10 : FVec F S128 .f32) (main_arg11 : FVec F S384x128 .f32) (main_arg12 : FVec F S128 .f32) (main_arg13 : FVec F S128x384 .f32) (main_arg14 : FVec F S384 .f32) (main_arg15 : FVec F S128x128 .f32) (main_arg16 : FVec F S128 .f32) (main_arg17 : FVec F S128x128 .f32) (main_arg18 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x384 .f32 := Host.absf main_arg5
  let main_cst_6 : FVec F S_ .f32 := constant S_ .f32 0x7F800000#32
  let main_v20 : FVec F S128x384 .f32 := broadcastInDim S128x384 ![] bcast_S_S128x384 main_cst_6
  let main_v21 : IVec S128x384 1 := cmpf .olt main_v19 main_v20
  let main_c_7 : IVec S_ 1 := constantI S_ 1 1#1
  let main_v22 : IVec S_ 1 := (fun x v => Host.reduce IntOp.andi x v reducesTo_S128x384_S_d0_1 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_v33

def fn {F : FTy → Type} [FloatOps F] (main_arg0 : FVec F S10000x128 .f32) (main_arg1 : FVec F S320000x128 .f32) (main_arg2 : IVec S320000x2 32) (main_arg3 : FVec F S384x128 .f32) (main_arg4 : FVec F S128 .f32) (main_arg5 : FVec F S128x384 .f32) (main_arg6 : FVec F S384 .f32) (main_arg7 : FVec F S128x128 .f32) (main_arg8 : FVec F S128 .f32) (main_arg9 : FVec F S128x128 .f32) (main_arg10 : FVec F S128 .f32) (main_arg11 : FVec F S384x128 .f32) (main_arg12 : FVec F S128 .f32) (main_arg13 : FVec F S128x384 .f32) (main_arg14 : FVec F S384 .f32) (main_arg15 : FVec F S128x128 .f32) (main_arg16 : FVec F S128 .f32) (main_arg17 : FVec F S128x128 .f32) (main_arg18 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x128 .f32 := Host.absf main_arg1
  let main_cst_0 : FVec F S_ .f32 := constant S_ .f32 0x7F800000#32
  let main_v5 : FVec F S320000x128 .f32 := broadcastInDim S320000x128 ![] bcast_S_S320000x128 main_cst_0
  let main_v6 : IVec S320000x128 1 := cmpf .olt main_v4 main_v5
  let main_c_1 : IVec S_ 1 := constantI S_ 1 1#1
  let main_v7 : IVec S_ 1 := (fun x v => Host.reduce IntOp.andi x v reducesTo_S320000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_v13 main_v16
-- ==== Kernel.lean ====
abbrev S10000x128 : Shape := ⟨2, ![10000, 128]⟩
abbrev S320000x128 : Shape := ⟨2, ![320000, 128]⟩
abbrev S320000x2 : Shape := ⟨2, ![320000, 2]⟩
abbrev S384x128 : Shape := ⟨2, ![384, 128]⟩
abbrev S128 : Shape := ⟨1, ![128]⟩
abbrev S128x384 : Shape := ⟨2, ![128, 384]⟩
abbrev S384 : Shape := ⟨1, ![384]⟩
abbrev S128x128 : Shape := ⟨2, ![128, 128]⟩
abbrev S320000x1 : Shape := ⟨2, ![320000, 1]⟩
abbrev S320000 : Shape := ⟨1, ![320000]⟩
abbrev S80 : Shape := ⟨1, ![80]⟩
abbrev S80x128 : Shape := ⟨2, ![80, 128]⟩
abbrev S_ : Shape := ⟨0, ![]⟩
abbrev S1x128 : Shape := ⟨2, ![1, 128]⟩
abbrev S1x384 : Shape := ⟨2, ![1, 384]⟩
abbrev S1280x128 : Shape := ⟨2, ![1280, 128]⟩
abbrev S1280x384 : Shape := ⟨2, ![1280, 384]⟩
abbrev S10240x128 : Shape := ⟨2, ![10240, 128]⟩
abbrev S512 : Shape := ⟨1, ![512]⟩
abbrev S512x128 : Shape := ⟨2, ![512, 128]⟩
abbrev S10240x1 : Shape := ⟨2, ![10240, 1]⟩
abbrev S1x512 : Shape := ⟨2, ![1, 512]⟩
abbrev S10240x512 : Shape := ⟨2, ![10240, 512]⟩
abbrev S10240 : Shape := ⟨1, ![10240]⟩

abbrev nBuf : Table → Nat
  | .hbm => 50
  | .local .tc .vmem => 66
  | .local .scVector .vmem => 4
  | _ => 0

abbrev bufTy : (tb : Table) → Fin (nBuf tb) → BufTy
  | .hbm, ⟨0, _⟩ => ⟨S10000x128, .f32⟩
  | .hbm, ⟨1, _⟩ => ⟨S320000x128, .f32⟩
  | .hbm, ⟨2, _⟩ => ⟨S320000x2, .i32⟩
  | .hbm, ⟨3, _⟩ => ⟨S384x128, .f32⟩
  | .hbm, ⟨4, _⟩ => ⟨S128, .f32⟩
  | .hbm, ⟨5, _⟩ => ⟨S128x384, .f32⟩
  | .hbm, ⟨6, _⟩ => ⟨S384, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S384x128, .f32⟩
  | .hbm, ⟨12, _⟩ => ⟨S128, .f32⟩
  | .hbm, ⟨13, _⟩ => ⟨S128x384, .f32⟩
  | .hbm, ⟨14, _⟩ => ⟨S384, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S320000x1, .i32⟩
  | .hbm, ⟨20, _⟩ => ⟨S320000, .i32⟩
  | .hbm, ⟨21, _⟩ => ⟨S320000x1, .i32⟩
  | .hbm, ⟨22, _⟩ => ⟨S320000, .i32⟩
  | .hbm, ⟨23, _⟩ => ⟨S320000x128, .f32⟩
  | .hbm, ⟨24, _⟩ => ⟨S320000x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S1x128, .f32⟩
  | .hbm, ⟨29, _⟩ => ⟨S1x384, .f32⟩
  | .hbm, ⟨30, _⟩ => ⟨S320000x128, .f32⟩
  | .hbm, ⟨31, _⟩ => ⟨S320000x128, .f32⟩
  | .hbm, ⟨32, _⟩ => ⟨S320000x128, .f32⟩
  | .hbm, ⟨33, _⟩ => ⟨S1x128, .f32⟩
  | .hbm, ⟨34, _⟩ => ⟨S1x128, .f32⟩
  | .hbm, ⟨35, _⟩ => ⟨S10240x128, .f32⟩
  | .hbm, ⟨36, _⟩ => ⟨S320000x128, .f32⟩
  | .hbm, ⟨37, _⟩ => ⟨S320000x128, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S1x128, .f32⟩
  | .hbm, ⟨42, _⟩ => ⟨S1x384, .f32⟩
  | .hbm, ⟨43, _⟩ => ⟨S320000x128, .f32⟩
  | .hbm, ⟨44, _⟩ => ⟨S320000x128, .f32⟩
  | .hbm, ⟨45, _⟩ => ⟨S320000x128, .f32⟩
  | .hbm, ⟨46, _⟩ => ⟨S1x128, .f32⟩
  | .hbm, ⟨47, _⟩ => ⟨S1x128, .f32⟩
  | .hbm, ⟨48, _⟩ => ⟨S10240x128, .f32⟩
  | .hbm, ⟨49, _⟩ => ⟨S10000x128, .f32⟩
  | .local .tc .vmem, ⟨0, _⟩ => ⟨S1280x128, .f32⟩
  | .local .tc .vmem, ⟨1, _⟩ => ⟨S1280x128, .f32⟩
  | .local .tc .vmem, ⟨2, _⟩ => ⟨S1280x128, .f32⟩
  | .local .tc .vmem, ⟨3, _⟩ => ⟨S1280x128, .f32⟩
  | .local .tc .vmem, ⟨4, _⟩ => ⟨S1280x128, .f32⟩
  | .local .tc .vmem, ⟨5, _⟩ => ⟨S1280x128, .f32⟩
  | .local .tc .vmem, ⟨6, _⟩ => ⟨S128x128, .f32⟩
  | .local .tc .vmem, ⟨7, _⟩ => ⟨S128x128, .f32⟩
  | .local .tc .vmem, ⟨8, _⟩ => ⟨S128x128, .f32⟩
  | .local .tc .vmem, ⟨9, _⟩ => ⟨S1x128, .f32⟩
  | .local .tc .vmem, ⟨10, _⟩ => ⟨S128x384, .f32⟩
  | .local .tc .vmem, ⟨11, _⟩ => ⟨S1x384, .f32⟩
  | .local .tc .vmem, ⟨12, _⟩ => ⟨S1280x128, .f32⟩
  | .local .tc .vmem, ⟨13, _⟩ => ⟨S1280x128, .f32⟩
  | .local .tc .vmem, ⟨14, _⟩ => ⟨S1280x128, .f32⟩
  | .local .tc .vmem, ⟨15, _⟩ => ⟨S1280x128, .f32⟩
  | .local .tc .vmem, ⟨16, _⟩ => ⟨S1280x128, .f32⟩
  | .local .tc .vmem, ⟨17, _⟩ => ⟨S1280x128, .f32⟩
  | .local .tc .vmem, ⟨18, _⟩ => ⟨S512, .i32⟩
  | .local .tc .vmem, ⟨19, _⟩ => ⟨S512, .i32⟩
  | .local .tc .vmem, ⟨20, _⟩ => ⟨S512, .i32⟩
  | .local .tc .vmem, ⟨21, _⟩ => ⟨S512, .i32⟩
  | .local .tc .vmem, ⟨22, _⟩ => ⟨S512x128, .f32⟩
  | .local .tc .vmem, ⟨23, _⟩ => ⟨S512x128, .f32⟩
  | .local .tc .vmem, ⟨24, _⟩ => ⟨S512x128, .f32⟩
  | .local .tc .vmem, ⟨25, _⟩ => ⟨S512x128, .f32⟩
  | .local .tc .vmem, ⟨26, _⟩ => ⟨S128x128, .f32⟩
  | .local .tc .vmem, ⟨27, _⟩ => ⟨S1x128, .f32⟩
  | .local .tc .vmem, ⟨28, _⟩ => ⟨S128x128, .f32⟩
  | .local .tc .vmem, ⟨29, _⟩ => ⟨S1x128, .f32⟩
  | .local .tc .vmem, ⟨30, _⟩ => ⟨S10240x128, .f32⟩
  | .local .tc .vmem, ⟨31, _⟩ => ⟨S10240x128, .f32⟩
  | .local .tc .vmem, ⟨32, _⟩ => ⟨S10240x128, .f32⟩
  | .local .tc .vmem, ⟨33, _⟩ => ⟨S1280x128, .f32⟩
  | .local .tc .vmem, ⟨34, _⟩ => ⟨S1280x128, .f32⟩
  | .local .tc .vmem, ⟨35, _⟩ => ⟨S1280x128, .f32⟩
  | .local .tc .vmem, ⟨36, _⟩ => ⟨S1280x128, .f32⟩
  | .local .tc .vmem, ⟨37, _⟩ => ⟨S1280x128, .f32⟩
  | .local .tc .vmem, ⟨38, _⟩ => ⟨S1280x128, .f32⟩
  | .local .tc .vmem, ⟨39, _⟩ => ⟨S128x128, .f32⟩
  | .local .tc .vmem, ⟨40, _⟩ => ⟨S128x128, .f32⟩
  | .local .tc .vmem, ⟨41, _⟩ => ⟨S128x128, .f32⟩
  | .local .tc .vmem, ⟨42, _⟩ => ⟨S1x128, .f32⟩
  | .local .tc .vmem, ⟨43, _⟩ => ⟨S128x384, .f32⟩
  | .local .tc .vmem, ⟨44, _⟩ => ⟨S1x384, .f32⟩
  | .local .tc .vmem, ⟨45, _⟩ => ⟨S1280x128, .f32⟩
  | .local .tc .vmem, ⟨46, _⟩ => ⟨S1280x128, .f32⟩
  | .local .tc .vmem, ⟨47, _⟩ => ⟨S1280x128, .f32⟩
  | .local .tc .vmem, ⟨48, _⟩ => ⟨S1280x128, .f32⟩
  | .local .tc .vmem, ⟨49, _⟩ => ⟨S1280x128, .f32⟩
  | .local .tc .vmem, ⟨50, _⟩ => ⟨S1280x128, .f32⟩
  | .local .tc .vmem, ⟨51, _⟩ => ⟨S512, .i32⟩
  | .local .tc .vmem, ⟨52, _⟩ => ⟨S512, .i32⟩
  | .local .tc .vmem, ⟨53, _⟩ => ⟨S512, .i32⟩
  | .local .tc .vmem, ⟨54, _⟩ => ⟨S512, .i32⟩
  | .local .tc .vmem, ⟨55, _⟩ => ⟨S512x128, .f32⟩
  | .local .tc .vmem, ⟨56, _⟩ => ⟨S512x128, .f32⟩
  | .local .tc .vmem, ⟨57, _⟩ => ⟨S512x128, .f32⟩
  | .local .tc .vmem, ⟨58, _⟩ => ⟨S512x128, .f32⟩
  | .local .tc .vmem, ⟨59, _⟩ => ⟨S128x128, .f32⟩
  | .local .tc .vmem, ⟨60, _⟩ => ⟨S1x128, .f32⟩
  | .local .tc .vmem, ⟨61, _⟩ => ⟨S128x128, .f32⟩
  | .local .tc .vmem, ⟨62, _⟩ => ⟨S1x128, .f32⟩
  | .local .tc .vmem, ⟨63, _⟩ => ⟨S10240x128, .f32⟩
  | .local .tc .vmem, ⟨64, _⟩ => ⟨S10240x128, .f32⟩
  | .local .tc .vmem, ⟨65, _⟩ => ⟨S10240x128, .f32⟩
  | .local .scVector .vmem, ⟨0, _⟩ => ⟨S80, .i32⟩
  | .local .scVector .vmem, ⟨1, _⟩ => ⟨S80x128, .f32⟩
  | .local .scVector .vmem, ⟨2, _⟩ => ⟨S80, .i32⟩
  | .local .scVector .vmem, ⟨3, _⟩ => ⟨S80x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 72 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => false
  | ⟨37, _⟩ => false
  | ⟨38, _⟩ => false
  | ⟨39, _⟩ => false
  | ⟨40, _⟩ => false
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTables nBuf rfl bufTy 4 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4_0 : Ref sig .tc := ⟨.hbm, 23, rfl⟩
abbrev main_v4_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10_0 : Ref sig .tc := ⟨.hbm, 30, rfl⟩
abbrev main_v10_1 : Ref sig .tc := ⟨.hbm, 31, rfl⟩
abbrev main_v10_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14_0 : Ref sig .tc := ⟨.hbm, 36, rfl⟩
abbrev main_v14_1 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20_0 : Ref sig .tc := ⟨.hbm, 43, rfl⟩
abbrev main_v20_1 : Ref sig .tc := ⟨.hbm, 44, rfl⟩
abbrev main_v20_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_arg0_scv : Ref sig .scVector := ⟨.hbm, 0, rfl⟩
abbrev main_v1_scv : Ref sig .scVector := ⟨.hbm, 20, rfl⟩
abbrev main_v3_scv : Ref sig .scVector := ⟨.hbm, 22, rfl⟩
abbrev main_v4_0_scv : Ref sig .scVector := ⟨.hbm, 23, rfl⟩
abbrev main_v4_1_scv : Ref sig .scVector := ⟨.hbm, 24, rfl⟩
abbrev main_v13_scv : Ref sig .scVector := ⟨.hbm, 35, rfl⟩
abbrev main_v14_0_scv : Ref sig .scVector := ⟨.hbm, 36, rfl⟩
abbrev main_v14_1_scv : Ref sig .scVector := ⟨.hbm, 37, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg9_1 : Ref sig .tc := ⟨.vmem, 13, rfl⟩
abbrev cc1_stg10_0 : Ref sig .tc := ⟨.vmem, 14, rfl⟩
abbrev cc1_stg10_1 : Ref sig .tc := ⟨.vmem, 15, rfl⟩
abbrev cc1_stg11_0 : Ref sig .tc := ⟨.vmem, 16, rfl⟩
abbrev cc1_stg11_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_scratch0 : Ref sig .tc := ⟨.vmem, 31, rfl⟩
abbrev cc2_scratch1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc4_stg8_0 : Ref sig .tc := ⟨.vmem, 44, rfl⟩
abbrev cc4_stg9_0 : Ref sig .tc := ⟨.vmem, 45, rfl⟩
abbrev cc4_stg9_1 : Ref sig .tc := ⟨.vmem, 46, rfl⟩
abbrev cc4_stg10_0 : Ref sig .tc := ⟨.vmem, 47, rfl⟩
abbrev cc4_stg10_1 : Ref sig .tc := ⟨.vmem, 48, rfl⟩
abbrev cc4_stg11_0 : Ref sig .tc := ⟨.vmem, 49, rfl⟩
abbrev cc4_stg11_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg2_1 : Ref sig .tc := ⟨.vmem, 56, rfl⟩
abbrev cc5_stg3_0 : Ref sig .tc := ⟨.vmem, 57, rfl⟩
abbrev cc5_stg3_1 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg6_0 : Ref sig .tc := ⟨.vmem, 61, rfl⟩
abbrev cc5_stg7_0 : Ref sig .tc := ⟨.vmem, 62, rfl⟩
abbrev cc5_stg8_0 : Ref sig .tc := ⟨.vmem, 63, rfl⟩
abbrev cc5_scratch0 : Ref sig .tc := ⟨.vmem, 64, rfl⟩
abbrev cc5_scratch1 : Ref sig .tc := ⟨.vmem, 65, rfl⟩
abbrev cc0_scratch0 : Ref sig .scVector := ⟨.vmem, 0, rfl⟩
abbrev cc0_scratch1 : Ref sig .scVector := ⟨.vmem, 1, rfl⟩
abbrev cc3_scratch0 : Ref sig .scVector := ⟨.vmem, 2, rfl⟩
abbrev cc3_scratch1 : Ref sig .scVector := ⟨.vmem, 3, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc1_sem10_0 : DmaSem sig := 19
abbrev cc1_sem10_1 : DmaSem sig := 20
abbrev cc1_sem11_0 : DmaSem sig := 21
abbrev cc1_sem11_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem8_0 : DmaSem sig := 35
abbrev cc4_sem0_0 : DmaSem sig := 41
abbrev cc4_sem0_1 : DmaSem sig := 42
abbrev cc4_sem1_0 : DmaSem sig := 43
abbrev cc4_sem1_1 : DmaSem sig := 44
abbrev cc4_sem2_0 : DmaSem sig := 45
abbrev cc4_sem2_1 : DmaSem sig := 46
abbrev cc4_sem3_0 : DmaSem sig := 47
abbrev cc4_sem4_0 : DmaSem sig := 48
abbrev cc4_sem5_0 : DmaSem sig := 49
abbrev cc4_sem6_0 : DmaSem sig := 50
abbrev cc4_sem7_0 : DmaSem sig := 51
abbrev cc4_sem8_0 : DmaSem sig := 52
abbrev cc4_sem9_0 : DmaSem sig := 53
abbrev cc4_sem9_1 : DmaSem sig := 54
abbrev cc4_sem10_0 : DmaSem sig := 55
abbrev cc4_sem10_1 : DmaSem sig := 56
abbrev cc4_sem11_0 : DmaSem sig := 57
abbrev cc4_sem11_1 : DmaSem sig := 58
abbrev cc5_sem0_0 : DmaSem sig := 59
abbrev cc5_sem0_1 : DmaSem sig := 60
abbrev cc5_sem1_0 : DmaSem sig := 61
abbrev cc5_sem1_1 : DmaSem sig := 62
abbrev cc5_sem2_0 : DmaSem sig := 63
abbrev cc5_sem2_1 : DmaSem sig := 64
abbrev cc5_sem3_0 : DmaSem sig := 65
abbrev cc5_sem3_1 : DmaSem sig := 66
abbrev cc5_sem4_0 : DmaSem sig := 67
abbrev cc5_sem5_0 : DmaSem sig := 68
abbrev cc5_sem6_0 : DmaSem sig := 69
abbrev cc5_sem7_0 : DmaSem sig := 70
abbrev cc5_sem8_0 : DmaSem sig := 71
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c125_i32 : BitVec 32 := 125#32
  let v3 : BitVec 32 := Scalar.addi c0_i32 c125_i32
  let c1_i32 : BitVec 32 := 1#32
  ⟨c0_i32, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_1 : BitVec 32 := 0#32
  let c0_i32 : BitVec 32 := 0#32
  let c1_i32 : BitVec 32 := 1#32
  let arg10 : BitVec 32 := Scf.iv c0_i32 c1_i32 k0_t1
  let c80_i32 : BitVec 32 := 80#32
  let v4 : BitVec 32 := Scalar.muli arg10 c80_i32
  let v5 : BitVec 32 := Scalar.addi c0_i32_1 v4
  let v6 : BitVec 32 := Scalar.addi v2 v5
  ![v6.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_1 : BitVec 32 := 0#32
  let c0_i32 : BitVec 32 := 0#32
  let c1_i32 : BitVec 32 := 1#32
  let arg10 : BitVec 32 := Scf.iv c0_i32 c1_i32 k0_t1
  let c80_i32 : BitVec 32 := 80#32
  let v4 : BitVec 32 := Scalar.muli arg10 c80_i32
  let v5 : BitVec 32 := Scalar.addi c0_i32_1 v4
  let v6 : BitVec 32 := Scalar.addi v2 v5
  let c0_i32_10_r1 : BitVec 32 := 0#32
  ![v6.toNat, 0]
abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1280x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1280x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1280x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x384 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1280x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1280x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1280x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![625], ![false]⟩

def k2_cond2 (i : grid2.Coords) : BitVec 1 :=
  let arg0 : BitVec 32 := BitVec.ofNat 32 (i 0).val
  let c624_i32 : BitVec 32 := 624#32
  let v50 : BitVec 1 := Scalar.cmpi .eq arg0 c624_i32
  let v51 : BitVec 32 := Scalar.extui v50
  let c0_i32_17 : BitVec 32 := 0#32
  let v52 : BitVec 1 := Scalar.cmpi .ne v51 c0_i32_17
  v52

def cc2_transform_0 (i : grid2.Coords) : Fin 1 → Nat :=
  let arg0 : BitVec 32 := BitVec.ofNat 32 (i 0).val
  let c0_i32 : BitVec 32 := 0#32
  ![arg0.toNat]

def cc2_transform_1 (i : grid2.Coords) : Fin 1 → Nat :=
  let arg0 : BitVec 32 := BitVec.ofNat 32 (i 0).val
  let c0_i32 : BitVec 32 := 0#32
  ![arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S10240x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨2, ![2, 16], ![false, false]⟩

@[reducible] def k3_t1_loop : Scf.Loop 32 :=
  let c0_i32 : BitVec 32 := 0#32
  let c125_i32 : BitVec 32 := 125#32
  let v3 : BitVec 32 := Scalar.addi c0_i32 c125_i32
  let c1_i32 : BitVec 32 := 1#32
  ⟨c0_i32, v3, c1_i32⟩
def k3_off1 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_1 : BitVec 32 := 0#32
  let c0_i32 : BitVec 32 := 0#32
  let c1_i32 : BitVec 32 := 1#32
  let arg10 : BitVec 32 := Scf.iv c0_i32 c1_i32 k3_t1
  let c80_i32 : BitVec 32 := 80#32
  let v4 : BitVec 32 := Scalar.muli arg10 c80_i32
  let v5 : BitVec 32 := Scalar.addi c0_i32_1 v4
  let v6 : BitVec 32 := Scalar.addi v2 v5
  ![v6.toNat]
def k3_off2 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_1 : BitVec 32 := 0#32
  let c0_i32 : BitVec 32 := 0#32
  let c1_i32 : BitVec 32 := 1#32
  let arg10 : BitVec 32 := Scf.iv c0_i32 c1_i32 k3_t1
  let c80_i32 : BitVec 32 := 80#32
  let v4 : BitVec 32 := Scalar.muli arg10 c80_i32
  let v5 : BitVec 32 := Scalar.addi c0_i32_1 v4
  let v6 : BitVec 32 := Scalar.addi v2 v5
  let c0_i32_10_r1 : BitVec 32 := 0#32
  ![v6.toNat, 0]
abbrev grid4 : Pipeline.Grid := ⟨1, ![250], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1280x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1280x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1280x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x384 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x384 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S1280x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S1280x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev stage4_11 : Fin 2 → Memref sig .tc .vmem S1280x128 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev grid5 : Pipeline.Grid := ⟨1, ![625], ![false]⟩

def k5_cond2 (i : grid5.Coords) : BitVec 1 :=
  let arg0 : BitVec 32 := BitVec.ofNat 32 (i 0).val
  let c624_i32 : BitVec 32 := 624#32
  let v50 : BitVec 1 := Scalar.cmpi .eq arg0 c624_i32
  let v51 : BitVec 32 := Scalar.extui v50
  let c0_i32_17 : BitVec 32 := 0#32
  let v52 : BitVec 1 := Scalar.cmpi .ne v51 c0_i32_17
  v52

def cc5_transform_0 (i : grid5.Coords) : Fin 1 → Nat :=
  let arg0 : BitVec 32 := BitVec.ofNat 32 (i 0).val
  let c0_i32 : BitVec 32 := 0#32
  ![arg0.toNat]

def cc5_transform_1 (i : grid5.Coords) : Fin 1 → Nat :=
  let arg0 : BitVec 32 := BitVec.ofNat 32 (i 0).val
  let c0_i32 : BitVec 32 := 0#32
  ![arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S512 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S512x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S512x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S10240x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  slices_S320000x2_S320000x1_0_0 : S320000x2.Slices ![0, 0] S320000x1
  shapeCasts_S320000x1_S320000 : S320000x1.ShapeCasts S320000
  slices_S320000x2_S320000x1_0_1 : S320000x2.Slices ![0, 1] S320000x1
  inb_S10000x128_S10000x128_0_0 : ∀ a, (![0, 0] : Fin 2 → Nat) a + S10000x128.size a ≤ S10000x128.size a
  gathers_S10000x128_S80x128 : S10000x128.Gathers 0 S80x128
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  shapeCasts_S384_S1x384 : S384.ShapeCasts S1x384
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1280x128 : S1x128.Broadcasts S1280x128
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1280x384 : S1x384.Broadcasts S1280x384
  slices_S1280x384_o0_0_S1280x128 : S1280x384.Slices ![0, 0] S1280x128
  slices_S1280x384_o0_128_S1280x128 : S1280x384.Slices ![0, 128] S1280x128
  slices_S1280x384_o0_256_S1280x128 : S1280x384.Slices ![0, 256] S1280x128
  inb_S10240x128_S10240x128_0_0 : ∀ a, (![0, 0] : Fin 2 → Nat) a + S10240x128.size a ≤ S10240x128.size a
  h_S10240x128 : 0 < S10240x128.numel
  shapeCasts_S10240x128_S10240x128 : S10240x128.ShapeCasts S10240x128
  iota_S10240x1_d0_w32 : S10240x1.Iotas .tc 32 [0]
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S10240x1_S10240x512 : S10240x1.Broadcasts S10240x512
  broadcasts_S1x512_S10240x512 : S1x512.Broadcasts S10240x512
  natLt_1_32 : 1 < 32
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S10240x512_S10240 : S10240x512.Reduces [1] S10240
  shapeCasts_S10240_S10240x1 : S10240.ShapeCasts S10240x1
  shapeCasts_S10240x1_S10240x1 : S10240x1.ShapeCasts S10240x1
  broadcasts_S10240x1_S10240x128 : S10240x1.Broadcasts S10240x128
  inb_S10240x128_S10240x1_0_0 : ∀ a, (![0, 0] : Fin 2 → Nat) a + S10240x1.size a ≤ S10240x128.size a
  h_S10240x1 : 0 < S10240x1.numel
  broadcasts_S1x128_S10240x128 : S1x128.Broadcasts S10240x128
  gathers_S10240x128_S80x128 : S10240x128.Gathers 0 S80x128
  slices_S10240x128_S10000x128_0_0 : S10240x128.Slices ![0, 0] S10000x128
  dot_S1280x128_S128x128_S1280x128_1_0_0_1_n_n_wf : DotDims.WF S1280x128 S128x128 S1280x128 [1] [0] [0] [1] [] []
  dot_S1280x128_S128x384_S1280x384_1_0_0_1_n_n_wf : DotDims.WF S1280x128 S128x384 S1280x384 [1] [0] [0] [1] [] []
  dot_S10240x512_S512x128_S10240x128_1_0_0_1_n_n_wf : DotDims.WF S10240x512 S512x128 S10240x128 [1] [0] [0] [1] [] []
  dot_S10240x128_S128x128_S10240x128_1_0_0_1_n_n_wf : DotDims.WF S10240x128 S128x128 S10240x128 [1] [0] [0] [1] [] []
  hcc0_scratch2 : 0 + S_.numel ≤ 72
  hcc0_scoped0 : 1 + S_.numel ≤ 72
  hcc0_scoped1 : 2 + S_.numel ≤ 72
  hcc0_scoped2 : 3 + S_.numel ≤ 72
  hcc0_scoped3 : 4 + S_.numel ≤ 72
  hcc3_scratch2 : 36 + S_.numel ≤ 72
  hcc3_scoped0 : 37 + S_.numel ≤ 72
  hcc3_scoped1 : 38 + S_.numel ≤ 72
  hcc3_scoped2 : 39 + S_.numel ≤ 72
  hcc3_scoped3 : 40 + S_.numel ≤ 72
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S80.size a ≤ S320000.size a
  k0_off2_inb : ∀ (i : grid0.Coords) (k0_t1 : Fin k0_t1_loop.trips), ∀ a, (k0_off2 i k0_t1) a + S80x128.size a ≤ S320000x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x128.size a ≤ S320000x128.size a
  hwx1_0 : ∀ i : grid1.Coords, EltTy.bits .f32 = 32 ∨ (Rect.block (s := S320000x128) S1280x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x128.size a ≤ S320000x128.size a
  hwx1_1 : ∀ i : grid1.Coords, EltTy.bits .f32 = 32 ∨ (Rect.block (s := S320000x128) S1280x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1280x128.size a ≤ S320000x128.size a
  hwx1_2 : ∀ i : grid1.Coords, EltTy.bits .f32 = 32 ∨ (Rect.block (s := S320000x128) S1280x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x384.size a ≤ S128x384.size a
  hwx1_7 : ∀ i : grid1.Coords, EltTy.bits .f32 = 32 ∨ (Rect.block (s := S128x384) S128x384.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x384.size a ≤ S1x384.size a
  hwx1_8 : ∀ i : grid1.Coords, EltTy.bits .f32 = 32 ∨ (Rect.block (s := S1x384) S1x384.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1280x128.size a ≤ S320000x128.size a
  hwx1_9 : ∀ i : grid1.Coords, EltTy.bits .f32 = 32 ∨ (Rect.block (s := S320000x128) S1280x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1280x128.size a ≤ S320000x128.size a
  hwx1_10 : ∀ i : grid1.Coords, EltTy.bits .f32 = 32 ∨ (Rect.block (s := S320000x128) S1280x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1280x128.size a ≤ S320000x128.size a
  hwx1_11 : ∀ i : grid1.Coords, EltTy.bits .f32 = 32 ∨ (Rect.block (s := S320000x128) S1280x128.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512.size a ≤ S320000.size a
  hwx2_0 : ∀ i : grid2.Coords, EltTy.bits .i32 = 32 ∨ (Rect.block (s := S320000) S512.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512.size a ≤ S320000.size a
  hwx2_1 : ∀ i : grid2.Coords, EltTy.bits .i32 = 32 ∨ (Rect.block (s := S320000) S512.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x128.size a ≤ S320000x128.size a
  hwx2_2 : ∀ i : grid2.Coords, EltTy.bits .f32 = 32 ∨ (Rect.block (s := S320000x128) S512x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S320000x128.size a
  hwx2_3 : ∀ i : grid2.Coords, EltTy.bits .f32 = 32 ∨ (Rect.block (s := S320000x128) S512x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S10240x128.size a ≤ S10240x128.size a
  hwx2_8 : ∀ i : grid2.Coords, EltTy.bits .f32 = 32 ∨ (Rect.block (s := S10240x128) S10240x128.size (cc2_transform_8 i) (hinb2_8 i)).WholeWords (EltTy.packing .f32)
  hcore3 : grid3.bound 0 ≤ τ.nSC
  hsub3 : grid3.bound 1 ≤ τ.nSub
  k3_t1_ok : k3_t1_loop.OK
  k3_off1_inb : ∀ (i : grid3.Coords) (k3_t1 : Fin k3_t1_loop.trips), ∀ a, (k3_off1 i k3_t1) a + S80.size a ≤ S320000.size a
  k3_off2_inb : ∀ (i : grid3.Coords) (k3_t1 : Fin k3_t1_loop.trips), ∀ a, (k3_off2 i k3_t1) a + S80x128.size a ≤ S320000x128.size a
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1280x128.size a ≤ S320000x128.size a
  hwx4_0 : ∀ i : grid4.Coords, EltTy.bits .f32 = 32 ∨ (Rect.block (s := S320000x128) S1280x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1280x128.size a ≤ S320000x128.size a
  hwx4_1 : ∀ i : grid4.Coords, EltTy.bits .f32 = 32 ∨ (Rect.block (s := S320000x128) S1280x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1280x128.size a ≤ S320000x128.size a
  hwx4_2 : ∀ i : grid4.Coords, EltTy.bits .f32 = 32 ∨ (Rect.block (s := S320000x128) S1280x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x384.size a ≤ S128x384.size a
  hwx4_7 : ∀ i : grid4.Coords, EltTy.bits .f32 = 32 ∨ (Rect.block (s := S128x384) S128x384.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x384.size a ≤ S1x384.size a
  hwx4_8 : ∀ i : grid4.Coords, EltTy.bits .f32 = 32 ∨ (Rect.block (s := S1x384) S1x384.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S1280x128.size a ≤ S320000x128.size a
  hwx4_9 : ∀ i : grid4.Coords, EltTy.bits .f32 = 32 ∨ (Rect.block (s := S320000x128) S1280x128.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S1280x128.size a ≤ S320000x128.size a
  hwx4_10 : ∀ i : grid4.Coords, EltTy.bits .f32 = 32 ∨ (Rect.block (s := S320000x128) S1280x128.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S1280x128.size a ≤ S320000x128.size a
  hwx4_11 : ∀ i : grid4.Coords, EltTy.bits .f32 = 32 ∨ (Rect.block (s := S320000x128) S1280x128.size (cc4_transform_11 i) (hinb4_11 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512.size a ≤ S320000.size a
  hwx5_0 : ∀ i : grid5.Coords, EltTy.bits .i32 = 32 ∨ (Rect.block (s := S320000) S512.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512.size a ≤ S320000.size a
  hwx5_1 : ∀ i : grid5.Coords, EltTy.bits .i32 = 32 ∨ (Rect.block (s := S320000) S512.size (cc5_transform_1 i) (hinb5_1 i)).WholeWords (EltTy.packing .i32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x128.size a ≤ S320000x128.size a
  hwx5_2 : ∀ i : grid5.Coords, EltTy.bits .f32 = 32 ∨ (Rect.block (s := S320000x128) S512x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x128.size a ≤ S320000x128.size a
  hwx5_3 : ∀ i : grid5.Coords, EltTy.bits .f32 = 32 ∨ (Rect.block (s := S320000x128) S512x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x128.size a ≤ S128x128.size a
  hwx5_6 : ∀ i : grid5.Coords, EltTy.bits .f32 = 32 ∨ (Rect.block (s := S128x128) S128x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S10240x128.size a ≤ S10240x128.size a
  hwx5_8 : ∀ i : grid5.Coords, EltTy.bits .f32 = 32 ∨ (Rect.block (s := S10240x128) S10240x128.size (cc5_transform_8 i) (hinb5_8 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
abbrev cc0_scoped3 : DmaSems sig S_ := SemArray.consecutive 4 S_ hcc0_scoped3
abbrev cc3_scratch2 : DmaSems sig S_ := SemArray.consecutive 36 S_ hcc3_scratch2
abbrev cc3_scoped0 : DmaSems sig S_ := SemArray.consecutive 37 S_ hcc3_scoped0
abbrev cc3_scoped1 : DmaSems sig S_ := SemArray.consecutive 38 S_ hcc3_scoped1
abbrev cc3_scoped2 : DmaSems sig S_ := SemArray.consecutive 39 S_ hcc3_scoped2
abbrev cc3_scoped3 : DmaSems sig S_ := SemArray.consecutive 40 S_ hcc3_scoped3
def dot_S1280x128_S128x128_S1280x128_1_0_0_1_n_n : DotDims S1280x128 S128x128 S1280x128 where
  lhsContracting := [1]
  rhsContracting := [0]
  lhsNonContracting := [0]
  rhsNonContracting := [1]
  lhsBatch := []
  rhsBatch := []
  wf := dot_S1280x128_S128x128_S1280x128_1_0_0_1_n_n_wf
def dot_S1280x128_S128x384_S1280x384_1_0_0_1_n_n : DotDims S1280x128 S128x384 S1280x384 where
  lhsContracting := [1]
  rhsContracting := [0]
  lhsNonContracting := [0]
  rhsNonContracting := [1]
  lhsBatch := []
  rhsBatch := []
  wf := dot_S1280x128_S128x384_S1280x384_1_0_0_1_n_n_wf
def dot_S10240x512_S512x128_S10240x128_1_0_0_1_n_n : DotDims S10240x512 S512x128 S10240x128 where
  lhsContracting := [1]
  rhsContracting := [0]
  lhsNonContracting := [0]
  rhsNonContracting := [1]
  lhsBatch := []
  rhsBatch := []
  wf := dot_S10240x512_S512x128_S10240x128_1_0_0_1_n_n_wf
def dot_S10240x128_S128x128_S10240x128_1_0_0_1_n_n : DotDims S10240x128 S128x128 S10240x128 where
  lhsContracting := [1]
  rhsContracting := [0]
  lhsNonContracting := [0]
  rhsNonContracting := [1]
  lhsBatch := []
  rhsBatch := []
  wf := dot_S10240x128_S128x128_S10240x128_1_0_0_1_n_n_wf

abbrev win1_0 : Pipeline.Window sig grid1 :=
  Pipeline.Window.ofSpec (Memref.whole main_v4_0) S1280x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1280x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_1) S1280x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg5) S128x384.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v9) S1x384.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v10_0) S1280x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v10_1) S1280x128.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v10_2) S1280x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v1) S512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10_0) S512x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v10_2) S512x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v12) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v13) S10240x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) | ⟨_ + 9, h⟩ => absurd h (Nat.not_lt.2 (Nat.le_add_left _ _))

abbrev win4_0 : Pipeline.Window sig grid4 :=
  Pipeline.Window.ofSpec (Memref.whole main_v14_0) S1280x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10_1) S1280x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v14_1) S1280x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v15) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v16) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v17) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v18) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg13) S128x384.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v19) S1x384.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v20_0) S1280x128.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v20_1) S1280x128.size cc4_transform_10 reads4_10 true false 2 stage4_10 sem4_10
    hrank4 hreads4_10 hinb4_10 nbuf4_10 (Memref.isWhole_whole _) hwx4_10 hstage4_10

abbrev win4_11 : Pipeline.Window sig grid4 :=
  Pipeline.Window.ofSpec (Memref.whole main_v20_2) S1280x128.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

abbrev win5_0 : Pipeline.Window sig grid5 :=
  Pipeline.Window.ofSpec (Memref.whole main_v1) S512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v3) S512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v20_0) S512x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v20_2) S512x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_arg15) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v21) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg17) S128x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v22) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v23) S10240x128.size cc5_transform_8 reads5_8 true true 1 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev idle5 : Fin 9 → grid5.Coords → Bool := fun | 0 => fun _ => false | 1 => fun _ => false | 2 => fun _ => false | 3 => fun _ => false | 4 => fun _ => false | 5 => fun _ => false | 6 => fun _ => false | 7 => fun _ => false | 8 => fun i => !(k5_cond2 i == 1#1) | ⟨_ + 9, h⟩ => absurd h (Nat.not_lt.2 (Nat.le_add_left _ _))

class Facts : Prop extends Facts₀ where

variable [Facts]
-- ==== ReferenceIdeal.lean ====
abbrev S10000x128 : Shape := ⟨2, ![10000, 128]⟩
abbrev S320000x128 : Shape := ⟨2, ![320000, 128]⟩
abbrev S320000x2 : Shape := ⟨2, ![320000, 2]⟩
abbrev S384x128 : Shape := ⟨2, ![384, 128]⟩
abbrev S128 : Shape := ⟨1, ![128]⟩
abbrev S128x384 : Shape := ⟨2, ![128, 384]⟩
abbrev S384 : Shape := ⟨1, ![384]⟩
abbrev S128x128 : Shape := ⟨2, ![128, 128]⟩
abbrev S320000x1 : Shape := ⟨2, ![320000, 1]⟩
abbrev S320000 : Shape := ⟨1, ![320000]⟩
abbrev S_ : Shape := ⟨0, ![]⟩
abbrev S320000x384 : Shape := ⟨2, ![320000, 384]⟩
abbrev S1x128 : Shape := ⟨2, ![1, 128]⟩
abbrev S1x384 : Shape := ⟨2, ![1, 384]⟩
abbrev S10000 : Shape := ⟨1, ![10000]⟩
abbrev S10000x1 : Shape := ⟨2, ![10000, 1]⟩

abbrev nBuf : Space → Nat
  | .hbm => 221
  | .vmem => 0
  | .smem => 0
  | _ => 0

abbrev hbmTy0_0 (i : Nat) : BufTy := match i % 128 with
  | 0 => ⟨S10000x128, .f32⟩
  | 1 => ⟨S320000x128, .f32⟩
  | 2 => ⟨S320000x2, .i32⟩
  | 3 => ⟨S384x128, .f32⟩
  | 4 => ⟨S128, .f32⟩
  | 5 => ⟨S128x384, .f32⟩
  | 6 => ⟨S384, .f32⟩
  | 7 => ⟨S128x128, .f32⟩
  | 8 => ⟨S128, .f32⟩
  | 9 => ⟨S128x128, .f32⟩
  | 10 => ⟨S128, .f32⟩
  | 11 => ⟨S384x128, .f32⟩
  | 12 => ⟨S128, .f32⟩
  | 13 => ⟨S128x384, .f32⟩
  | 14 => ⟨S384, .f32⟩
  | 15 => ⟨S128x128, .f32⟩
  | 16 => ⟨S128, .f32⟩
  | 17 => ⟨S128x128, .f32⟩
  | 18 => ⟨S128, .f32⟩
  | 19 => ⟨S320000x1, .i32⟩
  | 20 => ⟨S320000, .i32⟩
  | 21 => ⟨S320000x1, .i32⟩
  | 22 => ⟨S320000, .i32⟩
  | 23 => ⟨S_, .i32⟩
  | 24 => ⟨S320000, .i32⟩
  | 25 => ⟨S320000, .i1⟩
  | 26 => ⟨S_, .i32⟩
  | 27 => ⟨S320000, .i32⟩
  | 28 => ⟨S320000, .i32⟩
  | 29 => ⟨S320000, .i32⟩
  | 30 => ⟨S320000x1, .i32⟩
  | 31 => ⟨S320000x128, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000x128, .f32⟩
  | 41 => ⟨S320000x384, .f32⟩
  | 42 => ⟨S320000x128, .f32⟩
  | 43 => ⟨S1x128, .f32⟩
  | 44 => ⟨S320000x128, .f32⟩
  | 45 => ⟨S320000x128, .f32⟩
  | 46 => ⟨S_, .f32⟩
  | 47 => ⟨S320000x128, .f32⟩
  | 48 => ⟨S320000x128, .f32⟩
  | 49 => ⟨S320000x384, .f32⟩
  | 50 => ⟨S1x384, .f32⟩
  | 51 => ⟨S320000x384, .f32⟩
  | 52 => ⟨S320000x384, .f32⟩
  | 53 => ⟨S_, .f32⟩
  | 54 => ⟨S320000x384, .f32⟩
  | 55 => ⟨S320000x384, .f32⟩
  | 56 => ⟨S320000x128, .f32⟩
  | 57 => ⟨S320000x128, .f32⟩
  | 58 => ⟨S320000x128, .f32⟩
  | 59 => ⟨S_, .f32⟩
  | 60 => ⟨S10000x128, .f32⟩
  | 61 => ⟨S_, .i32⟩
  | 62 => ⟨S320000, .i32⟩
  | 63 => ⟨S320000, .i1⟩
  | 64 => ⟨S_, .i32⟩
  | 65 => ⟨S320000, .i32⟩
  | 66 => ⟨S320000, .i32⟩
  | 67 => ⟨S320000, .i32⟩
  | 68 => ⟨S320000x1, .i32⟩
  | 69 => ⟨S10000x128, .f32⟩
  | 70 => ⟨S_, .i32⟩
  | 71 => ⟨S320000, .i32⟩
  | 72 => ⟨S320000, .i1⟩
  | 73 => ⟨S_, .i32⟩
  | 74 => ⟨S320000, .i32⟩
  | 75 => ⟨S320000, .i32⟩
  | 76 => ⟨S320000, .i32⟩
  | 77 => ⟨S320000x1, .i32⟩
  | 78 => ⟨S10000x128, .f32⟩
  | 79 => ⟨S_, .f32⟩
  | 80 => ⟨S320000, .f32⟩
  | 81 => ⟨S_, .f32⟩
  | 82 => ⟨S10000, .f32⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S10000, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S10000, .f32⟩
  | 101 => ⟨S_, .f32⟩
  | 102 => ⟨S_, .f32⟩
  | 103 => ⟨S10000, .f32⟩
  | 104 => ⟨S10000, .f32⟩
  | 105 => ⟨S10000x1, .f32⟩
  | 106 => ⟨S10000x128, .f32⟩
  | 107 => ⟨S10000x128, .f32⟩
  | 108 => ⟨S10000x128, .f32⟩
  | 109 => ⟨S1x128, .f32⟩
  | 110 => ⟨S10000x128, .f32⟩
  | 111 => ⟨S10000x128, .f32⟩
  | 112 => ⟨S_, .f32⟩
  | 113 => ⟨S10000x128, .f32⟩
  | 114 => ⟨S10000x128, .f32⟩
  | 115 => ⟨S10000x128, .f32⟩
  | 116 => ⟨S1x128, .f32⟩
  | 117 => ⟨S10000x128, .f32⟩
  | 118 => ⟨S10000x128, .f32⟩
  | 119 => ⟨S_, .f32⟩
  | 120 => ⟨S10000x128, .f32⟩
  | 121 => ⟨S10000x128, .f32⟩
  | 122 => ⟨S_, .i32⟩
  | 123 => ⟨S320000, .i32⟩
  | 124 => ⟨S320000, .i1⟩
  | 125 => ⟨S_, .i32⟩
  | 126 => ⟨S320000, .i32⟩
  | 127 => ⟨S320000, .i32⟩
  | _ => ⟨S10000x128, .f32⟩

abbrev hbmTy0_1 (i : Nat) : BufTy := match i % 128 with
  | 0 => ⟨S320000, .i32⟩
  | 1 => ⟨S320000x1, .i32⟩
  | 2 => ⟨S320000x128, .f32⟩
  | 3 => ⟨S_, .i32⟩
  | 4 => ⟨S320000, .i32⟩
  | 5 => ⟨S320000, .i1⟩
  | 6 => ⟨S_, .i32⟩
  | 7 => ⟨S320000, .i32⟩
  | 8 => ⟨S320000, .i32⟩
  | 9 => ⟨S320000, .i32⟩
  | 10 => ⟨S320000x1, .i32⟩
  | 11 => ⟨S320000x128, .f32⟩
  | 12 => ⟨S320000x384, .f32⟩
  | 13 => ⟨S320000x128, .f32⟩
  | 14 => ⟨S1x128, .f32⟩
  | 15 => ⟨S320000x128, .f32⟩
  | 16 => ⟨S320000x128, .f32⟩
  | 17 => ⟨S_, .f32⟩
  | 18 => ⟨S320000x128, .f32⟩
  | 19 => ⟨S320000x128, .f32⟩
  | 20 => ⟨S320000x384, .f32⟩
  | 21 => ⟨S1x384, .f32⟩
  | 22 => ⟨S320000x384, .f32⟩
  | 23 => ⟨S320000x384, .f32⟩
  | 24 => ⟨S_, .f32⟩
  | 25 => ⟨S320000x384, .f32⟩
  | 26 => ⟨S320000x384, .f32⟩
  | 27 => ⟨S320000x128, .f32⟩
  | 28 => ⟨S320000x128, .f32⟩
  | 29 => ⟨S320000x128, .f32⟩
  | 30 => ⟨S_, .f32⟩
  | 31 => ⟨S10000x128, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S10000x128, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S10000x128, .f32⟩
  | 50 => ⟨S_, .f32⟩
  | 51 => ⟨S320000, .f32⟩
  | 52 => ⟨S_, .f32⟩
  | 53 => ⟨S10000, .f32⟩
  | 54 => ⟨S_, .i32⟩
  | 55 => ⟨S320000, .i32⟩
  | 56 => ⟨S320000, .i1⟩
  | 57 => ⟨S_, .i32⟩
  | 58 => ⟨S320000, .i32⟩
  | 59 => ⟨S320000, .i32⟩
  | 60 => ⟨S320000, .i32⟩
  | 61 => ⟨S320000x1, .i32⟩
  | 62 => ⟨S10000, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S10000, .f32⟩
  | 72 => ⟨S_, .f32⟩
  | 73 => ⟨S_, .f32⟩
  | 74 => ⟨S10000, .f32⟩
  | 75 => ⟨S10000, .f32⟩
  | 76 => ⟨S10000x1, .f32⟩
  | 77 => ⟨S10000x128, .f32⟩
  | 78 => ⟨S10000x128, .f32⟩
  | 79 => ⟨S10000x128, .f32⟩
  | 80 => ⟨S1x128, .f32⟩
  | 81 => ⟨S10000x128, .f32⟩
  | 82 => ⟨S10000x128, .f32⟩
  | 83 => ⟨S_, .f32⟩
  | 84 => ⟨S10000x128, .f32⟩
  | 85 => ⟨S10000x128, .f32⟩
  | 86 => ⟨S10000x128, .f32⟩
  | 87 => ⟨S1x128, .f32⟩
  | 88 => ⟨S10000x128, .f32⟩
  | 89 => ⟨S10000x128, .f32⟩
  | 90 => ⟨S_, .f32⟩
  | 91 => ⟨S10000x128, .f32⟩
  | 92 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call0_cst : Ref sig .tc := ⟨.hbm, 46, rfl⟩
abbrev main_call0_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call1_cst : Ref sig .tc := ⟨.hbm, 53, rfl⟩
abbrev main_call1_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst : Ref sig .tc := ⟨.hbm, 59, rfl⟩
abbrev main_v32 : Ref sig .tc := ⟨.hbm, 60, rfl⟩
abbrev main_c_3 : Ref sig .tc := ⟨.hbm, 61, rfl⟩
abbrev main_v33 : Ref sig .tc := ⟨.hbm, 62, rfl⟩
abbrev main_v34 : Ref sig .tc := ⟨.hbm, 63, rfl⟩
abbrev main_c_4 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_c_5 : Ref sig .tc := ⟨.hbm, 70, rfl⟩
abbrev main_v40 : Ref sig .tc := ⟨.hbm, 71, rfl⟩
abbrev main_v41 : Ref sig .tc := ⟨.hbm, 72, rfl⟩
abbrev main_c_6 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_7 : Ref sig .tc := ⟨.hbm, 79, rfl⟩
abbrev main_v47 : Ref sig .tc := ⟨.hbm, 80, rfl⟩
abbrev main_cst_8 : Ref sig .tc := ⟨.hbm, 81, rfl⟩
abbrev main_v48 : Ref sig .tc := ⟨.hbm, 82, rfl⟩
abbrev main_c_9 : Ref sig .tc := ⟨.hbm, 83, rfl⟩
abbrev main_v49 : Ref sig .tc := ⟨.hbm, 84, rfl⟩
abbrev main_v50 : Ref sig .tc := ⟨.hbm, 85, rfl⟩
abbrev main_c_10 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_c_11 : Ref sig .tc := ⟨.hbm, 92, rfl⟩
abbrev main_v56 : Ref sig .tc := ⟨.hbm, 93, rfl⟩
abbrev main_v57 : Ref sig .tc := ⟨.hbm, 94, rfl⟩
abbrev main_c_12 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_13 : Ref sig .tc := ⟨.hbm, 101, rfl⟩
abbrev main_call2_v0 : Ref sig .tc := ⟨.hbm, 102, rfl⟩
abbrev main_call2_v1 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_call3_cst : Ref sig .tc := ⟨.hbm, 112, rfl⟩
abbrev main_call3_v0 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_call4_cst : Ref sig .tc := ⟨.hbm, 119, rfl⟩
abbrev main_call4_v0 : Ref sig .tc := ⟨.hbm, 120, rfl⟩
abbrev main_v76 : Ref sig .tc := ⟨.hbm, 121, rfl⟩
abbrev main_c_14 : Ref sig .tc := ⟨.hbm, 122, rfl⟩
abbrev main_v77 : Ref sig .tc := ⟨.hbm, 123, rfl⟩
abbrev main_v78 : Ref sig .tc := ⟨.hbm, 124, rfl⟩
abbrev main_c_15 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_c_16 : Ref sig .tc := ⟨.hbm, 131, rfl⟩
abbrev main_v84 : Ref sig .tc := ⟨.hbm, 132, rfl⟩
abbrev main_v85 : Ref sig .tc := ⟨.hbm, 133, rfl⟩
abbrev main_c_17 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_call5_cst : Ref sig .tc := ⟨.hbm, 145, rfl⟩
abbrev main_call5_v0 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_call6_cst : Ref sig .tc := ⟨.hbm, 152, rfl⟩
abbrev main_call6_v0 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_cst_18 : Ref sig .tc := ⟨.hbm, 158, rfl⟩
abbrev main_v105 : Ref sig .tc := ⟨.hbm, 159, rfl⟩
abbrev main_c_19 : Ref sig .tc := ⟨.hbm, 160, rfl⟩
abbrev main_v106 : Ref sig .tc := ⟨.hbm, 161, rfl⟩
abbrev main_v107 : Ref sig .tc := ⟨.hbm, 162, rfl⟩
abbrev main_c_20 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_c_21 : Ref sig .tc := ⟨.hbm, 169, rfl⟩
abbrev main_v113 : Ref sig .tc := ⟨.hbm, 170, rfl⟩
abbrev main_v114 : Ref sig .tc := ⟨.hbm, 171, rfl⟩
abbrev main_c_22 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_cst_23 : Ref sig .tc := ⟨.hbm, 178, rfl⟩
abbrev main_v120 : Ref sig .tc := ⟨.hbm, 179, rfl⟩
abbrev main_cst_24 : Ref sig .tc := ⟨.hbm, 180, rfl⟩
abbrev main_v121 : Ref sig .tc := ⟨.hbm, 181, rfl⟩
abbrev main_c_25 : Ref sig .tc := ⟨.hbm, 182, rfl⟩
abbrev main_v122 : Ref sig .tc := ⟨.hbm, 183, rfl⟩
abbrev main_v123 : Ref sig .tc := ⟨.hbm, 184, rfl⟩
abbrev main_c_26 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_c_27 : Ref sig .tc := ⟨.hbm, 191, rfl⟩
abbrev main_v129 : Ref sig .tc := ⟨.hbm, 192, rfl⟩
abbrev main_v130 : Ref sig .tc := ⟨.hbm, 193, rfl⟩
abbrev main_c_28 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_cst_29 : Ref sig .tc := ⟨.hbm, 200, rfl⟩
abbrev main_call7_v0 : Ref sig .tc := ⟨.hbm, 201, rfl⟩
abbrev main_call7_v1 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_call8_cst : Ref sig .tc := ⟨.hbm, 211, rfl⟩
abbrev main_call8_v0 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_call9_cst : Ref sig .tc := ⟨.hbm, 218, rfl⟩
abbrev main_call9_v0 : Ref sig .tc := ⟨.hbm, 219, rfl⟩
abbrev main_v149 : Ref sig .tc := ⟨.hbm, 220, rfl⟩

abbrev nD : Nat := 1
abbrev τ : Topo := Topo.v7x

variable {F : FTy → Type} [FloatOps F]

class Facts₀ : Prop where
  slices_S320000x2_S320000x1_0_0 : S320000x2.Slices ![0, 0] S320000x1
  shapeCasts_S320000x1_S320000 : S320000x1.ShapeCasts S320000
  slices_S320000x2_S320000x1_0_1 : S320000x2.Slices ![0, 1] S320000x1
  bcast_S_S320000 : S_.BroadcastsInDim S320000 (![] : Fin 0 → Fin S320000.rank)
  bcast_S320000_S320000x1_0 : S320000.BroadcastsInDim S320000x1 (![0] : Fin 1 → Fin S320000x1.rank)
  concatenates_S320000x128_S320000x128_S320000x128_S320000x384_d1 : Shape.Concatenates [S320000x128, S320000x128, S320000x128] S320000x384 1
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S384_S1x384_1 : S384.BroadcastsInDim S1x384 (![1] : Fin 1 → Fin S1x384.rank)
  bcast_S1x384_S320000x384_0_1 : S1x384.BroadcastsInDim S320000x384 (![0, 1] : Fin 2 → Fin S320000x384.rank)
  bcast_S_S320000x384 : S_.BroadcastsInDim S320000x384 (![] : Fin 0 → Fin S320000x384.rank)
  slices_S320000x384_S320000x128_0_0 : S320000x384.Slices ![0, 0] S320000x128
  slices_S320000x384_S320000x128_0_128 : S320000x384.Slices ![0, 128] S320000x128
  slices_S320000x384_S320000x128_0_256 : S320000x384.Slices ![0, 256] S320000x128
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S1x128_S10000x128_0_1 : S1x128.BroadcastsInDim S10000x128 (![0, 1] : Fin 2 → Fin S10000x128.rank)
  gather_S10000x128_S320000x1_S320000x128_1_0_n_n_0_1_1128_wf : GatherDims.WF S10000x128 S320000x1 S320000x128 [1] [0] [] [0] [] 1 ![1, 128]
  dot_S320000x384_S384x128_S320000x128_1_0_0_1_n_n_wf : DotDims.WF S320000x384 S384x128 S320000x128 [1] [0] [0] [1] [] []
  dot_S320000x128_S128x384_S320000x384_1_0_0_1_n_n_wf : DotDims.WF S320000x128 S128x384 S320000x384 [1] [0] [0] [1] [] []
  scatter_S10000x128_S320000x1_S320000x128_1_0_0_1_wf : ScatterDims.WF S10000x128 S320000x1 S320000x128 [1] [0] [0] 1
  scatter_S10000_S320000x1_S320000_n_0_0_1_wf : ScatterDims.WF S10000 S320000x1 S320000 [] [0] [0] 1
  dot_S10000x128_S128x128_S10000x128_1_0_0_1_n_n_wf : DotDims.WF S10000x128 S128x128 S10000x128 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x384_S384x128_S320000x128_1_0_0_1_n_n : DotDims S320000x384 S384x128 S320000x128 where
  lhsContracting := [1]
  rhsContracting := [0]
  lhsNonContracting := [0]
  rhsNonContracting := [1]
  lhsBatch := []
  rhsBatch := []
  wf := dot_S320000x384_S384x128_S320000x128_1_0_0_1_n_n_wf
def dot_S320000x128_S128x384_S320000x384_1_0_0_1_n_n : DotDims S320000x128 S128x384 S320000x384 where
  lhsContracting := [1]
  rhsContracting := [0]
  lhsNonContracting := [0]
  rhsNonContracting := [1]
  lhsBatch := []
  rhsBatch := []
  wf := dot_S320000x128_S128x384_S320000x384_1_0_0_1_n_n_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KI.Setup.lean ====
/- Names for the program's two gather calls, four regions, thread family and ghost state, as the launch theorem takes them. -/
import proofs.«215230_g44530220925728_cont_8to1c4_163_46_alg».proof.KernelIdeal
import proofs.«215230_g44530220925728_cont_8to1c4_163_46_alg».proof.Proof.Gen.KernelIdeal
import proofs.«215230_g44530220925728_cont_8to1c4_163_46_alg».proof.Proof.Gen.KernelIdeal.Skeleton
import proofs.«215230_g44530220925728_cont_8to1c4_163_46_alg».proof.Proof.Gen.KernelIdeal.Launch
import proofs.«215230_g44530220925728_cont_8to1c4_163_46_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 4) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_eq (q : Fin 2) : (K (F := F)).nCore q = 2 := by
  match q with
  | 0 => rfl
  | 1 => rfl
theorem nSub_eq (q : Fin 2) : (K (F := F)).nSub q = 16 := by
  match q with
  | 0 => rfl
  | 1 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ

abbrev UP : Type := UR sig nD τ

abbrev UU : Type := UH × (UP × Counters)

abbrev EH : Emb UH (MT nD τ sig (HIx 2) (Elt F) ℕ UU ℕ) := embL
def EP : Emb UP (MT nD τ sig (HIx 2) (Elt F) ℕ UU ℕ) := (Emb.inl : Emb UP (UP × Counters)).trans embR

instance EP_landsIn : (EP : Emb UP (MT nD τ sig (HIx 2) (Elt F) ℕ UU ℕ)).LandsIn (upEmb : UEmb _ (MT nD τ sig (HIx 2) (Elt F) ℕ UU ℕ)) := by
  unfold EP embR; infer_instance

abbrev adm : (p : Fin 4) → (pcfgs (F := F) p).Adm := fun p => (cfgs p).toPCfg_adm

end Cert.Proof.KI

end
-- ==== Proof.KI.Host.lean ====
/-
  @main's host lines — the slices of the edge list and of the first weight matrices, the biases recast as one-row
  matrices, the last slice that drops the padding rows — grouped into the six stretches between the SparseCore calls
  and the TensorCore regions, and @main as those stretches, calls and regions in order.
-/
import proofs.«215230_g44530220925728_cont_8to1c4_163_46_alg».proof.Proof.KI.Setup

noncomputable section

namespace Cert.Proof.KI

open Cert.KernelIdeal Cert.KernelIdeal.Gen

open Idealize.ShloMosaic
open Idealize.ShloMosaic.SparseCore.Cfg (HIx)
open Idealize.SL Idealize.SL.Sem

variable {F : FTy → Type} [FloatOps F]

/-- Stretch 1 of @main's host lines. -/
abbrev opsA : List (HloOp τ sig (Elt F)) :=
  [ (StableHlo.unary main_arg2 main_v0 ((extractStridedSlice S320000x1 ![0, 0] · slices_S320000x2_S320000x1_0_0) : (⟨S320000x2, .i32⟩ : BufTy).Contents (Elt F) → (⟨S320000x1, .i32⟩ : BufTy).Contents (Elt F))),
    (StableHlo.reshape main_v0 main_v1 rfl shapeCasts_S320000x1_S320000),
    (StableHlo.unary main_arg2 main_v2 ((extractStridedSlice S320000x1 ![0, 1] · slices_S320000x2_S320000x1_0_1) : (⟨S320000x2, .i32⟩ : BufTy).Contents (Elt F) → (⟨S320000x1, .i32⟩ : BufTy).Contents (Elt F))),
    (StableHlo.reshape main_v2 main_v3 rfl shapeCasts_S320000x1_S320000) ]
theorem opsA_sub : (opsA : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub ..⟩
theorem opsA_fresh : (opsA : List (HloOp τ sig (Elt F))).Forall fun op => op.fresh = ∅ := by
  simp only [List.Forall]; repeat' constructor

/-- Stretch 2 of @main's host lines. -/
abbrev opsB : List (HloOp τ sig (Elt F)) :=
  [ (StableHlo.unary main_arg3 main_v5 ((extractStridedSlice S128x128 ![0, 0] · slices_S384x128_S128x128_0_0) : (⟨S384x128, .f32⟩ : BufTy).Contents (Elt F) → (⟨S128x128, .f32⟩ : BufTy).Contents (Elt F))),
    (StableHlo.unary main_arg3 main_v6 ((extractStridedSlice S128x128 ![128, 0] · slices_S384x128_S128x128_128_0) : (⟨S384x128, .f32⟩ : BufTy).Contents (Elt F) → (⟨S128x128, .f32⟩ : BufTy).Contents (Elt F))),
    (StableHlo.unary main_arg3 main_v7 ((extractStridedSlice S128x128 ![256, 0] · slices_S384x128_S128x128_256_0) : (⟨S384x128, .f32⟩ : BufTy).Contents (Elt F) → (⟨S128x128, .f32⟩ : BufTy).Contents (Elt F))),
    (StableHlo.reshape main_arg4 main_v8 rfl shapeCasts_S128_S1x128),
    (StableHlo.reshape main_arg6 main_v9 rfl shapeCasts_S384_S1x384) ]
theorem opsB_sub : (opsB : List (HloOp τ sig (Elt F))).Forall fun op => op.bufs ⊆ StableHlo.tcRefs τ sig :=
  ⟨StableHlo.unary_bufs_sub .., StableHlo.unary_bufs_sub .., StableHlo.unary_bufs_sub .., StableHlo.reshape_bufs_sub .., StableHlo.reshape_bufs_sub ..⟩
theorem opsB_fresh : (opsB : List (HloOp τ sig (Elt F))).Forall fun op => op.fresh = ∅ := by
  simp only [List.Forall]; repeat' constructor

/-- Stretch 3 of @main's host lines. -/
abbrev opsC : List (HloOp τ sig (Elt F)) :=
  [ (StableHlo.reshape main_arg8 main_v11 rfl shapeCasts_S128_S1x128),
    (StableHlo.reshape main_arg10 main_v12 rfl shapeCasts_S128_S1x128) ]
theorem opsC_sub : (opsC : List (HloOp τ sig (Elt F))).Forall fun op => op.bufs ⊆ StableHlo.tcRefs τ sig :=
  ⟨StableHlo.reshape_bufs_sub .., StableHlo.reshape_bufs_sub ..⟩
theorem opsC_fresh : (opsC : List (HloOp τ sig (Elt F))).Forall fun op => op.fresh = ∅ := by
  simp only [List.Forall]; repeat' constructor

/-- Stretch 4 of @main's host lines. -/
abbrev opsD : List (HloOp τ sig (Elt F)) :=
  [ (StableHlo.unary main_arg11 main_v15 ((extractStridedSlice S128x128 ![0, 0] · slices_S384x128_S128x128_0_0) : (⟨S384x128, .f32⟩ : BufTy).Contents (Elt F) → (⟨S128x128, .f32⟩ : BufTy).Contents (Elt F))),
    (StableHlo.unary main_arg11 main_v16 ((extractStridedSlice S128x128 ![128, 0] · slices_S384x128_S128x128_128_0) : (⟨S384x128, .f32⟩ : BufTy).Contents (Elt F) → (⟨S128x128, .f32⟩ : BufTy).Contents (Elt F))),
    (StableHlo.unary main_arg11 main_v17 ((extractStridedSlice S128x128 ![256, 0] · slices_S384x128_S128x128_256_0) : (⟨S384x128, .f32⟩ : BufTy).Contents (Elt F) → (⟨S128x128, .f32⟩ : BufTy).Contents (Elt F))),
    (StableHlo.reshape main_arg12 main_v18 rfl shapeCasts_S128_S1x128),
    (StableHlo.reshape main_arg14 main_v19 rfl shapeCasts_S384_S1x384) ]
theorem opsD_sub : (opsD : List (HloOp τ sig (Elt F))).Forall fun op => op.bufs ⊆ StableHlo.tcRefs τ sig :=
  ⟨StableHlo.unary_bufs_sub .., StableHlo.unary_bufs_sub .., StableHlo.unary_bufs_sub .., StableHlo.reshape_bufs_sub .., StableHlo.reshape_bufs_sub ..⟩
theorem opsD_fresh : (opsD : List (HloOp τ sig (Elt F))).Forall fun op => op.fresh = ∅ := by
  simp only [List.Forall]; repeat' constructor

/-- Stretch 5 of @main's host lines. -/
abbrev opsE : List (HloOp τ sig (Elt F)) :=
  [ (StableHlo.reshape main_arg16 main_v21 rfl shapeCasts_S128_S1x128),
    (StableHlo.reshape main_arg18 main_v22 rfl shapeCasts_S128_S1x128) ]
theorem opsE_sub : (opsE : List (HloOp τ sig (Elt F))).Forall fun op => op.bufs ⊆ StableHlo.tcRefs τ sig :=
  ⟨StableHlo.reshape_bufs_sub .., StableHlo.reshape_bufs_sub ..⟩
theorem opsE_fresh : (opsE : List (HloOp τ sig (Elt F))).Forall fun op => op.fresh = ∅ := by
  simp only [List.Forall]; repeat' constructor

/-- Stretch 6 of @main's host lines. -/
abbrev opsF : List (HloOp τ sig (Elt F)) :=
  [ (StableHlo.unary main_v23 main_v24 ((extractStridedSlice S10000x128 ![0, 0] · slices_S10240x128_S10000x128_0_0) : (⟨S10240x128, .f32⟩ : BufTy).Contents (Elt F) → (⟨S10000x128, .f32⟩ : BufTy).Contents (Elt F))) ]
theorem opsF_sub : (opsF : List (HloOp τ sig (Elt F))).Forall fun op => op.bufs ⊆ StableHlo.tcRefs τ sig :=
  StableHlo.unary_bufs_sub ..
theorem opsF_fresh : (opsF : List (HloOp τ sig (Elt F))).Forall fun op => op.fresh = ∅ := by
  simp only [List.Forall]; repeat' constructor

/-- A TensorCore region's call as @main spells it under the SparseCore launch's body table. -/
abbrev regionCall (p : Fin 4) : Prog (TpuEff nD τ sig (Elt F) (SparseCore.Sig (ΛP (F := F)) 2) .tc) PUnit :=
  Prog.lift (.customCall (SparseCore.inner (Pipeline.entry p)) ())

/-- @main: the six stretches with the two gather calls and the four regions between them. -/
theorem main_eq (d : Dev nD) : main (F := F) d =
    (StableHlo.seq opsA >>= fun _ => (K (F := F)).run d 0 >>= fun _ => StableHlo.seq opsB >>= fun _ => regionCall 0 >>= fun _ =>
      StableHlo.seq opsC >>= fun _ => regionCall 1 >>= fun _ => (K (F := F)).run d 1 >>= fun _ => StableHlo.seq opsD >>= fun _ =>
      regionCall 2 >>= fun _ => StableHlo.seq opsE >>= fun _ => regionCall 3 >>= fun _ => StableHlo.seq opsF) := by
  rfl

end Cert.Proof.KI

end
-- ==== Proof.KI.Pay.lean ====
/- What the two gather calls' handshakes carry: the source table and index arrays lent, the two result arrays returned at the gathered rows. -/
import proofs.«215230_g44530220925728_cont_8to1c4_163_46_alg».proof.Proof.KI.Setup
import Idealize.ShloMosaic.Lib.SparseCore.Stream
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

abbrev obj0Loc (d : Dev nD) : Loc nD τ sig := (SparseCore.T d).loc main_arg0
abbrev obj1Loc (d : Dev nD) : Loc nD τ sig := (SparseCore.T d).loc main_v13
abbrev siLoc (d : Dev nD) : Loc nD τ sig := (SparseCore.T d).loc main_v1
abbrev oiLoc (d : Dev nD) : Loc nD τ sig := (SparseCore.T d).loc main_v3
abbrev r00Loc (d : Dev nD) : Loc nD τ sig := (SparseCore.T d).loc main_v4_0
abbrev r01Loc (d : Dev nD) : Loc nD τ sig := (SparseCore.T d).loc main_v4_1
abbrev r10Loc (d : Dev nD) : Loc nD τ sig := (SparseCore.T d).loc main_v14_0
abbrev r11Loc (d : Dev nD) : Loc nD τ sig := (SparseCore.T d).loc main_v14_1

structure GIn (F : FTy → Type) where
  obj0 : (d : Dev nD) → Buf (Elt F) (obj0Loc d)
  obj1 : (d : Dev nD) → Buf (Elt F) (obj1Loc d)
  si : (d : Dev nD) → Buf (Elt F) (siLoc d)
  oi : (d : Dev nD) → Buf (Elt F) (oiLoc d)

def GIn.InRange (X : GIn F) : Prop :=
  ∀ (d : Dev nD) (e : S320000.Idx), (X.si d e).toNat < 10000 ∧ (X.oi d e).toNat < 10000

def gath0 (d : Dev nD) (obj : Buf (Elt F) (obj0Loc d)) (idx : Buf (Elt F) (siLoc d)) : Buf (Elt F) (r00Loc d) :=
  fun j => obj (ix2 (n0 := 10000) (n1 := 128) ⟨(idx (ix1 (n := 320000) (j 0))).toNat % 10000, Nat.mod_lt _ (by norm_num)⟩ (j 1))

def gath1 (d : Dev nD) (obj : Buf (Elt F) (obj1Loc d)) (idx : Buf (Elt F) (siLoc d)) : Buf (Elt F) (r10Loc d) :=
  fun j => obj (ix2 (n0 := 10240) (n1 := 128) ⟨(idx (ix1 (n := 320000) (j 0))).toNat % 10240, Nat.mod_lt _ (by norm_num)⟩ (j 1))

theorem gath0_apply (d : Dev nD) (obj : Buf (Elt F) (obj0Loc d)) (idx : Buf (Elt F) (siLoc d)) (j : S320000x128.Idx)
    (h : (idx (ix1 (n := 320000) (j 0))).toNat < 10000) :
    gath0 d obj idx j = obj (ix2 (n0 := 10000) (n1 := 128) ⟨(idx (ix1 (n := 320000) (j 0))).toNat, h⟩ (j 1)) := by
  unfold gath0; congr 2; exact Fin.ext (Nat.mod_eq_of_lt h)

theorem gath1_apply (d : Dev nD) (obj : Buf (Elt F) (obj1Loc d)) (idx : Buf (Elt F) (siLoc d)) (j : S320000x128.Idx)
    (h : (idx (ix1 (n := 320000) (j 0))).toNat < 10240) :
    gath1 d obj idx j = obj (ix2 (n0 := 10240) (n1 := 128) ⟨(idx (ix1 (n := 320000) (j 0))).toNat, h⟩ (j 1)) := by
  unfold gath1; congr 2; exact Fin.ext (Nat.mod_eq_of_lt h)

def coreShare (c : ℕ) : PosShare TreeShare := if c = 0 then fullShare.left else fullShare.right

abbrev tileShare (c i : ℕ) : PosShare TreeShare := Transfers.shareTokN (coreShare c) i

def tileSet (c i : ℕ) : Finset S320000x128.Idx :=
  Finset.univ.filter fun j => 20000 * i + 10000 * c ≤ (j 0).val ∧ (j 0).val < 20000 * i + 10000 * c + 10000

theorem mem_tileSet {c i : ℕ} {j : S320000x128.Idx} :
    j ∈ tileSet c i ↔ 20000 * i + 10000 * c ≤ (j 0).val ∧ (j 0).val < 20000 * i + 10000 * c + 10000 := by
  unfold tileSet; simp only [Finset.mem_filter, Finset.mem_univ, true_and]

section Pays

variable (X : GIn F) (d : Dev nD)

def ins0 (q : PosShare TreeShare) : sProp 𝕄 :=
  iprop((obj0Loc d ↦{q} X.obj0 d) ∗ (siLoc d ↦{q} X.si d) ∗ (oiLoc d ↦{q} X.oi d))
def ins1 (q : PosShare TreeShare) : sProp 𝕄 :=
  iprop((obj1Loc d ↦{q} X.obj1 d) ∗ (siLoc d ↦{q} X.si d) ∗ (oiLoc d ↦{q} X.oi d))

def go0 (c i : ℕ) : sProp 𝕄 :=
  iprop(ins0 X d (tileShare c i) ∗ (∃ f, r00Loc d ↦[tileSet c i]{fullShare} f) ∗ (∃ f, r01Loc d ↦[tileSet c i]{fullShare} f))

def td0 (c i : ℕ) : sProp 𝕄 :=
  iprop(ins0 X d (tileShare c i) ∗ (r00Loc d ↦[tileSet c i]{fullShare} gath0 d (X.obj0 d) (X.si d)) ∗ (r01Loc d ↦[tileSet c i]{fullShare} gath0 d (X.obj0 d) (X.oi d)))

def st0 (c : ℕ) : sProp 𝕄 :=
  iprop(ins0 X d (coreShare c) ∗ (bigSep Finset.univ fun i : Fin 16 => iprop(∃ f, r00Loc d ↦[tileSet c i.val]{fullShare} f))
    ∗ (bigSep Finset.univ fun i : Fin 16 => iprop(∃ f, r01Loc d ↦[tileSet c i.val]{fullShare} f)))
def dn0 (c : ℕ) : sProp 𝕄 :=
  iprop(ins0 X d (coreShare c) ∗ (bigSep Finset.univ fun i : Fin 16 => r00Loc d ↦[tileSet c i.val]{fullShare} gath0 d (X.obj0 d) (X.si d))
    ∗ (bigSep Finset.univ fun i : Fin 16 => r01Loc d ↦[tileSet c i.val]{fullShare} gath0 d (X.obj0 d) (X.oi d)))

def go1 (c i : ℕ) : sProp 𝕄 :=
  iprop(ins1 X d (tileShare c i) ∗ (∃ f, r10Loc d ↦[tileSet c i]{fullShare} f) ∗ (∃ f, r11Loc d ↦[tileSet c i]{fullShare} f))
def td1 (c i : ℕ) : sProp 𝕄 :=
  iprop(ins1 X d (tileShare c i) ∗ (r10Loc d ↦[tileSet c i]{fullShare} gath1 d (X.obj1 d) (X.si d)) ∗ (r11Loc d ↦[tileSet c i]{fullShare} gath1 d (X.obj1 d) (X.oi d)))
def st1 (c : ℕ) : sProp 𝕄 :=
  iprop(ins1 X d (coreShare c) ∗ (bigSep Finset.univ fun i : Fin 16 => iprop(∃ f, r10Loc d ↦[tileSet c i.val]{fullShare} f))
    ∗ (bigSep Finset.univ fun i : Fin 16 => iprop(∃ f, r11Loc d ↦[tileSet c i.val]{fullShare} f)))
def dn1 (c : ℕ) : sProp 𝕄 :=
  iprop(ins1 X d (coreShare c) ∗ (bigSep Finset.univ fun i : Fin 16 => r10Loc d ↦[tileSet c i.val]{fullShare} gath1 d (X.obj1 d) (X.si d))
    ∗ (bigSep Finset.univ fun i : Fin 16 => r11Loc d ↦[tileSet c i.val]{fullShare} gath1 d (X.obj1 d) (X.oi d)))

end Pays

def P (X : GIn F) : (K (F := F)).Pay (nD := nD) (Val := Elt F) (Name := ℕ) (U := UU) where
  st := fun q d c => if q.val = 0 then st0 X d c.val else st1 X d c.val
  dn := fun q d c => if q.val = 0 then dn0 X d c.val else dn1 X d c.val
  go := fun q d c i => if q.val = 0 then go0 X d c.val i.val else go1 X d c.val i.val
  td := fun q d c i => if q.val = 0 then td0 X d c.val i.val else td1 X d c.val i.val
  x := fun _ _ => iprop(emp)

instance P_storable (X : GIn F) : (P X).IsStorable where
  st q d c := by unfold P; dsimp only; split <;> (first | unfold st0 ins0 | unfold st1 ins1) <;> infer_instance
  dn q d c := by unfold P; dsimp only; split <;> (first | unfold dn0 ins0 | unfold dn1 ins1) <;> infer_instance
  go q d c i := by unfold P; dsimp only; split <;> (first | unfold go0 ins0 | unfold go1 ins1) <;> infer_instance
  td q d c i := by unfold P; dsimp only; split <;> (first | unfold td0 ins0 | unfold td1 ins1) <;> infer_instance

theorem P_st0 (X : GIn F) (d : Dev nD) (c : Fin ((K (F := F)).nCore 0)) : (P X).st 0 d c = st0 X d c.val := rfl
theorem P_dn0 (X : GIn F) (d : Dev nD) (c : Fin ((K (F := F)).nCore 0)) : (P X).dn 0 d c = dn0 X d c.val := rfl
theorem P_go0 (X : GIn F) (d : Dev nD) (c : Fin ((K (F := F)).nCore 0)) (i : Fin ((K (F := F)).nSub 0)) : (P X).go 0 d c i = go0 X d c.val i.val := rfl
theorem P_td0 (X : GIn F) (d : Dev nD) (c : Fin ((K (F := F)).nCore 0)) (i : Fin ((K (F := F)).nSub 0)) : (P X).td 0 d c i = td0 X d c.val i.val := rfl
theorem P_st1 (X : GIn F) (d : Dev nD) (c : Fin ((K (F := F)).nCore 1)) : (P X).st 1 d c = st1 X d c.val := rfl
theorem P_dn1 (X : GIn F) (d : Dev nD) (c : Fin ((K (F := F)).nCore 1)) : (P X).dn 1 d c = dn1 X d c.val := rfl
theorem P_go1 (X : GIn F) (d : Dev nD) (c : Fin ((K (F := F)).nCore 1)) (i : Fin ((K (F := F)).nSub 1)) : (P X).go 1 d c i = go1 X d c.val i.val := rfl
theorem P_td1 (X : GIn F) (d : Dev nD) (c : Fin ((K (F := F)).nCore 1)) (i : Fin ((K (F := F)).nSub 1)) : (P X).td 1 d c i = td1 X d c.val i.val := rfl
theorem P_x (X : GIn F) (q : Fin 2) (thr : Thread nD τ) : (P X).x q thr = iprop(emp) := rfl
theorem P_ox (X : GIn F) : (P X).ox = fun _ _ => 0 := rfl

end Cert.Proof.KI

end
-- ==== Proof.KI.Edge.lean ====
/- The edge network's region: each of its three output blocks after the body is a function of the nine input blocks at the point; the region's proof data and body obligation. -/
import proofs.«215230_g44530220925728_cont_8to1c4_163_46_alg».proof.Proof.KI.Setup
import Idealize.ShloMosaic.Lib.Pipeline.FrameBody
import Idealize.ShloMosaic.Lib.Ring
import Mathlib.Tactic.IntervalCases

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Edge1

variable (V : (c : Dev nD) → (b : Ref sig .tc) → Buf (Elt F) ((c : Thread nD τ).loc b))
  (O : Dev nD → CellTallies nD τ sig (HIx 2)) (B : Dev nD → Set (SemLoc sig × HIx 2)) (R : Dev nD → sProp (MT nD τ sig (HIx 2) (Elt F) ℕ UU ℕ))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1280x128 := Rect.unit (s := S1280x128) ![0, 0] S1280x128.size inb_S1280x128_S1280x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S128x384 := Rect.unit (s := S128x384) ![0, 0] S128x384.size inb_S128x384_S128x384_0_0
abbrev r1_4 : Rect S1x384 := Rect.unit (s := S1x384) ![0, 0] S1x384.size inb_S1x384_S1x384_0_0

def out1_9 (x0 : Vec F S1280x128 .f32) (x1 : Vec F S1280x128 .f32) (x2 : Vec F S1280x128 .f32) (x3 : Vec F S128x128 .f32) (x4 : Vec F S128x128 .f32) (x5 : Vec F S128x128 .f32) (x6 : Vec F S1x128 .f32) (x7 : Vec F S128x384 .f32) (x8 : Vec F S1x384 .f32) : Vec F S1280x128 .f32 :=
  View.canon [⟨r1_0, k1_pay4 (View.ld x0 r1_0) (View.ld x3 r1_1) (View.ld x1 r1_0) (View.ld x4 r1_1) (View.ld x2 r1_0) (View.ld x5 r1_1) (View.ld x6 r1_2) (View.ld x7 r1_3) (View.ld x8 r1_4)⟩]
def out1_10 (x0 : Vec F S1280x128 .f32) (x1 : Vec F S1280x128 .f32) (x2 : Vec F S1280x128 .f32) (x3 : Vec F S128x128 .f32) (x4 : Vec F S128x128 .f32) (x5 : Vec F S128x128 .f32) (x6 : Vec F S1x128 .f32) (x7 : Vec F S128x384 .f32) (x8 : Vec F S1x384 .f32) : Vec F S1280x128 .f32 :=
  View.canon [⟨r1_0, k1_pay1 (k1_pay3 (View.ld x0 r1_0) (View.ld x3 r1_1) (View.ld x1 r1_0) (View.ld x4 r1_1) (View.ld x2 r1_0) (View.ld x5 r1_1) (View.ld x6 r1_2) (View.ld x7 r1_3) (View.ld x8 r1_4))⟩]
def out1_11 (x0 : Vec F S1280x128 .f32) (x1 : Vec F S1280x128 .f32) (x2 : Vec F S1280x128 .f32) (x3 : Vec F S128x128 .f32) (x4 : Vec F S128x128 .f32) (x5 : Vec F S128x128 .f32) (x6 : Vec F S1x128 .f32) (x7 : Vec F S128x384 .f32) (x8 : Vec F S1x384 .f32) : Vec F S1280x128 .f32 :=
  View.canon [⟨r1_0, k1_pay2 (k1_pay3 (View.ld x0 r1_0) (View.ld x3 r1_1) (View.ld x1 r1_0) (View.ld x4 r1_1) (View.ld x2 r1_0) (View.ld x5 r1_1) (View.ld x6 r1_2) (View.ld x7 r1_3) (View.ld x8 r1_4))⟩]

theorem cover1 (p0 : Vec F S1280x128 .f32) (y : S1280x128.Idx) :
    ∃ pc ∈ ([⟨r1_0, p0⟩] : List (View.Piece (Elt F) S1280x128 .f32)), y ∈ pc.1.set :=
  View.cover_of_tiled [⟨r1_0, p0⟩] S1280x128.size (by rfl) y

set_option maxHeartbeats 4000000 in
theorem sound_kernel1 (c : Dev nD) (E : Set ℕ) (i : grid1.Coords) (arg1 : Memref sig .tc .vmem S1280x128 .f32) (harg1 : arg1.IsWhole) (arg2 : Memref sig .tc .vmem S1280x128 .f32) (harg2 : arg2.IsWhole) (arg3 : Memref sig .tc .vmem S1280x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x384 .f32) (harg8 : arg8.IsWhole) (arg9 : Memref sig .tc .vmem S1x384 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x128 .f32) (harg12 : arg12.IsWhole)
    (x0 : Vec F S1280x128 .f32) (x1 : Vec F S1280x128 .f32) (x2 : Vec F S1280x128 .f32) (x3 : Vec F S128x128 .f32) (x4 : Vec F S128x128 .f32) (x5 : Vec F S128x128 .f32) (x6 : Vec F S1x128 .f32) (x7 : Vec F S128x384 .f32) (x8 : Vec F S1x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8) ∗ owns (c : Thread nD τ) arg11 fullShare (out1_10 x0 x1 x2 x3 x4 x5 x6 x7 x8) ∗ owns (c : Thread nD τ) arg12 fullShare (out1_11 x0 x1 x2 x3 x4 x5 x6 x7 x8)) -∗ K ⟨⟩))
      ⊢ wp frame (wpE (defs₀ (F := F)) Variants.none c none) E (cc1__edge_mlp_body i arg1 harg1 arg2 harg2 arg3 harg3 arg4 harg4 arg5 harg5 arg6 harg6 arg7 harg7 arg8 harg8 arg9 harg9 arg10 harg10 arg11 harg11 arg12 harg12) K := by
  simp only [cc1__edge_mlp_body_eq_skeleton]; unfold cc1__edge_mlp_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover1 _)
  isplitl [H10]
  · iexists _; isplitr
    swap; · iexact H10
    ipureintro
    try dsimp only
    exact View.read_writes_eq_canon _ _ _ (cover1 _)
  iexists _; isplitr
  swap; · iexact H11
  ipureintro
  try dsimp only
  exact View.read_writes_eq_canon _ _ _ (cover1 _)

def dat1 (c : Dev nD) : Dat τ (Elt F) (HIx 2) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := R c
  q _ := fullShare
  owed _ := O c
  recorded _ := B c

theorem A_eq1 (c : Dev nD) (w : Fin cfg1.W) : (dat1 V O B R c).A w = V c (Pipeline.arrRef spec1 w) := by
  dsimp only [dat1]

theorem after1_9 (c : Dev nD) (t : Fin cfg1.N) : (dat1 V O B R c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_10 (c : Dev nD) (t : Fin cfg1.N) : (dat1 V O B R c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_11 (c : Dev nD) (t : Fin cfg1.N) : (dat1 V O B R c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- The library's input-window lemma at each of the nine input windows. -/
theorem before1_in (c : Dev nD) (w : Fin cfg1.W) (hw : w.val < 9) (t : Fin cfg1.N) (d) :
    (dat1 V O B R c).before w t d = (dat1 V O B R c).fetched w t d := by
  obtain ⟨k, hk⟩ := w
  change k < 9 at hw
  interval_cases k <;>
    exact Dat.before_in_eq_fetched _ _ rfl (fun _ => rfl) (fun _ _ _ => rfl) (fun _ => by dsimp only [dat1]; rfl) t d

def bodyPre1 (c : Dev nD) (t : Fin cfg1.N) : sProp 𝕄 :=
  iprop((dat1 V O B R c).Φ t.castSucc ∗ (dat1 V O B R c).owesAt (none : HIx 2) t.castSucc
    ∗ (∃ d, owns (c : Thread nD τ) (st1_0 t) fullShare ((dat1 V O B R c).before 0 t d))
    ∗ (∃ d, owns (c : Thread nD τ) (st1_1 t) fullShare ((dat1 V O B R c).before 1 t d))
    ∗ (∃ d, owns (c : Thread nD τ) (st1_2 t) fullShare ((dat1 V O B R c).before 2 t d))
    ∗ (∃ d, owns (c : Thread nD τ) (st1_3 t) fullShare ((dat1 V O B R c).before 3 t d))
    ∗ (∃ d, owns (c : Thread nD τ) (st1_4 t) fullShare ((dat1 V O B R c).before 4 t d))
    ∗ (∃ d, owns (c : Thread nD τ) (st1_5 t) fullShare ((dat1 V O B R c).before 5 t d))
    ∗ (∃ d, owns (c : Thread nD τ) (st1_6 t) fullShare ((dat1 V O B R c).before 6 t d))
    ∗ (∃ d, owns (c : Thread nD τ) (st1_7 t) fullShare ((dat1 V O B R c).before 7 t d))
    ∗ (∃ d, owns (c : Thread nD τ) (st1_8 t) fullShare ((dat1 V O B R c).before 8 t d))
    ∗ (∃ d, owns (c : Thread nD τ) (st1_9 t) fullShare ((dat1 V O B R c).before 9 t d))
    ∗ (∃ d, owns (c : Thread nD τ) (st1_10 t) fullShare ((dat1 V O B R c).before 10 t d))
    ∗ (∃ d, owns (c : Thread nD τ) (st1_11 t) fullShare ((dat1 V O B R c).before 11 t d)))

def bodyPost1 (c : Dev nD) (t : Fin cfg1.N) : sProp 𝕄 :=
  iprop((dat1 V O B R c).Φ t.succ ∗ (dat1 V O B R c).owesAt (none : HIx 2) t.succ
    ∗ owns (c : Thread nD τ) (st1_0 t) fullShare ((dat1 V O B R c).after 0 t)
    ∗ owns (c : Thread nD τ) (st1_1 t) fullShare ((dat1 V O B R c).after 1 t)
    ∗ owns (c : Thread nD τ) (st1_2 t) fullShare ((dat1 V O B R c).after 2 t)
    ∗ owns (c : Thread nD τ) (st1_3 t) fullShare ((dat1 V O B R c).after 3 t)
    ∗ owns (c : Thread nD τ) (st1_4 t) fullShare ((dat1 V O B R c).after 4 t)
    ∗ owns (c : Thread nD τ) (st1_5 t) fullShare ((dat1 V O B R c).after 5 t)
    ∗ owns (c : Thread nD τ) (st1_6 t) fullShare ((dat1 V O B R c).after 6 t)
    ∗ owns (c : Thread nD τ) (st1_7 t) fullShare ((dat1 V O B R c).after 7 t)
    ∗ owns (c : Thread nD τ) (st1_8 t) fullShare ((dat1 V O B R c).after 8 t)
    ∗ owns (c : Thread nD τ) (st1_9 t) fullShare ((dat1 V O B R c).after 9 t)
    ∗ owns (c : Thread nD τ) (st1_10 t) fullShare ((dat1 V O B R c).after 10 t)
    ∗ owns (c : Thread nD τ) (st1_11 t) fullShare ((dat1 V O B R c).after 11 t))

theorem sound_body1 (c : Dev nD) (t : Fin cfg1.N) :
    bodyPre1 V O B R c t ⊢ wp frame (wpE (defs₀ (F := F)) Variants.none c none) Set.univ (bodyAt1 t) (fun _ => bodyPost1 V O B R c t) := by
  unfold bodyPre1 bodyPost1 bodyAt1
  simp (disch := decide) only [before1_in]
  rw [show (dat1 V O B R c).owesAt (none : HIx 2) t.succ = (dat1 V O B R c).owesAt (none : HIx 2) t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  iframe

theorem body_obligation1 (c : Dev nD) : BodyObligation (dat1 (F := F) V O B R c) (defs₀ (F := F)) Variants.none (none : HIx 2) Set.univ := fun t => by
  rw [bigSep_W1, bigSep_W1]
  exact sound_body1 V O B R c t

end Edge1

end Cert.Proof.KI

end
-- ==== Proof.KI.Edge4.lean ====
/- The edge network's region: each of its three output blocks after the body is a function of the nine input blocks at the point; the region's proof data and body obligation. -/
import proofs.«215230_g44530220925728_cont_8to1c4_163_46_alg».proof.Proof.KI.Setup
import Idealize.ShloMosaic.Lib.Pipeline.FrameBody
import Idealize.ShloMosaic.Lib.Ring
import Mathlib.Tactic.IntervalCases

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Edge4

variable (V : (c : Dev nD) → (b : Ref sig .tc) → Buf (Elt F) ((c : Thread nD τ).loc b))
  (O : Dev nD → CellTallies nD τ sig (HIx 2)) (B : Dev nD → Set (SemLoc sig × HIx 2)) (R : Dev nD → sProp (MT nD τ sig (HIx 2) (Elt F) ℕ UU ℕ))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1280x128 := Rect.unit (s := S1280x128) ![0, 0] S1280x128.size inb_S1280x128_S1280x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0
abbrev r4_3 : Rect S128x384 := Rect.unit (s := S128x384) ![0, 0] S128x384.size inb_S128x384_S128x384_0_0
abbrev r4_4 : Rect S1x384 := Rect.unit (s := S1x384) ![0, 0] S1x384.size inb_S1x384_S1x384_0_0

def out4_9 (x0 : Vec F S1280x128 .f32) (x1 : Vec F S1280x128 .f32) (x2 : Vec F S1280x128 .f32) (x3 : Vec F S128x128 .f32) (x4 : Vec F S128x128 .f32) (x5 : Vec F S128x128 .f32) (x6 : Vec F S1x128 .f32) (x7 : Vec F S128x384 .f32) (x8 : Vec F S1x384 .f32) : Vec F S1280x128 .f32 :=
  View.canon [⟨r4_0, k4_pay4 (View.ld x0 r4_0) (View.ld x3 r4_1) (View.ld x1 r4_0) (View.ld x4 r4_1) (View.ld x2 r4_0) (View.ld x5 r4_1) (View.ld x6 r4_2) (View.ld x7 r4_3) (View.ld x8 r4_4)⟩]
def out4_10 (x0 : Vec F S1280x128 .f32) (x1 : Vec F S1280x128 .f32) (x2 : Vec F S1280x128 .f32) (x3 : Vec F S128x128 .f32) (x4 : Vec F S128x128 .f32) (x5 : Vec F S128x128 .f32) (x6 : Vec F S1x128 .f32) (x7 : Vec F S128x384 .f32) (x8 : Vec F S1x384 .f32) : Vec F S1280x128 .f32 :=
  View.canon [⟨r4_0, k4_pay1 (k4_pay3 (View.ld x0 r4_0) (View.ld x3 r4_1) (View.ld x1 r4_0) (View.ld x4 r4_1) (View.ld x2 r4_0) (View.ld x5 r4_1) (View.ld x6 r4_2) (View.ld x7 r4_3) (View.ld x8 r4_4))⟩]
def out4_11 (x0 : Vec F S1280x128 .f32) (x1 : Vec F S1280x128 .f32) (x2 : Vec F S1280x128 .f32) (x3 : Vec F S128x128 .f32) (x4 : Vec F S128x128 .f32) (x5 : Vec F S128x128 .f32) (x6 : Vec F S1x128 .f32) (x7 : Vec F S128x384 .f32) (x8 : Vec F S1x384 .f32) : Vec F S1280x128 .f32 :=
  View.canon [⟨r4_0, k4_pay2 (k4_pay3 (View.ld x0 r4_0) (View.ld x3 r4_1) (View.ld x1 r4_0) (View.ld x4 r4_1) (View.ld x2 r4_0) (View.ld x5 r4_1) (View.ld x6 r4_2) (View.ld x7 r4_3) (View.ld x8 r4_4))⟩]

theorem cover4 (p0 : Vec F S1280x128 .f32) (y : S1280x128.Idx) :
    ∃ pc ∈ ([⟨r4_0, p0⟩] : List (View.Piece (Elt F) S1280x128 .f32)), y ∈ pc.1.set :=
  View.cover_of_tiled [⟨r4_0, p0⟩] S1280x128.size (by rfl) y

set_option maxHeartbeats 4000000 in
theorem sound_kernel4 (c : Dev nD) (E : Set ℕ) (i : grid4.Coords) (arg1 : Memref sig .tc .vmem S1280x128 .f32) (harg1 : arg1.IsWhole) (arg2 : Memref sig .tc .vmem S1280x128 .f32) (harg2 : arg2.IsWhole) (arg3 : Memref sig .tc .vmem S1280x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x384 .f32) (harg8 : arg8.IsWhole) (arg9 : Memref sig .tc .vmem S1x384 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x128 .f32) (harg12 : arg12.IsWhole)
    (x0 : Vec F S1280x128 .f32) (x1 : Vec F S1280x128 .f32) (x2 : Vec F S1280x128 .f32) (x3 : Vec F S128x128 .f32) (x4 : Vec F S128x128 .f32) (x5 : Vec F S128x128 .f32) (x6 : Vec F S1x128 .f32) (x7 : Vec F S128x384 .f32) (x8 : Vec F S1x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out4_9 x0 x1 x2 x3 x4 x5 x6 x7 x8) ∗ owns (c : Thread nD τ) arg11 fullShare (out4_10 x0 x1 x2 x3 x4 x5 x6 x7 x8) ∗ owns (c : Thread nD τ) arg12 fullShare (out4_11 x0 x1 x2 x3 x4 x5 x6 x7 x8)) -∗ K ⟨⟩))
      ⊢ wp frame (wpE (defs₀ (F := F)) Variants.none c none) E (cc4__edge_mlp_body i arg1 harg1 arg2 harg2 arg3 harg3 arg4 harg4 arg5 harg5 arg6 harg6 arg7 harg7 arg8 harg8 arg9 harg9 arg10 harg10 arg11 harg11 arg12 harg12) K := by
  simp only [cc4__edge_mlp_body_eq_skeleton]; unfold cc4__edge_mlp_body_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover4 _)
  isplitl [H10]
  · iexists _; isplitr
    swap; · iexact H10
    ipureintro
    try dsimp only
    exact View.read_writes_eq_canon _ _ _ (cover4 _)
  iexists _; isplitr
  swap; · iexact H11
  ipureintro
  try dsimp only
  exact View.read_writes_eq_canon _ _ _ (cover4 _)

def dat4 (c : Dev nD) : Dat τ (Elt F) (HIx 2) ℕ UU ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
    | ⟨10, _⟩ => out4_10 (iblk4 V c 0 t) (iblk4 V c 1 t) (iblk4 V c 2 t) (iblk4 V c 3 t) (iblk4 V c 4 t) (iblk4 V c 5 t) (iblk4 V c 6 t) (iblk4 V c 7 t) (iblk4 V c 8 t)
    | ⟨11, _⟩ => out4_11 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := R c
  q _ := fullShare
  owed _ := O c
  recorded _ := B c

theorem A_eq4 (c : Dev nD) (w : Fin cfg4.W) : (dat4 V O B R c).A w = V c (Pipeline.arrRef spec4 w) := by
  dsimp only [dat4]

theorem after4_9 (c : Dev nD) (t : Fin cfg4.N) : (dat4 V O B R c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]
theorem after4_10 (c : Dev nD) (t : Fin cfg4.N) : (dat4 V O B R c).after 10 t = out4_10 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]
theorem after4_11 (c : Dev nD) (t : Fin cfg4.N) : (dat4 V O B R c).after 11 t = out4_11 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

/-- The library's input-window lemma at each of the nine input windows. -/
theorem before4_in (c : Dev nD) (w : Fin cfg4.W) (hw : w.val < 9) (t : Fin cfg4.N) (d) :
    (dat4 V O B R c).before w t d = (dat4 V O B R c).fetched w t d := by
  obtain ⟨k, hk⟩ := w
  change k < 9 at hw
  interval_cases k <;>
    exact Dat.before_in_eq_fetched _ _ rfl (fun _ => rfl) (fun _ _ _ => rfl) (fun _ => by dsimp only [dat4]; rfl) t d

def bodyPre4 (c : Dev nD) (t : Fin cfg4.N) : sProp 𝕄 :=
  iprop((dat4 V O B R c).Φ t.castSucc ∗ (dat4 V O B R c).owesAt (none : HIx 2) t.castSucc
    ∗ (∃ d, owns (c : Thread nD τ) (st4_0 t) fullShare ((dat4 V O B R c).before 0 t d))
    ∗ (∃ d, owns (c : Thread nD τ) (st4_1 t) fullShare ((dat4 V O B R c).before 1 t d))
    ∗ (∃ d, owns (c : Thread nD τ) (st4_2 t) fullShare ((dat4 V O B R c).before 2 t d))
    ∗ (∃ d, owns (c : Thread nD τ) (st4_3 t) fullShare ((dat4 V O B R c).before 3 t d))
    ∗ (∃ d, owns (c : Thread nD τ) (st4_4 t) fullShare ((dat4 V O B R c).before 4 t d))
    ∗ (∃ d, owns (c : Thread nD τ) (st4_5 t) fullShare ((dat4 V O B R c).before 5 t d))
    ∗ (∃ d, owns (c : Thread nD τ) (st4_6 t) fullShare ((dat4 V O B R c).before 6 t d))
    ∗ (∃ d, owns (c : Thread nD τ) (st4_7 t) fullShare ((dat4 V O B R c).before 7 t d))
    ∗ (∃ d, owns (c : Thread nD τ) (st4_8 t) fullShare ((dat4 V O B R c).before 8 t d))
    ∗ (∃ d, owns (c : Thread nD τ) (st4_9 t) fullShare ((dat4 V O B R c).before 9 t d))
    ∗ (∃ d, owns (c : Thread nD τ) (st4_10 t) fullShare ((dat4 V O B R c).before 10 t d))
    ∗ (∃ d, owns (c : Thread nD τ) (st4_11 t) fullShare ((dat4 V O B R c).before 11 t d)))

def bodyPost4 (c : Dev nD) (t : Fin cfg4.N) : sProp 𝕄 :=
  iprop((dat4 V O B R c).Φ t.succ ∗ (dat4 V O B R c).owesAt (none : HIx 2) t.succ
    ∗ owns (c : Thread nD τ) (st4_0 t) fullShare ((dat4 V O B R c).after 0 t)
    ∗ owns (c : Thread nD τ) (st4_1 t) fullShare ((dat4 V O B R c).after 1 t)
    ∗ owns (c : Thread nD τ) (st4_2 t) fullShare ((dat4 V O B R c).after 2 t)
    ∗ owns (c : Thread nD τ) (st4_3 t) fullShare ((dat4 V O B R c).after 3 t)
    ∗ owns (c : Thread nD τ) (st4_4 t) fullShare ((dat4 V O B R c).after 4 t)
    ∗ owns (c : Thread nD τ) (st4_5 t) fullShare ((dat4 V O B R c).after 5 t)
    ∗ owns (c : Thread nD τ) (st4_6 t) fullShare ((dat4 V O B R c).after 6 t)
    ∗ owns (c : Thread nD τ) (st4_7 t) fullShare ((dat4 V O B R c).after 7 t)
    ∗ owns (c : Thread nD τ) (st4_8 t) fullShare ((dat4 V O B R c).after 8 t)
    ∗ owns (c : Thread nD τ) (st4_9 t) fullShare ((dat4 V O B R c).after 9 t)
    ∗ owns (c : Thread nD τ) (st4_10 t) fullShare ((dat4 V O B R c).after 10 t)
    ∗ owns (c : Thread nD τ) (st4_11 t) fullShare ((dat4 V O B R c).after 11 t))

theorem sound_body4 (c : Dev nD) (t : Fin cfg4.N) :
    bodyPre4 V O B R c t ⊢ wp frame (wpE (defs₀ (F := F)) Variants.none c none) Set.univ (bodyAt4 t) (fun _ => bodyPost4 V O B R c t) := by
  unfold bodyPre4 bodyPost4 bodyAt4
  simp (disch := decide) only [before4_in]
  rw [show (dat4 V O B R c).owesAt (none : HIx 2) t.succ = (dat4 V O B R c).owesAt (none : HIx 2) t.castSucc from rfl]
  dsimp only [dat4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel4 c Set.univ (grid4.coords t) _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  iframe

theorem body_obligation4 (c : Dev nD) : BodyObligation (dat4 (F := F) V O B R c) (defs₀ (F := F)) Variants.none (none : HIx 2) Set.univ := fun t => by
  rw [bigSep_W4, bigSep_W4]
  exact sound_body4 V O B R c t

end Edge4

end Cert.Proof.KI

end
-- ==== Proof.KI.Pool.Runs.lean ====
/- The pooled node network's region: what the three cases of its body share. -/
import proofs.«215230_g44530220925728_cont_8to1c4_163_46_alg».proof.Proof.KI.Setup
import Idealize.ShloMosaic.Lib.Pipeline.FrameBody
import Idealize.ShloMosaic.Lib.Ring
import Idealize.ShloMosaic.Lib.Tactic

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 625 = 0 :=
  (by decide +kernel : ∀ t : Fin grid2.N, cond2_0 (grid2.coords t) ↔ t.val % 625 = 0)

abbrev cond2_1 (i : grid2.Coords) : Prop := k2_cond2 i = 1#1
theorem hcond2_1 : ∀ t : Fin cfg2.N, cond2_1 (grid2.coords t) ↔ t.val % 625 = 624 :=
  (by decide +kernel : ∀ t : Fin grid2.N, cond2_1 (grid2.coords t) ↔ t.val % 625 = 624)

theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
theorem liveAt2_8 : ∀ t : Fin cfg2.N, cond2_1 (grid2.coords t) → cfg2.idle 8 (grid2.coords t) = false := by decide +kernel

abbrev VO2_8 : View sig .tc .vmem S10240x128 .f32 := (Memref.whole cc2_stg8_0 : Memref sig .tc .vmem S10240x128 .f32).view
abbrev ms2_0 (t : Fin cfg2.N) : Memref sig .tc .vmem S512 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S128x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S10240x128 .f32 := win2_8.stage (cfg2.slots t 8)
abbrev hs2_8 (t : Fin cfg2.N) : (ms2_8 t).IsWhole := hstage2_8 ((cfg2.slots t 8).cast nbuf2_8)
abbrev scM2_0 : Memref sig .tc .vmem S10240x128 .f32 := Memref.whole cc2_scratch0
abbrev scM2_1 : Memref sig .tc .vmem S10240x128 .f32 := Memref.whole cc2_scratch1
abbrev VS2_0 : View sig .tc .vmem S10240x128 .f32 := scM2_0.view
abbrev VS2_1 : View sig .tc .vmem S10240x128 .f32 := scM2_1.view

theorem scopedRest2_owns (c : Dev nD) :
    (Pipeline.scopedRest spec2 c : sProp 𝕄)
      = iprop(iprop((∃ d, owns (c : Thread nD τ) scM2_0 fullShare d) ∗ (∃ d, owns (c : Thread nD τ) scM2_1 fullShare d))
          ∗ Pipeline.scopedRestBut spec2 c [cc2_scratch0, cc2_scratch1]) := by
  rw [scopedRest2_split]; simp only [scM2_0, scM2_1, owns_whole]; try rfl

section Blocks
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Blocks

theorem congr_realized2 : True := by
  have := @k2_part1_skel.congr_simp; have := @cc2__pool_node_body_skel.congr_simp
  trivial

end Cert.Proof.KI

end
-- ==== Proof.KI.Pool.RunA.lean ====
/- The pooled node network's body at the first point: both accumulators reset, then this point's messages and counts added. -/
import proofs.«215230_g44530220925728_cont_8to1c4_163_46_alg».proof.Proof.KI.Pool.Runs

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

set_option maxHeartbeats 4000000 in

noncomputable def kernelRun2_A (c : Dev nD) (i : grid2.Coords) (arg1 : Memref sig .tc .vmem S512 .i32) (harg1 : arg1.IsWhole) (arg2 : Memref sig .tc .vmem S512 .i32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S10240x128 .f32) (harg9 : arg9.IsWhole) (arg10 : Memref sig .tc .vmem S10240x128 .f32) (harg10 : arg10.IsWhole) (arg11 : Memref sig .tc .vmem S10240x128 .f32) (harg11 : arg11.IsWhole) (hc0 : cond2_0 i) (hc1 : ¬cond2_1 i)
    (x0 x1 : Vec F S512 .i32) (x2 x3 : Vec F S512x128 .f32) :
    Σ' (LS0 : List (View.Piece (Elt F) S10240x128 .f32)), { LS1 : List (View.Piece (Elt F) S10240x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc2__pool_node_body i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc2__pool_node_body_eq_skeleton]; unfold cc2__pool_node_body_skel
    simp only [k2_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Proof.KI

end
-- ==== Proof.KI.Pool.RunB.lean ====
/- The pooled node network's body at a point neither first nor last: this point's messages and counts added to the accumulators. -/
import proofs.«215230_g44530220925728_cont_8to1c4_163_46_alg».proof.Proof.KI.Pool.Runs

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

set_option maxHeartbeats 4000000 in

noncomputable def kernelRun2_B (c : Dev nD) (i : grid2.Coords) (arg1 : Memref sig .tc .vmem S512 .i32) (harg1 : arg1.IsWhole) (arg2 : Memref sig .tc .vmem S512 .i32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S10240x128 .f32) (harg9 : arg9.IsWhole) (arg10 : Memref sig .tc .vmem S10240x128 .f32) (harg10 : arg10.IsWhole) (arg11 : Memref sig .tc .vmem S10240x128 .f32) (harg11 : arg11.IsWhole) (hc0 : ¬cond2_0 i) (hc1 : ¬cond2_1 i)
    (x0 x1 : Vec F S512 .i32) (x2 x3 : Vec F S512x128 .f32) (xs0 xs1 : Vec F S10240x128 .f32) :
    Σ' (LS0 : List (View.Piece (Elt F) S10240x128 .f32)), { LS1 : List (View.Piece (Elt F) S10240x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc2__pool_node_body i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc2__pool_node_body_eq_skeleton]; unfold cc2__pool_node_body_skel
    simp only [k2_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Proof.KI

end
-- ==== Proof.KI.Pool.RunC.lean ====
/- The pooled node network's body at the last point: the accumulators updated, then the node network of their quotient stored as the result. -/
import proofs.«215230_g44530220925728_cont_8to1c4_163_46_alg».proof.Proof.KI.Pool.Runs

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

set_option maxHeartbeats 4000000 in

noncomputable def kernelRun2_C (c : Dev nD) (i : grid2.Coords) (arg1 : Memref sig .tc .vmem S512 .i32) (harg1 : arg1.IsWhole) (arg2 : Memref sig .tc .vmem S512 .i32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S10240x128 .f32) (harg9 : arg9.IsWhole) (arg10 : Memref sig .tc .vmem S10240x128 .f32) (harg10 : arg10.IsWhole) (arg11 : Memref sig .tc .vmem S10240x128 .f32) (harg11 : arg11.IsWhole) (hc0 : ¬cond2_0 i) (hc1 : cond2_1 i)
    (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) :
    Σ' (L8 : List (View.Piece (Elt F) S10240x128 .f32)) (LS0 : List (View.Piece (Elt F) S10240x128 .f32)), { LS1 : List (View.Piece (Elt F) S10240x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg10 fullShare xs0 ∗ owns (c : Thread nD τ) arg11 fullShare xs1 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1) ∗ (∃ f, arg9.view.loc (c : Thread nD τ) ↦[arg9.view.set]{fullShare} arg9.view.writes (Elt F) f L8)) -∗ K ⟨⟩))
          ⊢ wp frame (wpE (defs₀ (F := F)) Variants.none c none) E (cc2__pool_node_body i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc2__pool_node_body_eq_skeleton]; unfold cc2__pool_node_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    isplitl [HS1]; · iexists _; iexact HS1
    iexists _; iexact H8

end Cert.Proof.KI

end
-- ==== Proof.KI.Pool.lean ====
/- The pooled node network's region: what each case leaves in the two accumulators and in the result; their contents after each point by recursion on the point; the region's invariant, proof data and body obligation. -/
import proofs.«215230_g44530220925728_cont_8to1c4_163_46_alg».proof.Proof.KI.Pool.RunA
import proofs.«215230_g44530220925728_cont_8to1c4_163_46_alg».proof.Proof.KI.Pool.RunB
import proofs.«215230_g44530220925728_cont_8to1c4_163_46_alg».proof.Proof.KI.Pool.RunC
import Mathlib.Tactic.IntervalCases

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Cases
variable (c : Dev nD) (i : grid2.Coords) (arg1 : Memref sig .tc .vmem S512 .i32) (harg1 : arg1.IsWhole) (arg2 : Memref sig .tc .vmem S512 .i32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S10240x128 .f32) (harg9 : arg9.IsWhole) (arg10 : Memref sig .tc .vmem S10240x128 .f32) (harg10 : arg10.IsWhole) (arg11 : Memref sig .tc .vmem S10240x128 .f32) (harg11 : arg11.IsWhole)

theorem scover2_A_0 (hc0 : cond2_0 i) (hc1 : ¬cond2_1 i) (x0 x1 : Vec F S512 .i32) (x2 x3 : Vec F S512x128 .f32) (y : S10240x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3).1, y ∈ pc.1.set :=
  View.cover_of_tiledL _ S10240x128.size (by sl_kernel_rfl) y

def sout2_A_0 (hc0 : cond2_0 i) (hc1 : ¬cond2_1 i) (x0 x1 : Vec F S512 .i32) (x2 x3 : Vec F S512x128 .f32) : Vec F S10240x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3).1)

theorem scover2_A_1 (hc0 : cond2_0 i) (hc1 : ¬cond2_1 i) (x0 x1 : Vec F S512 .i32) (x2 x3 : Vec F S512x128 .f32) (y : S10240x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3).2.1, y ∈ pc.1.set :=
  View.cover_of_tiledL _ S10240x128.size (by sl_kernel_rfl) y
def sout2_A_1 (hc0 : cond2_0 i) (hc1 : ¬cond2_1 i) (x0 x1 : Vec F S512 .i32) (x2 x3 : Vec F S512x128 .f32) : Vec F S10240x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 hc0 hc1 x0 x1 x2 x3).2.1)

theorem scover2_B_0 (hc0 : ¬cond2_0 i) (hc1 : ¬cond2_1 i) (x0 x1 : Vec F S512 .i32) (x2 x3 : Vec F S512x128 .f32) (xs0 xs1 : Vec F S10240x128 .f32) (y : S10240x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 xs0 xs1).1, y ∈ pc.1.set :=
  View.cover_of_tiledL _ S10240x128.size (by sl_kernel_rfl) y

def sout2_B_0 (hc0 : ¬cond2_0 i) (hc1 : ¬cond2_1 i) (x0 x1 : Vec F S512 .i32) (x2 x3 : Vec F S512x128 .f32) (xs0 xs1 : Vec F S10240x128 .f32) : Vec F S10240x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 xs0 xs1).1)
theorem scover2_B_1 (hc0 : ¬cond2_0 i) (hc1 : ¬cond2_1 i) (x0 x1 : Vec F S512 .i32) (x2 x3 : Vec F S512x128 .f32) (xs0 xs1 : Vec F S10240x128 .f32) (y : S10240x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 xs0 xs1).2.1, y ∈ pc.1.set :=
  View.cover_of_tiledL _ S10240x128.size (by sl_kernel_rfl) y
def sout2_B_1 (hc0 : ¬cond2_0 i) (hc1 : ¬cond2_1 i) (x0 x1 : Vec F S512 .i32) (x2 x3 : Vec F S512x128 .f32) (xs0 xs1 : Vec F S10240x128 .f32) : Vec F S10240x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 hc0 hc1 x0 x1 x2 x3 xs0 xs1).2.1)

theorem cover2_C_8 (hc0 : ¬cond2_0 i) (hc1 : cond2_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) (y : S10240x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1, y ∈ pc.1.set :=
  View.cover_of_tiledL _ S10240x128.size (by sl_kernel_rfl) y

def out2_C_8 (hc0 : ¬cond2_0 i) (hc1 : cond2_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) : Vec F S10240x128 .f32 :=
  VO2_8.read (Elt F) (VO2_8.writes (Elt F) VO2_8.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1)
theorem scover2_C_0 (hc0 : ¬cond2_0 i) (hc1 : cond2_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) (y : S10240x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1, y ∈ pc.1.set :=
  View.cover_of_tiledL _ S10240x128.size (by sl_kernel_rfl) y
def sout2_C_0 (hc0 : ¬cond2_0 i) (hc1 : cond2_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) : Vec F S10240x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1)
theorem scover2_C_1 (hc0 : ¬cond2_0 i) (hc1 : cond2_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) (y : S10240x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1, y ∈ pc.1.set :=
  View.cover_of_tiledL _ S10240x128.size (by sl_kernel_rfl) y
def sout2_C_1 (hc0 : ¬cond2_0 i) (hc1 : cond2_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) : Vec F S10240x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1)

end Cases

def out2_idle : Vec F S10240x128 .f32 := VO2_8.read (Elt F) VO2_8.junk

section Region
variable (V : (c : Dev nD) → (b : Ref sig .tc) → Buf (Elt F) ((c : Thread nD τ).loc b))
  (O : Dev nD → CellTallies nD τ sig (HIx 2)) (B : Dev nD → Set (SemLoc sig × HIx 2))

theorem hc2_A0 (hn : 0 < cfg2.N) : cond2_0 (grid2.coords ⟨0, hn⟩) := (hcond2_0 ⟨0, hn⟩).mpr (Nat.zero_mod _)
theorem hc2_A1 (hn : 0 < cfg2.N) : ¬cond2_1 (grid2.coords ⟨0, hn⟩) := fun h => by
  have := (hcond2_1 ⟨0, hn⟩).mp h; (try dsimp only at this); omega
theorem hc2_S0 (n : ℕ) (hn : n + 1 < cfg2.N) : ¬cond2_0 (grid2.coords ⟨n + 1, hn⟩) := fun h => by
  have := (hcond2_0 ⟨n + 1, hn⟩).mp h; (try dsimp only at this)
  have hN : n + 1 < 625 := lt_of_lt_of_eq hn (show cfg2.N = 625 from N_2); omega

def outsAt2 (c : Dev nD) : (n : ℕ) → n < cfg2.N → Vec F S10240x128 .f32 × Vec F S10240x128 .f32 × Vec F S10240x128 .f32
  | 0, hn =>
    let t : Fin cfg2.N := ⟨0, hn⟩
    (out2_idle,
      sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (hc2_A0 hn) (hc2_A1 hn) (iblk2 V c 0 t) (iblk2 V c 1 t) (iblk2 V c 2 t) (iblk2 V c 3 t),
      sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (hc2_A0 hn) (hc2_A1 hn) (iblk2 V c 0 t) (iblk2 V c 1 t) (iblk2 V c 2 t) (iblk2 V c 3 t))
  | n + 1, hn =>
    let t : Fin cfg2.N := ⟨n + 1, hn⟩
    if h1 : (n + 1) % 625 = 624 then
      (out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (hc2_S0 n hn) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 c n (Nat.lt_of_succ_lt hn)).2.1 (outsAt2 c n (Nat.lt_of_succ_lt hn)).2.2,
       sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (hc2_S0 n hn) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 c n (Nat.lt_of_succ_lt hn)).2.1 (outsAt2 c n (Nat.lt_of_succ_lt hn)).2.2,
       sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (hc2_S0 n hn) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 c n (Nat.lt_of_succ_lt hn)).2.1 (outsAt2 c n (Nat.lt_of_succ_lt hn)).2.2)
    else
      (out2_idle,
       sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (hc2_S0 n hn) (fun h => h1 ((hcond2_1 t).mp h)) (iblk2 V c 0 t) (iblk2 V c 1 t) (iblk2 V c 2 t) (iblk2 V c 3 t) (outsAt2 c n (Nat.lt_of_succ_lt hn)).2.1 (outsAt2 c n (Nat.lt_of_succ_lt hn)).2.2,
       sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (hc2_S0 n hn) (fun h => h1 ((hcond2_1 t).mp h)) (iblk2 V c 0 t) (iblk2 V c 1 t) (iblk2 V c 2 t) (iblk2 V c 3 t) (outsAt2 c n (Nat.lt_of_succ_lt hn)).2.1 (outsAt2 c n (Nat.lt_of_succ_lt hn)).2.2)

abbrev prevS2_0 (c : Dev nD) (t : Fin cfg2.N) : Vec F S10240x128 .f32 := (outsAt2 V c (t.val - 1) (Nat.lt_of_le_of_lt (Nat.sub_le _ _) t.isLt)).2.1
abbrev prevS2_1 (c : Dev nD) (t : Fin cfg2.N) : Vec F S10240x128 .f32 := (outsAt2 V c (t.val - 1) (Nat.lt_of_le_of_lt (Nat.sub_le _ _) t.isLt)).2.2

theorem outsAt2_A (c : Dev nD) (t : Fin cfg2.N) (h0 : t.val % 625 = 0) (h1 : ¬t.val % 625 = 624) :
    outsAt2 V c t.val t.isLt = (out2_idle,
      sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t),
      sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (by exfalso; (try dsimp only at h0); have hN : n + 1 < 625 := lt_of_lt_of_eq hn (show cfg2.N = 625 from N_2); omega)

theorem outsAt2_B (c : Dev nD) (t : Fin cfg2.N) (h0 : ¬t.val % 625 = 0) (h1 : ¬t.val % 625 = 624) :
    outsAt2 V c t.val t.isLt = (out2_idle,
      sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (prevS2_0 V c t) (prevS2_1 V c t),
      sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (prevS2_0 V c t) (prevS2_1 V c t)) := by
  obtain ⟨n, hn⟩ := t
  cases n with
  | zero => exact (by exfalso; (try dsimp only at h0); exact absurd (Nat.zero_mod _) h0)
  | succ n => exact (dif_neg h1).trans rfl

theorem outsAt2_C (c : Dev nD) (t : Fin cfg2.N) (h0 : ¬t.val % 625 = 0) (h1 : t.val % 625 = 624) :
    outsAt2 V c t.val t.isLt = (
      out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (prevS2_0 V c t) (prevS2_1 V c t),
      sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (prevS2_0 V c t) (prevS2_1 V c t),
      sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (prevS2_0 V c t) (prevS2_1 V c t)) := by
  obtain ⟨n, hn⟩ := t
  cases n with
  | zero => exact (by exfalso; (try dsimp only at h0); exact absurd (Nat.zero_mod _) h0)
  | succ n => exact (dif_pos h1).trans rfl

def PhiS2 (c : Dev nD) : (n : ℕ) → n ≤ cfg2.N → sProp 𝕄
  | 0, _ => Pipeline.scopedRest spec2 c
  | n + 1, hn => iprop(iprop(owns (c : Thread nD τ) scM2_0 fullShare (outsAt2 V c n hn).2.1 ∗ owns (c : Thread nD τ) scM2_1 fullShare (outsAt2 V c n hn).2.2)
      ∗ Pipeline.scopedRestBut spec2 c [cc2_scratch0, cc2_scratch1])

theorem PhiS2_zero (c : Dev nD) (n : ℕ) (h : n ≤ cfg2.N) (hz : n = 0) : PhiS2 V c n h = Pipeline.scopedRest spec2 c := by
  subst hz; rfl

theorem PhiS2_succ (c : Dev nD) (n : ℕ) (hn : n < cfg2.N) :
    PhiS2 V c (n + 1) hn = iprop(iprop(owns (c : Thread nD τ) scM2_0 fullShare (outsAt2 V c n hn).2.1 ∗ owns (c : Thread nD τ) scM2_1 fullShare (outsAt2 V c n hn).2.2)
      ∗ Pipeline.scopedRestBut spec2 c [cc2_scratch0, cc2_scratch1]) := rfl

theorem PhiS2_pos (c : Dev nD) (n : ℕ) (h : n ≤ cfg2.N) (hz : n ≠ 0) :
    PhiS2 V c n h = iprop(iprop(owns (c : Thread nD τ) scM2_0 fullShare (outsAt2 V c (n - 1) (by omega)).2.1 ∗ owns (c : Thread nD τ) scM2_1 fullShare (outsAt2 V c (n - 1) (by omega)).2.2)
      ∗ Pipeline.scopedRestBut spec2 c [cc2_scratch0, cc2_scratch1]) := by
  cases n with
  | zero => exact absurd rfl hz
  | succ n => rfl

def dat2 (c : Dev nD) : Dat τ (Elt F) (HIx 2) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => (outsAt2 V c t.val t.isLt).1
  Φ t := PhiS2 V c t.val (Nat.le_of_lt_succ t.isLt)
  q _ := fullShare
  owed _ := O c
  recorded _ := B c

theorem A_eq2 (c : Dev nD) (w : Fin cfg2.W) : (dat2 V O B c).A w = V c (Pipeline.arrRef spec2 w) := by
  dsimp only [dat2]

theorem PhiS2_castSucc (c : Dev nD) (t : Fin cfg2.N) :
    (dat2 V O B c).Φ t.castSucc = PhiS2 V c t.val (Nat.le_of_lt t.isLt) := by
  dsimp only [dat2]; simp only [Fin.coe_castSucc]

theorem after2_8 (c : Dev nD) (t : Fin cfg2.N) : (dat2 V O B c).after 8 t = (outsAt2 V c t.val t.isLt).1 := by dsimp only [dat2]

theorem before2_in (c : Dev nD) (w : Fin cfg2.W) (hw : w.val < 8) (t : Fin cfg2.N) (d) :
    (dat2 V O B c).before w t d = (dat2 V O B c).fetched w t d := by
  obtain ⟨k, hk⟩ := w
  change k < 8 at hw
  interval_cases k <;>
    exact Dat.before_in_eq_fetched _ _ rfl (fun _ => rfl) (fun _ _ _ => rfl) (fun _ => by dsimp only [dat2]; rfl) t d

def bodyPre2 (c : Dev nD) (t : Fin cfg2.N) : sProp 𝕄 :=
  iprop((dat2 V O B c).Φ t.castSucc ∗ (dat2 V O B c).owesAt none t.castSucc
    ∗ (∃ d, owns (c : Thread nD τ) (ms2_0 t) fullShare ((dat2 V O B c).before 0 t d))
    ∗ (∃ d, owns (c : Thread nD τ) (ms2_1 t) fullShare ((dat2 V O B c).before 1 t d))
    ∗ (∃ d, owns (c : Thread nD τ) (ms2_2 t) fullShare ((dat2 V O B c).before 2 t d))
    ∗ (∃ d, owns (c : Thread nD τ) (ms2_3 t) fullShare ((dat2 V O B c).before 3 t d))
    ∗ (∃ d, owns (c : Thread nD τ) (ms2_4 t) fullShare ((dat2 V O B c).before 4 t d))
    ∗ (∃ d, owns (c : Thread nD τ) (ms2_5 t) fullShare ((dat2 V O B c).before 5 t d))
    ∗ (∃ d, owns (c : Thread nD τ) (ms2_6 t) fullShare ((dat2 V O B c).before 6 t d))
    ∗ (∃ d, owns (c : Thread nD τ) (ms2_7 t) fullShare ((dat2 V O B c).before 7 t d))
    ∗ (∃ d, owns (c : Thread nD τ) (ms2_8 t) fullShare ((dat2 V O B c).before 8 t d)))

def bodyPost2 (c : Dev nD) (t : Fin cfg2.N) : sProp 𝕄 :=
  iprop((dat2 V O B c).Φ t.succ ∗ (dat2 V O B c).owesAt none t.succ
    ∗ owns (c : Thread nD τ) (ms2_0 t) fullShare ((dat2 V O B c).after 0 t)
    ∗ owns (c : Thread nD τ) (ms2_1 t) fullShare ((dat2 V O B c).after 1 t)
    ∗ owns (c : Thread nD τ) (ms2_2 t) fullShare ((dat2 V O B c).after 2 t)
    ∗ owns (c : Thread nD τ) (ms2_3 t) fullShare ((dat2 V O B c).after 3 t)
    ∗ owns (c : Thread nD τ) (ms2_4 t) fullShare ((dat2 V O B c).after 4 t)
    ∗ owns (c : Thread nD τ) (ms2_5 t) fullShare ((dat2 V O B c).after 5 t)
    ∗ owns (c : Thread nD τ) (ms2_6 t) fullShare ((dat2 V O B c).after 6 t)
    ∗ owns (c : Thread nD τ) (ms2_7 t) fullShare ((dat2 V O B c).after 7 t)
    ∗ (dat2 V O B c).leavesExact 8 t)

set_option maxHeartbeats 4800000 in

theorem sound_body2 (c : Dev nD) (t : Fin cfg2.N) :
    bodyPre2 V O B c t ⊢ wp frame (wpE (defs₀ (F := F)) Variants.none c none) Set.univ (bodyAt2 t) (fun _ => bodyPost2 V O B c t) := by
  unfold bodyPre2 bodyPost2 bodyAt2
  simp (disch := decide) only [before2_in]
  rw [show (dat2 V O B c).owesAt none t.succ = (dat2 V O B c).owesAt none t.castSucc from rfl]
  rw [show (dat2 V O B c).Φ t.succ = PhiS2 V c (t.val + 1) t.isLt from rfl, PhiS2_succ]
  have hN : t.val < 625 := lt_of_lt_of_eq t.isLt (show cfg2.N = 625 from N_2)
  by_cases h1 : t.val % 625 = 624
  · have h0 : ¬t.val % 625 = 0 := by omega
    have hz : t.val ≠ 0 := by omega
    rw [show (dat2 V O B c).leavesExact 8 t = owns (c : Thread nD τ) (ms2_8 t) fullShare ((dat2 V O B c).after 8 t) from by
      unfold Dat.leavesExact; rw [liveAt2_8 t ((hcond2_1 t).mpr h1)], after2_8]
    rw [outsAt2_C V c t h0 h1]
    unfold out2_C_8 sout2_C_0 sout2_C_1; (try dsimp only)
    rw [PhiS2_castSucc V O B c t, PhiS2_pos V c _ _ hz]
    dsimp only [dat2]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [H8]; · iexists _; iexact H8
    iintro ⟨H0, H1, H2, H3, H4, H5, H6, H7, ⟨%es0, HS0⟩, ⟨%es1, HS1⟩, ⟨%e8, H8⟩⟩
    isplitl [HS0 HS1 HR]
    · isplitl [HS0 HS1]
      · isplitl [HS0]
        · unfold owns; iexists _; isplitr
          swap; · iexact HS0
          ipureintro; exact View.read_writes_of_cover _ _ _ _ _ (scover2_C_0 c _ _ _ _ _ _ _ _ _ _ _ _ _ _ _ _ _ _ _ _ _ _ _ _ _ _ _ _ _ _ _ _ _ _ _ )
        · unfold owns; iexists _; isplitr
          swap; · iexact HS1
          ipureintro; exact View.read_writes_of_cover _ _ _ _ _ (scover2_C_1 c _ _ _ _ _ _ _ _ _ _ _ _ _ _ _ _ _ _ _ _ _ _ _ _ _ _ _ _ _ _ _ _ _ _ _ )
      iexact HR
    iframe Ho H0 H1 H2 H3 H4 H5 H6 H7
    unfold owns; iexists _; isplitr
    swap; · iexact H8
    ipureintro; exact View.read_writes_of_cover _ _ _ _ _ (cover2_C_8 c _ _ _ _ _ _ _ _ _ _ _ _ _ _ _ _ _ _ _ _ _ _ _ _ _ _ _ _ _ _ _ _ _ _ _ )
  · rw [Dat.leavesExact_idle (dat2 V O B c) 8 t (idleAt2_8 t (fun h => h1 ((hcond2_1 t).mp h))) (noFlush2_8 t (fun h => h1 ((hcond2_1 t).mp h)))]
    by_cases h0 : t.val % 625 = 0
    · have hz : t.val = 0 := by omega
      rw [outsAt2_A V c t h0 h1]
      unfold sout2_A_0 sout2_A_1; (try dsimp only)
      rw [PhiS2_castSucc V O B c t, PhiS2_zero V c _ _ hz, scopedRest2_owns]
      dsimp only [dat2]
      iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ )
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _ )
        iexact HR
      iframe Ho H0 H1 H2 H3
      isplitl [H4]; · iexact H4
      isplitl [H5]; · iexact H5
      isplitl [H6]; · iexact H6
      isplitl [H7]; · iexact H7
      iexists _; iexact H8
    · have hz : t.val ≠ 0 := by omega
      rw [outsAt2_B V c t h0 h1]
      unfold sout2_B_0 sout2_B_1; (try dsimp only)
      rw [PhiS2_castSucc V O B c t, PhiS2_pos V c _ _ hz]
      dsimp only [dat2]
      iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR]
      · isplitl [HS0 HS1]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover2_B_1 c _ _ _ _ _ _ _ _ _ _ _ _ _ _ _ _ _ _ _ _ _ _ _ _ _ _ _ _ _ _ _ )
        iexact HR
      iframe Ho H0 H1 H2 H3
      isplitl [H4]; · iexact H4
      isplitl [H5]; · iexact H5
      isplitl [H6]; · iexact H6
      isplitl [H7]; · iexact H7
      iexists _; iexact H8

theorem body_obligation2 (c : Dev nD) : BodyObligation (dat2 (F := F) V O B c) (defs₀ (F := F)) Variants.none (none : HIx 2) Set.univ := fun t => by
  rw [bigSep_W2, bigSep_W2]
  exact sound_body2 V O B c t

theorem body_obligationLoose2 (c : Dev nD) : Pipeline.BodyObligationLoose (dat2 (F := F) V O B c) (defs₀ (F := F)) Variants.none (none : HIx 2) Set.univ :=
  (body_obligation2 V O B c).loose

abbrev X2 (_ : Dev nD) : sProp 𝕄 := iprop(emp)
abbrev Y2 (_ : Dev nD) : sProp 𝕄 := iprop(emp)

theorem hin2 (c : Dev nD) (P : sProp 𝕄) : iprop(X2 (F := F) c ∗ P ∗ Pipeline.scopedRest spec2 c) ⊢ (dat2 V O B c).Φ 0 := by
  rw [show (dat2 V O B c).Φ 0 = PhiS2 V c 0 (Nat.zero_le _) from rfl, PhiS2_zero V c 0 _ rfl]
  iintro ⟨-, -, Hr⟩; iexact Hr

theorem Phi_out2 (c : Dev nD) (t : Fin (cfg2.N + 1)) (ht : t.val ≠ 0) : (dat2 V O B c).Φ t ⊢ (Pipeline.scopedRest spec2 c : sProp 𝕄) := by
  rw [show (dat2 V O B c).Φ t = PhiS2 V c t.val (Nat.le_of_lt_succ t.isLt) from rfl, PhiS2_pos V c _ _ ht, scopedRest2_owns]
  iintro ⟨⟨HS0, HS1⟩, HR⟩
  isplitl [HS0 HS1]
  · isplitl [HS0]
    · iexists _; iexact HS0
    · iexists _; iexact HS1
  iexact HR

theorem hout2 (c : Dev nD) : (dat2 V O B c).Φ (Fin.last cfg2.N) ⊢ iprop(Y2 (F := F) c ∗ Pipeline.ownSems0 (fun k : PEmpty => k.elim) c ∗ Pipeline.scopedRest spec2 c) := by
  rw [Pipeline.ownSems0_none]
  iintro H
  isplitr; · iempintro
  isplitr; · iempintro
  iapply (Phi_out2 V O B c _ (by rw [Fin.val_last]; have : cfg2.N = 625 := N_2; omega))
  iexact H

end Region

end Cert.Proof.KI

end
-- ==== Proof.KI.Pool5.Runs.lean ====
/- The pooled node network's region: what the three cases of its body share. -/
import proofs.«215230_g44530220925728_cont_8to1c4_163_46_alg».proof.Proof.KI.Setup
import Idealize.ShloMosaic.Lib.Pipeline.FrameBody
import Idealize.ShloMosaic.Lib.Ring
import Idealize.ShloMosaic.Lib.Tactic

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val % 625 = 0 :=
  (by decide +kernel : ∀ t : Fin grid5.N, cond5_0 (grid5.coords t) ↔ t.val % 625 = 0)

abbrev cond5_1 (i : grid5.Coords) : Prop := k5_cond2 i = 1#1
theorem hcond5_1 : ∀ t : Fin cfg5.N, cond5_1 (grid5.coords t) ↔ t.val % 625 = 624 :=
  (by decide +kernel : ∀ t : Fin grid5.N, cond5_1 (grid5.coords t) ↔ t.val % 625 = 624)

theorem idleAt5_8 : ∀ t : Fin cfg5.N, ¬cond5_1 (grid5.coords t) → cfg5.idle 8 (grid5.coords t) = true := by decide +kernel
theorem noFlush5_8 : ∀ t : Fin cfg5.N, ¬cond5_1 (grid5.coords t) → (cfg5.win 8).flush t = false := by decide +kernel
theorem liveAt5_8 : ∀ t : Fin cfg5.N, cond5_1 (grid5.coords t) → cfg5.idle 8 (grid5.coords t) = false := by decide +kernel

abbrev VO5_8 : View sig .tc .vmem S10240x128 .f32 := (Memref.whole cc5_stg8_0 : Memref sig .tc .vmem S10240x128 .f32).view
abbrev ms5_0 (t : Fin cfg5.N) : Memref sig .tc .vmem S512 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S512 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S512x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S512x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S128x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x128 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S128x128 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S1x128 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S10240x128 .f32 := win5_8.stage (cfg5.slots t 8)
abbrev hs5_8 (t : Fin cfg5.N) : (ms5_8 t).IsWhole := hstage5_8 ((cfg5.slots t 8).cast nbuf5_8)
abbrev scM5_0 : Memref sig .tc .vmem S10240x128 .f32 := Memref.whole cc5_scratch0
abbrev scM5_1 : Memref sig .tc .vmem S10240x128 .f32 := Memref.whole cc5_scratch1
abbrev VS5_0 : View sig .tc .vmem S10240x128 .f32 := scM5_0.view
abbrev VS5_1 : View sig .tc .vmem S10240x128 .f32 := scM5_1.view

theorem scopedRest5_owns (c : Dev nD) :
    (Pipeline.scopedRest spec5 c : sProp 𝕄)
      = iprop(iprop((∃ d, owns (c : Thread nD τ) scM5_0 fullShare d) ∗ (∃ d, owns (c : Thread nD τ) scM5_1 fullShare d))
          ∗ Pipeline.scopedRestBut spec5 c [cc5_scratch0, cc5_scratch1]) := by
  rw [scopedRest5_split]; simp only [scM5_0, scM5_1, owns_whole]; try rfl

section Blocks
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

end Blocks

theorem congr_realized5 : True := by
  have := @k5_part1_skel.congr_simp; have := @cc5__pool_node_body_skel.congr_simp
  trivial

end Cert.Proof.KI

end
-- ==== Proof.KI.Pool5.RunA.lean ====
/- The pooled node network's body at the first point: both accumulators reset, then this point's messages and counts added. -/
import proofs.«215230_g44530220925728_cont_8to1c4_163_46_alg».proof.Proof.KI.Pool5.Runs

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

set_option maxHeartbeats 4000000 in

noncomputable def kernelRun5_A (c : Dev nD) (i : grid5.Coords) (arg1 : Memref sig .tc .vmem S512 .i32) (harg1 : arg1.IsWhole) (arg2 : Memref sig .tc .vmem S512 .i32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S10240x128 .f32) (harg9 : arg9.IsWhole) (arg10 : Memref sig .tc .vmem S10240x128 .f32) (harg10 : arg10.IsWhole) (arg11 : Memref sig .tc .vmem S10240x128 .f32) (harg11 : arg11.IsWhole) (hc0 : cond5_0 i) (hc1 : ¬cond5_1 i)
    (x0 x1 : Vec F S512 .i32) (x2 x3 : Vec F S512x128 .f32) :
    Σ' (LS0 : List (View.Piece (Elt F) S10240x128 .f32)), { LS1 : List (View.Piece (Elt F) S10240x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc5__pool_node_body i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc5__pool_node_body_eq_skeleton]; unfold cc5__pool_node_body_skel
    simp only [k5_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Proof.KI

end
-- ==== Proof.KI.Pool5.RunB.lean ====
/- The pooled node network's body at a point neither first nor last: this point's messages and counts added to the accumulators. -/
import proofs.«215230_g44530220925728_cont_8to1c4_163_46_alg».proof.Proof.KI.Pool5.Runs

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

set_option maxHeartbeats 4000000 in

noncomputable def kernelRun5_B (c : Dev nD) (i : grid5.Coords) (arg1 : Memref sig .tc .vmem S512 .i32) (harg1 : arg1.IsWhole) (arg2 : Memref sig .tc .vmem S512 .i32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S10240x128 .f32) (harg9 : arg9.IsWhole) (arg10 : Memref sig .tc .vmem S10240x128 .f32) (harg10 : arg10.IsWhole) (arg11 : Memref sig .tc .vmem S10240x128 .f32) (harg11 : arg11.IsWhole) (hc0 : ¬cond5_0 i) (hc1 : ¬cond5_1 i)
    (x0 x1 : Vec F S512 .i32) (x2 x3 : Vec F S512x128 .f32) (xs0 xs1 : Vec F S10240x128 .f32) :
    Σ' (LS0 : List (View.Piece (Elt F) S10240x128 .f32)), { LS1 : List (View.Piece (Elt F) S10240x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc5__pool_node_body i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc5__pool_node_body_eq_skeleton]; unfold cc5__pool_node_body_skel
    simp only [k5_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Proof.KI

end
-- ==== Proof.KI.Pool5.RunC.lean ====
/- The pooled node network's body at the last point: the accumulators updated, then the node network of their quotient stored as the result. -/
import proofs.«215230_g44530220925728_cont_8to1c4_163_46_alg».proof.Proof.KI.Pool5.Runs

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

set_option maxHeartbeats 4000000 in

noncomputable def kernelRun5_C (c : Dev nD) (i : grid5.Coords) (arg1 : Memref sig .tc .vmem S512 .i32) (harg1 : arg1.IsWhole) (arg2 : Memref sig .tc .vmem S512 .i32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S10240x128 .f32) (harg9 : arg9.IsWhole) (arg10 : Memref sig .tc .vmem S10240x128 .f32) (harg10 : arg10.IsWhole) (arg11 : Memref sig .tc .vmem S10240x128 .f32) (harg11 : arg11.IsWhole) (hc0 : ¬cond5_0 i) (hc1 : cond5_1 i)
    (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) :
    Σ' (L8 : List (View.Piece (Elt F) S10240x128 .f32)) (LS0 : List (View.Piece (Elt F) S10240x128 .f32)), { LS1 : List (View.Piece (Elt F) S10240x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg10 fullShare xs0 ∗ owns (c : Thread nD τ) arg11 fullShare xs1 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1) ∗ (∃ f, arg9.view.loc (c : Thread nD τ) ↦[arg9.view.set]{fullShare} arg9.view.writes (Elt F) f L8)) -∗ K ⟨⟩))
          ⊢ wp frame (wpE (defs₀ (F := F)) Variants.none c none) E (cc5__pool_node_body i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc5__pool_node_body_eq_skeleton]; unfold cc5__pool_node_body_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    isplitl [HS1]; · iexists _; iexact HS1
    iexists _; iexact H8

end Cert.Proof.KI

end
-- ==== Proof.KI.Pool5.lean ====
/- The pooled node network's region: what each case leaves in the two accumulators and in the result; their contents after each point by recursion on the point; the region's invariant, proof data and body obligation. -/
import proofs.«215230_g44530220925728_cont_8to1c4_163_46_alg».proof.Proof.KI.Pool5.RunA
import proofs.«215230_g44530220925728_cont_8to1c4_163_46_alg».proof.Proof.KI.Pool5.RunB
import proofs.«215230_g44530220925728_cont_8to1c4_163_46_alg».proof.Proof.KI.Pool5.RunC
import Mathlib.Tactic.IntervalCases

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Cases
variable (c : Dev nD) (i : grid5.Coords) (arg1 : Memref sig .tc .vmem S512 .i32) (harg1 : arg1.IsWhole) (arg2 : Memref sig .tc .vmem S512 .i32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S10240x128 .f32) (harg9 : arg9.IsWhole) (arg10 : Memref sig .tc .vmem S10240x128 .f32) (harg10 : arg10.IsWhole) (arg11 : Memref sig .tc .vmem S10240x128 .f32) (harg11 : arg11.IsWhole)

theorem scover5_A_0 (hc0 : cond5_0 i) (hc1 : ¬cond5_1 i) (x0 x1 : Vec F S512 .i32) (x2 x3 : Vec F S512x128 .f32) (y : S10240x128.Idx) :
    ∃ pc ∈ (kernelRun5_A c i arg1 harg1 arg2 harg2 arg3 harg3 arg4 harg4 arg5 harg5 arg6 harg6 arg7 harg7 arg8 harg8 arg9 harg9 arg10 harg10 arg11 harg11 hc0 hc1 x0 x1 x2 x3).1, y ∈ pc.1.set :=
  View.cover_of_tiledL _ S10240x128.size (by sl_kernel_rfl) y

def sout5_A_0 (hc0 : cond5_0 i) (hc1 : ¬cond5_1 i) (x0 x1 : Vec F S512 .i32) (x2 x3 : Vec F S512x128 .f32) : Vec F S10240x128 .f32 :=
  VS5_0.read (Elt F) (VS5_0.writes (Elt F) VS5_0.junk (kernelRun5_A c i arg1 harg1 arg2 harg2 arg3 harg3 arg4 harg4 arg5 harg5 arg6 harg6 arg7 harg7 arg8 harg8 arg9 harg9 arg10 harg10 arg11 harg11 hc0 hc1 x0 x1 x2 x3).1)

theorem scover5_A_1 (hc0 : cond5_0 i) (hc1 : ¬cond5_1 i) (x0 x1 : Vec F S512 .i32) (x2 x3 : Vec F S512x128 .f32) (y : S10240x128.Idx) :
    ∃ pc ∈ (kernelRun5_A c i arg1 harg1 arg2 harg2 arg3 harg3 arg4 harg4 arg5 harg5 arg6 harg6 arg7 harg7 arg8 harg8 arg9 harg9 arg10 harg10 arg11 harg11 hc0 hc1 x0 x1 x2 x3).2.1, y ∈ pc.1.set :=
  View.cover_of_tiledL _ S10240x128.size (by sl_kernel_rfl) y
def sout5_A_1 (hc0 : cond5_0 i) (hc1 : ¬cond5_1 i) (x0 x1 : Vec F S512 .i32) (x2 x3 : Vec F S512x128 .f32) : Vec F S10240x128 .f32 :=
  VS5_1.read (Elt F) (VS5_1.writes (Elt F) VS5_1.junk (kernelRun5_A c i arg1 harg1 arg2 harg2 arg3 harg3 arg4 harg4 arg5 harg5 arg6 harg6 arg7 harg7 arg8 harg8 arg9 harg9 arg10 harg10 arg11 harg11 hc0 hc1 x0 x1 x2 x3).2.1)

theorem scover5_B_0 (hc0 : ¬cond5_0 i) (hc1 : ¬cond5_1 i) (x0 x1 : Vec F S512 .i32) (x2 x3 : Vec F S512x128 .f32) (xs0 xs1 : Vec F S10240x128 .f32) (y : S10240x128.Idx) :
    ∃ pc ∈ (kernelRun5_B c i arg1 harg1 arg2 harg2 arg3 harg3 arg4 harg4 arg5 harg5 arg6 harg6 arg7 harg7 arg8 harg8 arg9 harg9 arg10 harg10 arg11 harg11 hc0 hc1 x0 x1 x2 x3 xs0 xs1).1, y ∈ pc.1.set :=
  View.cover_of_tiledL _ S10240x128.size (by sl_kernel_rfl) y

def sout5_B_0 (hc0 : ¬cond5_0 i) (hc1 : ¬cond5_1 i) (x0 x1 : Vec F S512 .i32) (x2 x3 : Vec F S512x128 .f32) (xs0 xs1 : Vec F S10240x128 .f32) : Vec F S10240x128 .f32 :=
  VS5_0.read (Elt F) (VS5_0.writes (Elt F) VS5_0.junk (kernelRun5_B c i arg1 harg1 arg2 harg2 arg3 harg3 arg4 harg4 arg5 harg5 arg6 harg6 arg7 harg7 arg8 harg8 arg9 harg9 arg10 harg10 arg11 harg11 hc0 hc1 x0 x1 x2 x3 xs0 xs1).1)
theorem scover5_B_1 (hc0 : ¬cond5_0 i) (hc1 : ¬cond5_1 i) (x0 x1 : Vec F S512 .i32) (x2 x3 : Vec F S512x128 .f32) (xs0 xs1 : Vec F S10240x128 .f32) (y : S10240x128.Idx) :
    ∃ pc ∈ (kernelRun5_B c i arg1 harg1 arg2 harg2 arg3 harg3 arg4 harg4 arg5 harg5 arg6 harg6 arg7 harg7 arg8 harg8 arg9 harg9 arg10 harg10 arg11 harg11 hc0 hc1 x0 x1 x2 x3 xs0 xs1).2.1, y ∈ pc.1.set :=
  View.cover_of_tiledL _ S10240x128.size (by sl_kernel_rfl) y
def sout5_B_1 (hc0 : ¬cond5_0 i) (hc1 : ¬cond5_1 i) (x0 x1 : Vec F S512 .i32) (x2 x3 : Vec F S512x128 .f32) (xs0 xs1 : Vec F S10240x128 .f32) : Vec F S10240x128 .f32 :=
  VS5_1.read (Elt F) (VS5_1.writes (Elt F) VS5_1.junk (kernelRun5_B c i arg1 harg1 arg2 harg2 arg3 harg3 arg4 harg4 arg5 harg5 arg6 harg6 arg7 harg7 arg8 harg8 arg9 harg9 arg10 harg10 arg11 harg11 hc0 hc1 x0 x1 x2 x3 xs0 xs1).2.1)

theorem cover5_C_8 (hc0 : ¬cond5_0 i) (hc1 : cond5_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) (y : S10240x128.Idx) :
    ∃ pc ∈ (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1, y ∈ pc.1.set :=
  View.cover_of_tiledL _ S10240x128.size (by sl_kernel_rfl) y

def out5_C_8 (hc0 : ¬cond5_0 i) (hc1 : cond5_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) : Vec F S10240x128 .f32 :=
  VO5_8.read (Elt F) (VO5_8.writes (Elt F) VO5_8.junk (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1)
theorem scover5_C_0 (hc0 : ¬cond5_0 i) (hc1 : cond5_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) (y : S10240x128.Idx) :
    ∃ pc ∈ (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1, y ∈ pc.1.set :=
  View.cover_of_tiledL _ S10240x128.size (by sl_kernel_rfl) y
def sout5_C_0 (hc0 : ¬cond5_0 i) (hc1 : cond5_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) : Vec F S10240x128 .f32 :=
  VS5_0.read (Elt F) (VS5_0.writes (Elt F) VS5_0.junk (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1)
theorem scover5_C_1 (hc0 : ¬cond5_0 i) (hc1 : cond5_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) (y : S10240x128.Idx) :
    ∃ pc ∈ (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1, y ∈ pc.1.set :=
  View.cover_of_tiledL _ S10240x128.size (by sl_kernel_rfl) y
def sout5_C_1 (hc0 : ¬cond5_0 i) (hc1 : cond5_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) : Vec F S10240x128 .f32 :=
  VS5_1.read (Elt F) (VS5_1.writes (Elt F) VS5_1.junk (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1)

end Cases

def out5_idle : Vec F S10240x128 .f32 := VO5_8.read (Elt F) VO5_8.junk

section Region
variable (V : (c : Dev nD) → (b : Ref sig .tc) → Buf (Elt F) ((c : Thread nD τ).loc b))
  (O : Dev nD → CellTallies nD τ sig (HIx 2)) (B : Dev nD → Set (SemLoc sig × HIx 2))

theorem hc5_A0 (hn : 0 < cfg5.N) : cond5_0 (grid5.coords ⟨0, hn⟩) := (hcond5_0 ⟨0, hn⟩).mpr (Nat.zero_mod _)
theorem hc5_A1 (hn : 0 < cfg5.N) : ¬cond5_1 (grid5.coords ⟨0, hn⟩) := fun h => by
  have := (hcond5_1 ⟨0, hn⟩).mp h; (try dsimp only at this); omega
theorem hc5_S0 (n : ℕ) (hn : n + 1 < cfg5.N) : ¬cond5_0 (grid5.coords ⟨n + 1, hn⟩) := fun h => by
  have := (hcond5_0 ⟨n + 1, hn⟩).mp h; (try dsimp only at this)
  have hN : n + 1 < 625 := lt_of_lt_of_eq hn (show cfg5.N = 625 from N_5); omega

def outsAt5 (c : Dev nD) : (n : ℕ) → n < cfg5.N → Vec F S10240x128 .f32 × Vec F S10240x128 .f32 × Vec F S10240x128 .f32
  | 0, hn =>
    let t : Fin cfg5.N := ⟨0, hn⟩
    (out5_idle,
      sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (hc5_A0 hn) (hc5_A1 hn) (iblk5 V c 0 t) (iblk5 V c 1 t) (iblk5 V c 2 t) (iblk5 V c 3 t),
      sout5_A_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (hc5_A0 hn) (hc5_A1 hn) (iblk5 V c 0 t) (iblk5 V c 1 t) (iblk5 V c 2 t) (iblk5 V c 3 t))
  | n + 1, hn =>
    let t : Fin cfg5.N := ⟨n + 1, hn⟩
    if h1 : (n + 1) % 625 = 624 then
      (out5_C_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (hc5_S0 n hn) ((hcond5_1 t).mpr h1) (iblk5 V c 0 t) (iblk5 V c 1 t) (iblk5 V c 2 t) (iblk5 V c 3 t) (iblk5 V c 4 t) (iblk5 V c 5 t) (iblk5 V c 6 t) (iblk5 V c 7 t) (outsAt5 c n (Nat.lt_of_succ_lt hn)).2.1 (outsAt5 c n (Nat.lt_of_succ_lt hn)).2.2,
       sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (hc5_S0 n hn) ((hcond5_1 t).mpr h1) (iblk5 V c 0 t) (iblk5 V c 1 t) (iblk5 V c 2 t) (iblk5 V c 3 t) (iblk5 V c 4 t) (iblk5 V c 5 t) (iblk5 V c 6 t) (iblk5 V c 7 t) (outsAt5 c n (Nat.lt_of_succ_lt hn)).2.1 (outsAt5 c n (Nat.lt_of_succ_lt hn)).2.2,
       sout5_C_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (hc5_S0 n hn) ((hcond5_1 t).mpr h1) (iblk5 V c 0 t) (iblk5 V c 1 t) (iblk5 V c 2 t) (iblk5 V c 3 t) (iblk5 V c 4 t) (iblk5 V c 5 t) (iblk5 V c 6 t) (iblk5 V c 7 t) (outsAt5 c n (Nat.lt_of_succ_lt hn)).2.1 (outsAt5 c n (Nat.lt_of_succ_lt hn)).2.2)
    else
      (out5_idle,
       sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (hc5_S0 n hn) (fun h => h1 ((hcond5_1 t).mp h)) (iblk5 V c 0 t) (iblk5 V c 1 t) (iblk5 V c 2 t) (iblk5 V c 3 t) (outsAt5 c n (Nat.lt_of_succ_lt hn)).2.1 (outsAt5 c n (Nat.lt_of_succ_lt hn)).2.2,
       sout5_B_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (hc5_S0 n hn) (fun h => h1 ((hcond5_1 t).mp h)) (iblk5 V c 0 t) (iblk5 V c 1 t) (iblk5 V c 2 t) (iblk5 V c 3 t) (outsAt5 c n (Nat.lt_of_succ_lt hn)).2.1 (outsAt5 c n (Nat.lt_of_succ_lt hn)).2.2)

abbrev prevS5_0 (c : Dev nD) (t : Fin cfg5.N) : Vec F S10240x128 .f32 := (outsAt5 V c (t.val - 1) (Nat.lt_of_le_of_lt (Nat.sub_le _ _) t.isLt)).2.1
abbrev prevS5_1 (c : Dev nD) (t : Fin cfg5.N) : Vec F S10240x128 .f32 := (outsAt5 V c (t.val - 1) (Nat.lt_of_le_of_lt (Nat.sub_le _ _) t.isLt)).2.2

theorem outsAt5_A (c : Dev nD) (t : Fin cfg5.N) (h0 : t.val % 625 = 0) (h1 : ¬t.val % 625 = 624) :
    outsAt5 V c t.val t.isLt = (out5_idle,
      sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t),
      sout5_A_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t)) := by
  obtain ⟨n, hn⟩ := t
  cases n with
  | zero => exact rfl
  | succ n => exact (by exfalso; (try dsimp only at h0); have hN : n + 1 < 625 := lt_of_lt_of_eq hn (show cfg5.N = 625 from N_5); omega)

theorem outsAt5_B (c : Dev nD) (t : Fin cfg5.N) (h0 : ¬t.val % 625 = 0) (h1 : ¬t.val % 625 = 624) :
    outsAt5 V c t.val t.isLt = (out5_idle,
      sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (prevS5_0 V c t) (prevS5_1 V c t),
      sout5_B_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (prevS5_0 V c t) (prevS5_1 V c t)) := by
  obtain ⟨n, hn⟩ := t
  cases n with
  | zero => exact (by exfalso; (try dsimp only at h0); exact absurd (Nat.zero_mod _) h0)
  | succ n => exact (dif_neg h1).trans rfl

theorem outsAt5_C (c : Dev nD) (t : Fin cfg5.N) (h0 : ¬t.val % 625 = 0) (h1 : t.val % 625 = 624) :
    outsAt5 V c t.val t.isLt = (
      out5_C_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (prevS5_0 V c t) (prevS5_1 V c t),
      sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (prevS5_0 V c t) (prevS5_1 V c t),
      sout5_C_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (prevS5_0 V c t) (prevS5_1 V c t)) := by
  obtain ⟨n, hn⟩ := t
  cases n with
  | zero => exact (by exfalso; (try dsimp only at h0); exact absurd (Nat.zero_mod _) h0)
  | succ n => exact (dif_pos h1).trans rfl

def PhiS5 (c : Dev nD) : (n : ℕ) → n ≤ cfg5.N → sProp 𝕄
  | 0, _ => Pipeline.scopedRest spec5 c
  | n + 1, hn => iprop(iprop(owns (c : Thread nD τ) scM5_0 fullShare (outsAt5 V c n hn).2.1 ∗ owns (c : Thread nD τ) scM5_1 fullShare (outsAt5 V c n hn).2.2)
      ∗ Pipeline.scopedRestBut spec5 c [cc5_scratch0, cc5_scratch1])

theorem PhiS5_zero (c : Dev nD) (n : ℕ) (h : n ≤ cfg5.N) (hz : n = 0) : PhiS5 V c n h = Pipeline.scopedRest spec5 c := by
  subst hz; rfl

theorem PhiS5_succ (c : Dev nD) (n : ℕ) (hn : n < cfg5.N) :
    PhiS5 V c (n + 1) hn = iprop(iprop(owns (c : Thread nD τ) scM5_0 fullShare (outsAt5 V c n hn).2.1 ∗ owns (c : Thread nD τ) scM5_1 fullShare (outsAt5 V c n hn).2.2)
      ∗ Pipeline.scopedRestBut spec5 c [cc5_scratch0, cc5_scratch1]) := rfl

theorem PhiS5_pos (c : Dev nD) (n : ℕ) (h : n ≤ cfg5.N) (hz : n ≠ 0) :
    PhiS5 V c n h = iprop(iprop(owns (c : Thread nD τ) scM5_0 fullShare (outsAt5 V c (n - 1) (by omega)).2.1 ∗ owns (c : Thread nD τ) scM5_1 fullShare (outsAt5 V c (n - 1) (by omega)).2.2)
      ∗ Pipeline.scopedRestBut spec5 c [cc5_scratch0, cc5_scratch1]) := by
  cases n with
  | zero => exact absurd rfl hz
  | succ n => rfl

def dat5 (c : Dev nD) : Dat τ (Elt F) (HIx 2) ℕ UU ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => (outsAt5 V c t.val t.isLt).1
  Φ t := PhiS5 V c t.val (Nat.le_of_lt_succ t.isLt)
  q _ := fullShare
  owed _ := O c
  recorded _ := B c

theorem A_eq5 (c : Dev nD) (w : Fin cfg5.W) : (dat5 V O B c).A w = V c (Pipeline.arrRef spec5 w) := by
  dsimp only [dat5]

theorem PhiS5_castSucc (c : Dev nD) (t : Fin cfg5.N) :
    (dat5 V O B c).Φ t.castSucc = PhiS5 V c t.val (Nat.le_of_lt t.isLt) := by
  dsimp only [dat5]; simp only [Fin.coe_castSucc]

theorem after5_8 (c : Dev nD) (t : Fin cfg5.N) : (dat5 V O B c).after 8 t = (outsAt5 V c t.val t.isLt).1 := by dsimp only [dat5]

theorem before5_in (c : Dev nD) (w : Fin cfg5.W) (hw : w.val < 8) (t : Fin cfg5.N) (d) :
    (dat5 V O B c).before w t d = (dat5 V O B c).fetched w t d := by
  obtain ⟨k, hk⟩ := w
  change k < 8 at hw
  interval_cases k <;>
    exact Dat.before_in_eq_fetched _ _ rfl (fun _ => rfl) (fun _ _ _ => rfl) (fun _ => by dsimp only [dat5]; rfl) t d

def bodyPre5 (c : Dev nD) (t : Fin cfg5.N) : sProp 𝕄 :=
  iprop((dat5 V O B c).Φ t.castSucc ∗ (dat5 V O B c).owesAt none t.castSucc
    ∗ (∃ d, owns (c : Thread nD τ) (ms5_0 t) fullShare ((dat5 V O B c).before 0 t d))
    ∗ (∃ d, owns (c : Thread nD τ) (ms5_1 t) fullShare ((dat5 V O B c).before 1 t d))
    ∗ (∃ d, owns (c : Thread nD τ) (ms5_2 t) fullShare ((dat5 V O B c).before 2 t d))
    ∗ (∃ d, owns (c : Thread nD τ) (ms5_3 t) fullShare ((dat5 V O B c).before 3 t d))
    ∗ (∃ d, owns (c : Thread nD τ) (ms5_4 t) fullShare ((dat5 V O B c).before 4 t d))
    ∗ (∃ d, owns (c : Thread nD τ) (ms5_5 t) fullShare ((dat5 V O B c).before 5 t d))
    ∗ (∃ d, owns (c : Thread nD τ) (ms5_6 t) fullShare ((dat5 V O B c).before 6 t d))
    ∗ (∃ d, owns (c : Thread nD τ) (ms5_7 t) fullShare ((dat5 V O B c).before 7 t d))
    ∗ (∃ d, owns (c : Thread nD τ) (ms5_8 t) fullShare ((dat5 V O B c).before 8 t d)))

def bodyPost5 (c : Dev nD) (t : Fin cfg5.N) : sProp 𝕄 :=
  iprop((dat5 V O B c).Φ t.succ ∗ (dat5 V O B c).owesAt none t.succ
    ∗ owns (c : Thread nD τ) (ms5_0 t) fullShare ((dat5 V O B c).after 0 t)
    ∗ owns (c : Thread nD τ) (ms5_1 t) fullShare ((dat5 V O B c).after 1 t)
    ∗ owns (c : Thread nD τ) (ms5_2 t) fullShare ((dat5 V O B c).after 2 t)
    ∗ owns (c : Thread nD τ) (ms5_3 t) fullShare ((dat5 V O B c).after 3 t)
    ∗ owns (c : Thread nD τ) (ms5_4 t) fullShare ((dat5 V O B c).after 4 t)
    ∗ owns (c : Thread nD τ) (ms5_5 t) fullShare ((dat5 V O B c).after 5 t)
    ∗ owns (c : Thread nD τ) (ms5_6 t) fullShare ((dat5 V O B c).after 6 t)
    ∗ owns (c : Thread nD τ) (ms5_7 t) fullShare ((dat5 V O B c).after 7 t)
    ∗ (dat5 V O B c).leavesExact 8 t)

set_option maxHeartbeats 4800000 in

theorem sound_body5 (c : Dev nD) (t : Fin cfg5.N) :
    bodyPre5 V O B c t ⊢ wp frame (wpE (defs₀ (F := F)) Variants.none c none) Set.univ (bodyAt5 t) (fun _ => bodyPost5 V O B c t) := by
  unfold bodyPre5 bodyPost5 bodyAt5
  simp (disch := decide) only [before5_in]
  rw [show (dat5 V O B c).owesAt none t.succ = (dat5 V O B c).owesAt none t.castSucc from rfl]
  rw [show (dat5 V O B c).Φ t.succ = PhiS5 V c (t.val + 1) t.isLt from rfl, PhiS5_succ]
  have hN : t.val < 625 := lt_of_lt_of_eq t.isLt (show cfg5.N = 625 from N_5)
  by_cases h1 : t.val % 625 = 624
  · have h0 : ¬t.val % 625 = 0 := by omega
    have hz : t.val ≠ 0 := by omega
    rw [show (dat5 V O B c).leavesExact 8 t = owns (c : Thread nD τ) (ms5_8 t) fullShare ((dat5 V O B c).after 8 t) from by
      unfold Dat.leavesExact; rw [liveAt5_8 t ((hcond5_1 t).mpr h1)], after5_8]
    rw [outsAt5_C V c t h0 h1]
    unfold out5_C_8 sout5_C_0 sout5_C_1; (try dsimp only)
    rw [PhiS5_castSucc V O B c t, PhiS5_pos V c _ _ hz]
    dsimp only [dat5]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun5_C c (grid5.coords t) _ _ _ _ _ _ _ _ _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [H8]; · iexists _; iexact H8
    iintro ⟨H0, H1, H2, H3, H4, H5, H6, H7, ⟨%es0, HS0⟩, ⟨%es1, HS1⟩, ⟨%e8, H8⟩⟩
    isplitl [HS0 HS1 HR]
    · isplitl [HS0 HS1]
      · isplitl [HS0]
        · unfold owns; iexists _; isplitr
          swap; · iexact HS0
          ipureintro; exact View.read_writes_of_cover _ _ _ _ _ (scover5_C_0 c _ _ _ _ _ _ _ _ _ _ _ _ _ _ _ _ _ _ _ _ _ _ _ _ _ _ _ _ _ _ _ _ _ _ _ )
        · unfold owns; iexists _; isplitr
          swap; · iexact HS1
          ipureintro; exact View.read_writes_of_cover _ _ _ _ _ (scover5_C_1 c _ _ _ _ _ _ _ _ _ _ _ _ _ _ _ _ _ _ _ _ _ _ _ _ _ _ _ _ _ _ _ _ _ _ _ )
      iexact HR
    iframe Ho H0 H1 H2 H3 H4 H5 H6 H7
    unfold owns; iexists _; isplitr
    swap; · iexact H8
    ipureintro; exact View.read_writes_of_cover _ _ _ _ _ (cover5_C_8 c _ _ _ _ _ _ _ _ _ _ _ _ _ _ _ _ _ _ _ _ _ _ _ _ _ _ _ _ _ _ _ _ _ _ _ )
  · rw [Dat.leavesExact_idle (dat5 V O B c) 8 t (idleAt5_8 t (fun h => h1 ((hcond5_1 t).mp h))) (noFlush5_8 t (fun h => h1 ((hcond5_1 t).mp h)))]
    by_cases h0 : t.val % 625 = 0
    · have hz : t.val = 0 := by omega
      rw [outsAt5_A V c t h0 h1]
      unfold sout5_A_0 sout5_A_1; (try dsimp only)
      rw [PhiS5_castSucc V O B c t, PhiS5_zero V c _ _ hz, scopedRest5_owns]
      dsimp only [dat5]
      iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun5_A c (grid5.coords t) _ _ _ _ _ _ _ _ _ _ _ _ _ _ _ _ _ _ _ _ _ _ ((hcond5_0 t).mpr h0) (fun h => h1 ((hcond5_1 t).mp h)) (iblk5 V c 0 t) (iblk5 V c 1 t) (iblk5 V c 2 t) (iblk5 V c 3 t)).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR]
      · isplitl [HS0 HS1]
        · isplitl [HS0]
          · unfold owns; iexists _; isplitr
            swap; · iexact HS0
            ipureintro; exact View.read_writes_of_cover _ _ _ _ _ (scover5_A_0 c _ _ _ _ _ _ _ _ _ _ _ _ _ _ _ _ _ _ _ _ _ _ _ _ _ _ _ _ _ )
          · unfold owns; iexists _; isplitr
            swap; · iexact HS1
            ipureintro; exact View.read_writes_of_cover _ _ _ _ _ (scover5_A_1 c _ _ _ _ _ _ _ _ _ _ _ _ _ _ _ _ _ _ _ _ _ _ _ _ _ _ _ _ _ )
        iexact HR
      iframe Ho H0 H1 H2 H3
      isplitl [H4]; · iexact H4
      isplitl [H5]; · iexact H5
      isplitl [H6]; · iexact H6
      isplitl [H7]; · iexact H7
      iexists _; iexact H8
    · have hz : t.val ≠ 0 := by omega
      rw [outsAt5_B V c t h0 h1]
      unfold sout5_B_0 sout5_B_1; (try dsimp only)
      rw [PhiS5_castSucc V O B c t, PhiS5_pos V c _ _ hz]
      dsimp only [dat5]
      iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun5_B c (grid5.coords t) _ _ _ _ _ _ _ _ _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) _ _).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR]
      · isplitl [HS0 HS1]
        · isplitl [HS0]
          · unfold owns; iexists _; isplitr
            swap; · iexact HS0
            ipureintro; exact View.read_writes_of_cover _ _ _ _ _ (scover5_B_0 c _ _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover5_B_1 c _ _ _ _ _ _ _ _ _ _ _ _ _ _ _ _ _ _ _ _ _ _ _ _ _ _ _ _ _ _ _ )
        iexact HR
      iframe Ho H0 H1 H2 H3
      isplitl [H4]; · iexact H4
      isplitl [H5]; · iexact H5
      isplitl [H6]; · iexact H6
      isplitl [H7]; · iexact H7
      iexists _; iexact H8

theorem body_obligation5 (c : Dev nD) : BodyObligation (dat5 (F := F) V O B c) (defs₀ (F := F)) Variants.none (none : HIx 2) Set.univ := fun t => by
  rw [bigSep_W5, bigSep_W5]
  exact sound_body5 V O B c t

theorem body_obligationLoose5 (c : Dev nD) : Pipeline.BodyObligationLoose (dat5 (F := F) V O B c) (defs₀ (F := F)) Variants.none (none : HIx 2) Set.univ :=
  (body_obligation5 V O B c).loose

abbrev X5 (_ : Dev nD) : sProp 𝕄 := iprop(emp)
abbrev Y5 (_ : Dev nD) : sProp 𝕄 := iprop(emp)

theorem hin5 (c : Dev nD) (P : sProp 𝕄) : iprop(X5 (F := F) c ∗ P ∗ Pipeline.scopedRest spec5 c) ⊢ (dat5 V O B c).Φ 0 := by
  rw [show (dat5 V O B c).Φ 0 = PhiS5 V c 0 (Nat.zero_le _) from rfl, PhiS5_zero V c 0 _ rfl]
  iintro ⟨-, -, Hr⟩; iexact Hr

theorem Phi_out5 (c : Dev nD) (t : Fin (cfg5.N + 1)) (ht : t.val ≠ 0) : (dat5 V O B c).Φ t ⊢ (Pipeline.scopedRest spec5 c : sProp 𝕄) := by
  rw [show (dat5 V O B c).Φ t = PhiS5 V c t.val (Nat.le_of_lt_succ t.isLt) from rfl, PhiS5_pos V c _ _ ht, scopedRest5_owns]
  iintro ⟨⟨HS0, HS1⟩, HR⟩
  isplitl [HS0 HS1]
  · isplitl [HS0]
    · iexists _; iexact HS0
    · iexists _; iexact HS1
  iexact HR

theorem hout5 (c : Dev nD) : (dat5 V O B c).Φ (Fin.last cfg5.N) ⊢ iprop(Y5 (F := F) c ∗ Pipeline.ownSems0 (fun k : PEmpty => k.elim) c ∗ Pipeline.scopedRest spec5 c) := by
  rw [Pipeline.ownSems0_none]
  iintro H
  isplitr; · iempintro
  isplitr; · iempintro
  iapply (Phi_out5 V O B c _ (by rw [Fin.val_last]; have : cfg5.N = 625 := N_5; omega))
  iexact H

end Region

end Cert.Proof.KI

end
-- ==== Proof.KI.Vals.lean ====
/- The contents of @main's buffers at each of its boundaries, as a fold through @main from the launch memory. -/
import proofs.«215230_g44530220925728_cont_8to1c4_163_46_alg».proof.Proof.KI.Host
import proofs.«215230_g44530220925728_cont_8to1c4_163_46_alg».proof.Proof.KI.Pay
import proofs.«215230_g44530220925728_cont_8to1c4_163_46_alg».proof.Proof.KI.Edge
import proofs.«215230_g44530220925728_cont_8to1c4_163_46_alg».proof.Proof.KI.Edge4
import proofs.«215230_g44530220925728_cont_8to1c4_163_46_alg».proof.Proof.KI.Pool
import proofs.«215230_g44530220925728_cont_8to1c4_163_46_alg».proof.Proof.KI.Pool5
import Idealize.ShloMosaic.Lib.Pipeline.FrameSuffix

noncomputable section

namespace Cert.Proof.KI

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

abbrev Oat (n : ℕ) : Dev nD → CellTallies nD τ sig (HIx 2) := fun c => (K (F := F)).Otc c n

abbrev Bat (n : ℕ) : Dev nD → Set (SemLoc sig × HIx 2) := fun c => {p | (K (F := F)).lev (SparseCore.T c, p.1) p.2 ≤ 8 * n}

abbrev W0 : Dev nD → Valuation τ sig (Elt F) := fun c b => m (c, b)

abbrev W1 : Dev nD → Valuation τ sig (Elt F) := fun c => StableHlo.after opsA (W0 m c)

abbrev dr (b : Ref sig .tc) : DevRef τ sig := Proc.devRef .tc b

def W2 (c : Dev nD) : Valuation τ sig (Elt F) :=
  Function.update (Function.update (W1 m c) (dr main_v4_0) (gath0 c (W1 m c (dr main_arg0)) (W1 m c (dr main_v1))))
    (dr main_v4_1) (gath0 c (W1 m c (dr main_arg0)) (W1 m c (dr main_v3)))

abbrev W3 : Dev nD → Valuation τ sig (Elt F) := fun c => StableHlo.after opsB (W2 m c)
abbrev V3 : (c : Dev nD) → (b : Ref sig .tc) → Buf (Elt F) ((c : Thread nD τ).loc b) := fun c b => W3 m c b

abbrev Rinv1 : Dev nD → sProp (MT nD τ sig (HIx 2) (Elt F) ℕ UU ℕ) := fun c => Pipeline.scopedRest spec1 c
abbrev Rinv4 : Dev nD → sProp (MT nD τ sig (HIx 2) (Elt F) ℕ UU ℕ) := fun c => Pipeline.scopedRest spec4 c

def W4 (c : Dev nD) : Valuation τ sig (Elt F) :=
  Pipeline.withArrays spec1 c (W3 m c) fun w => (dat1 (V3 m) (Oat (F := F) 1) (Bat (F := F) 1) Rinv1 c).arrAt w cfg1.N
abbrev W5 : Dev nD → Valuation τ sig (Elt F) := fun c => StableHlo.after opsC (W4 m c)
abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) (Oat (F := F) 1) (Bat (F := F) 1) c).arrAt w cfg2.N

def W7 (c : Dev nD) : Valuation τ sig (Elt F) :=
  Function.update (Function.update (W6 m c) (dr main_v14_0) (gath1 c (W6 m c (dr main_v13)) (W6 m c (dr main_v1))))
    (dr main_v14_1) (gath1 c (W6 m c (dr main_v13)) (W6 m c (dr main_v3)))
abbrev W8 : Dev nD → Valuation τ sig (Elt F) := fun c => StableHlo.after opsD (W7 m c)
abbrev V8 : (c : Dev nD) → (b : Ref sig .tc) → Buf (Elt F) ((c : Thread nD τ).loc b) := fun c b => W8 m c b
def W9 (c : Dev nD) : Valuation τ sig (Elt F) :=
  Pipeline.withArrays spec4 c (W8 m c) fun w => (dat4 (V8 m) (Oat (F := F) 2) (Bat (F := F) 2) Rinv4 c).arrAt w cfg4.N
abbrev W10 : Dev nD → Valuation τ sig (Elt F) := fun c => StableHlo.after opsE (W9 m c)
abbrev V10 : (c : Dev nD) → (b : Ref sig .tc) → Buf (Elt F) ((c : Thread nD τ).loc b) := fun c b => W10 m c b
def W11 (c : Dev nD) : Valuation τ sig (Elt F) :=
  Pipeline.withArrays spec5 c (W10 m c) fun w => (dat5 (V10 m) (Oat (F := F) 2) (Bat (F := F) 2) c).arrAt w cfg5.N

abbrev W12 : Dev nD → Valuation τ sig (Elt F) := fun c => StableHlo.after opsF (W11 m c)

def X : GIn F where
  obj0 c := W1 m c (dr main_arg0)
  obj1 c := W6 m c (dr main_v13)
  si c := W1 m c (dr main_v1)
  oi c := W1 m c (dr main_v3)

def pdats : (p : Fin 4) → (c : Dev nD) → Dat τ (Elt F) (HIx 2) ℕ UU ℕ (Pipeline.pin (pcfgs (F := F)) adm p) c
  | ⟨0, _⟩ => fun c => dat1 (V3 m) (Oat (F := F) 1) (Bat (F := F) 1) Rinv1 c
  | ⟨1, _⟩ => fun c => dat2 (V5 m) (Oat (F := F) 1) (Bat (F := F) 1) c
  | ⟨2, _⟩ => fun c => dat4 (V8 m) (Oat (F := F) 2) (Bat (F := F) 2) Rinv4 c
  | ⟨3, _⟩ => fun c => dat5 (V10 m) (Oat (F := F) 2) (Bat (F := F) 2) c

end Cert.Proof.KI

end
-- ==== Proof.KI.Keep.lean ====
/- What the fold through @main keeps: a buffer no line writes passes a host stretch, a gather call changes only its two results, a region only its output arrays; so every argument array ends as launched. -/
import proofs.«215230_g44530220925728_cont_8to1c4_163_46_alg».proof.Proof.KI.Vals

noncomputable section

namespace Cert.Proof.KI

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

/-- Every line of `ops` writes only buffers of `Ws`. -/
def Writes (ops : List (HloOp τ sig (Elt F))) (Ws : List (Ref sig .tc)) : Prop :=
  ops.Forall fun op => op.writes ⊆ (Ws.map (Proc.devRef (τ := τ) .tc)).toFinset

abbrev opsA_W : List (Ref sig .tc) := [main_v0, main_v1, main_v2, main_v3]
abbrev opsB_W : List (Ref sig .tc) := [main_v5, main_v6, main_v7, main_v8, main_v9]
abbrev opsC_W : List (Ref sig .tc) := [main_v11, main_v12]
abbrev opsD_W : List (Ref sig .tc) := [main_v15, main_v16, main_v17, main_v18, main_v19]
abbrev opsE_W : List (Ref sig .tc) := [main_v21, main_v22]
abbrev opsF_W : List (Ref sig .tc) := [main_v24]

/-- Each stretch of lines between two calls or regions writes its own results and nothing else. -/
theorem ops_writes : Writes (F := F) opsA opsA_W ∧ Writes (F := F) opsB opsB_W ∧ Writes (F := F) opsC opsC_W ∧
    Writes (F := F) opsD opsD_W ∧ Writes (F := F) opsE opsE_W ∧ Writes (F := F) opsF opsF_W := by
  simp only [Writes, List.Forall, StableHlo.unary_writes, StableHlo.reshape_writes, Finset.singleton_subset_iff, List.mem_toFinset]
  repeat' apply And.intro
  all_goals exact List.mem_map_of_mem (by decide)

section
variable (W : Valuation τ sig (Elt F)) (b : Ref sig .tc)
theorem opsA_keep (h : b ∉ opsA_W) : StableHlo.after opsA W (Proc.devRef .tc b) = W (Proc.devRef .tc b) :=
  StableHlo.after_of_writes_sub opsA W ops_writes.1 h
theorem opsB_keep (h : b ∉ opsB_W) : StableHlo.after opsB W (Proc.devRef .tc b) = W (Proc.devRef .tc b) :=
  StableHlo.after_of_writes_sub opsB W ops_writes.2.1 h
theorem opsC_keep (h : b ∉ opsC_W) : StableHlo.after opsC W (Proc.devRef .tc b) = W (Proc.devRef .tc b) :=
  StableHlo.after_of_writes_sub opsC W ops_writes.2.2.1 h
theorem opsD_keep (h : b ∉ opsD_W) : StableHlo.after opsD W (Proc.devRef .tc b) = W (Proc.devRef .tc b) :=
  StableHlo.after_of_writes_sub opsD W ops_writes.2.2.2.1 h
theorem opsE_keep (h : b ∉ opsE_W) : StableHlo.after opsE W (Proc.devRef .tc b) = W (Proc.devRef .tc b) :=
  StableHlo.after_of_writes_sub opsE W ops_writes.2.2.2.2.1 h
theorem opsF_keep (h : b ∉ opsF_W) : StableHlo.after opsF W (Proc.devRef .tc b) = W (Proc.devRef .tc b) :=
  StableHlo.after_of_writes_sub opsF W ops_writes.2.2.2.2.2 h
end

variable (m : (ℓ : Loc nD τ sig) → Buf (Elt F) ℓ)

theorem keep2_of_ne (c : Dev nD) (b : Ref sig .tc) (h : b ∉ ([main_v4_0, main_v4_1] : List (Ref sig .tc))) :
    W2 m c (dr b) = W1 m c (dr b) := by
  have h0 : (dr b : DevRef τ sig) ≠ dr main_v4_0 := StableHlo.devRef_ne_of_ne (List.ne_of_not_mem_cons h)
  have h1 : (dr b : DevRef τ sig) ≠ dr main_v4_1 := StableHlo.devRef_ne_of_ne (List.ne_of_not_mem_cons (List.not_mem_of_not_mem_cons h))
  unfold W2
  rw [Function.update_of_ne h1, Function.update_of_ne h0]
theorem keep2_r0 (c : Dev nD) :
    W2 m c (dr main_v4_0) = gath0 c (W1 m c (dr main_arg0)) (W1 m c (dr main_v1)) := by
  have h1 : (dr main_v4_0 : DevRef τ sig) ≠ dr main_v4_1 := StableHlo.devRef_ne_of_ne (by decide)
  unfold W2
  rw [Function.update_of_ne h1, Function.update_self]
theorem keep2_r1 (c : Dev nD) :
    W2 m c (dr main_v4_1) = gath0 c (W1 m c (dr main_arg0)) (W1 m c (dr main_v3)) := by
  unfold W2
  rw [Function.update_self]

theorem keep7_of_ne (c : Dev nD) (b : Ref sig .tc) (h : b ∉ ([main_v14_0, main_v14_1] : List (Ref sig .tc))) :
    W7 m c (dr b) = W6 m c (dr b) := by
  have h0 : (dr b : DevRef τ sig) ≠ dr main_v14_0 := StableHlo.devRef_ne_of_ne (List.ne_of_not_mem_cons h)
  have h1 : (dr b : DevRef τ sig) ≠ dr main_v14_1 := StableHlo.devRef_ne_of_ne (List.ne_of_not_mem_cons (List.not_mem_of_not_mem_cons h))
  unfold W7
  rw [Function.update_of_ne h1, Function.update_of_ne h0]
theorem keep7_r0 (c : Dev nD) :
    W7 m c (dr main_v14_0) = gath1 c (W6 m c (dr main_v13)) (W6 m c (dr main_v1)) := by
  have h1 : (dr main_v14_0 : DevRef τ sig) ≠ dr main_v14_1 := StableHlo.devRef_ne_of_ne (by decide)
  unfold W7
  rw [Function.update_of_ne h1, Function.update_self]
theorem keep7_r1 (c : Dev nD) :
    W7 m c (dr main_v14_1) = gath1 c (W6 m c (dr main_v13)) (W6 m c (dr main_v3)) := by
  unfold W7
  rw [Function.update_self]

/-- If every array that is buffer `b` is written with what `V` holds there, then `b` holds after the writes what `V` holds. -/
theorem withArrays_pass {gr W : Nat} (win : Fin W → Pipeline.WinSpec sig gr) (hinj : Function.Injective (Pipeline.arrRef win))
    (c : Dev nD) (V : Valuation τ sig (Elt F)) (A : (w : Fin W) → Buf (Elt F) ((win w).arr.view.loc (c.tc : Thread nD τ)))
    (b : Ref sig .tc) (h : ∀ w, Pipeline.arrRef win w = b → A w = V (dr (Pipeline.arrRef win w))) :
    Pipeline.withArrays win c V A (dr b) = V (dr b) := by
  by_cases hw : ∃ w, Pipeline.arrRef win w = b
  · obtain ⟨w, rfl⟩ := hw
    exact (Pipeline.withArrays_arr win hinj c V A w).trans (h w rfl)
  · exact Pipeline.withArrays_of_ne win c V A b fun w e => hw ⟨w, e⟩

/-- A region's arrays end at what its proof data records; a buffer that is no output array of the region is unchanged by it. -/
theorem keep4_arr (c : Dev nD) (w : Fin cfg1.W) :
    W4 m c (dr (Pipeline.arrRef spec1 w)) = (dat1 (V3 m) (Oat (F := F) 1) (Bat (F := F) 1) Rinv1 c).arrAt w cfg1.N := by
  unfold W4; exact Pipeline.withArrays_arr spec1 launch1.win.arr_inj c _ _ w
theorem keep4_pass (c : Dev nD) (b : Ref sig .tc) (h : ∀ w : Fin cfg1.W, Pipeline.arrRef spec1 w = b → (cfg1.win w).isOut = false) :
    W4 m c (dr b) = W3 m c (dr b) := by
  unfold W4
  exact withArrays_pass spec1 launch1.win.arr_inj c _ _ b fun w e => ((dat1 (V3 m) (Oat (F := F) 1) (Bat (F := F) 1) Rinv1 c).arrAt_in w (h w e) _).trans (A_eq1 (V3 m) (Oat (F := F) 1) (Bat (F := F) 1) Rinv1 c w)

theorem keep6_arr (c : Dev nD) (w : Fin cfg2.W) :
    W6 m c (dr (Pipeline.arrRef spec2 w)) = (dat2 (V5 m) (Oat (F := F) 1) (Bat (F := F) 1) c).arrAt w cfg2.N := by
  unfold W6; exact Pipeline.withArrays_arr spec2 launch2.win.arr_inj c _ _ w
theorem keep6_pass (c : Dev nD) (b : Ref sig .tc) (h : ∀ w : Fin cfg2.W, Pipeline.arrRef spec2 w = b → (cfg2.win w).isOut = false) :
    W6 m c (dr b) = W5 m c (dr b) := by
  unfold W6
  exact withArrays_pass spec2 launch2.win.arr_inj c _ _ b fun w e => ((dat2 (V5 m) (Oat (F := F) 1) (Bat (F := F) 1) c).arrAt_in w (h w e) _).trans (A_eq2 (V5 m) (Oat (F := F) 1) (Bat (F := F) 1) c w)

theorem keep9_arr (c : Dev nD) (w : Fin cfg4.W) :
    W9 m c (dr (Pipeline.arrRef spec4 w)) = (dat4 (V8 m) (Oat (F := F) 2) (Bat (F := F) 2) Rinv4 c).arrAt w cfg4.N := by
  unfold W9; exact Pipeline.withArrays_arr spec4 launch4.win.arr_inj c _ _ w
theorem keep9_pass (c : Dev nD) (b : Ref sig .tc) (h : ∀ w : Fin cfg4.W, Pipeline.arrRef spec4 w = b → (cfg4.win w).isOut = false) :
    W9 m c (dr b) = W8 m c (dr b) := by
  unfold W9
  exact withArrays_pass spec4 launch4.win.arr_inj c _ _ b fun w e => ((dat4 (V8 m) (Oat (F := F) 2) (Bat (F := F) 2) Rinv4 c).arrAt_in w (h w e) _).trans (A_eq4 (V8 m) (Oat (F := F) 2) (Bat (F := F) 2) Rinv4 c w)

theorem keep11_arr (c : Dev nD) (w : Fin cfg5.W) :
    W11 m c (dr (Pipeline.arrRef spec5 w)) = (dat5 (V10 m) (Oat (F := F) 2) (Bat (F := F) 2) c).arrAt w cfg5.N := by
  unfold W11; exact Pipeline.withArrays_arr spec5 launch5.win.arr_inj c _ _ w
theorem keep11_pass (c : Dev nD) (b : Ref sig .tc) (h : ∀ w : Fin cfg5.W, Pipeline.arrRef spec5 w = b → (cfg5.win w).isOut = false) :
    W11 m c (dr b) = W10 m c (dr b) := by
  unfold W11
  exact withArrays_pass spec5 launch5.win.arr_inj c _ _ b fun w e => ((dat5 (V10 m) (Oat (F := F) 2) (Bat (F := F) 2) c).arrAt_in w (h w e) _).trans (A_eq5 (V10 m) (Oat (F := F) 2) (Bat (F := F) 2) c w)

/-- The nineteen argument arrays. -/
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]
/-- The buffers followed through the whole fold: the two index columns and the argument arrays. -/
abbrev kept : List (Ref sig .tc) := main_v1 :: main_v3 :: args

theorem args_unscoped : ∀ b ∈ args, ¬ (dr b : DevRef τ sig).isScoped := by decide

section
variable (c : Dev nD) (b : Ref sig .tc) (hb : b ∈ kept)
include hb

/-- No later step of the fold writes a kept buffer: at every later boundary it is as the first stretch left it. -/
theorem W2_keep : W2 m c (dr b) = W1 m c (dr b) :=
  keep2_of_ne m c b ((by decide : ∀ b ∈ kept, b ∉ [main_v4_0, main_v4_1]) b hb)
theorem W3_keep : W3 m c (dr b) = W1 m c (dr b) :=
  (opsB_keep _ b ((by decide : ∀ b ∈ kept, b ∉ opsB_W) b hb)).trans (W2_keep m c b hb)
theorem W4_keep : W4 m c (dr b) = W1 m c (dr b) :=
  (keep4_pass m c b ((by decide : ∀ b ∈ kept, ∀ w : Fin cfg1.W, Pipeline.arrRef spec1 w = b → (cfg1.win w).isOut = false) b hb)).trans (W3_keep m c b hb)
theorem W5_keep : W5 m c (dr b) = W1 m c (dr b) :=
  (opsC_keep _ b ((by decide : ∀ b ∈ kept, b ∉ opsC_W) b hb)).trans (W4_keep m c b hb)
theorem W6_keep : W6 m c (dr b) = W1 m c (dr b) :=
  (keep6_pass m c b ((by decide : ∀ b ∈ kept, ∀ w : Fin cfg2.W, Pipeline.arrRef spec2 w = b → (cfg2.win w).isOut = false) b hb)).trans (W5_keep m c b hb)
theorem W7_keep : W7 m c (dr b) = W1 m c (dr b) :=
  (keep7_of_ne m c b ((by decide : ∀ b ∈ kept, b ∉ [main_v14_0, main_v14_1]) b hb)).trans (W6_keep m c b hb)
theorem W8_keep : W8 m c (dr b) = W1 m c (dr b) :=
  (opsD_keep _ b ((by decide : ∀ b ∈ kept, b ∉ opsD_W) b hb)).trans (W7_keep m c b hb)
theorem W9_keep : W9 m c (dr b) = W1 m c (dr b) :=
  (keep9_pass m c b ((by decide : ∀ b ∈ kept, ∀ w : Fin cfg4.W, Pipeline.arrRef spec4 w = b → (cfg4.win w).isOut = false) b hb)).trans (W8_keep m c b hb)
theorem W10_keep : W10 m c (dr b) = W1 m c (dr b) :=
  (opsE_keep _ b ((by decide : ∀ b ∈ kept, b ∉ opsE_W) b hb)).trans (W9_keep m c b hb)
theorem W11_keep : W11 m c (dr b) = W1 m c (dr b) :=
  (keep11_pass m c b ((by decide : ∀ b ∈ kept, ∀ w : Fin cfg5.W, Pipeline.arrRef spec5 w = b → (cfg5.win w).isOut = false) b hb)).trans (W10_keep m c b hb)
theorem W12_keep : W12 m c (dr b) = W1 m c (dr b) :=
  (opsF_keep _ b ((by decide : ∀ b ∈ kept, b ∉ opsF_W) b hb)).trans (W11_keep m c b hb)
end

/-- An argument array is as launched after the first stretch, hence at every boundary of the fold. -/
theorem W1_arg (c : Dev nD) (b : Ref sig .tc) (hb : b ∈ args) : W1 m c (dr b) = m ((c : Thread nD τ).loc b) :=
  (opsA_keep (W0 m c) b ((by decide : ∀ b ∈ args, b ∉ opsA_W) b hb)).trans rfl
theorem W12_arg (c : Dev nD) (b : Ref sig .tc) (hb : b ∈ args) : W12 m c (dr b) = m ((c : Thread nD τ).loc b) :=
  (W12_keep m c b (List.mem_cons_of_mem _ (List.mem_cons_of_mem _ hb))).trans (W1_arg m c b hb)

theorem W6_v1 (c : Dev nD) : (X m).si c = W6 m c (dr main_v1) := (W6_keep m c main_v1 (by decide)).symm
theorem W6_v3 (c : Dev nD) : (X m).oi c = W6 m c (dr main_v3) := (W6_keep m c main_v3 (by decide)).symm

theorem W1_v1 (c : Dev nD) : W1 m c (dr main_v1)
    = shapeCast S320000 (extractStridedSlice S320000x1 ![0, 0] (m ((c : Thread nD τ).loc main_arg2)) slices_S320000x2_S320000x1_0_0) shapeCasts_S320000x1_S320000 := by
  show StableHlo.after opsA (W0 m c) (Proc.devRef .tc main_v1) = _
  after_results
  rfl
theorem W1_v3 (c : Dev nD) : W1 m c (dr main_v3)
    = shapeCast S320000 (extractStridedSlice S320000x1 ![0, 1] (m ((c : Thread nD τ).loc main_arg2)) slices_S320000x2_S320000x1_0_1) shapeCasts_S320000x1_S320000 := by
  show StableHlo.after opsA (W0 m c) (Proc.devRef .tc main_v3) = _
  after_results
  rfl

theorem X_inRange (hpre : ∀ (c : Dev nD) (i : S320000x2.Idx), (m ((c : Thread nD τ).loc main_arg2) i).toNat < 10000) :
    (X m).InRange := by
  intro d e
  constructor
  · show ((W1 m d (dr main_v1)) e).toNat < 10000
    rw [W1_v1]
    exact hpre d _
  · show ((W1 m d (dr main_v3)) e).toNat < 10000
    rw [W1_v3]
    exact hpre d _

end Cert.Proof.KI

end
-- ==== Proof.KI.Tiles.lean ====
/- The 32 tiles' slices of a result array are pairwise disjoint and cover it. -/
import proofs.«215230_g44530220925728_cont_8to1c4_163_46_alg».proof.Proof.KI.Pay
import Idealize.ShloMosaic.Lib.SparseCore.Launch
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 2) (Elt F) ℕ UU ℕ

theorem tileSet_disjoint {c i c' i' : ℕ} (hc : c < 2) (hc' : c' < 2) (h : c ≠ c' ∨ i ≠ i') : Disjoint (tileSet c i) (tileSet c' i') := by
  rw [Finset.disjoint_left]; intro j hj hj'
  rw [mem_tileSet] at hj hj'
  omega

theorem tileSets_disjoint : ∀ p ∈ (Finset.univ : Finset (Fin 2 × Fin 16)), ∀ p' ∈ (Finset.univ : Finset (Fin 2 × Fin 16)), p ≠ p' →
    Disjoint (tileSet p.1.val p.2.val) (tileSet p'.1.val p'.2.val) := by
  intro p _ p' _ h
  refine tileSet_disjoint p.1.isLt p'.1.isLt ?_
  by_contra hn
  have hn' : p.1.val = p'.1.val ∧ p.2.val = p'.2.val := ⟨by_contra fun e => hn (.inl e), by_contra fun e => hn (.inr e)⟩
  exact h (Prod.ext (Fin.ext hn'.1) (Fin.ext hn'.2))

theorem tileSets_cover : (Finset.univ : Finset (Fin 2 × Fin 16)).biUnion (fun p => tileSet p.1.val p.2.val) = Finset.univ := by
  ext j
  simp only [Finset.mem_biUnion, Finset.mem_univ, true_and, iff_true]
  have hj : (j 0).val < 320000 := (j 0).isLt
  refine ⟨(⟨((j 0).val / 10000) % 2, Nat.mod_lt _ (by norm_num)⟩, ⟨(j 0).val / 20000, by omega⟩), ?_⟩
  rw [mem_tileSet]
  show 20000 * ((j 0).val / 20000) + 10000 * (((j 0).val / 10000) % 2) ≤ (j 0).val
    ∧ (j 0).val < 20000 * ((j 0).val / 20000) + 10000 * (((j 0).val / 10000) % 2) + 10000
  omega

theorem coreShare_zero : coreShare 0 = fullShare.left := if_pos rfl
theorem coreShare_one : coreShare 1 = fullShare.right := if_neg Nat.one_ne_zero

end Cert.Proof.KI

end
-- ==== Proof.KI.Split0.lean ====
/- The first gather call's arrays split among the 32 tiles and joined again. -/
import proofs.«215230_g44530220925728_cont_8to1c4_163_46_alg».proof.Proof.KI.Tiles

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 2) (Elt F) ℕ UU ℕ

section Splits

variable (X : GIn F) (d : Dev nD)

theorem r00_rows (f : Buf (Elt F) (r00Loc d)) :
    (r00Loc d ↦{fullShare} f : sProp 𝕄)
      = iprop((bigSep Finset.univ fun i : Fin 16 => r00Loc d ↦[tileSet 0 i.val]{fullShare} f)
          ∗ (bigSep Finset.univ fun i : Fin 16 => r00Loc d ↦[tileSet 1 i.val]{fullShare} f)) := by
  have h := pointsTo_biUnion (Val := Elt F) (Ix := HIx 2) (Name := ℕ) (U := UU) (Lvl := ℕ) (ℓ := r00Loc d) (q := fullShare) (f := f)
    (Finset.univ : Finset (Fin 2 × Fin 16)) (fun p => tileSet p.1.val p.2.val) tileSets_disjoint
  rw [tileSets_cover, bigSep_univ_prod, bigSep_univ_two] at h
  exact h
theorem r01_rows (f : Buf (Elt F) (r01Loc d)) :
    (r01Loc d ↦{fullShare} f : sProp 𝕄)
      = iprop((bigSep Finset.univ fun i : Fin 16 => r01Loc d ↦[tileSet 0 i.val]{fullShare} f)
          ∗ (bigSep Finset.univ fun i : Fin 16 => r01Loc d ↦[tileSet 1 i.val]{fullShare} f)) := by
  have h := pointsTo_biUnion (Val := Elt F) (Ix := HIx 2) (Name := ℕ) (U := UU) (Lvl := ℕ) (ℓ := r01Loc d) (q := fullShare) (f := f)
    (Finset.univ : Finset (Fin 2 × Fin 16)) (fun p => tileSet p.1.val p.2.val) tileSets_disjoint
  rw [tileSets_cover, bigSep_univ_prod, bigSep_univ_two] at h
  exact h

theorem ins0_cores :
    (iprop((obj0Loc d ↦{fullShare} X.obj0 d) ∗ (siLoc d ↦{fullShare} X.si d) ∗ (oiLoc d ↦{fullShare} X.oi d)) : sProp 𝕄)
      ⊣⊢ iprop(ins0 X d (coreShare 0) ∗ ins0 X d (coreShare 1)) := by
  unfold ins0; rw [coreShare_zero, coreShare_one]
  have ho := pointsTo_share (Val := Elt F) (Ix := HIx 2) (Name := ℕ) (U := UU) (Lvl := ℕ) (ℓ := obj0Loc d) (I := Finset.univ) (f := X.obj0 d) (PosShare.mem_left_op_right fullShare)
  have hs := pointsTo_share (Val := Elt F) (Ix := HIx 2) (Name := ℕ) (U := UU) (Lvl := ℕ) (ℓ := siLoc d) (I := Finset.univ) (f := X.si d) (PosShare.mem_left_op_right fullShare)
  have hi := pointsTo_share (Val := Elt F) (Ix := HIx 2) (Name := ℕ) (U := UU) (Lvl := ℕ) (ℓ := oiLoc d) (I := Finset.univ) (f := X.oi d) (PosShare.mem_left_op_right fullShare)
  constructor
  · iintro ⟨Ho, Hs, Hi⟩
    ihave Ho' := ho.1 $$ Ho; icases Ho' with ⟨Ho1, Ho2⟩
    ihave Hs' := hs.1 $$ Hs; icases Hs' with ⟨Hs1, Hs2⟩
    ihave Hi' := hi.1 $$ Hi; icases Hi' with ⟨Hi1, Hi2⟩
    iframe
  · iintro ⟨⟨Ho1, Hs1, Hi1⟩, ⟨Ho2, Hs2, Hi2⟩⟩
    isplitl [Ho1 Ho2]; · iapply ho.2; isplitl [Ho1] <;> iassumption
    isplitl [Hs1 Hs2]; · iapply hs.2; isplitl [Hs1] <;> iassumption
    iapply hi.2; isplitl [Hi1] <;> iassumption

theorem st0_eq :
    (iprop((obj0Loc d ↦{fullShare} X.obj0 d) ∗ (siLoc d ↦{fullShare} X.si d) ∗ (oiLoc d ↦{fullShare} X.oi d)
      ∗ (∃ f, r00Loc d ↦{fullShare} f) ∗ (∃ f, r01Loc d ↦{fullShare} f)) : sProp 𝕄)
      ⊢ bigSep Finset.univ fun c : Fin ((K (F := F)).nCore (0 : Fin 2)) => (P X).st (0 : Fin 2) d c := by
  show _ ⊢ bigSep (Finset.univ : Finset (Fin 2)) fun c => st0 X d c.val
  rw [bigSep_univ_two]
  show _ ⊢ iprop(st0 X d 0 ∗ st0 X d 1)
  unfold st0
  iintro ⟨Ho, Hs, Hi, ⟨%f0, H0⟩, ⟨%f1, H1⟩⟩
  ihave Hin := (ins0_cores X d).1 $$ [Ho Hs Hi]
  · iframe
  icases Hin with ⟨Hin0, Hin1⟩
  ihave H0' := (Entails.of_eq (r00_rows d f0)) $$ H0
  icases H0' with ⟨H00, H01⟩
  ihave H1' := (Entails.of_eq (r01_rows d f1)) $$ H1
  icases H1' with ⟨H10, H11⟩
  have e0 : ∀ c : ℕ, (bigSep Finset.univ fun i : Fin 16 => (r00Loc d ↦[tileSet c i.val]{fullShare} f0 : sProp 𝕄))
      ⊢ bigSep Finset.univ fun i : Fin 16 => iprop(∃ f, r00Loc d ↦[tileSet c i.val]{fullShare} f) :=
    fun c => bigSep_mono fun i _ => exists_intro (Φ := fun f => (r00Loc d ↦[tileSet c i.val]{fullShare} f : sProp 𝕄)) f0
  have e1 : ∀ c : ℕ, (bigSep Finset.univ fun i : Fin 16 => (r01Loc d ↦[tileSet c i.val]{fullShare} f1 : sProp 𝕄))
      ⊢ bigSep Finset.univ fun i : Fin 16 => iprop(∃ f, r01Loc d ↦[tileSet c i.val]{fullShare} f) :=
    fun c => bigSep_mono fun i _ => exists_intro (Φ := fun f => (r01Loc d ↦[tileSet c i.val]{fullShare} f : sProp 𝕄)) f1
  isplitl [Hin0 H00 H10]
  · iframe Hin0
    isplitl [H00]
    · iapply (e0 0); iexact H00
    · iapply (e1 0); iexact H10
  · iframe Hin1
    isplitl [H01]
    · iapply (e0 1); iexact H01
    · iapply (e1 1); iexact H11

theorem dn0_eq :
    (bigSep Finset.univ fun c : Fin ((K (F := F)).nCore (0 : Fin 2)) => (P X).dn (0 : Fin 2) d c)
      ⊢ (iprop((obj0Loc d ↦{fullShare} X.obj0 d) ∗ (siLoc d ↦{fullShare} X.si d) ∗ (oiLoc d ↦{fullShare} X.oi d)
      ∗ (r00Loc d ↦{fullShare} gath0 d (X.obj0 d) (X.si d)) ∗ (r01Loc d ↦{fullShare} gath0 d (X.obj0 d) (X.oi d))) : sProp 𝕄) := by
  show (bigSep (Finset.univ : Finset (Fin 2)) fun c => dn0 X d c.val) ⊢ _
  rw [bigSep_univ_two]
  show iprop(dn0 X d 0 ∗ dn0 X d 1) ⊢ _
  unfold dn0
  iintro ⟨⟨Hin0, H00, H10⟩, ⟨Hin1, H01, H11⟩⟩
  ihave Hin := (ins0_cores X d).2 $$ [Hin0 Hin1]
  · isplitl [Hin0] <;> iassumption
  icases Hin with ⟨Ho, Hs, Hi⟩
  iframe Ho Hs Hi
  isplitl [H00 H01]
  · iapply (Entails.of_eq (r00_rows d _).symm); isplitl [H00] <;> iassumption
  · iapply (Entails.of_eq (r01_rows d _).symm); isplitl [H10] <;> iassumption

end Splits

section VecSplit

variable (X : GIn F) (d : Dev nD)

theorem ins0_tiles (q : PosShare TreeShare) :
    (ins0 X d q : sProp 𝕄)
      ⊣⊢ iprop(ins0 X d (Transfers.shareDrop q 16) ∗ bigSep Finset.univ fun i : Fin 16 => ins0 X d (Transfers.shareTokN q i.val)) := by
  unfold ins0; rw [bigSep_sep', bigSep_sep']
  have ho := Transfers.pointsTo_toks (Val := Elt F) (Ix := HIx 2) (Name := ℕ) (U := UU) (Lvl := ℕ) (ℓ := obj0Loc d) (S := Finset.univ) (f := X.obj0 d) q 16
  have hs := Transfers.pointsTo_toks (Val := Elt F) (Ix := HIx 2) (Name := ℕ) (U := UU) (Lvl := ℕ) (ℓ := siLoc d) (S := Finset.univ) (f := X.si d) q 16
  have hi := Transfers.pointsTo_toks (Val := Elt F) (Ix := HIx 2) (Name := ℕ) (U := UU) (Lvl := ℕ) (ℓ := oiLoc d) (S := Finset.univ) (f := X.oi d) q 16
  constructor
  · iintro ⟨Ho, Hs, Hi⟩
    ihave Ho' := ho.1 $$ Ho; icases Ho' with ⟨Ho1, Ho2⟩
    ihave Hs' := hs.1 $$ Hs; icases Hs' with ⟨Hs1, Hs2⟩
    ihave Hi' := hi.1 $$ Hi; icases Hi' with ⟨Hi1, Hi2⟩
    iframe
  · iintro ⟨⟨Ho1, Hs1, Hi1⟩, ⟨Ho2, Hs2, Hi2⟩⟩
    isplitl [Ho1 Ho2]; · iapply ho.2; isplitl [Ho1] <;> iassumption
    isplitl [Hs1 Hs2]; · iapply hs.2; isplitl [Hs1] <;> iassumption
    iapply hi.2; isplitl [Hi1] <;> iassumption

theorem vecSplit0 : (K (F := F)).VecSplit' (P X) (0 : Fin 2) := by
  intro d c
  show st0 X d c.val ⊢ |={Set.univ}=> iprop((bigSep (Finset.univ : Finset (Fin 16)) fun i => go0 X d c.val i.val)
      ∗ ((bigSep (Finset.univ : Finset (Fin 16)) fun i => td0 X d c.val i.val) -∗ dn0 X d c.val))
  unfold st0 go0 td0 dn0
  rw [bigSep_sep', bigSep_sep', bigSep_sep', bigSep_sep']
  iintro ⟨Hin, H0, H1⟩
  ihave Hin' := (ins0_tiles X d (coreShare c.val)).1 $$ Hin
  icases Hin' with ⟨Hrem, Htoks⟩
  imodintro
  isplitl [Htoks H0 H1]
  · iframe
  iintro ⟨Htoks, H0, H1⟩
  isplitl [Hrem Htoks]
  · iapply (ins0_tiles X d (coreShare c.val)).2; iframe
  iframe

end VecSplit

end Cert.Proof.KI

end
-- ==== Proof.KI.Split1.lean ====
/- The first gather call's arrays split among the 32 tiles and joined again. -/
import proofs.«215230_g44530220925728_cont_8to1c4_163_46_alg».proof.Proof.KI.Tiles

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 2) (Elt F) ℕ UU ℕ

section Splits

variable (X : GIn F) (d : Dev nD)

theorem r10_rows (f : Buf (Elt F) (r10Loc d)) :
    (r10Loc d ↦{fullShare} f : sProp 𝕄)
      = iprop((bigSep Finset.univ fun i : Fin 16 => r10Loc d ↦[tileSet 0 i.val]{fullShare} f)
          ∗ (bigSep Finset.univ fun i : Fin 16 => r10Loc d ↦[tileSet 1 i.val]{fullShare} f)) := by
  have h := pointsTo_biUnion (Val := Elt F) (Ix := HIx 2) (Name := ℕ) (U := UU) (Lvl := ℕ) (ℓ := r10Loc d) (q := fullShare) (f := f)
    (Finset.univ : Finset (Fin 2 × Fin 16)) (fun p => tileSet p.1.val p.2.val) tileSets_disjoint
  rw [tileSets_cover, bigSep_univ_prod, bigSep_univ_two] at h
  exact h
theorem r11_rows (f : Buf (Elt F) (r11Loc d)) :
    (r11Loc d ↦{fullShare} f : sProp 𝕄)
      = iprop((bigSep Finset.univ fun i : Fin 16 => r11Loc d ↦[tileSet 0 i.val]{fullShare} f)
          ∗ (bigSep Finset.univ fun i : Fin 16 => r11Loc d ↦[tileSet 1 i.val]{fullShare} f)) := by
  have h := pointsTo_biUnion (Val := Elt F) (Ix := HIx 2) (Name := ℕ) (U := UU) (Lvl := ℕ) (ℓ := r11Loc d) (q := fullShare) (f := f)
    (Finset.univ : Finset (Fin 2 × Fin 16)) (fun p => tileSet p.1.val p.2.val) tileSets_disjoint
  rw [tileSets_cover, bigSep_univ_prod, bigSep_univ_two] at h
  exact h

theorem ins1_cores :
    (iprop((obj1Loc d ↦{fullShare} X.obj1 d) ∗ (siLoc d ↦{fullShare} X.si d) ∗ (oiLoc d ↦{fullShare} X.oi d)) : sProp 𝕄)
      ⊣⊢ iprop(ins1 X d (coreShare 0) ∗ ins1 X d (coreShare 1)) := by
  unfold ins1; rw [coreShare_zero, coreShare_one]
  have ho := pointsTo_share (Val := Elt F) (Ix := HIx 2) (Name := ℕ) (U := UU) (Lvl := ℕ) (ℓ := obj1Loc d) (I := Finset.univ) (f := X.obj1 d) (PosShare.mem_left_op_right fullShare)
  have hs := pointsTo_share (Val := Elt F) (Ix := HIx 2) (Name := ℕ) (U := UU) (Lvl := ℕ) (ℓ := siLoc d) (I := Finset.univ) (f := X.si d) (PosShare.mem_left_op_right fullShare)
  have hi := pointsTo_share (Val := Elt F) (Ix := HIx 2) (Name := ℕ) (U := UU) (Lvl := ℕ) (ℓ := oiLoc d) (I := Finset.univ) (f := X.oi d) (PosShare.mem_left_op_right fullShare)
  constructor
  · iintro ⟨Ho, Hs, Hi⟩
    ihave Ho' := ho.1 $$ Ho; icases Ho' with ⟨Ho1, Ho2⟩
    ihave Hs' := hs.1 $$ Hs; icases Hs' with ⟨Hs1, Hs2⟩
    ihave Hi' := hi.1 $$ Hi; icases Hi' with ⟨Hi1, Hi2⟩
    iframe
  · iintro ⟨⟨Ho1, Hs1, Hi1⟩, ⟨Ho2, Hs2, Hi2⟩⟩
    isplitl [Ho1 Ho2]; · iapply ho.2; isplitl [Ho1] <;> iassumption
    isplitl [Hs1 Hs2]; · iapply hs.2; isplitl [Hs1] <;> iassumption
    iapply hi.2; isplitl [Hi1] <;> iassumption

theorem st1_eq :
    (iprop((obj1Loc d ↦{fullShare} X.obj1 d) ∗ (siLoc d ↦{fullShare} X.si d) ∗ (oiLoc d ↦{fullShare} X.oi d)
      ∗ (∃ f, r10Loc d ↦{fullShare} f) ∗ (∃ f, r11Loc d ↦{fullShare} f)) : sProp 𝕄)
      ⊢ bigSep Finset.univ fun c : Fin ((K (F := F)).nCore (1 : Fin 2)) => (P X).st (1 : Fin 2) d c := by
  show _ ⊢ bigSep (Finset.univ : Finset (Fin 2)) fun c => st1 X d c.val
  rw [bigSep_univ_two]
  show _ ⊢ iprop(st1 X d 0 ∗ st1 X d 1)
  unfold st1
  iintro ⟨Ho, Hs, Hi, ⟨%f0, H0⟩, ⟨%f1, H1⟩⟩
  ihave Hin := (ins1_cores X d).1 $$ [Ho Hs Hi]
  · iframe
  icases Hin with ⟨Hin0, Hin1⟩
  ihave H0' := (Entails.of_eq (r10_rows d f0)) $$ H0
  icases H0' with ⟨H00, H01⟩
  ihave H1' := (Entails.of_eq (r11_rows d f1)) $$ H1
  icases H1' with ⟨H10, H11⟩
  have e0 : ∀ c : ℕ, (bigSep Finset.univ fun i : Fin 16 => (r10Loc d ↦[tileSet c i.val]{fullShare} f0 : sProp 𝕄))
      ⊢ bigSep Finset.univ fun i : Fin 16 => iprop(∃ f, r10Loc d ↦[tileSet c i.val]{fullShare} f) :=
    fun c => bigSep_mono fun i _ => exists_intro (Φ := fun f => (r10Loc d ↦[tileSet c i.val]{fullShare} f : sProp 𝕄)) f0
  have e1 : ∀ c : ℕ, (bigSep Finset.univ fun i : Fin 16 => (r11Loc d ↦[tileSet c i.val]{fullShare} f1 : sProp 𝕄))
      ⊢ bigSep Finset.univ fun i : Fin 16 => iprop(∃ f, r11Loc d ↦[tileSet c i.val]{fullShare} f) :=
    fun c => bigSep_mono fun i _ => exists_intro (Φ := fun f => (r11Loc d ↦[tileSet c i.val]{fullShare} f : sProp 𝕄)) f1
  isplitl [Hin0 H00 H10]
  · iframe Hin0
    isplitl [H00]
    · iapply (e0 0); iexact H00
    · iapply (e1 0); iexact H10
  · iframe Hin1
    isplitl [H01]
    · iapply (e0 1); iexact H01
    · iapply (e1 1); iexact H11

theorem dn1_eq :
    (bigSep Finset.univ fun c : Fin ((K (F := F)).nCore (1 : Fin 2)) => (P X).dn (1 : Fin 2) d c)
      ⊢ (iprop((obj1Loc d ↦{fullShare} X.obj1 d) ∗ (siLoc d ↦{fullShare} X.si d) ∗ (oiLoc d ↦{fullShare} X.oi d)
      ∗ (r10Loc d ↦{fullShare} gath1 d (X.obj1 d) (X.si d)) ∗ (r11Loc d ↦{fullShare} gath1 d (X.obj1 d) (X.oi d))) : sProp 𝕄) := by
  show (bigSep (Finset.univ : Finset (Fin 2)) fun c => dn1 X d c.val) ⊢ _
  rw [bigSep_univ_two]
  show iprop(dn1 X d 0 ∗ dn1 X d 1) ⊢ _
  unfold dn1
  iintro ⟨⟨Hin0, H00, H10⟩, ⟨Hin1, H01, H11⟩⟩
  ihave Hin := (ins1_cores X d).2 $$ [Hin0 Hin1]
  · isplitl [Hin0] <;> iassumption
  icases Hin with ⟨Ho, Hs, Hi⟩
  iframe Ho Hs Hi
  isplitl [H00 H01]
  · iapply (Entails.of_eq (r10_rows d _).symm); isplitl [H00] <;> iassumption
  · iapply (Entails.of_eq (r11_rows d _).symm); isplitl [H10] <;> iassumption

end Splits

section VecSplit

variable (X : GIn F) (d : Dev nD)

theorem ins1_tiles (q : PosShare TreeShare) :
    (ins1 X d q : sProp 𝕄)
      ⊣⊢ iprop(ins1 X d (Transfers.shareDrop q 16) ∗ bigSep Finset.univ fun i : Fin 16 => ins1 X d (Transfers.shareTokN q i.val)) := by
  unfold ins1; rw [bigSep_sep', bigSep_sep']
  have ho := Transfers.pointsTo_toks (Val := Elt F) (Ix := HIx 2) (Name := ℕ) (U := UU) (Lvl := ℕ) (ℓ := obj1Loc d) (S := Finset.univ) (f := X.obj1 d) q 16
  have hs := Transfers.pointsTo_toks (Val := Elt F) (Ix := HIx 2) (Name := ℕ) (U := UU) (Lvl := ℕ) (ℓ := siLoc d) (S := Finset.univ) (f := X.si d) q 16
  have hi := Transfers.pointsTo_toks (Val := Elt F) (Ix := HIx 2) (Name := ℕ) (U := UU) (Lvl := ℕ) (ℓ := oiLoc d) (S := Finset.univ) (f := X.oi d) q 16
  constructor
  · iintro ⟨Ho, Hs, Hi⟩
    ihave Ho' := ho.1 $$ Ho; icases Ho' with ⟨Ho1, Ho2⟩
    ihave Hs' := hs.1 $$ Hs; icases Hs' with ⟨Hs1, Hs2⟩
    ihave Hi' := hi.1 $$ Hi; icases Hi' with ⟨Hi1, Hi2⟩
    iframe
  · iintro ⟨⟨Ho1, Hs1, Hi1⟩, ⟨Ho2, Hs2, Hi2⟩⟩
    isplitl [Ho1 Ho2]; · iapply ho.2; isplitl [Ho1] <;> iassumption
    isplitl [Hs1 Hs2]; · iapply hs.2; isplitl [Hs1] <;> iassumption
    iapply hi.2; isplitl [Hi1] <;> iassumption

theorem vecSplit1 : (K (F := F)).VecSplit' (P X) (1 : Fin 2) := by
  intro d c
  show st1 X d c.val ⊢ |={Set.univ}=> iprop((bigSep (Finset.univ : Finset (Fin 16)) fun i => go1 X d c.val i.val)
      ∗ ((bigSep (Finset.univ : Finset (Fin 16)) fun i => td1 X d c.val i.val) -∗ dn1 X d c.val))
  unfold st1 go1 td1 dn1
  rw [bigSep_sep', bigSep_sep', bigSep_sep', bigSep_sep']
  iintro ⟨Hin, H0, H1⟩
  ihave Hin' := (ins1_tiles X d (coreShare c.val)).1 $$ Hin
  icases Hin' with ⟨Hrem, Htoks⟩
  imodintro
  isplitl [Htoks H0 H1]
  · iframe
  iintro ⟨Htoks, H0, H1⟩
  isplitl [Hrem Htoks]
  · iapply (ins1_tiles X d (coreShare c.val)).2; iframe
  iframe

end VecSplit

end Cert.Proof.KI

end
-- ==== Proof.KI.Calls.lean ====
/- The two gather calls as steps of @main. -/
import proofs.«215230_g44530220925728_cont_8to1c4_163_46_alg».proof.Proof.KI.Vals
import proofs.«215230_g44530220925728_cont_8to1c4_163_46_alg».proof.Proof.KI.Keep
import proofs.«215230_g44530220925728_cont_8to1c4_163_46_alg».proof.Proof.KI.Split0
import proofs.«215230_g44530220925728_cont_8to1c4_163_46_alg».proof.Proof.KI.Split1

noncomputable section

namespace Cert.Proof.KI

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The five buffers of a gather call: the table, the two index columns, the two results. -/
abbrev S5 (o s i r0 r1 : Ref sig .tc) : Finset (DevRef τ sig) := {dr o, dr s, dr i, dr r0, dr r1}

/-- A gather call as a step of the fold: its five buffers leave the unscoped buffers at `V` and come back with the two
    results at `v0 v1`; `V'` is `V` with the results so changed, and every other buffer is as at `V`. -/
theorem wp_call (X : GIn F) (κ : GSem nD τ sig → ℕ) (d : Dev nD) (Φ : PUnit → sProp 𝕄) (q : Fin 2) (o s i r0 r1 : Ref sig .tc)
    (V V' : Valuation τ sig (Elt F)) (v0 : Buf (Elt F) ((SparseCore.T d).loc r0)) (v1 : Buf (Elt F) ((SparseCore.T d).loc r1))
    (hsub : S5 o s i r0 r1 ⊆ Pipeline.ucRefs τ sig)
    (hd : dr o ∉ ({dr s, dr i, dr r0, dr r1} : Finset (DevRef τ sig)) ∧ dr s ∉ ({dr i, dr r0, dr r1} : Finset (DevRef τ sig))
      ∧ dr i ∉ ({dr r0, dr r1} : Finset (DevRef τ sig)) ∧ dr r0 ∉ ({dr r1} : Finset (DevRef τ sig)))
    (e0 : V' (dr r0) = v0) (e1 : V' (dr r1) = v1) (en : ∀ b : DevRef τ sig, b ≠ dr r0 → b ≠ dr r1 → V' b = V b)
    (hst : (iprop((((SparseCore.T d).loc o ↦{fullShare} V (dr o)) ∗ ((SparseCore.T d).loc s ↦{fullShare} V (dr s)) ∗ ((SparseCore.T d).loc i ↦{fullShare} V (dr i))
        ∗ (∃ f, (SparseCore.T d).loc r0 ↦{fullShare} f) ∗ (∃ f, (SparseCore.T d).loc r1 ↦{fullShare} f))) : sProp 𝕄)
      ⊢ bigSep Finset.univ fun c : Fin ((K (F := F)).nCore q) => (P X).st q d c)
    (hdn : (bigSep Finset.univ fun c : Fin ((K (F := F)).nCore q) => (P X).dn q d c)
      ⊢ (iprop((((SparseCore.T d).loc o ↦{fullShare} V (dr o)) ∗ ((SparseCore.T d).loc s ↦{fullShare} V (dr s)) ∗ ((SparseCore.T d).loc i ↦{fullShare} V (dr i))
        ∗ ((SparseCore.T d).loc r0 ↦{fullShare} v0) ∗ ((SparseCore.T d).loc r1 ↦{fullShare} v1))) : sProp 𝕄)) :
    iprop((K (F := F)).ctx EH (P X) κ ∗ (K (F := F)).tcSt EH d q.val ∗ StableHlo.held (SparseCore.T d) (Pipeline.ucRefs τ sig) V
        ∗ (iprop((K (F := F)).tcSt EH d (q.val + 1) ∗ StableHlo.held (SparseCore.T d) (Pipeline.ucRefs τ sig) V') -∗ Φ ⟨⟩))
      ⊢ wp frame (wpE ((K (F := F)).defs (D (F := F))) 𝒱 (SparseCore.T d) none) Set.univ ((K (F := F)).run d q) Φ := by
  obtain ⟨h1, h2, h3, h4⟩ := hd
  have held5 : ∀ W : Valuation τ sig (Elt F), (StableHlo.held (SparseCore.T d) (S5 o s i r0 r1) W : sProp 𝕄)
      = iprop((((SparseCore.T d).loc o ↦{fullShare} W (dr o)) ∗ ((SparseCore.T d).loc s ↦{fullShare} W (dr s)) ∗ ((SparseCore.T d).loc i ↦{fullShare} W (dr i))
        ∗ ((SparseCore.T d).loc r0 ↦{fullShare} W (dr r0)) ∗ ((SparseCore.T d).loc r1 ↦{fullShare} W (dr r1)))) := fun W => by
    unfold StableHlo.held S5
    rw [SparseCore.bigSep_insert' h1, SparseCore.bigSep_insert' h2, SparseCore.bigSep_insert' h3, SparseCore.bigSep_insert' h4, bigSep_singleton]
  rw [StableHlo.held_sub_split (SparseCore.T d) hsub V, StableHlo.held_sub_split (SparseCore.T d) hsub V', held5, held5, e0, e1,
    en (dr o) (fun e => h1 (by rw [e]; simp)) (fun e => h1 (by rw [e]; simp)),
    en (dr s) (fun e => h2 (by rw [e]; simp)) (fun e => h2 (by rw [e]; simp)),
    en (dr i) (fun e => h3 (by rw [e]; simp)) (fun e => h3 (by rw [e]; simp)),
    show (StableHlo.held (SparseCore.T d) (Pipeline.ucRefs τ sig \ S5 o s i r0 r1) V' : sProp 𝕄)
        = StableHlo.held (SparseCore.T d) (Pipeline.ucRefs τ sig \ S5 o s i r0 r1) V from
      bigSep_congr fun b hb => by
        have hb' := (Finset.mem_sdiff.mp hb).2
        rw [en b (fun e => hb' (by rw [e]; simp [S5])) (fun e => hb' (by rw [e]; simp [S5]))]]
  iintro ⟨#Hctx, Hst, ⟨⟨Ho, Hs, Hi, Hr0, Hr1⟩, Hrest⟩, Hk⟩
  iapply ((K (F := F)).wp_run (D (F := F)) 𝒱 (EH := EH) (P := P X) κ d q) $$ [Hst Ho Hs Hi Hr0 Hr1 Hrest Hk]
  isplitr; · iexact Hctx
  isplitl [Hst]; · iexact Hst
  isplitl [Ho Hs Hi Hr0 Hr1]
  · iapply hst
    isplitl [Ho]; · iexact Ho
    isplitl [Hs]; · iexact Hs
    isplitl [Hi]; · iexact Hi
    isplitl [Hr0]; · iexists _; iexact Hr0
    iexists _; iexact Hr1
  iintro ⟨Hst, Hdn⟩
  ihave Hdn' := hdn $$ Hdn
  icases Hdn' with ⟨Ho, Hs, Hi, Hr0, Hr1⟩
  iapply Hk
  isplitl [Hst]; · iexact Hst
  isplitl [Ho Hs Hi Hr0 Hr1]
  · isplitl [Ho]; · iexact Ho
    isplitl [Hs]; · iexact Hs
    isplitl [Hi]; · iexact Hi
    isplitl [Hr0]; · iexact Hr0
    iexact Hr1
  iexact Hrest

variable (m : (ℓ : Loc nD τ sig) → Buf (Elt F) ℓ)

theorem W2_of_ne (c : Dev nD) (b : DevRef τ sig) (h0 : b ≠ dr main_v4_0) (h1 : b ≠ dr main_v4_1) : W2 m c b = W1 m c b := by
  unfold W2; rw [Function.update_of_ne h1, Function.update_of_ne h0]

theorem W7_of_ne (c : Dev nD) (b : DevRef τ sig) (h0 : b ≠ dr main_v14_0) (h1 : b ≠ dr main_v14_1) : W7 m c b = W6 m c b := by
  unfold W7; rw [Function.update_of_ne h1, Function.update_of_ne h0]

theorem wp_call0 (X : GIn F) (κ : GSem nD τ sig → ℕ) (d : Dev nD) (Φ : PUnit → sProp 𝕄)
    (hobj : X.obj0 d = W1 m d (dr main_arg0)) (hsi : X.si d = W1 m d (dr main_v1)) (hoi : X.oi d = W1 m d (dr main_v3)) :
    iprop((K (F := F)).ctx EH (P X) κ ∗ (K (F := F)).tcSt EH d 0 ∗ StableHlo.held (SparseCore.T d) (Pipeline.ucRefs τ sig) (W1 m d)
        ∗ (iprop((K (F := F)).tcSt EH d 1 ∗ StableHlo.held (SparseCore.T d) (Pipeline.ucRefs τ sig) (W2 m d)) -∗ Φ ⟨⟩))
      ⊢ wp frame (wpE ((K (F := F)).defs (D (F := F))) 𝒱 (SparseCore.T d) none) Set.univ ((K (F := F)).run d 0) Φ :=
  wp_call X κ d Φ 0 main_arg0 main_v1 main_v3 main_v4_0 main_v4_1 (W1 m d) (W2 m d) _ _ (by decide) (by decide)
    (keep2_r0 m d) (keep2_r1 m d) (W2_of_ne m d) (by rw [← hobj, ← hsi, ← hoi]; exact st0_eq X d) (by rw [← hobj, ← hsi, ← hoi]; exact dn0_eq X d)

theorem wp_call1 (X : GIn F) (κ : GSem nD τ sig → ℕ) (d : Dev nD) (Φ : PUnit → sProp 𝕄)
    (hobj : X.obj1 d = W6 m d (dr main_v13)) (hsi : X.si d = W6 m d (dr main_v1)) (hoi : X.oi d = W6 m d (dr main_v3)) :
    iprop((K (F := F)).ctx EH (P X) κ ∗ (K (F := F)).tcSt EH d 1 ∗ StableHlo.held (SparseCore.T d) (Pipeline.ucRefs τ sig) (W6 m d)
        ∗ (iprop((K (F := F)).tcSt EH d 2 ∗ StableHlo.held (SparseCore.T d) (Pipeline.ucRefs τ sig) (W7 m d)) -∗ Φ ⟨⟩))
      ⊢ wp frame (wpE ((K (F := F)).defs (D (F := F))) 𝒱 (SparseCore.T d) none) Set.univ ((K (F := F)).run d 1) Φ :=
  wp_call X κ d Φ 1 main_v13 main_v1 main_v3 main_v14_0 main_v14_1 (W6 m d) (W7 m d) _ _ (by decide) (by decide)
    (keep7_r0 m d) (keep7_r1 m d) (W7_of_ne m d) (by rw [← hobj, ← hsi, ← hoi]; exact st1_eq X d) (by rw [← hobj, ← hsi, ← hoi]; exact dn1_eq X d)

end Cert.Proof.KI

end
-- ==== Proof.KI.RegionStep.lean ====
/- One TensorCore region as a step of @main under the launch. -/
import proofs.«215230_g44530220925728_cont_8to1c4_163_46_alg».proof.Proof.KI.Host

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 2) (Elt F) ℕ UU ℕ

variable (pdats : (p : Fin 4) → (c : Dev nD) → Pipeline.Dat τ (Elt F) (HIx 2) ℕ UU ℕ (Pipeline.pin (pcfgs (F := F)) adm p) c)

theorem regionCall_eq (p : Fin 4) :
    (regionCall (F := F) p) = SparseCore.liftProg (Prog.lift (.customCall (Pipeline.entry p) ()) : Prog (TpuEff nD τ sig (Elt F) (ΛP (F := F)) .tc) PUnit) := rfl

set_option backward.isDefEq.respectTransparency.types false in

theorem wp_region {p : Fin 4} (R : Pipeline.RegionSeg (pcfgs (F := F)) adm pdats (none : HIx 2) defs₀ 𝒱₀ (K (F := F)).L (K (F := F)).lev p) (d : Dev nD)
    (k : PUnit → Prog (TpuEff nD τ sig (Elt F) (SparseCore.Sig (ΛP (F := F)) 2) .tc) PUnit) (Φ : PUnit → sProp 𝕄) :
    iprop((iprop(boundary (SparseCore.T d) ∗ R.post d) -∗ wp frame (wpE ((K (F := F)).defs (D (F := F))) 𝒱 (SparseCore.T d) none) Set.univ (k ⟨⟩) Φ)
        ∗ boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ (regionCall p >>= k) Φ := by
  rw [wp_bind, regionCall_eq]
  have hret : wp frame (wpE ((K (F := F)).defs (D (F := F))) 𝒱 (SparseCore.T d) none) Set.univ (k ⟨⟩) Φ
      ⊢ wp frame (wpE (D (F := F)) 𝒱 (SparseCore.T d) none) Set.univ
          (.ret ⟨⟩ : Prog (TpuEff nD τ sig (Elt F) (ΛP (F := F)) .tc) PUnit)
          (fun a => wp frame (wpE ((K (F := F)).defs (D (F := F))) 𝒱 (SparseCore.T d) none) Set.univ (k a) Φ) := by
    rw [wp_ret]
    iintro H; imodintro; iexact H
  have h := Pipeline.RegionSeg.wp (pcfgs (F := F)) adm pdats (none : HIx 2) cellOf_inj (EP (F := F)) defs₀ 𝒱₀ (K (F := F)).L (K (F := F)).lev R d none
    (fun _ h => absurd h (Option.not_mem_none _)) (fun _ => .ret ⟨⟩)
    (fun a => wp frame (wpE ((K (F := F)).defs (D (F := F))) 𝒱 (SparseCore.T d) none) Set.univ (k a) Φ)
  exact ((sep_mono_l (wand_mono_right hret)).trans h).trans
    ((K (F := F)).wp_liftProg (D (F := F)) 𝒱 (SparseCore.T d) Set.univ none _ _)

end Cert.Proof.KI

end
-- ==== Proof.KI.RegLemmas.lean ====
/- What every region of @main shares: what the TensorCore still owes passes through a region unchanged. -/
import proofs.«215230_g44530220925728_cont_8to1c4_163_46_alg».proof.Proof.KI.Vals
import proofs.«215230_g44530220925728_cont_8to1c4_163_46_alg».proof.Proof.KI.RegionStep

noncomputable section

namespace Cert.Proof.KI

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 2) (Elt F) ℕ UU ℕ

def Ow (n : ℕ) (c : Dev nD) : sProp 𝕄 :=
  iprop(∃ W, ⌜(K (F := F)).WBelow (SparseCore.T c) W (8 * n)⌝ ∗ owes (SparseCore.T c) ((K (F := F)).Otc c n) W)

omit [FloatOps F] in

theorem Otc_none (c : Dev nD) (n : ℕ) (g : GSem nD τ sig) : (K (F := F)).Otc c n g none = 0 := by
  by_contra h
  have := SparseCore.Cfg.lev_of_Otc_pos (K := K (F := F)) (Nat.pos_of_ne_zero h); rw [SparseCore.Cfg.lev_none] at this; omega

section Family

variable (pdats : (p : Fin 4) → (c : Dev nD) → Dat τ (Elt F) (HIx 2) ℕ UU ℕ (Pipeline.pin (pcfgs (F := F)) adm p) c)

theorem hwaits_at (p : Fin 4) (n : ℕ) (c : Dev nD) (howed : ∀ t, (pdats p c).owed t = (K (F := F)).Otc c n) :
    (levAts (K (F := F)).L (K (F := F)).lev : sProp 𝕄) ⊢ Pipeline.cellsWaits (Pipeline.pin (pcfgs (F := F)) adm) pdats (none : HIx 2) p c :=
  Pipeline.cellsWaits_intro (Pipeline.pin (pcfgs (F := F)) adm) pdats (none : HIx 2) p c fun w s t => by
    rw [howed t]
    exact (K (F := F)).mayWait_none _ (fun g => Otc_none c n g)

theorem Ow_owesAt (p : Fin 4) (n : ℕ) (c : Dev nD) (t : Fin ((Pipeline.pin (pcfgs (F := F)) adm p).N + 1))
    (howed : ∀ t, (pdats p c).owed t = (K (F := F)).Otc c n) (hrec : ∀ t, (pdats p c).recorded t = Bat (F := F) n c) :
    Ow (F := F) n c ⊢ (pdats p c).owesAt (none : HIx 2) t := by
  unfold Ow Pipeline.Dat.owesAt Pipeline.owesWithin
  iintro ⟨%W, %hW, HO⟩
  iexists W; isplitr
  · ipureintro; intro x hx; refine Or.inl ?_; rw [hrec t]; exact hW x hx
  · rw [howed t]; iexact HO

theorem owesAt_Ow (p : Fin 4) (n : ℕ) (c : Dev nD) (t : Fin ((Pipeline.pin (pcfgs (F := F)) adm p).N + 1))
    (howed : ∀ t, (pdats p c).owed t = (K (F := F)).Otc c n) (hrec : ∀ t, (pdats p c).recorded t = Bat (F := F) n c) :
    (pdats p c).owesAt (none : HIx 2) t ⊢ Ow (F := F) n c := by
  unfold Ow Pipeline.Dat.owesAt Pipeline.owesWithin
  iintro ⟨%W, %hW, HO⟩
  iexists W; isplitr
  · ipureintro; intro x hx
    rcases hW hx with h | ⟨w, s, rfl⟩
    · rw [hrec t] at h; exact h
    · show (K (F := F)).lev _ none ≤ _; rw [SparseCore.Cfg.lev_none]; exact Nat.zero_le _
  · rw [howed t]; iexact HO

end Family

end Cert.Proof.KI

end
-- ==== Proof.KI.Reg0.lean ====
/- The first layer's edge network as a region of @main. -/
import proofs.«215230_g44530220925728_cont_8to1c4_163_46_alg».proof.Proof.KI.RegLemmas
import Idealize.ShloMosaic.Lib.Pipeline.RegionsLoop

noncomputable section

namespace Cert.Proof.KI

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 2) (Elt F) ℕ UU ℕ

variable (m : (ℓ : Loc nD τ sig) → Buf (Elt F) ℓ)

theorem W4_arr (c : Dev nD) (w : Fin cfg1.W) :
    W4 m c (Proc.devRef .tc (Pipeline.arrRef spec1 w)) = (dat1 (V3 m) (Oat (F := F) 1) (Bat (F := F) 1) Rinv1 c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF0 (c : Dev nD) (w : Fin cfg1.W) : (pdats m 0 c).arrAt w cfg1.N = W4 m c (Proc.devRef .tc (Pipeline.arrRef spec1 w)) :=
  (W4_arr m c w).symm
theorem hrest0 (c : Dev nD) : ∀ b : Ref sig .tc, b ∉ Finset.univ.image (Pipeline.arrRef spec1) → W4 m c (Proc.devRef .tc b) = W3 m c (Proc.devRef .tc b) :=
  fun b hb => W4_of_ne m c b fun w e => hb (Finset.mem_image.mpr ⟨w, Finset.mem_univ _, e⟩)

set_option backward.isDefEq.respectTransparency.types false in
def reg0 : Pipeline.RegionSeg (pcfgs (F := F)) adm (pdats m) (none : HIx 2) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation1 (V3 m) (Oat (F := F) 1) (Bat (F := F) 1) Rinv1 c).loose
  hwaits c := hwaits_at (F := F) (pdats m) 0 1 c (fun _ => rfl)
  pre c := iprop(StableHlo.held (c : Thread nD τ) (Pipeline.ucRefs τ sig) (W3 m c) ∗ Ow (F := F) 1 c)
  post c := iprop(StableHlo.held (c : Thread nD τ) (Pipeline.ucRefs τ sig) (W4 m c) ∗ Ow (F := F) 1 c)
  X c := iprop(emp)
  Y c := iprop(emp)
  Z c := Pipeline.unscopedRest (Ix := HIx 2) (Name := ℕ) (U := UU) (Lvl := ℕ) spec1 c (V3 m c)
  hentry c := by
    rw [Pipeline.ownSems0_none]
    have hsplit := Pipeline.arrays_of_unscopedBufs (p := 0) (pcfgs (F := F)) adm (pdats m) launch1.win launch1.arr_whole c
      ((pdats m 0 c).share_full fun _ => rfl) (V3 m c) fun _ => rfl
    rw [Pipeline.unscopedBufs_held] at hsplit
    iintro ⟨⟨Hub, HO⟩, -, -⟩
    ihave H := hsplit $$ Hub
    icases H with ⟨Ha, Hrest⟩
    imodintro
    iframe Ha
    isplitr; · unfold Pipeline.prefHeld; rw [show (Finset.univ : Finset (Fin 0)) = ∅ from rfl, BI.bigSep_empty]; iempintro
    isplitl [HO]
    · iapply (Ow_owesAt (F := F) (pdats m) 0 1 c 0 (fun _ => rfl) (fun _ => rfl)); iexact HO
    iframe
  hin c := by
    rw [show (pdats m 0 c).Φ 0 = Pipeline.scopedRest spec1 c from rfl]
    iintro ⟨-, -, Hr⟩
    iexact Hr
  hout c := by
    rw [Pipeline.ownSems0_none, show (pdats m 0 c).Φ (Fin.last _) = Pipeline.scopedRest spec1 c from rfl]
    iintro Hr
    iframe; iempintro
  hexit c := by
    have hjoin := Pipeline.unscopedBufs_of_arrays (p := 0) (pcfgs (F := F)) adm (Ix := HIx 2) (Name := ℕ) (U := UU) (Lvl := ℕ)
      launch1.win launch1.arr_whole c (pdats m) ((pdats m 0 c).share_full fun _ => rfl)
      (V3 m c) (fun b => W4 m c b) ((pdats m 0 c).arrAt · cfg1.N) (hF0 m c) (hrest0 m c)
    rw [Pipeline.unscopedBufs_held] at hjoin
    iintro ⟨Ha, HO, -, Hrest⟩
    imodintro
    isplitl [Ha Hrest]
    · iapply hjoin; iframe
    iapply (owesAt_Ow (F := F) (pdats m) 0 1 c (Fin.last _) (fun _ => rfl) (fun _ => rfl)); iexact HO

end Cert.Proof.KI

end
-- ==== Proof.KI.Reg1.lean ====
/- The first layer's node network as a region of @main. -/
import proofs.«215230_g44530220925728_cont_8to1c4_163_46_alg».proof.Proof.KI.RegLemmas
import Idealize.ShloMosaic.Lib.Pipeline.RegionsLoop

noncomputable section

namespace Cert.Proof.KI

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 2) (Elt F) ℕ UU ℕ

variable (m : (ℓ : Loc nD τ sig) → Buf (Elt F) ℓ)

theorem W6_arr (c : Dev nD) (w : Fin cfg2.W) :
    W6 m c (Proc.devRef .tc (Pipeline.arrRef spec2 w)) = (dat2 (V5 m) (Oat (F := F) 1) (Bat (F := F) 1) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF1 (c : Dev nD) (w : Fin cfg2.W) : (pdats m 1 c).arrAt w cfg2.N = W6 m c (Proc.devRef .tc (Pipeline.arrRef spec2 w)) :=
  (W6_arr m c w).symm
theorem hrest1 (c : Dev nD) : ∀ b : Ref sig .tc, b ∉ Finset.univ.image (Pipeline.arrRef spec2) → W6 m c (Proc.devRef .tc b) = W5 m c (Proc.devRef .tc b) :=
  fun b hb => W6_of_ne m c b fun w e => hb (Finset.mem_image.mpr ⟨w, Finset.mem_univ _, e⟩)

set_option backward.isDefEq.respectTransparency.types false in
def reg1 : Pipeline.RegionSeg (pcfgs (F := F)) adm (pdats m) (none : HIx 2) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := body_obligationLoose2 (V5 m) (Oat (F := F) 1) (Bat (F := F) 1) c
  hwaits c := hwaits_at (F := F) (pdats m) 1 1 c (fun _ => rfl)
  pre c := iprop(StableHlo.held (c : Thread nD τ) (Pipeline.ucRefs τ sig) (W5 m c) ∗ Ow (F := F) 1 c)
  post c := iprop(StableHlo.held (c : Thread nD τ) (Pipeline.ucRefs τ sig) (W6 m c) ∗ Ow (F := F) 1 c)
  X c := X2 (F := F) c
  Y c := Y2 (F := F) c
  Z c := Pipeline.unscopedRest (Ix := HIx 2) (Name := ℕ) (U := UU) (Lvl := ℕ) spec2 c (V5 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V5 m c) fun _ => rfl
    rw [Pipeline.unscopedBufs_held] at hsplit
    iintro ⟨⟨Hub, HO⟩, -, -⟩
    ihave H := hsplit $$ Hub
    icases H with ⟨Ha, Hrest⟩
    imodintro
    iframe Ha
    isplitr; · unfold Pipeline.prefHeld; rw [show (Finset.univ : Finset (Fin 0)) = ∅ from rfl, BI.bigSep_empty]; iempintro
    isplitl [HO]
    · iapply (Ow_owesAt (F := F) (pdats m) 1 1 c 0 (fun _ => rfl) (fun _ => rfl)); iexact HO
    isplitr; · unfold X2; iempintro
    iexact Hrest
  hin c := hin2 (V5 m) (Oat (F := F) 1) (Bat (F := F) 1) c _
  hout c := hout2 (V5 m) (Oat (F := F) 1) (Bat (F := F) 1) c
  hexit c := by
    have hjoin := Pipeline.unscopedBufs_of_arrays (p := 1) (pcfgs (F := F)) adm (Ix := HIx 2) (Name := ℕ) (U := UU) (Lvl := ℕ)
      launch2.win launch2.arr_whole c (pdats m) ((pdats m 1 c).share_full fun _ => rfl)
      (V5 m c) (fun b => W6 m c b) ((pdats m 1 c).arrAt · cfg2.N) (hF1 m c) (hrest1 m c)
    rw [Pipeline.unscopedBufs_held] at hjoin
    iintro ⟨Ha, HO, -, Hrest⟩
    imodintro
    isplitl [Ha Hrest]
    · iapply hjoin; iframe
    iapply (owesAt_Ow (F := F) (pdats m) 1 1 c (Fin.last _) (fun _ => rfl) (fun _ => rfl)); iexact HO

end Cert.Proof.KI

end
-- ==== Proof.KI.Reg2.lean ====
/- The second layer's edge network as a region of @main. -/
import proofs.«215230_g44530220925728_cont_8to1c4_163_46_alg».proof.Proof.KI.RegLemmas
import Idealize.ShloMosaic.Lib.Pipeline.RegionsLoop

noncomputable section

namespace Cert.Proof.KI

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 2) (Elt F) ℕ UU ℕ

variable (m : (ℓ : Loc nD τ sig) → Buf (Elt F) ℓ)

theorem W9_arr (c : Dev nD) (w : Fin cfg4.W) :
    W9 m c (Proc.devRef .tc (Pipeline.arrRef spec4 w)) = (dat4 (V8 m) (Oat (F := F) 2) (Bat (F := F) 2) Rinv4 c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
theorem hF2 (c : Dev nD) (w : Fin cfg4.W) : (pdats m 2 c).arrAt w cfg4.N = W9 m c (Proc.devRef .tc (Pipeline.arrRef spec4 w)) :=
  (W9_arr m c w).symm
theorem hrest2 (c : Dev nD) : ∀ b : Ref sig .tc, b ∉ Finset.univ.image (Pipeline.arrRef spec4) → W9 m c (Proc.devRef .tc b) = W8 m c (Proc.devRef .tc b) :=
  fun b hb => W9_of_ne m c b fun w e => hb (Finset.mem_image.mpr ⟨w, Finset.mem_univ _, e⟩)

set_option backward.isDefEq.respectTransparency.types false in
def reg2 : Pipeline.RegionSeg (pcfgs (F := F)) adm (pdats m) (none : HIx 2) defs₀ 𝒱₀ (K (F := F)).L (K (F := F)).lev 2 where
  win := launch4.win.to₀
  block_pos := launch4.block_pos
  stage_whole := launch4.stage_whole
  K := PEmpty
  osem k := k.elim
  ho := Pipeline.OwnSemFacts.none _
  hbody c := (body_obligation4 (V8 m) (Oat (F := F) 2) (Bat (F := F) 2) Rinv4 c).loose
  hwaits c := hwaits_at (F := F) (pdats m) 2 2 c (fun _ => rfl)
  pre c := iprop(StableHlo.held (c : Thread nD τ) (Pipeline.ucRefs τ sig) (W8 m c) ∗ Ow (F := F) 2 c)
  post c := iprop(StableHlo.held (c : Thread nD τ) (Pipeline.ucRefs τ sig) (W9 m c) ∗ Ow (F := F) 2 c)
  X c := iprop(emp)
  Y c := iprop(emp)
  Z c := Pipeline.unscopedRest (Ix := HIx 2) (Name := ℕ) (U := UU) (Lvl := ℕ) spec4 c (V8 m c)
  hentry c := by
    rw [Pipeline.ownSems0_none]
    have hsplit := Pipeline.arrays_of_unscopedBufs (p := 2) (pcfgs (F := F)) adm (pdats m) launch4.win launch4.arr_whole c
      ((pdats m 2 c).share_full fun _ => rfl) (V8 m c) fun _ => rfl
    rw [Pipeline.unscopedBufs_held] at hsplit
    iintro ⟨⟨Hub, HO⟩, -, -⟩
    ihave H := hsplit $$ Hub
    icases H with ⟨Ha, Hrest⟩
    imodintro
    iframe Ha
    isplitr; · unfold Pipeline.prefHeld; rw [show (Finset.univ : Finset (Fin 0)) = ∅ from rfl, BI.bigSep_empty]; iempintro
    isplitl [HO]
    · iapply (Ow_owesAt (F := F) (pdats m) 2 2 c 0 (fun _ => rfl) (fun _ => rfl)); iexact HO
    iframe
  hin c := by
    rw [show (pdats m 2 c).Φ 0 = Pipeline.scopedRest spec4 c from rfl]
    iintro ⟨-, -, Hr⟩
    iexact Hr
  hout c := by
    rw [Pipeline.ownSems0_none, show (pdats m 2 c).Φ (Fin.last _) = Pipeline.scopedRest spec4 c from rfl]
    iintro Hr
    iframe; iempintro
  hexit c := by
    have hjoin := Pipeline.unscopedBufs_of_arrays (p := 2) (pcfgs (F := F)) adm (Ix := HIx 2) (Name := ℕ) (U := UU) (Lvl := ℕ)
      launch4.win launch4.arr_whole c (pdats m) ((pdats m 2 c).share_full fun _ => rfl)
      (V8 m c) (fun b => W9 m c b) ((pdats m 2 c).arrAt · cfg4.N) (hF2 m c) (hrest2 m c)
    rw [Pipeline.unscopedBufs_held] at hjoin
    iintro ⟨Ha, HO, -, Hrest⟩
    imodintro
    isplitl [Ha Hrest]
    · iapply hjoin; iframe
    iapply (owesAt_Ow (F := F) (pdats m) 2 2 c (Fin.last _) (fun _ => rfl) (fun _ => rfl)); iexact HO

end Cert.Proof.KI

end
-- ==== Proof.KI.Reg3.lean ====
/- The second layer's node network as a region of @main. -/
import proofs.«215230_g44530220925728_cont_8to1c4_163_46_alg».proof.Proof.KI.RegLemmas
import Idealize.ShloMosaic.Lib.Pipeline.RegionsLoop

noncomputable section

namespace Cert.Proof.KI

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 2) (Elt F) ℕ UU ℕ

variable (m : (ℓ : Loc nD τ sig) → Buf (Elt F) ℓ)

theorem W11_arr (c : Dev nD) (w : Fin cfg5.W) :
    W11 m c (Proc.devRef .tc (Pipeline.arrRef spec5 w)) = (dat5 (V10 m) (Oat (F := F) 2) (Bat (F := F) 2) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m c (Proc.devRef .tc b) = W10 m c (Proc.devRef .tc b) := by
  unfold W11; exact Pipeline.withArrays_of_ne spec5 c _ _ b hb
theorem hF3 (c : Dev nD) (w : Fin cfg5.W) : (pdats m 3 c).arrAt w cfg5.N = W11 m c (Proc.devRef .tc (Pipeline.arrRef spec5 w)) :=
  (W11_arr m c w).symm
theorem hrest3 (c : Dev nD) : ∀ b : Ref sig .tc, b ∉ Finset.univ.image (Pipeline.arrRef spec5) → W11 m c (Proc.devRef .tc b) = W10 m c (Proc.devRef .tc b) :=
  fun b hb => W11_of_ne m c b fun w e => hb (Finset.mem_image.mpr ⟨w, Finset.mem_univ _, e⟩)

set_option backward.isDefEq.respectTransparency.types false in
def reg3 : Pipeline.RegionSeg (pcfgs (F := F)) adm (pdats m) (none : HIx 2) defs₀ 𝒱₀ (K (F := F)).L (K (F := F)).lev 3 where
  win := launch5.win.to₀
  block_pos := launch5.block_pos
  stage_whole := launch5.stage_whole
  K := PEmpty
  osem k := k.elim
  ho := Pipeline.OwnSemFacts.none _
  hbody c := body_obligationLoose5 (V10 m) (Oat (F := F) 2) (Bat (F := F) 2) c
  hwaits c := hwaits_at (F := F) (pdats m) 3 2 c (fun _ => rfl)
  pre c := iprop(StableHlo.held (c : Thread nD τ) (Pipeline.ucRefs τ sig) (W10 m c) ∗ Ow (F := F) 2 c)
  post c := iprop(StableHlo.held (c : Thread nD τ) (Pipeline.ucRefs τ sig) (W11 m c) ∗ Ow (F := F) 2 c)
  X c := X5 (F := F) c
  Y c := Y5 (F := F) c
  Z c := Pipeline.unscopedRest (Ix := HIx 2) (Name := ℕ) (U := UU) (Lvl := ℕ) spec5 c (V10 m c)
  hentry c := by
    rw [Pipeline.ownSems0_none]
    have hsplit := Pipeline.arrays_of_unscopedBufs (p := 3) (pcfgs (F := F)) adm (pdats m) launch5.win launch5.arr_whole c
      ((pdats m 3 c).share_full fun _ => rfl) (V10 m c) fun _ => rfl
    rw [Pipeline.unscopedBufs_held] at hsplit
    iintro ⟨⟨Hub, HO⟩, -, -⟩
    ihave H := hsplit $$ Hub
    icases H with ⟨Ha, Hrest⟩
    imodintro
    iframe Ha
    isplitr; · unfold Pipeline.prefHeld; rw [show (Finset.univ : Finset (Fin 0)) = ∅ from rfl, BI.bigSep_empty]; iempintro
    isplitl [HO]
    · iapply (Ow_owesAt (F := F) (pdats m) 3 2 c 0 (fun _ => rfl) (fun _ => rfl)); iexact HO
    isplitr; · unfold X5; iempintro
    iexact Hrest
  hin c := hin5 (V10 m) (Oat (F := F) 2) (Bat (F := F) 2) c _
  hout c := hout5 (V10 m) (Oat (F := F) 2) (Bat (F := F) 2) c
  hexit c := by
    have hjoin := Pipeline.unscopedBufs_of_arrays (p := 3) (pcfgs (F := F)) adm (Ix := HIx 2) (Name := ℕ) (U := UU) (Lvl := ℕ)
      launch5.win launch5.arr_whole c (pdats m) ((pdats m 3 c).share_full fun _ => rfl)
      (V10 m c) (fun b => W11 m c b) ((pdats m 3 c).arrAt · cfg5.N) (hF3 m c) (hrest3 m c)
    rw [Pipeline.unscopedBufs_held] at hjoin
    iintro ⟨Ha, HO, -, Hrest⟩
    imodintro
    isplitl [Ha Hrest]
    · iapply hjoin; iframe
    iapply (owesAt_Ow (F := F) (pdats m) 3 2 c (Fin.last _) (fun _ => rfl) (fun _ => rfl)); iexact HO

end Cert.Proof.KI

end
-- ==== Proof.KI.Launch0.lean ====
/- The launch element of the ghost state. -/
import proofs.«215230_g44530220925728_cont_8to1c4_163_46_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable [FloatOps F]

def G (d : Dev nD) : sProp 𝕄 :=
  iprop((bigSep Finset.univ fun p : Fin 4 => Pipeline.cellsGhost (Pipeline.pin (pcfgs (F := F)) adm) EP p d)
    ∗ (bigSep Finset.univ fun p : Fin 4 => (Pipeline.toksInit (Pipeline.pin (pcfgs (F := F)) adm) EP p d : sProp 𝕄)))

def u₀ : UU :=
  (initOf (K (F := F)).hsCells (K (F := F)).hsToks,
    (initOf (Pipeline.cells (nD := nD) (τ := τ) cfgs cellOf_inj) (Pipeline.launchToks (nD := nD) (τ := τ) cfgs cellOf_inj), 1))

omit [FloatOps F] in
theorem bigSep_emp' {I : Type} (s : Finset I) : (bigSep s fun _ => iprop(emp)) = (iprop(emp) : sProp 𝕄) := bigSep_emp_const s

theorem hu₀ (Px : Fin 2 → Thread nD τ → sProp 𝕄) (hx : ∀ q thr, Px q thr = iprop(emp)) :
    (ownU (u₀ (F := F)) : sProp 𝕄)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 2 => Px q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  have hfund := Pipeline.fund_ghost (Ix := HIx 2) (Val := Elt F) (Name := ℕ) (U := UU) (Lvl := ℕ) (nD := nD) (τ := τ) cfgs (EP (F := F)) cellOf_inj
  unfold EP at hfund
  imod hfund $$ HP with HG
  icases HG with ⟨Hc, Ht⟩
  imodintro
  isplitl [HH]; · iexact HH
  isplitl [Hc Ht]
  · unfold G EP
    rw [bigSep_sep']
    isplitl [Hc]; · iexact Hc
    iexact Ht
  · rw [show (bigSep Finset.univ fun thr : Thread nD τ => bigSep Finset.univ fun q : Fin 2 => Px q thr) = (iprop(emp) : sProp 𝕄) from by
      rw [bigSep_congr fun thr _ => (bigSep_congr fun q _ => hx q thr).trans (bigSep_emp' _), bigSep_emp']]
    iempintro

end Cert.Proof.KI

end
-- ==== Proof.KI.Main.lean ====
/- @main on a device's TensorCore under the launch: six host stretches, two gather calls, four regions. -/
import proofs.«215230_g44530220925728_cont_8to1c4_163_46_alg».proof.Proof.KI.Calls
import proofs.«215230_g44530220925728_cont_8to1c4_163_46_alg».proof.Proof.KI.Reg0
import proofs.«215230_g44530220925728_cont_8to1c4_163_46_alg».proof.Proof.KI.Reg1
import proofs.«215230_g44530220925728_cont_8to1c4_163_46_alg».proof.Proof.KI.Reg2
import proofs.«215230_g44530220925728_cont_8to1c4_163_46_alg».proof.Proof.KI.Reg3
import proofs.«215230_g44530220925728_cont_8to1c4_163_46_alg».proof.Proof.KI.Launch0
import proofs.«215230_g44530220925728_cont_8to1c4_163_46_alg».proof.Proof.KI.Keep

noncomputable section

namespace Cert.Proof.KI

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 2) (Elt F) ℕ UU ℕ

variable (m : (ℓ : Loc nD τ sig) → Buf (Elt F) ℓ) (ρ : Dev nD → PrngReg)

abbrev FIN (d : Dev nD) : sProp 𝕄 := StableHlo.held (SparseCore.T d) (Pipeline.ucRefs τ sig) (W12 m d)

omit [FloatOps F] [∀ e, Nonempty (Elt F e)] in

theorem tcSt_open (d : Dev nD) (n : ℕ) :
    (K (F := F)).tcSt EH d n ⊢ iprop(Ow (F := F) n d ∗ (Ow (F := F) n d -∗ (K (F := F)).tcSt EH d n)) := by
  unfold SparseCore.Cfg.tcSt Ow
  iintro ⟨HO, Hr⟩
  isplitl [HO]; · iexact HO
  iintro HO
  isplitl [HO]; · iexact HO
  iexact Hr

theorem wp_stretch (d : Dev nD) (ops : List (HloOp τ sig (Elt F))) (hsub : ops.Forall fun op => op.bufs ⊆ StableHlo.tcRefs τ sig)
    (hfresh : ops.Forall fun op => op.fresh = ∅) (W : Valuation τ sig (Elt F))
    (k : PUnit → Prog (TpuEff nD τ sig (Elt F) (SparseCore.Sig (ΛP (F := F)) 2) .tc) PUnit) (Φ : PUnit → sProp 𝕄) :
    iprop(boundary (SparseCore.T d) ∗ StableHlo.held (SparseCore.T d) (Pipeline.ucRefs τ sig) W
        ∗ (iprop(boundary (SparseCore.T d) ∗ StableHlo.held (SparseCore.T d) (Pipeline.ucRefs τ sig) (StableHlo.after ops W))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (StableHlo.seq ops >>= k) Φ := by
  have hseq := StableHlo.wp_seq (defs := (K (F := F)).defs (D (F := F))) 𝒱 none Set.univ d (Pipeline.ucRefs τ sig) k (K := Φ) ops
    (fun op h => Pipeline.sub_ucRefs op ((List.forall_iff_forall_mem.mp hsub) op h))
    (fun op h => (List.forall_iff_forall_mem.mp hfresh) op h) W
  iintro ⟨Hb, Hh, Hk⟩
  iapply hseq $$ [Hb Hh]
  · isplitl [Hb] <;> iassumption
  iexact Hk

theorem wp_reg (X : GIn F) (κ : GSem nD τ sig → ℕ) (d : Dev nD) {p : Fin 4} (n : ℕ) (Win Wout : Valuation τ sig (Elt F))
    (R : Pipeline.RegionSeg (pcfgs (F := F)) adm (pdats m) (none : HIx 2) defs₀ 𝒱₀ (K (F := F)).L (K (F := F)).lev p)
    (hpre : R.pre d = iprop(StableHlo.held (SparseCore.T d) (Pipeline.ucRefs τ sig) Win ∗ Ow (F := F) n d))
    (hpost : R.post d = iprop(StableHlo.held (SparseCore.T d) (Pipeline.ucRefs τ sig) Wout ∗ Ow (F := F) n d))
    (k : PUnit → Prog (TpuEff nD τ sig (Elt F) (SparseCore.Sig (ΛP (F := F)) 2) .tc) PUnit) (Φ : PUnit → sProp 𝕄) :
    iprop((K (F := F)).ctx EH (P X) κ ∗ (K (F := F)).tcSt EH d n ∗ boundary (SparseCore.T d)
        ∗ StableHlo.held (SparseCore.T d) (Pipeline.ucRefs τ sig) Win
        ∗ Pipeline.cellsGhost (Pipeline.pin (pcfgs (F := F)) adm) EP p d ∗ Pipeline.toksInit (Pipeline.pin (pcfgs (F := F)) adm) EP p d
        ∗ (iprop((K (F := F)).tcSt EH d n ∗ boundary (SparseCore.T d) ∗ StableHlo.held (SparseCore.T d) (Pipeline.ucRefs τ sig) Wout)
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (regionCall p >>= k) Φ := by
  iintro ⟨#Hctx, Hst, Hb, Hh, Hc, Ht, Hk⟩
  ihave Hlev := (SparseCore.Cfg.ctx_levAts κ) $$ Hctx
  ihave Hs := (tcSt_open (F := F) d n) $$ Hst
  icases Hs with ⟨HO, Hcl⟩
  iapply (wp_region (pdats m) R d k Φ) $$ [Hk Hcl Hb Hh HO Hlev Hc Ht]
  isplitl [Hk Hcl]
  · rw [hpost]
    iintro ⟨Hb, Hh, HO⟩
    iapply Hk
    isplitl [Hcl HO]; · iapply Hcl; iexact HO
    isplitl [Hb] <;> iassumption
  isplitl [Hb]; · iexact Hb
  isplitl [Hh HO]; · rw [hpre]; isplitl [Hh] <;> iassumption
  isplitl [Hlev]; · iexact Hlev
  isplitl [Hc] <;> iassumption

omit [FloatOps F] [∀ e, Nonempty (Elt F e)] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

theorem hmain (κ : GSem nD τ sig → ℕ) (d : Dev nD) :
    iprop((K (F := F)).ctx EH (P (X m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d) := by
  rw [main_eq]
  unfold SparseCore.Cfg.tcRes G
  rw [bigSep_fin4, bigSep_fin4, Pipeline.unscopedBufs_held d (W0 m d)]
  iintro ⟨#Hctx, Hst, ⟨Hb, Hh, -, -⟩, ⟨Hc0, Hc1, Hc2, Hc3⟩, ⟨Ht0, Ht1, Ht2, Ht3⟩⟩

  iapply (wp_stretch d opsA opsA_sub opsA_fresh (W0 m d) _ _) $$ [Hb Hh Hst Hc0 Hc1 Hc2 Hc3 Ht0 Ht1 Ht2 Ht3]
  isplitl [Hb]; · iexact Hb
  isplitl [Hh]; · iexact Hh
  iintro ⟨Hb, Hh⟩

  rw [wp_bind]
  iapply (wp_call0 m (X m) κ d _ rfl rfl rfl) $$ [Hb Hh Hst Hc0 Hc1 Hc2 Hc3 Ht0 Ht1 Ht2 Ht3]
  isplitr; · iexact Hctx
  isplitl [Hst]; · iexact Hst
  isplitl [Hh]; · iexact Hh
  iintro ⟨Hst, Hh⟩

  iapply (wp_stretch d opsB opsB_sub opsB_fresh (W2 m d) _ _) $$ [Hb Hh Hst Hc0 Hc1 Hc2 Hc3 Ht0 Ht1 Ht2 Ht3]
  isplitl [Hb]; · iexact Hb
  isplitl [Hh]; · iexact Hh
  iintro ⟨Hb, Hh⟩

  iapply (wp_reg m (X m) κ d 1 (W3 m d) (W4 m d) (reg0 m) rfl rfl _ _) $$ [Hb Hh Hst Hc0 Hc1 Hc2 Hc3 Ht0 Ht1 Ht2 Ht3]
  isplitr; · iexact Hctx
  isplitl [Hst]; · iexact Hst
  isplitl [Hb]; · iexact Hb
  isplitl [Hh]; · iexact Hh
  isplitl [Hc0]; · iexact Hc0
  isplitl [Ht0]; · iexact Ht0
  iintro ⟨Hst, Hb, Hh⟩
  iapply (wp_stretch d opsC opsC_sub opsC_fresh (W4 m d) _ _) $$ [Hb Hh Hst Hc1 Hc2 Hc3 Ht1 Ht2 Ht3]
  isplitl [Hb]; · iexact Hb
  isplitl [Hh]; · iexact Hh
  iintro ⟨Hb, Hh⟩

  iapply (wp_reg m (X m) κ d 1 (W5 m d) (W6 m d) (reg1 m) rfl rfl _ _) $$ [Hb Hh Hst Hc1 Hc2 Hc3 Ht1 Ht2 Ht3]
  isplitr; · iexact Hctx
  isplitl [Hst]; · iexact Hst
  isplitl [Hb]; · iexact Hb
  isplitl [Hh]; · iexact Hh
  isplitl [Hc1]; · iexact Hc1
  isplitl [Ht1]; · iexact Ht1
  iintro ⟨Hst, Hb, Hh⟩

  rw [wp_bind]
  iapply (wp_call1 m (X m) κ d _ rfl (W6_v1 m d) (W6_v3 m d)) $$ [Hb Hh Hst Hc2 Hc3 Ht2 Ht3]
  isplitr; · iexact Hctx
  isplitl [Hst]; · iexact Hst
  isplitl [Hh]; · iexact Hh
  iintro ⟨Hst, Hh⟩
  iapply (wp_stretch d opsD opsD_sub opsD_fresh (W7 m d) _ _) $$ [Hb Hh Hst Hc2 Hc3 Ht2 Ht3]
  isplitl [Hb]; · iexact Hb
  isplitl [Hh]; · iexact Hh
  iintro ⟨Hb, Hh⟩

  iapply (wp_reg m (X m) κ d 2 (W8 m d) (W9 m d) (reg2 m) rfl rfl _ _) $$ [Hb Hh Hst Hc2 Hc3 Ht2 Ht3]
  isplitr; · iexact Hctx
  isplitl [Hst]; · iexact Hst
  isplitl [Hb]; · iexact Hb
  isplitl [Hh]; · iexact Hh
  isplitl [Hc2]; · iexact Hc2
  isplitl [Ht2]; · iexact Ht2
  iintro ⟨Hst, Hb, Hh⟩
  iapply (wp_stretch d opsE opsE_sub opsE_fresh (W9 m d) _ _) $$ [Hb Hh Hst Hc3 Ht3]
  isplitl [Hb]; · iexact Hb
  isplitl [Hh]; · iexact Hh
  iintro ⟨Hb, Hh⟩

  iapply (wp_reg m (X m) κ d 2 (W10 m d) (W11 m d) (reg3 m) rfl rfl _ _) $$ [Hb Hh Hst Hc3 Ht3]
  isplitr; · iexact Hctx
  isplitl [Hst]; · iexact Hst
  isplitl [Hb]; · iexact Hb
  isplitl [Hh]; · iexact Hh
  isplitl [Hc3]; · iexact Hc3
  isplitl [Ht3]; · iexact Ht3
  iintro ⟨Hst, Hb, Hh⟩

  rw [show (StableHlo.seq (opsF (F := F)) : Prog (TpuEff nD τ sig (Elt F) (SparseCore.Sig (ΛP (F := F)) 2) .tc) PUnit)
      = StableHlo.seq opsF >>= fun _ => pure ⟨⟩ from (bind_pure _).symm]
  iapply (wp_stretch d opsF opsF_sub opsF_fresh (W11 m d) _ _) $$ [Hb Hh Hst]
  isplitl [Hb]; · iexact Hb
  isplitl [Hh]; · iexact Hh
  iintro ⟨-, Hh⟩
  rw [wp_pure]
  imodintro
  isplitl [Hst]; · iexact Hst
  iexact Hh

end Cert.Proof.KI

end
-- ==== Proof.KI.Gather0.lean ====
/- One tile's task in the first gather call: 125 trips of 80 rows, under the invariant that the rows written so far are the table's rows at the indices. -/
import proofs.«215230_g44530220925728_cont_8to1c4_163_46_alg».proof.Proof.KI.Pay
import Idealize.ShloMosaic.Lib.SparseCore.Launch
import Idealize.ShloMosaic.Lib.SparseCore.Ops
import Idealize.ShloMosaic.Lib.SparseCore.Stream
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 2) (Elt F) ℕ UU ℕ
namespace G0

variable [FloatOps F]

abbrev nObj : ℕ := S10000x128.size 0
abbrev cV (L : grid0.Coords) : Fin τ.nSC := (L 0).castLE hcore0
abbrev jV (L : grid0.Coords) : Fin τ.nSub := (L 1).castLE hsub0

abbrev objV : Memref sig .scVector .hbm S10000x128 .f32 := Memref.whole main_arg0_scv
abbrev siV : Memref sig .scVector .hbm S320000 .i32 := Memref.whole main_v1_scv
abbrev oiV : Memref sig .scVector .hbm S320000 .i32 := Memref.whole main_v3_scv
abbrev r0V : Memref sig .scVector .hbm S320000x128 .f32 := Memref.whole main_v4_0_scv
abbrev r1V : Memref sig .scVector .hbm S320000x128 .f32 := Memref.whole main_v4_1_scv
abbrev sI : Memref sig .scVector .vmem S80 .i32 := Memref.whole cc0_scratch0
abbrev sR : Memref sig .scVector .vmem S80x128 .f32 := Memref.whole cc0_scratch1

variable (X : GIn F) (d : Dev nD) (L : grid0.Coords)

abbrev thr : Thread nD τ := V d (cV L) (jV L)

abbrev cG : GSem nD τ sig := (thr d L, .dma cc0_scratch2.sem)
abbrev c0 : GSem nD τ sig := (thr d L, .dma cc0_scoped0.sem)
abbrev c1 : GSem nD τ sig := (thr d L, .dma cc0_scoped1.sem)
abbrev c2 : GSem nD τ sig := (thr d L, .dma cc0_scoped2.sem)
abbrev c3 : GSem nD τ sig := (thr d L, .dma cc0_scoped3.sem)

omit [FloatOps F] in
theorem pts_obj (q : PosShare TreeShare) (f : Buf (Elt F) (obj0Loc d)) :
    ((objV).view.loc (thr d L) ↦{q} f : sProp 𝕄) = obj0Loc d ↦{q} f := rfl
omit [FloatOps F] in
theorem pts_si (q : PosShare TreeShare) (f : Buf (Elt F) (siLoc d)) :
    ((siV).view.loc (thr d L) ↦{q} f : sProp 𝕄) = siLoc d ↦{q} f := rfl
omit [FloatOps F] in
theorem pts_oi (q : PosShare TreeShare) (f : Buf (Elt F) (oiLoc d)) :
    ((oiV).view.loc (thr d L) ↦{q} f : sProp 𝕄) = oiLoc d ↦{q} f := rfl

omit [FloatOps F] in
theorem cell_ne {a b : DmaSem sig} (h : a ≠ b) : ((thr d L, SemLoc.dma a) : GSem nD τ sig) ≠ (thr d L, SemLoc.dma b) :=
  fun e => h (by injection e with _ e; injection e)

omit [FloatOps F] in
theorem cell_mem (a : DmaSem sig) (h : (SemLoc.dma a : SemLoc sig).isScoped .scVector = true) :
    ((thr d L, SemLoc.dma a) : GSem nD τ sig) ∈ ownCells (thr d L) := (mem_ownCells (g := (thr d L, SemLoc.dma a))).mpr ⟨rfl, h⟩

omit [FloatOps F] in
theorem ownSems0_V :
    (ownSems0 (thr d L) : sProp 𝕄)
      = iprop(semVal (cG d L) 0 ∗ semVal (c0 d L) 0 ∗ semVal (c1 d L) 0 ∗ semVal (c2 d L) 0 ∗ semVal (c3 d L) 0
          ∗ bigSep (((((ownCells (thr d L)).erase (cG d L)).erase (c0 d L)).erase (c1 d L)).erase (c2 d L) |>.erase (c3 d L)) fun g => semVal g 0) := by
  unfold SparseCore.Cfg.ownSems0
  have mG := cell_mem d L cc0_scratch2.sem (by decide)
  have m0 := cell_mem d L cc0_scoped0.sem (by decide)
  have m1 := cell_mem d L cc0_scoped1.sem (by decide)
  have m2 := cell_mem d L cc0_scoped2.sem (by decide)
  have m3 := cell_mem d L cc0_scoped3.sem (by decide)
  rw [SparseCore.bigSep_erase' mG,
    SparseCore.bigSep_erase' (Finset.mem_erase.mpr ⟨cell_ne d L (by decide), m0⟩),
    SparseCore.bigSep_erase' (Finset.mem_erase.mpr ⟨cell_ne d L (by decide), Finset.mem_erase.mpr ⟨cell_ne d L (by decide), m1⟩⟩),
    SparseCore.bigSep_erase' (Finset.mem_erase.mpr ⟨cell_ne d L (by decide), Finset.mem_erase.mpr ⟨cell_ne d L (by decide), Finset.mem_erase.mpr ⟨cell_ne d L (by decide), m2⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), m3⟩⟩⟩⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

abbrev siK (k : Fin k0_t1_loop.trips) : Memref sig .scVector .hbm S80 .i32 :=
  (siV).slice (Rect.unit (s := S320000) (k0_off1 L k) S80.size (k0_off1_inb L k)) (fun _ => rfl)
abbrev oiK (k : Fin k0_t1_loop.trips) : Memref sig .scVector .hbm S80 .i32 :=
  (oiV).slice (Rect.unit (s := S320000) (k0_off1 L k) S80.size (k0_off1_inb L k)) (fun _ => rfl)
abbrev r0K (k : Fin k0_t1_loop.trips) : Memref sig .scVector .hbm S80x128 .f32 :=
  (r0V).slice (Rect.unit (s := S320000x128) (k0_off2 L k) S80x128.size (k0_off2_inb L k)) (fun _ => rfl)
abbrev r1K (k : Fin k0_t1_loop.trips) : Memref sig .scVector .hbm S80x128 .f32 :=
  (r1V).slice (Rect.unit (s := S320000x128) (k0_off2 L k) S80x128.size (k0_off2_inb L k)) (fun _ => rfl)
abbrev objK : Memref sig .scVector .hbm S10000x128 .f32 :=
  (objV).slice (Rect.unit (s := S10000x128) ![0, 0] S10000x128.size inb_S10000x128_S10000x128_0_0) (fun _ => rfl)

def Done (idx : Buf (Elt F) (siLoc d)) (f : Buf (Elt F) (r00Loc d)) (k : ℕ) : Prop :=
  ∀ j ∈ tileSet (L 0).val (L 1).val, (j 0).val < 20000 * (L 1).val + 10000 * (L 0).val + 80 * k → f j = gath0 d (X.obj0 d) idx j

def inv (O : CellTallies nD τ sig (HIx 2)) (W : Waits sig (HIx 2)) (k : Nat) (_ : PUnit) : sProp 𝕄 :=
  iprop(Transfers.MayWaits (thr d L) (none : HIx 2) O
    ∗ ((objV).view.loc (thr d L) ↦{tileShare (L 0).val (L 1).val} X.obj0 d)
    ∗ ((siV).view.loc (thr d L) ↦{tileShare (L 0).val (L 1).val} X.si d)
    ∗ ((oiV).view.loc (thr d L) ↦{tileShare (L 0).val (L 1).val} X.oi d)
    ∗ (∃ f, ⌜Done X d L (X.si d) f k⌝ ∗ r00Loc d ↦[tileSet (L 0).val (L 1).val]{fullShare} f)
    ∗ (∃ f, ⌜Done X d L (X.oi d) f k⌝ ∗ r01Loc d ↦[tileSet (L 0).val (L 1).val]{fullShare} f)
    ∗ (∃ f, (sI).view.loc (thr d L) ↦{fullShare} f) ∗ (∃ f, (sR).view.loc (thr d L) ↦{fullShare} f)
    ∗ semVal (cG d L) 0 ∗ semVal (c0 d L) 0 ∗ semVal (c1 d L) 0 ∗ semVal (c2 d L) 0 ∗ semVal (c3 d L) 0
    ∗ ∃ W', ⌜∀ p ∈ W', p ∈ W ∨ p.2 = none⌝ ∗ owes (thr d L) O W')

omit [FloatOps F] in
theorem chunk_sub (k : Fin k0_t1_loop.trips) : (r0K L k).view.set ⊆ tileSet (L 0).val (L 1).val := by
  intro j hj
  have hk : k.val < 125 := Nat.lt_of_lt_of_le k.isLt k0_t1_abs.2.1
  rw [show (r0K L k).view.set = (Rect.unit (s := S320000x128) (k0_off2 L k) S80x128.size (k0_off2_inb L k)).set from View.set_slice_whole _ _,
    Rect.mem_set_unit] at hj
  have h0 := hj 0
  rw [k0_off2_eq] at h0
  rw [mem_tileSet]
  simp at h0
  omega

omit [FloatOps F] in
theorem inb_of (fs : Buf (Elt F) ((sI).view.loc (thr d L))) (pay : S80.Idx → Elt F .i32) (hpay : ∀ y, (pay y).toNat < nObj) :
    ∀ x, ((sI).view.read (Elt F) (View.write (Elt F) (sI).view fs pay Finset.univ) x).toNat < S10000x128.size gathers_S10000x128_S80x128.axis := by
  intro x
  rw [View.write_whole_univ]
  simp only [Memref.view_whole, View.read_whole]
  exact hpay x

abbrev bs (k : Fin k0_t1_loop.trips) : ℕ := 20000 * (L 1).val + 10000 * (L 0).val + 80 * k.val

omit [FloatOps F] in
theorem bs_lt (k : Fin k0_t1_loop.trips) {y : ℕ} (hy : y < 80) : bs L k + y < 320000 := by
  have hk : k.val < 125 := Nat.lt_of_lt_of_le k.isLt k0_t1_abs.2.1
  have h0 : (L 0).val < 2 := (L 0).isLt
  have h1 : (L 1).val < 16 := (L 1).isLt
  unfold bs; omega

abbrev rowAt (k : Fin k0_t1_loop.trips) (y : S80x128.Idx) : S320000x128.Idx :=
  ix2 (n0 := 320000) (n1 := 128) ⟨bs L k + (y 0).val, bs_lt L k (show (y 0).val < 80 from (y 0).isLt)⟩ (y 1)

abbrev idxAt (k : Fin k0_t1_loop.trips) (x : S80.Idx) : S320000.Idx :=
  ix1 (n := 320000) ⟨bs L k + (x 0).val, bs_lt L k (show (x 0).val < 80 from (x 0).isLt)⟩

omit [FloatOps F] in
theorem emb_r0K (k : Fin k0_t1_loop.trips) (y : S80x128.Idx) : (r0K L k).view.emb y = rowAt L k y := by
  funext a
  apply Fin.ext
  have h2 := k0_off2_eq L k
  match a with
  | ⟨0, _⟩ =>
    show k0_off2 L k 0 + 1 * (y 0).val = bs L k + (y 0).val
    rw [h2]; simp [bs]
  | ⟨1, _⟩ =>
    show k0_off2 L k 1 + 1 * (y 1).val = (y 1).val
    rw [h2]; simp
omit [FloatOps F] in
theorem emb_r1K (k : Fin k0_t1_loop.trips) (y : S80x128.Idx) : (r1K L k).view.emb y = rowAt L k y := emb_r0K L k y

omit [FloatOps F] in
theorem emb_siK (k : Fin k0_t1_loop.trips) (x : S80.Idx) : (siK L k).view.emb x = idxAt L k x := by
  funext a
  apply Fin.ext
  have h1 := k0_off1_eq L k
  match a with
  | ⟨0, _⟩ =>
    show k0_off1 L k 0 + 1 * (x 0).val = bs L k + (x 0).val
    rw [h1]; simp [bs]
omit [FloatOps F] in
theorem emb_oiK (k : Fin k0_t1_loop.trips) (x : S80.Idx) : (oiK L k).view.emb x = idxAt L k x := emb_siK L k x

omit [FloatOps F] in
theorem read_siK (k : Fin k0_t1_loop.trips) (idx : Buf (Elt F) (siLoc d)) (x : S80.Idx) :
    View.read (Elt F) (siK L k).view idx x = idx (idxAt L k x) := by
  rw [show View.read (Elt F) (siK L k).view idx x = idx ((siK L k).view.emb x) from (View.read_apply _ _).trans (cast_eq _ _), emb_siK]
omit [FloatOps F] in
theorem read_oiK (k : Fin k0_t1_loop.trips) (idx : Buf (Elt F) (oiLoc d)) (x : S80.Idx) :
    View.read (Elt F) (oiK L k).view idx x = idx (idxAt L k x) := by
  rw [show View.read (Elt F) (oiK L k).view idx x = idx ((oiK L k).view.emb x) from (View.read_apply _ _).trans (cast_eq _ _), emb_oiK]

theorem gather_val (k : Fin k0_t1_loop.trips) (idx : Buf (Elt F) (siLoc d)) (hidx : ∀ e, (idx e).toNat < nObj)
    (cur : S80.Idx → Elt F .i32) (hcur : ∀ x, cur x = idx (idxAt L k x))
    (hn : S80.numel = S80x128.size gathers_S10000x128_S80x128.axis')
    (hin : ∀ x, (cur x).toNat < S10000x128.size gathers_S10000x128_S80x128.axis) (y : S80x128.Idx) :
    SparseCore.gatherPayload gathers_S10000x128_S80x128 (View.read (Elt F) (objK).view (X.obj0 d)) (SparseCore.rows cur hn hin) y
      = gath0 d (X.obj0 d) idx (rowAt L k y) := by
  unfold SparseCore.gatherPayload
  rw [show ∀ z, View.read (Elt F) (objK).view (X.obj0 d) z = X.obj0 d ((objK).view.emb z) from fun z => (View.read_apply _ _).trans (cast_eq _ _)]
  rw [gath0_apply d (X.obj0 d) idx (rowAt L k y) (hidx _)]
  congr 1
  funext a
  apply Fin.ext
  match a with
  | ⟨0, h0⟩ =>
    have hx : ((S80.rowMajor.symm ((y gathers_S10000x128_S80x128.axis').cast hn.symm)) 0).val = (y 0).val := by
      have h := Shape.rowMajor_val_one (d := ![80]) (S80.rowMajor.symm ((y gathers_S10000x128_S80x128.axis').cast hn.symm))
      rw [Equiv.apply_symm_apply] at h
      exact h.symm
    show 0 + 1 * ((gathers_S10000x128_S80x128.idx (SparseCore.rows cur hn hin) y) ⟨0, h0⟩).val = (idx (ix1 (rowAt L k y 0))).toNat
    rw [show ((gathers_S10000x128_S80x128.idx (SparseCore.rows cur hn hin) y) ⟨0, h0⟩).val
        = (SparseCore.rows cur hn hin (y gathers_S10000x128_S80x128.axis')).val from by unfold Shape.Gathers.idx; rw [dif_pos rfl]; rfl]
    show 0 + 1 * (cur (S80.rowMajor.symm ((y gathers_S10000x128_S80x128.axis').cast hn.symm))).toNat = _
    rw [hcur, Nat.zero_add, Nat.one_mul]
    congr 2
    funext b
    match b with
    | ⟨0, _⟩ => exact Fin.ext (by show bs L k + _ = bs L k + (y 0).val; rw [hx])
  | ⟨1, h1⟩ =>
    show 0 + 1 * ((gathers_S10000x128_S80x128.idx (SparseCore.rows cur hn hin) y) ⟨1, h1⟩).val = (y 1).val
    rw [Shape.Gathers.idx_of_ne gathers_S10000x128_S80x128 _ y ⟨1, h1⟩ Nat.one_ne_zero, Nat.zero_add, Nat.one_mul]
    rfl

omit [FloatOps F] in
theorem mem_chunk (k : Fin k0_t1_loop.trips) (j : S320000x128.Idx) :
    j ∈ (r0K L k).view.set ↔ bs L k ≤ (j 0).val ∧ (j 0).val < bs L k + 80 := by
  rw [show (r0K L k).view.set = (Rect.unit (s := S320000x128) (k0_off2 L k) S80x128.size (k0_off2_inb L k)).set from View.set_slice_whole _ _,
    Rect.mem_set_unit]
  have h2 := k0_off2_eq L k
  constructor
  · intro h
    have h0 := h 0
    rw [h2] at h0
    simpa [bs] using h0
  · intro h a
    rw [h2]
    match a with
    | ⟨0, _⟩ => simpa [bs] using h
    | ⟨1, _⟩ => exact ⟨Nat.zero_le _, by simpa using (j 1).isLt⟩
omit [FloatOps F] in
theorem mem_chunk1 (k : Fin k0_t1_loop.trips) (j : S320000x128.Idx) :
    j ∈ (r1K L k).view.set ↔ bs L k ≤ (j 0).val ∧ (j 0).val < bs L k + 80 := mem_chunk L k j

omit [FloatOps F] in

theorem chunk_write0 (k : Fin k0_t1_loop.trips) (f0 : Buf (Elt F) (r00Loc d)) (w : S80x128.Idx → Elt F .f32) (y : S80x128.Idx) :
    ((r0K L k).view.writes (Elt F) f0 [⟨Rect.whole S80x128, w⟩]) ((r0K L k).view.emb y) = w y := by
  have h := View.read_writes_cons_emb (r0K L k).view f0 (Rect.whole S80x128) w [] y
  rw [Rect.emb_whole_apply] at h
  rw [← h]
  exact ((View.read_apply _ _).trans (cast_eq _ _)).symm
omit [FloatOps F] in
theorem chunk_write1 (k : Fin k0_t1_loop.trips) (f1 : Buf (Elt F) (r01Loc d)) (w : S80x128.Idx → Elt F .f32) (y : S80x128.Idx) :
    ((r1K L k).view.writes (Elt F) f1 [⟨Rect.whole S80x128, w⟩]) ((r1K L k).view.emb y) = w y := by
  have h := View.read_writes_cons_emb (r1K L k).view f1 (Rect.whole S80x128) w [] y
  rw [Rect.emb_whole_apply] at h
  rw [← h]
  exact ((View.read_apply _ _).trans (cast_eq _ _)).symm

theorem pay_val (k : Fin k0_t1_loop.trips) (idx : Buf (Elt F) (siLoc d)) (hidx : ∀ e, (idx e).toNat < nObj)
    (cur : S80.Idx → Elt F .i32) (hcur : ∀ x, cur x = idx (idxAt L k x))
    (hn : S80.numel = S80x128.size gathers_S10000x128_S80x128.axis')
    (hin : ∀ x, (cur x).toNat < S10000x128.size gathers_S10000x128_S80x128.axis)
    (fr : Buf (Elt F) ((sR).view.loc (thr d L))) (rest : List (View.Piece (Elt F) S80x128 .f32)) (y : S80x128.Idx) :
    (ReadAs.same : ReadAs (Elt F) S80x128 .f32 S80x128 .f32).apply (View.read (Elt F) (sR).view ((sR).view.writes (Elt F) fr
        (⟨Rect.whole S80x128, SparseCore.gatherPayload gathers_S10000x128_S80x128 (View.read (Elt F) (objK).view (X.obj0 d)) (SparseCore.rows cur hn hin)⟩ :: rest))) y
      = gath0 d (X.obj0 d) idx (rowAt L k y) := by
  show View.read (Elt F) (sR).view _ y = _
  have h := View.read_writes_cons_emb (sR).view fr (Rect.whole S80x128)
    (SparseCore.gatherPayload gathers_S10000x128_S80x128 (View.read (Elt F) (objK).view (X.obj0 d)) (SparseCore.rows cur hn hin)) rest y
  rw [Rect.emb_whole_apply] at h
  rw [h]
  exact gather_val X d L k idx hidx cur hcur hn hin y

theorem close0 (k : Fin k0_t1_loop.trips) (idx : Buf (Elt F) (siLoc d)) (f0 : Buf (Elt F) (r00Loc d)) (hf0 : Done X d L idx f0 k.val)
    (w : S80x128.Idx → Elt F .f32) (hw : ∀ y, w y = gath0 d (X.obj0 d) idx (rowAt L k y)) :
    Done X d L idx (((r0K L k).view.set).piecewise ((r0K L k).view.writes (Elt F) f0 [⟨Rect.whole S80x128, w⟩]) f0) (k.val + 1) := by
  intro j hjt hlt
  by_cases hj : j ∈ (r0K L k).view.set
  · rw [Finset.piecewise_eq_of_mem _ _ _ hj]
    obtain ⟨y, -, rfl⟩ := Finset.mem_map.mp hj
    rw [chunk_write0, hw, emb_r0K]
  · rw [Finset.piecewise_eq_of_notMem _ _ _ hj]
    refine hf0 j hjt ?_
    rw [mem_chunk] at hj
    rw [mem_tileSet] at hjt
    unfold bs at hj
    omega
theorem close1 (k : Fin k0_t1_loop.trips) (idx : Buf (Elt F) (siLoc d)) (f1 : Buf (Elt F) (r01Loc d)) (hf1 : Done X d L idx f1 k.val)
    (w : S80x128.Idx → Elt F .f32) (hw : ∀ y, w y = gath0 d (X.obj0 d) idx (rowAt L k y)) :
    Done X d L idx (((r1K L k).view.set).piecewise ((r1K L k).view.writes (Elt F) f1 [⟨Rect.whole S80x128, w⟩]) f1) (k.val + 1) := by
  intro j hjt hlt
  by_cases hj : j ∈ (r1K L k).view.set
  · rw [Finset.piecewise_eq_of_mem _ _ _ hj]
    obtain ⟨y, -, rfl⟩ := Finset.mem_map.mp hj
    rw [chunk_write1, hw, emb_r1K]
  · rw [Finset.piecewise_eq_of_notMem _ _ _ hj]
    refine hf1 j hjt ?_
    rw [mem_chunk1] at hj
    rw [mem_tileSet] at hjt
    unfold bs at hj
    omega

omit [FloatOps F] in
theorem pts_r0K (k : Fin k0_t1_loop.trips) (f : Buf (Elt F) (r00Loc d)) :
    ((r0K L k).view.loc (thr d L) ↦[(r0K L k).view.set]{fullShare} f : sProp 𝕄) = (r00Loc d ↦[(r0K L k).view.set]{fullShare} f) := rfl
omit [FloatOps F] in
theorem pts_r1K (k : Fin k0_t1_loop.trips) (f : Buf (Elt F) (r01Loc d)) :
    ((r1K L k).view.loc (thr d L) ↦[(r1K L k).view.set]{fullShare} f : sProp 𝕄) = (r01Loc d ↦[(r1K L k).view.set]{fullShare} f) := rfl
omit [FloatOps F] in
theorem chunk_sub1 (k : Fin k0_t1_loop.trips) : (r1K L k).view.set ⊆ tileSet (L 0).val (L 1).val := chunk_sub L k

omit [FloatOps F] in
theorem cur_val (k : Fin k0_t1_loop.trips) (fs : Buf (Elt F) ((sI).view.loc (thr d L))) (pay : S80.Idx → Elt F .i32) (x : S80.Idx) :
    View.read (Elt F) (sI).view (View.write (Elt F) (sI).view fs pay Finset.univ) x = pay x := by
  rw [View.write_whole_univ]
  simp only [Memref.view_whole, View.read_whole]

set_option maxHeartbeats 4000000 in

theorem trip (hX : X.InRange) (O : CellTallies nD τ sig (HIx 2)) (W : Waits sig (HIx 2)) (k : Fin k0_t1_loop.trips) :
    inv X d L O W k.val ⟨⟩
      ⊢ wp frame (wpE (defs₀ (F := F)) 𝒱₀ (thr d L) none) Set.univ
          (k0_t1_body L objV (Memref.isWhole_whole _) siV (Memref.isWhole_whole _) oiV (Memref.isWhole_whole _)
            r0V (Memref.isWhole_whole _) r1V (Memref.isWhole_whole _) sI (Memref.isWhole_whole _) sR (Memref.isWhole_whole _)
            cc0_scratch2 cc0_scoped0 cc0_scoped1 cc0_scoped2 cc0_scoped3 k ⟨⟩)
          (inv X d L O W (k.val + 1)) := by
  unfold inv k0_t1_body
  iintro ⟨Hmw, Hobj, Hsi, Hoi, ⟨%f0, %hf0, Hr0⟩, ⟨%f1, %hf1, Hr1⟩, ⟨%fi, HsI⟩, ⟨%fr, HsR⟩, HG, H0, H1, H2, H3, %W', %hW', HO⟩
  ihave Hr0s := (pointsTo_split_subset (chunk_sub L k)).1 $$ Hr0
  icases Hr0s with ⟨Hr0c, Hr0r⟩
  ihave Hr0c' := (Entails.of_eq (pts_r0K (F := F) d L k f0).symm) $$ Hr0c
  ihave Hr1s := (pointsTo_split_subset (chunk_sub1 L k)).1 $$ Hr1
  icases Hr1s with ⟨Hr1c, Hr1r⟩
  ihave Hr1c' := (Entails.of_eq (pts_r1K (F := F) d L k f1).symm) $$ Hr1c
  have hsi : ∀ e, ((X.si d) e).toNat < nObj := fun e => Nat.lt_of_lt_of_le (hX d e).1 (by decide)
  have hoi : ∀ e, ((X.oi d) e).toNat < nObj := fun e => Nat.lt_of_lt_of_le (hX d e).2 (by decide)
  have hpay1 : ∀ y, ((ReadAs.same : ReadAs (Elt F) S80 .i32 S80 .i32).apply (View.read (Elt F) (siK L k).view (X.si d)) y).toNat < nObj := by
    intro y
    show (View.read (Elt F) (siK L k).view (X.si d) y).toNat < nObj
    rw [read_siK]; exact hsi _
  have hpay2 : ∀ y, ((ReadAs.same : ReadAs (Elt F) S80 .i32 S80 .i32).apply (View.read (Elt F) (oiK L k).view (X.oi d)) y).toNat < nObj := by
    intro y
    show (View.read (Elt F) (oiK L k).view (X.oi d) y).toNat < nObj
    rw [read_oiK]; exact hoi _
  have hin1 := fun fs => inb_of (F := F) d L fs _ hpay1
  have hin2 := fun fs => inb_of (F := F) d L fs _ hpay2
  sl_exec
  ihave Hr0c2 := (Entails.of_eq (pts_r0K (F := F) d L k _)) $$ Hr0c'
  ihave Hj0 := (pointsTo_join_subset (ℓ := r00Loc d) (chunk_sub L k)) $$ [Hr0c2 Hr0r]
  · isplitl [Hr0c2] <;> iassumption
  ihave Hr1c2 := (Entails.of_eq (pts_r1K (F := F) d L k _)) $$ Hr1c'
  ihave Hj1 := (pointsTo_join_subset (ℓ := r01Loc d) (chunk_sub1 L k)) $$ [Hr1c2 Hr1r]
  · isplitl [Hr1c2] <;> iassumption
  sl_step
  isplitl [Hmw]; · iexact Hmw
  isplitl [Hobj]; · iexact Hobj
  isplitl [Hsi]; · iexact Hsi
  isplitl [Hoi]; · iexact Hoi
  isplitl [Hj0]
  · iexists _; isplitr
    swap; · iexact Hj0
    ipureintro
    refine close0 X d L k (X.si d) f0 hf0 _ fun y => ?_
    exact pay_val X d L k (X.si d) hsi _ (fun x => (cur_val d L k fi _ x).trans (read_siK d L k (X.si d) x)) _ (hin1 fi) fr [] y
  isplitl [Hj1]
  · iexists _; isplitr
    swap; · iexact Hj1
    ipureintro
    refine close1 X d L k (X.oi d) f1 hf1 _ fun y => ?_
    exact pay_val X d L k (X.oi d) hoi _ (fun x => (cur_val d L k _ _ x).trans (read_oiK d L k (X.oi d) x)) _ (hin2 _) fr _ y
  isplitl [HsI]; · iexists _; iexact HsI
  isplitl [HsR]; · iexists _; iexact HsR
  isplitl [HG]; · iexact HG
  isplitl [H0]; · iexact H0
  isplitl [H1]; · iexact H1
  isplitl [H2]; · iexact H2
  isplitl [H3]; · iexact H3
  iexists _; isplitr
  swap; · iexact HO
  ipureintro; intro p hp
  simp only [Finset.mem_insert] at hp
  rcases hp with rfl | rfl | rfl | rfl | rfl | rfl | hp
  · exact .inr rfl
  · exact .inr rfl
  · exact .inr rfl
  · exact .inr rfl
  · exact .inr rfl
  · exact .inr rfl
  · exact hW' p hp

omit [FloatOps F] in
theorem trips_eq : k0_t1_loop.trips = 125 := by decide

set_option maxHeartbeats 4000000 in

theorem tile_body (hF : (K (F := F)).Facts) (hX : X.InRange) (O : CellTallies nD τ sig (HIx 2)) (W : Waits sig (HIx 2)) (hO : ∀ g, O g none = 0) :
    iprop(levAts (K (F := F)).L (K (F := F)).lev ∗ emp ∗ go0 X d (L 0).val (L 1).val
        ∗ scopedBufs (thr d L) ∗ scopedSems0 (thr d L) ∗ owes (thr d L) O W)
      ⊢ wp frame (wpE (defs₀ (F := F)) 𝒱₀ (thr d L) none) Set.univ
          (cc0_gather_kernel L objV (Memref.isWhole_whole _) siV (Memref.isWhole_whole _) oiV (Memref.isWhole_whole _)
            r0V (Memref.isWhole_whole _) r1V (Memref.isWhole_whole _) sI (Memref.isWhole_whole _) sR (Memref.isWhole_whole _)
            cc0_scratch2 cc0_scoped0 cc0_scoped1 cc0_scoped2 cc0_scoped3)
          fun _ => iprop(td0 X d (L 0).val (L 1).val ∗ scopedBufs (thr d L) ∗ scopedSems0 (thr d L)
            ∗ ∃ W', ⌜∀ p ∈ W', p ∈ W ∨ p.2 = none⌝ ∗ owes (thr d L) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  unfold go0 td0 ins0
  iintro ⟨#Hlv, -, ⟨⟨Hobj, Hsi, Hoi⟩, ⟨%f0, Hr0⟩, ⟨%f1, Hr1⟩⟩, ⟨⟨%fi, HsI⟩, ⟨%fr, HsR⟩, Hbufs⟩, ⟨HG, H0, H1, H2, H3, Hsems⟩, HO⟩
  ihave Hmw := (show levAts (K (F := F)).L (K (F := F)).lev ⊢ Transfers.MayWaits (thr d L) (default : HIx 2) O from
    (K (F := F)).mayWaits_none (thr := thr d L) hO) $$ Hlv
  sl_for (inv X d L O W) $$ [Hmw Hobj Hsi Hoi Hr0 Hr1 HsI HsR HG H0 H1 H2 H3 HO]
  case region =>
    intro k acc
    exact trip X d L hX O W k
  · unfold inv
    isplitl [Hmw]; · iexact Hmw
    isplitl [Hobj]; · iexact Hobj
    isplitl [Hsi]; · iexact Hsi
    isplitl [Hoi]; · iexact Hoi
    isplitl [Hr0]
    · iexists f0; isplitr
      · ipureintro; intro j hj hlt; rw [mem_tileSet] at hj; omega
      · iexact Hr0
    isplitl [Hr1]
    · iexists f1; isplitr
      · ipureintro; intro j hj hlt; rw [mem_tileSet] at hj; omega
      · iexact Hr1
    isplitl [HsI]; · iexists fi; iexact HsI
    isplitl [HsR]; · iexists fr; iexact HsR
    isplitl [HG]; · iexact HG
    isplitl [H0]; · iexact H0
    isplitl [H1]; · iexact H1
    isplitl [H2]; · iexact H2
    isplitl [H3]; · iexact H3
    iexists W; isplitr
    · ipureintro; exact fun p hp => .inl hp
    · iexact HO
  iintro %_ HI
  unfold inv
  icases HI with ⟨-, Hobj, Hsi, Hoi, ⟨%g0, %hg0, Hr0⟩, ⟨%g1, %hg1, Hr1⟩, ⟨%fi', HsI⟩, ⟨%fr', HsR⟩, HG, H0, H1, H2, H3, %W', %hW', HO⟩
  sl_step
  have e0 : ∀ j ∈ tileSet (L 0).val (L 1).val, g0 j = gath0 d (X.obj0 d) (X.si d) j := fun j hj =>
    hg0 j hj (by
      rw [mem_tileSet] at hj
      have ht : Scf.trips k0_t1_loop.lb k0_t1_loop.ub k0_t1_loop.st = 125 := trips_eq
      rw [ht]; omega)
  have e1 : ∀ j ∈ tileSet (L 0).val (L 1).val, g1 j = gath0 d (X.obj0 d) (X.oi d) j := fun j hj =>
    hg1 j hj (by
      rw [mem_tileSet] at hj
      have ht : Scf.trips k0_t1_loop.lb k0_t1_loop.ub k0_t1_loop.st = 125 := trips_eq
      rw [ht]; omega)
  isplitl [Hobj Hsi Hoi Hr0 Hr1]
  · isplitl [Hobj Hsi Hoi]
    · isplitl [Hobj]; · iexact Hobj
      isplitl [Hsi]; · iexact Hsi
      iexact Hoi
    isplitl [Hr0]
    · iapply (Entails.of_eq (pointsTo_congr (Val := Elt F) (Ix := HIx 2) (Name := ℕ) (U := UU) (Lvl := ℕ) (ℓ := r00Loc d) (q := fullShare) e0)); iexact Hr0
    · iapply (Entails.of_eq (pointsTo_congr (Val := Elt F) (Ix := HIx 2) (Name := ℕ) (U := UU) (Lvl := ℕ) (ℓ := r01Loc d) (q := fullShare) e1)); iexact Hr1
  isplitl [HsI HsR Hbufs]
  · isplitl [HsI]; · iexists _; iexact HsI
    isplitl [HsR]; · iexists _; iexact HsR
    iexact Hbufs
  isplitl [HG H0 H1 H2 H3 Hsems]
  · isplitl [HG]; · iexact HG
    isplitl [H0]; · iexact H0
    isplitl [H1]; · iexact H1
    isplitl [H2]; · iexact H2
    isplitl [H3]; · iexact H3
    iexact Hsems
  iexists W'; isplitr
  · ipureintro; exact hW'
  · iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) (0 : Fin 6) ()
      = SparseCore.onTile hcore0 hsub0 (fun c s => cc0_gather_kernel (coordsV c s)
          objV (Memref.isWhole_whole _) siV (Memref.isWhole_whole _) oiV (Memref.isWhole_whole _)
          r0V (Memref.isWhole_whole _) r1V (Memref.isWhole_whole _) sI (Memref.isWhole_whole _) sR (Memref.isWhole_whole _)
          cc0_scratch2 cc0_scoped0 cc0_scoped1 cc0_scoped2 cc0_scoped3) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end G0

variable [FloatOps F]

set_option maxRecDepth 16384 in
theorem tileObl0 (X : GIn F) (hX : X.InRange) : (K (F := F)).TileObl (D (F := F)) 𝒱 (P X) v₀ (0 : Fin 2) := by
  intro d c i O W hO _ _
  simp only [P_ox, add_zero]
  have hci : ((K (F := F)).core (0 : Fin 2) c).val < grid0.bound 0 ∧ ((K (F := F)).sub (0 : Fin 2) i).val < grid0.bound 1 := ⟨c.isLt, i.isLt⟩
  change _ ⊢ wp _ _ _ (Pipeline.liftProg (defs₀ (F := F) (.scVector ((K (F := F)).core (0 : Fin 2) c) ((K (F := F)).sub (0 : Fin 2) i)) (0 : Fin 6) ())) _
  refine BI.Entails.trans ?_ (Pipeline.wp_liftProg (D (F := F)) (Pipeline.defs_kernel pcfgs defs₀) 𝒱₀ _ Set.univ none _ _)
  rw [G0.defs₀_vector]; simp only [SparseCore.onTile, hci, and_self, ↓reduceDIte]
  exact (G0.tile_body X d (G0.coordsV ⟨_, hci.1⟩ ⟨_, hci.2⟩) facts hX O W hO).trans (wp_mono frame _ _ fun _ => G0.obl_post)

end Cert.Proof.KI

end
-- ==== Proof.KI.Gather1.lean ====
/- One tile's task in the first gather call: 125 trips of 80 rows, under the invariant that the rows written so far are the table's rows at the indices. -/
import proofs.«215230_g44530220925728_cont_8to1c4_163_46_alg».proof.Proof.KI.Pay
import Idealize.ShloMosaic.Lib.SparseCore.Launch
import Idealize.ShloMosaic.Lib.SparseCore.Ops
import Idealize.ShloMosaic.Lib.SparseCore.Stream
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 2) (Elt F) ℕ UU ℕ
namespace G1

variable [FloatOps F]

abbrev nObj : ℕ := S10240x128.size 0
abbrev cV (L : grid3.Coords) : Fin τ.nSC := (L 0).castLE hcore3
abbrev jV (L : grid3.Coords) : Fin τ.nSub := (L 1).castLE hsub3

abbrev objV : Memref sig .scVector .hbm S10240x128 .f32 := Memref.whole main_v13_scv
abbrev siV : Memref sig .scVector .hbm S320000 .i32 := Memref.whole main_v1_scv
abbrev oiV : Memref sig .scVector .hbm S320000 .i32 := Memref.whole main_v3_scv
abbrev r0V : Memref sig .scVector .hbm S320000x128 .f32 := Memref.whole main_v14_0_scv
abbrev r1V : Memref sig .scVector .hbm S320000x128 .f32 := Memref.whole main_v14_1_scv
abbrev sI : Memref sig .scVector .vmem S80 .i32 := Memref.whole cc3_scratch0
abbrev sR : Memref sig .scVector .vmem S80x128 .f32 := Memref.whole cc3_scratch1

variable (X : GIn F) (d : Dev nD) (L : grid3.Coords)

abbrev thr : Thread nD τ := V d (cV L) (jV L)

abbrev cG : GSem nD τ sig := (thr d L, .dma cc3_scratch2.sem)
abbrev c0 : GSem nD τ sig := (thr d L, .dma cc3_scoped0.sem)
abbrev c1 : GSem nD τ sig := (thr d L, .dma cc3_scoped1.sem)
abbrev c2 : GSem nD τ sig := (thr d L, .dma cc3_scoped2.sem)
abbrev c3 : GSem nD τ sig := (thr d L, .dma cc3_scoped3.sem)

omit [FloatOps F] in
theorem pts_obj (q : PosShare TreeShare) (f : Buf (Elt F) (obj1Loc d)) :
    ((objV).view.loc (thr d L) ↦{q} f : sProp 𝕄) = obj1Loc d ↦{q} f := rfl
omit [FloatOps F] in
theorem pts_si (q : PosShare TreeShare) (f : Buf (Elt F) (siLoc d)) :
    ((siV).view.loc (thr d L) ↦{q} f : sProp 𝕄) = siLoc d ↦{q} f := rfl
omit [FloatOps F] in
theorem pts_oi (q : PosShare TreeShare) (f : Buf (Elt F) (oiLoc d)) :
    ((oiV).view.loc (thr d L) ↦{q} f : sProp 𝕄) = oiLoc d ↦{q} f := rfl

omit [FloatOps F] in
theorem cell_ne {a b : DmaSem sig} (h : a ≠ b) : ((thr d L, SemLoc.dma a) : GSem nD τ sig) ≠ (thr d L, SemLoc.dma b) :=
  fun e => h (by injection e with _ e; injection e)

omit [FloatOps F] in
theorem cell_mem (a : DmaSem sig) (h : (SemLoc.dma a : SemLoc sig).isScoped .scVector = true) :
    ((thr d L, SemLoc.dma a) : GSem nD τ sig) ∈ ownCells (thr d L) := (mem_ownCells (g := (thr d L, SemLoc.dma a))).mpr ⟨rfl, h⟩

omit [FloatOps F] in
theorem ownSems0_V :
    (ownSems0 (thr d L) : sProp 𝕄)
      = iprop(semVal (cG d L) 0 ∗ semVal (c0 d L) 0 ∗ semVal (c1 d L) 0 ∗ semVal (c2 d L) 0 ∗ semVal (c3 d L) 0
          ∗ bigSep (((((ownCells (thr d L)).erase (cG d L)).erase (c0 d L)).erase (c1 d L)).erase (c2 d L) |>.erase (c3 d L)) fun g => semVal g 0) := by
  unfold SparseCore.Cfg.ownSems0
  have mG := cell_mem d L cc3_scratch2.sem (by decide)
  have m0 := cell_mem d L cc3_scoped0.sem (by decide)
  have m1 := cell_mem d L cc3_scoped1.sem (by decide)
  have m2 := cell_mem d L cc3_scoped2.sem (by decide)
  have m3 := cell_mem d L cc3_scoped3.sem (by decide)
  rw [SparseCore.bigSep_erase' mG,
    SparseCore.bigSep_erase' (Finset.mem_erase.mpr ⟨cell_ne d L (by decide), m0⟩),
    SparseCore.bigSep_erase' (Finset.mem_erase.mpr ⟨cell_ne d L (by decide), Finset.mem_erase.mpr ⟨cell_ne d L (by decide), m1⟩⟩),
    SparseCore.bigSep_erase' (Finset.mem_erase.mpr ⟨cell_ne d L (by decide), Finset.mem_erase.mpr ⟨cell_ne d L (by decide), Finset.mem_erase.mpr ⟨cell_ne d L (by decide), m2⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), m3⟩⟩⟩⟩)]

omit [FloatOps F] in
theorem ownBufs_V :
    (ownBufs (thr d L) : sProp 𝕄)
      = iprop((∃ f, (thr d L).loc cc3_scratch0 ↦{fullShare} f) ∗ (∃ f, (thr d L).loc cc3_scratch1 ↦{fullShare} f)
          ∗ bigSep (((ownRefs (τ := τ) (.scVector (cV L) (jV L))).erase ((Proc.scVector (cV L) (jV L)).devRef cc3_scratch0)).erase
              ((Proc.scVector (cV L) (jV L)).devRef cc3_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV L) (jV L)) (b := (Proc.scVector (cV L) (jV L)).devRef cc3_scratch1) rfl⟩)]

abbrev siK (k : Fin k3_t1_loop.trips) : Memref sig .scVector .hbm S80 .i32 :=
  (siV).slice (Rect.unit (s := S320000) (k3_off1 L k) S80.size (k3_off1_inb L k)) (fun _ => rfl)
abbrev oiK (k : Fin k3_t1_loop.trips) : Memref sig .scVector .hbm S80 .i32 :=
  (oiV).slice (Rect.unit (s := S320000) (k3_off1 L k) S80.size (k3_off1_inb L k)) (fun _ => rfl)
abbrev r0K (k : Fin k3_t1_loop.trips) : Memref sig .scVector .hbm S80x128 .f32 :=
  (r0V).slice (Rect.unit (s := S320000x128) (k3_off2 L k) S80x128.size (k3_off2_inb L k)) (fun _ => rfl)
abbrev r1K (k : Fin k3_t1_loop.trips) : Memref sig .scVector .hbm S80x128 .f32 :=
  (r1V).slice (Rect.unit (s := S320000x128) (k3_off2 L k) S80x128.size (k3_off2_inb L k)) (fun _ => rfl)
abbrev objK : Memref sig .scVector .hbm S10240x128 .f32 :=
  (objV).slice (Rect.unit (s := S10240x128) ![0, 0] S10240x128.size inb_S10240x128_S10240x128_0_0) (fun _ => rfl)

def Done (idx : Buf (Elt F) (siLoc d)) (f : Buf (Elt F) (r10Loc d)) (k : ℕ) : Prop :=
  ∀ j ∈ tileSet (L 0).val (L 1).val, (j 0).val < 20000 * (L 1).val + 10000 * (L 0).val + 80 * k → f j = gath1 d (X.obj1 d) idx j

def inv (O : CellTallies nD τ sig (HIx 2)) (W : Waits sig (HIx 2)) (k : Nat) (_ : PUnit) : sProp 𝕄 :=
  iprop(Transfers.MayWaits (thr d L) (none : HIx 2) O
    ∗ ((objV).view.loc (thr d L) ↦{tileShare (L 0).val (L 1).val} X.obj1 d)
    ∗ ((siV).view.loc (thr d L) ↦{tileShare (L 0).val (L 1).val} X.si d)
    ∗ ((oiV).view.loc (thr d L) ↦{tileShare (L 0).val (L 1).val} X.oi d)
    ∗ (∃ f, ⌜Done X d L (X.si d) f k⌝ ∗ r10Loc d ↦[tileSet (L 0).val (L 1).val]{fullShare} f)
    ∗ (∃ f, ⌜Done X d L (X.oi d) f k⌝ ∗ r11Loc d ↦[tileSet (L 0).val (L 1).val]{fullShare} f)
    ∗ (∃ f, (sI).view.loc (thr d L) ↦{fullShare} f) ∗ (∃ f, (sR).view.loc (thr d L) ↦{fullShare} f)
    ∗ semVal (cG d L) 0 ∗ semVal (c0 d L) 0 ∗ semVal (c1 d L) 0 ∗ semVal (c2 d L) 0 ∗ semVal (c3 d L) 0
    ∗ ∃ W', ⌜∀ p ∈ W', p ∈ W ∨ p.2 = none⌝ ∗ owes (thr d L) O W')

omit [FloatOps F] in
theorem chunk_sub (k : Fin k3_t1_loop.trips) : (r0K L k).view.set ⊆ tileSet (L 0).val (L 1).val := by
  intro j hj
  have hk : k.val < 125 := Nat.lt_of_lt_of_le k.isLt k3_t1_abs.2.1
  rw [show (r0K L k).view.set = (Rect.unit (s := S320000x128) (k3_off2 L k) S80x128.size (k3_off2_inb L k)).set from View.set_slice_whole _ _,
    Rect.mem_set_unit] at hj
  have h0 := hj 0
  rw [k3_off2_eq] at h0
  rw [mem_tileSet]
  simp at h0
  omega

omit [FloatOps F] in
theorem inb_of (fs : Buf (Elt F) ((sI).view.loc (thr d L))) (pay : S80.Idx → Elt F .i32) (hpay : ∀ y, (pay y).toNat < nObj) :
    ∀ x, ((sI).view.read (Elt F) (View.write (Elt F) (sI).view fs pay Finset.univ) x).toNat < S10240x128.size gathers_S10240x128_S80x128.axis := by
  intro x
  rw [View.write_whole_univ]
  simp only [Memref.view_whole, View.read_whole]
  exact hpay x

abbrev bs (k : Fin k3_t1_loop.trips) : ℕ := 20000 * (L 1).val + 10000 * (L 0).val + 80 * k.val

omit [FloatOps F] in
theorem bs_lt (k : Fin k3_t1_loop.trips) {y : ℕ} (hy : y < 80) : bs L k + y < 320000 := by
  have hk : k.val < 125 := Nat.lt_of_lt_of_le k.isLt k3_t1_abs.2.1
  have h0 : (L 0).val < 2 := (L 0).isLt
  have h1 : (L 1).val < 16 := (L 1).isLt
  unfold bs; omega

abbrev rowAt (k : Fin k3_t1_loop.trips) (y : S80x128.Idx) : S320000x128.Idx :=
  ix2 (n0 := 320000) (n1 := 128) ⟨bs L k + (y 0).val, bs_lt L k (show (y 0).val < 80 from (y 0).isLt)⟩ (y 1)

abbrev idxAt (k : Fin k3_t1_loop.trips) (x : S80.Idx) : S320000.Idx :=
  ix1 (n := 320000) ⟨bs L k + (x 0).val, bs_lt L k (show (x 0).val < 80 from (x 0).isLt)⟩

omit [FloatOps F] in
theorem emb_r0K (k : Fin k3_t1_loop.trips) (y : S80x128.Idx) : (r0K L k).view.emb y = rowAt L k y := by
  funext a
  apply Fin.ext
  have h2 := k3_off2_eq L k
  match a with
  | ⟨0, _⟩ =>
    show k3_off2 L k 0 + 1 * (y 0).val = bs L k + (y 0).val
    rw [h2]; simp [bs]
  | ⟨1, _⟩ =>
    show k3_off2 L k 1 + 1 * (y 1).val = (y 1).val
    rw [h2]; simp
omit [FloatOps F] in
theorem emb_r1K (k : Fin k3_t1_loop.trips) (y : S80x128.Idx) : (r1K L k).view.emb y = rowAt L k y := emb_r0K L k y

omit [FloatOps F] in
theorem emb_siK (k : Fin k3_t1_loop.trips) (x : S80.Idx) : (siK L k).view.emb x = idxAt L k x := by
  funext a
  apply Fin.ext
  have h1 := k3_off1_eq L k
  match a with
  | ⟨0, _⟩ =>
    show k3_off1 L k 0 + 1 * (x 0).val = bs L k + (x 0).val
    rw [h1]; simp [bs]
omit [FloatOps F] in
theorem emb_oiK (k : Fin k3_t1_loop.trips) (x : S80.Idx) : (oiK L k).view.emb x = idxAt L k x := emb_siK L k x

omit [FloatOps F] in
theorem read_siK (k : Fin k3_t1_loop.trips) (idx : Buf (Elt F) (siLoc d)) (x : S80.Idx) :
    View.read (Elt F) (siK L k).view idx x = idx (idxAt L k x) := by
  rw [show View.read (Elt F) (siK L k).view idx x = idx ((siK L k).view.emb x) from (View.read_apply _ _).trans (cast_eq _ _), emb_siK]
omit [FloatOps F] in
theorem read_oiK (k : Fin k3_t1_loop.trips) (idx : Buf (Elt F) (oiLoc d)) (x : S80.Idx) :
    View.read (Elt F) (oiK L k).view idx x = idx (idxAt L k x) := by
  rw [show View.read (Elt F) (oiK L k).view idx x = idx ((oiK L k).view.emb x) from (View.read_apply _ _).trans (cast_eq _ _), emb_oiK]

theorem gather_val (k : Fin k3_t1_loop.trips) (idx : Buf (Elt F) (siLoc d)) (hidx : ∀ e, (idx e).toNat < nObj)
    (cur : S80.Idx → Elt F .i32) (hcur : ∀ x, cur x = idx (idxAt L k x))
    (hn : S80.numel = S80x128.size gathers_S10240x128_S80x128.axis')
    (hin : ∀ x, (cur x).toNat < S10240x128.size gathers_S10240x128_S80x128.axis) (y : S80x128.Idx) :
    SparseCore.gatherPayload gathers_S10240x128_S80x128 (View.read (Elt F) (objK).view (X.obj1 d)) (SparseCore.rows cur hn hin) y
      = gath1 d (X.obj1 d) idx (rowAt L k y) := by
  unfold SparseCore.gatherPayload
  rw [show ∀ z, View.read (Elt F) (objK).view (X.obj1 d) z = X.obj1 d ((objK).view.emb z) from fun z => (View.read_apply _ _).trans (cast_eq _ _)]
  rw [gath1_apply d (X.obj1 d) idx (rowAt L k y) (hidx _)]
  congr 1
  funext a
  apply Fin.ext
  match a with
  | ⟨0, h0⟩ =>
    have hx : ((S80.rowMajor.symm ((y gathers_S10240x128_S80x128.axis').cast hn.symm)) 0).val = (y 0).val := by
      have h := Shape.rowMajor_val_one (d := ![80]) (S80.rowMajor.symm ((y gathers_S10240x128_S80x128.axis').cast hn.symm))
      rw [Equiv.apply_symm_apply] at h
      exact h.symm
    show 0 + 1 * ((gathers_S10240x128_S80x128.idx (SparseCore.rows cur hn hin) y) ⟨0, h0⟩).val = (idx (ix1 (rowAt L k y 0))).toNat
    rw [show ((gathers_S10240x128_S80x128.idx (SparseCore.rows cur hn hin) y) ⟨0, h0⟩).val
        = (SparseCore.rows cur hn hin (y gathers_S10240x128_S80x128.axis')).val from by unfold Shape.Gathers.idx; rw [dif_pos rfl]; rfl]
    show 0 + 1 * (cur (S80.rowMajor.symm ((y gathers_S10240x128_S80x128.axis').cast hn.symm))).toNat = _
    rw [hcur, Nat.zero_add, Nat.one_mul]
    congr 2
    funext b
    match b with
    | ⟨0, _⟩ => exact Fin.ext (by show bs L k + _ = bs L k + (y 0).val; rw [hx])
  | ⟨1, h1⟩ =>
    show 0 + 1 * ((gathers_S10240x128_S80x128.idx (SparseCore.rows cur hn hin) y) ⟨1, h1⟩).val = (y 1).val
    rw [Shape.Gathers.idx_of_ne gathers_S10240x128_S80x128 _ y ⟨1, h1⟩ Nat.one_ne_zero, Nat.zero_add, Nat.one_mul]
    rfl

omit [FloatOps F] in
theorem mem_chunk (k : Fin k3_t1_loop.trips) (j : S320000x128.Idx) :
    j ∈ (r0K L k).view.set ↔ bs L k ≤ (j 0).val ∧ (j 0).val < bs L k + 80 := by
  rw [show (r0K L k).view.set = (Rect.unit (s := S320000x128) (k3_off2 L k) S80x128.size (k3_off2_inb L k)).set from View.set_slice_whole _ _,
    Rect.mem_set_unit]
  have h2 := k3_off2_eq L k
  constructor
  · intro h
    have h0 := h 0
    rw [h2] at h0
    simpa [bs] using h0
  · intro h a
    rw [h2]
    match a with
    | ⟨0, _⟩ => simpa [bs] using h
    | ⟨1, _⟩ => exact ⟨Nat.zero_le _, by simpa using (j 1).isLt⟩
omit [FloatOps F] in
theorem mem_chunk1 (k : Fin k3_t1_loop.trips) (j : S320000x128.Idx) :
    j ∈ (r1K L k).view.set ↔ bs L k ≤ (j 0).val ∧ (j 0).val < bs L k + 80 := mem_chunk L k j

omit [FloatOps F] in

theorem chunk_write0 (k : Fin k3_t1_loop.trips) (f0 : Buf (Elt F) (r10Loc d)) (w : S80x128.Idx → Elt F .f32) (y : S80x128.Idx) :
    ((r0K L k).view.writes (Elt F) f0 [⟨Rect.whole S80x128, w⟩]) ((r0K L k).view.emb y) = w y := by
  have h := View.read_writes_cons_emb (r0K L k).view f0 (Rect.whole S80x128) w [] y
  rw [Rect.emb_whole_apply] at h
  rw [← h]
  exact ((View.read_apply _ _).trans (cast_eq _ _)).symm
omit [FloatOps F] in
theorem chunk_write1 (k : Fin k3_t1_loop.trips) (f1 : Buf (Elt F) (r11Loc d)) (w : S80x128.Idx → Elt F .f32) (y : S80x128.Idx) :
    ((r1K L k).view.writes (Elt F) f1 [⟨Rect.whole S80x128, w⟩]) ((r1K L k).view.emb y) = w y := by
  have h := View.read_writes_cons_emb (r1K L k).view f1 (Rect.whole S80x128) w [] y
  rw [Rect.emb_whole_apply] at h
  rw [← h]
  exact ((View.read_apply _ _).trans (cast_eq _ _)).symm

theorem pay_val (k : Fin k3_t1_loop.trips) (idx : Buf (Elt F) (siLoc d)) (hidx : ∀ e, (idx e).toNat < nObj)
    (cur : S80.Idx → Elt F .i32) (hcur : ∀ x, cur x = idx (idxAt L k x))
    (hn : S80.numel = S80x128.size gathers_S10240x128_S80x128.axis')
    (hin : ∀ x, (cur x).toNat < S10240x128.size gathers_S10240x128_S80x128.axis)
    (fr : Buf (Elt F) ((sR).view.loc (thr d L))) (rest : List (View.Piece (Elt F) S80x128 .f32)) (y : S80x128.Idx) :
    (ReadAs.same : ReadAs (Elt F) S80x128 .f32 S80x128 .f32).apply (View.read (Elt F) (sR).view ((sR).view.writes (Elt F) fr
        (⟨Rect.whole S80x128, SparseCore.gatherPayload gathers_S10240x128_S80x128 (View.read (Elt F) (objK).view (X.obj1 d)) (SparseCore.rows cur hn hin)⟩ :: rest))) y
      = gath1 d (X.obj1 d) idx (rowAt L k y) := by
  show View.read (Elt F) (sR).view _ y = _
  have h := View.read_writes_cons_emb (sR).view fr (Rect.whole S80x128)
    (SparseCore.gatherPayload gathers_S10240x128_S80x128 (View.read (Elt F) (objK).view (X.obj1 d)) (SparseCore.rows cur hn hin)) rest y
  rw [Rect.emb_whole_apply] at h
  rw [h]
  exact gather_val X d L k idx hidx cur hcur hn hin y

theorem close0 (k : Fin k3_t1_loop.trips) (idx : Buf (Elt F) (siLoc d)) (f0 : Buf (Elt F) (r10Loc d)) (hf0 : Done X d L idx f0 k.val)
    (w : S80x128.Idx → Elt F .f32) (hw : ∀ y, w y = gath1 d (X.obj1 d) idx (rowAt L k y)) :
    Done X d L idx (((r0K L k).view.set).piecewise ((r0K L k).view.writes (Elt F) f0 [⟨Rect.whole S80x128, w⟩]) f0) (k.val + 1) := by
  intro j hjt hlt
  by_cases hj : j ∈ (r0K L k).view.set
  · rw [Finset.piecewise_eq_of_mem _ _ _ hj]
    obtain ⟨y, -, rfl⟩ := Finset.mem_map.mp hj
    rw [chunk_write0, hw, emb_r0K]
  · rw [Finset.piecewise_eq_of_notMem _ _ _ hj]
    refine hf0 j hjt ?_
    rw [mem_chunk] at hj
    rw [mem_tileSet] at hjt
    unfold bs at hj
    omega
theorem close1 (k : Fin k3_t1_loop.trips) (idx : Buf (Elt F) (siLoc d)) (f1 : Buf (Elt F) (r11Loc d)) (hf1 : Done X d L idx f1 k.val)
    (w : S80x128.Idx → Elt F .f32) (hw : ∀ y, w y = gath1 d (X.obj1 d) idx (rowAt L k y)) :
    Done X d L idx (((r1K L k).view.set).piecewise ((r1K L k).view.writes (Elt F) f1 [⟨Rect.whole S80x128, w⟩]) f1) (k.val + 1) := by
  intro j hjt hlt
  by_cases hj : j ∈ (r1K L k).view.set
  · rw [Finset.piecewise_eq_of_mem _ _ _ hj]
    obtain ⟨y, -, rfl⟩ := Finset.mem_map.mp hj
    rw [chunk_write1, hw, emb_r1K]
  · rw [Finset.piecewise_eq_of_notMem _ _ _ hj]
    refine hf1 j hjt ?_
    rw [mem_chunk1] at hj
    rw [mem_tileSet] at hjt
    unfold bs at hj
    omega

omit [FloatOps F] in
theorem pts_r0K (k : Fin k3_t1_loop.trips) (f : Buf (Elt F) (r10Loc d)) :
    ((r0K L k).view.loc (thr d L) ↦[(r0K L k).view.set]{fullShare} f : sProp 𝕄) = (r10Loc d ↦[(r0K L k).view.set]{fullShare} f) := rfl
omit [FloatOps F] in
theorem pts_r1K (k : Fin k3_t1_loop.trips) (f : Buf (Elt F) (r11Loc d)) :
    ((r1K L k).view.loc (thr d L) ↦[(r1K L k).view.set]{fullShare} f : sProp 𝕄) = (r11Loc d ↦[(r1K L k).view.set]{fullShare} f) := rfl
omit [FloatOps F] in
theorem chunk_sub1 (k : Fin k3_t1_loop.trips) : (r1K L k).view.set ⊆ tileSet (L 0).val (L 1).val := chunk_sub L k

omit [FloatOps F] in
theorem cur_val (k : Fin k3_t1_loop.trips) (fs : Buf (Elt F) ((sI).view.loc (thr d L))) (pay : S80.Idx → Elt F .i32) (x : S80.Idx) :
    View.read (Elt F) (sI).view (View.write (Elt F) (sI).view fs pay Finset.univ) x = pay x := by
  rw [View.write_whole_univ]
  simp only [Memref.view_whole, View.read_whole]

set_option maxHeartbeats 4000000 in

theorem trip (hX : X.InRange) (O : CellTallies nD τ sig (HIx 2)) (W : Waits sig (HIx 2)) (k : Fin k3_t1_loop.trips) :
    inv X d L O W k.val ⟨⟩
      ⊢ wp frame (wpE (defs₀ (F := F)) 𝒱₀ (thr d L) none) Set.univ
          (k3_t1_body L objV (Memref.isWhole_whole _) siV (Memref.isWhole_whole _) oiV (Memref.isWhole_whole _)
            r0V (Memref.isWhole_whole _) r1V (Memref.isWhole_whole _) sI (Memref.isWhole_whole _) sR (Memref.isWhole_whole _)
            cc3_scratch2 cc3_scoped0 cc3_scoped1 cc3_scoped2 cc3_scoped3 k ⟨⟩)
          (inv X d L O W (k.val + 1)) := by
  unfold inv k3_t1_body
  iintro ⟨Hmw, Hobj, Hsi, Hoi, ⟨%f0, %hf0, Hr0⟩, ⟨%f1, %hf1, Hr1⟩, ⟨%fi, HsI⟩, ⟨%fr, HsR⟩, HG, H0, H1, H2, H3, %W', %hW', HO⟩
  ihave Hr0s := (pointsTo_split_subset (chunk_sub L k)).1 $$ Hr0
  icases Hr0s with ⟨Hr0c, Hr0r⟩
  ihave Hr0c' := (Entails.of_eq (pts_r0K (F := F) d L k f0).symm) $$ Hr0c
  ihave Hr1s := (pointsTo_split_subset (chunk_sub1 L k)).1 $$ Hr1
  icases Hr1s with ⟨Hr1c, Hr1r⟩
  ihave Hr1c' := (Entails.of_eq (pts_r1K (F := F) d L k f1).symm) $$ Hr1c
  have hsi : ∀ e, ((X.si d) e).toNat < nObj := fun e => Nat.lt_of_lt_of_le (hX d e).1 (by decide)
  have hoi : ∀ e, ((X.oi d) e).toNat < nObj := fun e => Nat.lt_of_lt_of_le (hX d e).2 (by decide)
  have hpay1 : ∀ y, ((ReadAs.same : ReadAs (Elt F) S80 .i32 S80 .i32).apply (View.read (Elt F) (siK L k).view (X.si d)) y).toNat < nObj := by
    intro y
    show (View.read (Elt F) (siK L k).view (X.si d) y).toNat < nObj
    rw [read_siK]; exact hsi _
  have hpay2 : ∀ y, ((ReadAs.same : ReadAs (Elt F) S80 .i32 S80 .i32).apply (View.read (Elt F) (oiK L k).view (X.oi d)) y).toNat < nObj := by
    intro y
    show (View.read (Elt F) (oiK L k).view (X.oi d) y).toNat < nObj
    rw [read_oiK]; exact hoi _
  have hin1 := fun fs => inb_of (F := F) d L fs _ hpay1
  have hin2 := fun fs => inb_of (F := F) d L fs _ hpay2
  sl_exec
  ihave Hr0c2 := (Entails.of_eq (pts_r0K (F := F) d L k _)) $$ Hr0c'
  ihave Hj0 := (pointsTo_join_subset (ℓ := r10Loc d) (chunk_sub L k)) $$ [Hr0c2 Hr0r]
  · isplitl [Hr0c2] <;> iassumption
  ihave Hr1c2 := (Entails.of_eq (pts_r1K (F := F) d L k _)) $$ Hr1c'
  ihave Hj1 := (pointsTo_join_subset (ℓ := r11Loc d) (chunk_sub1 L k)) $$ [Hr1c2 Hr1r]
  · isplitl [Hr1c2] <;> iassumption
  sl_step
  isplitl [Hmw]; · iexact Hmw
  isplitl [Hobj]; · iexact Hobj
  isplitl [Hsi]; · iexact Hsi
  isplitl [Hoi]; · iexact Hoi
  isplitl [Hj0]
  · iexists _; isplitr
    swap; · iexact Hj0
    ipureintro
    refine close0 X d L k (X.si d) f0 hf0 _ fun y => ?_
    exact pay_val X d L k (X.si d) hsi _ (fun x => (cur_val d L k fi _ x).trans (read_siK d L k (X.si d) x)) _ (hin1 fi) fr [] y
  isplitl [Hj1]
  · iexists _; isplitr
    swap; · iexact Hj1
    ipureintro
    refine close1 X d L k (X.oi d) f1 hf1 _ fun y => ?_
    exact pay_val X d L k (X.oi d) hoi _ (fun x => (cur_val d L k _ _ x).trans (read_oiK d L k (X.oi d) x)) _ (hin2 _) fr _ y
  isplitl [HsI]; · iexists _; iexact HsI
  isplitl [HsR]; · iexists _; iexact HsR
  isplitl [HG]; · iexact HG
  isplitl [H0]; · iexact H0
  isplitl [H1]; · iexact H1
  isplitl [H2]; · iexact H2
  isplitl [H3]; · iexact H3
  iexists _; isplitr
  swap; · iexact HO
  ipureintro; intro p hp
  simp only [Finset.mem_insert] at hp
  rcases hp with rfl | rfl | rfl | rfl | rfl | rfl | hp
  · exact .inr rfl
  · exact .inr rfl
  · exact .inr rfl
  · exact .inr rfl
  · exact .inr rfl
  · exact .inr rfl
  · exact hW' p hp

omit [FloatOps F] in
theorem trips_eq : k3_t1_loop.trips = 125 := by decide

set_option maxHeartbeats 4000000 in

theorem tile_body (hF : (K (F := F)).Facts) (hX : X.InRange) (O : CellTallies nD τ sig (HIx 2)) (W : Waits sig (HIx 2)) (hO : ∀ g, O g none = 0) :
    iprop(levAts (K (F := F)).L (K (F := F)).lev ∗ emp ∗ go1 X d (L 0).val (L 1).val
        ∗ scopedBufs (thr d L) ∗ scopedSems0 (thr d L) ∗ owes (thr d L) O W)
      ⊢ wp frame (wpE (defs₀ (F := F)) 𝒱₀ (thr d L) none) Set.univ
          (cc3_gather_kernel L objV (Memref.isWhole_whole _) siV (Memref.isWhole_whole _) oiV (Memref.isWhole_whole _)
            r0V (Memref.isWhole_whole _) r1V (Memref.isWhole_whole _) sI (Memref.isWhole_whole _) sR (Memref.isWhole_whole _)
            cc3_scratch2 cc3_scoped0 cc3_scoped1 cc3_scoped2 cc3_scoped3)
          fun _ => iprop(td1 X d (L 0).val (L 1).val ∗ scopedBufs (thr d L) ∗ scopedSems0 (thr d L)
            ∗ ∃ W', ⌜∀ p ∈ W', p ∈ W ∨ p.2 = none⌝ ∗ owes (thr d L) O W') := by
  simp only [cc3_gather_kernel_eq_skeleton]; unfold cc3_gather_kernel_skel
  rw [(K (F := F)).scopedBufs_V hF d (cV L) (jV L), SparseCore.Cfg.scopedSems0_V (Val := Elt F) d (cV L) (jV L), ownSems0_V, ownBufs_V]
  unfold go1 td1 ins1
  iintro ⟨#Hlv, -, ⟨⟨Hobj, Hsi, Hoi⟩, ⟨%f0, Hr0⟩, ⟨%f1, Hr1⟩⟩, ⟨⟨%fi, HsI⟩, ⟨%fr, HsR⟩, Hbufs⟩, ⟨HG, H0, H1, H2, H3, Hsems⟩, HO⟩
  ihave Hmw := (show levAts (K (F := F)).L (K (F := F)).lev ⊢ Transfers.MayWaits (thr d L) (default : HIx 2) O from
    (K (F := F)).mayWaits_none (thr := thr d L) hO) $$ Hlv
  sl_for (inv X d L O W) $$ [Hmw Hobj Hsi Hoi Hr0 Hr1 HsI HsR HG H0 H1 H2 H3 HO]
  case region =>
    intro k acc
    exact trip X d L hX O W k
  · unfold inv
    isplitl [Hmw]; · iexact Hmw
    isplitl [Hobj]; · iexact Hobj
    isplitl [Hsi]; · iexact Hsi
    isplitl [Hoi]; · iexact Hoi
    isplitl [Hr0]
    · iexists f0; isplitr
      · ipureintro; intro j hj hlt; rw [mem_tileSet] at hj; omega
      · iexact Hr0
    isplitl [Hr1]
    · iexists f1; isplitr
      · ipureintro; intro j hj hlt; rw [mem_tileSet] at hj; omega
      · iexact Hr1
    isplitl [HsI]; · iexists fi; iexact HsI
    isplitl [HsR]; · iexists fr; iexact HsR
    isplitl [HG]; · iexact HG
    isplitl [H0]; · iexact H0
    isplitl [H1]; · iexact H1
    isplitl [H2]; · iexact H2
    isplitl [H3]; · iexact H3
    iexists W; isplitr
    · ipureintro; exact fun p hp => .inl hp
    · iexact HO
  iintro %_ HI
  unfold inv
  icases HI with ⟨-, Hobj, Hsi, Hoi, ⟨%g0, %hg0, Hr0⟩, ⟨%g1, %hg1, Hr1⟩, ⟨%fi', HsI⟩, ⟨%fr', HsR⟩, HG, H0, H1, H2, H3, %W', %hW', HO⟩
  sl_step
  have e0 : ∀ j ∈ tileSet (L 0).val (L 1).val, g0 j = gath1 d (X.obj1 d) (X.si d) j := fun j hj =>
    hg0 j hj (by
      rw [mem_tileSet] at hj
      have ht : Scf.trips k3_t1_loop.lb k3_t1_loop.ub k3_t1_loop.st = 125 := trips_eq
      rw [ht]; omega)
  have e1 : ∀ j ∈ tileSet (L 0).val (L 1).val, g1 j = gath1 d (X.obj1 d) (X.oi d) j := fun j hj =>
    hg1 j hj (by
      rw [mem_tileSet] at hj
      have ht : Scf.trips k3_t1_loop.lb k3_t1_loop.ub k3_t1_loop.st = 125 := trips_eq
      rw [ht]; omega)
  isplitl [Hobj Hsi Hoi Hr0 Hr1]
  · isplitl [Hobj Hsi Hoi]
    · isplitl [Hobj]; · iexact Hobj
      isplitl [Hsi]; · iexact Hsi
      iexact Hoi
    isplitl [Hr0]
    · iapply (Entails.of_eq (pointsTo_congr (Val := Elt F) (Ix := HIx 2) (Name := ℕ) (U := UU) (Lvl := ℕ) (ℓ := r10Loc d) (q := fullShare) e0)); iexact Hr0
    · iapply (Entails.of_eq (pointsTo_congr (Val := Elt F) (Ix := HIx 2) (Name := ℕ) (U := UU) (Lvl := ℕ) (ℓ := r11Loc d) (q := fullShare) e1)); iexact Hr1
  isplitl [HsI HsR Hbufs]
  · isplitl [HsI]; · iexists _; iexact HsI
    isplitl [HsR]; · iexists _; iexact HsR
    iexact Hbufs
  isplitl [HG H0 H1 H2 H3 Hsems]
  · isplitl [HG]; · iexact HG
    isplitl [H0]; · iexact H0
    isplitl [H1]; · iexact H1
    isplitl [H2]; · iexact H2
    isplitl [H3]; · iexact H3
    iexact Hsems
  iexists W'; isplitr
  · ipureintro; exact hW'
  · iexact HO

def coordsV (c : Fin (grid3.bound 0)) (s : Fin (grid3.bound 1)) : grid3.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) (3 : Fin 6) ()
      = SparseCore.onTile hcore3 hsub3 (fun c s => cc3_gather_kernel (coordsV c s)
          objV (Memref.isWhole_whole _) siV (Memref.isWhole_whole _) oiV (Memref.isWhole_whole _)
          r0V (Memref.isWhole_whole _) r1V (Memref.isWhole_whole _) sI (Memref.isWhole_whole _) sR (Memref.isWhole_whole _)
          cc3_scratch2 cc3_scoped0 cc3_scoped1 cc3_scoped2 cc3_scoped3) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end G1

variable [FloatOps F]

set_option maxRecDepth 16384 in
theorem tileObl1 (X : GIn F) (hX : X.InRange) : (K (F := F)).TileObl (D (F := F)) 𝒱 (P X) v₀ (1 : Fin 2) := by
  intro d c i O W hO _ _
  simp only [P_ox, add_zero]
  have hci : ((K (F := F)).core (1 : Fin 2) c).val < grid3.bound 0 ∧ ((K (F := F)).sub (1 : Fin 2) i).val < grid3.bound 1 := ⟨c.isLt, i.isLt⟩
  change _ ⊢ wp _ _ _ (Pipeline.liftProg (defs₀ (F := F) (.scVector ((K (F := F)).core (1 : Fin 2) c) ((K (F := F)).sub (1 : Fin 2) i)) (3 : Fin 6) ())) _
  refine BI.Entails.trans ?_ (Pipeline.wp_liftProg (D (F := F)) (Pipeline.defs_kernel pcfgs defs₀) 𝒱₀ _ Set.univ none _ _)
  rw [G1.defs₀_vector]; simp only [SparseCore.onTile, hci, and_self, ↓reduceDIte]
  exact (G1.tile_body X d (G1.coordsV ⟨_, hci.1⟩ ⟨_, hci.2⟩) facts hX O W hO).trans (wp_mono frame _ _ fun _ => G1.obl_post)

end Cert.Proof.KI

end
-- ==== Proof.KI.Launch.lean ====
/- The run of the program: the launch theorem at the two gather calls, each tile's task proved once at a symbolic tile, with @main's proof on the TensorCore. -/
import proofs.«215230_g44530220925728_cont_8to1c4_163_46_alg».proof.Proof.KI.Main
import proofs.«215230_g44530220925728_cont_8to1c4_163_46_alg».proof.Proof.KI.Gather0
import proofs.«215230_g44530220925728_cont_8to1c4_163_46_alg».proof.Proof.KI.Gather1

noncomputable section

namespace Cert.Proof.KI

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 2) (Elt F) ℕ UU ℕ

variable (m : (ℓ : Loc nD τ sig) → Buf (Elt F) ℓ) (ρ : Dev nD → PrngReg)

omit [FloatOps F] [∀ e, Nonempty (Elt F e)] in

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

def fq (d : Dev nD) (s' : Phys nD τ sig (Elt F)) : Prop :=
  ∀ b ∈ Pipeline.ucRefs τ sig, s'.mem.mem ((d, b) : Loc nD τ sig) = W12 m d b

omit [∀ e, Nonempty (Elt F e)] in
theorem hfin (d : Dev nD) (s' : Phys nD τ sig (Elt F)) : iprop(FIN m d ∗ SI s') ⊢ (⌜fq m d s'⌝ : sProp 𝕄) := by
  unfold FIN StableHlo.held fq
  iintro H
  ihave H' := (pointsTo_read_all (Pipeline.ucRefs τ sig) (fun b => ((d, b) : Loc nD τ sig)) (W12 m d) s') $$ H
  icases H' with ⟨%h, -⟩
  ipureintro; exact h

def QC : PUnit × MemSt nD τ sig (Elt F) → Prop := fun r =>
  ∀ c : Dev nD, ∀ b ∈ Pipeline.ucRefs τ sig, r.2.mem ((c, b) : Loc nD τ sig) = W12 m c b

theorem run_main (hin : (X m).InRange) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (X m)) facts v₀
    (fun q hq => match q with | 0 => nomatch hq | 1 => nomatch hq)
    (fun q _ => match q with | 0 => tileObl0 (X m) hin | 1 => tileObl1 (X m) hin)
    (fun q _ => match q with | 0 => SparseCore.Cfg.VecSplit.of_plain (vecSplit0 (X m)) | 1 => SparseCore.Cfg.VecSplit.of_plain (vecSplit1 (X m)))
    m ρ main (G (F := F)) (FIN m) (u₀ (F := F)) (sep_elim_left.trans (hu₀ _ (fun q thr => P_x (X m) q thr))) (hmain m ρ) (fq m) (hfin m) (QC m)
    (fun _ h c => h c)

end Cert.Proof.KI

end
-- ==== Proof.KB.Setup.lean ====
/- Names for the program's two gather calls, four regions, thread family and ghost state, as the launch theorem takes them. -/
import proofs.«215230_g44530220925728_cont_8to1c4_163_46_alg».proof.Kernel
import proofs.«215230_g44530220925728_cont_8to1c4_163_46_alg».proof.Proof.Gen.Kernel
import proofs.«215230_g44530220925728_cont_8to1c4_163_46_alg».proof.Proof.Gen.Kernel.Skeleton
import proofs.«215230_g44530220925728_cont_8to1c4_163_46_alg».proof.Proof.Gen.Kernel.Launch
import proofs.«215230_g44530220925728_cont_8to1c4_163_46_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 4) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_eq (q : Fin 2) : (K (F := F)).nCore q = 2 := by
  match q with
  | 0 => rfl
  | 1 => rfl
theorem nSub_eq (q : Fin 2) : (K (F := F)).nSub q = 16 := by
  match q with
  | 0 => rfl
  | 1 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ

abbrev UP : Type := UR sig nD τ

abbrev UU : Type := UH × (UP × Counters)

abbrev EH : Emb UH (MT nD τ sig (HIx 2) (Elt F) ℕ UU ℕ) := embL
def EP : Emb UP (MT nD τ sig (HIx 2) (Elt F) ℕ UU ℕ) := (Emb.inl : Emb UP (UP × Counters)).trans embR

instance EP_landsIn : (EP : Emb UP (MT nD τ sig (HIx 2) (Elt F) ℕ UU ℕ)).LandsIn (upEmb : UEmb _ (MT nD τ sig (HIx 2) (Elt F) ℕ UU ℕ)) := by
  unfold EP embR; infer_instance

abbrev adm : (p : Fin 4) → (pcfgs (F := F) p).Adm := fun p => (cfgs p).toPCfg_adm

end Cert.Proof.KB

end
-- ==== Proof.KB.Host.lean ====
/-
  @main's host lines — the slices of the edge list and of the first weight matrices, the biases recast as one-row
  matrices, the last slice that drops the padding rows — grouped into the six stretches between the SparseCore calls
  and the TensorCore regions, and @main as those stretches, calls and regions in order.
-/
import proofs.«215230_g44530220925728_cont_8to1c4_163_46_alg».proof.Proof.KB.Setup

noncomputable section

namespace Cert.Proof.KB

open Cert.Kernel Cert.Kernel.Gen

open Idealize.ShloMosaic
open Idealize.ShloMosaic.SparseCore.Cfg (HIx)
open Idealize.SL Idealize.SL.Sem

variable {F : FTy → Type} [FloatOps F]

/-- Stretch 1 of @main's host lines. -/
abbrev opsA : List (HloOp τ sig (Elt F)) :=
  [ (StableHlo.unary main_arg2 main_v0 ((extractStridedSlice S320000x1 ![0, 0] · slices_S320000x2_S320000x1_0_0) : (⟨S320000x2, .i32⟩ : BufTy).Contents (Elt F) → (⟨S320000x1, .i32⟩ : BufTy).Contents (Elt F))),
    (StableHlo.reshape main_v0 main_v1 rfl shapeCasts_S320000x1_S320000),
    (StableHlo.unary main_arg2 main_v2 ((extractStridedSlice S320000x1 ![0, 1] · slices_S320000x2_S320000x1_0_1) : (⟨S320000x2, .i32⟩ : BufTy).Contents (Elt F) → (⟨S320000x1, .i32⟩ : BufTy).Contents (Elt F))),
    (StableHlo.reshape main_v2 main_v3 rfl shapeCasts_S320000x1_S320000) ]
theorem opsA_sub : (opsA : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub ..⟩
theorem opsA_fresh : (opsA : List (HloOp τ sig (Elt F))).Forall fun op => op.fresh = ∅ := by
  simp only [List.Forall]; repeat' constructor

/-- Stretch 2 of @main's host lines. -/
abbrev opsB : List (HloOp τ sig (Elt F)) :=
  [ (StableHlo.unary main_arg3 main_v5 ((extractStridedSlice S128x128 ![0, 0] · slices_S384x128_S128x128_0_0) : (⟨S384x128, .f32⟩ : BufTy).Contents (Elt F) → (⟨S128x128, .f32⟩ : BufTy).Contents (Elt F))),
    (StableHlo.unary main_arg3 main_v6 ((extractStridedSlice S128x128 ![128, 0] · slices_S384x128_S128x128_128_0) : (⟨S384x128, .f32⟩ : BufTy).Contents (Elt F) → (⟨S128x128, .f32⟩ : BufTy).Contents (Elt F))),
    (StableHlo.unary main_arg3 main_v7 ((extractStridedSlice S128x128 ![256, 0] · slices_S384x128_S128x128_256_0) : (⟨S384x128, .f32⟩ : BufTy).Contents (Elt F) → (⟨S128x128, .f32⟩ : BufTy).Contents (Elt F))),
    (StableHlo.reshape main_arg4 main_v8 rfl shapeCasts_S128_S1x128),
    (StableHlo.reshape main_arg6 main_v9 rfl shapeCasts_S384_S1x384) ]
theorem opsB_sub : (opsB : List (HloOp τ sig (Elt F))).Forall fun op => op.bufs ⊆ StableHlo.tcRefs τ sig :=
  ⟨StableHlo.unary_bufs_sub .., StableHlo.unary_bufs_sub .., StableHlo.unary_bufs_sub .., StableHlo.reshape_bufs_sub .., StableHlo.reshape_bufs_sub ..⟩
theorem opsB_fresh : (opsB : List (HloOp τ sig (Elt F))).Forall fun op => op.fresh = ∅ := by
  simp only [List.Forall]; repeat' constructor

/-- Stretch 3 of @main's host lines. -/
abbrev opsC : List (HloOp τ sig (Elt F)) :=
  [ (StableHlo.reshape main_arg8 main_v11 rfl shapeCasts_S128_S1x128),
    (StableHlo.reshape main_arg10 main_v12 rfl shapeCasts_S128_S1x128) ]
theorem opsC_sub : (opsC : List (HloOp τ sig (Elt F))).Forall fun op => op.bufs ⊆ StableHlo.tcRefs τ sig :=
  ⟨StableHlo.reshape_bufs_sub .., StableHlo.reshape_bufs_sub ..⟩
theorem opsC_fresh : (opsC : List (HloOp τ sig (Elt F))).Forall fun op => op.fresh = ∅ := by
  simp only [List.Forall]; repeat' constructor

/-- Stretch 4 of @main's host lines. -/
abbrev opsD : List (HloOp τ sig (Elt F)) :=
  [ (StableHlo.unary main_arg11 main_v15 ((extractStridedSlice S128x128 ![0, 0] · slices_S384x128_S128x128_0_0) : (⟨S384x128, .f32⟩ : BufTy).Contents (Elt F) → (⟨S128x128, .f32⟩ : BufTy).Contents (Elt F))),
    (StableHlo.unary main_arg11 main_v16 ((extractStridedSlice S128x128 ![128, 0] · slices_S384x128_S128x128_128_0) : (⟨S384x128, .f32⟩ : BufTy).Contents (Elt F) → (⟨S128x128, .f32⟩ : BufTy).Contents (Elt F))),
    (StableHlo.unary main_arg11 main_v17 ((extractStridedSlice S128x128 ![256, 0] · slices_S384x128_S128x128_256_0) : (⟨S384x128, .f32⟩ : BufTy).Contents (Elt F) → (⟨S128x128, .f32⟩ : BufTy).Contents (Elt F))),
    (StableHlo.reshape main_arg12 main_v18 rfl shapeCasts_S128_S1x128),
    (StableHlo.reshape main_arg14 main_v19 rfl shapeCasts_S384_S1x384) ]
theorem opsD_sub : (opsD : List (HloOp τ sig (Elt F))).Forall fun op => op.bufs ⊆ StableHlo.tcRefs τ sig :=
  ⟨StableHlo.unary_bufs_sub .., StableHlo.unary_bufs_sub .., StableHlo.unary_bufs_sub .., StableHlo.reshape_bufs_sub .., StableHlo.reshape_bufs_sub ..⟩
theorem opsD_fresh : (opsD : List (HloOp τ sig (Elt F))).Forall fun op => op.fresh = ∅ := by
  simp only [List.Forall]; repeat' constructor

/-- Stretch 5 of @main's host lines. -/
abbrev opsE : List (HloOp τ sig (Elt F)) :=
  [ (StableHlo.reshape main_arg16 main_v21 rfl shapeCasts_S128_S1x128),
    (StableHlo.reshape main_arg18 main_v22 rfl shapeCasts_S128_S1x128) ]
theorem opsE_sub : (opsE : List (HloOp τ sig (Elt F))).Forall fun op => op.bufs ⊆ StableHlo.tcRefs τ sig :=
  ⟨StableHlo.reshape_bufs_sub .., StableHlo.reshape_bufs_sub ..⟩
theorem opsE_fresh : (opsE : List (HloOp τ sig (Elt F))).Forall fun op => op.fresh = ∅ := by
  simp only [List.Forall]; repeat' constructor

/-- Stretch 6 of @main's host lines. -/
abbrev opsF : List (HloOp τ sig (Elt F)) :=
  [ (StableHlo.unary main_v23 main_v24 ((extractStridedSlice S10000x128 ![0, 0] · slices_S10240x128_S10000x128_0_0) : (⟨S10240x128, .f32⟩ : BufTy).Contents (Elt F) → (⟨S10000x128, .f32⟩ : BufTy).Contents (Elt F))) ]
theorem opsF_sub : (opsF : List (HloOp τ sig (Elt F))).Forall fun op => op.bufs ⊆ StableHlo.tcRefs τ sig :=
  StableHlo.unary_bufs_sub ..
theorem opsF_fresh : (opsF : List (HloOp τ sig (Elt F))).Forall fun op => op.fresh = ∅ := by
  simp only [List.Forall]; repeat' constructor

/-- A TensorCore region's call as @main spells it under the SparseCore launch's body table. -/
abbrev regionCall (p : Fin 4) : Prog (TpuEff nD τ sig (Elt F) (SparseCore.Sig (ΛP (F := F)) 2) .tc) PUnit :=
  Prog.lift (.customCall (SparseCore.inner (Pipeline.entry p)) ())

/-- @main: the six stretches with the two gather calls and the four regions between them. -/
theorem main_eq (d : Dev nD) : main (F := F) d =
    (StableHlo.seq opsA >>= fun _ => (K (F := F)).run d 0 >>= fun _ => StableHlo.seq opsB >>= fun _ => regionCall 0 >>= fun _ =>
      StableHlo.seq opsC >>= fun _ => regionCall 1 >>= fun _ => (K (F := F)).run d 1 >>= fun _ => StableHlo.seq opsD >>= fun _ =>
      regionCall 2 >>= fun _ => StableHlo.seq opsE >>= fun _ => regionCall 3 >>= fun _ => StableHlo.seq opsF) := by
  rfl

end Cert.Proof.KB

end
-- ==== Proof.KB.Pay.lean ====
/- What the two gather calls' handshakes carry: the source table and index arrays lent, the two result arrays returned at the gathered rows. -/
import proofs.«215230_g44530220925728_cont_8to1c4_163_46_alg».proof.Proof.KB.Setup
import Idealize.ShloMosaic.Lib.SparseCore.Stream
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

abbrev obj0Loc (d : Dev nD) : Loc nD τ sig := (SparseCore.T d).loc main_arg0
abbrev obj1Loc (d : Dev nD) : Loc nD τ sig := (SparseCore.T d).loc main_v13
abbrev siLoc (d : Dev nD) : Loc nD τ sig := (SparseCore.T d).loc main_v1
abbrev oiLoc (d : Dev nD) : Loc nD τ sig := (SparseCore.T d).loc main_v3
abbrev r00Loc (d : Dev nD) : Loc nD τ sig := (SparseCore.T d).loc main_v4_0
abbrev r01Loc (d : Dev nD) : Loc nD τ sig := (SparseCore.T d).loc main_v4_1
abbrev r10Loc (d : Dev nD) : Loc nD τ sig := (SparseCore.T d).loc main_v14_0
abbrev r11Loc (d : Dev nD) : Loc nD τ sig := (SparseCore.T d).loc main_v14_1

structure GIn (F : FTy → Type) where
  obj0 : (d : Dev nD) → Buf (Elt F) (obj0Loc d)
  obj1 : (d : Dev nD) → Buf (Elt F) (obj1Loc d)
  si : (d : Dev nD) → Buf (Elt F) (siLoc d)
  oi : (d : Dev nD) → Buf (Elt F) (oiLoc d)

def GIn.InRange (X : GIn F) : Prop :=
  ∀ (d : Dev nD) (e : S320000.Idx), (X.si d e).toNat < 10000 ∧ (X.oi d e).toNat < 10000

def gath0 (d : Dev nD) (obj : Buf (Elt F) (obj0Loc d)) (idx : Buf (Elt F) (siLoc d)) : Buf (Elt F) (r00Loc d) :=
  fun j => obj (ix2 (n0 := 10000) (n1 := 128) ⟨(idx (ix1 (n := 320000) (j 0))).toNat % 10000, Nat.mod_lt _ (by norm_num)⟩ (j 1))

def gath1 (d : Dev nD) (obj : Buf (Elt F) (obj1Loc d)) (idx : Buf (Elt F) (siLoc d)) : Buf (Elt F) (r10Loc d) :=
  fun j => obj (ix2 (n0 := 10240) (n1 := 128) ⟨(idx (ix1 (n := 320000) (j 0))).toNat % 10240, Nat.mod_lt _ (by norm_num)⟩ (j 1))

theorem gath0_apply (d : Dev nD) (obj : Buf (Elt F) (obj0Loc d)) (idx : Buf (Elt F) (siLoc d)) (j : S320000x128.Idx)
    (h : (idx (ix1 (n := 320000) (j 0))).toNat < 10000) :
    gath0 d obj idx j = obj (ix2 (n0 := 10000) (n1 := 128) ⟨(idx (ix1 (n := 320000) (j 0))).toNat, h⟩ (j 1)) := by
  unfold gath0; congr 2; exact Fin.ext (Nat.mod_eq_of_lt h)

theorem gath1_apply (d : Dev nD) (obj : Buf (Elt F) (obj1Loc d)) (idx : Buf (Elt F) (siLoc d)) (j : S320000x128.Idx)
    (h : (idx (ix1 (n := 320000) (j 0))).toNat < 10240) :
    gath1 d obj idx j = obj (ix2 (n0 := 10240) (n1 := 128) ⟨(idx (ix1 (n := 320000) (j 0))).toNat, h⟩ (j 1)) := by
  unfold gath1; congr 2; exact Fin.ext (Nat.mod_eq_of_lt h)

def coreShare (c : ℕ) : PosShare TreeShare := if c = 0 then fullShare.left else fullShare.right

abbrev tileShare (c i : ℕ) : PosShare TreeShare := Transfers.shareTokN (coreShare c) i

def tileSet (c i : ℕ) : Finset S320000x128.Idx :=
  Finset.univ.filter fun j => 20000 * i + 10000 * c ≤ (j 0).val ∧ (j 0).val < 20000 * i + 10000 * c + 10000

theorem mem_tileSet {c i : ℕ} {j : S320000x128.Idx} :
    j ∈ tileSet c i ↔ 20000 * i + 10000 * c ≤ (j 0).val ∧ (j 0).val < 20000 * i + 10000 * c + 10000 := by
  unfold tileSet; simp only [Finset.mem_filter, Finset.mem_univ, true_and]

section Pays

variable (X : GIn F) (d : Dev nD)

def ins0 (q : PosShare TreeShare) : sProp 𝕄 :=
  iprop((obj0Loc d ↦{q} X.obj0 d) ∗ (siLoc d ↦{q} X.si d) ∗ (oiLoc d ↦{q} X.oi d))
def ins1 (q : PosShare TreeShare) : sProp 𝕄 :=
  iprop((obj1Loc d ↦{q} X.obj1 d) ∗ (siLoc d ↦{q} X.si d) ∗ (oiLoc d ↦{q} X.oi d))

def go0 (c i : ℕ) : sProp 𝕄 :=
  iprop(ins0 X d (tileShare c i) ∗ (∃ f, r00Loc d ↦[tileSet c i]{fullShare} f) ∗ (∃ f, r01Loc d ↦[tileSet c i]{fullShare} f))

def td0 (c i : ℕ) : sProp 𝕄 :=
  iprop(ins0 X d (tileShare c i) ∗ (r00Loc d ↦[tileSet c i]{fullShare} gath0 d (X.obj0 d) (X.si d)) ∗ (r01Loc d ↦[tileSet c i]{fullShare} gath0 d (X.obj0 d) (X.oi d)))

def st0 (c : ℕ) : sProp 𝕄 :=
  iprop(ins0 X d (coreShare c) ∗ (bigSep Finset.univ fun i : Fin 16 => iprop(∃ f, r00Loc d ↦[tileSet c i.val]{fullShare} f))
    ∗ (bigSep Finset.univ fun i : Fin 16 => iprop(∃ f, r01Loc d ↦[tileSet c i.val]{fullShare} f)))
def dn0 (c : ℕ) : sProp 𝕄 :=
  iprop(ins0 X d (coreShare c) ∗ (bigSep Finset.univ fun i : Fin 16 => r00Loc d ↦[tileSet c i.val]{fullShare} gath0 d (X.obj0 d) (X.si d))
    ∗ (bigSep Finset.univ fun i : Fin 16 => r01Loc d ↦[tileSet c i.val]{fullShare} gath0 d (X.obj0 d) (X.oi d)))

def go1 (c i : ℕ) : sProp 𝕄 :=
  iprop(ins1 X d (tileShare c i) ∗ (∃ f, r10Loc d ↦[tileSet c i]{fullShare} f) ∗ (∃ f, r11Loc d ↦[tileSet c i]{fullShare} f))
def td1 (c i : ℕ) : sProp 𝕄 :=
  iprop(ins1 X d (tileShare c i) ∗ (r10Loc d ↦[tileSet c i]{fullShare} gath1 d (X.obj1 d) (X.si d)) ∗ (r11Loc d ↦[tileSet c i]{fullShare} gath1 d (X.obj1 d) (X.oi d)))
def st1 (c : ℕ) : sProp 𝕄 :=
  iprop(ins1 X d (coreShare c) ∗ (bigSep Finset.univ fun i : Fin 16 => iprop(∃ f, r10Loc d ↦[tileSet c i.val]{fullShare} f))
    ∗ (bigSep Finset.univ fun i : Fin 16 => iprop(∃ f, r11Loc d ↦[tileSet c i.val]{fullShare} f)))
def dn1 (c : ℕ) : sProp 𝕄 :=
  iprop(ins1 X d (coreShare c) ∗ (bigSep Finset.univ fun i : Fin 16 => r10Loc d ↦[tileSet c i.val]{fullShare} gath1 d (X.obj1 d) (X.si d))
    ∗ (bigSep Finset.univ fun i : Fin 16 => r11Loc d ↦[tileSet c i.val]{fullShare} gath1 d (X.obj1 d) (X.oi d)))

end Pays

def P (X : GIn F) : (K (F := F)).Pay (nD := nD) (Val := Elt F) (Name := ℕ) (U := UU) where
  st := fun q d c => if q.val = 0 then st0 X d c.val else st1 X d c.val
  dn := fun q d c => if q.val = 0 then dn0 X d c.val else dn1 X d c.val
  go := fun q d c i => if q.val = 0 then go0 X d c.val i.val else go1 X d c.val i.val
  td := fun q d c i => if q.val = 0 then td0 X d c.val i.val else td1 X d c.val i.val
  x := fun _ _ => iprop(emp)

instance P_storable (X : GIn F) : (P X).IsStorable where
  st q d c := by unfold P; dsimp only; split <;> (first | unfold st0 ins0 | unfold st1 ins1) <;> infer_instance
  dn q d c := by unfold P; dsimp only; split <;> (first | unfold dn0 ins0 | unfold dn1 ins1) <;> infer_instance
  go q d c i := by unfold P; dsimp only; split <;> (first | unfold go0 ins0 | unfold go1 ins1) <;> infer_instance
  td q d c i := by unfold P; dsimp only; split <;> (first | unfold td0 ins0 | unfold td1 ins1) <;> infer_instance

theorem P_st0 (X : GIn F) (d : Dev nD) (c : Fin ((K (F := F)).nCore 0)) : (P X).st 0 d c = st0 X d c.val := rfl
theorem P_dn0 (X : GIn F) (d : Dev nD) (c : Fin ((K (F := F)).nCore 0)) : (P X).dn 0 d c = dn0 X d c.val := rfl
theorem P_go0 (X : GIn F) (d : Dev nD) (c : Fin ((K (F := F)).nCore 0)) (i : Fin ((K (F := F)).nSub 0)) : (P X).go 0 d c i = go0 X d c.val i.val := rfl
theorem P_td0 (X : GIn F) (d : Dev nD) (c : Fin ((K (F := F)).nCore 0)) (i : Fin ((K (F := F)).nSub 0)) : (P X).td 0 d c i = td0 X d c.val i.val := rfl
theorem P_st1 (X : GIn F) (d : Dev nD) (c : Fin ((K (F := F)).nCore 1)) : (P X).st 1 d c = st1 X d c.val := rfl
theorem P_dn1 (X : GIn F) (d : Dev nD) (c : Fin ((K (F := F)).nCore 1)) : (P X).dn 1 d c = dn1 X d c.val := rfl
theorem P_go1 (X : GIn F) (d : Dev nD) (c : Fin ((K (F := F)).nCore 1)) (i : Fin ((K (F := F)).nSub 1)) : (P X).go 1 d c i = go1 X d c.val i.val := rfl
theorem P_td1 (X : GIn F) (d : Dev nD) (c : Fin ((K (F := F)).nCore 1)) (i : Fin ((K (F := F)).nSub 1)) : (P X).td 1 d c i = td1 X d c.val i.val := rfl
theorem P_x (X : GIn F) (q : Fin 2) (thr : Thread nD τ) : (P X).x q thr = iprop(emp) := rfl
theorem P_ox (X : GIn F) : (P X).ox = fun _ _ => 0 := rfl

end Cert.Proof.KB

end
-- ==== Proof.KB.Edge.lean ====
/- The edge network's region: each of its three output blocks after the body is a function of the nine input blocks at the point; the region's proof data and body obligation. -/
import proofs.«215230_g44530220925728_cont_8to1c4_163_46_alg».proof.Proof.KB.Setup
import Idealize.ShloMosaic.Lib.Pipeline.FrameBody
import Idealize.ShloMosaic.Lib.Ring
import Mathlib.Tactic.IntervalCases

noncomputable section

namespace Cert.Proof.KB

open Cert.Kernel Cert.Kernel.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Edge1

variable (V : (c : Dev nD) → (b : Ref sig .tc) → Buf (Elt F) ((c : Thread nD τ).loc b))
  (O : Dev nD → CellTallies nD τ sig (HIx 2)) (B : Dev nD → Set (SemLoc sig × HIx 2)) (R : Dev nD → sProp (MT nD τ sig (HIx 2) (Elt F) ℕ UU ℕ))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1280x128 := Rect.unit (s := S1280x128) ![0, 0] S1280x128.size inb_S1280x128_S1280x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S128x384 := Rect.unit (s := S128x384) ![0, 0] S128x384.size inb_S128x384_S128x384_0_0
abbrev r1_4 : Rect S1x384 := Rect.unit (s := S1x384) ![0, 0] S1x384.size inb_S1x384_S1x384_0_0

def out1_9 (x0 : Vec F S1280x128 .f32) (x1 : Vec F S1280x128 .f32) (x2 : Vec F S1280x128 .f32) (x3 : Vec F S128x128 .f32) (x4 : Vec F S128x128 .f32) (x5 : Vec F S128x128 .f32) (x6 : Vec F S1x128 .f32) (x7 : Vec F S128x384 .f32) (x8 : Vec F S1x384 .f32) : Vec F S1280x128 .f32 :=
  View.canon [⟨r1_0, k1_pay4 (View.ld x0 r1_0) (View.ld x3 r1_1) (View.ld x1 r1_0) (View.ld x4 r1_1) (View.ld x2 r1_0) (View.ld x5 r1_1) (View.ld x6 r1_2) (View.ld x7 r1_3) (View.ld x8 r1_4)⟩]
def out1_10 (x0 : Vec F S1280x128 .f32) (x1 : Vec F S1280x128 .f32) (x2 : Vec F S1280x128 .f32) (x3 : Vec F S128x128 .f32) (x4 : Vec F S128x128 .f32) (x5 : Vec F S128x128 .f32) (x6 : Vec F S1x128 .f32) (x7 : Vec F S128x384 .f32) (x8 : Vec F S1x384 .f32) : Vec F S1280x128 .f32 :=
  View.canon [⟨r1_0, k1_pay1 (k1_pay3 (View.ld x0 r1_0) (View.ld x3 r1_1) (View.ld x1 r1_0) (View.ld x4 r1_1) (View.ld x2 r1_0) (View.ld x5 r1_1) (View.ld x6 r1_2) (View.ld x7 r1_3) (View.ld x8 r1_4))⟩]
def out1_11 (x0 : Vec F S1280x128 .f32) (x1 : Vec F S1280x128 .f32) (x2 : Vec F S1280x128 .f32) (x3 : Vec F S128x128 .f32) (x4 : Vec F S128x128 .f32) (x5 : Vec F S128x128 .f32) (x6 : Vec F S1x128 .f32) (x7 : Vec F S128x384 .f32) (x8 : Vec F S1x384 .f32) : Vec F S1280x128 .f32 :=
  View.canon [⟨r1_0, k1_pay2 (k1_pay3 (View.ld x0 r1_0) (View.ld x3 r1_1) (View.ld x1 r1_0) (View.ld x4 r1_1) (View.ld x2 r1_0) (View.ld x5 r1_1) (View.ld x6 r1_2) (View.ld x7 r1_3) (View.ld x8 r1_4))⟩]

theorem cover1 (p0 : Vec F S1280x128 .f32) (y : S1280x128.Idx) :
    ∃ pc ∈ ([⟨r1_0, p0⟩] : List (View.Piece (Elt F) S1280x128 .f32)), y ∈ pc.1.set :=
  View.cover_of_tiled [⟨r1_0, p0⟩] S1280x128.size (by rfl) y

set_option maxHeartbeats 4000000 in
theorem sound_kernel1 (c : Dev nD) (E : Set ℕ) (i : grid1.Coords) (arg1 : Memref sig .tc .vmem S1280x128 .f32) (harg1 : arg1.IsWhole) (arg2 : Memref sig .tc .vmem S1280x128 .f32) (harg2 : arg2.IsWhole) (arg3 : Memref sig .tc .vmem S1280x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x384 .f32) (harg8 : arg8.IsWhole) (arg9 : Memref sig .tc .vmem S1x384 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x128 .f32) (harg12 : arg12.IsWhole)
    (x0 : Vec F S1280x128 .f32) (x1 : Vec F S1280x128 .f32) (x2 : Vec F S1280x128 .f32) (x3 : Vec F S128x128 .f32) (x4 : Vec F S128x128 .f32) (x5 : Vec F S128x128 .f32) (x6 : Vec F S1x128 .f32) (x7 : Vec F S128x384 .f32) (x8 : Vec F S1x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8) ∗ owns (c : Thread nD τ) arg11 fullShare (out1_10 x0 x1 x2 x3 x4 x5 x6 x7 x8) ∗ owns (c : Thread nD τ) arg12 fullShare (out1_11 x0 x1 x2 x3 x4 x5 x6 x7 x8)) -∗ K ⟨⟩))
      ⊢ wp frame (wpE (defs₀ (F := F)) Variants.none c none) E (cc1__edge_mlp_body i arg1 harg1 arg2 harg2 arg3 harg3 arg4 harg4 arg5 harg5 arg6 harg6 arg7 harg7 arg8 harg8 arg9 harg9 arg10 harg10 arg11 harg11 arg12 harg12) K := by
  simp only [cc1__edge_mlp_body_eq_skeleton]; unfold cc1__edge_mlp_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover1 _)
  isplitl [H10]
  · iexists _; isplitr
    swap; · iexact H10
    ipureintro
    try dsimp only
    exact View.read_writes_eq_canon _ _ _ (cover1 _)
  iexists _; isplitr
  swap; · iexact H11
  ipureintro
  try dsimp only
  exact View.read_writes_eq_canon _ _ _ (cover1 _)

def dat1 (c : Dev nD) : Dat τ (Elt F) (HIx 2) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := R c
  q _ := fullShare
  owed _ := O c
  recorded _ := B c

theorem A_eq1 (c : Dev nD) (w : Fin cfg1.W) : (dat1 V O B R c).A w = V c (Pipeline.arrRef spec1 w) := by
  dsimp only [dat1]

theorem after1_9 (c : Dev nD) (t : Fin cfg1.N) : (dat1 V O B R c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_10 (c : Dev nD) (t : Fin cfg1.N) : (dat1 V O B R c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_11 (c : Dev nD) (t : Fin cfg1.N) : (dat1 V O B R c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- The library's input-window lemma at each of the nine input windows. -/
theorem before1_in (c : Dev nD) (w : Fin cfg1.W) (hw : w.val < 9) (t : Fin cfg1.N) (d) :
    (dat1 V O B R c).before w t d = (dat1 V O B R c).fetched w t d := by
  obtain ⟨k, hk⟩ := w
  change k < 9 at hw
  interval_cases k <;>
    exact Dat.before_in_eq_fetched _ _ rfl (fun _ => rfl) (fun _ _ _ => rfl) (fun _ => by dsimp only [dat1]; rfl) t d

def bodyPre1 (c : Dev nD) (t : Fin cfg1.N) : sProp 𝕄 :=
  iprop((dat1 V O B R c).Φ t.castSucc ∗ (dat1 V O B R c).owesAt (none : HIx 2) t.castSucc
    ∗ (∃ d, owns (c : Thread nD τ) (st1_0 t) fullShare ((dat1 V O B R c).before 0 t d))
    ∗ (∃ d, owns (c : Thread nD τ) (st1_1 t) fullShare ((dat1 V O B R c).before 1 t d))
    ∗ (∃ d, owns (c : Thread nD τ) (st1_2 t) fullShare ((dat1 V O B R c).before 2 t d))
    ∗ (∃ d, owns (c : Thread nD τ) (st1_3 t) fullShare ((dat1 V O B R c).before 3 t d))
    ∗ (∃ d, owns (c : Thread nD τ) (st1_4 t) fullShare ((dat1 V O B R c).before 4 t d))
    ∗ (∃ d, owns (c : Thread nD τ) (st1_5 t) fullShare ((dat1 V O B R c).before 5 t d))
    ∗ (∃ d, owns (c : Thread nD τ) (st1_6 t) fullShare ((dat1 V O B R c).before 6 t d))
    ∗ (∃ d, owns (c : Thread nD τ) (st1_7 t) fullShare ((dat1 V O B R c).before 7 t d))
    ∗ (∃ d, owns (c : Thread nD τ) (st1_8 t) fullShare ((dat1 V O B R c).before 8 t d))
    ∗ (∃ d, owns (c : Thread nD τ) (st1_9 t) fullShare ((dat1 V O B R c).before 9 t d))
    ∗ (∃ d, owns (c : Thread nD τ) (st1_10 t) fullShare ((dat1 V O B R c).before 10 t d))
    ∗ (∃ d, owns (c : Thread nD τ) (st1_11 t) fullShare ((dat1 V O B R c).before 11 t d)))

def bodyPost1 (c : Dev nD) (t : Fin cfg1.N) : sProp 𝕄 :=
  iprop((dat1 V O B R c).Φ t.succ ∗ (dat1 V O B R c).owesAt (none : HIx 2) t.succ
    ∗ owns (c : Thread nD τ) (st1_0 t) fullShare ((dat1 V O B R c).after 0 t)
    ∗ owns (c : Thread nD τ) (st1_1 t) fullShare ((dat1 V O B R c).after 1 t)
    ∗ owns (c : Thread nD τ) (st1_2 t) fullShare ((dat1 V O B R c).after 2 t)
    ∗ owns (c : Thread nD τ) (st1_3 t) fullShare ((dat1 V O B R c).after 3 t)
    ∗ owns (c : Thread nD τ) (st1_4 t) fullShare ((dat1 V O B R c).after 4 t)
    ∗ owns (c : Thread nD τ) (st1_5 t) fullShare ((dat1 V O B R c).after 5 t)
    ∗ owns (c : Thread nD τ) (st1_6 t) fullShare ((dat1 V O B R c).after 6 t)
    ∗ owns (c : Thread nD τ) (st1_7 t) fullShare ((dat1 V O B R c).after 7 t)
    ∗ owns (c : Thread nD τ) (st1_8 t) fullShare ((dat1 V O B R c).after 8 t)
    ∗ owns (c : Thread nD τ) (st1_9 t) fullShare ((dat1 V O B R c).after 9 t)
    ∗ owns (c : Thread nD τ) (st1_10 t) fullShare ((dat1 V O B R c).after 10 t)
    ∗ owns (c : Thread nD τ) (st1_11 t) fullShare ((dat1 V O B R c).after 11 t))

theorem sound_body1 (c : Dev nD) (t : Fin cfg1.N) :
    bodyPre1 V O B R c t ⊢ wp frame (wpE (defs₀ (F := F)) Variants.none c none) Set.univ (bodyAt1 t) (fun _ => bodyPost1 V O B R c t) := by
  unfold bodyPre1 bodyPost1 bodyAt1
  simp (disch := decide) only [before1_in]
  rw [show (dat1 V O B R c).owesAt (none : HIx 2) t.succ = (dat1 V O B R c).owesAt (none : HIx 2) t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  iframe

theorem body_obligation1 (c : Dev nD) : BodyObligation (dat1 (F := F) V O B R c) (defs₀ (F := F)) Variants.none (none : HIx 2) Set.univ := fun t => by
  rw [bigSep_W1, bigSep_W1]
  exact sound_body1 V O B R c t

end Edge1

end Cert.Proof.KB

end
-- ==== Proof.KB.Edge4.lean ====
/- The edge network's region: each of its three output blocks after the body is a function of the nine input blocks at the point; the region's proof data and body obligation. -/
import proofs.«215230_g44530220925728_cont_8to1c4_163_46_alg».proof.Proof.KB.Setup
import Idealize.ShloMosaic.Lib.Pipeline.FrameBody
import Idealize.ShloMosaic.Lib.Ring
import Mathlib.Tactic.IntervalCases

noncomputable section

namespace Cert.Proof.KB

open Cert.Kernel Cert.Kernel.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Edge4

variable (V : (c : Dev nD) → (b : Ref sig .tc) → Buf (Elt F) ((c : Thread nD τ).loc b))
  (O : Dev nD → CellTallies nD τ sig (HIx 2)) (B : Dev nD → Set (SemLoc sig × HIx 2)) (R : Dev nD → sProp (MT nD τ sig (HIx 2) (Elt F) ℕ UU ℕ))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1280x128 := Rect.unit (s := S1280x128) ![0, 0] S1280x128.size inb_S1280x128_S1280x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0
abbrev r4_3 : Rect S128x384 := Rect.unit (s := S128x384) ![0, 0] S128x384.size inb_S128x384_S128x384_0_0
abbrev r4_4 : Rect S1x384 := Rect.unit (s := S1x384) ![0, 0] S1x384.size inb_S1x384_S1x384_0_0

def out4_9 (x0 : Vec F S1280x128 .f32) (x1 : Vec F S1280x128 .f32) (x2 : Vec F S1280x128 .f32) (x3 : Vec F S128x128 .f32) (x4 : Vec F S128x128 .f32) (x5 : Vec F S128x128 .f32) (x6 : Vec F S1x128 .f32) (x7 : Vec F S128x384 .f32) (x8 : Vec F S1x384 .f32) : Vec F S1280x128 .f32 :=
  View.canon [⟨r4_0, k4_pay4 (View.ld x0 r4_0) (View.ld x3 r4_1) (View.ld x1 r4_0) (View.ld x4 r4_1) (View.ld x2 r4_0) (View.ld x5 r4_1) (View.ld x6 r4_2) (View.ld x7 r4_3) (View.ld x8 r4_4)⟩]
def out4_10 (x0 : Vec F S1280x128 .f32) (x1 : Vec F S1280x128 .f32) (x2 : Vec F S1280x128 .f32) (x3 : Vec F S128x128 .f32) (x4 : Vec F S128x128 .f32) (x5 : Vec F S128x128 .f32) (x6 : Vec F S1x128 .f32) (x7 : Vec F S128x384 .f32) (x8 : Vec F S1x384 .f32) : Vec F S1280x128 .f32 :=
  View.canon [⟨r4_0, k4_pay1 (k4_pay3 (View.ld x0 r4_0) (View.ld x3 r4_1) (View.ld x1 r4_0) (View.ld x4 r4_1) (View.ld x2 r4_0) (View.ld x5 r4_1) (View.ld x6 r4_2) (View.ld x7 r4_3) (View.ld x8 r4_4))⟩]
def out4_11 (x0 : Vec F S1280x128 .f32) (x1 : Vec F S1280x128 .f32) (x2 : Vec F S1280x128 .f32) (x3 : Vec F S128x128 .f32) (x4 : Vec F S128x128 .f32) (x5 : Vec F S128x128 .f32) (x6 : Vec F S1x128 .f32) (x7 : Vec F S128x384 .f32) (x8 : Vec F S1x384 .f32) : Vec F S1280x128 .f32 :=
  View.canon [⟨r4_0, k4_pay2 (k4_pay3 (View.ld x0 r4_0) (View.ld x3 r4_1) (View.ld x1 r4_0) (View.ld x4 r4_1) (View.ld x2 r4_0) (View.ld x5 r4_1) (View.ld x6 r4_2) (View.ld x7 r4_3) (View.ld x8 r4_4))⟩]

theorem cover4 (p0 : Vec F S1280x128 .f32) (y : S1280x128.Idx) :
    ∃ pc ∈ ([⟨r4_0, p0⟩] : List (View.Piece (Elt F) S1280x128 .f32)), y ∈ pc.1.set :=
  View.cover_of_tiled [⟨r4_0, p0⟩] S1280x128.size (by rfl) y

set_option maxHeartbeats 4000000 in
theorem sound_kernel4 (c : Dev nD) (E : Set ℕ) (i : grid4.Coords) (arg1 : Memref sig .tc .vmem S1280x128 .f32) (harg1 : arg1.IsWhole) (arg2 : Memref sig .tc .vmem S1280x128 .f32) (harg2 : arg2.IsWhole) (arg3 : Memref sig .tc .vmem S1280x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x384 .f32) (harg8 : arg8.IsWhole) (arg9 : Memref sig .tc .vmem S1x384 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x128 .f32) (harg12 : arg12.IsWhole)
    (x0 : Vec F S1280x128 .f32) (x1 : Vec F S1280x128 .f32) (x2 : Vec F S1280x128 .f32) (x3 : Vec F S128x128 .f32) (x4 : Vec F S128x128 .f32) (x5 : Vec F S128x128 .f32) (x6 : Vec F S1x128 .f32) (x7 : Vec F S128x384 .f32) (x8 : Vec F S1x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out4_9 x0 x1 x2 x3 x4 x5 x6 x7 x8) ∗ owns (c : Thread nD τ) arg11 fullShare (out4_10 x0 x1 x2 x3 x4 x5 x6 x7 x8) ∗ owns (c : Thread nD τ) arg12 fullShare (out4_11 x0 x1 x2 x3 x4 x5 x6 x7 x8)) -∗ K ⟨⟩))
      ⊢ wp frame (wpE (defs₀ (F := F)) Variants.none c none) E (cc4__edge_mlp_body i arg1 harg1 arg2 harg2 arg3 harg3 arg4 harg4 arg5 harg5 arg6 harg6 arg7 harg7 arg8 harg8 arg9 harg9 arg10 harg10 arg11 harg11 arg12 harg12) K := by
  simp only [cc4__edge_mlp_body_eq_skeleton]; unfold cc4__edge_mlp_body_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover4 _)
  isplitl [H10]
  · iexists _; isplitr
    swap; · iexact H10
    ipureintro
    try dsimp only
    exact View.read_writes_eq_canon _ _ _ (cover4 _)
  iexists _; isplitr
  swap; · iexact H11
  ipureintro
  try dsimp only
  exact View.read_writes_eq_canon _ _ _ (cover4 _)

def dat4 (c : Dev nD) : Dat τ (Elt F) (HIx 2) ℕ UU ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
    | ⟨10, _⟩ => out4_10 (iblk4 V c 0 t) (iblk4 V c 1 t) (iblk4 V c 2 t) (iblk4 V c 3 t) (iblk4 V c 4 t) (iblk4 V c 5 t) (iblk4 V c 6 t) (iblk4 V c 7 t) (iblk4 V c 8 t)
    | ⟨11, _⟩ => out4_11 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := R c
  q _ := fullShare
  owed _ := O c
  recorded _ := B c

theorem A_eq4 (c : Dev nD) (w : Fin cfg4.W) : (dat4 V O B R c).A w = V c (Pipeline.arrRef spec4 w) := by
  dsimp only [dat4]

theorem after4_9 (c : Dev nD) (t : Fin cfg4.N) : (dat4 V O B R c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]
theorem after4_10 (c : Dev nD) (t : Fin cfg4.N) : (dat4 V O B R c).after 10 t = out4_10 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]
theorem after4_11 (c : Dev nD) (t : Fin cfg4.N) : (dat4 V O B R c).after 11 t = out4_11 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

/-- The library's input-window lemma at each of the nine input windows. -/
theorem before4_in (c : Dev nD) (w : Fin cfg4.W) (hw : w.val < 9) (t : Fin cfg4.N) (d) :
    (dat4 V O B R c).before w t d = (dat4 V O B R c).fetched w t d := by
  obtain ⟨k, hk⟩ := w
  change k < 9 at hw
  interval_cases k <;>
    exact Dat.before_in_eq_fetched _ _ rfl (fun _ => rfl) (fun _ _ _ => rfl) (fun _ => by dsimp only [dat4]; rfl) t d

def bodyPre4 (c : Dev nD) (t : Fin cfg4.N) : sProp 𝕄 :=
  iprop((dat4 V O B R c).Φ t.castSucc ∗ (dat4 V O B R c).owesAt (none : HIx 2) t.castSucc
    ∗ (∃ d, owns (c : Thread nD τ) (st4_0 t) fullShare ((dat4 V O B R c).before 0 t d))
    ∗ (∃ d, owns (c : Thread nD τ) (st4_1 t) fullShare ((dat4 V O B R c).before 1 t d))
    ∗ (∃ d, owns (c : Thread nD τ) (st4_2 t) fullShare ((dat4 V O B R c).before 2 t d))
    ∗ (∃ d, owns (c : Thread nD τ) (st4_3 t) fullShare ((dat4 V O B R c).before 3 t d))
    ∗ (∃ d, owns (c : Thread nD τ) (st4_4 t) fullShare ((dat4 V O B R c).before 4 t d))
    ∗ (∃ d, owns (c : Thread nD τ) (st4_5 t) fullShare ((dat4 V O B R c).before 5 t d))
    ∗ (∃ d, owns (c : Thread nD τ) (st4_6 t) fullShare ((dat4 V O B R c).before 6 t d))
    ∗ (∃ d, owns (c : Thread nD τ) (st4_7 t) fullShare ((dat4 V O B R c).before 7 t d))
    ∗ (∃ d, owns (c : Thread nD τ) (st4_8 t) fullShare ((dat4 V O B R c).before 8 t d))
    ∗ (∃ d, owns (c : Thread nD τ) (st4_9 t) fullShare ((dat4 V O B R c).before 9 t d))
    ∗ (∃ d, owns (c : Thread nD τ) (st4_10 t) fullShare ((dat4 V O B R c).before 10 t d))
    ∗ (∃ d, owns (c : Thread nD τ) (st4_11 t) fullShare ((dat4 V O B R c).before 11 t d)))

def bodyPost4 (c : Dev nD) (t : Fin cfg4.N) : sProp 𝕄 :=
  iprop((dat4 V O B R c).Φ t.succ ∗ (dat4 V O B R c).owesAt (none : HIx 2) t.succ
    ∗ owns (c : Thread nD τ) (st4_0 t) fullShare ((dat4 V O B R c).after 0 t)
    ∗ owns (c : Thread nD τ) (st4_1 t) fullShare ((dat4 V O B R c).after 1 t)
    ∗ owns (c : Thread nD τ) (st4_2 t) fullShare ((dat4 V O B R c).after 2 t)
    ∗ owns (c : Thread nD τ) (st4_3 t) fullShare ((dat4 V O B R c).after 3 t)
    ∗ owns (c : Thread nD τ) (st4_4 t) fullShare ((dat4 V O B R c).after 4 t)
    ∗ owns (c : Thread nD τ) (st4_5 t) fullShare ((dat4 V O B R c).after 5 t)
    ∗ owns (c : Thread nD τ) (st4_6 t) fullShare ((dat4 V O B R c).after 6 t)
    ∗ owns (c : Thread nD τ) (st4_7 t) fullShare ((dat4 V O B R c).after 7 t)
    ∗ owns (c : Thread nD τ) (st4_8 t) fullShare ((dat4 V O B R c).after 8 t)
    ∗ owns (c : Thread nD τ) (st4_9 t) fullShare ((dat4 V O B R c).after 9 t)
    ∗ owns (c : Thread nD τ) (st4_10 t) fullShare ((dat4 V O B R c).after 10 t)
    ∗ owns (c : Thread nD τ) (st4_11 t) fullShare ((dat4 V O B R c).after 11 t))

theorem sound_body4 (c : Dev nD) (t : Fin cfg4.N) :
    bodyPre4 V O B R c t ⊢ wp frame (wpE (defs₀ (F := F)) Variants.none c none) Set.univ (bodyAt4 t) (fun _ => bodyPost4 V O B R c t) := by
  unfold bodyPre4 bodyPost4 bodyAt4
  simp (disch := decide) only [before4_in]
  rw [show (dat4 V O B R c).owesAt (none : HIx 2) t.succ = (dat4 V O B R c).owesAt (none : HIx 2) t.castSucc from rfl]
  dsimp only [dat4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel4 c Set.univ (grid4.coords t) _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  iframe

theorem body_obligation4 (c : Dev nD) : BodyObligation (dat4 (F := F) V O B R c) (defs₀ (F := F)) Variants.none (none : HIx 2) Set.univ := fun t => by
  rw [bigSep_W4, bigSep_W4]
  exact sound_body4 V O B R c t

end Edge4

end Cert.Proof.KB

end
-- ==== Proof.KB.Pool.Runs.lean ====
/- The pooled node network's region: what the three cases of its body share. -/
import proofs.«215230_g44530220925728_cont_8to1c4_163_46_alg».proof.Proof.KB.Setup
import Idealize.ShloMosaic.Lib.Pipeline.FrameBody
import Idealize.ShloMosaic.Lib.Ring
import Idealize.ShloMosaic.Lib.Tactic

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 625 = 0 :=
  (by decide +kernel : ∀ t : Fin grid2.N, cond2_0 (grid2.coords t) ↔ t.val % 625 = 0)

abbrev cond2_1 (i : grid2.Coords) : Prop := k2_cond2 i = 1#1
theorem hcond2_1 : ∀ t : Fin cfg2.N, cond2_1 (grid2.coords t) ↔ t.val % 625 = 624 :=
  (by decide +kernel : ∀ t : Fin grid2.N, cond2_1 (grid2.coords t) ↔ t.val % 625 = 624)

theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
theorem liveAt2_8 : ∀ t : Fin cfg2.N, cond2_1 (grid2.coords t) → cfg2.idle 8 (grid2.coords t) = false := by decide +kernel

abbrev VO2_8 : View sig .tc .vmem S10240x128 .f32 := (Memref.whole cc2_stg8_0 : Memref sig .tc .vmem S10240x128 .f32).view
abbrev ms2_0 (t : Fin cfg2.N) : Memref sig .tc .vmem S512 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S128x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S10240x128 .f32 := win2_8.stage (cfg2.slots t 8)
abbrev hs2_8 (t : Fin cfg2.N) : (ms2_8 t).IsWhole := hstage2_8 ((cfg2.slots t 8).cast nbuf2_8)
abbrev scM2_0 : Memref sig .tc .vmem S10240x128 .f32 := Memref.whole cc2_scratch0
abbrev scM2_1 : Memref sig .tc .vmem S10240x128 .f32 := Memref.whole cc2_scratch1
abbrev VS2_0 : View sig .tc .vmem S10240x128 .f32 := scM2_0.view
abbrev VS2_1 : View sig .tc .vmem S10240x128 .f32 := scM2_1.view

theorem scopedRest2_owns (c : Dev nD) :
    (Pipeline.scopedRest spec2 c : sProp 𝕄)
      = iprop(iprop((∃ d, owns (c : Thread nD τ) scM2_0 fullShare d) ∗ (∃ d, owns (c : Thread nD τ) scM2_1 fullShare d))
          ∗ Pipeline.scopedRestBut spec2 c [cc2_scratch0, cc2_scratch1]) := by
  rw [scopedRest2_split]; simp only [scM2_0, scM2_1, owns_whole]; try rfl

section Blocks
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Blocks

theorem congr_realized2 : True := by
  have := @k2_part1_skel.congr_simp; have := @cc2__pool_node_body_skel.congr_simp
  trivial

end Cert.Proof.KB

end
-- ==== Proof.KB.Pool.RunA.lean ====
/- The pooled node network's body at the first point: both accumulators reset, then this point's messages and counts added. -/
import proofs.«215230_g44530220925728_cont_8to1c4_163_46_alg».proof.Proof.KB.Pool.Runs

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

set_option maxHeartbeats 4000000 in

noncomputable def kernelRun2_A (c : Dev nD) (i : grid2.Coords) (arg1 : Memref sig .tc .vmem S512 .i32) (harg1 : arg1.IsWhole) (arg2 : Memref sig .tc .vmem S512 .i32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S10240x128 .f32) (harg9 : arg9.IsWhole) (arg10 : Memref sig .tc .vmem S10240x128 .f32) (harg10 : arg10.IsWhole) (arg11 : Memref sig .tc .vmem S10240x128 .f32) (harg11 : arg11.IsWhole) (hc0 : cond2_0 i) (hc1 : ¬cond2_1 i)
    (x0 x1 : Vec F S512 .i32) (x2 x3 : Vec F S512x128 .f32) :
    Σ' (LS0 : List (View.Piece (Elt F) S10240x128 .f32)), { LS1 : List (View.Piece (Elt F) S10240x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc2__pool_node_body i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc2__pool_node_body_eq_skeleton]; unfold cc2__pool_node_body_skel
    simp only [k2_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Proof.KB

end
-- ==== Proof.KB.Pool.RunB.lean ====
/- The pooled node network's body at a point neither first nor last: this point's messages and counts added to the accumulators. -/
import proofs.«215230_g44530220925728_cont_8to1c4_163_46_alg».proof.Proof.KB.Pool.Runs

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

set_option maxHeartbeats 4000000 in

noncomputable def kernelRun2_B (c : Dev nD) (i : grid2.Coords) (arg1 : Memref sig .tc .vmem S512 .i32) (harg1 : arg1.IsWhole) (arg2 : Memref sig .tc .vmem S512 .i32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S10240x128 .f32) (harg9 : arg9.IsWhole) (arg10 : Memref sig .tc .vmem S10240x128 .f32) (harg10 : arg10.IsWhole) (arg11 : Memref sig .tc .vmem S10240x128 .f32) (harg11 : arg11.IsWhole) (hc0 : ¬cond2_0 i) (hc1 : ¬cond2_1 i)
    (x0 x1 : Vec F S512 .i32) (x2 x3 : Vec F S512x128 .f32) (xs0 xs1 : Vec F S10240x128 .f32) :
    Σ' (LS0 : List (View.Piece (Elt F) S10240x128 .f32)), { LS1 : List (View.Piece (Elt F) S10240x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc2__pool_node_body i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc2__pool_node_body_eq_skeleton]; unfold cc2__pool_node_body_skel
    simp only [k2_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Proof.KB

end
-- ==== Proof.KB.Pool.RunC.lean ====
/- The pooled node network's body at the last point: the accumulators updated, then the node network of their quotient stored as the result. -/
import proofs.«215230_g44530220925728_cont_8to1c4_163_46_alg».proof.Proof.KB.Pool.Runs

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

set_option maxHeartbeats 4000000 in

noncomputable def kernelRun2_C (c : Dev nD) (i : grid2.Coords) (arg1 : Memref sig .tc .vmem S512 .i32) (harg1 : arg1.IsWhole) (arg2 : Memref sig .tc .vmem S512 .i32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S10240x128 .f32) (harg9 : arg9.IsWhole) (arg10 : Memref sig .tc .vmem S10240x128 .f32) (harg10 : arg10.IsWhole) (arg11 : Memref sig .tc .vmem S10240x128 .f32) (harg11 : arg11.IsWhole) (hc0 : ¬cond2_0 i) (hc1 : cond2_1 i)
    (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) :
    Σ' (L8 : List (View.Piece (Elt F) S10240x128 .f32)) (LS0 : List (View.Piece (Elt F) S10240x128 .f32)), { LS1 : List (View.Piece (Elt F) S10240x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg10 fullShare xs0 ∗ owns (c : Thread nD τ) arg11 fullShare xs1 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1) ∗ (∃ f, arg9.view.loc (c : Thread nD τ) ↦[arg9.view.set]{fullShare} arg9.view.writes (Elt F) f L8)) -∗ K ⟨⟩))
          ⊢ wp frame (wpE (defs₀ (F := F)) Variants.none c none) E (cc2__pool_node_body i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc2__pool_node_body_eq_skeleton]; unfold cc2__pool_node_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    isplitl [HS1]; · iexists _; iexact HS1
    iexists _; iexact H8

end Cert.Proof.KB

end
-- ==== Proof.KB.Pool.lean ====
/- The pooled node network's region: what each case leaves in the two accumulators and in the result; their contents after each point by recursion on the point; the region's invariant, proof data and body obligation. -/
import proofs.«215230_g44530220925728_cont_8to1c4_163_46_alg».proof.Proof.KB.Pool.RunA
import proofs.«215230_g44530220925728_cont_8to1c4_163_46_alg».proof.Proof.KB.Pool.RunB
import proofs.«215230_g44530220925728_cont_8to1c4_163_46_alg».proof.Proof.KB.Pool.RunC
import Mathlib.Tactic.IntervalCases

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Cases
variable (c : Dev nD) (i : grid2.Coords) (arg1 : Memref sig .tc .vmem S512 .i32) (harg1 : arg1.IsWhole) (arg2 : Memref sig .tc .vmem S512 .i32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S10240x128 .f32) (harg9 : arg9.IsWhole) (arg10 : Memref sig .tc .vmem S10240x128 .f32) (harg10 : arg10.IsWhole) (arg11 : Memref sig .tc .vmem S10240x128 .f32) (harg11 : arg11.IsWhole)

theorem scover2_A_0 (hc0 : cond2_0 i) (hc1 : ¬cond2_1 i) (x0 x1 : Vec F S512 .i32) (x2 x3 : Vec F S512x128 .f32) (y : S10240x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3).1, y ∈ pc.1.set :=
  View.cover_of_tiledL _ S10240x128.size (by sl_kernel_rfl) y

def sout2_A_0 (hc0 : cond2_0 i) (hc1 : ¬cond2_1 i) (x0 x1 : Vec F S512 .i32) (x2 x3 : Vec F S512x128 .f32) : Vec F S10240x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3).1)

theorem scover2_A_1 (hc0 : cond2_0 i) (hc1 : ¬cond2_1 i) (x0 x1 : Vec F S512 .i32) (x2 x3 : Vec F S512x128 .f32) (y : S10240x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3).2.1, y ∈ pc.1.set :=
  View.cover_of_tiledL _ S10240x128.size (by sl_kernel_rfl) y
def sout2_A_1 (hc0 : cond2_0 i) (hc1 : ¬cond2_1 i) (x0 x1 : Vec F S512 .i32) (x2 x3 : Vec F S512x128 .f32) : Vec F S10240x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 hc0 hc1 x0 x1 x2 x3).2.1)

theorem scover2_B_0 (hc0 : ¬cond2_0 i) (hc1 : ¬cond2_1 i) (x0 x1 : Vec F S512 .i32) (x2 x3 : Vec F S512x128 .f32) (xs0 xs1 : Vec F S10240x128 .f32) (y : S10240x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 xs0 xs1).1, y ∈ pc.1.set :=
  View.cover_of_tiledL _ S10240x128.size (by sl_kernel_rfl) y

def sout2_B_0 (hc0 : ¬cond2_0 i) (hc1 : ¬cond2_1 i) (x0 x1 : Vec F S512 .i32) (x2 x3 : Vec F S512x128 .f32) (xs0 xs1 : Vec F S10240x128 .f32) : Vec F S10240x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 xs0 xs1).1)
theorem scover2_B_1 (hc0 : ¬cond2_0 i) (hc1 : ¬cond2_1 i) (x0 x1 : Vec F S512 .i32) (x2 x3 : Vec F S512x128 .f32) (xs0 xs1 : Vec F S10240x128 .f32) (y : S10240x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 xs0 xs1).2.1, y ∈ pc.1.set :=
  View.cover_of_tiledL _ S10240x128.size (by sl_kernel_rfl) y
def sout2_B_1 (hc0 : ¬cond2_0 i) (hc1 : ¬cond2_1 i) (x0 x1 : Vec F S512 .i32) (x2 x3 : Vec F S512x128 .f32) (xs0 xs1 : Vec F S10240x128 .f32) : Vec F S10240x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 hc0 hc1 x0 x1 x2 x3 xs0 xs1).2.1)

theorem cover2_C_8 (hc0 : ¬cond2_0 i) (hc1 : cond2_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) (y : S10240x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1, y ∈ pc.1.set :=
  View.cover_of_tiledL _ S10240x128.size (by sl_kernel_rfl) y

def out2_C_8 (hc0 : ¬cond2_0 i) (hc1 : cond2_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) : Vec F S10240x128 .f32 :=
  VO2_8.read (Elt F) (VO2_8.writes (Elt F) VO2_8.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1)
theorem scover2_C_0 (hc0 : ¬cond2_0 i) (hc1 : cond2_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) (y : S10240x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1, y ∈ pc.1.set :=
  View.cover_of_tiledL _ S10240x128.size (by sl_kernel_rfl) y
def sout2_C_0 (hc0 : ¬cond2_0 i) (hc1 : cond2_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) : Vec F S10240x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1)
theorem scover2_C_1 (hc0 : ¬cond2_0 i) (hc1 : cond2_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) (y : S10240x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1, y ∈ pc.1.set :=
  View.cover_of_tiledL _ S10240x128.size (by sl_kernel_rfl) y
def sout2_C_1 (hc0 : ¬cond2_0 i) (hc1 : cond2_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) : Vec F S10240x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1)

end Cases

def out2_idle : Vec F S10240x128 .f32 := VO2_8.read (Elt F) VO2_8.junk

section Region
variable (V : (c : Dev nD) → (b : Ref sig .tc) → Buf (Elt F) ((c : Thread nD τ).loc b))
  (O : Dev nD → CellTallies nD τ sig (HIx 2)) (B : Dev nD → Set (SemLoc sig × HIx 2))

theorem hc2_A0 (hn : 0 < cfg2.N) : cond2_0 (grid2.coords ⟨0, hn⟩) := (hcond2_0 ⟨0, hn⟩).mpr (Nat.zero_mod _)
theorem hc2_A1 (hn : 0 < cfg2.N) : ¬cond2_1 (grid2.coords ⟨0, hn⟩) := fun h => by
  have := (hcond2_1 ⟨0, hn⟩).mp h; (try dsimp only at this); omega
theorem hc2_S0 (n : ℕ) (hn : n + 1 < cfg2.N) : ¬cond2_0 (grid2.coords ⟨n + 1, hn⟩) := fun h => by
  have := (hcond2_0 ⟨n + 1, hn⟩).mp h; (try dsimp only at this)
  have hN : n + 1 < 625 := lt_of_lt_of_eq hn (show cfg2.N = 625 from N_2); omega

def outsAt2 (c : Dev nD) : (n : ℕ) → n < cfg2.N → Vec F S10240x128 .f32 × Vec F S10240x128 .f32 × Vec F S10240x128 .f32
  | 0, hn =>
    let t : Fin cfg2.N := ⟨0, hn⟩
    (out2_idle,
      sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (hc2_A0 hn) (hc2_A1 hn) (iblk2 V c 0 t) (iblk2 V c 1 t) (iblk2 V c 2 t) (iblk2 V c 3 t),
      sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (hc2_A0 hn) (hc2_A1 hn) (iblk2 V c 0 t) (iblk2 V c 1 t) (iblk2 V c 2 t) (iblk2 V c 3 t))
  | n + 1, hn =>
    let t : Fin cfg2.N := ⟨n + 1, hn⟩
    if h1 : (n + 1) % 625 = 624 then
      (out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (hc2_S0 n hn) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 c n (Nat.lt_of_succ_lt hn)).2.1 (outsAt2 c n (Nat.lt_of_succ_lt hn)).2.2,
       sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (hc2_S0 n hn) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 c n (Nat.lt_of_succ_lt hn)).2.1 (outsAt2 c n (Nat.lt_of_succ_lt hn)).2.2,
       sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (hc2_S0 n hn) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 c n (Nat.lt_of_succ_lt hn)).2.1 (outsAt2 c n (Nat.lt_of_succ_lt hn)).2.2)
    else
      (out2_idle,
       sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (hc2_S0 n hn) (fun h => h1 ((hcond2_1 t).mp h)) (iblk2 V c 0 t) (iblk2 V c 1 t) (iblk2 V c 2 t) (iblk2 V c 3 t) (outsAt2 c n (Nat.lt_of_succ_lt hn)).2.1 (outsAt2 c n (Nat.lt_of_succ_lt hn)).2.2,
       sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (hc2_S0 n hn) (fun h => h1 ((hcond2_1 t).mp h)) (iblk2 V c 0 t) (iblk2 V c 1 t) (iblk2 V c 2 t) (iblk2 V c 3 t) (outsAt2 c n (Nat.lt_of_succ_lt hn)).2.1 (outsAt2 c n (Nat.lt_of_succ_lt hn)).2.2)

abbrev prevS2_0 (c : Dev nD) (t : Fin cfg2.N) : Vec F S10240x128 .f32 := (outsAt2 V c (t.val - 1) (Nat.lt_of_le_of_lt (Nat.sub_le _ _) t.isLt)).2.1
abbrev prevS2_1 (c : Dev nD) (t : Fin cfg2.N) : Vec F S10240x128 .f32 := (outsAt2 V c (t.val - 1) (Nat.lt_of_le_of_lt (Nat.sub_le _ _) t.isLt)).2.2

theorem outsAt2_A (c : Dev nD) (t : Fin cfg2.N) (h0 : t.val % 625 = 0) (h1 : ¬t.val % 625 = 624) :
    outsAt2 V c t.val t.isLt = (out2_idle,
      sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t),
      sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (by exfalso; (try dsimp only at h0); have hN : n + 1 < 625 := lt_of_lt_of_eq hn (show cfg2.N = 625 from N_2); omega)

theorem outsAt2_B (c : Dev nD) (t : Fin cfg2.N) (h0 : ¬t.val % 625 = 0) (h1 : ¬t.val % 625 = 624) :
    outsAt2 V c t.val t.isLt = (out2_idle,
      sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (prevS2_0 V c t) (prevS2_1 V c t),
      sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (prevS2_0 V c t) (prevS2_1 V c t)) := by
  obtain ⟨n, hn⟩ := t
  cases n with
  | zero => exact (by exfalso; (try dsimp only at h0); exact absurd (Nat.zero_mod _) h0)
  | succ n => exact (dif_neg h1).trans rfl

theorem outsAt2_C (c : Dev nD) (t : Fin cfg2.N) (h0 : ¬t.val % 625 = 0) (h1 : t.val % 625 = 624) :
    outsAt2 V c t.val t.isLt = (
      out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (prevS2_0 V c t) (prevS2_1 V c t),
      sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (prevS2_0 V c t) (prevS2_1 V c t),
      sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (prevS2_0 V c t) (prevS2_1 V c t)) := by
  obtain ⟨n, hn⟩ := t
  cases n with
  | zero => exact (by exfalso; (try dsimp only at h0); exact absurd (Nat.zero_mod _) h0)
  | succ n => exact (dif_pos h1).trans rfl

def PhiS2 (c : Dev nD) : (n : ℕ) → n ≤ cfg2.N → sProp 𝕄
  | 0, _ => Pipeline.scopedRest spec2 c
  | n + 1, hn => iprop(iprop(owns (c : Thread nD τ) scM2_0 fullShare (outsAt2 V c n hn).2.1 ∗ owns (c : Thread nD τ) scM2_1 fullShare (outsAt2 V c n hn).2.2)
      ∗ Pipeline.scopedRestBut spec2 c [cc2_scratch0, cc2_scratch1])

theorem PhiS2_zero (c : Dev nD) (n : ℕ) (h : n ≤ cfg2.N) (hz : n = 0) : PhiS2 V c n h = Pipeline.scopedRest spec2 c := by
  subst hz; rfl

theorem PhiS2_succ (c : Dev nD) (n : ℕ) (hn : n < cfg2.N) :
    PhiS2 V c (n + 1) hn = iprop(iprop(owns (c : Thread nD τ) scM2_0 fullShare (outsAt2 V c n hn).2.1 ∗ owns (c : Thread nD τ) scM2_1 fullShare (outsAt2 V c n hn).2.2)
      ∗ Pipeline.scopedRestBut spec2 c [cc2_scratch0, cc2_scratch1]) := rfl

theorem PhiS2_pos (c : Dev nD) (n : ℕ) (h : n ≤ cfg2.N) (hz : n ≠ 0) :
    PhiS2 V c n h = iprop(iprop(owns (c : Thread nD τ) scM2_0 fullShare (outsAt2 V c (n - 1) (by omega)).2.1 ∗ owns (c : Thread nD τ) scM2_1 fullShare (outsAt2 V c (n - 1) (by omega)).2.2)
      ∗ Pipeline.scopedRestBut spec2 c [cc2_scratch0, cc2_scratch1]) := by
  cases n with
  | zero => exact absurd rfl hz
  | succ n => rfl

def dat2 (c : Dev nD) : Dat τ (Elt F) (HIx 2) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => (outsAt2 V c t.val t.isLt).1
  Φ t := PhiS2 V c t.val (Nat.le_of_lt_succ t.isLt)
  q _ := fullShare
  owed _ := O c
  recorded _ := B c

theorem A_eq2 (c : Dev nD) (w : Fin cfg2.W) : (dat2 V O B c).A w = V c (Pipeline.arrRef spec2 w) := by
  dsimp only [dat2]

theorem PhiS2_castSucc (c : Dev nD) (t : Fin cfg2.N) :
    (dat2 V O B c).Φ t.castSucc = PhiS2 V c t.val (Nat.le_of_lt t.isLt) := by
  dsimp only [dat2]; simp only [Fin.coe_castSucc]

theorem after2_8 (c : Dev nD) (t : Fin cfg2.N) : (dat2 V O B c).after 8 t = (outsAt2 V c t.val t.isLt).1 := by dsimp only [dat2]

theorem before2_in (c : Dev nD) (w : Fin cfg2.W) (hw : w.val < 8) (t : Fin cfg2.N) (d) :
    (dat2 V O B c).before w t d = (dat2 V O B c).fetched w t d := by
  obtain ⟨k, hk⟩ := w
  change k < 8 at hw
  interval_cases k <;>
    exact Dat.before_in_eq_fetched _ _ rfl (fun _ => rfl) (fun _ _ _ => rfl) (fun _ => by dsimp only [dat2]; rfl) t d

def bodyPre2 (c : Dev nD) (t : Fin cfg2.N) : sProp 𝕄 :=
  iprop((dat2 V O B c).Φ t.castSucc ∗ (dat2 V O B c).owesAt none t.castSucc
    ∗ (∃ d, owns (c : Thread nD τ) (ms2_0 t) fullShare ((dat2 V O B c).before 0 t d))
    ∗ (∃ d, owns (c : Thread nD τ) (ms2_1 t) fullShare ((dat2 V O B c).before 1 t d))
    ∗ (∃ d, owns (c : Thread nD τ) (ms2_2 t) fullShare ((dat2 V O B c).before 2 t d))
    ∗ (∃ d, owns (c : Thread nD τ) (ms2_3 t) fullShare ((dat2 V O B c).before 3 t d))
    ∗ (∃ d, owns (c : Thread nD τ) (ms2_4 t) fullShare ((dat2 V O B c).before 4 t d))
    ∗ (∃ d, owns (c : Thread nD τ) (ms2_5 t) fullShare ((dat2 V O B c).before 5 t d))
    ∗ (∃ d, owns (c : Thread nD τ) (ms2_6 t) fullShare ((dat2 V O B c).before 6 t d))
    ∗ (∃ d, owns (c : Thread nD τ) (ms2_7 t) fullShare ((dat2 V O B c).before 7 t d))
    ∗ (∃ d, owns (c : Thread nD τ) (ms2_8 t) fullShare ((dat2 V O B c).before 8 t d)))

def bodyPost2 (c : Dev nD) (t : Fin cfg2.N) : sProp 𝕄 :=
  iprop((dat2 V O B c).Φ t.succ ∗ (dat2 V O B c).owesAt none t.succ
    ∗ owns (c : Thread nD τ) (ms2_0 t) fullShare ((dat2 V O B c).after 0 t)
    ∗ owns (c : Thread nD τ) (ms2_1 t) fullShare ((dat2 V O B c).after 1 t)
    ∗ owns (c : Thread nD τ) (ms2_2 t) fullShare ((dat2 V O B c).after 2 t)
    ∗ owns (c : Thread nD τ) (ms2_3 t) fullShare ((dat2 V O B c).after 3 t)
    ∗ owns (c : Thread nD τ) (ms2_4 t) fullShare ((dat2 V O B c).after 4 t)
    ∗ owns (c : Thread nD τ) (ms2_5 t) fullShare ((dat2 V O B c).after 5 t)
    ∗ owns (c : Thread nD τ) (ms2_6 t) fullShare ((dat2 V O B c).after 6 t)
    ∗ owns (c : Thread nD τ) (ms2_7 t) fullShare ((dat2 V O B c).after 7 t)
    ∗ (dat2 V O B c).leavesExact 8 t)

set_option maxHeartbeats 4800000 in

theorem sound_body2 (c : Dev nD) (t : Fin cfg2.N) :
    bodyPre2 V O B c t ⊢ wp frame (wpE (defs₀ (F := F)) Variants.none c none) Set.univ (bodyAt2 t) (fun _ => bodyPost2 V O B c t) := by
  unfold bodyPre2 bodyPost2 bodyAt2
  simp (disch := decide) only [before2_in]
  rw [show (dat2 V O B c).owesAt none t.succ = (dat2 V O B c).owesAt none t.castSucc from rfl]
  rw [show (dat2 V O B c).Φ t.succ = PhiS2 V c (t.val + 1) t.isLt from rfl, PhiS2_succ]
  have hN : t.val < 625 := lt_of_lt_of_eq t.isLt (show cfg2.N = 625 from N_2)
  by_cases h1 : t.val % 625 = 624
  · have h0 : ¬t.val % 625 = 0 := by omega
    have hz : t.val ≠ 0 := by omega
    rw [show (dat2 V O B c).leavesExact 8 t = owns (c : Thread nD τ) (ms2_8 t) fullShare ((dat2 V O B c).after 8 t) from by
      unfold Dat.leavesExact; rw [liveAt2_8 t ((hcond2_1 t).mpr h1)], after2_8]
    rw [outsAt2_C V c t h0 h1]
    unfold out2_C_8 sout2_C_0 sout2_C_1; (try dsimp only)
    rw [PhiS2_castSucc V O B c t, PhiS2_pos V c _ _ hz]
    dsimp only [dat2]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [H8]; · iexists _; iexact H8
    iintro ⟨H0, H1, H2, H3, H4, H5, H6, H7, ⟨%es0, HS0⟩, ⟨%es1, HS1⟩, ⟨%e8, H8⟩⟩
    isplitl [HS0 HS1 HR]
    · isplitl [HS0 HS1]
      · isplitl [HS0]
        · unfold owns; iexists _; isplitr
          swap; · iexact HS0
          ipureintro; exact View.read_writes_of_cover _ _ _ _ _ (scover2_C_0 c _ _ _ _ _ _ _ _ _ _ _ _ _ _ _ _ _ _ _ _ _ _ _ _ _ _ _ _ _ _ _ _ _ _ _ )
        · unfold owns; iexists _; isplitr
          swap; · iexact HS1
          ipureintro; exact View.read_writes_of_cover _ _ _ _ _ (scover2_C_1 c _ _ _ _ _ _ _ _ _ _ _ _ _ _ _ _ _ _ _ _ _ _ _ _ _ _ _ _ _ _ _ _ _ _ _ )
      iexact HR
    iframe Ho H0 H1 H2 H3 H4 H5 H6 H7
    unfold owns; iexists _; isplitr
    swap; · iexact H8
    ipureintro; exact View.read_writes_of_cover _ _ _ _ _ (cover2_C_8 c _ _ _ _ _ _ _ _ _ _ _ _ _ _ _ _ _ _ _ _ _ _ _ _ _ _ _ _ _ _ _ _ _ _ _ )
  · rw [Dat.leavesExact_idle (dat2 V O B c) 8 t (idleAt2_8 t (fun h => h1 ((hcond2_1 t).mp h))) (noFlush2_8 t (fun h => h1 ((hcond2_1 t).mp h)))]
    by_cases h0 : t.val % 625 = 0
    · have hz : t.val = 0 := by omega
      rw [outsAt2_A V c t h0 h1]
      unfold sout2_A_0 sout2_A_1; (try dsimp only)
      rw [PhiS2_castSucc V O B c t, PhiS2_zero V c _ _ hz, scopedRest2_owns]
      dsimp only [dat2]
      iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ )
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _ )
        iexact HR
      iframe Ho H0 H1 H2 H3
      isplitl [H4]; · iexact H4
      isplitl [H5]; · iexact H5
      isplitl [H6]; · iexact H6
      isplitl [H7]; · iexact H7
      iexists _; iexact H8
    · have hz : t.val ≠ 0 := by omega
      rw [outsAt2_B V c t h0 h1]
      unfold sout2_B_0 sout2_B_1; (try dsimp only)
      rw [PhiS2_castSucc V O B c t, PhiS2_pos V c _ _ hz]
      dsimp only [dat2]
      iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR]
      · isplitl [HS0 HS1]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover2_B_1 c _ _ _ _ _ _ _ _ _ _ _ _ _ _ _ _ _ _ _ _ _ _ _ _ _ _ _ _ _ _ _ )
        iexact HR
      iframe Ho H0 H1 H2 H3
      isplitl [H4]; · iexact H4
      isplitl [H5]; · iexact H5
      isplitl [H6]; · iexact H6
      isplitl [H7]; · iexact H7
      iexists _; iexact H8

theorem body_obligation2 (c : Dev nD) : BodyObligation (dat2 (F := F) V O B c) (defs₀ (F := F)) Variants.none (none : HIx 2) Set.univ := fun t => by
  rw [bigSep_W2, bigSep_W2]
  exact sound_body2 V O B c t

theorem body_obligationLoose2 (c : Dev nD) : Pipeline.BodyObligationLoose (dat2 (F := F) V O B c) (defs₀ (F := F)) Variants.none (none : HIx 2) Set.univ :=
  (body_obligation2 V O B c).loose

abbrev X2 (_ : Dev nD) : sProp 𝕄 := iprop(emp)
abbrev Y2 (_ : Dev nD) : sProp 𝕄 := iprop(emp)

theorem hin2 (c : Dev nD) (P : sProp 𝕄) : iprop(X2 (F := F) c ∗ P ∗ Pipeline.scopedRest spec2 c) ⊢ (dat2 V O B c).Φ 0 := by
  rw [show (dat2 V O B c).Φ 0 = PhiS2 V c 0 (Nat.zero_le _) from rfl, PhiS2_zero V c 0 _ rfl]
  iintro ⟨-, -, Hr⟩; iexact Hr

theorem Phi_out2 (c : Dev nD) (t : Fin (cfg2.N + 1)) (ht : t.val ≠ 0) : (dat2 V O B c).Φ t ⊢ (Pipeline.scopedRest spec2 c : sProp 𝕄) := by
  rw [show (dat2 V O B c).Φ t = PhiS2 V c t.val (Nat.le_of_lt_succ t.isLt) from rfl, PhiS2_pos V c _ _ ht, scopedRest2_owns]
  iintro ⟨⟨HS0, HS1⟩, HR⟩
  isplitl [HS0 HS1]
  · isplitl [HS0]
    · iexists _; iexact HS0
    · iexists _; iexact HS1
  iexact HR

theorem hout2 (c : Dev nD) : (dat2 V O B c).Φ (Fin.last cfg2.N) ⊢ iprop(Y2 (F := F) c ∗ Pipeline.ownSems0 (fun k : PEmpty => k.elim) c ∗ Pipeline.scopedRest spec2 c) := by
  rw [Pipeline.ownSems0_none]
  iintro H
  isplitr; · iempintro
  isplitr; · iempintro
  iapply (Phi_out2 V O B c _ (by rw [Fin.val_last]; have : cfg2.N = 625 := N_2; omega))
  iexact H

end Region

end Cert.Proof.KB

end
-- ==== Proof.KB.Pool5.Runs.lean ====
/- The pooled node network's region: what the three cases of its body share. -/
import proofs.«215230_g44530220925728_cont_8to1c4_163_46_alg».proof.Proof.KB.Setup
import Idealize.ShloMosaic.Lib.Pipeline.FrameBody
import Idealize.ShloMosaic.Lib.Ring
import Idealize.ShloMosaic.Lib.Tactic

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val % 625 = 0 :=
  (by decide +kernel : ∀ t : Fin grid5.N, cond5_0 (grid5.coords t) ↔ t.val % 625 = 0)

abbrev cond5_1 (i : grid5.Coords) : Prop := k5_cond2 i = 1#1
theorem hcond5_1 : ∀ t : Fin cfg5.N, cond5_1 (grid5.coords t) ↔ t.val % 625 = 624 :=
  (by decide +kernel : ∀ t : Fin grid5.N, cond5_1 (grid5.coords t) ↔ t.val % 625 = 624)

theorem idleAt5_8 : ∀ t : Fin cfg5.N, ¬cond5_1 (grid5.coords t) → cfg5.idle 8 (grid5.coords t) = true := by decide +kernel
theorem noFlush5_8 : ∀ t : Fin cfg5.N, ¬cond5_1 (grid5.coords t) → (cfg5.win 8).flush t = false := by decide +kernel
theorem liveAt5_8 : ∀ t : Fin cfg5.N, cond5_1 (grid5.coords t) → cfg5.idle 8 (grid5.coords t) = false := by decide +kernel

abbrev VO5_8 : View sig .tc .vmem S10240x128 .f32 := (Memref.whole cc5_stg8_0 : Memref sig .tc .vmem S10240x128 .f32).view
abbrev ms5_0 (t : Fin cfg5.N) : Memref sig .tc .vmem S512 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S512 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S512x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S512x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S128x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x128 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S128x128 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S1x128 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S10240x128 .f32 := win5_8.stage (cfg5.slots t 8)
abbrev hs5_8 (t : Fin cfg5.N) : (ms5_8 t).IsWhole := hstage5_8 ((cfg5.slots t 8).cast nbuf5_8)
abbrev scM5_0 : Memref sig .tc .vmem S10240x128 .f32 := Memref.whole cc5_scratch0
abbrev scM5_1 : Memref sig .tc .vmem S10240x128 .f32 := Memref.whole cc5_scratch1
abbrev VS5_0 : View sig .tc .vmem S10240x128 .f32 := scM5_0.view
abbrev VS5_1 : View sig .tc .vmem S10240x128 .f32 := scM5_1.view

theorem scopedRest5_owns (c : Dev nD) :
    (Pipeline.scopedRest spec5 c : sProp 𝕄)
      = iprop(iprop((∃ d, owns (c : Thread nD τ) scM5_0 fullShare d) ∗ (∃ d, owns (c : Thread nD τ) scM5_1 fullShare d))
          ∗ Pipeline.scopedRestBut spec5 c [cc5_scratch0, cc5_scratch1]) := by
  rw [scopedRest5_split]; simp only [scM5_0, scM5_1, owns_whole]; try rfl

section Blocks
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

end Blocks

theorem congr_realized5 : True := by
  have := @k5_part1_skel.congr_simp; have := @cc5__pool_node_body_skel.congr_simp
  trivial

end Cert.Proof.KB

end
-- ==== Proof.KB.Pool5.RunA.lean ====
/- The pooled node network's body at the first point: both accumulators reset, then this point's messages and counts added. -/
import proofs.«215230_g44530220925728_cont_8to1c4_163_46_alg».proof.Proof.KB.Pool5.Runs

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

set_option maxHeartbeats 4000000 in

noncomputable def kernelRun5_A (c : Dev nD) (i : grid5.Coords) (arg1 : Memref sig .tc .vmem S512 .i32) (harg1 : arg1.IsWhole) (arg2 : Memref sig .tc .vmem S512 .i32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S10240x128 .f32) (harg9 : arg9.IsWhole) (arg10 : Memref sig .tc .vmem S10240x128 .f32) (harg10 : arg10.IsWhole) (arg11 : Memref sig .tc .vmem S10240x128 .f32) (harg11 : arg11.IsWhole) (hc0 : cond5_0 i) (hc1 : ¬cond5_1 i)
    (x0 x1 : Vec F S512 .i32) (x2 x3 : Vec F S512x128 .f32) :
    Σ' (LS0 : List (View.Piece (Elt F) S10240x128 .f32)), { LS1 : List (View.Piece (Elt F) S10240x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc5__pool_node_body i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc5__pool_node_body_eq_skeleton]; unfold cc5__pool_node_body_skel
    simp only [k5_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Proof.KB

end
-- ==== Proof.KB.Pool5.RunB.lean ====
/- The pooled node network's body at a point neither first nor last: this point's messages and counts added to the accumulators. -/
import proofs.«215230_g44530220925728_cont_8to1c4_163_46_alg».proof.Proof.KB.Pool5.Runs

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

set_option maxHeartbeats 4000000 in

noncomputable def kernelRun5_B (c : Dev nD) (i : grid5.Coords) (arg1 : Memref sig .tc .vmem S512 .i32) (harg1 : arg1.IsWhole) (arg2 : Memref sig .tc .vmem S512 .i32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S10240x128 .f32) (harg9 : arg9.IsWhole) (arg10 : Memref sig .tc .vmem S10240x128 .f32) (harg10 : arg10.IsWhole) (arg11 : Memref sig .tc .vmem S10240x128 .f32) (harg11 : arg11.IsWhole) (hc0 : ¬cond5_0 i) (hc1 : ¬cond5_1 i)
    (x0 x1 : Vec F S512 .i32) (x2 x3 : Vec F S512x128 .f32) (xs0 xs1 : Vec F S10240x128 .f32) :
    Σ' (LS0 : List (View.Piece (Elt F) S10240x128 .f32)), { LS1 : List (View.Piece (Elt F) S10240x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc5__pool_node_body i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc5__pool_node_body_eq_skeleton]; unfold cc5__pool_node_body_skel
    simp only [k5_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Proof.KB

end
-- ==== Proof.KB.Pool5.RunC.lean ====
/- The pooled node network's body at the last point: the accumulators updated, then the node network of their quotient stored as the result. -/
import proofs.«215230_g44530220925728_cont_8to1c4_163_46_alg».proof.Proof.KB.Pool5.Runs

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

set_option maxHeartbeats 4000000 in

noncomputable def kernelRun5_C (c : Dev nD) (i : grid5.Coords) (arg1 : Memref sig .tc .vmem S512 .i32) (harg1 : arg1.IsWhole) (arg2 : Memref sig .tc .vmem S512 .i32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S10240x128 .f32) (harg9 : arg9.IsWhole) (arg10 : Memref sig .tc .vmem S10240x128 .f32) (harg10 : arg10.IsWhole) (arg11 : Memref sig .tc .vmem S10240x128 .f32) (harg11 : arg11.IsWhole) (hc0 : ¬cond5_0 i) (hc1 : cond5_1 i)
    (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) :
    Σ' (L8 : List (View.Piece (Elt F) S10240x128 .f32)) (LS0 : List (View.Piece (Elt F) S10240x128 .f32)), { LS1 : List (View.Piece (Elt F) S10240x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg10 fullShare xs0 ∗ owns (c : Thread nD τ) arg11 fullShare xs1 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1) ∗ (∃ f, arg9.view.loc (c : Thread nD τ) ↦[arg9.view.set]{fullShare} arg9.view.writes (Elt F) f L8)) -∗ K ⟨⟩))
          ⊢ wp frame (wpE (defs₀ (F := F)) Variants.none c none) E (cc5__pool_node_body i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc5__pool_node_body_eq_skeleton]; unfold cc5__pool_node_body_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    isplitl [HS1]; · iexists _; iexact HS1
    iexists _; iexact H8

end Cert.Proof.KB

end
-- ==== Proof.KB.Pool5.lean ====
/- The pooled node network's region: what each case leaves in the two accumulators and in the result; their contents after each point by recursion on the point; the region's invariant, proof data and body obligation. -/
import proofs.«215230_g44530220925728_cont_8to1c4_163_46_alg».proof.Proof.KB.Pool5.RunA
import proofs.«215230_g44530220925728_cont_8to1c4_163_46_alg».proof.Proof.KB.Pool5.RunB
import proofs.«215230_g44530220925728_cont_8to1c4_163_46_alg».proof.Proof.KB.Pool5.RunC
import Mathlib.Tactic.IntervalCases

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Cases
variable (c : Dev nD) (i : grid5.Coords) (arg1 : Memref sig .tc .vmem S512 .i32) (harg1 : arg1.IsWhole) (arg2 : Memref sig .tc .vmem S512 .i32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S10240x128 .f32) (harg9 : arg9.IsWhole) (arg10 : Memref sig .tc .vmem S10240x128 .f32) (harg10 : arg10.IsWhole) (arg11 : Memref sig .tc .vmem S10240x128 .f32) (harg11 : arg11.IsWhole)

theorem scover5_A_0 (hc0 : cond5_0 i) (hc1 : ¬cond5_1 i) (x0 x1 : Vec F S512 .i32) (x2 x3 : Vec F S512x128 .f32) (y : S10240x128.Idx) :
    ∃ pc ∈ (kernelRun5_A c i arg1 harg1 arg2 harg2 arg3 harg3 arg4 harg4 arg5 harg5 arg6 harg6 arg7 harg7 arg8 harg8 arg9 harg9 arg10 harg10 arg11 harg11 hc0 hc1 x0 x1 x2 x3).1, y ∈ pc.1.set :=
  View.cover_of_tiledL _ S10240x128.size (by sl_kernel_rfl) y

def sout5_A_0 (hc0 : cond5_0 i) (hc1 : ¬cond5_1 i) (x0 x1 : Vec F S512 .i32) (x2 x3 : Vec F S512x128 .f32) : Vec F S10240x128 .f32 :=
  VS5_0.read (Elt F) (VS5_0.writes (Elt F) VS5_0.junk (kernelRun5_A c i arg1 harg1 arg2 harg2 arg3 harg3 arg4 harg4 arg5 harg5 arg6 harg6 arg7 harg7 arg8 harg8 arg9 harg9 arg10 harg10 arg11 harg11 hc0 hc1 x0 x1 x2 x3).1)

theorem scover5_A_1 (hc0 : cond5_0 i) (hc1 : ¬cond5_1 i) (x0 x1 : Vec F S512 .i32) (x2 x3 : Vec F S512x128 .f32) (y : S10240x128.Idx) :
    ∃ pc ∈ (kernelRun5_A c i arg1 harg1 arg2 harg2 arg3 harg3 arg4 harg4 arg5 harg5 arg6 harg6 arg7 harg7 arg8 harg8 arg9 harg9 arg10 harg10 arg11 harg11 hc0 hc1 x0 x1 x2 x3).2.1, y ∈ pc.1.set :=
  View.cover_of_tiledL _ S10240x128.size (by sl_kernel_rfl) y
def sout5_A_1 (hc0 : cond5_0 i) (hc1 : ¬cond5_1 i) (x0 x1 : Vec F S512 .i32) (x2 x3 : Vec F S512x128 .f32) : Vec F S10240x128 .f32 :=
  VS5_1.read (Elt F) (VS5_1.writes (Elt F) VS5_1.junk (kernelRun5_A c i arg1 harg1 arg2 harg2 arg3 harg3 arg4 harg4 arg5 harg5 arg6 harg6 arg7 harg7 arg8 harg8 arg9 harg9 arg10 harg10 arg11 harg11 hc0 hc1 x0 x1 x2 x3).2.1)

theorem scover5_B_0 (hc0 : ¬cond5_0 i) (hc1 : ¬cond5_1 i) (x0 x1 : Vec F S512 .i32) (x2 x3 : Vec F S512x128 .f32) (xs0 xs1 : Vec F S10240x128 .f32) (y : S10240x128.Idx) :
    ∃ pc ∈ (kernelRun5_B c i arg1 harg1 arg2 harg2 arg3 harg3 arg4 harg4 arg5 harg5 arg6 harg6 arg7 harg7 arg8 harg8 arg9 harg9 arg10 harg10 arg11 harg11 hc0 hc1 x0 x1 x2 x3 xs0 xs1).1, y ∈ pc.1.set :=
  View.cover_of_tiledL _ S10240x128.size (by sl_kernel_rfl) y

def sout5_B_0 (hc0 : ¬cond5_0 i) (hc1 : ¬cond5_1 i) (x0 x1 : Vec F S512 .i32) (x2 x3 : Vec F S512x128 .f32) (xs0 xs1 : Vec F S10240x128 .f32) : Vec F S10240x128 .f32 :=
  VS5_0.read (Elt F) (VS5_0.writes (Elt F) VS5_0.junk (kernelRun5_B c i arg1 harg1 arg2 harg2 arg3 harg3 arg4 harg4 arg5 harg5 arg6 harg6 arg7 harg7 arg8 harg8 arg9 harg9 arg10 harg10 arg11 harg11 hc0 hc1 x0 x1 x2 x3 xs0 xs1).1)
theorem scover5_B_1 (hc0 : ¬cond5_0 i) (hc1 : ¬cond5_1 i) (x0 x1 : Vec F S512 .i32) (x2 x3 : Vec F S512x128 .f32) (xs0 xs1 : Vec F S10240x128 .f32) (y : S10240x128.Idx) :
    ∃ pc ∈ (kernelRun5_B c i arg1 harg1 arg2 harg2 arg3 harg3 arg4 harg4 arg5 harg5 arg6 harg6 arg7 harg7 arg8 harg8 arg9 harg9 arg10 harg10 arg11 harg11 hc0 hc1 x0 x1 x2 x3 xs0 xs1).2.1, y ∈ pc.1.set :=
  View.cover_of_tiledL _ S10240x128.size (by sl_kernel_rfl) y
def sout5_B_1 (hc0 : ¬cond5_0 i) (hc1 : ¬cond5_1 i) (x0 x1 : Vec F S512 .i32) (x2 x3 : Vec F S512x128 .f32) (xs0 xs1 : Vec F S10240x128 .f32) : Vec F S10240x128 .f32 :=
  VS5_1.read (Elt F) (VS5_1.writes (Elt F) VS5_1.junk (kernelRun5_B c i arg1 harg1 arg2 harg2 arg3 harg3 arg4 harg4 arg5 harg5 arg6 harg6 arg7 harg7 arg8 harg8 arg9 harg9 arg10 harg10 arg11 harg11 hc0 hc1 x0 x1 x2 x3 xs0 xs1).2.1)

theorem cover5_C_8 (hc0 : ¬cond5_0 i) (hc1 : cond5_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) (y : S10240x128.Idx) :
    ∃ pc ∈ (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1, y ∈ pc.1.set :=
  View.cover_of_tiledL _ S10240x128.size (by sl_kernel_rfl) y

def out5_C_8 (hc0 : ¬cond5_0 i) (hc1 : cond5_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) : Vec F S10240x128 .f32 :=
  VO5_8.read (Elt F) (VO5_8.writes (Elt F) VO5_8.junk (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1)
theorem scover5_C_0 (hc0 : ¬cond5_0 i) (hc1 : cond5_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) (y : S10240x128.Idx) :
    ∃ pc ∈ (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1, y ∈ pc.1.set :=
  View.cover_of_tiledL _ S10240x128.size (by sl_kernel_rfl) y
def sout5_C_0 (hc0 : ¬cond5_0 i) (hc1 : cond5_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) : Vec F S10240x128 .f32 :=
  VS5_0.read (Elt F) (VS5_0.writes (Elt F) VS5_0.junk (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1)
theorem scover5_C_1 (hc0 : ¬cond5_0 i) (hc1 : cond5_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) (y : S10240x128.Idx) :
    ∃ pc ∈ (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1, y ∈ pc.1.set :=
  View.cover_of_tiledL _ S10240x128.size (by sl_kernel_rfl) y
def sout5_C_1 (hc0 : ¬cond5_0 i) (hc1 : cond5_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) : Vec F S10240x128 .f32 :=
  VS5_1.read (Elt F) (VS5_1.writes (Elt F) VS5_1.junk (kernelRun5_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1)

end Cases

def out5_idle : Vec F S10240x128 .f32 := VO5_8.read (Elt F) VO5_8.junk

section Region
variable (V : (c : Dev nD) → (b : Ref sig .tc) → Buf (Elt F) ((c : Thread nD τ).loc b))
  (O : Dev nD → CellTallies nD τ sig (HIx 2)) (B : Dev nD → Set (SemLoc sig × HIx 2))

theorem hc5_A0 (hn : 0 < cfg5.N) : cond5_0 (grid5.coords ⟨0, hn⟩) := (hcond5_0 ⟨0, hn⟩).mpr (Nat.zero_mod _)
theorem hc5_A1 (hn : 0 < cfg5.N) : ¬cond5_1 (grid5.coords ⟨0, hn⟩) := fun h => by
  have := (hcond5_1 ⟨0, hn⟩).mp h; (try dsimp only at this); omega
theorem hc5_S0 (n : ℕ) (hn : n + 1 < cfg5.N) : ¬cond5_0 (grid5.coords ⟨n + 1, hn⟩) := fun h => by
  have := (hcond5_0 ⟨n + 1, hn⟩).mp h; (try dsimp only at this)
  have hN : n + 1 < 625 := lt_of_lt_of_eq hn (show cfg5.N = 625 from N_5); omega

def outsAt5 (c : Dev nD) : (n : ℕ) → n < cfg5.N → Vec F S10240x128 .f32 × Vec F S10240x128 .f32 × Vec F S10240x128 .f32
  | 0, hn =>
    let t : Fin cfg5.N := ⟨0, hn⟩
    (out5_idle,
      sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (hc5_A0 hn) (hc5_A1 hn) (iblk5 V c 0 t) (iblk5 V c 1 t) (iblk5 V c 2 t) (iblk5 V c 3 t),
      sout5_A_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (hc5_A0 hn) (hc5_A1 hn) (iblk5 V c 0 t) (iblk5 V c 1 t) (iblk5 V c 2 t) (iblk5 V c 3 t))
  | n + 1, hn =>
    let t : Fin cfg5.N := ⟨n + 1, hn⟩
    if h1 : (n + 1) % 625 = 624 then
      (out5_C_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (hc5_S0 n hn) ((hcond5_1 t).mpr h1) (iblk5 V c 0 t) (iblk5 V c 1 t) (iblk5 V c 2 t) (iblk5 V c 3 t) (iblk5 V c 4 t) (iblk5 V c 5 t) (iblk5 V c 6 t) (iblk5 V c 7 t) (outsAt5 c n (Nat.lt_of_succ_lt hn)).2.1 (outsAt5 c n (Nat.lt_of_succ_lt hn)).2.2,
       sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (hc5_S0 n hn) ((hcond5_1 t).mpr h1) (iblk5 V c 0 t) (iblk5 V c 1 t) (iblk5 V c 2 t) (iblk5 V c 3 t) (iblk5 V c 4 t) (iblk5 V c 5 t) (iblk5 V c 6 t) (iblk5 V c 7 t) (outsAt5 c n (Nat.lt_of_succ_lt hn)).2.1 (outsAt5 c n (Nat.lt_of_succ_lt hn)).2.2,
       sout5_C_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (hc5_S0 n hn) ((hcond5_1 t).mpr h1) (iblk5 V c 0 t) (iblk5 V c 1 t) (iblk5 V c 2 t) (iblk5 V c 3 t) (iblk5 V c 4 t) (iblk5 V c 5 t) (iblk5 V c 6 t) (iblk5 V c 7 t) (outsAt5 c n (Nat.lt_of_succ_lt hn)).2.1 (outsAt5 c n (Nat.lt_of_succ_lt hn)).2.2)
    else
      (out5_idle,
       sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (hc5_S0 n hn) (fun h => h1 ((hcond5_1 t).mp h)) (iblk5 V c 0 t) (iblk5 V c 1 t) (iblk5 V c 2 t) (iblk5 V c 3 t) (outsAt5 c n (Nat.lt_of_succ_lt hn)).2.1 (outsAt5 c n (Nat.lt_of_succ_lt hn)).2.2,
       sout5_B_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (hc5_S0 n hn) (fun h => h1 ((hcond5_1 t).mp h)) (iblk5 V c 0 t) (iblk5 V c 1 t) (iblk5 V c 2 t) (iblk5 V c 3 t) (outsAt5 c n (Nat.lt_of_succ_lt hn)).2.1 (outsAt5 c n (Nat.lt_of_succ_lt hn)).2.2)

abbrev prevS5_0 (c : Dev nD) (t : Fin cfg5.N) : Vec F S10240x128 .f32 := (outsAt5 V c (t.val - 1) (Nat.lt_of_le_of_lt (Nat.sub_le _ _) t.isLt)).2.1
abbrev prevS5_1 (c : Dev nD) (t : Fin cfg5.N) : Vec F S10240x128 .f32 := (outsAt5 V c (t.val - 1) (Nat.lt_of_le_of_lt (Nat.sub_le _ _) t.isLt)).2.2

theorem outsAt5_A (c : Dev nD) (t : Fin cfg5.N) (h0 : t.val % 625 = 0) (h1 : ¬t.val % 625 = 624) :
    outsAt5 V c t.val t.isLt = (out5_idle,
      sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t),
      sout5_A_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t)) := by
  obtain ⟨n, hn⟩ := t
  cases n with
  | zero => exact rfl
  | succ n => exact (by exfalso; (try dsimp only at h0); have hN : n + 1 < 625 := lt_of_lt_of_eq hn (show cfg5.N = 625 from N_5); omega)

theorem outsAt5_B (c : Dev nD) (t : Fin cfg5.N) (h0 : ¬t.val % 625 = 0) (h1 : ¬t.val % 625 = 624) :
    outsAt5 V c t.val t.isLt = (out5_idle,
      sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (prevS5_0 V c t) (prevS5_1 V c t),
      sout5_B_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (prevS5_0 V c t) (prevS5_1 V c t)) := by
  obtain ⟨n, hn⟩ := t
  cases n with
  | zero => exact (by exfalso; (try dsimp only at h0); exact absurd (Nat.zero_mod _) h0)
  | succ n => exact (dif_neg h1).trans rfl

theorem outsAt5_C (c : Dev nD) (t : Fin cfg5.N) (h0 : ¬t.val % 625 = 0) (h1 : t.val % 625 = 624) :
    outsAt5 V c t.val t.isLt = (
      out5_C_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (prevS5_0 V c t) (prevS5_1 V c t),
      sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (prevS5_0 V c t) (prevS5_1 V c t),
      sout5_C_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (prevS5_0 V c t) (prevS5_1 V c t)) := by
  obtain ⟨n, hn⟩ := t
  cases n with
  | zero => exact (by exfalso; (try dsimp only at h0); exact absurd (Nat.zero_mod _) h0)
  | succ n => exact (dif_pos h1).trans rfl

def PhiS5 (c : Dev nD) : (n : ℕ) → n ≤ cfg5.N → sProp 𝕄
  | 0, _ => Pipeline.scopedRest spec5 c
  | n + 1, hn => iprop(iprop(owns (c : Thread nD τ) scM5_0 fullShare (outsAt5 V c n hn).2.1 ∗ owns (c : Thread nD τ) scM5_1 fullShare (outsAt5 V c n hn).2.2)
      ∗ Pipeline.scopedRestBut spec5 c [cc5_scratch0, cc5_scratch1])

theorem PhiS5_zero (c : Dev nD) (n : ℕ) (h : n ≤ cfg5.N) (hz : n = 0) : PhiS5 V c n h = Pipeline.scopedRest spec5 c := by
  subst hz; rfl

theorem PhiS5_succ (c : Dev nD) (n : ℕ) (hn : n < cfg5.N) :
    PhiS5 V c (n + 1) hn = iprop(iprop(owns (c : Thread nD τ) scM5_0 fullShare (outsAt5 V c n hn).2.1 ∗ owns (c : Thread nD τ) scM5_1 fullShare (outsAt5 V c n hn).2.2)
      ∗ Pipeline.scopedRestBut spec5 c [cc5_scratch0, cc5_scratch1]) := rfl

theorem PhiS5_pos (c : Dev nD) (n : ℕ) (h : n ≤ cfg5.N) (hz : n ≠ 0) :
    PhiS5 V c n h = iprop(iprop(owns (c : Thread nD τ) scM5_0 fullShare (outsAt5 V c (n - 1) (by omega)).2.1 ∗ owns (c : Thread nD τ) scM5_1 fullShare (outsAt5 V c (n - 1) (by omega)).2.2)
      ∗ Pipeline.scopedRestBut spec5 c [cc5_scratch0, cc5_scratch1]) := by
  cases n with
  | zero => exact absurd rfl hz
  | succ n => rfl

def dat5 (c : Dev nD) : Dat τ (Elt F) (HIx 2) ℕ UU ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => (outsAt5 V c t.val t.isLt).1
  Φ t := PhiS5 V c t.val (Nat.le_of_lt_succ t.isLt)
  q _ := fullShare
  owed _ := O c
  recorded _ := B c

theorem A_eq5 (c : Dev nD) (w : Fin cfg5.W) : (dat5 V O B c).A w = V c (Pipeline.arrRef spec5 w) := by
  dsimp only [dat5]

theorem PhiS5_castSucc (c : Dev nD) (t : Fin cfg5.N) :
    (dat5 V O B c).Φ t.castSucc = PhiS5 V c t.val (Nat.le_of_lt t.isLt) := by
  dsimp only [dat5]; simp only [Fin.coe_castSucc]

theorem after5_8 (c : Dev nD) (t : Fin cfg5.N) : (dat5 V O B c).after 8 t = (outsAt5 V c t.val t.isLt).1 := by dsimp only [dat5]

theorem before5_in (c : Dev nD) (w : Fin cfg5.W) (hw : w.val < 8) (t : Fin cfg5.N) (d) :
    (dat5 V O B c).before w t d = (dat5 V O B c).fetched w t d := by
  obtain ⟨k, hk⟩ := w
  change k < 8 at hw
  interval_cases k <;>
    exact Dat.before_in_eq_fetched _ _ rfl (fun _ => rfl) (fun _ _ _ => rfl) (fun _ => by dsimp only [dat5]; rfl) t d

def bodyPre5 (c : Dev nD) (t : Fin cfg5.N) : sProp 𝕄 :=
  iprop((dat5 V O B c).Φ t.castSucc ∗ (dat5 V O B c).owesAt none t.castSucc
    ∗ (∃ d, owns (c : Thread nD τ) (ms5_0 t) fullShare ((dat5 V O B c).before 0 t d))
    ∗ (∃ d, owns (c : Thread nD τ) (ms5_1 t) fullShare ((dat5 V O B c).before 1 t d))
    ∗ (∃ d, owns (c : Thread nD τ) (ms5_2 t) fullShare ((dat5 V O B c).before 2 t d))
    ∗ (∃ d, owns (c : Thread nD τ) (ms5_3 t) fullShare ((dat5 V O B c).before 3 t d))
    ∗ (∃ d, owns (c : Thread nD τ) (ms5_4 t) fullShare ((dat5 V O B c).before 4 t d))
    ∗ (∃ d, owns (c : Thread nD τ) (ms5_5 t) fullShare ((dat5 V O B c).before 5 t d))
    ∗ (∃ d, owns (c : Thread nD τ) (ms5_6 t) fullShare ((dat5 V O B c).before 6 t d))
    ∗ (∃ d, owns (c : Thread nD τ) (ms5_7 t) fullShare ((dat5 V O B c).before 7 t d))
    ∗ (∃ d, owns (c : Thread nD τ) (ms5_8 t) fullShare ((dat5 V O B c).before 8 t d)))

def bodyPost5 (c : Dev nD) (t : Fin cfg5.N) : sProp 𝕄 :=
  iprop((dat5 V O B c).Φ t.succ ∗ (dat5 V O B c).owesAt none t.succ
    ∗ owns (c : Thread nD τ) (ms5_0 t) fullShare ((dat5 V O B c).after 0 t)
    ∗ owns (c : Thread nD τ) (ms5_1 t) fullShare ((dat5 V O B c).after 1 t)
    ∗ owns (c : Thread nD τ) (ms5_2 t) fullShare ((dat5 V O B c).after 2 t)
    ∗ owns (c : Thread nD τ) (ms5_3 t) fullShare ((dat5 V O B c).after 3 t)
    ∗ owns (c : Thread nD τ) (ms5_4 t) fullShare ((dat5 V O B c).after 4 t)
    ∗ owns (c : Thread nD τ) (ms5_5 t) fullShare ((dat5 V O B c).after 5 t)
    ∗ owns (c : Thread nD τ) (ms5_6 t) fullShare ((dat5 V O B c).after 6 t)
    ∗ owns (c : Thread nD τ) (ms5_7 t) fullShare ((dat5 V O B c).after 7 t)
    ∗ (dat5 V O B c).leavesExact 8 t)

set_option maxHeartbeats 4800000 in

theorem sound_body5 (c : Dev nD) (t : Fin cfg5.N) :
    bodyPre5 V O B c t ⊢ wp frame (wpE (defs₀ (F := F)) Variants.none c none) Set.univ (bodyAt5 t) (fun _ => bodyPost5 V O B c t) := by
  unfold bodyPre5 bodyPost5 bodyAt5
  simp (disch := decide) only [before5_in]
  rw [show (dat5 V O B c).owesAt none t.succ = (dat5 V O B c).owesAt none t.castSucc from rfl]
  rw [show (dat5 V O B c).Φ t.succ = PhiS5 V c (t.val + 1) t.isLt from rfl, PhiS5_succ]
  have hN : t.val < 625 := lt_of_lt_of_eq t.isLt (show cfg5.N = 625 from N_5)
  by_cases h1 : t.val % 625 = 624
  · have h0 : ¬t.val % 625 = 0 := by omega
    have hz : t.val ≠ 0 := by omega
    rw [show (dat5 V O B c).leavesExact 8 t = owns (c : Thread nD τ) (ms5_8 t) fullShare ((dat5 V O B c).after 8 t) from by
      unfold Dat.leavesExact; rw [liveAt5_8 t ((hcond5_1 t).mpr h1)], after5_8]
    rw [outsAt5_C V c t h0 h1]
    unfold out5_C_8 sout5_C_0 sout5_C_1; (try dsimp only)
    rw [PhiS5_castSucc V O B c t, PhiS5_pos V c _ _ hz]
    dsimp only [dat5]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun5_C c (grid5.coords t) _ _ _ _ _ _ _ _ _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [H8]; · iexists _; iexact H8
    iintro ⟨H0, H1, H2, H3, H4, H5, H6, H7, ⟨%es0, HS0⟩, ⟨%es1, HS1⟩, ⟨%e8, H8⟩⟩
    isplitl [HS0 HS1 HR]
    · isplitl [HS0 HS1]
      · isplitl [HS0]
        · unfold owns; iexists _; isplitr
          swap; · iexact HS0
          ipureintro; exact View.read_writes_of_cover _ _ _ _ _ (scover5_C_0 c _ _ _ _ _ _ _ _ _ _ _ _ _ _ _ _ _ _ _ _ _ _ _ _ _ _ _ _ _ _ _ _ _ _ _ )
        · unfold owns; iexists _; isplitr
          swap; · iexact HS1
          ipureintro; exact View.read_writes_of_cover _ _ _ _ _ (scover5_C_1 c _ _ _ _ _ _ _ _ _ _ _ _ _ _ _ _ _ _ _ _ _ _ _ _ _ _ _ _ _ _ _ _ _ _ _ )
      iexact HR
    iframe Ho H0 H1 H2 H3 H4 H5 H6 H7
    unfold owns; iexists _; isplitr
    swap; · iexact H8
    ipureintro; exact View.read_writes_of_cover _ _ _ _ _ (cover5_C_8 c _ _ _ _ _ _ _ _ _ _ _ _ _ _ _ _ _ _ _ _ _ _ _ _ _ _ _ _ _ _ _ _ _ _ _ )
  · rw [Dat.leavesExact_idle (dat5 V O B c) 8 t (idleAt5_8 t (fun h => h1 ((hcond5_1 t).mp h))) (noFlush5_8 t (fun h => h1 ((hcond5_1 t).mp h)))]
    by_cases h0 : t.val % 625 = 0
    · have hz : t.val = 0 := by omega
      rw [outsAt5_A V c t h0 h1]
      unfold sout5_A_0 sout5_A_1; (try dsimp only)
      rw [PhiS5_castSucc V O B c t, PhiS5_zero V c _ _ hz, scopedRest5_owns]
      dsimp only [dat5]
      iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun5_A c (grid5.coords t) _ _ _ _ _ _ _ _ _ _ _ _ _ _ _ _ _ _ _ _ _ _ ((hcond5_0 t).mpr h0) (fun h => h1 ((hcond5_1 t).mp h)) (iblk5 V c 0 t) (iblk5 V c 1 t) (iblk5 V c 2 t) (iblk5 V c 3 t)).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR]
      · isplitl [HS0 HS1]
        · isplitl [HS0]
          · unfold owns; iexists _; isplitr
            swap; · iexact HS0
            ipureintro; exact View.read_writes_of_cover _ _ _ _ _ (scover5_A_0 c _ _ _ _ _ _ _ _ _ _ _ _ _ _ _ _ _ _ _ _ _ _ _ _ _ _ _ _ _ )
          · unfold owns; iexists _; isplitr
            swap; · iexact HS1
            ipureintro; exact View.read_writes_of_cover _ _ _ _ _ (scover5_A_1 c _ _ _ _ _ _ _ _ _ _ _ _ _ _ _ _ _ _ _ _ _ _ _ _ _ _ _ _ _ )
        iexact HR
      iframe Ho H0 H1 H2 H3
      isplitl [H4]; · iexact H4
      isplitl [H5]; · iexact H5
      isplitl [H6]; · iexact H6
      isplitl [H7]; · iexact H7
      iexists _; iexact H8
    · have hz : t.val ≠ 0 := by omega
      rw [outsAt5_B V c t h0 h1]
      unfold sout5_B_0 sout5_B_1; (try dsimp only)
      rw [PhiS5_castSucc V O B c t, PhiS5_pos V c _ _ hz]
      dsimp only [dat5]
      iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun5_B c (grid5.coords t) _ _ _ _ _ _ _ _ _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) _ _).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR]
      · isplitl [HS0 HS1]
        · isplitl [HS0]
          · unfold owns; iexists _; isplitr
            swap; · iexact HS0
            ipureintro; exact View.read_writes_of_cover _ _ _ _ _ (scover5_B_0 c _ _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover5_B_1 c _ _ _ _ _ _ _ _ _ _ _ _ _ _ _ _ _ _ _ _ _ _ _ _ _ _ _ _ _ _ _ )
        iexact HR
      iframe Ho H0 H1 H2 H3
      isplitl [H4]; · iexact H4
      isplitl [H5]; · iexact H5
      isplitl [H6]; · iexact H6
      isplitl [H7]; · iexact H7
      iexists _; iexact H8

theorem body_obligation5 (c : Dev nD) : BodyObligation (dat5 (F := F) V O B c) (defs₀ (F := F)) Variants.none (none : HIx 2) Set.univ := fun t => by
  rw [bigSep_W5, bigSep_W5]
  exact sound_body5 V O B c t

theorem body_obligationLoose5 (c : Dev nD) : Pipeline.BodyObligationLoose (dat5 (F := F) V O B c) (defs₀ (F := F)) Variants.none (none : HIx 2) Set.univ :=
  (body_obligation5 V O B c).loose

abbrev X5 (_ : Dev nD) : sProp 𝕄 := iprop(emp)
abbrev Y5 (_ : Dev nD) : sProp 𝕄 := iprop(emp)

theorem hin5 (c : Dev nD) (P : sProp 𝕄) : iprop(X5 (F := F) c ∗ P ∗ Pipeline.scopedRest spec5 c) ⊢ (dat5 V O B c).Φ 0 := by
  rw [show (dat5 V O B c).Φ 0 = PhiS5 V c 0 (Nat.zero_le _) from rfl, PhiS5_zero V c 0 _ rfl]
  iintro ⟨-, -, Hr⟩; iexact Hr

theorem Phi_out5 (c : Dev nD) (t : Fin (cfg5.N + 1)) (ht : t.val ≠ 0) : (dat5 V O B c).Φ t ⊢ (Pipeline.scopedRest spec5 c : sProp 𝕄) := by
  rw [show (dat5 V O B c).Φ t = PhiS5 V c t.val (Nat.le_of_lt_succ t.isLt) from rfl, PhiS5_pos V c _ _ ht, scopedRest5_owns]
  iintro ⟨⟨HS0, HS1⟩, HR⟩
  isplitl [HS0 HS1]
  · isplitl [HS0]
    · iexists _; iexact HS0
    · iexists _; iexact HS1
  iexact HR

theorem hout5 (c : Dev nD) : (dat5 V O B c).Φ (Fin.last cfg5.N) ⊢ iprop(Y5 (F := F) c ∗ Pipeline.ownSems0 (fun k : PEmpty => k.elim) c ∗ Pipeline.scopedRest spec5 c) := by
  rw [Pipeline.ownSems0_none]
  iintro H
  isplitr; · iempintro
  isplitr; · iempintro
  iapply (Phi_out5 V O B c _ (by rw [Fin.val_last]; have : cfg5.N = 625 := N_5; omega))
  iexact H

end Region

end Cert.Proof.KB

end
-- ==== Proof.KB.Vals.lean ====
/- The contents of @main's buffers at each of its boundaries, as a fold through @main from the launch memory. -/
import proofs.«215230_g44530220925728_cont_8to1c4_163_46_alg».proof.Proof.KB.Host
import proofs.«215230_g44530220925728_cont_8to1c4_163_46_alg».proof.Proof.KB.Pay
import proofs.«215230_g44530220925728_cont_8to1c4_163_46_alg».proof.Proof.KB.Edge
import proofs.«215230_g44530220925728_cont_8to1c4_163_46_alg».proof.Proof.KB.Edge4
import proofs.«215230_g44530220925728_cont_8to1c4_163_46_alg».proof.Proof.KB.Pool
import proofs.«215230_g44530220925728_cont_8to1c4_163_46_alg».proof.Proof.KB.Pool5
import Idealize.ShloMosaic.Lib.Pipeline.FrameSuffix

noncomputable section

namespace Cert.Proof.KB

open Cert.Kernel Cert.Kernel.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

abbrev Oat (n : ℕ) : Dev nD → CellTallies nD τ sig (HIx 2) := fun c => (K (F := F)).Otc c n

abbrev Bat (n : ℕ) : Dev nD → Set (SemLoc sig × HIx 2) := fun c => {p | (K (F := F)).lev (SparseCore.T c, p.1) p.2 ≤ 8 * n}

abbrev W0 : Dev nD → Valuation τ sig (Elt F) := fun c b => m (c, b)

abbrev W1 : Dev nD → Valuation τ sig (Elt F) := fun c => StableHlo.after opsA (W0 m c)

abbrev dr (b : Ref sig .tc) : DevRef τ sig := Proc.devRef .tc b

def W2 (c : Dev nD) : Valuation τ sig (Elt F) :=
  Function.update (Function.update (W1 m c) (dr main_v4_0) (gath0 c (W1 m c (dr main_arg0)) (W1 m c (dr main_v1))))
    (dr main_v4_1) (gath0 c (W1 m c (dr main_arg0)) (W1 m c (dr main_v3)))

abbrev W3 : Dev nD → Valuation τ sig (Elt F) := fun c => StableHlo.after opsB (W2 m c)
abbrev V3 : (c : Dev nD) → (b : Ref sig .tc) → Buf (Elt F) ((c : Thread nD τ).loc b) := fun c b => W3 m c b

abbrev Rinv1 : Dev nD → sProp (MT nD τ sig (HIx 2) (Elt F) ℕ UU ℕ) := fun c => Pipeline.scopedRest spec1 c
abbrev Rinv4 : Dev nD → sProp (MT nD τ sig (HIx 2) (Elt F) ℕ UU ℕ) := fun c => Pipeline.scopedRest spec4 c

def W4 (c : Dev nD) : Valuation τ sig (Elt F) :=
  Pipeline.withArrays spec1 c (W3 m c) fun w => (dat1 (V3 m) (Oat (F := F) 1) (Bat (F := F) 1) Rinv1 c).arrAt w cfg1.N
abbrev W5 : Dev nD → Valuation τ sig (Elt F) := fun c => StableHlo.after opsC (W4 m c)
abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) (Oat (F := F) 1) (Bat (F := F) 1) c).arrAt w cfg2.N

def W7 (c : Dev nD) : Valuation τ sig (Elt F) :=
  Function.update (Function.update (W6 m c) (dr main_v14_0) (gath1 c (W6 m c (dr main_v13)) (W6 m c (dr main_v1))))
    (dr main_v14_1) (gath1 c (W6 m c (dr main_v13)) (W6 m c (dr main_v3)))
abbrev W8 : Dev nD → Valuation τ sig (Elt F) := fun c => StableHlo.after opsD (W7 m c)
abbrev V8 : (c : Dev nD) → (b : Ref sig .tc) → Buf (Elt F) ((c : Thread nD τ).loc b) := fun c b => W8 m c b
def W9 (c : Dev nD) : Valuation τ sig (Elt F) :=
  Pipeline.withArrays spec4 c (W8 m c) fun w => (dat4 (V8 m) (Oat (F := F) 2) (Bat (F := F) 2) Rinv4 c).arrAt w cfg4.N
abbrev W10 : Dev nD → Valuation τ sig (Elt F) := fun c => StableHlo.after opsE (W9 m c)
abbrev V10 : (c : Dev nD) → (b : Ref sig .tc) → Buf (Elt F) ((c : Thread nD τ).loc b) := fun c b => W10 m c b
def W11 (c : Dev nD) : Valuation τ sig (Elt F) :=
  Pipeline.withArrays spec5 c (W10 m c) fun w => (dat5 (V10 m) (Oat (F := F) 2) (Bat (F := F) 2) c).arrAt w cfg5.N

abbrev W12 : Dev nD → Valuation τ sig (Elt F) := fun c => StableHlo.after opsF (W11 m c)

def X : GIn F where
  obj0 c := W1 m c (dr main_arg0)
  obj1 c := W6 m c (dr main_v13)
  si c := W1 m c (dr main_v1)
  oi c := W1 m c (dr main_v3)

def pdats : (p : Fin 4) → (c : Dev nD) → Dat τ (Elt F) (HIx 2) ℕ UU ℕ (Pipeline.pin (pcfgs (F := F)) adm p) c
  | ⟨0, _⟩ => fun c => dat1 (V3 m) (Oat (F := F) 1) (Bat (F := F) 1) Rinv1 c
  | ⟨1, _⟩ => fun c => dat2 (V5 m) (Oat (F := F) 1) (Bat (F := F) 1) c
  | ⟨2, _⟩ => fun c => dat4 (V8 m) (Oat (F := F) 2) (Bat (F := F) 2) Rinv4 c
  | ⟨3, _⟩ => fun c => dat5 (V10 m) (Oat (F := F) 2) (Bat (F := F) 2) c

end Cert.Proof.KB

end
-- ==== Proof.KB.Keep.lean ====
/- What the fold through @main keeps: a buffer no line writes passes a host stretch, a gather call changes only its two results, a region only its output arrays; so every argument array ends as launched. -/
import proofs.«215230_g44530220925728_cont_8to1c4_163_46_alg».proof.Proof.KB.Vals

noncomputable section

namespace Cert.Proof.KB

open Cert.Kernel Cert.Kernel.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

/-- Every line of `ops` writes only buffers of `Ws`. -/
def Writes (ops : List (HloOp τ sig (Elt F))) (Ws : List (Ref sig .tc)) : Prop :=
  ops.Forall fun op => op.writes ⊆ (Ws.map (Proc.devRef (τ := τ) .tc)).toFinset

abbrev opsA_W : List (Ref sig .tc) := [main_v0, main_v1, main_v2, main_v3]
abbrev opsB_W : List (Ref sig .tc) := [main_v5, main_v6, main_v7, main_v8, main_v9]
abbrev opsC_W : List (Ref sig .tc) := [main_v11, main_v12]
abbrev opsD_W : List (Ref sig .tc) := [main_v15, main_v16, main_v17, main_v18, main_v19]
abbrev opsE_W : List (Ref sig .tc) := [main_v21, main_v22]
abbrev opsF_W : List (Ref sig .tc) := [main_v24]

/-- Each stretch of lines between two calls or regions writes its own results and nothing else. -/
theorem ops_writes : Writes (F := F) opsA opsA_W ∧ Writes (F := F) opsB opsB_W ∧ Writes (F := F) opsC opsC_W ∧
    Writes (F := F) opsD opsD_W ∧ Writes (F := F) opsE opsE_W ∧ Writes (F := F) opsF opsF_W := by
  simp only [Writes, List.Forall, StableHlo.unary_writes, StableHlo.reshape_writes, Finset.singleton_subset_iff, List.mem_toFinset]
  repeat' apply And.intro
  all_goals exact List.mem_map_of_mem (by decide)

section
variable (W : Valuation τ sig (Elt F)) (b : Ref sig .tc)
theorem opsA_keep (h : b ∉ opsA_W) : StableHlo.after opsA W (Proc.devRef .tc b) = W (Proc.devRef .tc b) :=
  StableHlo.after_of_writes_sub opsA W ops_writes.1 h
theorem opsB_keep (h : b ∉ opsB_W) : StableHlo.after opsB W (Proc.devRef .tc b) = W (Proc.devRef .tc b) :=
  StableHlo.after_of_writes_sub opsB W ops_writes.2.1 h
theorem opsC_keep (h : b ∉ opsC_W) : StableHlo.after opsC W (Proc.devRef .tc b) = W (Proc.devRef .tc b) :=
  StableHlo.after_of_writes_sub opsC W ops_writes.2.2.1 h
theorem opsD_keep (h : b ∉ opsD_W) : StableHlo.after opsD W (Proc.devRef .tc b) = W (Proc.devRef .tc b) :=
  StableHlo.after_of_writes_sub opsD W ops_writes.2.2.2.1 h
theorem opsE_keep (h : b ∉ opsE_W) : StableHlo.after opsE W (Proc.devRef .tc b) = W (Proc.devRef .tc b) :=
  StableHlo.after_of_writes_sub opsE W ops_writes.2.2.2.2.1 h
theorem opsF_keep (h : b ∉ opsF_W) : StableHlo.after opsF W (Proc.devRef .tc b) = W (Proc.devRef .tc b) :=
  StableHlo.after_of_writes_sub opsF W ops_writes.2.2.2.2.2 h
end

variable (m : (ℓ : Loc nD τ sig) → Buf (Elt F) ℓ)

theorem keep2_of_ne (c : Dev nD) (b : Ref sig .tc) (h : b ∉ ([main_v4_0, main_v4_1] : List (Ref sig .tc))) :
    W2 m c (dr b) = W1 m c (dr b) := by
  have h0 : (dr b : DevRef τ sig) ≠ dr main_v4_0 := StableHlo.devRef_ne_of_ne (List.ne_of_not_mem_cons h)
  have h1 : (dr b : DevRef τ sig) ≠ dr main_v4_1 := StableHlo.devRef_ne_of_ne (List.ne_of_not_mem_cons (List.not_mem_of_not_mem_cons h))
  unfold W2
  rw [Function.update_of_ne h1, Function.update_of_ne h0]
theorem keep2_r0 (c : Dev nD) :
    W2 m c (dr main_v4_0) = gath0 c (W1 m c (dr main_arg0)) (W1 m c (dr main_v1)) := by
  have h1 : (dr main_v4_0 : DevRef τ sig) ≠ dr main_v4_1 := StableHlo.devRef_ne_of_ne (by decide)
  unfold W2
  rw [Function.update_of_ne h1, Function.update_self]
theorem keep2_r1 (c : Dev nD) :
    W2 m c (dr main_v4_1) = gath0 c (W1 m c (dr main_arg0)) (W1 m c (dr main_v3)) := by
  unfold W2
  rw [Function.update_self]

theorem keep7_of_ne (c : Dev nD) (b : Ref sig .tc) (h : b ∉ ([main_v14_0, main_v14_1] : List (Ref sig .tc))) :
    W7 m c (dr b) = W6 m c (dr b) := by
  have h0 : (dr b : DevRef τ sig) ≠ dr main_v14_0 := StableHlo.devRef_ne_of_ne (List.ne_of_not_mem_cons h)
  have h1 : (dr b : DevRef τ sig) ≠ dr main_v14_1 := StableHlo.devRef_ne_of_ne (List.ne_of_not_mem_cons (List.not_mem_of_not_mem_cons h))
  unfold W7
  rw [Function.update_of_ne h1, Function.update_of_ne h0]
theorem keep7_r0 (c : Dev nD) :
    W7 m c (dr main_v14_0) = gath1 c (W6 m c (dr main_v13)) (W6 m c (dr main_v1)) := by
  have h1 : (dr main_v14_0 : DevRef τ sig) ≠ dr main_v14_1 := StableHlo.devRef_ne_of_ne (by decide)
  unfold W7
  rw [Function.update_of_ne h1, Function.update_self]
theorem keep7_r1 (c : Dev nD) :
    W7 m c (dr main_v14_1) = gath1 c (W6 m c (dr main_v13)) (W6 m c (dr main_v3)) := by
  unfold W7
  rw [Function.update_self]

/-- If every array that is buffer `b` is written with what `V` holds there, then `b` holds after the writes what `V` holds. -/
theorem withArrays_pass {gr W : Nat} (win : Fin W → Pipeline.WinSpec sig gr) (hinj : Function.Injective (Pipeline.arrRef win))
    (c : Dev nD) (V : Valuation τ sig (Elt F)) (A : (w : Fin W) → Buf (Elt F) ((win w).arr.view.loc (c.tc : Thread nD τ)))
    (b : Ref sig .tc) (h : ∀ w, Pipeline.arrRef win w = b → A w = V (dr (Pipeline.arrRef win w))) :
    Pipeline.withArrays win c V A (dr b) = V (dr b) := by
  by_cases hw : ∃ w, Pipeline.arrRef win w = b
  · obtain ⟨w, rfl⟩ := hw
    exact (Pipeline.withArrays_arr win hinj c V A w).trans (h w rfl)
  · exact Pipeline.withArrays_of_ne win c V A b fun w e => hw ⟨w, e⟩

/-- A region's arrays end at what its proof data records; a buffer that is no output array of the region is unchanged by it. -/
theorem keep4_arr (c : Dev nD) (w : Fin cfg1.W) :
    W4 m c (dr (Pipeline.arrRef spec1 w)) = (dat1 (V3 m) (Oat (F := F) 1) (Bat (F := F) 1) Rinv1 c).arrAt w cfg1.N := by
  unfold W4; exact Pipeline.withArrays_arr spec1 launch1.win.arr_inj c _ _ w
theorem keep4_pass (c : Dev nD) (b : Ref sig .tc) (h : ∀ w : Fin cfg1.W, Pipeline.arrRef spec1 w = b → (cfg1.win w).isOut = false) :
    W4 m c (dr b) = W3 m c (dr b) := by
  unfold W4
  exact withArrays_pass spec1 launch1.win.arr_inj c _ _ b fun w e => ((dat1 (V3 m) (Oat (F := F) 1) (Bat (F := F) 1) Rinv1 c).arrAt_in w (h w e) _).trans (A_eq1 (V3 m) (Oat (F := F) 1) (Bat (F := F) 1) Rinv1 c w)

theorem keep6_arr (c : Dev nD) (w : Fin cfg2.W) :
    W6 m c (dr (Pipeline.arrRef spec2 w)) = (dat2 (V5 m) (Oat (F := F) 1) (Bat (F := F) 1) c).arrAt w cfg2.N := by
  unfold W6; exact Pipeline.withArrays_arr spec2 launch2.win.arr_inj c _ _ w
theorem keep6_pass (c : Dev nD) (b : Ref sig .tc) (h : ∀ w : Fin cfg2.W, Pipeline.arrRef spec2 w = b → (cfg2.win w).isOut = false) :
    W6 m c (dr b) = W5 m c (dr b) := by
  unfold W6
  exact withArrays_pass spec2 launch2.win.arr_inj c _ _ b fun w e => ((dat2 (V5 m) (Oat (F := F) 1) (Bat (F := F) 1) c).arrAt_in w (h w e) _).trans (A_eq2 (V5 m) (Oat (F := F) 1) (Bat (F := F) 1) c w)

theorem keep9_arr (c : Dev nD) (w : Fin cfg4.W) :
    W9 m c (dr (Pipeline.arrRef spec4 w)) = (dat4 (V8 m) (Oat (F := F) 2) (Bat (F := F) 2) Rinv4 c).arrAt w cfg4.N := by
  unfold W9; exact Pipeline.withArrays_arr spec4 launch4.win.arr_inj c _ _ w
theorem keep9_pass (c : Dev nD) (b : Ref sig .tc) (h : ∀ w : Fin cfg4.W, Pipeline.arrRef spec4 w = b → (cfg4.win w).isOut = false) :
    W9 m c (dr b) = W8 m c (dr b) := by
  unfold W9
  exact withArrays_pass spec4 launch4.win.arr_inj c _ _ b fun w e => ((dat4 (V8 m) (Oat (F := F) 2) (Bat (F := F) 2) Rinv4 c).arrAt_in w (h w e) _).trans (A_eq4 (V8 m) (Oat (F := F) 2) (Bat (F := F) 2) Rinv4 c w)

theorem keep11_arr (c : Dev nD) (w : Fin cfg5.W) :
    W11 m c (dr (Pipeline.arrRef spec5 w)) = (dat5 (V10 m) (Oat (F := F) 2) (Bat (F := F) 2) c).arrAt w cfg5.N := by
  unfold W11; exact Pipeline.withArrays_arr spec5 launch5.win.arr_inj c _ _ w
theorem keep11_pass (c : Dev nD) (b : Ref sig .tc) (h : ∀ w : Fin cfg5.W, Pipeline.arrRef spec5 w = b → (cfg5.win w).isOut = false) :
    W11 m c (dr b) = W10 m c (dr b) := by
  unfold W11
  exact withArrays_pass spec5 launch5.win.arr_inj c _ _ b fun w e => ((dat5 (V10 m) (Oat (F := F) 2) (Bat (F := F) 2) c).arrAt_in w (h w e) _).trans (A_eq5 (V10 m) (Oat (F := F) 2) (Bat (F := F) 2) c w)

/-- The nineteen argument arrays. -/
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]
/-- The buffers followed through the whole fold: the two index columns and the argument arrays. -/
abbrev kept : List (Ref sig .tc) := main_v1 :: main_v3 :: args

theorem args_unscoped : ∀ b ∈ args, ¬ (dr b : DevRef τ sig).isScoped := by decide

section
variable (c : Dev nD) (b : Ref sig .tc) (hb : b ∈ kept)
include hb

/-- No later step of the fold writes a kept buffer: at every later boundary it is as the first stretch left it. -/
theorem W2_keep : W2 m c (dr b) = W1 m c (dr b) :=
  keep2_of_ne m c b ((by decide : ∀ b ∈ kept, b ∉ [main_v4_0, main_v4_1]) b hb)
theorem W3_keep : W3 m c (dr b) = W1 m c (dr b) :=
  (opsB_keep _ b ((by decide : ∀ b ∈ kept, b ∉ opsB_W) b hb)).trans (W2_keep m c b hb)
theorem W4_keep : W4 m c (dr b) = W1 m c (dr b) :=
  (keep4_pass m c b ((by decide : ∀ b ∈ kept, ∀ w : Fin cfg1.W, Pipeline.arrRef spec1 w = b → (cfg1.win w).isOut = false) b hb)).trans (W3_keep m c b hb)
theorem W5_keep : W5 m c (dr b) = W1 m c (dr b) :=
  (opsC_keep _ b ((by decide : ∀ b ∈ kept, b ∉ opsC_W) b hb)).trans (W4_keep m c b hb)
theorem W6_keep : W6 m c (dr b) = W1 m c (dr b) :=
  (keep6_pass m c b ((by decide : ∀ b ∈ kept, ∀ w : Fin cfg2.W, Pipeline.arrRef spec2 w = b → (cfg2.win w).isOut = false) b hb)).trans (W5_keep m c b hb)
theorem W7_keep : W7 m c (dr b) = W1 m c (dr b) :=
  (keep7_of_ne m c b ((by decide : ∀ b ∈ kept, b ∉ [main_v14_0, main_v14_1]) b hb)).trans (W6_keep m c b hb)
theorem W8_keep : W8 m c (dr b) = W1 m c (dr b) :=
  (opsD_keep _ b ((by decide : ∀ b ∈ kept, b ∉ opsD_W) b hb)).trans (W7_keep m c b hb)
theorem W9_keep : W9 m c (dr b) = W1 m c (dr b) :=
  (keep9_pass m c b ((by decide : ∀ b ∈ kept, ∀ w : Fin cfg4.W, Pipeline.arrRef spec4 w = b → (cfg4.win w).isOut = false) b hb)).trans (W8_keep m c b hb)
theorem W10_keep : W10 m c (dr b) = W1 m c (dr b) :=
  (opsE_keep _ b ((by decide : ∀ b ∈ kept, b ∉ opsE_W) b hb)).trans (W9_keep m c b hb)
theorem W11_keep : W11 m c (dr b) = W1 m c (dr b) :=
  (keep11_pass m c b ((by decide : ∀ b ∈ kept, ∀ w : Fin cfg5.W, Pipeline.arrRef spec5 w = b → (cfg5.win w).isOut = false) b hb)).trans (W10_keep m c b hb)
theorem W12_keep : W12 m c (dr b) = W1 m c (dr b) :=
  (opsF_keep _ b ((by decide : ∀ b ∈ kept, b ∉ opsF_W) b hb)).trans (W11_keep m c b hb)
end

/-- An argument array is as launched after the first stretch, hence at every boundary of the fold. -/
theorem W1_arg (c : Dev nD) (b : Ref sig .tc) (hb : b ∈ args) : W1 m c (dr b) = m ((c : Thread nD τ).loc b) :=
  (opsA_keep (W0 m c) b ((by decide : ∀ b ∈ args, b ∉ opsA_W) b hb)).trans rfl
theorem W12_arg (c : Dev nD) (b : Ref sig .tc) (hb : b ∈ args) : W12 m c (dr b) = m ((c : Thread nD τ).loc b) :=
  (W12_keep m c b (List.mem_cons_of_mem _ (List.mem_cons_of_mem _ hb))).trans (W1_arg m c b hb)

theorem W6_v1 (c : Dev nD) : (X m).si c = W6 m c (dr main_v1) := (W6_keep m c main_v1 (by decide)).symm
theorem W6_v3 (c : Dev nD) : (X m).oi c = W6 m c (dr main_v3) := (W6_keep m c main_v3 (by decide)).symm

theorem W1_v1 (c : Dev nD) : W1 m c (dr main_v1)
    = shapeCast S320000 (extractStridedSlice S320000x1 ![0, 0] (m ((c : Thread nD τ).loc main_arg2)) slices_S320000x2_S320000x1_0_0) shapeCasts_S320000x1_S320000 := by
  show StableHlo.after opsA (W0 m c) (Proc.devRef .tc main_v1) = _
  after_results
  rfl
theorem W1_v3 (c : Dev nD) : W1 m c (dr main_v3)
    = shapeCast S320000 (extractStridedSlice S320000x1 ![0, 1] (m ((c : Thread nD τ).loc main_arg2)) slices_S320000x2_S320000x1_0_1) shapeCasts_S320000x1_S320000 := by
  show StableHlo.after opsA (W0 m c) (Proc.devRef .tc main_v3) = _
  after_results
  rfl

theorem X_inRange (hpre : ∀ (c : Dev nD) (i : S320000x2.Idx), (m ((c : Thread nD τ).loc main_arg2) i).toNat < 10000) :
    (X m).InRange := by
  intro d e
  constructor
  · show ((W1 m d (dr main_v1)) e).toNat < 10000
    rw [W1_v1]
    exact hpre d _
  · show ((W1 m d (dr main_v3)) e).toNat < 10000
    rw [W1_v3]
    exact hpre d _

end Cert.Proof.KB

end
-- ==== Proof.KB.Tiles.lean ====
/- The 32 tiles' slices of a result array are pairwise disjoint and cover it. -/
import proofs.«215230_g44530220925728_cont_8to1c4_163_46_alg».proof.Proof.KB.Pay
import Idealize.ShloMosaic.Lib.SparseCore.Launch
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 2) (Elt F) ℕ UU ℕ

theorem tileSet_disjoint {c i c' i' : ℕ} (hc : c < 2) (hc' : c' < 2) (h : c ≠ c' ∨ i ≠ i') : Disjoint (tileSet c i) (tileSet c' i') := by
  rw [Finset.disjoint_left]; intro j hj hj'
  rw [mem_tileSet] at hj hj'
  omega

theorem tileSets_disjoint : ∀ p ∈ (Finset.univ : Finset (Fin 2 × Fin 16)), ∀ p' ∈ (Finset.univ : Finset (Fin 2 × Fin 16)), p ≠ p' →
    Disjoint (tileSet p.1.val p.2.val) (tileSet p'.1.val p'.2.val) := by
  intro p _ p' _ h
  refine tileSet_disjoint p.1.isLt p'.1.isLt ?_
  by_contra hn
  have hn' : p.1.val = p'.1.val ∧ p.2.val = p'.2.val := ⟨by_contra fun e => hn (.inl e), by_contra fun e => hn (.inr e)⟩
  exact h (Prod.ext (Fin.ext hn'.1) (Fin.ext hn'.2))

theorem tileSets_cover : (Finset.univ : Finset (Fin 2 × Fin 16)).biUnion (fun p => tileSet p.1.val p.2.val) = Finset.univ := by
  ext j
  simp only [Finset.mem_biUnion, Finset.mem_univ, true_and, iff_true]
  have hj : (j 0).val < 320000 := (j 0).isLt
  refine ⟨(⟨((j 0).val / 10000) % 2, Nat.mod_lt _ (by norm_num)⟩, ⟨(j 0).val / 20000, by omega⟩), ?_⟩
  rw [mem_tileSet]
  show 20000 * ((j 0).val / 20000) + 10000 * (((j 0).val / 10000) % 2) ≤ (j 0).val
    ∧ (j 0).val < 20000 * ((j 0).val / 20000) + 10000 * (((j 0).val / 10000) % 2) + 10000
  omega

theorem coreShare_zero : coreShare 0 = fullShare.left := if_pos rfl
theorem coreShare_one : coreShare 1 = fullShare.right := if_neg Nat.one_ne_zero

end Cert.Proof.KB

end
-- ==== Proof.KB.Split0.lean ====
/- The first gather call's arrays split among the 32 tiles and joined again. -/
import proofs.«215230_g44530220925728_cont_8to1c4_163_46_alg».proof.Proof.KB.Tiles

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 2) (Elt F) ℕ UU ℕ

section Splits

variable (X : GIn F) (d : Dev nD)

theorem r00_rows (f : Buf (Elt F) (r00Loc d)) :
    (r00Loc d ↦{fullShare} f : sProp 𝕄)
      = iprop((bigSep Finset.univ fun i : Fin 16 => r00Loc d ↦[tileSet 0 i.val]{fullShare} f)
          ∗ (bigSep Finset.univ fun i : Fin 16 => r00Loc d ↦[tileSet 1 i.val]{fullShare} f)) := by
  have h := pointsTo_biUnion (Val := Elt F) (Ix := HIx 2) (Name := ℕ) (U := UU) (Lvl := ℕ) (ℓ := r00Loc d) (q := fullShare) (f := f)
    (Finset.univ : Finset (Fin 2 × Fin 16)) (fun p => tileSet p.1.val p.2.val) tileSets_disjoint
  rw [tileSets_cover, bigSep_univ_prod, bigSep_univ_two] at h
  exact h
theorem r01_rows (f : Buf (Elt F) (r01Loc d)) :
    (r01Loc d ↦{fullShare} f : sProp 𝕄)
      = iprop((bigSep Finset.univ fun i : Fin 16 => r01Loc d ↦[tileSet 0 i.val]{fullShare} f)
          ∗ (bigSep Finset.univ fun i : Fin 16 => r01Loc d ↦[tileSet 1 i.val]{fullShare} f)) := by
  have h := pointsTo_biUnion (Val := Elt F) (Ix := HIx 2) (Name := ℕ) (U := UU) (Lvl := ℕ) (ℓ := r01Loc d) (q := fullShare) (f := f)
    (Finset.univ : Finset (Fin 2 × Fin 16)) (fun p => tileSet p.1.val p.2.val) tileSets_disjoint
  rw [tileSets_cover, bigSep_univ_prod, bigSep_univ_two] at h
  exact h

theorem ins0_cores :
    (iprop((obj0Loc d ↦{fullShare} X.obj0 d) ∗ (siLoc d ↦{fullShare} X.si d) ∗ (oiLoc d ↦{fullShare} X.oi d)) : sProp 𝕄)
      ⊣⊢ iprop(ins0 X d (coreShare 0) ∗ ins0 X d (coreShare 1)) := by
  unfold ins0; rw [coreShare_zero, coreShare_one]
  have ho := pointsTo_share (Val := Elt F) (Ix := HIx 2) (Name := ℕ) (U := UU) (Lvl := ℕ) (ℓ := obj0Loc d) (I := Finset.univ) (f := X.obj0 d) (PosShare.mem_left_op_right fullShare)
  have hs := pointsTo_share (Val := Elt F) (Ix := HIx 2) (Name := ℕ) (U := UU) (Lvl := ℕ) (ℓ := siLoc d) (I := Finset.univ) (f := X.si d) (PosShare.mem_left_op_right fullShare)
  have hi := pointsTo_share (Val := Elt F) (Ix := HIx 2) (Name := ℕ) (U := UU) (Lvl := ℕ) (ℓ := oiLoc d) (I := Finset.univ) (f := X.oi d) (PosShare.mem_left_op_right fullShare)
  constructor
  · iintro ⟨Ho, Hs, Hi⟩
    ihave Ho' := ho.1 $$ Ho; icases Ho' with ⟨Ho1, Ho2⟩
    ihave Hs' := hs.1 $$ Hs; icases Hs' with ⟨Hs1, Hs2⟩
    ihave Hi' := hi.1 $$ Hi; icases Hi' with ⟨Hi1, Hi2⟩
    iframe
  · iintro ⟨⟨Ho1, Hs1, Hi1⟩, ⟨Ho2, Hs2, Hi2⟩⟩
    isplitl [Ho1 Ho2]; · iapply ho.2; isplitl [Ho1] <;> iassumption
    isplitl [Hs1 Hs2]; · iapply hs.2; isplitl [Hs1] <;> iassumption
    iapply hi.2; isplitl [Hi1] <;> iassumption

theorem st0_eq :
    (iprop((obj0Loc d ↦{fullShare} X.obj0 d) ∗ (siLoc d ↦{fullShare} X.si d) ∗ (oiLoc d ↦{fullShare} X.oi d)
      ∗ (∃ f, r00Loc d ↦{fullShare} f) ∗ (∃ f, r01Loc d ↦{fullShare} f)) : sProp 𝕄)
      ⊢ bigSep Finset.univ fun c : Fin ((K (F := F)).nCore (0 : Fin 2)) => (P X).st (0 : Fin 2) d c := by
  show _ ⊢ bigSep (Finset.univ : Finset (Fin 2)) fun c => st0 X d c.val
  rw [bigSep_univ_two]
  show _ ⊢ iprop(st0 X d 0 ∗ st0 X d 1)
  unfold st0
  iintro ⟨Ho, Hs, Hi, ⟨%f0, H0⟩, ⟨%f1, H1⟩⟩
  ihave Hin := (ins0_cores X d).1 $$ [Ho Hs Hi]
  · iframe
  icases Hin with ⟨Hin0, Hin1⟩
  ihave H0' := (Entails.of_eq (r00_rows d f0)) $$ H0
  icases H0' with ⟨H00, H01⟩
  ihave H1' := (Entails.of_eq (r01_rows d f1)) $$ H1
  icases H1' with ⟨H10, H11⟩
  have e0 : ∀ c : ℕ, (bigSep Finset.univ fun i : Fin 16 => (r00Loc d ↦[tileSet c i.val]{fullShare} f0 : sProp 𝕄))
      ⊢ bigSep Finset.univ fun i : Fin 16 => iprop(∃ f, r00Loc d ↦[tileSet c i.val]{fullShare} f) :=
    fun c => bigSep_mono fun i _ => exists_intro (Φ := fun f => (r00Loc d ↦[tileSet c i.val]{fullShare} f : sProp 𝕄)) f0
  have e1 : ∀ c : ℕ, (bigSep Finset.univ fun i : Fin 16 => (r01Loc d ↦[tileSet c i.val]{fullShare} f1 : sProp 𝕄))
      ⊢ bigSep Finset.univ fun i : Fin 16 => iprop(∃ f, r01Loc d ↦[tileSet c i.val]{fullShare} f) :=
    fun c => bigSep_mono fun i _ => exists_intro (Φ := fun f => (r01Loc d ↦[tileSet c i.val]{fullShare} f : sProp 𝕄)) f1
  isplitl [Hin0 H00 H10]
  · iframe Hin0
    isplitl [H00]
    · iapply (e0 0); iexact H00
    · iapply (e1 0); iexact H10
  · iframe Hin1
    isplitl [H01]
    · iapply (e0 1); iexact H01
    · iapply (e1 1); iexact H11

theorem dn0_eq :
    (bigSep Finset.univ fun c : Fin ((K (F := F)).nCore (0 : Fin 2)) => (P X).dn (0 : Fin 2) d c)
      ⊢ (iprop((obj0Loc d ↦{fullShare} X.obj0 d) ∗ (siLoc d ↦{fullShare} X.si d) ∗ (oiLoc d ↦{fullShare} X.oi d)
      ∗ (r00Loc d ↦{fullShare} gath0 d (X.obj0 d) (X.si d)) ∗ (r01Loc d ↦{fullShare} gath0 d (X.obj0 d) (X.oi d))) : sProp 𝕄) := by
  show (bigSep (Finset.univ : Finset (Fin 2)) fun c => dn0 X d c.val) ⊢ _
  rw [bigSep_univ_two]
  show iprop(dn0 X d 0 ∗ dn0 X d 1) ⊢ _
  unfold dn0
  iintro ⟨⟨Hin0, H00, H10⟩, ⟨Hin1, H01, H11⟩⟩
  ihave Hin := (ins0_cores X d).2 $$ [Hin0 Hin1]
  · isplitl [Hin0] <;> iassumption
  icases Hin with ⟨Ho, Hs, Hi⟩
  iframe Ho Hs Hi
  isplitl [H00 H01]
  · iapply (Entails.of_eq (r00_rows d _).symm); isplitl [H00] <;> iassumption
  · iapply (Entails.of_eq (r01_rows d _).symm); isplitl [H10] <;> iassumption

end Splits

section VecSplit

variable (X : GIn F) (d : Dev nD)

theorem ins0_tiles (q : PosShare TreeShare) :
    (ins0 X d q : sProp 𝕄)
      ⊣⊢ iprop(ins0 X d (Transfers.shareDrop q 16) ∗ bigSep Finset.univ fun i : Fin 16 => ins0 X d (Transfers.shareTokN q i.val)) := by
  unfold ins0; rw [bigSep_sep', bigSep_sep']
  have ho := Transfers.pointsTo_toks (Val := Elt F) (Ix := HIx 2) (Name := ℕ) (U := UU) (Lvl := ℕ) (ℓ := obj0Loc d) (S := Finset.univ) (f := X.obj0 d) q 16
  have hs := Transfers.pointsTo_toks (Val := Elt F) (Ix := HIx 2) (Name := ℕ) (U := UU) (Lvl := ℕ) (ℓ := siLoc d) (S := Finset.univ) (f := X.si d) q 16
  have hi := Transfers.pointsTo_toks (Val := Elt F) (Ix := HIx 2) (Name := ℕ) (U := UU) (Lvl := ℕ) (ℓ := oiLoc d) (S := Finset.univ) (f := X.oi d) q 16
  constructor
  · iintro ⟨Ho, Hs, Hi⟩
    ihave Ho' := ho.1 $$ Ho; icases Ho' with ⟨Ho1, Ho2⟩
    ihave Hs' := hs.1 $$ Hs; icases Hs' with ⟨Hs1, Hs2⟩
    ihave Hi' := hi.1 $$ Hi; icases Hi' with ⟨Hi1, Hi2⟩
    iframe
  · iintro ⟨⟨Ho1, Hs1, Hi1⟩, ⟨Ho2, Hs2, Hi2⟩⟩
    isplitl [Ho1 Ho2]; · iapply ho.2; isplitl [Ho1] <;> iassumption
    isplitl [Hs1 Hs2]; · iapply hs.2; isplitl [Hs1] <;> iassumption
    iapply hi.2; isplitl [Hi1] <;> iassumption

theorem vecSplit0 : (K (F := F)).VecSplit' (P X) (0 : Fin 2) := by
  intro d c
  show st0 X d c.val ⊢ |={Set.univ}=> iprop((bigSep (Finset.univ : Finset (Fin 16)) fun i => go0 X d c.val i.val)
      ∗ ((bigSep (Finset.univ : Finset (Fin 16)) fun i => td0 X d c.val i.val) -∗ dn0 X d c.val))
  unfold st0 go0 td0 dn0
  rw [bigSep_sep', bigSep_sep', bigSep_sep', bigSep_sep']
  iintro ⟨Hin, H0, H1⟩
  ihave Hin' := (ins0_tiles X d (coreShare c.val)).1 $$ Hin
  icases Hin' with ⟨Hrem, Htoks⟩
  imodintro
  isplitl [Htoks H0 H1]
  · iframe
  iintro ⟨Htoks, H0, H1⟩
  isplitl [Hrem Htoks]
  · iapply (ins0_tiles X d (coreShare c.val)).2; iframe
  iframe

end VecSplit

end Cert.Proof.KB

end
-- ==== Proof.KB.Split1.lean ====
/- The first gather call's arrays split among the 32 tiles and joined again. -/
import proofs.«215230_g44530220925728_cont_8to1c4_163_46_alg».proof.Proof.KB.Tiles

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 2) (Elt F) ℕ UU ℕ

section Splits

variable (X : GIn F) (d : Dev nD)

theorem r10_rows (f : Buf (Elt F) (r10Loc d)) :
    (r10Loc d ↦{fullShare} f : sProp 𝕄)
      = iprop((bigSep Finset.univ fun i : Fin 16 => r10Loc d ↦[tileSet 0 i.val]{fullShare} f)
          ∗ (bigSep Finset.univ fun i : Fin 16 => r10Loc d ↦[tileSet 1 i.val]{fullShare} f)) := by
  have h := pointsTo_biUnion (Val := Elt F) (Ix := HIx 2) (Name := ℕ) (U := UU) (Lvl := ℕ) (ℓ := r10Loc d) (q := fullShare) (f := f)
    (Finset.univ : Finset (Fin 2 × Fin 16)) (fun p => tileSet p.1.val p.2.val) tileSets_disjoint
  rw [tileSets_cover, bigSep_univ_prod, bigSep_univ_two] at h
  exact h
theorem r11_rows (f : Buf (Elt F) (r11Loc d)) :
    (r11Loc d ↦{fullShare} f : sProp 𝕄)
      = iprop((bigSep Finset.univ fun i : Fin 16 => r11Loc d ↦[tileSet 0 i.val]{fullShare} f)
          ∗ (bigSep Finset.univ fun i : Fin 16 => r11Loc d ↦[tileSet 1 i.val]{fullShare} f)) := by
  have h := pointsTo_biUnion (Val := Elt F) (Ix := HIx 2) (Name := ℕ) (U := UU) (Lvl := ℕ) (ℓ := r11Loc d) (q := fullShare) (f := f)
    (Finset.univ : Finset (Fin 2 × Fin 16)) (fun p => tileSet p.1.val p.2.val) tileSets_disjoint
  rw [tileSets_cover, bigSep_univ_prod, bigSep_univ_two] at h
  exact h

theorem ins1_cores :
    (iprop((obj1Loc d ↦{fullShare} X.obj1 d) ∗ (siLoc d ↦{fullShare} X.si d) ∗ (oiLoc d ↦{fullShare} X.oi d)) : sProp 𝕄)
      ⊣⊢ iprop(ins1 X d (coreShare 0) ∗ ins1 X d (coreShare 1)) := by
  unfold ins1; rw [coreShare_zero, coreShare_one]
  have ho := pointsTo_share (Val := Elt F) (Ix := HIx 2) (Name := ℕ) (U := UU) (Lvl := ℕ) (ℓ := obj1Loc d) (I := Finset.univ) (f := X.obj1 d) (PosShare.mem_left_op_right fullShare)
  have hs := pointsTo_share (Val := Elt F) (Ix := HIx 2) (Name := ℕ) (U := UU) (Lvl := ℕ) (ℓ := siLoc d) (I := Finset.univ) (f := X.si d) (PosShare.mem_left_op_right fullShare)
  have hi := pointsTo_share (Val := Elt F) (Ix := HIx 2) (Name := ℕ) (U := UU) (Lvl := ℕ) (ℓ := oiLoc d) (I := Finset.univ) (f := X.oi d) (PosShare.mem_left_op_right fullShare)
  constructor
  · iintro ⟨Ho, Hs, Hi⟩
    ihave Ho' := ho.1 $$ Ho; icases Ho' with ⟨Ho1, Ho2⟩
    ihave Hs' := hs.1 $$ Hs; icases Hs' with ⟨Hs1, Hs2⟩
    ihave Hi' := hi.1 $$ Hi; icases Hi' with ⟨Hi1, Hi2⟩
    iframe
  · iintro ⟨⟨Ho1, Hs1, Hi1⟩, ⟨Ho2, Hs2, Hi2⟩⟩
    isplitl [Ho1 Ho2]; · iapply ho.2; isplitl [Ho1] <;> iassumption
    isplitl [Hs1 Hs2]; · iapply hs.2; isplitl [Hs1] <;> iassumption
    iapply hi.2; isplitl [Hi1] <;> iassumption

theorem st1_eq :
    (iprop((obj1Loc d ↦{fullShare} X.obj1 d) ∗ (siLoc d ↦{fullShare} X.si d) ∗ (oiLoc d ↦{fullShare} X.oi d)
      ∗ (∃ f, r10Loc d ↦{fullShare} f) ∗ (∃ f, r11Loc d ↦{fullShare} f)) : sProp 𝕄)
      ⊢ bigSep Finset.univ fun c : Fin ((K (F := F)).nCore (1 : Fin 2)) => (P X).st (1 : Fin 2) d c := by
  show _ ⊢ bigSep (Finset.univ : Finset (Fin 2)) fun c => st1 X d c.val
  rw [bigSep_univ_two]
  show _ ⊢ iprop(st1 X d 0 ∗ st1 X d 1)
  unfold st1
  iintro ⟨Ho, Hs, Hi, ⟨%f0, H0⟩, ⟨%f1, H1⟩⟩
  ihave Hin := (ins1_cores X d).1 $$ [Ho Hs Hi]
  · iframe
  icases Hin with ⟨Hin0, Hin1⟩
  ihave H0' := (Entails.of_eq (r10_rows d f0)) $$ H0
  icases H0' with ⟨H00, H01⟩
  ihave H1' := (Entails.of_eq (r11_rows d f1)) $$ H1
  icases H1' with ⟨H10, H11⟩
  have e0 : ∀ c : ℕ, (bigSep Finset.univ fun i : Fin 16 => (r10Loc d ↦[tileSet c i.val]{fullShare} f0 : sProp 𝕄))
      ⊢ bigSep Finset.univ fun i : Fin 16 => iprop(∃ f, r10Loc d ↦[tileSet c i.val]{fullShare} f) :=
    fun c => bigSep_mono fun i _ => exists_intro (Φ := fun f => (r10Loc d ↦[tileSet c i.val]{fullShare} f : sProp 𝕄)) f0
  have e1 : ∀ c : ℕ, (bigSep Finset.univ fun i : Fin 16 => (r11Loc d ↦[tileSet c i.val]{fullShare} f1 : sProp 𝕄))
      ⊢ bigSep Finset.univ fun i : Fin 16 => iprop(∃ f, r11Loc d ↦[tileSet c i.val]{fullShare} f) :=
    fun c => bigSep_mono fun i _ => exists_intro (Φ := fun f => (r11Loc d ↦[tileSet c i.val]{fullShare} f : sProp 𝕄)) f1
  isplitl [Hin0 H00 H10]
  · iframe Hin0
    isplitl [H00]
    · iapply (e0 0); iexact H00
    · iapply (e1 0); iexact H10
  · iframe Hin1
    isplitl [H01]
    · iapply (e0 1); iexact H01
    · iapply (e1 1); iexact H11

theorem dn1_eq :
    (bigSep Finset.univ fun c : Fin ((K (F := F)).nCore (1 : Fin 2)) => (P X).dn (1 : Fin 2) d c)
      ⊢ (iprop((obj1Loc d ↦{fullShare} X.obj1 d) ∗ (siLoc d ↦{fullShare} X.si d) ∗ (oiLoc d ↦{fullShare} X.oi d)
      ∗ (r10Loc d ↦{fullShare} gath1 d (X.obj1 d) (X.si d)) ∗ (r11Loc d ↦{fullShare} gath1 d (X.obj1 d) (X.oi d))) : sProp 𝕄) := by
  show (bigSep (Finset.univ : Finset (Fin 2)) fun c => dn1 X d c.val) ⊢ _
  rw [bigSep_univ_two]
  show iprop(dn1 X d 0 ∗ dn1 X d 1) ⊢ _
  unfold dn1
  iintro ⟨⟨Hin0, H00, H10⟩, ⟨Hin1, H01, H11⟩⟩
  ihave Hin := (ins1_cores X d).2 $$ [Hin0 Hin1]
  · isplitl [Hin0] <;> iassumption
  icases Hin with ⟨Ho, Hs, Hi⟩
  iframe Ho Hs Hi
  isplitl [H00 H01]
  · iapply (Entails.of_eq (r10_rows d _).symm); isplitl [H00] <;> iassumption
  · iapply (Entails.of_eq (r11_rows d _).symm); isplitl [H10] <;> iassumption

end Splits

section VecSplit

variable (X : GIn F) (d : Dev nD)

theorem ins1_tiles (q : PosShare TreeShare) :
    (ins1 X d q : sProp 𝕄)
      ⊣⊢ iprop(ins1 X d (Transfers.shareDrop q 16) ∗ bigSep Finset.univ fun i : Fin 16 => ins1 X d (Transfers.shareTokN q i.val)) := by
  unfold ins1; rw [bigSep_sep', bigSep_sep']
  have ho := Transfers.pointsTo_toks (Val := Elt F) (Ix := HIx 2) (Name := ℕ) (U := UU) (Lvl := ℕ) (ℓ := obj1Loc d) (S := Finset.univ) (f := X.obj1 d) q 16
  have hs := Transfers.pointsTo_toks (Val := Elt F) (Ix := HIx 2) (Name := ℕ) (U := UU) (Lvl := ℕ) (ℓ := siLoc d) (S := Finset.univ) (f := X.si d) q 16
  have hi := Transfers.pointsTo_toks (Val := Elt F) (Ix := HIx 2) (Name := ℕ) (U := UU) (Lvl := ℕ) (ℓ := oiLoc d) (S := Finset.univ) (f := X.oi d) q 16
  constructor
  · iintro ⟨Ho, Hs, Hi⟩
    ihave Ho' := ho.1 $$ Ho; icases Ho' with ⟨Ho1, Ho2⟩
    ihave Hs' := hs.1 $$ Hs; icases Hs' with ⟨Hs1, Hs2⟩
    ihave Hi' := hi.1 $$ Hi; icases Hi' with ⟨Hi1, Hi2⟩
    iframe
  · iintro ⟨⟨Ho1, Hs1, Hi1⟩, ⟨Ho2, Hs2, Hi2⟩⟩
    isplitl [Ho1 Ho2]; · iapply ho.2; isplitl [Ho1] <;> iassumption
    isplitl [Hs1 Hs2]; · iapply hs.2; isplitl [Hs1] <;> iassumption
    iapply hi.2; isplitl [Hi1] <;> iassumption

theorem vecSplit1 : (K (F := F)).VecSplit' (P X) (1 : Fin 2) := by
  intro d c
  show st1 X d c.val ⊢ |={Set.univ}=> iprop((bigSep (Finset.univ : Finset (Fin 16)) fun i => go1 X d c.val i.val)
      ∗ ((bigSep (Finset.univ : Finset (Fin 16)) fun i => td1 X d c.val i.val) -∗ dn1 X d c.val))
  unfold st1 go1 td1 dn1
  rw [bigSep_sep', bigSep_sep', bigSep_sep', bigSep_sep']
  iintro ⟨Hin, H0, H1⟩
  ihave Hin' := (ins1_tiles X d (coreShare c.val)).1 $$ Hin
  icases Hin' with ⟨Hrem, Htoks⟩
  imodintro
  isplitl [Htoks H0 H1]
  · iframe
  iintro ⟨Htoks, H0, H1⟩
  isplitl [Hrem Htoks]
  · iapply (ins1_tiles X d (coreShare c.val)).2; iframe
  iframe

end VecSplit

end Cert.Proof.KB

end
-- ==== Proof.KB.Calls.lean ====
/- The two gather calls as steps of @main. -/
import proofs.«215230_g44530220925728_cont_8to1c4_163_46_alg».proof.Proof.KB.Vals
import proofs.«215230_g44530220925728_cont_8to1c4_163_46_alg».proof.Proof.KB.Keep
import proofs.«215230_g44530220925728_cont_8to1c4_163_46_alg».proof.Proof.KB.Split0
import proofs.«215230_g44530220925728_cont_8to1c4_163_46_alg».proof.Proof.KB.Split1

noncomputable section

namespace Cert.Proof.KB

open Cert.Kernel Cert.Kernel.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The five buffers of a gather call: the table, the two index columns, the two results. -/
abbrev S5 (o s i r0 r1 : Ref sig .tc) : Finset (DevRef τ sig) := {dr o, dr s, dr i, dr r0, dr r1}

/-- A gather call as a step of the fold: its five buffers leave the unscoped buffers at `V` and come back with the two
    results at `v0 v1`; `V'` is `V` with the results so changed, and every other buffer is as at `V`. -/
theorem wp_call (X : GIn F) (κ : GSem nD τ sig → ℕ) (d : Dev nD) (Φ : PUnit → sProp 𝕄) (q : Fin 2) (o s i r0 r1 : Ref sig .tc)
    (V V' : Valuation τ sig (Elt F)) (v0 : Buf (Elt F) ((SparseCore.T d).loc r0)) (v1 : Buf (Elt F) ((SparseCore.T d).loc r1))
    (hsub : S5 o s i r0 r1 ⊆ Pipeline.ucRefs τ sig)
    (hd : dr o ∉ ({dr s, dr i, dr r0, dr r1} : Finset (DevRef τ sig)) ∧ dr s ∉ ({dr i, dr r0, dr r1} : Finset (DevRef τ sig))
      ∧ dr i ∉ ({dr r0, dr r1} : Finset (DevRef τ sig)) ∧ dr r0 ∉ ({dr r1} : Finset (DevRef τ sig)))
    (e0 : V' (dr r0) = v0) (e1 : V' (dr r1) = v1) (en : ∀ b : DevRef τ sig, b ≠ dr r0 → b ≠ dr r1 → V' b = V b)
    (hst : (iprop((((SparseCore.T d).loc o ↦{fullShare} V (dr o)) ∗ ((SparseCore.T d).loc s ↦{fullShare} V (dr s)) ∗ ((SparseCore.T d).loc i ↦{fullShare} V (dr i))
        ∗ (∃ f, (SparseCore.T d).loc r0 ↦{fullShare} f) ∗ (∃ f, (SparseCore.T d).loc r1 ↦{fullShare} f))) : sProp 𝕄)
      ⊢ bigSep Finset.univ fun c : Fin ((K (F := F)).nCore q) => (P X).st q d c)
    (hdn : (bigSep Finset.univ fun c : Fin ((K (F := F)).nCore q) => (P X).dn q d c)
      ⊢ (iprop((((SparseCore.T d).loc o ↦{fullShare} V (dr o)) ∗ ((SparseCore.T d).loc s ↦{fullShare} V (dr s)) ∗ ((SparseCore.T d).loc i ↦{fullShare} V (dr i))
        ∗ ((SparseCore.T d).loc r0 ↦{fullShare} v0) ∗ ((SparseCore.T d).loc r1 ↦{fullShare} v1))) : sProp 𝕄)) :
    iprop((K (F := F)).ctx EH (P X) κ ∗ (K (F := F)).tcSt EH d q.val ∗ StableHlo.held (SparseCore.T d) (Pipeline.ucRefs τ sig) V
        ∗ (iprop((K (F := F)).tcSt EH d (q.val + 1) ∗ StableHlo.held (SparseCore.T d) (Pipeline.ucRefs τ sig) V') -∗ Φ ⟨⟩))
      ⊢ wp frame (wpE ((K (F := F)).defs (D (F := F))) 𝒱 (SparseCore.T d) none) Set.univ ((K (F := F)).run d q) Φ := by
  obtain ⟨h1, h2, h3, h4⟩ := hd
  have held5 : ∀ W : Valuation τ sig (Elt F), (StableHlo.held (SparseCore.T d) (S5 o s i r0 r1) W : sProp 𝕄)
      = iprop((((SparseCore.T d).loc o ↦{fullShare} W (dr o)) ∗ ((SparseCore.T d).loc s ↦{fullShare} W (dr s)) ∗ ((SparseCore.T d).loc i ↦{fullShare} W (dr i))
        ∗ ((SparseCore.T d).loc r0 ↦{fullShare} W (dr r0)) ∗ ((SparseCore.T d).loc r1 ↦{fullShare} W (dr r1)))) := fun W => by
    unfold StableHlo.held S5
    rw [SparseCore.bigSep_insert' h1, SparseCore.bigSep_insert' h2, SparseCore.bigSep_insert' h3, SparseCore.bigSep_insert' h4, bigSep_singleton]
  rw [StableHlo.held_sub_split (SparseCore.T d) hsub V, StableHlo.held_sub_split (SparseCore.T d) hsub V', held5, held5, e0, e1,
    en (dr o) (fun e => h1 (by rw [e]; simp)) (fun e => h1 (by rw [e]; simp)),
    en (dr s) (fun e => h2 (by rw [e]; simp)) (fun e => h2 (by rw [e]; simp)),
    en (dr i) (fun e => h3 (by rw [e]; simp)) (fun e => h3 (by rw [e]; simp)),
    show (StableHlo.held (SparseCore.T d) (Pipeline.ucRefs τ sig \ S5 o s i r0 r1) V' : sProp 𝕄)
        = StableHlo.held (SparseCore.T d) (Pipeline.ucRefs τ sig \ S5 o s i r0 r1) V from
      bigSep_congr fun b hb => by
        have hb' := (Finset.mem_sdiff.mp hb).2
        rw [en b (fun e => hb' (by rw [e]; simp [S5])) (fun e => hb' (by rw [e]; simp [S5]))]]
  iintro ⟨#Hctx, Hst, ⟨⟨Ho, Hs, Hi, Hr0, Hr1⟩, Hrest⟩, Hk⟩
  iapply ((K (F := F)).wp_run (D (F := F)) 𝒱 (EH := EH) (P := P X) κ d q) $$ [Hst Ho Hs Hi Hr0 Hr1 Hrest Hk]
  isplitr; · iexact Hctx
  isplitl [Hst]; · iexact Hst
  isplitl [Ho Hs Hi Hr0 Hr1]
  · iapply hst
    isplitl [Ho]; · iexact Ho
    isplitl [Hs]; · iexact Hs
    isplitl [Hi]; · iexact Hi
    isplitl [Hr0]; · iexists _; iexact Hr0
    iexists _; iexact Hr1
  iintro ⟨Hst, Hdn⟩
  ihave Hdn' := hdn $$ Hdn
  icases Hdn' with ⟨Ho, Hs, Hi, Hr0, Hr1⟩
  iapply Hk
  isplitl [Hst]; · iexact Hst
  isplitl [Ho Hs Hi Hr0 Hr1]
  · isplitl [Ho]; · iexact Ho
    isplitl [Hs]; · iexact Hs
    isplitl [Hi]; · iexact Hi
    isplitl [Hr0]; · iexact Hr0
    iexact Hr1
  iexact Hrest

variable (m : (ℓ : Loc nD τ sig) → Buf (Elt F) ℓ)

theorem W2_of_ne (c : Dev nD) (b : DevRef τ sig) (h0 : b ≠ dr main_v4_0) (h1 : b ≠ dr main_v4_1) : W2 m c b = W1 m c b := by
  unfold W2; rw [Function.update_of_ne h1, Function.update_of_ne h0]

theorem W7_of_ne (c : Dev nD) (b : DevRef τ sig) (h0 : b ≠ dr main_v14_0) (h1 : b ≠ dr main_v14_1) : W7 m c b = W6 m c b := by
  unfold W7; rw [Function.update_of_ne h1, Function.update_of_ne h0]

theorem wp_call0 (X : GIn F) (κ : GSem nD τ sig → ℕ) (d : Dev nD) (Φ : PUnit → sProp 𝕄)
    (hobj : X.obj0 d = W1 m d (dr main_arg0)) (hsi : X.si d = W1 m d (dr main_v1)) (hoi : X.oi d = W1 m d (dr main_v3)) :
    iprop((K (F := F)).ctx EH (P X) κ ∗ (K (F := F)).tcSt EH d 0 ∗ StableHlo.held (SparseCore.T d) (Pipeline.ucRefs τ sig) (W1 m d)
        ∗ (iprop((K (F := F)).tcSt EH d 1 ∗ StableHlo.held (SparseCore.T d) (Pipeline.ucRefs τ sig) (W2 m d)) -∗ Φ ⟨⟩))
      ⊢ wp frame (wpE ((K (F := F)).defs (D (F := F))) 𝒱 (SparseCore.T d) none) Set.univ ((K (F := F)).run d 0) Φ :=
  wp_call X κ d Φ 0 main_arg0 main_v1 main_v3 main_v4_0 main_v4_1 (W1 m d) (W2 m d) _ _ (by decide) (by decide)
    (keep2_r0 m d) (keep2_r1 m d) (W2_of_ne m d) (by rw [← hobj, ← hsi, ← hoi]; exact st0_eq X d) (by rw [← hobj, ← hsi, ← hoi]; exact dn0_eq X d)

theorem wp_call1 (X : GIn F) (κ : GSem nD τ sig → ℕ) (d : Dev nD) (Φ : PUnit → sProp 𝕄)
    (hobj : X.obj1 d = W6 m d (dr main_v13)) (hsi : X.si d = W6 m d (dr main_v1)) (hoi : X.oi d = W6 m d (dr main_v3)) :
    iprop((K (F := F)).ctx EH (P X) κ ∗ (K (F := F)).tcSt EH d 1 ∗ StableHlo.held (SparseCore.T d) (Pipeline.ucRefs τ sig) (W6 m d)
        ∗ (iprop((K (F := F)).tcSt EH d 2 ∗ StableHlo.held (SparseCore.T d) (Pipeline.ucRefs τ sig) (W7 m d)) -∗ Φ ⟨⟩))
      ⊢ wp frame (wpE ((K (F := F)).defs (D (F := F))) 𝒱 (SparseCore.T d) none) Set.univ ((K (F := F)).run d 1) Φ :=
  wp_call X κ d Φ 1 main_v13 main_v1 main_v3 main_v14_0 main_v14_1 (W6 m d) (W7 m d) _ _ (by decide) (by decide)
    (keep7_r0 m d) (keep7_r1 m d) (W7_of_ne m d) (by rw [← hobj, ← hsi, ← hoi]; exact st1_eq X d) (by rw [← hobj, ← hsi, ← hoi]; exact dn1_eq X d)

end Cert.Proof.KB

end
-- ==== Proof.KB.RegionStep.lean ====
/- One TensorCore region as a step of @main under the launch. -/
import proofs.«215230_g44530220925728_cont_8to1c4_163_46_alg».proof.Proof.KB.Host

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 2) (Elt F) ℕ UU ℕ

variable (pdats : (p : Fin 4) → (c : Dev nD) → Pipeline.Dat τ (Elt F) (HIx 2) ℕ UU ℕ (Pipeline.pin (pcfgs (F := F)) adm p) c)

theorem regionCall_eq (p : Fin 4) :
    (regionCall (F := F) p) = SparseCore.liftProg (Prog.lift (.customCall (Pipeline.entry p) ()) : Prog (TpuEff nD τ sig (Elt F) (ΛP (F := F)) .tc) PUnit) := rfl

set_option backward.isDefEq.respectTransparency.types false in

theorem wp_region {p : Fin 4} (R : Pipeline.RegionSeg (pcfgs (F := F)) adm pdats (none : HIx 2) defs₀ 𝒱₀ (K (F := F)).L (K (F := F)).lev p) (d : Dev nD)
    (k : PUnit → Prog (TpuEff nD τ sig (Elt F) (SparseCore.Sig (ΛP (F := F)) 2) .tc) PUnit) (Φ : PUnit → sProp 𝕄) :
    iprop((iprop(boundary (SparseCore.T d) ∗ R.post d) -∗ wp frame (wpE ((K (F := F)).defs (D (F := F))) 𝒱 (SparseCore.T d) none) Set.univ (k ⟨⟩) Φ)
        ∗ boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ (regionCall p >>= k) Φ := by
  rw [wp_bind, regionCall_eq]
  have hret : wp frame (wpE ((K (F := F)).defs (D (F := F))) 𝒱 (SparseCore.T d) none) Set.univ (k ⟨⟩) Φ
      ⊢ wp frame (wpE (D (F := F)) 𝒱 (SparseCore.T d) none) Set.univ
          (.ret ⟨⟩ : Prog (TpuEff nD τ sig (Elt F) (ΛP (F := F)) .tc) PUnit)
          (fun a => wp frame (wpE ((K (F := F)).defs (D (F := F))) 𝒱 (SparseCore.T d) none) Set.univ (k a) Φ) := by
    rw [wp_ret]
    iintro H; imodintro; iexact H
  have h := Pipeline.RegionSeg.wp (pcfgs (F := F)) adm pdats (none : HIx 2) cellOf_inj (EP (F := F)) defs₀ 𝒱₀ (K (F := F)).L (K (F := F)).lev R d none
    (fun _ h => absurd h (Option.not_mem_none _)) (fun _ => .ret ⟨⟩)
    (fun a => wp frame (wpE ((K (F := F)).defs (D (F := F))) 𝒱 (SparseCore.T d) none) Set.univ (k a) Φ)
  exact ((sep_mono_l (wand_mono_right hret)).trans h).trans
    ((K (F := F)).wp_liftProg (D (F := F)) 𝒱 (SparseCore.T d) Set.univ none _ _)

end Cert.Proof.KB

end
-- ==== Proof.KB.RegLemmas.lean ====
/- What every region of @main shares: what the TensorCore still owes passes through a region unchanged. -/
import proofs.«215230_g44530220925728_cont_8to1c4_163_46_alg».proof.Proof.KB.Vals
import proofs.«215230_g44530220925728_cont_8to1c4_163_46_alg».proof.Proof.KB.RegionStep

noncomputable section

namespace Cert.Proof.KB

open Cert.Kernel Cert.Kernel.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 2) (Elt F) ℕ UU ℕ

def Ow (n : ℕ) (c : Dev nD) : sProp 𝕄 :=
  iprop(∃ W, ⌜(K (F := F)).WBelow (SparseCore.T c) W (8 * n)⌝ ∗ owes (SparseCore.T c) ((K (F := F)).Otc c n) W)

omit [FloatOps F] in

theorem Otc_none (c : Dev nD) (n : ℕ) (g : GSem nD τ sig) : (K (F := F)).Otc c n g none = 0 := by
  by_contra h
  have := SparseCore.Cfg.lev_of_Otc_pos (K := K (F := F)) (Nat.pos_of_ne_zero h); rw [SparseCore.Cfg.lev_none] at this; omega

section Family

variable (pdats : (p : Fin 4) → (c : Dev nD) → Dat τ (Elt F) (HIx 2) ℕ UU ℕ (Pipeline.pin (pcfgs (F := F)) adm p) c)

theorem hwaits_at (p : Fin 4) (n : ℕ) (c : Dev nD) (howed : ∀ t, (pdats p c).owed t = (K (F := F)).Otc c n) :
    (levAts (K (F := F)).L (K (F := F)).lev : sProp 𝕄) ⊢ Pipeline.cellsWaits (Pipeline.pin (pcfgs (F := F)) adm) pdats (none : HIx 2) p c :=
  Pipeline.cellsWaits_intro (Pipeline.pin (pcfgs (F := F)) adm) pdats (none : HIx 2) p c fun w s t => by
    rw [howed t]
    exact (K (F := F)).mayWait_none _ (fun g => Otc_none c n g)

theorem Ow_owesAt (p : Fin 4) (n : ℕ) (c : Dev nD) (t : Fin ((Pipeline.pin (pcfgs (F := F)) adm p).N + 1))
    (howed : ∀ t, (pdats p c).owed t = (K (F := F)).Otc c n) (hrec : ∀ t, (pdats p c).recorded t = Bat (F := F) n c) :
    Ow (F := F) n c ⊢ (pdats p c).owesAt (none : HIx 2) t := by
  unfold Ow Pipeline.Dat.owesAt Pipeline.owesWithin
  iintro ⟨%W, %hW, HO⟩
  iexists W; isplitr
  · ipureintro; intro x hx; refine Or.inl ?_; rw [hrec t]; exact hW x hx
  · rw [howed t]; iexact HO

theorem owesAt_Ow (p : Fin 4) (n : ℕ) (c : Dev nD) (t : Fin ((Pipeline.pin (pcfgs (F := F)) adm p).N + 1))
    (howed : ∀ t, (pdats p c).owed t = (K (F := F)).Otc c n) (hrec : ∀ t, (pdats p c).recorded t = Bat (F := F) n c) :
    (pdats p c).owesAt (none : HIx 2) t ⊢ Ow (F := F) n c := by
  unfold Ow Pipeline.Dat.owesAt Pipeline.owesWithin
  iintro ⟨%W, %hW, HO⟩
  iexists W; isplitr
  · ipureintro; intro x hx
    rcases hW hx with h | ⟨w, s, rfl⟩
    · rw [hrec t] at h; exact h
    · show (K (F := F)).lev _ none ≤ _; rw [SparseCore.Cfg.lev_none]; exact Nat.zero_le _
  · rw [howed t]; iexact HO

end Family

end Cert.Proof.KB

end
-- ==== Proof.KB.Reg0.lean ====
/- The first layer's edge network as a region of @main. -/
import proofs.«215230_g44530220925728_cont_8to1c4_163_46_alg».proof.Proof.KB.RegLemmas
import Idealize.ShloMosaic.Lib.Pipeline.RegionsLoop

noncomputable section

namespace Cert.Proof.KB

open Cert.Kernel Cert.Kernel.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 2) (Elt F) ℕ UU ℕ

variable (m : (ℓ : Loc nD τ sig) → Buf (Elt F) ℓ)

theorem W4_arr (c : Dev nD) (w : Fin cfg1.W) :
    W4 m c (Proc.devRef .tc (Pipeline.arrRef spec1 w)) = (dat1 (V3 m) (Oat (F := F) 1) (Bat (F := F) 1) Rinv1 c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF0 (c : Dev nD) (w : Fin cfg1.W) : (pdats m 0 c).arrAt w cfg1.N = W4 m c (Proc.devRef .tc (Pipeline.arrRef spec1 w)) :=
  (W4_arr m c w).symm
theorem hrest0 (c : Dev nD) : ∀ b : Ref sig .tc, b ∉ Finset.univ.image (Pipeline.arrRef spec1) → W4 m c (Proc.devRef .tc b) = W3 m c (Proc.devRef .tc b) :=
  fun b hb => W4_of_ne m c b fun w e => hb (Finset.mem_image.mpr ⟨w, Finset.mem_univ _, e⟩)

set_option backward.isDefEq.respectTransparency.types false in
def reg0 : Pipeline.RegionSeg (pcfgs (F := F)) adm (pdats m) (none : HIx 2) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation1 (V3 m) (Oat (F := F) 1) (Bat (F := F) 1) Rinv1 c).loose
  hwaits c := hwaits_at (F := F) (pdats m) 0 1 c (fun _ => rfl)
  pre c := iprop(StableHlo.held (c : Thread nD τ) (Pipeline.ucRefs τ sig) (W3 m c) ∗ Ow (F := F) 1 c)
  post c := iprop(StableHlo.held (c : Thread nD τ) (Pipeline.ucRefs τ sig) (W4 m c) ∗ Ow (F := F) 1 c)
  X c := iprop(emp)
  Y c := iprop(emp)
  Z c := Pipeline.unscopedRest (Ix := HIx 2) (Name := ℕ) (U := UU) (Lvl := ℕ) spec1 c (V3 m c)
  hentry c := by
    rw [Pipeline.ownSems0_none]
    have hsplit := Pipeline.arrays_of_unscopedBufs (p := 0) (pcfgs (F := F)) adm (pdats m) launch1.win launch1.arr_whole c
      ((pdats m 0 c).share_full fun _ => rfl) (V3 m c) fun _ => rfl
    rw [Pipeline.unscopedBufs_held] at hsplit
    iintro ⟨⟨Hub, HO⟩, -, -⟩
    ihave H := hsplit $$ Hub
    icases H with ⟨Ha, Hrest⟩
    imodintro
    iframe Ha
    isplitr; · unfold Pipeline.prefHeld; rw [show (Finset.univ : Finset (Fin 0)) = ∅ from rfl, BI.bigSep_empty]; iempintro
    isplitl [HO]
    · iapply (Ow_owesAt (F := F) (pdats m) 0 1 c 0 (fun _ => rfl) (fun _ => rfl)); iexact HO
    iframe
  hin c := by
    rw [show (pdats m 0 c).Φ 0 = Pipeline.scopedRest spec1 c from rfl]
    iintro ⟨-, -, Hr⟩
    iexact Hr
  hout c := by
    rw [Pipeline.ownSems0_none, show (pdats m 0 c).Φ (Fin.last _) = Pipeline.scopedRest spec1 c from rfl]
    iintro Hr
    iframe; iempintro
  hexit c := by
    have hjoin := Pipeline.unscopedBufs_of_arrays (p := 0) (pcfgs (F := F)) adm (Ix := HIx 2) (Name := ℕ) (U := UU) (Lvl := ℕ)
      launch1.win launch1.arr_whole c (pdats m) ((pdats m 0 c).share_full fun _ => rfl)
      (V3 m c) (fun b => W4 m c b) ((pdats m 0 c).arrAt · cfg1.N) (hF0 m c) (hrest0 m c)
    rw [Pipeline.unscopedBufs_held] at hjoin
    iintro ⟨Ha, HO, -, Hrest⟩
    imodintro
    isplitl [Ha Hrest]
    · iapply hjoin; iframe
    iapply (owesAt_Ow (F := F) (pdats m) 0 1 c (Fin.last _) (fun _ => rfl) (fun _ => rfl)); iexact HO

end Cert.Proof.KB

end
-- ==== Proof.KB.Reg1.lean ====
/- The first layer's node network as a region of @main. -/
import proofs.«215230_g44530220925728_cont_8to1c4_163_46_alg».proof.Proof.KB.RegLemmas
import Idealize.ShloMosaic.Lib.Pipeline.RegionsLoop

noncomputable section

namespace Cert.Proof.KB

open Cert.Kernel Cert.Kernel.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 2) (Elt F) ℕ UU ℕ

variable (m : (ℓ : Loc nD τ sig) → Buf (Elt F) ℓ)

theorem W6_arr (c : Dev nD) (w : Fin cfg2.W) :
    W6 m c (Proc.devRef .tc (Pipeline.arrRef spec2 w)) = (dat2 (V5 m) (Oat (F := F) 1) (Bat (F := F) 1) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF1 (c : Dev nD) (w : Fin cfg2.W) : (pdats m 1 c).arrAt w cfg2.N = W6 m c (Proc.devRef .tc (Pipeline.arrRef spec2 w)) :=
  (W6_arr m c w).symm
theorem hrest1 (c : Dev nD) : ∀ b : Ref sig .tc, b ∉ Finset.univ.image (Pipeline.arrRef spec2) → W6 m c (Proc.devRef .tc b) = W5 m c (Proc.devRef .tc b) :=
  fun b hb => W6_of_ne m c b fun w e => hb (Finset.mem_image.mpr ⟨w, Finset.mem_univ _, e⟩)

set_option backward.isDefEq.respectTransparency.types false in
def reg1 : Pipeline.RegionSeg (pcfgs (F := F)) adm (pdats m) (none : HIx 2) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := body_obligationLoose2 (V5 m) (Oat (F := F) 1) (Bat (F := F) 1) c
  hwaits c := hwaits_at (F := F) (pdats m) 1 1 c (fun _ => rfl)
  pre c := iprop(StableHlo.held (c : Thread nD τ) (Pipeline.ucRefs τ sig) (W5 m c) ∗ Ow (F := F) 1 c)
  post c := iprop(StableHlo.held (c : Thread nD τ) (Pipeline.ucRefs τ sig) (W6 m c) ∗ Ow (F := F) 1 c)
  X c := X2 (F := F) c
  Y c := Y2 (F := F) c
  Z c := Pipeline.unscopedRest (Ix := HIx 2) (Name := ℕ) (U := UU) (Lvl := ℕ) spec2 c (V5 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V5 m c) fun _ => rfl
    rw [Pipeline.unscopedBufs_held] at hsplit
    iintro ⟨⟨Hub, HO⟩, -, -⟩
    ihave H := hsplit $$ Hub
    icases H with ⟨Ha, Hrest⟩
    imodintro
    iframe Ha
    isplitr; · unfold Pipeline.prefHeld; rw [show (Finset.univ : Finset (Fin 0)) = ∅ from rfl, BI.bigSep_empty]; iempintro
    isplitl [HO]
    · iapply (Ow_owesAt (F := F) (pdats m) 1 1 c 0 (fun _ => rfl) (fun _ => rfl)); iexact HO
    isplitr; · unfold X2; iempintro
    iexact Hrest
  hin c := hin2 (V5 m) (Oat (F := F) 1) (Bat (F := F) 1) c _
  hout c := hout2 (V5 m) (Oat (F := F) 1) (Bat (F := F) 1) c
  hexit c := by
    have hjoin := Pipeline.unscopedBufs_of_arrays (p := 1) (pcfgs (F := F)) adm (Ix := HIx 2) (Name := ℕ) (U := UU) (Lvl := ℕ)
      launch2.win launch2.arr_whole c (pdats m) ((pdats m 1 c).share_full fun _ => rfl)
      (V5 m c) (fun b => W6 m c b) ((pdats m 1 c).arrAt · cfg2.N) (hF1 m c) (hrest1 m c)
    rw [Pipeline.unscopedBufs_held] at hjoin
    iintro ⟨Ha, HO, -, Hrest⟩
    imodintro
    isplitl [Ha Hrest]
    · iapply hjoin; iframe
    iapply (owesAt_Ow (F := F) (pdats m) 1 1 c (Fin.last _) (fun _ => rfl) (fun _ => rfl)); iexact HO

end Cert.Proof.KB

end
-- ==== Proof.KB.Reg2.lean ====
/- The second layer's edge network as a region of @main. -/
import proofs.«215230_g44530220925728_cont_8to1c4_163_46_alg».proof.Proof.KB.RegLemmas
import Idealize.ShloMosaic.Lib.Pipeline.RegionsLoop

noncomputable section

namespace Cert.Proof.KB

open Cert.Kernel Cert.Kernel.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 2) (Elt F) ℕ UU ℕ

variable (m : (ℓ : Loc nD τ sig) → Buf (Elt F) ℓ)

theorem W9_arr (c : Dev nD) (w : Fin cfg4.W) :
    W9 m c (Proc.devRef .tc (Pipeline.arrRef spec4 w)) = (dat4 (V8 m) (Oat (F := F) 2) (Bat (F := F) 2) Rinv4 c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
theorem hF2 (c : Dev nD) (w : Fin cfg4.W) : (pdats m 2 c).arrAt w cfg4.N = W9 m c (Proc.devRef .tc (Pipeline.arrRef spec4 w)) :=
  (W9_arr m c w).symm
theorem hrest2 (c : Dev nD) : ∀ b : Ref sig .tc, b ∉ Finset.univ.image (Pipeline.arrRef spec4) → W9 m c (Proc.devRef .tc b) = W8 m c (Proc.devRef .tc b) :=
  fun b hb => W9_of_ne m c b fun w e => hb (Finset.mem_image.mpr ⟨w, Finset.mem_univ _, e⟩)

set_option backward.isDefEq.respectTransparency.types false in
def reg2 : Pipeline.RegionSeg (pcfgs (F := F)) adm (pdats m) (none : HIx 2) defs₀ 𝒱₀ (K (F := F)).L (K (F := F)).lev 2 where
  win := launch4.win.to₀
  block_pos := launch4.block_pos
  stage_whole := launch4.stage_whole
  K := PEmpty
  osem k := k.elim
  ho := Pipeline.OwnSemFacts.none _
  hbody c := (body_obligation4 (V8 m) (Oat (F := F) 2) (Bat (F := F) 2) Rinv4 c).loose
  hwaits c := hwaits_at (F := F) (pdats m) 2 2 c (fun _ => rfl)
  pre c := iprop(StableHlo.held (c : Thread nD τ) (Pipeline.ucRefs τ sig) (W8 m c) ∗ Ow (F := F) 2 c)
  post c := iprop(StableHlo.held (c : Thread nD τ) (Pipeline.ucRefs τ sig) (W9 m c) ∗ Ow (F := F) 2 c)
  X c := iprop(emp)
  Y c := iprop(emp)
  Z c := Pipeline.unscopedRest (Ix := HIx 2) (Name := ℕ) (U := UU) (Lvl := ℕ) spec4 c (V8 m c)
  hentry c := by
    rw [Pipeline.ownSems0_none]
    have hsplit := Pipeline.arrays_of_unscopedBufs (p := 2) (pcfgs (F := F)) adm (pdats m) launch4.win launch4.arr_whole c
      ((pdats m 2 c).share_full fun _ => rfl) (V8 m c) fun _ => rfl
    rw [Pipeline.unscopedBufs_held] at hsplit
    iintro ⟨⟨Hub, HO⟩, -, -⟩
    ihave H := hsplit $$ Hub
    icases H with ⟨Ha, Hrest⟩
    imodintro
    iframe Ha
    isplitr; · unfold Pipeline.prefHeld; rw [show (Finset.univ : Finset (Fin 0)) = ∅ from rfl, BI.bigSep_empty]; iempintro
    isplitl [HO]
    · iapply (Ow_owesAt (F := F) (pdats m) 2 2 c 0 (fun _ => rfl) (fun _ => rfl)); iexact HO
    iframe
  hin c := by
    rw [show (pdats m 2 c).Φ 0 = Pipeline.scopedRest spec4 c from rfl]
    iintro ⟨-, -, Hr⟩
    iexact Hr
  hout c := by
    rw [Pipeline.ownSems0_none, show (pdats m 2 c).Φ (Fin.last _) = Pipeline.scopedRest spec4 c from rfl]
    iintro Hr
    iframe; iempintro
  hexit c := by
    have hjoin := Pipeline.unscopedBufs_of_arrays (p := 2) (pcfgs (F := F)) adm (Ix := HIx 2) (Name := ℕ) (U := UU) (Lvl := ℕ)
      launch4.win launch4.arr_whole c (pdats m) ((pdats m 2 c).share_full fun _ => rfl)
      (V8 m c) (fun b => W9 m c b) ((pdats m 2 c).arrAt · cfg4.N) (hF2 m c) (hrest2 m c)
    rw [Pipeline.unscopedBufs_held] at hjoin
    iintro ⟨Ha, HO, -, Hrest⟩
    imodintro
    isplitl [Ha Hrest]
    · iapply hjoin; iframe
    iapply (owesAt_Ow (F := F) (pdats m) 2 2 c (Fin.last _) (fun _ => rfl) (fun _ => rfl)); iexact HO

end Cert.Proof.KB

end
-- ==== Proof.KB.Reg3.lean ====
/- The second layer's node network as a region of @main. -/
import proofs.«215230_g44530220925728_cont_8to1c4_163_46_alg».proof.Proof.KB.RegLemmas
import Idealize.ShloMosaic.Lib.Pipeline.RegionsLoop

noncomputable section

namespace Cert.Proof.KB

open Cert.Kernel Cert.Kernel.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 2) (Elt F) ℕ UU ℕ

variable (m : (ℓ : Loc nD τ sig) → Buf (Elt F) ℓ)

theorem W11_arr (c : Dev nD) (w : Fin cfg5.W) :
    W11 m c (Proc.devRef .tc (Pipeline.arrRef spec5 w)) = (dat5 (V10 m) (Oat (F := F) 2) (Bat (F := F) 2) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m c (Proc.devRef .tc b) = W10 m c (Proc.devRef .tc b) := by
  unfold W11; exact Pipeline.withArrays_of_ne spec5 c _ _ b hb
theorem hF3 (c : Dev nD) (w : Fin cfg5.W) : (pdats m 3 c).arrAt w cfg5.N = W11 m c (Proc.devRef .tc (Pipeline.arrRef spec5 w)) :=
  (W11_arr m c w).symm
theorem hrest3 (c : Dev nD) : ∀ b : Ref sig .tc, b ∉ Finset.univ.image (Pipeline.arrRef spec5) → W11 m c (Proc.devRef .tc b) = W10 m c (Proc.devRef .tc b) :=
  fun b hb => W11_of_ne m c b fun w e => hb (Finset.mem_image.mpr ⟨w, Finset.mem_univ _, e⟩)

set_option backward.isDefEq.respectTransparency.types false in
def reg3 : Pipeline.RegionSeg (pcfgs (F := F)) adm (pdats m) (none : HIx 2) defs₀ 𝒱₀ (K (F := F)).L (K (F := F)).lev 3 where
  win := launch5.win.to₀
  block_pos := launch5.block_pos
  stage_whole := launch5.stage_whole
  K := PEmpty
  osem k := k.elim
  ho := Pipeline.OwnSemFacts.none _
  hbody c := body_obligationLoose5 (V10 m) (Oat (F := F) 2) (Bat (F := F) 2) c
  hwaits c := hwaits_at (F := F) (pdats m) 3 2 c (fun _ => rfl)
  pre c := iprop(StableHlo.held (c : Thread nD τ) (Pipeline.ucRefs τ sig) (W10 m c) ∗ Ow (F := F) 2 c)
  post c := iprop(StableHlo.held (c : Thread nD τ) (Pipeline.ucRefs τ sig) (W11 m c) ∗ Ow (F := F) 2 c)
  X c := X5 (F := F) c
  Y c := Y5 (F := F) c
  Z c := Pipeline.unscopedRest (Ix := HIx 2) (Name := ℕ) (U := UU) (Lvl := ℕ) spec5 c (V10 m c)
  hentry c := by
    rw [Pipeline.ownSems0_none]
    have hsplit := Pipeline.arrays_of_unscopedBufs (p := 3) (pcfgs (F := F)) adm (pdats m) launch5.win launch5.arr_whole c
      ((pdats m 3 c).share_full fun _ => rfl) (V10 m c) fun _ => rfl
    rw [Pipeline.unscopedBufs_held] at hsplit
    iintro ⟨⟨Hub, HO⟩, -, -⟩
    ihave H := hsplit $$ Hub
    icases H with ⟨Ha, Hrest⟩
    imodintro
    iframe Ha
    isplitr; · unfold Pipeline.prefHeld; rw [show (Finset.univ : Finset (Fin 0)) = ∅ from rfl, BI.bigSep_empty]; iempintro
    isplitl [HO]
    · iapply (Ow_owesAt (F := F) (pdats m) 3 2 c 0 (fun _ => rfl) (fun _ => rfl)); iexact HO
    isplitr; · unfold X5; iempintro
    iexact Hrest
  hin c := hin5 (V10 m) (Oat (F := F) 2) (Bat (F := F) 2) c _
  hout c := hout5 (V10 m) (Oat (F := F) 2) (Bat (F := F) 2) c
  hexit c := by
    have hjoin := Pipeline.unscopedBufs_of_arrays (p := 3) (pcfgs (F := F)) adm (Ix := HIx 2) (Name := ℕ) (U := UU) (Lvl := ℕ)
      launch5.win launch5.arr_whole c (pdats m) ((pdats m 3 c).share_full fun _ => rfl)
      (V10 m c) (fun b => W11 m c b) ((pdats m 3 c).arrAt · cfg5.N) (hF3 m c) (hrest3 m c)
    rw [Pipeline.unscopedBufs_held] at hjoin
    iintro ⟨Ha, HO, -, Hrest⟩
    imodintro
    isplitl [Ha Hrest]
    · iapply hjoin; iframe
    iapply (owesAt_Ow (F := F) (pdats m) 3 2 c (Fin.last _) (fun _ => rfl) (fun _ => rfl)); iexact HO

end Cert.Proof.KB

end
-- ==== Proof.KB.Launch0.lean ====
/- The launch element of the ghost state. -/
import proofs.«215230_g44530220925728_cont_8to1c4_163_46_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable [FloatOps F]

def G (d : Dev nD) : sProp 𝕄 :=
  iprop((bigSep Finset.univ fun p : Fin 4 => Pipeline.cellsGhost (Pipeline.pin (pcfgs (F := F)) adm) EP p d)
    ∗ (bigSep Finset.univ fun p : Fin 4 => (Pipeline.toksInit (Pipeline.pin (pcfgs (F := F)) adm) EP p d : sProp 𝕄)))

def u₀ : UU :=
  (initOf (K (F := F)).hsCells (K (F := F)).hsToks,
    (initOf (Pipeline.cells (nD := nD) (τ := τ) cfgs cellOf_inj) (Pipeline.launchToks (nD := nD) (τ := τ) cfgs cellOf_inj), 1))

omit [FloatOps F] in
theorem bigSep_emp' {I : Type} (s : Finset I) : (bigSep s fun _ => iprop(emp)) = (iprop(emp) : sProp 𝕄) := bigSep_emp_const s

theorem hu₀ (Px : Fin 2 → Thread nD τ → sProp 𝕄) (hx : ∀ q thr, Px q thr = iprop(emp)) :
    (ownU (u₀ (F := F)) : sProp 𝕄)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 2 => Px q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  have hfund := Pipeline.fund_ghost (Ix := HIx 2) (Val := Elt F) (Name := ℕ) (U := UU) (Lvl := ℕ) (nD := nD) (τ := τ) cfgs (EP (F := F)) cellOf_inj
  unfold EP at hfund
  imod hfund $$ HP with HG
  icases HG with ⟨Hc, Ht⟩
  imodintro
  isplitl [HH]; · iexact HH
  isplitl [Hc Ht]
  · unfold G EP
    rw [bigSep_sep']
    isplitl [Hc]; · iexact Hc
    iexact Ht
  · rw [show (bigSep Finset.univ fun thr : Thread nD τ => bigSep Finset.univ fun q : Fin 2 => Px q thr) = (iprop(emp) : sProp 𝕄) from by
      rw [bigSep_congr fun thr _ => (bigSep_congr fun q _ => hx q thr).trans (bigSep_emp' _), bigSep_emp']]
    iempintro

end Cert.Proof.KB

end
-- ==== Proof.KB.Main.lean ====
/- @main on a device's TensorCore under the launch: six host stretches, two gather calls, four regions. -/
import proofs.«215230_g44530220925728_cont_8to1c4_163_46_alg».proof.Proof.KB.Calls
import proofs.«215230_g44530220925728_cont_8to1c4_163_46_alg».proof.Proof.KB.Reg0
import proofs.«215230_g44530220925728_cont_8to1c4_163_46_alg».proof.Proof.KB.Reg1
import proofs.«215230_g44530220925728_cont_8to1c4_163_46_alg».proof.Proof.KB.Reg2
import proofs.«215230_g44530220925728_cont_8to1c4_163_46_alg».proof.Proof.KB.Reg3
import proofs.«215230_g44530220925728_cont_8to1c4_163_46_alg».proof.Proof.KB.Launch0
import proofs.«215230_g44530220925728_cont_8to1c4_163_46_alg».proof.Proof.KB.Keep

noncomputable section

namespace Cert.Proof.KB

open Cert.Kernel Cert.Kernel.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 2) (Elt F) ℕ UU ℕ

variable (m : (ℓ : Loc nD τ sig) → Buf (Elt F) ℓ) (ρ : Dev nD → PrngReg)

abbrev FIN (d : Dev nD) : sProp 𝕄 := StableHlo.held (SparseCore.T d) (Pipeline.ucRefs τ sig) (W12 m d)

omit [FloatOps F] [∀ e, Nonempty (Elt F e)] in

theorem tcSt_open (d : Dev nD) (n : ℕ) :
    (K (F := F)).tcSt EH d n ⊢ iprop(Ow (F := F) n d ∗ (Ow (F := F) n d -∗ (K (F := F)).tcSt EH d n)) := by
  unfold SparseCore.Cfg.tcSt Ow
  iintro ⟨HO, Hr⟩
  isplitl [HO]; · iexact HO
  iintro HO
  isplitl [HO]; · iexact HO
  iexact Hr

theorem wp_stretch (d : Dev nD) (ops : List (HloOp τ sig (Elt F))) (hsub : ops.Forall fun op => op.bufs ⊆ StableHlo.tcRefs τ sig)
    (hfresh : ops.Forall fun op => op.fresh = ∅) (W : Valuation τ sig (Elt F))
    (k : PUnit → Prog (TpuEff nD τ sig (Elt F) (SparseCore.Sig (ΛP (F := F)) 2) .tc) PUnit) (Φ : PUnit → sProp 𝕄) :
    iprop(boundary (SparseCore.T d) ∗ StableHlo.held (SparseCore.T d) (Pipeline.ucRefs τ sig) W
        ∗ (iprop(boundary (SparseCore.T d) ∗ StableHlo.held (SparseCore.T d) (Pipeline.ucRefs τ sig) (StableHlo.after ops W))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (StableHlo.seq ops >>= k) Φ := by
  have hseq := StableHlo.wp_seq (defs := (K (F := F)).defs (D (F := F))) 𝒱 none Set.univ d (Pipeline.ucRefs τ sig) k (K := Φ) ops
    (fun op h => Pipeline.sub_ucRefs op ((List.forall_iff_forall_mem.mp hsub) op h))
    (fun op h => (List.forall_iff_forall_mem.mp hfresh) op h) W
  iintro ⟨Hb, Hh, Hk⟩
  iapply hseq $$ [Hb Hh]
  · isplitl [Hb] <;> iassumption
  iexact Hk

theorem wp_reg (X : GIn F) (κ : GSem nD τ sig → ℕ) (d : Dev nD) {p : Fin 4} (n : ℕ) (Win Wout : Valuation τ sig (Elt F))
    (R : Pipeline.RegionSeg (pcfgs (F := F)) adm (pdats m) (none : HIx 2) defs₀ 𝒱₀ (K (F := F)).L (K (F := F)).lev p)
    (hpre : R.pre d = iprop(StableHlo.held (SparseCore.T d) (Pipeline.ucRefs τ sig) Win ∗ Ow (F := F) n d))
    (hpost : R.post d = iprop(StableHlo.held (SparseCore.T d) (Pipeline.ucRefs τ sig) Wout ∗ Ow (F := F) n d))
    (k : PUnit → Prog (TpuEff nD τ sig (Elt F) (SparseCore.Sig (ΛP (F := F)) 2) .tc) PUnit) (Φ : PUnit → sProp 𝕄) :
    iprop((K (F := F)).ctx EH (P X) κ ∗ (K (F := F)).tcSt EH d n ∗ boundary (SparseCore.T d)
        ∗ StableHlo.held (SparseCore.T d) (Pipeline.ucRefs τ sig) Win
        ∗ Pipeline.cellsGhost (Pipeline.pin (pcfgs (F := F)) adm) EP p d ∗ Pipeline.toksInit (Pipeline.pin (pcfgs (F := F)) adm) EP p d
        ∗ (iprop((K (F := F)).tcSt EH d n ∗ boundary (SparseCore.T d) ∗ StableHlo.held (SparseCore.T d) (Pipeline.ucRefs τ sig) Wout)
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (regionCall p >>= k) Φ := by
  iintro ⟨#Hctx, Hst, Hb, Hh, Hc, Ht, Hk⟩
  ihave Hlev := (SparseCore.Cfg.ctx_levAts κ) $$ Hctx
  ihave Hs := (tcSt_open (F := F) d n) $$ Hst
  icases Hs with ⟨HO, Hcl⟩
  iapply (wp_region (pdats m) R d k Φ) $$ [Hk Hcl Hb Hh HO Hlev Hc Ht]
  isplitl [Hk Hcl]
  · rw [hpost]
    iintro ⟨Hb, Hh, HO⟩
    iapply Hk
    isplitl [Hcl HO]; · iapply Hcl; iexact HO
    isplitl [Hb] <;> iassumption
  isplitl [Hb]; · iexact Hb
  isplitl [Hh HO]; · rw [hpre]; isplitl [Hh] <;> iassumption
  isplitl [Hlev]; · iexact Hlev
  isplitl [Hc] <;> iassumption

omit [FloatOps F] [∀ e, Nonempty (Elt F e)] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

theorem hmain (κ : GSem nD τ sig → ℕ) (d : Dev nD) :
    iprop((K (F := F)).ctx EH (P (X m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d) := by
  rw [main_eq]
  unfold SparseCore.Cfg.tcRes G
  rw [bigSep_fin4, bigSep_fin4, Pipeline.unscopedBufs_held d (W0 m d)]
  iintro ⟨#Hctx, Hst, ⟨Hb, Hh, -, -⟩, ⟨Hc0, Hc1, Hc2, Hc3⟩, ⟨Ht0, Ht1, Ht2, Ht3⟩⟩

  iapply (wp_stretch d opsA opsA_sub opsA_fresh (W0 m d) _ _) $$ [Hb Hh Hst Hc0 Hc1 Hc2 Hc3 Ht0 Ht1 Ht2 Ht3]
  isplitl [Hb]; · iexact Hb
  isplitl [Hh]; · iexact Hh
  iintro ⟨Hb, Hh⟩

  rw [wp_bind]
  iapply (wp_call0 m (X m) κ d _ rfl rfl rfl) $$ [Hb Hh Hst Hc0 Hc1 Hc2 Hc3 Ht0 Ht1 Ht2 Ht3]
  isplitr; · iexact Hctx
  isplitl [Hst]; · iexact Hst
  isplitl [Hh]; · iexact Hh
  iintro ⟨Hst, Hh⟩

  iapply (wp_stretch d opsB opsB_sub opsB_fresh (W2 m d) _ _) $$ [Hb Hh Hst Hc0 Hc1 Hc2 Hc3 Ht0 Ht1 Ht2 Ht3]
  isplitl [Hb]; · iexact Hb
  isplitl [Hh]; · iexact Hh
  iintro ⟨Hb, Hh⟩

  iapply (wp_reg m (X m) κ d 1 (W3 m d) (W4 m d) (reg0 m) rfl rfl _ _) $$ [Hb Hh Hst Hc0 Hc1 Hc2 Hc3 Ht0 Ht1 Ht2 Ht3]
  isplitr; · iexact Hctx
  isplitl [Hst]; · iexact Hst
  isplitl [Hb]; · iexact Hb
  isplitl [Hh]; · iexact Hh
  isplitl [Hc0]; · iexact Hc0
  isplitl [Ht0]; · iexact Ht0
  iintro ⟨Hst, Hb, Hh⟩
  iapply (wp_stretch d opsC opsC_sub opsC_fresh (W4 m d) _ _) $$ [Hb Hh Hst Hc1 Hc2 Hc3 Ht1 Ht2 Ht3]
  isplitl [Hb]; · iexact Hb
  isplitl [Hh]; · iexact Hh
  iintro ⟨Hb, Hh⟩

  iapply (wp_reg m (X m) κ d 1 (W5 m d) (W6 m d) (reg1 m) rfl rfl _ _) $$ [Hb Hh Hst Hc1 Hc2 Hc3 Ht1 Ht2 Ht3]
  isplitr; · iexact Hctx
  isplitl [Hst]; · iexact Hst
  isplitl [Hb]; · iexact Hb
  isplitl [Hh]; · iexact Hh
  isplitl [Hc1]; · iexact Hc1
  isplitl [Ht1]; · iexact Ht1
  iintro ⟨Hst, Hb, Hh⟩

  rw [wp_bind]
  iapply (wp_call1 m (X m) κ d _ rfl (W6_v1 m d) (W6_v3 m d)) $$ [Hb Hh Hst Hc2 Hc3 Ht2 Ht3]
  isplitr; · iexact Hctx
  isplitl [Hst]; · iexact Hst
  isplitl [Hh]; · iexact Hh
  iintro ⟨Hst, Hh⟩
  iapply (wp_stretch d opsD opsD_sub opsD_fresh (W7 m d) _ _) $$ [Hb Hh Hst Hc2 Hc3 Ht2 Ht3]
  isplitl [Hb]; · iexact Hb
  isplitl [Hh]; · iexact Hh
  iintro ⟨Hb, Hh⟩

  iapply (wp_reg m (X m) κ d 2 (W8 m d) (W9 m d) (reg2 m) rfl rfl _ _) $$ [Hb Hh Hst Hc2 Hc3 Ht2 Ht3]
  isplitr; · iexact Hctx
  isplitl [Hst]; · iexact Hst
  isplitl [Hb]; · iexact Hb
  isplitl [Hh]; · iexact Hh
  isplitl [Hc2]; · iexact Hc2
  isplitl [Ht2]; · iexact Ht2
  iintro ⟨Hst, Hb, Hh⟩
  iapply (wp_stretch d opsE opsE_sub opsE_fresh (W9 m d) _ _) $$ [Hb Hh Hst Hc3 Ht3]
  isplitl [Hb]; · iexact Hb
  isplitl [Hh]; · iexact Hh
  iintro ⟨Hb, Hh⟩

  iapply (wp_reg m (X m) κ d 2 (W10 m d) (W11 m d) (reg3 m) rfl rfl _ _) $$ [Hb Hh Hst Hc3 Ht3]
  isplitr; · iexact Hctx
  isplitl [Hst]; · iexact Hst
  isplitl [Hb]; · iexact Hb
  isplitl [Hh]; · iexact Hh
  isplitl [Hc3]; · iexact Hc3
  isplitl [Ht3]; · iexact Ht3
  iintro ⟨Hst, Hb, Hh⟩

  rw [show (StableHlo.seq (opsF (F := F)) : Prog (TpuEff nD τ sig (Elt F) (SparseCore.Sig (ΛP (F := F)) 2) .tc) PUnit)
      = StableHlo.seq opsF >>= fun _ => pure ⟨⟩ from (bind_pure _).symm]
  iapply (wp_stretch d opsF opsF_sub opsF_fresh (W11 m d) _ _) $$ [Hb Hh Hst]
  isplitl [Hb]; · iexact Hb
  isplitl [Hh]; · iexact Hh
  iintro ⟨-, Hh⟩
  rw [wp_pure]
  imodintro
  isplitl [Hst]; · iexact Hst
  iexact Hh

end Cert.Proof.KB

end
-- ==== Proof.KB.Gather0.lean ====
/- One tile's task in the first gather call: 125 trips of 80 rows, under the invariant that the rows written so far are the table's rows at the indices. -/
import proofs.«215230_g44530220925728_cont_8to1c4_163_46_alg».proof.Proof.KB.Pay
import Idealize.ShloMosaic.Lib.SparseCore.Launch
import Idealize.ShloMosaic.Lib.SparseCore.Ops
import Idealize.ShloMosaic.Lib.SparseCore.Stream
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 2) (Elt F) ℕ UU ℕ
namespace G0

variable [FloatOps F]

abbrev nObj : ℕ := S10000x128.size 0
abbrev cV (L : grid0.Coords) : Fin τ.nSC := (L 0).castLE hcore0
abbrev jV (L : grid0.Coords) : Fin τ.nSub := (L 1).castLE hsub0

abbrev objV : Memref sig .scVector .hbm S10000x128 .f32 := Memref.whole main_arg0_scv
abbrev siV : Memref sig .scVector .hbm S320000 .i32 := Memref.whole main_v1_scv
abbrev oiV : Memref sig .scVector .hbm S320000 .i32 := Memref.whole main_v3_scv
abbrev r0V : Memref sig .scVector .hbm S320000x128 .f32 := Memref.whole main_v4_0_scv
abbrev r1V : Memref sig .scVector .hbm S320000x128 .f32 := Memref.whole main_v4_1_scv
abbrev sI : Memref sig .scVector .vmem S80 .i32 := Memref.whole cc0_scratch0
abbrev sR : Memref sig .scVector .vmem S80x128 .f32 := Memref.whole cc0_scratch1

variable (X : GIn F) (d : Dev nD) (L : grid0.Coords)

abbrev thr : Thread nD τ := V d (cV L) (jV L)

abbrev cG : GSem nD τ sig := (thr d L, .dma cc0_scratch2.sem)
abbrev c0 : GSem nD τ sig := (thr d L, .dma cc0_scoped0.sem)
abbrev c1 : GSem nD τ sig := (thr d L, .dma cc0_scoped1.sem)
abbrev c2 : GSem nD τ sig := (thr d L, .dma cc0_scoped2.sem)
abbrev c3 : GSem nD τ sig := (thr d L, .dma cc0_scoped3.sem)

omit [FloatOps F] in
theorem pts_obj (q : PosShare TreeShare) (f : Buf (Elt F) (obj0Loc d)) :
    ((objV).view.loc (thr d L) ↦{q} f : sProp 𝕄) = obj0Loc d ↦{q} f := rfl
omit [FloatOps F] in
theorem pts_si (q : PosShare TreeShare) (f : Buf (Elt F) (siLoc d)) :
    ((siV).view.loc (thr d L) ↦{q} f : sProp 𝕄) = siLoc d ↦{q} f := rfl
omit [FloatOps F] in
theorem pts_oi (q : PosShare TreeShare) (f : Buf (Elt F) (oiLoc d)) :
    ((oiV).view.loc (thr d L) ↦{q} f : sProp 𝕄) = oiLoc d ↦{q} f := rfl

omit [FloatOps F] in
theorem cell_ne {a b : DmaSem sig} (h : a ≠ b) : ((thr d L, SemLoc.dma a) : GSem nD τ sig) ≠ (thr d L, SemLoc.dma b) :=
  fun e => h (by injection e with _ e; injection e)

omit [FloatOps F] in
theorem cell_mem (a : DmaSem sig) (h : (SemLoc.dma a : SemLoc sig).isScoped .scVector = true) :
    ((thr d L, SemLoc.dma a) : GSem nD τ sig) ∈ ownCells (thr d L) := (mem_ownCells (g := (thr d L, SemLoc.dma a))).mpr ⟨rfl, h⟩

omit [FloatOps F] in
theorem ownSems0_V :
    (ownSems0 (thr d L) : sProp 𝕄)
      = iprop(semVal (cG d L) 0 ∗ semVal (c0 d L) 0 ∗ semVal (c1 d L) 0 ∗ semVal (c2 d L) 0 ∗ semVal (c3 d L) 0
          ∗ bigSep (((((ownCells (thr d L)).erase (cG d L)).erase (c0 d L)).erase (c1 d L)).erase (c2 d L) |>.erase (c3 d L)) fun g => semVal g 0) := by
  unfold SparseCore.Cfg.ownSems0
  have mG := cell_mem d L cc0_scratch2.sem (by decide)
  have m0 := cell_mem d L cc0_scoped0.sem (by decide)
  have m1 := cell_mem d L cc0_scoped1.sem (by decide)
  have m2 := cell_mem d L cc0_scoped2.sem (by decide)
  have m3 := cell_mem d L cc0_scoped3.sem (by decide)
  rw [SparseCore.bigSep_erase' mG,
    SparseCore.bigSep_erase' (Finset.mem_erase.mpr ⟨cell_ne d L (by decide), m0⟩),
    SparseCore.bigSep_erase' (Finset.mem_erase.mpr ⟨cell_ne d L (by decide), Finset.mem_erase.mpr ⟨cell_ne d L (by decide), m1⟩⟩),
    SparseCore.bigSep_erase' (Finset.mem_erase.mpr ⟨cell_ne d L (by decide), Finset.mem_erase.mpr ⟨cell_ne d L (by decide), Finset.mem_erase.mpr ⟨cell_ne d L (by decide), m2⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), m3⟩⟩⟩⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

abbrev siK (k : Fin k0_t1_loop.trips) : Memref sig .scVector .hbm S80 .i32 :=
  (siV).slice (Rect.unit (s := S320000) (k0_off1 L k) S80.size (k0_off1_inb L k)) (fun _ => rfl)
abbrev oiK (k : Fin k0_t1_loop.trips) : Memref sig .scVector .hbm S80 .i32 :=
  (oiV).slice (Rect.unit (s := S320000) (k0_off1 L k) S80.size (k0_off1_inb L k)) (fun _ => rfl)
abbrev r0K (k : Fin k0_t1_loop.trips) : Memref sig .scVector .hbm S80x128 .f32 :=
  (r0V).slice (Rect.unit (s := S320000x128) (k0_off2 L k) S80x128.size (k0_off2_inb L k)) (fun _ => rfl)
abbrev r1K (k : Fin k0_t1_loop.trips) : Memref sig .scVector .hbm S80x128 .f32 :=
  (r1V).slice (Rect.unit (s := S320000x128) (k0_off2 L k) S80x128.size (k0_off2_inb L k)) (fun _ => rfl)
abbrev objK : Memref sig .scVector .hbm S10000x128 .f32 :=
  (objV).slice (Rect.unit (s := S10000x128) ![0, 0] S10000x128.size inb_S10000x128_S10000x128_0_0) (fun _ => rfl)

def Done (idx : Buf (Elt F) (siLoc d)) (f : Buf (Elt F) (r00Loc d)) (k : ℕ) : Prop :=
  ∀ j ∈ tileSet (L 0).val (L 1).val, (j 0).val < 20000 * (L 1).val + 10000 * (L 0).val + 80 * k → f j = gath0 d (X.obj0 d) idx j

def inv (O : CellTallies nD τ sig (HIx 2)) (W : Waits sig (HIx 2)) (k : Nat) (_ : PUnit) : sProp 𝕄 :=
  iprop(Transfers.MayWaits (thr d L) (none : HIx 2) O
    ∗ ((objV).view.loc (thr d L) ↦{tileShare (L 0).val (L 1).val} X.obj0 d)
    ∗ ((siV).view.loc (thr d L) ↦{tileShare (L 0).val (L 1).val} X.si d)
    ∗ ((oiV).view.loc (thr d L) ↦{tileShare (L 0).val (L 1).val} X.oi d)
    ∗ (∃ f, ⌜Done X d L (X.si d) f k⌝ ∗ r00Loc d ↦[tileSet (L 0).val (L 1).val]{fullShare} f)
    ∗ (∃ f, ⌜Done X d L (X.oi d) f k⌝ ∗ r01Loc d ↦[tileSet (L 0).val (L 1).val]{fullShare} f)
    ∗ (∃ f, (sI).view.loc (thr d L) ↦{fullShare} f) ∗ (∃ f, (sR).view.loc (thr d L) ↦{fullShare} f)
    ∗ semVal (cG d L) 0 ∗ semVal (c0 d L) 0 ∗ semVal (c1 d L) 0 ∗ semVal (c2 d L) 0 ∗ semVal (c3 d L) 0
    ∗ ∃ W', ⌜∀ p ∈ W', p ∈ W ∨ p.2 = none⌝ ∗ owes (thr d L) O W')

omit [FloatOps F] in
theorem chunk_sub (k : Fin k0_t1_loop.trips) : (r0K L k).view.set ⊆ tileSet (L 0).val (L 1).val := by
  intro j hj
  have hk : k.val < 125 := Nat.lt_of_lt_of_le k.isLt k0_t1_abs.2.1
  rw [show (r0K L k).view.set = (Rect.unit (s := S320000x128) (k0_off2 L k) S80x128.size (k0_off2_inb L k)).set from View.set_slice_whole _ _,
    Rect.mem_set_unit] at hj
  have h0 := hj 0
  rw [k0_off2_eq] at h0
  rw [mem_tileSet]
  simp at h0
  omega

omit [FloatOps F] in
theorem inb_of (fs : Buf (Elt F) ((sI).view.loc (thr d L))) (pay : S80.Idx → Elt F .i32) (hpay : ∀ y, (pay y).toNat < nObj) :
    ∀ x, ((sI).view.read (Elt F) (View.write (Elt F) (sI).view fs pay Finset.univ) x).toNat < S10000x128.size gathers_S10000x128_S80x128.axis := by
  intro x
  rw [View.write_whole_univ]
  simp only [Memref.view_whole, View.read_whole]
  exact hpay x

abbrev bs (k : Fin k0_t1_loop.trips) : ℕ := 20000 * (L 1).val + 10000 * (L 0).val + 80 * k.val

omit [FloatOps F] in
theorem bs_lt (k : Fin k0_t1_loop.trips) {y : ℕ} (hy : y < 80) : bs L k + y < 320000 := by
  have hk : k.val < 125 := Nat.lt_of_lt_of_le k.isLt k0_t1_abs.2.1
  have h0 : (L 0).val < 2 := (L 0).isLt
  have h1 : (L 1).val < 16 := (L 1).isLt
  unfold bs; omega

abbrev rowAt (k : Fin k0_t1_loop.trips) (y : S80x128.Idx) : S320000x128.Idx :=
  ix2 (n0 := 320000) (n1 := 128) ⟨bs L k + (y 0).val, bs_lt L k (show (y 0).val < 80 from (y 0).isLt)⟩ (y 1)

abbrev idxAt (k : Fin k0_t1_loop.trips) (x : S80.Idx) : S320000.Idx :=
  ix1 (n := 320000) ⟨bs L k + (x 0).val, bs_lt L k (show (x 0).val < 80 from (x 0).isLt)⟩

omit [FloatOps F] in
theorem emb_r0K (k : Fin k0_t1_loop.trips) (y : S80x128.Idx) : (r0K L k).view.emb y = rowAt L k y := by
  funext a
  apply Fin.ext
  have h2 := k0_off2_eq L k
  match a with
  | ⟨0, _⟩ =>
    show k0_off2 L k 0 + 1 * (y 0).val = bs L k + (y 0).val
    rw [h2]; simp [bs]
  | ⟨1, _⟩ =>
    show k0_off2 L k 1 + 1 * (y 1).val = (y 1).val
    rw [h2]; simp
omit [FloatOps F] in
theorem emb_r1K (k : Fin k0_t1_loop.trips) (y : S80x128.Idx) : (r1K L k).view.emb y = rowAt L k y := emb_r0K L k y

omit [FloatOps F] in
theorem emb_siK (k : Fin k0_t1_loop.trips) (x : S80.Idx) : (siK L k).view.emb x = idxAt L k x := by
  funext a
  apply Fin.ext
  have h1 := k0_off1_eq L k
  match a with
  | ⟨0, _⟩ =>
    show k0_off1 L k 0 + 1 * (x 0).val = bs L k + (x 0).val
    rw [h1]; simp [bs]
omit [FloatOps F] in
theorem emb_oiK (k : Fin k0_t1_loop.trips) (x : S80.Idx) : (oiK L k).view.emb x = idxAt L k x := emb_siK L k x

omit [FloatOps F] in
theorem read_siK (k : Fin k0_t1_loop.trips) (idx : Buf (Elt F) (siLoc d)) (x : S80.Idx) :
    View.read (Elt F) (siK L k).view idx x = idx (idxAt L k x) := by
  rw [show View.read (Elt F) (siK L k).view idx x = idx ((siK L k).view.emb x) from (View.read_apply _ _).trans (cast_eq _ _), emb_siK]
omit [FloatOps F] in
theorem read_oiK (k : Fin k0_t1_loop.trips) (idx : Buf (Elt F) (oiLoc d)) (x : S80.Idx) :
    View.read (Elt F) (oiK L k).view idx x = idx (idxAt L k x) := by
  rw [show View.read (Elt F) (oiK L k).view idx x = idx ((oiK L k).view.emb x) from (View.read_apply _ _).trans (cast_eq _ _), emb_oiK]

theorem gather_val (k : Fin k0_t1_loop.trips) (idx : Buf (Elt F) (siLoc d)) (hidx : ∀ e, (idx e).toNat < nObj)
    (cur : S80.Idx → Elt F .i32) (hcur : ∀ x, cur x = idx (idxAt L k x))
    (hn : S80.numel = S80x128.size gathers_S10000x128_S80x128.axis')
    (hin : ∀ x, (cur x).toNat < S10000x128.size gathers_S10000x128_S80x128.axis) (y : S80x128.Idx) :
    SparseCore.gatherPayload gathers_S10000x128_S80x128 (View.read (Elt F) (objK).view (X.obj0 d)) (SparseCore.rows cur hn hin) y
      = gath0 d (X.obj0 d) idx (rowAt L k y) := by
  unfold SparseCore.gatherPayload
  rw [show ∀ z, View.read (Elt F) (objK).view (X.obj0 d) z = X.obj0 d ((objK).view.emb z) from fun z => (View.read_apply _ _).trans (cast_eq _ _)]
  rw [gath0_apply d (X.obj0 d) idx (rowAt L k y) (hidx _)]
  congr 1
  funext a
  apply Fin.ext
  match a with
  | ⟨0, h0⟩ =>
    have hx : ((S80.rowMajor.symm ((y gathers_S10000x128_S80x128.axis').cast hn.symm)) 0).val = (y 0).val := by
      have h := Shape.rowMajor_val_one (d := ![80]) (S80.rowMajor.symm ((y gathers_S10000x128_S80x128.axis').cast hn.symm))
      rw [Equiv.apply_symm_apply] at h
      exact h.symm
    show 0 + 1 * ((gathers_S10000x128_S80x128.idx (SparseCore.rows cur hn hin) y) ⟨0, h0⟩).val = (idx (ix1 (rowAt L k y 0))).toNat
    rw [show ((gathers_S10000x128_S80x128.idx (SparseCore.rows cur hn hin) y) ⟨0, h0⟩).val
        = (SparseCore.rows cur hn hin (y gathers_S10000x128_S80x128.axis')).val from by unfold Shape.Gathers.idx; rw [dif_pos rfl]; rfl]
    show 0 + 1 * (cur (S80.rowMajor.symm ((y gathers_S10000x128_S80x128.axis').cast hn.symm))).toNat = _
    rw [hcur, Nat.zero_add, Nat.one_mul]
    congr 2
    funext b
    match b with
    | ⟨0, _⟩ => exact Fin.ext (by show bs L k + _ = bs L k + (y 0).val; rw [hx])
  | ⟨1, h1⟩ =>
    show 0 + 1 * ((gathers_S10000x128_S80x128.idx (SparseCore.rows cur hn hin) y) ⟨1, h1⟩).val = (y 1).val
    rw [Shape.Gathers.idx_of_ne gathers_S10000x128_S80x128 _ y ⟨1, h1⟩ Nat.one_ne_zero, Nat.zero_add, Nat.one_mul]
    rfl

omit [FloatOps F] in
theorem mem_chunk (k : Fin k0_t1_loop.trips) (j : S320000x128.Idx) :
    j ∈ (r0K L k).view.set ↔ bs L k ≤ (j 0).val ∧ (j 0).val < bs L k + 80 := by
  rw [show (r0K L k).view.set = (Rect.unit (s := S320000x128) (k0_off2 L k) S80x128.size (k0_off2_inb L k)).set from View.set_slice_whole _ _,
    Rect.mem_set_unit]
  have h2 := k0_off2_eq L k
  constructor
  · intro h
    have h0 := h 0
    rw [h2] at h0
    simpa [bs] using h0
  · intro h a
    rw [h2]
    match a with
    | ⟨0, _⟩ => simpa [bs] using h
    | ⟨1, _⟩ => exact ⟨Nat.zero_le _, by simpa using (j 1).isLt⟩
omit [FloatOps F] in
theorem mem_chunk1 (k : Fin k0_t1_loop.trips) (j : S320000x128.Idx) :
    j ∈ (r1K L k).view.set ↔ bs L k ≤ (j 0).val ∧ (j 0).val < bs L k + 80 := mem_chunk L k j

omit [FloatOps F] in

theorem chunk_write0 (k : Fin k0_t1_loop.trips) (f0 : Buf (Elt F) (r00Loc d)) (w : S80x128.Idx → Elt F .f32) (y : S80x128.Idx) :
    ((r0K L k).view.writes (Elt F) f0 [⟨Rect.whole S80x128, w⟩]) ((r0K L k).view.emb y) = w y := by
  have h := View.read_writes_cons_emb (r0K L k).view f0 (Rect.whole S80x128) w [] y
  rw [Rect.emb_whole_apply] at h
  rw [← h]
  exact ((View.read_apply _ _).trans (cast_eq _ _)).symm
omit [FloatOps F] in
theorem chunk_write1 (k : Fin k0_t1_loop.trips) (f1 : Buf (Elt F) (r01Loc d)) (w : S80x128.Idx → Elt F .f32) (y : S80x128.Idx) :
    ((r1K L k).view.writes (Elt F) f1 [⟨Rect.whole S80x128, w⟩]) ((r1K L k).view.emb y) = w y := by
  have h := View.read_writes_cons_emb (r1K L k).view f1 (Rect.whole S80x128) w [] y
  rw [Rect.emb_whole_apply] at h
  rw [← h]
  exact ((View.read_apply _ _).trans (cast_eq _ _)).symm

theorem pay_val (k : Fin k0_t1_loop.trips) (idx : Buf (Elt F) (siLoc d)) (hidx : ∀ e, (idx e).toNat < nObj)
    (cur : S80.Idx → Elt F .i32) (hcur : ∀ x, cur x = idx (idxAt L k x))
    (hn : S80.numel = S80x128.size gathers_S10000x128_S80x128.axis')
    (hin : ∀ x, (cur x).toNat < S10000x128.size gathers_S10000x128_S80x128.axis)
    (fr : Buf (Elt F) ((sR).view.loc (thr d L))) (rest : List (View.Piece (Elt F) S80x128 .f32)) (y : S80x128.Idx) :
    (ReadAs.same : ReadAs (Elt F) S80x128 .f32 S80x128 .f32).apply (View.read (Elt F) (sR).view ((sR).view.writes (Elt F) fr
        (⟨Rect.whole S80x128, SparseCore.gatherPayload gathers_S10000x128_S80x128 (View.read (Elt F) (objK).view (X.obj0 d)) (SparseCore.rows cur hn hin)⟩ :: rest))) y
      = gath0 d (X.obj0 d) idx (rowAt L k y) := by
  show View.read (Elt F) (sR).view _ y = _
  have h := View.read_writes_cons_emb (sR).view fr (Rect.whole S80x128)
    (SparseCore.gatherPayload gathers_S10000x128_S80x128 (View.read (Elt F) (objK).view (X.obj0 d)) (SparseCore.rows cur hn hin)) rest y
  rw [Rect.emb_whole_apply] at h
  rw [h]
  exact gather_val X d L k idx hidx cur hcur hn hin y

theorem close0 (k : Fin k0_t1_loop.trips) (idx : Buf (Elt F) (siLoc d)) (f0 : Buf (Elt F) (r00Loc d)) (hf0 : Done X d L idx f0 k.val)
    (w : S80x128.Idx → Elt F .f32) (hw : ∀ y, w y = gath0 d (X.obj0 d) idx (rowAt L k y)) :
    Done X d L idx (((r0K L k).view.set).piecewise ((r0K L k).view.writes (Elt F) f0 [⟨Rect.whole S80x128, w⟩]) f0) (k.val + 1) := by
  intro j hjt hlt
  by_cases hj : j ∈ (r0K L k).view.set
  · rw [Finset.piecewise_eq_of_mem _ _ _ hj]
    obtain ⟨y, -, rfl⟩ := Finset.mem_map.mp hj
    rw [chunk_write0, hw, emb_r0K]
  · rw [Finset.piecewise_eq_of_notMem _ _ _ hj]
    refine hf0 j hjt ?_
    rw [mem_chunk] at hj
    rw [mem_tileSet] at hjt
    unfold bs at hj
    omega
theorem close1 (k : Fin k0_t1_loop.trips) (idx : Buf (Elt F) (siLoc d)) (f1 : Buf (Elt F) (r01Loc d)) (hf1 : Done X d L idx f1 k.val)
    (w : S80x128.Idx → Elt F .f32) (hw : ∀ y, w y = gath0 d (X.obj0 d) idx (rowAt L k y)) :
    Done X d L idx (((r1K L k).view.set).piecewise ((r1K L k).view.writes (Elt F) f1 [⟨Rect.whole S80x128, w⟩]) f1) (k.val + 1) := by
  intro j hjt hlt
  by_cases hj : j ∈ (r1K L k).view.set
  · rw [Finset.piecewise_eq_of_mem _ _ _ hj]
    obtain ⟨y, -, rfl⟩ := Finset.mem_map.mp hj
    rw [chunk_write1, hw, emb_r1K]
  · rw [Finset.piecewise_eq_of_notMem _ _ _ hj]
    refine hf1 j hjt ?_
    rw [mem_chunk1] at hj
    rw [mem_tileSet] at hjt
    unfold bs at hj
    omega

omit [FloatOps F] in
theorem pts_r0K (k : Fin k0_t1_loop.trips) (f : Buf (Elt F) (r00Loc d)) :
    ((r0K L k).view.loc (thr d L) ↦[(r0K L k).view.set]{fullShare} f : sProp 𝕄) = (r00Loc d ↦[(r0K L k).view.set]{fullShare} f) := rfl
omit [FloatOps F] in
theorem pts_r1K (k : Fin k0_t1_loop.trips) (f : Buf (Elt F) (r01Loc d)) :
    ((r1K L k).view.loc (thr d L) ↦[(r1K L k).view.set]{fullShare} f : sProp 𝕄) = (r01Loc d ↦[(r1K L k).view.set]{fullShare} f) := rfl
omit [FloatOps F] in
theorem chunk_sub1 (k : Fin k0_t1_loop.trips) : (r1K L k).view.set ⊆ tileSet (L 0).val (L 1).val := chunk_sub L k

omit [FloatOps F] in
theorem cur_val (k : Fin k0_t1_loop.trips) (fs : Buf (Elt F) ((sI).view.loc (thr d L))) (pay : S80.Idx → Elt F .i32) (x : S80.Idx) :
    View.read (Elt F) (sI).view (View.write (Elt F) (sI).view fs pay Finset.univ) x = pay x := by
  rw [View.write_whole_univ]
  simp only [Memref.view_whole, View.read_whole]

set_option maxHeartbeats 4000000 in

theorem trip (hX : X.InRange) (O : CellTallies nD τ sig (HIx 2)) (W : Waits sig (HIx 2)) (k : Fin k0_t1_loop.trips) :
    inv X d L O W k.val ⟨⟩
      ⊢ wp frame (wpE (defs₀ (F := F)) 𝒱₀ (thr d L) none) Set.univ
          (k0_t1_body L objV (Memref.isWhole_whole _) siV (Memref.isWhole_whole _) oiV (Memref.isWhole_whole _)
            r0V (Memref.isWhole_whole _) r1V (Memref.isWhole_whole _) sI (Memref.isWhole_whole _) sR (Memref.isWhole_whole _)
            cc0_scratch2 cc0_scoped0 cc0_scoped1 cc0_scoped2 cc0_scoped3 k ⟨⟩)
          (inv X d L O W (k.val + 1)) := by
  unfold inv k0_t1_body
  iintro ⟨Hmw, Hobj, Hsi, Hoi, ⟨%f0, %hf0, Hr0⟩, ⟨%f1, %hf1, Hr1⟩, ⟨%fi, HsI⟩, ⟨%fr, HsR⟩, HG, H0, H1, H2, H3, %W', %hW', HO⟩
  ihave Hr0s := (pointsTo_split_subset (chunk_sub L k)).1 $$ Hr0
  icases Hr0s with ⟨Hr0c, Hr0r⟩
  ihave Hr0c' := (Entails.of_eq (pts_r0K (F := F) d L k f0).symm) $$ Hr0c
  ihave Hr1s := (pointsTo_split_subset (chunk_sub1 L k)).1 $$ Hr1
  icases Hr1s with ⟨Hr1c, Hr1r⟩
  ihave Hr1c' := (Entails.of_eq (pts_r1K (F := F) d L k f1).symm) $$ Hr1c
  have hsi : ∀ e, ((X.si d) e).toNat < nObj := fun e => Nat.lt_of_lt_of_le (hX d e).1 (by decide)
  have hoi : ∀ e, ((X.oi d) e).toNat < nObj := fun e => Nat.lt_of_lt_of_le (hX d e).2 (by decide)
  have hpay1 : ∀ y, ((ReadAs.same : ReadAs (Elt F) S80 .i32 S80 .i32).apply (View.read (Elt F) (siK L k).view (X.si d)) y).toNat < nObj := by
    intro y
    show (View.read (Elt F) (siK L k).view (X.si d) y).toNat < nObj
    rw [read_siK]; exact hsi _
  have hpay2 : ∀ y, ((ReadAs.same : ReadAs (Elt F) S80 .i32 S80 .i32).apply (View.read (Elt F) (oiK L k).view (X.oi d)) y).toNat < nObj := by
    intro y
    show (View.read (Elt F) (oiK L k).view (X.oi d) y).toNat < nObj
    rw [read_oiK]; exact hoi _
  have hin1 := fun fs => inb_of (F := F) d L fs _ hpay1
  have hin2 := fun fs => inb_of (F := F) d L fs _ hpay2
  sl_exec
  ihave Hr0c2 := (Entails.of_eq (pts_r0K (F := F) d L k _)) $$ Hr0c'
  ihave Hj0 := (pointsTo_join_subset (ℓ := r00Loc d) (chunk_sub L k)) $$ [Hr0c2 Hr0r]
  · isplitl [Hr0c2] <;> iassumption
  ihave Hr1c2 := (Entails.of_eq (pts_r1K (F := F) d L k _)) $$ Hr1c'
  ihave Hj1 := (pointsTo_join_subset (ℓ := r01Loc d) (chunk_sub1 L k)) $$ [Hr1c2 Hr1r]
  · isplitl [Hr1c2] <;> iassumption
  sl_step
  isplitl [Hmw]; · iexact Hmw
  isplitl [Hobj]; · iexact Hobj
  isplitl [Hsi]; · iexact Hsi
  isplitl [Hoi]; · iexact Hoi
  isplitl [Hj0]
  · iexists _; isplitr
    swap; · iexact Hj0
    ipureintro
    refine close0 X d L k (X.si d) f0 hf0 _ fun y => ?_
    exact pay_val X d L k (X.si d) hsi _ (fun x => (cur_val d L k fi _ x).trans (read_siK d L k (X.si d) x)) _ (hin1 fi) fr [] y
  isplitl [Hj1]
  · iexists _; isplitr
    swap; · iexact Hj1
    ipureintro
    refine close1 X d L k (X.oi d) f1 hf1 _ fun y => ?_
    exact pay_val X d L k (X.oi d) hoi _ (fun x => (cur_val d L k _ _ x).trans (read_oiK d L k (X.oi d) x)) _ (hin2 _) fr _ y
  isplitl [HsI]; · iexists _; iexact HsI
  isplitl [HsR]; · iexists _; iexact HsR
  isplitl [HG]; · iexact HG
  isplitl [H0]; · iexact H0
  isplitl [H1]; · iexact H1
  isplitl [H2]; · iexact H2
  isplitl [H3]; · iexact H3
  iexists _; isplitr
  swap; · iexact HO
  ipureintro; intro p hp
  simp only [Finset.mem_insert] at hp
  rcases hp with rfl | rfl | rfl | rfl | rfl | rfl | hp
  · exact .inr rfl
  · exact .inr rfl
  · exact .inr rfl
  · exact .inr rfl
  · exact .inr rfl
  · exact .inr rfl
  · exact hW' p hp

omit [FloatOps F] in
theorem trips_eq : k0_t1_loop.trips = 125 := by decide

set_option maxHeartbeats 4000000 in

theorem tile_body (hF : (K (F := F)).Facts) (hX : X.InRange) (O : CellTallies nD τ sig (HIx 2)) (W : Waits sig (HIx 2)) (hO : ∀ g, O g none = 0) :
    iprop(levAts (K (F := F)).L (K (F := F)).lev ∗ emp ∗ go0 X d (L 0).val (L 1).val
        ∗ scopedBufs (thr d L) ∗ scopedSems0 (thr d L) ∗ owes (thr d L) O W)
      ⊢ wp frame (wpE (defs₀ (F := F)) 𝒱₀ (thr d L) none) Set.univ
          (cc0_gather_kernel L objV (Memref.isWhole_whole _) siV (Memref.isWhole_whole _) oiV (Memref.isWhole_whole _)
            r0V (Memref.isWhole_whole _) r1V (Memref.isWhole_whole _) sI (Memref.isWhole_whole _) sR (Memref.isWhole_whole _)
            cc0_scratch2 cc0_scoped0 cc0_scoped1 cc0_scoped2 cc0_scoped3)
          fun _ => iprop(td0 X d (L 0).val (L 1).val ∗ scopedBufs (thr d L) ∗ scopedSems0 (thr d L)
            ∗ ∃ W', ⌜∀ p ∈ W', p ∈ W ∨ p.2 = none⌝ ∗ owes (thr d L) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  unfold go0 td0 ins0
  iintro ⟨#Hlv, -, ⟨⟨Hobj, Hsi, Hoi⟩, ⟨%f0, Hr0⟩, ⟨%f1, Hr1⟩⟩, ⟨⟨%fi, HsI⟩, ⟨%fr, HsR⟩, Hbufs⟩, ⟨HG, H0, H1, H2, H3, Hsems⟩, HO⟩
  ihave Hmw := (show levAts (K (F := F)).L (K (F := F)).lev ⊢ Transfers.MayWaits (thr d L) (default : HIx 2) O from
    (K (F := F)).mayWaits_none (thr := thr d L) hO) $$ Hlv
  sl_for (inv X d L O W) $$ [Hmw Hobj Hsi Hoi Hr0 Hr1 HsI HsR HG H0 H1 H2 H3 HO]
  case region =>
    intro k acc
    exact trip X d L hX O W k
  · unfold inv
    isplitl [Hmw]; · iexact Hmw
    isplitl [Hobj]; · iexact Hobj
    isplitl [Hsi]; · iexact Hsi
    isplitl [Hoi]; · iexact Hoi
    isplitl [Hr0]
    · iexists f0; isplitr
      · ipureintro; intro j hj hlt; rw [mem_tileSet] at hj; omega
      · iexact Hr0
    isplitl [Hr1]
    · iexists f1; isplitr
      · ipureintro; intro j hj hlt; rw [mem_tileSet] at hj; omega
      · iexact Hr1
    isplitl [HsI]; · iexists fi; iexact HsI
    isplitl [HsR]; · iexists fr; iexact HsR
    isplitl [HG]; · iexact HG
    isplitl [H0]; · iexact H0
    isplitl [H1]; · iexact H1
    isplitl [H2]; · iexact H2
    isplitl [H3]; · iexact H3
    iexists W; isplitr
    · ipureintro; exact fun p hp => .inl hp
    · iexact HO
  iintro %_ HI
  unfold inv
  icases HI with ⟨-, Hobj, Hsi, Hoi, ⟨%g0, %hg0, Hr0⟩, ⟨%g1, %hg1, Hr1⟩, ⟨%fi', HsI⟩, ⟨%fr', HsR⟩, HG, H0, H1, H2, H3, %W', %hW', HO⟩
  sl_step
  have e0 : ∀ j ∈ tileSet (L 0).val (L 1).val, g0 j = gath0 d (X.obj0 d) (X.si d) j := fun j hj =>
    hg0 j hj (by
      rw [mem_tileSet] at hj
      have ht : Scf.trips k0_t1_loop.lb k0_t1_loop.ub k0_t1_loop.st = 125 := trips_eq
      rw [ht]; omega)
  have e1 : ∀ j ∈ tileSet (L 0).val (L 1).val, g1 j = gath0 d (X.obj0 d) (X.oi d) j := fun j hj =>
    hg1 j hj (by
      rw [mem_tileSet] at hj
      have ht : Scf.trips k0_t1_loop.lb k0_t1_loop.ub k0_t1_loop.st = 125 := trips_eq
      rw [ht]; omega)
  isplitl [Hobj Hsi Hoi Hr0 Hr1]
  · isplitl [Hobj Hsi Hoi]
    · isplitl [Hobj]; · iexact Hobj
      isplitl [Hsi]; · iexact Hsi
      iexact Hoi
    isplitl [Hr0]
    · iapply (Entails.of_eq (pointsTo_congr (Val := Elt F) (Ix := HIx 2) (Name := ℕ) (U := UU) (Lvl := ℕ) (ℓ := r00Loc d) (q := fullShare) e0)); iexact Hr0
    · iapply (Entails.of_eq (pointsTo_congr (Val := Elt F) (Ix := HIx 2) (Name := ℕ) (U := UU) (Lvl := ℕ) (ℓ := r01Loc d) (q := fullShare) e1)); iexact Hr1
  isplitl [HsI HsR Hbufs]
  · isplitl [HsI]; · iexists _; iexact HsI
    isplitl [HsR]; · iexists _; iexact HsR
    iexact Hbufs
  isplitl [HG H0 H1 H2 H3 Hsems]
  · isplitl [HG]; · iexact HG
    isplitl [H0]; · iexact H0
    isplitl [H1]; · iexact H1
    isplitl [H2]; · iexact H2
    isplitl [H3]; · iexact H3
    iexact Hsems
  iexists W'; isplitr
  · ipureintro; exact hW'
  · iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) (0 : Fin 6) ()
      = SparseCore.onTile hcore0 hsub0 (fun c s => cc0_gather_kernel (coordsV c s)
          objV (Memref.isWhole_whole _) siV (Memref.isWhole_whole _) oiV (Memref.isWhole_whole _)
          r0V (Memref.isWhole_whole _) r1V (Memref.isWhole_whole _) sI (Memref.isWhole_whole _) sR (Memref.isWhole_whole _)
          cc0_scratch2 cc0_scoped0 cc0_scoped1 cc0_scoped2 cc0_scoped3) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end G0

variable [FloatOps F]

set_option maxRecDepth 16384 in
theorem tileObl0 (X : GIn F) (hX : X.InRange) : (K (F := F)).TileObl (D (F := F)) 𝒱 (P X) v₀ (0 : Fin 2) := by
  intro d c i O W hO _ _
  simp only [P_ox, add_zero]
  have hci : ((K (F := F)).core (0 : Fin 2) c).val < grid0.bound 0 ∧ ((K (F := F)).sub (0 : Fin 2) i).val < grid0.bound 1 := ⟨c.isLt, i.isLt⟩
  change _ ⊢ wp _ _ _ (Pipeline.liftProg (defs₀ (F := F) (.scVector ((K (F := F)).core (0 : Fin 2) c) ((K (F := F)).sub (0 : Fin 2) i)) (0 : Fin 6) ())) _
  refine BI.Entails.trans ?_ (Pipeline.wp_liftProg (D (F := F)) (Pipeline.defs_kernel pcfgs defs₀) 𝒱₀ _ Set.univ none _ _)
  rw [G0.defs₀_vector]; simp only [SparseCore.onTile, hci, and_self, ↓reduceDIte]
  exact (G0.tile_body X d (G0.coordsV ⟨_, hci.1⟩ ⟨_, hci.2⟩) facts hX O W hO).trans (wp_mono frame _ _ fun _ => G0.obl_post)

end Cert.Proof.KB

end
-- ==== Proof.KB.Gather1.lean ====
/- One tile's task in the first gather call: 125 trips of 80 rows, under the invariant that the rows written so far are the table's rows at the indices. -/
import proofs.«215230_g44530220925728_cont_8to1c4_163_46_alg».proof.Proof.KB.Pay
import Idealize.ShloMosaic.Lib.SparseCore.Launch
import Idealize.ShloMosaic.Lib.SparseCore.Ops
import Idealize.ShloMosaic.Lib.SparseCore.Stream
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 2) (Elt F) ℕ UU ℕ
namespace G1

variable [FloatOps F]

abbrev nObj : ℕ := S10240x128.size 0
abbrev cV (L : grid3.Coords) : Fin τ.nSC := (L 0).castLE hcore3
abbrev jV (L : grid3.Coords) : Fin τ.nSub := (L 1).castLE hsub3

abbrev objV : Memref sig .scVector .hbm S10240x128 .f32 := Memref.whole main_v13_scv
abbrev siV : Memref sig .scVector .hbm S320000 .i32 := Memref.whole main_v1_scv
abbrev oiV : Memref sig .scVector .hbm S320000 .i32 := Memref.whole main_v3_scv
abbrev r0V : Memref sig .scVector .hbm S320000x128 .f32 := Memref.whole main_v14_0_scv
abbrev r1V : Memref sig .scVector .hbm S320000x128 .f32 := Memref.whole main_v14_1_scv
abbrev sI : Memref sig .scVector .vmem S80 .i32 := Memref.whole cc3_scratch0
abbrev sR : Memref sig .scVector .vmem S80x128 .f32 := Memref.whole cc3_scratch1

variable (X : GIn F) (d : Dev nD) (L : grid3.Coords)

abbrev thr : Thread nD τ := V d (cV L) (jV L)

abbrev cG : GSem nD τ sig := (thr d L, .dma cc3_scratch2.sem)
abbrev c0 : GSem nD τ sig := (thr d L, .dma cc3_scoped0.sem)
abbrev c1 : GSem nD τ sig := (thr d L, .dma cc3_scoped1.sem)
abbrev c2 : GSem nD τ sig := (thr d L, .dma cc3_scoped2.sem)
abbrev c3 : GSem nD τ sig := (thr d L, .dma cc3_scoped3.sem)

omit [FloatOps F] in
theorem pts_obj (q : PosShare TreeShare) (f : Buf (Elt F) (obj1Loc d)) :
    ((objV).view.loc (thr d L) ↦{q} f : sProp 𝕄) = obj1Loc d ↦{q} f := rfl
omit [FloatOps F] in
theorem pts_si (q : PosShare TreeShare) (f : Buf (Elt F) (siLoc d)) :
    ((siV).view.loc (thr d L) ↦{q} f : sProp 𝕄) = siLoc d ↦{q} f := rfl
omit [FloatOps F] in
theorem pts_oi (q : PosShare TreeShare) (f : Buf (Elt F) (oiLoc d)) :
    ((oiV).view.loc (thr d L) ↦{q} f : sProp 𝕄) = oiLoc d ↦{q} f := rfl

omit [FloatOps F] in
theorem cell_ne {a b : DmaSem sig} (h : a ≠ b) : ((thr d L, SemLoc.dma a) : GSem nD τ sig) ≠ (thr d L, SemLoc.dma b) :=
  fun e => h (by injection e with _ e; injection e)

omit [FloatOps F] in
theorem cell_mem (a : DmaSem sig) (h : (SemLoc.dma a : SemLoc sig).isScoped .scVector = true) :
    ((thr d L, SemLoc.dma a) : GSem nD τ sig) ∈ ownCells (thr d L) := (mem_ownCells (g := (thr d L, SemLoc.dma a))).mpr ⟨rfl, h⟩

omit [FloatOps F] in
theorem ownSems0_V :
    (ownSems0 (thr d L) : sProp 𝕄)
      = iprop(semVal (cG d L) 0 ∗ semVal (c0 d L) 0 ∗ semVal (c1 d L) 0 ∗ semVal (c2 d L) 0 ∗ semVal (c3 d L) 0
          ∗ bigSep (((((ownCells (thr d L)).erase (cG d L)).erase (c0 d L)).erase (c1 d L)).erase (c2 d L) |>.erase (c3 d L)) fun g => semVal g 0) := by
  unfold SparseCore.Cfg.ownSems0
  have mG := cell_mem d L cc3_scratch2.sem (by decide)
  have m0 := cell_mem d L cc3_scoped0.sem (by decide)
  have m1 := cell_mem d L cc3_scoped1.sem (by decide)
  have m2 := cell_mem d L cc3_scoped2.sem (by decide)
  have m3 := cell_mem d L cc3_scoped3.sem (by decide)
  rw [SparseCore.bigSep_erase' mG,
    SparseCore.bigSep_erase' (Finset.mem_erase.mpr ⟨cell_ne d L (by decide), m0⟩),
    SparseCore.bigSep_erase' (Finset.mem_erase.mpr ⟨cell_ne d L (by decide), Finset.mem_erase.mpr ⟨cell_ne d L (by decide), m1⟩⟩),
    SparseCore.bigSep_erase' (Finset.mem_erase.mpr ⟨cell_ne d L (by decide), Finset.mem_erase.mpr ⟨cell_ne d L (by decide), Finset.mem_erase.mpr ⟨cell_ne d L (by decide), m2⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), m3⟩⟩⟩⟩)]

omit [FloatOps F] in
theorem ownBufs_V :
    (ownBufs (thr d L) : sProp 𝕄)
      = iprop((∃ f, (thr d L).loc cc3_scratch0 ↦{fullShare} f) ∗ (∃ f, (thr d L).loc cc3_scratch1 ↦{fullShare} f)
          ∗ bigSep (((ownRefs (τ := τ) (.scVector (cV L) (jV L))).erase ((Proc.scVector (cV L) (jV L)).devRef cc3_scratch0)).erase
              ((Proc.scVector (cV L) (jV L)).devRef cc3_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV L) (jV L)) (b := (Proc.scVector (cV L) (jV L)).devRef cc3_scratch1) rfl⟩)]

abbrev siK (k : Fin k3_t1_loop.trips) : Memref sig .scVector .hbm S80 .i32 :=
  (siV).slice (Rect.unit (s := S320000) (k3_off1 L k) S80.size (k3_off1_inb L k)) (fun _ => rfl)
abbrev oiK (k : Fin k3_t1_loop.trips) : Memref sig .scVector .hbm S80 .i32 :=
  (oiV).slice (Rect.unit (s := S320000) (k3_off1 L k) S80.size (k3_off1_inb L k)) (fun _ => rfl)
abbrev r0K (k : Fin k3_t1_loop.trips) : Memref sig .scVector .hbm S80x128 .f32 :=
  (r0V).slice (Rect.unit (s := S320000x128) (k3_off2 L k) S80x128.size (k3_off2_inb L k)) (fun _ => rfl)
abbrev r1K (k : Fin k3_t1_loop.trips) : Memref sig .scVector .hbm S80x128 .f32 :=
  (r1V).slice (Rect.unit (s := S320000x128) (k3_off2 L k) S80x128.size (k3_off2_inb L k)) (fun _ => rfl)
abbrev objK : Memref sig .scVector .hbm S10240x128 .f32 :=
  (objV).slice (Rect.unit (s := S10240x128) ![0, 0] S10240x128.size inb_S10240x128_S10240x128_0_0) (fun _ => rfl)

def Done (idx : Buf (Elt F) (siLoc d)) (f : Buf (Elt F) (r10Loc d)) (k : ℕ) : Prop :=
  ∀ j ∈ tileSet (L 0).val (L 1).val, (j 0).val < 20000 * (L 1).val + 10000 * (L 0).val + 80 * k → f j = gath1 d (X.obj1 d) idx j

def inv (O : CellTallies nD τ sig (HIx 2)) (W : Waits sig (HIx 2)) (k : Nat) (_ : PUnit) : sProp 𝕄 :=
  iprop(Transfers.MayWaits (thr d L) (none : HIx 2) O
    ∗ ((objV).view.loc (thr d L) ↦{tileShare (L 0).val (L 1).val} X.obj1 d)
    ∗ ((siV).view.loc (thr d L) ↦{tileShare (L 0).val (L 1).val} X.si d)
    ∗ ((oiV).view.loc (thr d L) ↦{tileShare (L 0).val (L 1).val} X.oi d)
    ∗ (∃ f, ⌜Done X d L (X.si d) f k⌝ ∗ r10Loc d ↦[tileSet (L 0).val (L 1).val]{fullShare} f)
    ∗ (∃ f, ⌜Done X d L (X.oi d) f k⌝ ∗ r11Loc d ↦[tileSet (L 0).val (L 1).val]{fullShare} f)
    ∗ (∃ f, (sI).view.loc (thr d L) ↦{fullShare} f) ∗ (∃ f, (sR).view.loc (thr d L) ↦{fullShare} f)
    ∗ semVal (cG d L) 0 ∗ semVal (c0 d L) 0 ∗ semVal (c1 d L) 0 ∗ semVal (c2 d L) 0 ∗ semVal (c3 d L) 0
    ∗ ∃ W', ⌜∀ p ∈ W', p ∈ W ∨ p.2 = none⌝ ∗ owes (thr d L) O W')

omit [FloatOps F] in
theorem chunk_sub (k : Fin k3_t1_loop.trips) : (r0K L k).view.set ⊆ tileSet (L 0).val (L 1).val := by
  intro j hj
  have hk : k.val < 125 := Nat.lt_of_lt_of_le k.isLt k3_t1_abs.2.1
  rw [show (r0K L k).view.set = (Rect.unit (s := S320000x128) (k3_off2 L k) S80x128.size (k3_off2_inb L k)).set from View.set_slice_whole _ _,
    Rect.mem_set_unit] at hj
  have h0 := hj 0
  rw [k3_off2_eq] at h0
  rw [mem_tileSet]
  simp at h0
  omega

omit [FloatOps F] in
theorem inb_of (fs : Buf (Elt F) ((sI).view.loc (thr d L))) (pay : S80.Idx → Elt F .i32) (hpay : ∀ y, (pay y).toNat < nObj) :
    ∀ x, ((sI).view.read (Elt F) (View.write (Elt F) (sI).view fs pay Finset.univ) x).toNat < S10240x128.size gathers_S10240x128_S80x128.axis := by
  intro x
  rw [View.write_whole_univ]
  simp only [Memref.view_whole, View.read_whole]
  exact hpay x

abbrev bs (k : Fin k3_t1_loop.trips) : ℕ := 20000 * (L 1).val + 10000 * (L 0).val + 80 * k.val

omit [FloatOps F] in
theorem bs_lt (k : Fin k3_t1_loop.trips) {y : ℕ} (hy : y < 80) : bs L k + y < 320000 := by
  have hk : k.val < 125 := Nat.lt_of_lt_of_le k.isLt k3_t1_abs.2.1
  have h0 : (L 0).val < 2 := (L 0).isLt
  have h1 : (L 1).val < 16 := (L 1).isLt
  unfold bs; omega

abbrev rowAt (k : Fin k3_t1_loop.trips) (y : S80x128.Idx) : S320000x128.Idx :=
  ix2 (n0 := 320000) (n1 := 128) ⟨bs L k + (y 0).val, bs_lt L k (show (y 0).val < 80 from (y 0).isLt)⟩ (y 1)

abbrev idxAt (k : Fin k3_t1_loop.trips) (x : S80.Idx) : S320000.Idx :=
  ix1 (n := 320000) ⟨bs L k + (x 0).val, bs_lt L k (show (x 0).val < 80 from (x 0).isLt)⟩

omit [FloatOps F] in
theorem emb_r0K (k : Fin k3_t1_loop.trips) (y : S80x128.Idx) : (r0K L k).view.emb y = rowAt L k y := by
  funext a
  apply Fin.ext
  have h2 := k3_off2_eq L k
  match a with
  | ⟨0, _⟩ =>
    show k3_off2 L k 0 + 1 * (y 0).val = bs L k + (y 0).val
    rw [h2]; simp [bs]
  | ⟨1, _⟩ =>
    show k3_off2 L k 1 + 1 * (y 1).val = (y 1).val
    rw [h2]; simp
omit [FloatOps F] in
theorem emb_r1K (k : Fin k3_t1_loop.trips) (y : S80x128.Idx) : (r1K L k).view.emb y = rowAt L k y := emb_r0K L k y

omit [FloatOps F] in
theorem emb_siK (k : Fin k3_t1_loop.trips) (x : S80.Idx) : (siK L k).view.emb x = idxAt L k x := by
  funext a
  apply Fin.ext
  have h1 := k3_off1_eq L k
  match a with
  | ⟨0, _⟩ =>
    show k3_off1 L k 0 + 1 * (x 0).val = bs L k + (x 0).val
    rw [h1]; simp [bs]
omit [FloatOps F] in
theorem emb_oiK (k : Fin k3_t1_loop.trips) (x : S80.Idx) : (oiK L k).view.emb x = idxAt L k x := emb_siK L k x

omit [FloatOps F] in
theorem read_siK (k : Fin k3_t1_loop.trips) (idx : Buf (Elt F) (siLoc d)) (x : S80.Idx) :
    View.read (Elt F) (siK L k).view idx x = idx (idxAt L k x) := by
  rw [show View.read (Elt F) (siK L k).view idx x = idx ((siK L k).view.emb x) from (View.read_apply _ _).trans (cast_eq _ _), emb_siK]
omit [FloatOps F] in
theorem read_oiK (k : Fin k3_t1_loop.trips) (idx : Buf (Elt F) (oiLoc d)) (x : S80.Idx) :
    View.read (Elt F) (oiK L k).view idx x = idx (idxAt L k x) := by
  rw [show View.read (Elt F) (oiK L k).view idx x = idx ((oiK L k).view.emb x) from (View.read_apply _ _).trans (cast_eq _ _), emb_oiK]

theorem gather_val (k : Fin k3_t1_loop.trips) (idx : Buf (Elt F) (siLoc d)) (hidx : ∀ e, (idx e).toNat < nObj)
    (cur : S80.Idx → Elt F .i32) (hcur : ∀ x, cur x = idx (idxAt L k x))
    (hn : S80.numel = S80x128.size gathers_S10240x128_S80x128.axis')
    (hin : ∀ x, (cur x).toNat < S10240x128.size gathers_S10240x128_S80x128.axis) (y : S80x128.Idx) :
    SparseCore.gatherPayload gathers_S10240x128_S80x128 (View.read (Elt F) (objK).view (X.obj1 d)) (SparseCore.rows cur hn hin) y
      = gath1 d (X.obj1 d) idx (rowAt L k y) := by
  unfold SparseCore.gatherPayload
  rw [show ∀ z, View.read (Elt F) (objK).view (X.obj1 d) z = X.obj1 d ((objK).view.emb z) from fun z => (View.read_apply _ _).trans (cast_eq _ _)]
  rw [gath1_apply d (X.obj1 d) idx (rowAt L k y) (hidx _)]
  congr 1
  funext a
  apply Fin.ext
  match a with
  | ⟨0, h0⟩ =>
    have hx : ((S80.rowMajor.symm ((y gathers_S10240x128_S80x128.axis').cast hn.symm)) 0).val = (y 0).val := by
      have h := Shape.rowMajor_val_one (d := ![80]) (S80.rowMajor.symm ((y gathers_S10240x128_S80x128.axis').cast hn.symm))
      rw [Equiv.apply_symm_apply] at h
      exact h.symm
    show 0 + 1 * ((gathers_S10240x128_S80x128.idx (SparseCore.rows cur hn hin) y) ⟨0, h0⟩).val = (idx (ix1 (rowAt L k y 0))).toNat
    rw [show ((gathers_S10240x128_S80x128.idx (SparseCore.rows cur hn hin) y) ⟨0, h0⟩).val
        = (SparseCore.rows cur hn hin (y gathers_S10240x128_S80x128.axis')).val from by unfold Shape.Gathers.idx; rw [dif_pos rfl]; rfl]
    show 0 + 1 * (cur (S80.rowMajor.symm ((y gathers_S10240x128_S80x128.axis').cast hn.symm))).toNat = _
    rw [hcur, Nat.zero_add, Nat.one_mul]
    congr 2
    funext b
    match b with
    | ⟨0, _⟩ => exact Fin.ext (by show bs L k + _ = bs L k + (y 0).val; rw [hx])
  | ⟨1, h1⟩ =>
    show 0 + 1 * ((gathers_S10240x128_S80x128.idx (SparseCore.rows cur hn hin) y) ⟨1, h1⟩).val = (y 1).val
    rw [Shape.Gathers.idx_of_ne gathers_S10240x128_S80x128 _ y ⟨1, h1⟩ Nat.one_ne_zero, Nat.zero_add, Nat.one_mul]
    rfl

omit [FloatOps F] in
theorem mem_chunk (k : Fin k3_t1_loop.trips) (j : S320000x128.Idx) :
    j ∈ (r0K L k).view.set ↔ bs L k ≤ (j 0).val ∧ (j 0).val < bs L k + 80 := by
  rw [show (r0K L k).view.set = (Rect.unit (s := S320000x128) (k3_off2 L k) S80x128.size (k3_off2_inb L k)).set from View.set_slice_whole _ _,
    Rect.mem_set_unit]
  have h2 := k3_off2_eq L k
  constructor
  · intro h
    have h0 := h 0
    rw [h2] at h0
    simpa [bs] using h0
  · intro h a
    rw [h2]
    match a with
    | ⟨0, _⟩ => simpa [bs] using h
    | ⟨1, _⟩ => exact ⟨Nat.zero_le _, by simpa using (j 1).isLt⟩
omit [FloatOps F] in
theorem mem_chunk1 (k : Fin k3_t1_loop.trips) (j : S320000x128.Idx) :
    j ∈ (r1K L k).view.set ↔ bs L k ≤ (j 0).val ∧ (j 0).val < bs L k + 80 := mem_chunk L k j

omit [FloatOps F] in

theorem chunk_write0 (k : Fin k3_t1_loop.trips) (f0 : Buf (Elt F) (r10Loc d)) (w : S80x128.Idx → Elt F .f32) (y : S80x128.Idx) :
    ((r0K L k).view.writes (Elt F) f0 [⟨Rect.whole S80x128, w⟩]) ((r0K L k).view.emb y) = w y := by
  have h := View.read_writes_cons_emb (r0K L k).view f0 (Rect.whole S80x128) w [] y
  rw [Rect.emb_whole_apply] at h
  rw [← h]
  exact ((View.read_apply _ _).trans (cast_eq _ _)).symm
omit [FloatOps F] in
theorem chunk_write1 (k : Fin k3_t1_loop.trips) (f1 : Buf (Elt F) (r11Loc d)) (w : S80x128.Idx → Elt F .f32) (y : S80x128.Idx) :
    ((r1K L k).view.writes (Elt F) f1 [⟨Rect.whole S80x128, w⟩]) ((r1K L k).view.emb y) = w y := by
  have h := View.read_writes_cons_emb (r1K L k).view f1 (Rect.whole S80x128) w [] y
  rw [Rect.emb_whole_apply] at h
  rw [← h]
  exact ((View.read_apply _ _).trans (cast_eq _ _)).symm

theorem pay_val (k : Fin k3_t1_loop.trips) (idx : Buf (Elt F) (siLoc d)) (hidx : ∀ e, (idx e).toNat < nObj)
    (cur : S80.Idx → Elt F .i32) (hcur : ∀ x, cur x = idx (idxAt L k x))
    (hn : S80.numel = S80x128.size gathers_S10240x128_S80x128.axis')
    (hin : ∀ x, (cur x).toNat < S10240x128.size gathers_S10240x128_S80x128.axis)
    (fr : Buf (Elt F) ((sR).view.loc (thr d L))) (rest : List (View.Piece (Elt F) S80x128 .f32)) (y : S80x128.Idx) :
    (ReadAs.same : ReadAs (Elt F) S80x128 .f32 S80x128 .f32).apply (View.read (Elt F) (sR).view ((sR).view.writes (Elt F) fr
        (⟨Rect.whole S80x128, SparseCore.gatherPayload gathers_S10240x128_S80x128 (View.read (Elt F) (objK).view (X.obj1 d)) (SparseCore.rows cur hn hin)⟩ :: rest))) y
      = gath1 d (X.obj1 d) idx (rowAt L k y) := by
  show View.read (Elt F) (sR).view _ y = _
  have h := View.read_writes_cons_emb (sR).view fr (Rect.whole S80x128)
    (SparseCore.gatherPayload gathers_S10240x128_S80x128 (View.read (Elt F) (objK).view (X.obj1 d)) (SparseCore.rows cur hn hin)) rest y
  rw [Rect.emb_whole_apply] at h
  rw [h]
  exact gather_val X d L k idx hidx cur hcur hn hin y

theorem close0 (k : Fin k3_t1_loop.trips) (idx : Buf (Elt F) (siLoc d)) (f0 : Buf (Elt F) (r10Loc d)) (hf0 : Done X d L idx f0 k.val)
    (w : S80x128.Idx → Elt F .f32) (hw : ∀ y, w y = gath1 d (X.obj1 d) idx (rowAt L k y)) :
    Done X d L idx (((r0K L k).view.set).piecewise ((r0K L k).view.writes (Elt F) f0 [⟨Rect.whole S80x128, w⟩]) f0) (k.val + 1) := by
  intro j hjt hlt
  by_cases hj : j ∈ (r0K L k).view.set
  · rw [Finset.piecewise_eq_of_mem _ _ _ hj]
    obtain ⟨y, -, rfl⟩ := Finset.mem_map.mp hj
    rw [chunk_write0, hw, emb_r0K]
  · rw [Finset.piecewise_eq_of_notMem _ _ _ hj]
    refine hf0 j hjt ?_
    rw [mem_chunk] at hj
    rw [mem_tileSet] at hjt
    unfold bs at hj
    omega
theorem close1 (k : Fin k3_t1_loop.trips) (idx : Buf (Elt F) (siLoc d)) (f1 : Buf (Elt F) (r11Loc d)) (hf1 : Done X d L idx f1 k.val)
    (w : S80x128.Idx → Elt F .f32) (hw : ∀ y, w y = gath1 d (X.obj1 d) idx (rowAt L k y)) :
    Done X d L idx (((r1K L k).view.set).piecewise ((r1K L k).view.writes (Elt F) f1 [⟨Rect.whole S80x128, w⟩]) f1) (k.val + 1) := by
  intro j hjt hlt
  by_cases hj : j ∈ (r1K L k).view.set
  · rw [Finset.piecewise_eq_of_mem _ _ _ hj]
    obtain ⟨y, -, rfl⟩ := Finset.mem_map.mp hj
    rw [chunk_write1, hw, emb_r1K]
  · rw [Finset.piecewise_eq_of_notMem _ _ _ hj]
    refine hf1 j hjt ?_
    rw [mem_chunk1] at hj
    rw [mem_tileSet] at hjt
    unfold bs at hj
    omega

omit [FloatOps F] in
theorem pts_r0K (k : Fin k3_t1_loop.trips) (f : Buf (Elt F) (r10Loc d)) :
    ((r0K L k).view.loc (thr d L) ↦[(r0K L k).view.set]{fullShare} f : sProp 𝕄) = (r10Loc d ↦[(r0K L k).view.set]{fullShare} f) := rfl
omit [FloatOps F] in
theorem pts_r1K (k : Fin k3_t1_loop.trips) (f : Buf (Elt F) (r11Loc d)) :
    ((r1K L k).view.loc (thr d L) ↦[(r1K L k).view.set]{fullShare} f : sProp 𝕄) = (r11Loc d ↦[(r1K L k).view.set]{fullShare} f) := rfl
omit [FloatOps F] in
theorem chunk_sub1 (k : Fin k3_t1_loop.trips) : (r1K L k).view.set ⊆ tileSet (L 0).val (L 1).val := chunk_sub L k

omit [FloatOps F] in
theorem cur_val (k : Fin k3_t1_loop.trips) (fs : Buf (Elt F) ((sI).view.loc (thr d L))) (pay : S80.Idx → Elt F .i32) (x : S80.Idx) :
    View.read (Elt F) (sI).view (View.write (Elt F) (sI).view fs pay Finset.univ) x = pay x := by
  rw [View.write_whole_univ]
  simp only [Memref.view_whole, View.read_whole]

set_option maxHeartbeats 4000000 in

theorem trip (hX : X.InRange) (O : CellTallies nD τ sig (HIx 2)) (W : Waits sig (HIx 2)) (k : Fin k3_t1_loop.trips) :
    inv X d L O W k.val ⟨⟩
      ⊢ wp frame (wpE (defs₀ (F := F)) 𝒱₀ (thr d L) none) Set.univ
          (k3_t1_body L objV (Memref.isWhole_whole _) siV (Memref.isWhole_whole _) oiV (Memref.isWhole_whole _)
            r0V (Memref.isWhole_whole _) r1V (Memref.isWhole_whole _) sI (Memref.isWhole_whole _) sR (Memref.isWhole_whole _)
            cc3_scratch2 cc3_scoped0 cc3_scoped1 cc3_scoped2 cc3_scoped3 k ⟨⟩)
          (inv X d L O W (k.val + 1)) := by
  unfold inv k3_t1_body
  iintro ⟨Hmw, Hobj, Hsi, Hoi, ⟨%f0, %hf0, Hr0⟩, ⟨%f1, %hf1, Hr1⟩, ⟨%fi, HsI⟩, ⟨%fr, HsR⟩, HG, H0, H1, H2, H3, %W', %hW', HO⟩
  ihave Hr0s := (pointsTo_split_subset (chunk_sub L k)).1 $$ Hr0
  icases Hr0s with ⟨Hr0c, Hr0r⟩
  ihave Hr0c' := (Entails.of_eq (pts_r0K (F := F) d L k f0).symm) $$ Hr0c
  ihave Hr1s := (pointsTo_split_subset (chunk_sub1 L k)).1 $$ Hr1
  icases Hr1s with ⟨Hr1c, Hr1r⟩
  ihave Hr1c' := (Entails.of_eq (pts_r1K (F := F) d L k f1).symm) $$ Hr1c
  have hsi : ∀ e, ((X.si d) e).toNat < nObj := fun e => Nat.lt_of_lt_of_le (hX d e).1 (by decide)
  have hoi : ∀ e, ((X.oi d) e).toNat < nObj := fun e => Nat.lt_of_lt_of_le (hX d e).2 (by decide)
  have hpay1 : ∀ y, ((ReadAs.same : ReadAs (Elt F) S80 .i32 S80 .i32).apply (View.read (Elt F) (siK L k).view (X.si d)) y).toNat < nObj := by
    intro y
    show (View.read (Elt F) (siK L k).view (X.si d) y).toNat < nObj
    rw [read_siK]; exact hsi _
  have hpay2 : ∀ y, ((ReadAs.same : ReadAs (Elt F) S80 .i32 S80 .i32).apply (View.read (Elt F) (oiK L k).view (X.oi d)) y).toNat < nObj := by
    intro y
    show (View.read (Elt F) (oiK L k).view (X.oi d) y).toNat < nObj
    rw [read_oiK]; exact hoi _
  have hin1 := fun fs => inb_of (F := F) d L fs _ hpay1
  have hin2 := fun fs => inb_of (F := F) d L fs _ hpay2
  sl_exec
  ihave Hr0c2 := (Entails.of_eq (pts_r0K (F := F) d L k _)) $$ Hr0c'
  ihave Hj0 := (pointsTo_join_subset (ℓ := r10Loc d) (chunk_sub L k)) $$ [Hr0c2 Hr0r]
  · isplitl [Hr0c2] <;> iassumption
  ihave Hr1c2 := (Entails.of_eq (pts_r1K (F := F) d L k _)) $$ Hr1c'
  ihave Hj1 := (pointsTo_join_subset (ℓ := r11Loc d) (chunk_sub1 L k)) $$ [Hr1c2 Hr1r]
  · isplitl [Hr1c2] <;> iassumption
  sl_step
  isplitl [Hmw]; · iexact Hmw
  isplitl [Hobj]; · iexact Hobj
  isplitl [Hsi]; · iexact Hsi
  isplitl [Hoi]; · iexact Hoi
  isplitl [Hj0]
  · iexists _; isplitr
    swap; · iexact Hj0
    ipureintro
    refine close0 X d L k (X.si d) f0 hf0 _ fun y => ?_
    exact pay_val X d L k (X.si d) hsi _ (fun x => (cur_val d L k fi _ x).trans (read_siK d L k (X.si d) x)) _ (hin1 fi) fr [] y
  isplitl [Hj1]
  · iexists _; isplitr
    swap; · iexact Hj1
    ipureintro
    refine close1 X d L k (X.oi d) f1 hf1 _ fun y => ?_
    exact pay_val X d L k (X.oi d) hoi _ (fun x => (cur_val d L k _ _ x).trans (read_oiK d L k (X.oi d) x)) _ (hin2 _) fr _ y
  isplitl [HsI]; · iexists _; iexact HsI
  isplitl [HsR]; · iexists _; iexact HsR
  isplitl [HG]; · iexact HG
  isplitl [H0]; · iexact H0
  isplitl [H1]; · iexact H1
  isplitl [H2]; · iexact H2
  isplitl [H3]; · iexact H3
  iexists _; isplitr
  swap; · iexact HO
  ipureintro; intro p hp
  simp only [Finset.mem_insert] at hp
  rcases hp with rfl | rfl | rfl | rfl | rfl | rfl | hp
  · exact .inr rfl
  · exact .inr rfl
  · exact .inr rfl
  · exact .inr rfl
  · exact .inr rfl
  · exact .inr rfl
  · exact hW' p hp

omit [FloatOps F] in
theorem trips_eq : k3_t1_loop.trips = 125 := by decide

set_option maxHeartbeats 4000000 in

theorem tile_body (hF : (K (F := F)).Facts) (hX : X.InRange) (O : CellTallies nD τ sig (HIx 2)) (W : Waits sig (HIx 2)) (hO : ∀ g, O g none = 0) :
    iprop(levAts (K (F := F)).L (K (F := F)).lev ∗ emp ∗ go1 X d (L 0).val (L 1).val
        ∗ scopedBufs (thr d L) ∗ scopedSems0 (thr d L) ∗ owes (thr d L) O W)
      ⊢ wp frame (wpE (defs₀ (F := F)) 𝒱₀ (thr d L) none) Set.univ
          (cc3_gather_kernel L objV (Memref.isWhole_whole _) siV (Memref.isWhole_whole _) oiV (Memref.isWhole_whole _)
            r0V (Memref.isWhole_whole _) r1V (Memref.isWhole_whole _) sI (Memref.isWhole_whole _) sR (Memref.isWhole_whole _)
            cc3_scratch2 cc3_scoped0 cc3_scoped1 cc3_scoped2 cc3_scoped3)
          fun _ => iprop(td1 X d (L 0).val (L 1).val ∗ scopedBufs (thr d L) ∗ scopedSems0 (thr d L)
            ∗ ∃ W', ⌜∀ p ∈ W', p ∈ W ∨ p.2 = none⌝ ∗ owes (thr d L) O W') := by
  simp only [cc3_gather_kernel_eq_skeleton]; unfold cc3_gather_kernel_skel
  rw [(K (F := F)).scopedBufs_V hF d (cV L) (jV L), SparseCore.Cfg.scopedSems0_V (Val := Elt F) d (cV L) (jV L), ownSems0_V, ownBufs_V]
  unfold go1 td1 ins1
  iintro ⟨#Hlv, -, ⟨⟨Hobj, Hsi, Hoi⟩, ⟨%f0, Hr0⟩, ⟨%f1, Hr1⟩⟩, ⟨⟨%fi, HsI⟩, ⟨%fr, HsR⟩, Hbufs⟩, ⟨HG, H0, H1, H2, H3, Hsems⟩, HO⟩
  ihave Hmw := (show levAts (K (F := F)).L (K (F := F)).lev ⊢ Transfers.MayWaits (thr d L) (default : HIx 2) O from
    (K (F := F)).mayWaits_none (thr := thr d L) hO) $$ Hlv
  sl_for (inv X d L O W) $$ [Hmw Hobj Hsi Hoi Hr0 Hr1 HsI HsR HG H0 H1 H2 H3 HO]
  case region =>
    intro k acc
    exact trip X d L hX O W k
  · unfold inv
    isplitl [Hmw]; · iexact Hmw
    isplitl [Hobj]; · iexact Hobj
    isplitl [Hsi]; · iexact Hsi
    isplitl [Hoi]; · iexact Hoi
    isplitl [Hr0]
    · iexists f0; isplitr
      · ipureintro; intro j hj hlt; rw [mem_tileSet] at hj; omega
      · iexact Hr0
    isplitl [Hr1]
    · iexists f1; isplitr
      · ipureintro; intro j hj hlt; rw [mem_tileSet] at hj; omega
      · iexact Hr1
    isplitl [HsI]; · iexists fi; iexact HsI
    isplitl [HsR]; · iexists fr; iexact HsR
    isplitl [HG]; · iexact HG
    isplitl [H0]; · iexact H0
    isplitl [H1]; · iexact H1
    isplitl [H2]; · iexact H2
    isplitl [H3]; · iexact H3
    iexists W; isplitr
    · ipureintro; exact fun p hp => .inl hp
    · iexact HO
  iintro %_ HI
  unfold inv
  icases HI with ⟨-, Hobj, Hsi, Hoi, ⟨%g0, %hg0, Hr0⟩, ⟨%g1, %hg1, Hr1⟩, ⟨%fi', HsI⟩, ⟨%fr', HsR⟩, HG, H0, H1, H2, H3, %W', %hW', HO⟩
  sl_step
  have e0 : ∀ j ∈ tileSet (L 0).val (L 1).val, g0 j = gath1 d (X.obj1 d) (X.si d) j := fun j hj =>
    hg0 j hj (by
      rw [mem_tileSet] at hj
      have ht : Scf.trips k3_t1_loop.lb k3_t1_loop.ub k3_t1_loop.st = 125 := trips_eq
      rw [ht]; omega)
  have e1 : ∀ j ∈ tileSet (L 0).val (L 1).val, g1 j = gath1 d (X.obj1 d) (X.oi d) j := fun j hj =>
    hg1 j hj (by
      rw [mem_tileSet] at hj
      have ht : Scf.trips k3_t1_loop.lb k3_t1_loop.ub k3_t1_loop.st = 125 := trips_eq
      rw [ht]; omega)
  isplitl [Hobj Hsi Hoi Hr0 Hr1]
  · isplitl [Hobj Hsi Hoi]
    · isplitl [Hobj]; · iexact Hobj
      isplitl [Hsi]; · iexact Hsi
      iexact Hoi
    isplitl [Hr0]
    · iapply (Entails.of_eq (pointsTo_congr (Val := Elt F) (Ix := HIx 2) (Name := ℕ) (U := UU) (Lvl := ℕ) (ℓ := r10Loc d) (q := fullShare) e0)); iexact Hr0
    · iapply (Entails.of_eq (pointsTo_congr (Val := Elt F) (Ix := HIx 2) (Name := ℕ) (U := UU) (Lvl := ℕ) (ℓ := r11Loc d) (q := fullShare) e1)); iexact Hr1
  isplitl [HsI HsR Hbufs]
  · isplitl [HsI]; · iexists _; iexact HsI
    isplitl [HsR]; · iexists _; iexact HsR
    iexact Hbufs
  isplitl [HG H0 H1 H2 H3 Hsems]
  · isplitl [HG]; · iexact HG
    isplitl [H0]; · iexact H0
    isplitl [H1]; · iexact H1
    isplitl [H2]; · iexact H2
    isplitl [H3]; · iexact H3
    iexact Hsems
  iexists W'; isplitr
  · ipureintro; exact hW'
  · iexact HO

def coordsV (c : Fin (grid3.bound 0)) (s : Fin (grid3.bound 1)) : grid3.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) (3 : Fin 6) ()
      = SparseCore.onTile hcore3 hsub3 (fun c s => cc3_gather_kernel (coordsV c s)
          objV (Memref.isWhole_whole _) siV (Memref.isWhole_whole _) oiV (Memref.isWhole_whole _)
          r0V (Memref.isWhole_whole _) r1V (Memref.isWhole_whole _) sI (Memref.isWhole_whole _) sR (Memref.isWhole_whole _)
          cc3_scratch2 cc3_scoped0 cc3_scoped1 cc3_scoped2 cc3_scoped3) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end G1

variable [FloatOps F]

set_option maxRecDepth 16384 in
theorem tileObl1 (X : GIn F) (hX : X.InRange) : (K (F := F)).TileObl (D (F := F)) 𝒱 (P X) v₀ (1 : Fin 2) := by
  intro d c i O W hO _ _
  simp only [P_ox, add_zero]
  have hci : ((K (F := F)).core (1 : Fin 2) c).val < grid3.bound 0 ∧ ((K (F := F)).sub (1 : Fin 2) i).val < grid3.bound 1 := ⟨c.isLt, i.isLt⟩
  change _ ⊢ wp _ _ _ (Pipeline.liftProg (defs₀ (F := F) (.scVector ((K (F := F)).core (1 : Fin 2) c) ((K (F := F)).sub (1 : Fin 2) i)) (3 : Fin 6) ())) _
  refine BI.Entails.trans ?_ (Pipeline.wp_liftProg (D (F := F)) (Pipeline.defs_kernel pcfgs defs₀) 𝒱₀ _ Set.univ none _ _)
  rw [G1.defs₀_vector]; simp only [SparseCore.onTile, hci, and_self, ↓reduceDIte]
  exact (G1.tile_body X d (G1.coordsV ⟨_, hci.1⟩ ⟨_, hci.2⟩) facts hX O W hO).trans (wp_mono frame _ _ fun _ => G1.obl_post)

end Cert.Proof.KB

end
-- ==== Proof.KB.Launch.lean ====
/- The run of the program: the launch theorem at the two gather calls, each tile's task proved once at a symbolic tile, with @main's proof on the TensorCore. -/
import proofs.«215230_g44530220925728_cont_8to1c4_163_46_alg».proof.Proof.KB.Main
import proofs.«215230_g44530220925728_cont_8to1c4_163_46_alg».proof.Proof.KB.Gather0
import proofs.«215230_g44530220925728_cont_8to1c4_163_46_alg».proof.Proof.KB.Gather1

noncomputable section

namespace Cert.Proof.KB

open Cert.Kernel Cert.Kernel.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 2) (Elt F) ℕ UU ℕ

variable (m : (ℓ : Loc nD τ sig) → Buf (Elt F) ℓ) (ρ : Dev nD → PrngReg)

omit [FloatOps F] [∀ e, Nonempty (Elt F e)] in

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

def fq (d : Dev nD) (s' : Phys nD τ sig (Elt F)) : Prop :=
  ∀ b ∈ Pipeline.ucRefs τ sig, s'.mem.mem ((d, b) : Loc nD τ sig) = W12 m d b

omit [∀ e, Nonempty (Elt F e)] in
theorem hfin (d : Dev nD) (s' : Phys nD τ sig (Elt F)) : iprop(FIN m d ∗ SI s') ⊢ (⌜fq m d s'⌝ : sProp 𝕄) := by
  unfold FIN StableHlo.held fq
  iintro H
  ihave H' := (pointsTo_read_all (Pipeline.ucRefs τ sig) (fun b => ((d, b) : Loc nD τ sig)) (W12 m d) s') $$ H
  icases H' with ⟨%h, -⟩
  ipureintro; exact h

def QC : PUnit × MemSt nD τ sig (Elt F) → Prop := fun r =>
  ∀ c : Dev nD, ∀ b ∈ Pipeline.ucRefs τ sig, r.2.mem ((c, b) : Loc nD τ sig) = W12 m c b

theorem run_main (hin : (X m).InRange) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (X m)) facts v₀
    (fun q hq => match q with | 0 => nomatch hq | 1 => nomatch hq)
    (fun q _ => match q with | 0 => tileObl0 (X m) hin | 1 => tileObl1 (X m) hin)
    (fun q _ => match q with | 0 => SparseCore.Cfg.VecSplit.of_plain (vecSplit0 (X m)) | 1 => SparseCore.Cfg.VecSplit.of_plain (vecSplit1 (X m)))
    m ρ main (G (F := F)) (FIN m) (u₀ (F := F)) (sep_elim_left.trans (hu₀ _ (fun q thr => P_x (X m) q thr))) (hmain m ρ) (fq m) (hfin m) (QC m)
    (fun _ h c => h c)

end Cert.Proof.KB

end
-- ==== Proof.KI.KeepVal.lean ====
/- What the fold through @main holds at each place where it is read. -/
import proofs.«215230_g44530220925728_cont_8to1c4_163_46_alg».proof.Proof.KI.Keep

noncomputable section

namespace Cert.Proof.KI

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

theorem W1_main_arg0 (c : Dev nD) : W1 m c (dr main_arg0) = m ((c : Thread nD τ).loc main_arg0) := W1_arg m c _ (by decide)

/-- What equals an argument array's contents after the first stretch equals its contents at launch. -/
theorem arg_at {c : Dev nD} {b : Ref sig .tc} {x : Buf (Elt F) ((c : Thread nD τ).loc b)} (h : x = W1 m c (dr b)) (hb : b ∈ args) :
    x = m ((c : Thread nD τ).loc b) := h.trans (W1_arg m c b hb)

theorem V3_v4_0 (c : Dev nD) : V3 m c main_v4_0 = gath0 c (W1 m c (dr main_arg0)) (W1 m c (dr main_v1)) :=
  (opsB_keep (W2 m c) main_v4_0 (by decide)).trans (keep2_r0 m c)
theorem V3_v4_1 (c : Dev nD) : V3 m c main_v4_1 = gath0 c (W1 m c (dr main_arg0)) (W1 m c (dr main_v3)) :=
  (opsB_keep (W2 m c) main_v4_1 (by decide)).trans (keep2_r1 m c)
theorem V3_arg1 (c : Dev nD) : V3 m c main_arg1 = m ((c : Thread nD τ).loc main_arg1) := arg_at m (W3_keep m c main_arg1 (by decide)) (by decide)
theorem V3_arg5 (c : Dev nD) : V3 m c main_arg5 = m ((c : Thread nD τ).loc main_arg5) := arg_at m (W3_keep m c main_arg5 (by decide)) (by decide)
theorem V3_v5 (c : Dev nD) : V3 m c main_v5 = extractStridedSlice S128x128 ![0, 0] (m ((c : Thread nD τ).loc main_arg3)) slices_S384x128_S128x128_0_0 := by
  show StableHlo.after opsB (W2 m c) (Proc.devRef .tc main_v5) = _
  after_results
  rw [arg_at m (W2_keep m c main_arg3 (by decide)) (by decide)]
theorem V3_v6 (c : Dev nD) : V3 m c main_v6 = extractStridedSlice S128x128 ![128, 0] (m ((c : Thread nD τ).loc main_arg3)) slices_S384x128_S128x128_128_0 := by
  show StableHlo.after opsB (W2 m c) (Proc.devRef .tc main_v6) = _
  after_results
  rw [arg_at m (W2_keep m c main_arg3 (by decide)) (by decide)]
theorem V3_v7 (c : Dev nD) : V3 m c main_v7 = extractStridedSlice S128x128 ![256, 0] (m ((c : Thread nD τ).loc main_arg3)) slices_S384x128_S128x128_256_0 := by
  show StableHlo.after opsB (W2 m c) (Proc.devRef .tc main_v7) = _
  after_results
  rw [arg_at m (W2_keep m c main_arg3 (by decide)) (by decide)]
theorem V3_v8 (c : Dev nD) : V3 m c main_v8 = shapeCast S1x128 (m ((c : Thread nD τ).loc main_arg4)) shapeCasts_S128_S1x128 := by
  show StableHlo.after opsB (W2 m c) (Proc.devRef .tc main_v8) = _
  after_results
  rw [arg_at m (W2_keep m c main_arg4 (by decide)) (by decide)]
  rfl
theorem V3_v9 (c : Dev nD) : V3 m c main_v9 = shapeCast S1x384 (m ((c : Thread nD τ).loc main_arg6)) shapeCasts_S384_S1x384 := by
  show StableHlo.after opsB (W2 m c) (Proc.devRef .tc main_v9) = _
  after_results
  rw [arg_at m (W2_keep m c main_arg6 (by decide)) (by decide)]
  rfl

theorem V5_v1 (c : Dev nD) : V5 m c main_v1 = W1 m c (dr main_v1) := W5_keep m c _ (by decide)
theorem V5_v3 (c : Dev nD) : V5 m c main_v3 = W1 m c (dr main_v3) := W5_keep m c _ (by decide)
theorem V5_v10_0 (c : Dev nD) : V5 m c main_v10_0 = (dat1 (V3 m) (Oat (F := F) 1) (Bat (F := F) 1) Rinv1 c).arrAt 9 cfg1.N :=
  (opsC_keep (W4 m c) main_v10_0 (by decide)).trans (keep4_arr m c 9)
theorem V5_v10_2 (c : Dev nD) : V5 m c main_v10_2 = (dat1 (V3 m) (Oat (F := F) 1) (Bat (F := F) 1) Rinv1 c).arrAt 11 cfg1.N :=
  (opsC_keep (W4 m c) main_v10_2 (by decide)).trans (keep4_arr m c 11)
theorem V5_arg7 (c : Dev nD) : V5 m c main_arg7 = m ((c : Thread nD τ).loc main_arg7) := arg_at m (W5_keep m c main_arg7 (by decide)) (by decide)
theorem V5_arg9 (c : Dev nD) : V5 m c main_arg9 = m ((c : Thread nD τ).loc main_arg9) := arg_at m (W5_keep m c main_arg9 (by decide)) (by decide)
theorem V5_v11 (c : Dev nD) : V5 m c main_v11 = shapeCast S1x128 (m ((c : Thread nD τ).loc main_arg8)) shapeCasts_S128_S1x128 := by
  show StableHlo.after opsC (W4 m c) (Proc.devRef .tc main_v11) = _
  after_results
  rw [arg_at m (W4_keep m c main_arg8 (by decide)) (by decide)]
  rfl
theorem V5_v12 (c : Dev nD) : V5 m c main_v12 = shapeCast S1x128 (m ((c : Thread nD τ).loc main_arg10)) shapeCasts_S128_S1x128 := by
  show StableHlo.after opsC (W4 m c) (Proc.devRef .tc main_v12) = _
  after_results
  rw [arg_at m (W4_keep m c main_arg10 (by decide)) (by decide)]
  rfl
theorem W6_v13 (c : Dev nD) : W6 m c (dr main_v13) = (dat2 (V5 m) (Oat (F := F) 1) (Bat (F := F) 1) c).arrAt 8 cfg2.N := keep6_arr m c 8

theorem V8_v14_0 (c : Dev nD) : V8 m c main_v14_0 = gath1 c (W6 m c (dr main_v13)) (W6 m c (dr main_v1)) :=
  (opsD_keep (W7 m c) main_v14_0 (by decide)).trans (keep7_r0 m c)
theorem V8_v14_1 (c : Dev nD) : V8 m c main_v14_1 = gath1 c (W6 m c (dr main_v13)) (W6 m c (dr main_v3)) :=
  (opsD_keep (W7 m c) main_v14_1 (by decide)).trans (keep7_r1 m c)
theorem V8_v10_1 (c : Dev nD) : V8 m c main_v10_1 = (dat1 (V3 m) (Oat (F := F) 1) (Bat (F := F) 1) Rinv1 c).arrAt 10 cfg1.N :=
  calc W8 m c (dr main_v10_1)
    _ = W7 m c (dr main_v10_1) := opsD_keep _ main_v10_1 (by decide)
    _ = W6 m c (dr main_v10_1) := keep7_of_ne m c main_v10_1 (by decide)
    _ = W5 m c (dr main_v10_1) := keep6_pass m c main_v10_1 (by decide)
    _ = W4 m c (dr main_v10_1) := opsC_keep _ main_v10_1 (by decide)
    _ = (dat1 (V3 m) (Oat (F := F) 1) (Bat (F := F) 1) Rinv1 c).arrAt 10 cfg1.N := keep4_arr m c 10
theorem V8_arg13 (c : Dev nD) : V8 m c main_arg13 = m ((c : Thread nD τ).loc main_arg13) := arg_at m (W8_keep m c main_arg13 (by decide)) (by decide)
theorem V8_v15 (c : Dev nD) : V8 m c main_v15 = extractStridedSlice S128x128 ![0, 0] (m ((c : Thread nD τ).loc main_arg11)) slices_S384x128_S128x128_0_0 := by
  show StableHlo.after opsD (W7 m c) (Proc.devRef .tc main_v15) = _
  after_results
  rw [arg_at m (W7_keep m c main_arg11 (by decide)) (by decide)]
theorem V8_v16 (c : Dev nD) : V8 m c main_v16 = extractStridedSlice S128x128 ![128, 0] (m ((c : Thread nD τ).loc main_arg11)) slices_S384x128_S128x128_128_0 := by
  show StableHlo.after opsD (W7 m c) (Proc.devRef .tc main_v16) = _
  after_results
  rw [arg_at m (W7_keep m c main_arg11 (by decide)) (by decide)]
theorem V8_v17 (c : Dev nD) : V8 m c main_v17 = extractStridedSlice S128x128 ![256, 0] (m ((c : Thread nD τ).loc main_arg11)) slices_S384x128_S128x128_256_0 := by
  show StableHlo.after opsD (W7 m c) (Proc.devRef .tc main_v17) = _
  after_results
  rw [arg_at m (W7_keep m c main_arg11 (by decide)) (by decide)]
theorem V8_v18 (c : Dev nD) : V8 m c main_v18 = shapeCast S1x128 (m ((c : Thread nD τ).loc main_arg12)) shapeCasts_S128_S1x128 := by
  show StableHlo.after opsD (W7 m c) (Proc.devRef .tc main_v18) = _
  after_results
  rw [arg_at m (W7_keep m c main_arg12 (by decide)) (by decide)]
  rfl
theorem V8_v19 (c : Dev nD) : V8 m c main_v19 = shapeCast S1x384 (m ((c : Thread nD τ).loc main_arg14)) shapeCasts_S384_S1x384 := by
  show StableHlo.after opsD (W7 m c) (Proc.devRef .tc main_v19) = _
  after_results
  rw [arg_at m (W7_keep m c main_arg14 (by decide)) (by decide)]
  rfl

theorem V10_v1 (c : Dev nD) : V10 m c main_v1 = W1 m c (dr main_v1) := W10_keep m c _ (by decide)
theorem V10_v3 (c : Dev nD) : V10 m c main_v3 = W1 m c (dr main_v3) := W10_keep m c _ (by decide)
theorem V10_v20_0 (c : Dev nD) : V10 m c main_v20_0 = (dat4 (V8 m) (Oat (F := F) 2) (Bat (F := F) 2) Rinv4 c).arrAt 9 cfg4.N :=
  (opsE_keep (W9 m c) main_v20_0 (by decide)).trans (keep9_arr m c 9)
theorem V10_v20_2 (c : Dev nD) : V10 m c main_v20_2 = (dat4 (V8 m) (Oat (F := F) 2) (Bat (F := F) 2) Rinv4 c).arrAt 11 cfg4.N :=
  (opsE_keep (W9 m c) main_v20_2 (by decide)).trans (keep9_arr m c 11)
theorem V10_arg15 (c : Dev nD) : V10 m c main_arg15 = m ((c : Thread nD τ).loc main_arg15) := arg_at m (W10_keep m c main_arg15 (by decide)) (by decide)
theorem V10_arg17 (c : Dev nD) : V10 m c main_arg17 = m ((c : Thread nD τ).loc main_arg17) := arg_at m (W10_keep m c main_arg17 (by decide)) (by decide)
theorem V10_v21 (c : Dev nD) : V10 m c main_v21 = shapeCast S1x128 (m ((c : Thread nD τ).loc main_arg16)) shapeCasts_S128_S1x128 := by
  show StableHlo.after opsE (W9 m c) (Proc.devRef .tc main_v21) = _
  after_results
  rw [arg_at m (W9_keep m c main_arg16 (by decide)) (by decide)]
  rfl
theorem V10_v22 (c : Dev nD) : V10 m c main_v22 = shapeCast S1x128 (m ((c : Thread nD τ).loc main_arg18)) shapeCasts_S128_S1x128 := by
  show StableHlo.after opsE (W9 m c) (Proc.devRef .tc main_v22) = _
  after_results
  rw [arg_at m (W9_keep m c main_arg18 (by decide)) (by decide)]
  rfl

theorem W12_v24 (c : Dev nD) : W12 m c (dr main_v24)
    = extractStridedSlice S10000x128 ![0, 0] ((dat5 (V10 m) (Oat (F := F) 2) (Bat (F := F) 2) c).arrAt 8 cfg5.N) slices_S10240x128_S10000x128_0_0 := by
  show StableHlo.after opsF (W11 m c) (Proc.devRef .tc main_v24) = _
  after_results
  exact congrArg (fun x => extractStridedSlice S10000x128 ![0, 0] x slices_S10240x128_S10000x128_0_0) (keep11_arr m c 8)
theorem W12_v20_1 (c : Dev nD) : W12 m c (dr main_v20_1) = (dat4 (V8 m) (Oat (F := F) 2) (Bat (F := F) 2) Rinv4 c).arrAt 10 cfg4.N :=
  calc W12 m c (dr main_v20_1)
    _ = W11 m c (dr main_v20_1) := opsF_keep _ main_v20_1 (by decide)
    _ = W10 m c (dr main_v20_1) := keep11_pass m c main_v20_1 (by decide)
    _ = W9 m c (dr main_v20_1) := opsE_keep _ main_v20_1 (by decide)
    _ = (dat4 (V8 m) (Oat (F := F) 2) (Bat (F := F) 2) Rinv4 c).arrAt 10 cfg4.N := keep9_arr m c 10

end Cert.Proof.KI

end
-- ==== Proof.Spec.lean ====
/- Two rounds of a graph convolution over the extended reals: the function both programs compute. -/
import Idealize.ShloMosaic.PureOps.Ideal

noncomputable section

namespace Cert.Proof.Spec

open Idealize.ShloMosaic

abbrev E : Type := Fin 320000

def relu (x : EReal) : EReal := max x 0

structure Params where
  W1a : Fin 384 → Fin 128 → EReal
  b1a : Fin 128 → EReal
  W1b : Fin 128 → Fin 384 → EReal
  b1b : Fin 384 → EReal
  W2a : Fin 128 → Fin 128 → EReal
  b2a : Fin 128 → EReal
  W2b : Fin 128 → Fin 128 → EReal
  b2b : Fin 128 → EReal

section Round

variable (θ : Params) (obj : ℕ → Fin 128 → EReal) (pred : E → Fin 128 → EReal) (si oi : E → ℕ)

def lo (k : Fin 128) : Fin 384 := ⟨k.val, by omega⟩
def mid (k : Fin 128) : Fin 384 := ⟨128 + k.val, by omega⟩
def hi (k : Fin 128) : Fin 384 := ⟨256 + k.val, by omega⟩

def hid (e : E) (j : Fin 128) : EReal :=
  relu ((((∑ k : Fin 128, obj (si e) k * θ.W1a (lo k) j) + (∑ k : Fin 128, pred e k * θ.W1a (mid k) j))
    + (∑ k : Fin 128, obj (oi e) k * θ.W1a (hi k) j)) + θ.b1a j)

def tri (e : E) (j : Fin 384) : EReal :=
  relu ((∑ k : Fin 128, hid θ obj pred si oi e k * θ.W1b k j) + θ.b1b j)

def newS (e : E) (j : Fin 128) : EReal := tri θ obj pred si oi e (lo j)
def newP (e : E) (j : Fin 128) : EReal := tri θ obj pred si oi e (mid j)
def newO (e : E) (j : Fin 128) : EReal := tri θ obj pred si oi e (hi j)

def acc (n : ℕ) (j : Fin 128) : EReal :=
  (∑ e : E, if si e = n then newS θ obj pred si oi e j else 0) + (∑ e : E, if oi e = n then newO θ obj pred si oi e j else 0)

def cnt (n : ℕ) : EReal :=
  (∑ e : E, if si e = n then (1 : EReal) else 0) + (∑ e : E, if oi e = n then (1 : EReal) else 0)

def pooled (n : ℕ) (j : Fin 128) : EReal := Ideal.div (acc θ obj pred si oi n j) (max (cnt si oi n) 1)

def h2 (n : ℕ) (j : Fin 128) : EReal := relu ((∑ k : Fin 128, pooled θ obj pred si oi n k * θ.W2a k j) + θ.b2a j)
def newObj (n : ℕ) (j : Fin 128) : EReal := relu ((∑ k : Fin 128, h2 θ obj pred si oi n k * θ.W2b k j) + θ.b2b j)

end Round

def out0 (θ₀ θ₁ : Params) (obj : ℕ → Fin 128 → EReal) (pred : E → Fin 128 → EReal) (si oi : E → ℕ) (n : ℕ) (j : Fin 128) : EReal :=
  newObj θ₁ (newObj θ₀ obj pred si oi) (newP θ₀ obj pred si oi) si oi n j
def out1 (θ₀ θ₁ : Params) (obj : ℕ → Fin 128 → EReal) (pred : E → Fin 128 → EReal) (si oi : E → ℕ) (e : E) (j : Fin 128) : EReal :=
  newP θ₁ (newObj θ₀ obj pred si oi) (newP θ₀ obj pred si oi) si oi e j

end Cert.Proof.Spec

end
-- ==== Proof.SpecArgs.lean ====
/- The argument arrays read as the specification's matrices and vectors. -/
import proofs.«215230_g44530220925728_cont_8to1c4_163_46_alg».proof.Proof.Spec
import Idealize.ShloMosaic.Lib.ValueIdx

noncomputable section

namespace Cert.Proof.SpecArgs

open Idealize.ShloMosaic Idealize.ShloMosaic.ValueIdx Cert.Proof.Spec

def mat {n0 n1 : Nat} (a : FVec Ideal ⟨2, ![n0, n1]⟩ .f32) : Fin n0 → Fin n1 → EReal := fun i j => a (ix2 i j)

def vec {n : Nat} (a : FVec Ideal ⟨1, ![n]⟩ .f32) : Fin n → EReal := fun i => a (ix1 i)

def params (W1a : FVec Ideal ⟨2, ![384, 128]⟩ .f32) (b1a : FVec Ideal ⟨1, ![128]⟩ .f32) (W1b : FVec Ideal ⟨2, ![128, 384]⟩ .f32)
    (b1b : FVec Ideal ⟨1, ![384]⟩ .f32) (W2a : FVec Ideal ⟨2, ![128, 128]⟩ .f32) (b2a : FVec Ideal ⟨1, ![128]⟩ .f32)
    (W2b : FVec Ideal ⟨2, ![128, 128]⟩ .f32) (b2b : FVec Ideal ⟨1, ![128]⟩ .f32) : Params :=
  ⟨mat W1a, vec b1a, mat W1b, vec b1b, mat W2a, vec b2a, mat W2b, vec b2b⟩

def objOf (a0 : FVec Ideal ⟨2, ![10000, 128]⟩ .f32) : ℕ → Fin 128 → EReal :=
  fun r k => if h : r < 10000 then a0 (ix2 ⟨r, h⟩ k) else 0

def predOf (a1 : FVec Ideal ⟨2, ![320000, 128]⟩ .f32) : E → Fin 128 → EReal := mat a1

def colOf (a2 : Vec Ideal ⟨2, ![320000, 2]⟩ .i32) (c : Fin 2) : E → ℕ := fun e => (a2 (ix2 e c)).toNat

section Results

variable (a0 : FVec Ideal ⟨2, ![10000, 128]⟩ .f32) (a1 : FVec Ideal ⟨2, ![320000, 128]⟩ .f32) (a2 : Vec Ideal ⟨2, ![320000, 2]⟩ .i32)
  (a3 : FVec Ideal ⟨2, ![384, 128]⟩ .f32) (a4 : FVec Ideal ⟨1, ![128]⟩ .f32) (a5 : FVec Ideal ⟨2, ![128, 384]⟩ .f32) (a6 : FVec Ideal ⟨1, ![384]⟩ .f32)
  (a7 : FVec Ideal ⟨2, ![128, 128]⟩ .f32) (a8 : FVec Ideal ⟨1, ![128]⟩ .f32) (a9 : FVec Ideal ⟨2, ![128, 128]⟩ .f32) (a10 : FVec Ideal ⟨1, ![128]⟩ .f32)
  (a11 : FVec Ideal ⟨2, ![384, 128]⟩ .f32) (a12 : FVec Ideal ⟨1, ![128]⟩ .f32) (a13 : FVec Ideal ⟨2, ![128, 384]⟩ .f32) (a14 : FVec Ideal ⟨1, ![384]⟩ .f32)
  (a15 : FVec Ideal ⟨2, ![128, 128]⟩ .f32) (a16 : FVec Ideal ⟨1, ![128]⟩ .f32) (a17 : FVec Ideal ⟨2, ![128, 128]⟩ .f32) (a18 : FVec Ideal ⟨1, ![128]⟩ .f32)

def Out0 : FVec Ideal ⟨2, ![10000, 128]⟩ .f32 := fun j =>
  out0 (params a3 a4 a5 a6 a7 a8 a9 a10) (params a11 a12 a13 a14 a15 a16 a17 a18) (objOf a0) (predOf a1) (colOf a2 0) (colOf a2 1) (j 0).val (j 1)

def Out1 : FVec Ideal ⟨2, ![320000, 128]⟩ .f32 := fun j =>
  out1 (params a3 a4 a5 a6 a7 a8 a9 a10) (params a11 a12 a13 a14 a15 a16 a17 a18) (objOf a0) (predOf a1) (colOf a2 0) (colOf a2 1) (j 0) (j 1)

end Results

end Cert.Proof.SpecArgs

end
-- ==== Proof.KIVal.HostOps.lean ====
/- The host's layout steps (a column cut out of the edge list, reshapes, broadcasts) read at an index. -/
import proofs.«215230_g44530220925728_cont_8to1c4_163_46_alg».proof.KernelIdeal
import proofs.«215230_g44530220925728_cont_8to1c4_163_46_alg».proof.Proof.Spec
import proofs.«215230_g44530220925728_cont_8to1c4_163_46_alg».proof.Proof.SpecArgs
import Idealize.ShloMosaic.Lib.ValueIdx
import Idealize.ShloMosaic.Lib.Pipeline.Value
import Idealize.ShloMosaic.Lib.ValueLayout

noncomputable section

namespace Cert.Proof.KIVal

open Idealize.ShloMosaic Idealize.ShloMosaic.ValueIdx
open Cert.KernelIdeal
open Cert.Proof.Spec

variable {α : Type}

theorem shapeCast_a1_a_apply {a : ℕ} (x : (⟨2, ![a, 1]⟩ : Shape).Idx → α) (h : (⟨2, ![a, 1]⟩ : Shape).ShapeCasts ⟨1, ![a]⟩)
    (e : Fin a) : shapeCast ⟨1, ![a]⟩ x h (ix1 e) = x (ix2 e (0 : Fin 1)) :=
  shapeCast_apply x h _ _ (by
    rw [Shape.rowMajor_val_two, Shape.rowMajor_val_one]
    show e.val * 1 + 0 = e.val
    rw [Nat.mul_one, Nat.add_zero])

theorem col0_apply (a2 : S320000x2.Idx → α) (hs : S320000x2.Slices ![0, 0] S320000x1) (hr : S320000x1.ShapeCasts S320000)
    (e : Fin 320000) :
    shapeCast S320000 (extractStridedSlice S320000x1 ![0, 0] a2 hs) hr (ix1 e) = a2 (ix2 e (0 : Fin 2)) :=
  (shapeCast_a1_a_apply _ hr e).trans (slice2_axis1_apply 0 a2 hs e (0 : Fin 1) (0 : Fin 2) rfl)

theorem col1_apply (a2 : S320000x2.Idx → α) (hs : S320000x2.Slices ![0, 1] S320000x1) (hr : S320000x1.ShapeCasts S320000)
    (e : Fin 320000) :
    shapeCast S320000 (extractStridedSlice S320000x1 ![0, 1] a2 hs) hr (ix1 e) = a2 (ix2 e (1 : Fin 2)) :=
  (shapeCast_a1_a_apply _ hr e).trans (slice2_axis1_apply 1 a2 hs e (0 : Fin 1) (1 : Fin 2) rfl)

theorem wlo_apply (a3 : S384x128.Idx → α) (hs : S384x128.Slices ![0, 0] S128x128) (k' k : Fin 128) :
    extractStridedSlice S128x128 ![0, 0] a3 hs (ix2 k' k) = a3 (ix2 (lo k') k) :=
  slice2_axis0_apply 0 a3 hs k' k (lo k') (Nat.zero_add _).symm

theorem wmid_apply (a3 : S384x128.Idx → α) (hs : S384x128.Slices ![128, 0] S128x128) (k' k : Fin 128) :
    extractStridedSlice S128x128 ![128, 0] a3 hs (ix2 k' k) = a3 (ix2 (mid k') k) :=
  slice2_axis0_apply 128 a3 hs k' k (mid k') rfl

theorem whi_apply (a3 : S384x128.Idx → α) (hs : S384x128.Slices ![256, 0] S128x128) (k' k : Fin 128) :
    extractStridedSlice S128x128 ![256, 0] a3 hs (ix2 k' k) = a3 (ix2 (hi k') k) :=
  slice2_axis0_apply 256 a3 hs k' k (hi k') rfl

theorem bias128_apply (b : S128.Idx → α) (hr : S128.ShapeCasts S1x128) (k : Fin 128) :
    shapeCast S1x128 b hr (ix2 (0 : Fin 1) k) = b (ix1 k) := shapeCast_a_1a_apply b hr 0 k

theorem bias384_apply (b : S384.Idx → α) (hr : S384.ShapeCasts S1x384) (c : Fin 384) :
    shapeCast S1x384 b hr (ix2 (0 : Fin 1) c) = b (ix1 c) := shapeCast_a_1a_apply b hr 0 c

theorem rows10000_apply (v : S10240x128.Idx → α) (hs : S10240x128.Slices ![0, 0] S10000x128) (n : Fin 10000) (j : Fin 128) :
    extractStridedSlice S10000x128 ![0, 0] v hs (ix2 n j) = v (ix2 (⟨n.val, by have := n.isLt; omega⟩ : Fin 10240) j) :=
  slice2_axis0_apply 0 v hs n j ⟨n.val, by have := n.isLt; omega⟩ (Nat.zero_add _).symm

open Cert.Proof.SpecArgs

theorem col0_spec (a2 : Vec Ideal ⟨2, ![320000, 2]⟩ .i32) (hs : S320000x2.Slices ![0, 0] S320000x1) (hr : S320000x1.ShapeCasts S320000)
    (e : Fin 320000) :
    (shapeCast S320000 (extractStridedSlice S320000x1 ![0, 0] a2 hs) hr (ix1 e)).toNat = colOf a2 0 e :=
  congrArg BitVec.toNat (col0_apply a2 hs hr e)

theorem col1_spec (a2 : Vec Ideal ⟨2, ![320000, 2]⟩ .i32) (hs : S320000x2.Slices ![0, 1] S320000x1) (hr : S320000x1.ShapeCasts S320000)
    (e : Fin 320000) :
    (shapeCast S320000 (extractStridedSlice S320000x1 ![0, 1] a2 hs) hr (ix1 e)).toNat = colOf a2 1 e :=
  congrArg BitVec.toNat (col1_apply a2 hs hr e)

theorem wlo_spec (a3 : FVec Ideal ⟨2, ![384, 128]⟩ .f32) (hs : S384x128.Slices ![0, 0] S128x128) (k' k : Fin 128) :
    extractStridedSlice S128x128 ![0, 0] a3 hs (ix2 k' k) = mat a3 (lo k') k := wlo_apply a3 hs k' k

theorem wmid_spec (a3 : FVec Ideal ⟨2, ![384, 128]⟩ .f32) (hs : S384x128.Slices ![128, 0] S128x128) (k' k : Fin 128) :
    extractStridedSlice S128x128 ![128, 0] a3 hs (ix2 k' k) = mat a3 (mid k') k := wmid_apply a3 hs k' k

theorem whi_spec (a3 : FVec Ideal ⟨2, ![384, 128]⟩ .f32) (hs : S384x128.Slices ![256, 0] S128x128) (k' k : Fin 128) :
    extractStridedSlice S128x128 ![256, 0] a3 hs (ix2 k' k) = mat a3 (hi k') k := whi_apply a3 hs k' k

theorem bias128_spec (b : FVec Ideal ⟨1, ![128]⟩ .f32) (hr : S128.ShapeCasts S1x128) (k : Fin 128) :
    shapeCast S1x128 b hr (ix2 (0 : Fin 1) k) = vec b k := bias128_apply b hr k

theorem bias384_spec (b : FVec Ideal ⟨1, ![384]⟩ .f32) (hr : S384.ShapeCasts S1x384) (c : Fin 384) :
    shapeCast S1x384 b hr (ix2 (0 : Fin 1) c) = vec b c := bias384_apply b hr c

theorem objOf_row (a0 : FVec Ideal ⟨2, ![10000, 128]⟩ .f32) (n : Fin 10000) (k : Fin 128) : objOf a0 n.val k = a0 (ix2 n k) := by
  unfold objOf
  rw [dif_pos n.isLt]

end Cert.Proof.KIVal

end
-- ==== Proof.LibMlp.lean ====
/- One dense stage (matrix product, bias, rectifier) as a function on the extended reals, index by index. -/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

def eps : EReal := Ideal.ofBits .f32 0x3727C5AC#32

def zero : EReal := Ideal.ofBits .f32 0x00000000#32

def bn (a m v g b : EReal) : EReal := (a - m) * Ideal.rsqrt (v + eps) * g + b

def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

def row {H : ℕ} (x : (⟨2, ![1, H]⟩ : Shape).Idx → EReal) : Fin H → EReal := fun h => x (ix2 0 h)

def vec {H : ℕ} (x : (⟨1, ![H]⟩ : Shape).Idx → EReal) : Fin H → EReal := fun h => x (ix1 h)

theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

def relu {S : Shape} (a : S.Idx → EReal) : S.Idx → EReal := fun i => max (a i) zero

theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.KIVal.Edge.lean ====
/- One row of the edge network's block, entry by entry. -/
import proofs.«215230_g44530220925728_cont_8to1c4_163_46_alg».proof.Proof.Gen.KernelIdeal.Skeleton
import proofs.«215230_g44530220925728_cont_8to1c4_163_46_alg».proof.Proof.Spec
import proofs.«215230_g44530220925728_cont_8to1c4_163_46_alg».proof.Proof.SpecArgs
import proofs.«215230_g44530220925728_cont_8to1c4_163_46_alg».proof.Proof.LibMlp
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Proof.KIVal

open Idealize.ShloMosaic Idealize.ShloMosaic.ValueIdx
open Cert.KernelIdeal Cert.KernelIdeal.Gen
open Cert.Proof.Spec

theorem matmul0_apply {M K N : ℕ} {φa φw : FTy} (d : DotDims ⟨2, ![M, K]⟩ ⟨2, ![K, N]⟩ ⟨2, ![M, N]⟩) (hd : d = DotDims.plain M K N)
    (a : FVec Ideal ⟨2, ![M, K]⟩ φa) (W : FVec Ideal ⟨2, ![K, N]⟩ φw) (p : Fin M) (q : Fin N) :
    matmul d none a W (constant (F := Ideal) ⟨2, ![M, N]⟩ .f32 0x00000000#32) (ix2 p q) = ∑ k : Fin K, a (ix2 p k) * W (ix2 k q) := by
  subst hd
  rw [show matmul (DotDims.plain M K N) none a W (constant (F := Ideal) ⟨2, ![M, N]⟩ .f32 0x00000000#32) (ix2 p q) = _ from
    Ideal.matmul_constant_zero_apply (DotDims.plain M K N) none a W (ix2 p q)]
  exact Cert.Mlp.plain_sum a W (ix2 p q)

theorem relu_apply {S : Shape} (x : FVec Ideal S .f32) (i : S.Idx) :
    maximumf x (broadcast S (Scalar.ofBits (F := Ideal) .f32 0x00000000#32)) i = relu (x i) := by
  show max (x i) (Ideal.ofBits .f32 0x00000000#32) = max (x i) 0
  rw [Ideal.ofBits_zero_f32]

section Row

variable (s : FVec Ideal S1280x128 .f32) (ws : FVec Ideal S128x128 .f32) (p : FVec Ideal S1280x128 .f32) (wp : FVec Ideal S128x128 .f32)
  (o : FVec Ideal S1280x128 .f32) (wo : FVec Ideal S128x128 .f32) (b1 : FVec Ideal S1x128 .f32) (W2 : FVec Ideal S128x384 .f32)
  (b2 : FVec Ideal S1x384 .f32)

def hidRow (r : Fin 1280) (k : Fin 128) : EReal :=
  relu ((((∑ k' : Fin 128, s (ix2 r k') * ws (ix2 k' k)) + (∑ k' : Fin 128, p (ix2 r k') * wp (ix2 k' k)))
    + (∑ k' : Fin 128, o (ix2 r k') * wo (ix2 k' k))) + b1 (ix2 0 k))

def triRow (r : Fin 1280) (c : Fin 384) : EReal :=
  relu ((∑ k : Fin 128, hidRow s ws p wp o wo b1 r k * W2 (ix2 k c)) + b2 (ix2 0 c))

end Row

theorem triRow_eq_tri (θ : Params) (obj : ℕ → Fin 128 → EReal) (pred : E → Fin 128 → EReal) (si oi : E → ℕ) (e : E)
    (s : FVec Ideal S1280x128 .f32) (ws : FVec Ideal S128x128 .f32) (p : FVec Ideal S1280x128 .f32) (wp : FVec Ideal S128x128 .f32)
    (o : FVec Ideal S1280x128 .f32) (wo : FVec Ideal S128x128 .f32) (b1 : FVec Ideal S1x128 .f32) (W2 : FVec Ideal S128x384 .f32)
    (b2 : FVec Ideal S1x384 .f32) (r : Fin 1280)
    (hs : ∀ k, s (ix2 r k) = obj (si e) k) (hp : ∀ k, p (ix2 r k) = pred e k) (ho : ∀ k, o (ix2 r k) = obj (oi e) k)
    (hws : ∀ k' k, ws (ix2 k' k) = θ.W1a (lo k') k) (hwp : ∀ k' k, wp (ix2 k' k) = θ.W1a (mid k') k)
    (hwo : ∀ k' k, wo (ix2 k' k) = θ.W1a (hi k') k) (hb1 : ∀ k, b1 (ix2 0 k) = θ.b1a k)
    (hW2 : ∀ k c, W2 (ix2 k c) = θ.W1b k c) (hb2 : ∀ c, b2 (ix2 0 c) = θ.b1b c) (c : Fin 384) :
    triRow s ws p wp o wo b1 W2 b2 r c = tri θ obj pred si oi e c := by
  have hh : ∀ k, hidRow s ws p wp o wo b1 r k = hid θ obj pred si oi e k := fun k => by
    unfold hidRow hid
    simp only [hs, hp, ho, hws, hwp, hwo, hb1]
  unfold triRow tri
  simp only [hh, hW2, hb2]

section K1

variable (v0 : FVec Ideal S1280x128 .f32) (v2 : FVec Ideal S128x128 .f32) (v5 : FVec Ideal S1280x128 .f32) (v6 : FVec Ideal S128x128 .f32)
  (v10 : FVec Ideal S1280x128 .f32) (v12 : FVec Ideal S128x128 .f32) (v16 : FVec Ideal S1x128 .f32) (v22 : FVec Ideal S128x384 .f32)
  (v24 : FVec Ideal S1x384 .f32)

theorem k1_pay3_apply (r : Fin 1280) (c : Fin 384) :
    k1_pay3 (F := Ideal) v0 v2 v5 v6 v10 v12 v16 v22 v24 (ix2 r c) = triRow v0 v2 v5 v6 v10 v12 v16 v22 v24 r c := by
  unfold k1_pay3 triRow hidRow
  simp only [shapeCast_self]
  rw [relu_apply, addf_apply, broadcastTo_1b_ab_apply, matmul0_apply dot_S1280x128_S128x384_S1280x384_1_0_0_1_n_n rfl]
  refine congrArg (fun x => relu (x + v24 (ix2 0 c))) (Finset.sum_congr rfl fun k _ => congrArg (· * v22 (ix2 k c)) ?_)
  rw [relu_apply, addf_apply, addf_apply, addf_apply, broadcastTo_1b_ab_apply,
    matmul0_apply dot_S1280x128_S128x128_S1280x128_1_0_0_1_n_n rfl, matmul0_apply dot_S1280x128_S128x128_S1280x128_1_0_0_1_n_n rfl,
    matmul0_apply dot_S1280x128_S128x128_S1280x128_1_0_0_1_n_n rfl]

theorem k1_pay4_apply (r : Fin 1280) (j : Fin 128) :
    k1_pay4 (F := Ideal) v0 v2 v5 v6 v10 v12 v16 v22 v24 (ix2 r j) = triRow v0 v2 v5 v6 v10 v12 v16 v22 v24 r (lo j) := by
  unfold k1_pay4
  exact (slice2_axis1_apply 0 _ _ r j (lo j) (Nat.zero_add _).symm).trans (k1_pay3_apply v0 v2 v5 v6 v10 v12 v16 v22 v24 r (lo j))

theorem k1_pay1_apply (v29 : FVec Ideal S1280x384 .f32) (r : Fin 1280) (j : Fin 128) :
    k1_pay1 (F := Ideal) v29 (ix2 r j) = v29 (ix2 r (mid j)) := by
  unfold k1_pay1
  exact slice2_axis1_apply 128 _ _ r j (mid j) rfl

theorem k1_pay2_apply (v29 : FVec Ideal S1280x384 .f32) (r : Fin 1280) (j : Fin 128) :
    k1_pay2 (F := Ideal) v29 (ix2 r j) = v29 (ix2 r (hi j)) := by
  unfold k1_pay2
  exact slice2_axis1_apply 256 _ _ r j (hi j) rfl

end K1

section K4

variable (v0 : FVec Ideal S1280x128 .f32) (v2 : FVec Ideal S128x128 .f32) (v5 : FVec Ideal S1280x128 .f32) (v6 : FVec Ideal S128x128 .f32)
  (v10 : FVec Ideal S1280x128 .f32) (v12 : FVec Ideal S128x128 .f32) (v16 : FVec Ideal S1x128 .f32) (v22 : FVec Ideal S128x384 .f32)
  (v24 : FVec Ideal S1x384 .f32)

theorem k4_pay3_apply (r : Fin 1280) (c : Fin 384) :
    k4_pay3 (F := Ideal) v0 v2 v5 v6 v10 v12 v16 v22 v24 (ix2 r c) = triRow v0 v2 v5 v6 v10 v12 v16 v22 v24 r c := by
  unfold k4_pay3 triRow hidRow
  simp only [shapeCast_self]
  rw [relu_apply, addf_apply, broadcastTo_1b_ab_apply, matmul0_apply dot_S1280x128_S128x384_S1280x384_1_0_0_1_n_n rfl]
  refine congrArg (fun x => relu (x + v24 (ix2 0 c))) (Finset.sum_congr rfl fun k _ => congrArg (· * v22 (ix2 k c)) ?_)
  rw [relu_apply, addf_apply, addf_apply, addf_apply, broadcastTo_1b_ab_apply,
    matmul0_apply dot_S1280x128_S128x128_S1280x128_1_0_0_1_n_n rfl, matmul0_apply dot_S1280x128_S128x128_S1280x128_1_0_0_1_n_n rfl,
    matmul0_apply dot_S1280x128_S128x128_S1280x128_1_0_0_1_n_n rfl]

theorem k4_pay4_apply (r : Fin 1280) (j : Fin 128) :
    k4_pay4 (F := Ideal) v0 v2 v5 v6 v10 v12 v16 v22 v24 (ix2 r j) = triRow v0 v2 v5 v6 v10 v12 v16 v22 v24 r (lo j) := by
  unfold k4_pay4
  exact (slice2_axis1_apply 0 _ _ r j (lo j) (Nat.zero_add _).symm).trans (k4_pay3_apply v0 v2 v5 v6 v10 v12 v16 v22 v24 r (lo j))

theorem k4_pay1_apply (v29 : FVec Ideal S1280x384 .f32) (r : Fin 1280) (j : Fin 128) :
    k4_pay1 (F := Ideal) v29 (ix2 r j) = v29 (ix2 r (mid j)) := by
  unfold k4_pay1
  exact slice2_axis1_apply 128 _ _ r j (mid j) rfl

theorem k4_pay2_apply (v29 : FVec Ideal S1280x384 .f32) (r : Fin 1280) (j : Fin 128) :
    k4_pay2 (F := Ideal) v29 (ix2 r j) = v29 (ix2 r (hi j)) := by
  unfold k4_pay2
  exact slice2_axis1_apply 256 _ _ r j (hi j) rfl

end K4

end Cert.Proof.KIVal

end
-- ==== Proof.KIVal.EdgeSpec.lean ====
/- The edge network's three stored blocks are the specification's three parts of the edge's new vector. -/
import proofs.«215230_g44530220925728_cont_8to1c4_163_46_alg».proof.Proof.KIVal.Edge

noncomputable section

open scoped BigOperators

namespace Cert.Proof.KIVal

open Idealize.ShloMosaic Idealize.ShloMosaic.ValueIdx
open Cert.KernelIdeal Cert.KernelIdeal.Gen
open Cert.Proof.Spec

theorem k1_newS (θ : Params) (obj : ℕ → Fin 128 → EReal) (pred : E → Fin 128 → EReal) (si oi : E → ℕ) (e : E)
    (v0 : FVec Ideal S1280x128 .f32) (v2 : FVec Ideal S128x128 .f32) (v5 : FVec Ideal S1280x128 .f32) (v6 : FVec Ideal S128x128 .f32)
    (v10 : FVec Ideal S1280x128 .f32) (v12 : FVec Ideal S128x128 .f32) (v16 : FVec Ideal S1x128 .f32) (v22 : FVec Ideal S128x384 .f32)
    (v24 : FVec Ideal S1x384 .f32) (r : Fin 1280)
    (hs : ∀ k, v0 (ix2 r k) = obj (si e) k) (hp : ∀ k, v5 (ix2 r k) = pred e k) (ho : ∀ k, v10 (ix2 r k) = obj (oi e) k)
    (hws : ∀ k' k, v2 (ix2 k' k) = θ.W1a (lo k') k) (hwp : ∀ k' k, v6 (ix2 k' k) = θ.W1a (mid k') k)
    (hwo : ∀ k' k, v12 (ix2 k' k) = θ.W1a (hi k') k) (hb1 : ∀ k, v16 (ix2 0 k) = θ.b1a k)
    (hW2 : ∀ k c, v22 (ix2 k c) = θ.W1b k c) (hb2 : ∀ c, v24 (ix2 0 c) = θ.b1b c) (j : Fin 128) :
    k1_pay4 (F := Ideal) v0 v2 v5 v6 v10 v12 v16 v22 v24 (ix2 r j) = newS θ obj pred si oi e j :=
  (k1_pay4_apply v0 v2 v5 v6 v10 v12 v16 v22 v24 r j).trans (triRow_eq_tri θ obj pred si oi e v0 v2 v5 v6 v10 v12 v16 v22 v24 r hs hp ho hws hwp hwo hb1 hW2 hb2 (lo j))

theorem k1_newP (θ : Params) (obj : ℕ → Fin 128 → EReal) (pred : E → Fin 128 → EReal) (si oi : E → ℕ) (e : E)
    (v0 : FVec Ideal S1280x128 .f32) (v2 : FVec Ideal S128x128 .f32) (v5 : FVec Ideal S1280x128 .f32) (v6 : FVec Ideal S128x128 .f32)
    (v10 : FVec Ideal S1280x128 .f32) (v12 : FVec Ideal S128x128 .f32) (v16 : FVec Ideal S1x128 .f32) (v22 : FVec Ideal S128x384 .f32)
    (v24 : FVec Ideal S1x384 .f32) (r : Fin 1280)
    (hs : ∀ k, v0 (ix2 r k) = obj (si e) k) (hp : ∀ k, v5 (ix2 r k) = pred e k) (ho : ∀ k, v10 (ix2 r k) = obj (oi e) k)
    (hws : ∀ k' k, v2 (ix2 k' k) = θ.W1a (lo k') k) (hwp : ∀ k' k, v6 (ix2 k' k) = θ.W1a (mid k') k)
    (hwo : ∀ k' k, v12 (ix2 k' k) = θ.W1a (hi k') k) (hb1 : ∀ k, v16 (ix2 0 k) = θ.b1a k)
    (hW2 : ∀ k c, v22 (ix2 k c) = θ.W1b k c) (hb2 : ∀ c, v24 (ix2 0 c) = θ.b1b c) (j : Fin 128) :
    k1_pay1 (F := Ideal) (k1_pay3 (F := Ideal) v0 v2 v5 v6 v10 v12 v16 v22 v24) (ix2 r j) = newP θ obj pred si oi e j :=
  (k1_pay1_apply _ r j).trans ((k1_pay3_apply v0 v2 v5 v6 v10 v12 v16 v22 v24 r (mid j)).trans (triRow_eq_tri θ obj pred si oi e v0 v2 v5 v6 v10 v12 v16 v22 v24 r hs hp ho hws hwp hwo hb1 hW2 hb2 (mid j)))

theorem k1_newO (θ : Params) (obj : ℕ → Fin 128 → EReal) (pred : E → Fin 128 → EReal) (si oi : E → ℕ) (e : E)
    (v0 : FVec Ideal S1280x128 .f32) (v2 : FVec Ideal S128x128 .f32) (v5 : FVec Ideal S1280x128 .f32) (v6 : FVec Ideal S128x128 .f32)
    (v10 : FVec Ideal S1280x128 .f32) (v12 : FVec Ideal S128x128 .f32) (v16 : FVec Ideal S1x128 .f32) (v22 : FVec Ideal S128x384 .f32)
    (v24 : FVec Ideal S1x384 .f32) (r : Fin 1280)
    (hs : ∀ k, v0 (ix2 r k) = obj (si e) k) (hp : ∀ k, v5 (ix2 r k) = pred e k) (ho : ∀ k, v10 (ix2 r k) = obj (oi e) k)
    (hws : ∀ k' k, v2 (ix2 k' k) = θ.W1a (lo k') k) (hwp : ∀ k' k, v6 (ix2 k' k) = θ.W1a (mid k') k)
    (hwo : ∀ k' k, v12 (ix2 k' k) = θ.W1a (hi k') k) (hb1 : ∀ k, v16 (ix2 0 k) = θ.b1a k)
    (hW2 : ∀ k c, v22 (ix2 k c) = θ.W1b k c) (hb2 : ∀ c, v24 (ix2 0 c) = θ.b1b c) (j : Fin 128) :
    k1_pay2 (F := Ideal) (k1_pay3 (F := Ideal) v0 v2 v5 v6 v10 v12 v16 v22 v24) (ix2 r j) = newO θ obj pred si oi e j :=
  (k1_pay2_apply _ r j).trans ((k1_pay3_apply v0 v2 v5 v6 v10 v12 v16 v22 v24 r (hi j)).trans (triRow_eq_tri θ obj pred si oi e v0 v2 v5 v6 v10 v12 v16 v22 v24 r hs hp ho hws hwp hwo hb1 hW2 hb2 (hi j)))

theorem k4_newS (θ : Params) (obj : ℕ → Fin 128 → EReal) (pred : E → Fin 128 → EReal) (si oi : E → ℕ) (e : E)
    (v0 : FVec Ideal S1280x128 .f32) (v2 : FVec Ideal S128x128 .f32) (v5 : FVec Ideal S1280x128 .f32) (v7 : FVec Ideal S128x128 .f32)
    (v11 : FVec Ideal S1280x128 .f32) (v13 : FVec Ideal S128x128 .f32) (v17 : FVec Ideal S1x128 .f32) (v23 : FVec Ideal S128x384 .f32)
    (v25 : FVec Ideal S1x384 .f32) (r : Fin 1280)
    (hs : ∀ k, v0 (ix2 r k) = obj (si e) k) (hp : ∀ k, v5 (ix2 r k) = pred e k) (ho : ∀ k, v11 (ix2 r k) = obj (oi e) k)
    (hws : ∀ k' k, v2 (ix2 k' k) = θ.W1a (lo k') k) (hwp : ∀ k' k, v7 (ix2 k' k) = θ.W1a (mid k') k)
    (hwo : ∀ k' k, v13 (ix2 k' k) = θ.W1a (hi k') k) (hb1 : ∀ k, v17 (ix2 0 k) = θ.b1a k)
    (hW2 : ∀ k c, v23 (ix2 k c) = θ.W1b k c) (hb2 : ∀ c, v25 (ix2 0 c) = θ.b1b c) (j : Fin 128) :
    k4_pay4 (F := Ideal) v0 v2 v5 v7 v11 v13 v17 v23 v25 (ix2 r j) = newS θ obj pred si oi e j :=
  (k4_pay4_apply v0 v2 v5 v7 v11 v13 v17 v23 v25 r j).trans (triRow_eq_tri θ obj pred si oi e v0 v2 v5 v7 v11 v13 v17 v23 v25 r hs hp ho hws hwp hwo hb1 hW2 hb2 (lo j))

theorem k4_newP (θ : Params) (obj : ℕ → Fin 128 → EReal) (pred : E → Fin 128 → EReal) (si oi : E → ℕ) (e : E)
    (v0 : FVec Ideal S1280x128 .f32) (v2 : FVec Ideal S128x128 .f32) (v5 : FVec Ideal S1280x128 .f32) (v7 : FVec Ideal S128x128 .f32)
    (v11 : FVec Ideal S1280x128 .f32) (v13 : FVec Ideal S128x128 .f32) (v17 : FVec Ideal S1x128 .f32) (v23 : FVec Ideal S128x384 .f32)
    (v25 : FVec Ideal S1x384 .f32) (r : Fin 1280)
    (hs : ∀ k, v0 (ix2 r k) = obj (si e) k) (hp : ∀ k, v5 (ix2 r k) = pred e k) (ho : ∀ k, v11 (ix2 r k) = obj (oi e) k)
    (hws : ∀ k' k, v2 (ix2 k' k) = θ.W1a (lo k') k) (hwp : ∀ k' k, v7 (ix2 k' k) = θ.W1a (mid k') k)
    (hwo : ∀ k' k, v13 (ix2 k' k) = θ.W1a (hi k') k) (hb1 : ∀ k, v17 (ix2 0 k) = θ.b1a k)
    (hW2 : ∀ k c, v23 (ix2 k c) = θ.W1b k c) (hb2 : ∀ c, v25 (ix2 0 c) = θ.b1b c) (j : Fin 128) :
    k4_pay1 (F := Ideal) (k4_pay3 (F := Ideal) v0 v2 v5 v7 v11 v13 v17 v23 v25) (ix2 r j) = newP θ obj pred si oi e j :=
  (k4_pay1_apply _ r j).trans ((k4_pay3_apply v0 v2 v5 v7 v11 v13 v17 v23 v25 r (mid j)).trans (triRow_eq_tri θ obj pred si oi e v0 v2 v5 v7 v11 v13 v17 v23 v25 r hs hp ho hws hwp hwo hb1 hW2 hb2 (mid j)))

theorem k4_newO (θ : Params) (obj : ℕ → Fin 128 → EReal) (pred : E → Fin 128 → EReal) (si oi : E → ℕ) (e : E)
    (v0 : FVec Ideal S1280x128 .f32) (v2 : FVec Ideal S128x128 .f32) (v5 : FVec Ideal S1280x128 .f32) (v7 : FVec Ideal S128x128 .f32)
    (v11 : FVec Ideal S1280x128 .f32) (v13 : FVec Ideal S128x128 .f32) (v17 : FVec Ideal S1x128 .f32) (v23 : FVec Ideal S128x384 .f32)
    (v25 : FVec Ideal S1x384 .f32) (r : Fin 1280)
    (hs : ∀ k, v0 (ix2 r k) = obj (si e) k) (hp : ∀ k, v5 (ix2 r k) = pred e k) (ho : ∀ k, v11 (ix2 r k) = obj (oi e) k)
    (hws : ∀ k' k, v2 (ix2 k' k) = θ.W1a (lo k') k) (hwp : ∀ k' k, v7 (ix2 k' k) = θ.W1a (mid k') k)
    (hwo : ∀ k' k, v13 (ix2 k' k) = θ.W1a (hi k') k) (hb1 : ∀ k, v17 (ix2 0 k) = θ.b1a k)
    (hW2 : ∀ k c, v23 (ix2 k c) = θ.W1b k c) (hb2 : ∀ c, v25 (ix2 0 c) = θ.b1b c) (j : Fin 128) :
    k4_pay2 (F := Ideal) (k4_pay3 (F := Ideal) v0 v2 v5 v7 v11 v13 v17 v23 v25) (ix2 r j) = newO θ obj pred si oi e j :=
  (k4_pay2_apply _ r j).trans ((k4_pay3_apply v0 v2 v5 v7 v11 v13 v17 v23 v25 r (hi j)).trans (triRow_eq_tri θ obj pred si oi e v0 v2 v5 v7 v11 v13 v17 v23 v25 r hs hp ho hws hwp hwo hb1 hW2 hb2 (hi j)))

end Cert.Proof.KIVal

end
-- ==== Proof.KIVal.EdgeFinal.lean ====
/- After the edge network's region each of its three result arrays is the specification's part, index by index. -/
import proofs.«215230_g44530220925728_cont_8to1c4_163_46_alg».proof.Proof.KI.Edge
import proofs.«215230_g44530220925728_cont_8to1c4_163_46_alg».proof.Proof.KIVal.EdgeSpec
import Idealize.ShloMosaic.Lib.Pipeline.Value

noncomputable section

namespace Cert.Proof.KIVal

open Cert.KernelIdeal Cert.KernelIdeal.Gen
open Cert.Proof.KI
open Idealize.ShloMosaic Idealize.ShloMosaic.TcCoe Idealize.ShloMosaic.ValueIdx
open Idealize.ShloMosaic.SparseCore.Cfg (HIx)
open Idealize.SL.BI (sProp)
open Idealize.ShloMosaic.Pipeline (Dat)

section Final1

variable (V : (c : Dev nD) → (b : Ref sig .tc) → Buf (Elt Ideal) ((c : Thread nD τ).loc b))
  (O : Dev nD → CellTallies nD τ sig (HIx 2)) (B : Dev nD → Set (SemLoc sig × HIx 2))
  (R : Dev nD → sProp (MT nD τ sig (HIx 2) (Elt Ideal) ℕ UU ℕ))

theorem hz1 : (![0, 0] : Fin 2 → Nat) = fun _ => 0 := funext fun a => by fin_cases a <;> rfl

/-- A block index (p, 0). -/
abbrev iblk1_ix (ι : Fin 2 → ℕ) (p : ℕ) : Prop := ι 0 = p ∧ ι 1 = 0

/-- The block index of every window at every point: (t, 0) for the six row-block windows, (0, 0) for the six tables. -/
theorem idx_facts1 : ∀ t : Fin cfg1.N,
    iblk1_ix (win1_0.index t) t.val ∧ iblk1_ix (win1_1.index t) t.val ∧ iblk1_ix (win1_2.index t) t.val
    ∧ iblk1_ix (win1_3.index t) 0 ∧ iblk1_ix (win1_4.index t) 0 ∧ iblk1_ix (win1_5.index t) 0
    ∧ iblk1_ix (win1_6.index t) 0 ∧ iblk1_ix (win1_7.index t) 0 ∧ iblk1_ix (win1_8.index t) 0
    ∧ iblk1_ix (win1_9.index t) t.val ∧ iblk1_ix (win1_10.index t) t.val ∧ iblk1_ix (win1_11.index t) t.val :=
  (by decide +kernel : ∀ t : Fin grid1.N, _)

/-- Row `r` of point `t`'s block is a row of the array: 250 blocks of 1280 rows tile its 320000. -/
theorem iblk1_lt (t : Fin cfg1.N) (r : Fin 1280) : 1280 * t.val + r.val < 320000 := by
  have := t.isLt; have : cfg1.N = 250 := N_1; omega

/-- Every row of the array is row `r` of some point `q`'s block. -/
theorem iblk1_row (e : Fin 320000) : ∃ (q : Fin cfg1.N) (r : Fin 1280), e = ⟨1280 * q.val + r.val, iblk1_lt q r⟩ :=
  ⟨⟨e.val / 1280, by have := e.isLt; rw [show cfg1.N = 250 from N_1]; omega⟩, ⟨e.val % 1280, Nat.mod_lt _ (by omega)⟩,
    Fin.ext (Nat.div_add_mod e.val 1280).symm⟩

/-- An entry of a 1280-row block at block index (t, 0) sits at row 1280·t + y₀, column y₁ of the array. -/
theorem iblk1_at (t : Fin cfg1.N) (f : S1280x128.Idx → S320000x128.Idx) {ι : Fin 2 → ℕ} (h : iblk1_ix ι t.val)
    (hf : ∀ y a, (f y a).val = ι a * S1280x128.size a + 1 * (y a).val) (y : S1280x128.Idx) :
    f y = ix2 ⟨_, iblk1_lt t (y 0)⟩ (y 1) :=
  Shape.idx_ext₂ (by rw [hf y 0, h.1]; show t.val * 1280 + 1 * (y 0).val = 1280 * t.val + (y 0).val; omega)
    (by rw [hf y 1, h.2]; show 0 * 128 + 1 * (y 1).val = (y 1).val; omega)

/-- An entry of a block at block index (0, 0) sits in the array where it sits in the block. -/
theorem iblk1_at0 {n : Fin 2 → ℕ} (f : ((a : Fin 2) → Fin (n a)) → (a : Fin 2) → Fin (n a)) {ι : Fin 2 → ℕ} (h : iblk1_ix ι 0)
    (hf : ∀ x a, (f x a).val = ι a * n a + 1 * (x a).val) (x : (a : Fin 2) → Fin (n a)) : f x = x :=
  Shape.idx_ext₂ (by rw [hf x 0, h.1]; omega) (by rw [hf x 1, h.2]; omega)

theorem win1_9_emb (t : Fin cfg1.N) (y : S1280x128.Idx) :
    ((cfg1.win 9).blk t).view.emb y = (ix2 ⟨_, iblk1_lt t (y 0)⟩ (y 1) : S320000x128.Idx) :=
  iblk1_at t ((cfg1.win 9).blk t).view.emb (idx_facts1 t).2.2.2.2.2.2.2.2.2.1 (fun _ _ => rfl) y
theorem win1_10_emb (t : Fin cfg1.N) (y : S1280x128.Idx) :
    ((cfg1.win 10).blk t).view.emb y = (ix2 ⟨_, iblk1_lt t (y 0)⟩ (y 1) : S320000x128.Idx) :=
  iblk1_at t ((cfg1.win 10).blk t).view.emb (idx_facts1 t).2.2.2.2.2.2.2.2.2.2.1 (fun _ _ => rfl) y
theorem win1_11_emb (t : Fin cfg1.N) (y : S1280x128.Idx) :
    ((cfg1.win 11).blk t).view.emb y = (ix2 ⟨_, iblk1_lt t (y 0)⟩ (y 1) : S320000x128.Idx) :=
  iblk1_at t ((cfg1.win 11).blk t).view.emb (idx_facts1 t).2.2.2.2.2.2.2.2.2.2.2 (fun _ _ => rfl) y

variable (c : Dev nD)

variable (θ : Spec.Params) (obj : ℕ → Fin 128 → EReal) (pred : Spec.E → Fin 128 → EReal) (si oi : Spec.E → ℕ)

variable (hs : ∀ e k, V c main_v4_0 (ix2 e k) = obj (si e) k) (hp : ∀ e k, V c main_arg1 (ix2 e k) = pred e k) (ho : ∀ e k, V c main_v4_1 (ix2 e k) = obj (oi e) k)
  (hws : ∀ k' k, V c main_v5 (ix2 k' k) = θ.W1a (Spec.lo k') k) (hwp : ∀ k' k, V c main_v6 (ix2 k' k) = θ.W1a (Spec.mid k') k) (hwo : ∀ k' k, V c main_v7 (ix2 k' k) = θ.W1a (Spec.hi k') k)
  (hb1 : ∀ k, V c main_v8 (ix2 0 k) = θ.b1a k) (hW2 : ∀ k j, V c main_arg5 (ix2 k j) = θ.W1b k j) (hb2 : ∀ j, V c main_v9 (ix2 0 j) = θ.b1b j)
include hs hp ho hws hwp hwo hb1 hW2 hb2

/-- With the arrays the specification's operands, entry `y` of the body's three results at point `t` is the specification's three parts of edge 1280·t + y₀ at column y₁. -/
theorem after1_at (t : Fin cfg1.N) (y : S1280x128.Idx) :
    (dat1 V O B R c).after 9 t y = Spec.newS θ obj pred si oi ⟨_, iblk1_lt t (y 0)⟩ (y 1)
    ∧ (dat1 V O B R c).after 10 t y = Spec.newP θ obj pred si oi ⟨_, iblk1_lt t (y 0)⟩ (y 1)
    ∧ (dat1 V O B R c).after 11 t y = Spec.newO θ obj pred si oi ⟨_, iblk1_lt t (y 0)⟩ (y 1) := by
  obtain ⟨r, j, rfl⟩ : ∃ r j, y = ix2 r j := ⟨_, _, eq_ix2 y⟩
  obtain ⟨f0, f1, f2, f3, f4, f5, f6, f7, f8, -⟩ := idx_facts1 t
  rw [after1_9, after1_10, after1_11]
  unfold out1_9 out1_10 out1_11
  simp only [View.canon_unit_zero (S := S1280x128) hz1, View.ld_unit_zero (S := S1280x128) hz1, View.ld_unit_zero (S := S128x128) hz1,
    View.ld_unit_zero (S := S1x128) hz1, View.ld_unit_zero (S := S128x384) hz1, View.ld_unit_zero (S := S1x384) hz1]
  have h0 := fun k => (congrArg (V c main_v4_0) (iblk1_at t ((cfg1.win 0).blk t).view.emb f0 (fun _ _ => rfl) (ix2 r k))).trans (hs _ k)
  have h1 := fun k => (congrArg (V c main_arg1) (iblk1_at t ((cfg1.win 1).blk t).view.emb f1 (fun _ _ => rfl) (ix2 r k))).trans (hp _ k)
  have h2 := fun k => (congrArg (V c main_v4_1) (iblk1_at t ((cfg1.win 2).blk t).view.emb f2 (fun _ _ => rfl) (ix2 r k))).trans (ho _ k)
  have h3 := fun k' k => (congrArg (V c main_v5) (iblk1_at0 ((cfg1.win 3).blk t).view.emb f3 (fun _ _ => rfl) (ix2 k' k))).trans (hws k' k)
  have h4 := fun k' k => (congrArg (V c main_v6) (iblk1_at0 ((cfg1.win 4).blk t).view.emb f4 (fun _ _ => rfl) (ix2 k' k))).trans (hwp k' k)
  have h5 := fun k' k => (congrArg (V c main_v7) (iblk1_at0 ((cfg1.win 5).blk t).view.emb f5 (fun _ _ => rfl) (ix2 k' k))).trans (hwo k' k)
  have h6 := fun k => (congrArg (V c main_v8) (iblk1_at0 ((cfg1.win 6).blk t).view.emb f6 (fun _ _ => rfl) (ix2 0 k))).trans (hb1 k)
  have h7 := fun k j => (congrArg (V c main_arg5) (iblk1_at0 ((cfg1.win 7).blk t).view.emb f7 (fun _ _ => rfl) (ix2 k j))).trans (hW2 k j)
  have h8 := fun j => (congrArg (V c main_v9) (iblk1_at0 ((cfg1.win 8).blk t).view.emb f8 (fun _ _ => rfl) (ix2 0 j))).trans (hb2 j)
  exact ⟨k1_newS θ obj pred si oi _ _ _ _ _ _ _ _ _ _ r h0 h1 h2 h3 h4 h5 h6 h7 h8 j,
    k1_newP θ obj pred si oi _ _ _ _ _ _ _ _ _ _ r h0 h1 h2 h3 h4 h5 h6 h7 h8 j,
    k1_newO θ obj pred si oi _ _ _ _ _ _ _ _ _ _ r h0 h1 h2 h3 h4 h5 h6 h7 h8 j⟩

/-- After the region, row `e` of the three result arrays is the specification's three parts of edge `e`'s row: each point's results are its blocks of three whole-array functions, and row `e` is in some point's block. -/
theorem edge_value1 (e : Spec.E) (j : Fin 128) :
    (dat1 (F := Ideal) V O B R c).arrAt 9 cfg1.N (ix2 e j) = Spec.newS θ obj pred si oi e j
      ∧ (dat1 V O B R c).arrAt 10 cfg1.N (ix2 e j) = Spec.newP θ obj pred si oi e j
      ∧ (dat1 V O B R c).arrAt 11 cfg1.N (ix2 e j) = Spec.newO θ obj pred si oi e j := by
  obtain ⟨q, r, rfl⟩ := iblk1_row e
  have A := after1_at V O B R c θ obj pred si oi hs hp ho hws hwp hwo hb1 hW2 hb2
  have h9 := (dat1 V O B R c).arrAt_apply_of_mem 9 (fun i : S320000x128.Idx => Spec.newS θ obj pred si oi (i 0) (i 1))
    (fun t _ => by funext y; rw [View.read_apply, win1_9_emb]; exact (A t y).1)
    cfg1.N q _ q.isLt (flush1_9 _) (View.emb_mem_set _ (ix2 r j))
  have h10 := (dat1 V O B R c).arrAt_apply_of_mem 10 (fun i : S320000x128.Idx => Spec.newP θ obj pred si oi (i 0) (i 1))
    (fun t _ => by funext y; rw [View.read_apply, win1_10_emb]; exact (A t y).2.1)
    cfg1.N q _ q.isLt (flush1_10 _) (View.emb_mem_set _ (ix2 r j))
  have h11 := (dat1 V O B R c).arrAt_apply_of_mem 11 (fun i : S320000x128.Idx => Spec.newO θ obj pred si oi (i 0) (i 1))
    (fun t _ => by funext y; rw [View.read_apply, win1_11_emb]; exact (A t y).2.2)
    cfg1.N q _ q.isLt (flush1_11 _) (View.emb_mem_set _ (ix2 r j))
  rw [win1_9_emb] at h9; rw [win1_10_emb] at h10; rw [win1_11_emb] at h11
  exact ⟨h9, h10, h11⟩

end Final1

end Cert.Proof.KIVal

end
-- ==== Proof.KIVal.EdgeFinal4.lean ====
/- After the edge network's region each of its three result arrays is the specification's part, index by index. -/
import proofs.«215230_g44530220925728_cont_8to1c4_163_46_alg».proof.Proof.KI.Edge4
import proofs.«215230_g44530220925728_cont_8to1c4_163_46_alg».proof.Proof.KIVal.EdgeSpec
import Idealize.ShloMosaic.Lib.Pipeline.Value

noncomputable section

namespace Cert.Proof.KIVal

open Cert.KernelIdeal Cert.KernelIdeal.Gen
open Cert.Proof.KI
open Idealize.ShloMosaic Idealize.ShloMosaic.TcCoe Idealize.ShloMosaic.ValueIdx
open Idealize.ShloMosaic.SparseCore.Cfg (HIx)
open Idealize.SL.BI (sProp)
open Idealize.ShloMosaic.Pipeline (Dat)

section Final4

variable (V : (c : Dev nD) → (b : Ref sig .tc) → Buf (Elt Ideal) ((c : Thread nD τ).loc b))
  (O : Dev nD → CellTallies nD τ sig (HIx 2)) (B : Dev nD → Set (SemLoc sig × HIx 2))
  (R : Dev nD → sProp (MT nD τ sig (HIx 2) (Elt Ideal) ℕ UU ℕ))

theorem hz4 : (![0, 0] : Fin 2 → Nat) = fun _ => 0 := funext fun a => by fin_cases a <;> rfl

/-- A block index (p, 0). -/
abbrev iblk4_ix (ι : Fin 2 → ℕ) (p : ℕ) : Prop := ι 0 = p ∧ ι 1 = 0

/-- The block index of every window at every point: (t, 0) for the six row-block windows, (0, 0) for the six tables. -/
theorem idx_facts4 : ∀ t : Fin cfg4.N,
    iblk4_ix (win4_0.index t) t.val ∧ iblk4_ix (win4_1.index t) t.val ∧ iblk4_ix (win4_2.index t) t.val
    ∧ iblk4_ix (win4_3.index t) 0 ∧ iblk4_ix (win4_4.index t) 0 ∧ iblk4_ix (win4_5.index t) 0
    ∧ iblk4_ix (win4_6.index t) 0 ∧ iblk4_ix (win4_7.index t) 0 ∧ iblk4_ix (win4_8.index t) 0
    ∧ iblk4_ix (win4_9.index t) t.val ∧ iblk4_ix (win4_10.index t) t.val ∧ iblk4_ix (win4_11.index t) t.val :=
  (by decide +kernel : ∀ t : Fin grid4.N, _)

/-- Row `r` of point `t`'s block is a row of the array: 250 blocks of 1280 rows tile its 320000. -/
theorem iblk4_lt (t : Fin cfg4.N) (r : Fin 1280) : 1280 * t.val + r.val < 320000 := by
  have := t.isLt; have : cfg4.N = 250 := N_4; omega

/-- Every row of the array is row `r` of some point `q`'s block. -/
theorem iblk4_row (e : Fin 320000) : ∃ (q : Fin cfg4.N) (r : Fin 1280), e = ⟨1280 * q.val + r.val, iblk4_lt q r⟩ :=
  ⟨⟨e.val / 1280, by have := e.isLt; rw [show cfg4.N = 250 from N_4]; omega⟩, ⟨e.val % 1280, Nat.mod_lt _ (by omega)⟩,
    Fin.ext (Nat.div_add_mod e.val 1280).symm⟩

/-- An entry of a 1280-row block at block index (t, 0) sits at row 1280·t + y₀, column y₁ of the array. -/
theorem iblk4_at (t : Fin cfg4.N) (f : S1280x128.Idx → S320000x128.Idx) {ι : Fin 2 → ℕ} (h : iblk4_ix ι t.val)
    (hf : ∀ y a, (f y a).val = ι a * S1280x128.size a + 1 * (y a).val) (y : S1280x128.Idx) :
    f y = ix2 ⟨_, iblk4_lt t (y 0)⟩ (y 1) :=
  Shape.idx_ext₂ (by rw [hf y 0, h.1]; show t.val * 1280 + 1 * (y 0).val = 1280 * t.val + (y 0).val; omega)
    (by rw [hf y 1, h.2]; show 0 * 128 + 1 * (y 1).val = (y 1).val; omega)

/-- An entry of a block at block index (0, 0) sits in the array where it sits in the block. -/
theorem iblk4_at0 {n : Fin 2 → ℕ} (f : ((a : Fin 2) → Fin (n a)) → (a : Fin 2) → Fin (n a)) {ι : Fin 2 → ℕ} (h : iblk4_ix ι 0)
    (hf : ∀ x a, (f x a).val = ι a * n a + 1 * (x a).val) (x : (a : Fin 2) → Fin (n a)) : f x = x :=
  Shape.idx_ext₂ (by rw [hf x 0, h.1]; omega) (by rw [hf x 1, h.2]; omega)

theorem win4_9_emb (t : Fin cfg4.N) (y : S1280x128.Idx) :
    ((cfg4.win 9).blk t).view.emb y = (ix2 ⟨_, iblk4_lt t (y 0)⟩ (y 1) : S320000x128.Idx) :=
  iblk4_at t ((cfg4.win 9).blk t).view.emb (idx_facts4 t).2.2.2.2.2.2.2.2.2.1 (fun _ _ => rfl) y
theorem win4_10_emb (t : Fin cfg4.N) (y : S1280x128.Idx) :
    ((cfg4.win 10).blk t).view.emb y = (ix2 ⟨_, iblk4_lt t (y 0)⟩ (y 1) : S320000x128.Idx) :=
  iblk4_at t ((cfg4.win 10).blk t).view.emb (idx_facts4 t).2.2.2.2.2.2.2.2.2.2.1 (fun _ _ => rfl) y
theorem win4_11_emb (t : Fin cfg4.N) (y : S1280x128.Idx) :
    ((cfg4.win 11).blk t).view.emb y = (ix2 ⟨_, iblk4_lt t (y 0)⟩ (y 1) : S320000x128.Idx) :=
  iblk4_at t ((cfg4.win 11).blk t).view.emb (idx_facts4 t).2.2.2.2.2.2.2.2.2.2.2 (fun _ _ => rfl) y

variable (c : Dev nD)

variable (θ : Spec.Params) (obj : ℕ → Fin 128 → EReal) (pred : Spec.E → Fin 128 → EReal) (si oi : Spec.E → ℕ)

variable (hs : ∀ e k, V c main_v14_0 (ix2 e k) = obj (si e) k) (hp : ∀ e k, V c main_v10_1 (ix2 e k) = pred e k) (ho : ∀ e k, V c main_v14_1 (ix2 e k) = obj (oi e) k)
  (hws : ∀ k' k, V c main_v15 (ix2 k' k) = θ.W1a (Spec.lo k') k) (hwp : ∀ k' k, V c main_v16 (ix2 k' k) = θ.W1a (Spec.mid k') k) (hwo : ∀ k' k, V c main_v17 (ix2 k' k) = θ.W1a (Spec.hi k') k)
  (hb1 : ∀ k, V c main_v18 (ix2 0 k) = θ.b1a k) (hW2 : ∀ k j, V c main_arg13 (ix2 k j) = θ.W1b k j) (hb2 : ∀ j, V c main_v19 (ix2 0 j) = θ.b1b j)
include hs hp ho hws hwp hwo hb1 hW2 hb2

/-- With the arrays the specification's operands, entry `y` of the body's three results at point `t` is the specification's three parts of edge 1280·t + y₀ at column y₁. -/
theorem after4_at (t : Fin cfg4.N) (y : S1280x128.Idx) :
    (dat4 V O B R c).after 9 t y = Spec.newS θ obj pred si oi ⟨_, iblk4_lt t (y 0)⟩ (y 1)
    ∧ (dat4 V O B R c).after 10 t y = Spec.newP θ obj pred si oi ⟨_, iblk4_lt t (y 0)⟩ (y 1)
    ∧ (dat4 V O B R c).after 11 t y = Spec.newO θ obj pred si oi ⟨_, iblk4_lt t (y 0)⟩ (y 1) := by
  obtain ⟨r, j, rfl⟩ : ∃ r j, y = ix2 r j := ⟨_, _, eq_ix2 y⟩
  obtain ⟨f0, f1, f2, f3, f4, f5, f6, f7, f8, -⟩ := idx_facts4 t
  rw [after4_9, after4_10, after4_11]
  unfold out4_9 out4_10 out4_11
  simp only [View.canon_unit_zero (S := S1280x128) hz4, View.ld_unit_zero (S := S1280x128) hz4, View.ld_unit_zero (S := S128x128) hz4,
    View.ld_unit_zero (S := S1x128) hz4, View.ld_unit_zero (S := S128x384) hz4, View.ld_unit_zero (S := S1x384) hz4]
  have h0 := fun k => (congrArg (V c main_v14_0) (iblk4_at t ((cfg4.win 0).blk t).view.emb f0 (fun _ _ => rfl) (ix2 r k))).trans (hs _ k)
  have h1 := fun k => (congrArg (V c main_v10_1) (iblk4_at t ((cfg4.win 1).blk t).view.emb f1 (fun _ _ => rfl) (ix2 r k))).trans (hp _ k)
  have h2 := fun k => (congrArg (V c main_v14_1) (iblk4_at t ((cfg4.win 2).blk t).view.emb f2 (fun _ _ => rfl) (ix2 r k))).trans (ho _ k)
  have h3 := fun k' k => (congrArg (V c main_v15) (iblk4_at0 ((cfg4.win 3).blk t).view.emb f3 (fun _ _ => rfl) (ix2 k' k))).trans (hws k' k)
  have h4 := fun k' k => (congrArg (V c main_v16) (iblk4_at0 ((cfg4.win 4).blk t).view.emb f4 (fun _ _ => rfl) (ix2 k' k))).trans (hwp k' k)
  have h5 := fun k' k => (congrArg (V c main_v17) (iblk4_at0 ((cfg4.win 5).blk t).view.emb f5 (fun _ _ => rfl) (ix2 k' k))).trans (hwo k' k)
  have h6 := fun k => (congrArg (V c main_v18) (iblk4_at0 ((cfg4.win 6).blk t).view.emb f6 (fun _ _ => rfl) (ix2 0 k))).trans (hb1 k)
  have h7 := fun k j => (congrArg (V c main_arg13) (iblk4_at0 ((cfg4.win 7).blk t).view.emb f7 (fun _ _ => rfl) (ix2 k j))).trans (hW2 k j)
  have h8 := fun j => (congrArg (V c main_v19) (iblk4_at0 ((cfg4.win 8).blk t).view.emb f8 (fun _ _ => rfl) (ix2 0 j))).trans (hb2 j)
  exact ⟨k4_newS θ obj pred si oi _ _ _ _ _ _ _ _ _ _ r h0 h1 h2 h3 h4 h5 h6 h7 h8 j,
    k4_newP θ obj pred si oi _ _ _ _ _ _ _ _ _ _ r h0 h1 h2 h3 h4 h5 h6 h7 h8 j,
    k4_newO θ obj pred si oi _ _ _ _ _ _ _ _ _ _ r h0 h1 h2 h3 h4 h5 h6 h7 h8 j⟩

/-- After the region, row `e` of the three result arrays is the specification's three parts of edge `e`'s row: each point's results are its blocks of three whole-array functions, and row `e` is in some point's block. -/
theorem edge_value4 (e : Spec.E) (j : Fin 128) :
    (dat4 (F := Ideal) V O B R c).arrAt 9 cfg4.N (ix2 e j) = Spec.newS θ obj pred si oi e j
      ∧ (dat4 V O B R c).arrAt 10 cfg4.N (ix2 e j) = Spec.newP θ obj pred si oi e j
      ∧ (dat4 V O B R c).arrAt 11 cfg4.N (ix2 e j) = Spec.newO θ obj pred si oi e j := by
  obtain ⟨q, r, rfl⟩ := iblk4_row e
  have A := after4_at V O B R c θ obj pred si oi hs hp ho hws hwp hwo hb1 hW2 hb2
  have h9 := (dat4 V O B R c).arrAt_apply_of_mem 9 (fun i : S320000x128.Idx => Spec.newS θ obj pred si oi (i 0) (i 1))
    (fun t _ => by funext y; rw [View.read_apply, win4_9_emb]; exact (A t y).1)
    cfg4.N q _ q.isLt (flush4_9 _) (View.emb_mem_set _ (ix2 r j))
  have h10 := (dat4 V O B R c).arrAt_apply_of_mem 10 (fun i : S320000x128.Idx => Spec.newP θ obj pred si oi (i 0) (i 1))
    (fun t _ => by funext y; rw [View.read_apply, win4_10_emb]; exact (A t y).2.1)
    cfg4.N q _ q.isLt (flush4_10 _) (View.emb_mem_set _ (ix2 r j))
  have h11 := (dat4 V O B R c).arrAt_apply_of_mem 11 (fun i : S320000x128.Idx => Spec.newO θ obj pred si oi (i 0) (i 1))
    (fun t _ => by funext y; rw [View.read_apply, win4_11_emb]; exact (A t y).2.2)
    cfg4.N q _ q.isLt (flush4_11 _) (View.emb_mem_set _ (ix2 r j))
  rw [win4_9_emb] at h9; rw [win4_10_emb] at h10; rw [win4_11_emb] at h11
  exact ⟨h9, h10, h11⟩

end Final4

end Cert.Proof.KIVal

end
-- ==== Proof.KI.Pool.Closed.lean ====
/- What each case of the pooled node network's body leaves, in closed form over the body's payloads. -/
import proofs.«215230_g44530220925728_cont_8to1c4_163_46_alg».proof.Proof.KI.Pool
import Idealize.ShloMosaic.Lib.Pipeline.Value

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

theorem hzP2_1 : (![0] : Fin 1 → Nat) = fun _ => 0 := funext fun a => by fin_cases a; rfl
theorem hzP2_2 : (![0, 0] : Fin 2 → Nat) = fun _ => 0 := funext fun a => by fin_cases a <;> rfl

theorem rdWP2 {sp : Space} {s : Shape} {e : EltTy} (m : Memref sig .tc sp s e) (h : m.IsWhole) {off : Fin s.rank → Nat}
    (hoff : off = fun _ => 0) (inb : ∀ a, off a + s.size a ≤ s.size a) (x : s.Idx → Elt F e) :
    View.readAt (Elt F) m.view (Rect.unit off s.size inb).toLoadRect (h.unread x) = x := by
  show View.ld (m.view.read (Elt F) (h.unread x)) (Rect.unit off s.size inb) = x
  rw [h.read_unread]; exact View.ld_unit_zero hoff inb x

abbrev rcol2 : Rect S10240x128 := Rect.unit (s := S10240x128) ![0, 0] S10240x1.size inb_S10240x128_S10240x1_0_0

theorem rdCol2 (v : View sig .tc .vmem S10240x128 .f32) (w : Vec F S10240x128 .f32) :
    v.readCov [(⟨Rect.unit (s := S10240x128) ![0, 0] S10240x128.size inb_S10240x128_S10240x128_0_0, w⟩ : View.Piece (Elt F) S10240x128 .f32)] rcol2.toLoadRect
      = View.ld (Val := Elt F) w rcol2 := by
  have hc : ∀ y : S10240x128.Idx, ∃ p ∈ [(⟨Rect.unit (s := S10240x128) ![0, 0] S10240x128.size inb_S10240x128_S10240x128_0_0, w⟩ : View.Piece (Elt F) S10240x128 .f32)], y ∈ p.1.set :=
    fun y => ⟨_, List.mem_singleton_self _, View.mem_set_unit_zero (S := S10240x128) hzP2_2 inb_S10240x128_S10240x128_0_0 y⟩
  rw [View.readCov_eq_canon_ld v _ rcol2 hc, View.canon_unit_zero (S := S10240x128) hzP2_2]

section Cases
variable (c : Dev nD) (i : grid2.Coords) (arg1 : Memref sig .tc .vmem S512 .i32) (harg1 : arg1.IsWhole) (arg2 : Memref sig .tc .vmem S512 .i32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S10240x128 .f32) (harg9 : arg9.IsWhole) (arg10 : Memref sig .tc .vmem S10240x128 .f32) (harg10 : arg10.IsWhole) (arg11 : Memref sig .tc .vmem S10240x128 .f32) (harg11 : arg11.IsWhole)

theorem sout2_A_0_eq (hc0 : cond2_0 i) (hc1 : ¬cond2_1 i) (x0 x1 : Vec F S512 .i32) (x2 x3 : Vec F S512x128 .f32) :
    sout2_A_0 c i arg1 harg1 arg2 harg2 arg3 harg3 arg4 harg4 arg5 harg5 arg6 harg6 arg7 harg7 arg8 harg8 arg9 harg9 arg10 harg10 arg11 harg11 hc0 hc1 x0 x1 x2 x3 = k2_pay7 x0 x1 (k2_pay3 (F := F)) x2 x3 := by
  unfold sout2_A_0
  rw [View.read_writes_junk_eq_canon]
  unfold kernelRun2_A; dsimp only
  unfold kernelRun2_A.sl.v22 kernelRun2_A.sl.HS0_1
  rw [View.canon_cons_unit_zero (S := S10240x128) hzP2_2, rdWP2 arg1 harg1 hzP2_1 inb_S512_S512_0 x0, rdWP2 arg2 harg2 hzP2_1 inb_S512_S512_0 x1, rdWP2 arg3 harg3 hzP2_2 inb_S512x128_S512x128_0_0 x2, rdWP2 arg4 harg4 hzP2_2 inb_S512x128_S512x128_0_0 x3, View.readCov_unit_zero (Val := Elt F) (S := S10240x128) (e := .f32) arg10.view hzP2_2 inb_S10240x128_S10240x128_0_0 (k2_pay3 (F := F))]

theorem sout2_A_1_eq (hc0 : cond2_0 i) (hc1 : ¬cond2_1 i) (x0 x1 : Vec F S512 .i32) (x2 x3 : Vec F S512x128 .f32) :
    sout2_A_1 c i arg1 harg1 arg2 harg2 arg3 harg3 arg4 harg4 arg5 harg5 arg6 harg6 arg7 harg7 arg8 harg8 arg9 harg9 arg10 harg10 arg11 harg11 hc0 hc1 x0 x1 x2 x3 = k2_pay1 (k2_pay8 x0) (k2_pay9 x1) (k2_pay4 (F := F)) := by
  unfold sout2_A_1
  rw [View.read_writes_junk_eq_canon]
  unfold kernelRun2_A; dsimp only
  unfold kernelRun2_A.sl.v43 kernelRun2_A.sl.HS1_1 kernelRun2_A.sl.r kernelRun2_A.sl.r_1
  rw [View.canon_cons_unit_zero (S := S10240x128) hzP2_2, rdWP2 arg1 harg1 hzP2_1 inb_S512_S512_0 x0, rdWP2 arg2 harg2 hzP2_1 inb_S512_S512_0 x1, View.readCov_unit_zero (Val := Elt F) (S := S10240x128) (e := .f32) arg11.view hzP2_2 inb_S10240x128_S10240x128_0_0 (k2_pay4 (F := F))]

theorem sout2_B_0_eq (hc0 : ¬cond2_0 i) (hc1 : ¬cond2_1 i) (x0 x1 : Vec F S512 .i32) (x2 x3 : Vec F S512x128 .f32) (xs0 xs1 : Vec F S10240x128 .f32) :
    sout2_B_0 c i arg1 harg1 arg2 harg2 arg3 harg3 arg4 harg4 arg5 harg5 arg6 harg6 arg7 harg7 arg8 harg8 arg9 harg9 arg10 harg10 arg11 harg11 hc0 hc1 x0 x1 x2 x3 xs0 xs1 = k2_pay7 x0 x1 xs0 x2 x3 := by
  unfold sout2_B_0
  rw [View.read_writes_junk_eq_canon]
  unfold kernelRun2_B; dsimp only
  rw [View.canon_cons_unit_zero (S := S10240x128) hzP2_2, rdWP2 arg1 harg1 hzP2_1 inb_S512_S512_0 x0, rdWP2 arg2 harg2 hzP2_1 inb_S512_S512_0 x1, rdWP2 arg3 harg3 hzP2_2 inb_S512x128_S512x128_0_0 x2, rdWP2 arg4 harg4 hzP2_2 inb_S512x128_S512x128_0_0 x3, rdWP2 arg10 harg10 hzP2_2 inb_S10240x128_S10240x128_0_0 xs0]

theorem sout2_B_1_eq (hc0 : ¬cond2_0 i) (hc1 : ¬cond2_1 i) (x0 x1 : Vec F S512 .i32) (x2 x3 : Vec F S512x128 .f32) (xs0 xs1 : Vec F S10240x128 .f32) :
    sout2_B_1 c i arg1 harg1 arg2 harg2 arg3 harg3 arg4 harg4 arg5 harg5 arg6 harg6 arg7 harg7 arg8 harg8 arg9 harg9 arg10 harg10 arg11 harg11 hc0 hc1 x0 x1 x2 x3 xs0 xs1 = k2_pay1 (k2_pay8 x0) (k2_pay9 x1) xs1 := by
  unfold sout2_B_1
  rw [View.read_writes_junk_eq_canon]
  unfold kernelRun2_B; dsimp only
  unfold kernelRun2_B.sl.r kernelRun2_B.sl.r_1
  rw [View.canon_cons_unit_zero (S := S10240x128) hzP2_2, rdWP2 arg1 harg1 hzP2_1 inb_S512_S512_0 x0, rdWP2 arg2 harg2 hzP2_1 inb_S512_S512_0 x1, rdWP2 arg11 harg11 hzP2_2 inb_S10240x128_S10240x128_0_0 xs1]

theorem sout2_C_0_eq (hc0 : ¬cond2_0 i) (hc1 : cond2_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) :
    sout2_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = k2_pay7 x0 x1 xs0 x2 x3 := by
  unfold sout2_C_0
  rw [View.read_writes_junk_eq_canon]
  unfold kernelRun2_C; dsimp only
  unfold kernelRun2_C.sl.HS0_1
  rw [View.canon_cons_unit_zero (S := S10240x128) hzP2_2, rdWP2 arg1 harg1 hzP2_1 inb_S512_S512_0 x0, rdWP2 arg2 harg2 hzP2_1 inb_S512_S512_0 x1, rdWP2 arg3 harg3 hzP2_2 inb_S512x128_S512x128_0_0 x2, rdWP2 arg4 harg4 hzP2_2 inb_S512x128_S512x128_0_0 x3, rdWP2 arg10 harg10 hzP2_2 inb_S10240x128_S10240x128_0_0 xs0]

theorem sout2_C_1_eq (hc0 : ¬cond2_0 i) (hc1 : cond2_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) :
    sout2_C_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = k2_pay1 (k2_pay8 x0) (k2_pay9 x1) xs1 := by
  unfold sout2_C_1
  rw [View.read_writes_junk_eq_canon]
  unfold kernelRun2_C; dsimp only
  unfold kernelRun2_C.sl.HS1_1 kernelRun2_C.sl.r kernelRun2_C.sl.r_1
  rw [View.canon_cons_unit_zero (S := S10240x128) hzP2_2, rdWP2 arg1 harg1 hzP2_1 inb_S512_S512_0 x0, rdWP2 arg2 harg2 hzP2_1 inb_S512_S512_0 x1, rdWP2 arg11 harg11 hzP2_2 inb_S10240x128_S10240x128_0_0 xs1]

theorem out2_C_8_eq (hc0 : ¬cond2_0 i) (hc1 : cond2_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) :
    out2_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1
      = k2_pay2 (k2_pay7 x0 x1 xs0 x2 x3) (View.ld (Val := Elt F) (k2_pay1 (k2_pay8 x0) (k2_pay9 x1) xs1) rcol2) x4 x5 x6 x7 := by
  unfold out2_C_8
  rw [View.read_writes_junk_eq_canon]
  unfold kernelRun2_C; dsimp only
  unfold kernelRun2_C.sl.v53 kernelRun2_C.sl.v54 kernelRun2_C.sl.HS0_1 kernelRun2_C.sl.HS1_1 kernelRun2_C.sl.r kernelRun2_C.sl.r_1
  rw [View.canon_cons_unit_zero (S := S10240x128) hzP2_2, rdWP2 arg1 harg1 hzP2_1 inb_S512_S512_0 x0, rdWP2 arg2 harg2 hzP2_1 inb_S512_S512_0 x1, rdWP2 arg3 harg3 hzP2_2 inb_S512x128_S512x128_0_0 x2, rdWP2 arg4 harg4 hzP2_2 inb_S512x128_S512x128_0_0 x3, rdWP2 arg5 harg5 hzP2_2 inb_S128x128_S128x128_0_0 x4, rdWP2 arg6 harg6 hzP2_2 inb_S1x128_S1x128_0_0 x5, rdWP2 arg7 harg7 hzP2_2 inb_S128x128_S128x128_0_0 x6, rdWP2 arg8 harg8 hzP2_2 inb_S1x128_S1x128_0_0 x7, rdWP2 arg10 harg10 hzP2_2 inb_S10240x128_S10240x128_0_0 xs0, rdWP2 arg11 harg11 hzP2_2 inb_S10240x128_S10240x128_0_0 xs1,
    View.readCov_unit_zero (Val := Elt F) (S := S10240x128) (e := .f32) arg10.view hzP2_2 inb_S10240x128_S10240x128_0_0 (k2_pay7 x0 x1 xs0 x2 x3),
    rdCol2 arg11.view (k2_pay1 (k2_pay8 x0) (k2_pay9 x1) xs1)]

end Cases

section Region
variable (V : (c : Dev nD) → (b : Ref sig .tc) → Buf (Elt F) ((c : Thread nD τ).loc b))

theorem outsAt2_acc_first (c : Dev nD) (t : Fin cfg2.N) (h0 : t.val % 625 = 0) :
    (outsAt2 V c t.val t.isLt).2.1 = k2_pay7 (iblk2 V c 0 t) (iblk2 V c 1 t) (k2_pay3 (F := F)) (iblk2 V c 2 t) (iblk2 V c 3 t) := by
  have h1 : ¬t.val % 625 = 624 := by omega
  rw [outsAt2_A V c t h0 h1]
  dsimp only
  rw [sout2_A_0_eq]

theorem outsAt2_cnt_first (c : Dev nD) (t : Fin cfg2.N) (h0 : t.val % 625 = 0) :
    (outsAt2 V c t.val t.isLt).2.2 = k2_pay1 (k2_pay8 (iblk2 V c 0 t)) (k2_pay9 (iblk2 V c 1 t)) (k2_pay4 (F := F)) := by
  have h1 : ¬t.val % 625 = 624 := by omega
  rw [outsAt2_A V c t h0 h1]
  dsimp only
  rw [sout2_A_1_eq]

theorem outsAt2_acc_pos (c : Dev nD) (t : Fin cfg2.N) (h0 : ¬t.val % 625 = 0) :
    (outsAt2 V c t.val t.isLt).2.1 = k2_pay7 (iblk2 V c 0 t) (iblk2 V c 1 t) (prevS2_0 V c t) (iblk2 V c 2 t) (iblk2 V c 3 t) := by
  by_cases h1 : t.val % 625 = 624
  · rw [outsAt2_C V c t h0 h1]; dsimp only; rw [sout2_C_0_eq]
  · rw [outsAt2_B V c t h0 h1]; dsimp only; rw [sout2_B_0_eq]

theorem outsAt2_cnt_pos (c : Dev nD) (t : Fin cfg2.N) (h0 : ¬t.val % 625 = 0) :
    (outsAt2 V c t.val t.isLt).2.2 = k2_pay1 (k2_pay8 (iblk2 V c 0 t)) (k2_pay9 (iblk2 V c 1 t)) (prevS2_1 V c t) := by
  by_cases h1 : t.val % 625 = 624
  · rw [outsAt2_C V c t h0 h1]; dsimp only; rw [sout2_C_1_eq]
  · rw [outsAt2_B V c t h0 h1]; dsimp only; rw [sout2_B_1_eq]

theorem outsAt2_out_last (c : Dev nD) (t : Fin cfg2.N) (h1 : t.val % 625 = 624) :
    (outsAt2 V c t.val t.isLt).1
      = k2_pay2 (outsAt2 V c t.val t.isLt).2.1 (View.ld (Val := Elt F) (outsAt2 V c t.val t.isLt).2.2 rcol2) (iblk2 V c 4 t) (iblk2 V c 5 t) (iblk2 V c 6 t) (iblk2 V c 7 t) := by
  have h0 : ¬t.val % 625 = 0 := by omega
  rw [outsAt2_C V c t h0 h1]
  dsimp only
  rw [out2_C_8_eq, sout2_C_0_eq, sout2_C_1_eq]

end Region

end Cert.Proof.KI

end
-- ==== Proof.LibColumn.lean ====
/- A vector kept as a column and spread along rows, read at an index. -/
import Idealize.ShloMosaic.Lib.Pipeline.Value
import Idealize.ShloMosaic.Lib.ValueIdx

noncomputable section

namespace Cert.Attn.Column

open Idealize.ShloMosaic Idealize.ShloMosaic.ValueIdx

variable {α : Type}

theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (s : Fin b) :
    broadcastTo ⟨2, ![a, b]⟩ v h (ix2 p s) = v (ix2 p (0 : Fin 1)) := by
  refine broadcastTo_apply v h (ix2 p s) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else s.val
    rw [if_pos rfl]

end Cert.Attn.Column

end
-- ==== Proof.KIVal.Sums.lean ====
/- Finite sums regrouped: 384 columns as three blocks of 128; the 320000 edges as 625 blocks of 512. -/
import proofs.«215230_g44530220925728_cont_8to1c4_163_46_alg».proof.Proof.Spec
import Mathlib.Algebra.BigOperators.Fin
import Mathlib.Algebra.BigOperators.Ring.Finset
import Mathlib.Data.EReal.Operations
import Mathlib.Logic.Equiv.Fin.Basic

noncomputable section

open scoped BigOperators

namespace Cert.Proof.KIVal

open Cert.Proof.Spec

theorem sum_fin384 {M : Type*} [AddCommMonoid M] (f : Fin 384 → M) :
    ∑ j : Fin 384, f j = ((∑ k : Fin 128, f (lo k)) + (∑ k : Fin 128, f (mid k))) + (∑ k : Fin 128, f (hi k)) := by
  have h := Fin.sum_univ_add (M := M) (a := 128 + 128) (b := 128) f
  have h' := Fin.sum_univ_add (M := M) (a := 128) (b := 128) fun i => f (Fin.castAdd 128 i)
  exact h.trans (congrArg (· + _) h')

def edge (b : Fin 625) (i : Fin 512) : E := ⟨512 * b.val + i.val, by have := b.isLt; have := i.isLt; omega⟩

theorem edge_val (b : Fin 625) (i : Fin 512) : (edge b i).val = 512 * b.val + i.val := rfl

def edgeEquiv : Fin 625 × Fin 512 ≃ E where
  toFun p := edge p.1 p.2
  invFun e := (⟨e.val / 512, by have := e.isLt; omega⟩, ⟨e.val % 512, Nat.mod_lt _ (by decide)⟩)
  left_inv p := by
    rcases p with ⟨b, i⟩
    have hb := b.isLt; have hi := i.isLt
    refine Prod.ext (Fin.ext ?_) (Fin.ext ?_)
    · show (512 * b.val + i.val) / 512 = b.val
      omega
    · show (512 * b.val + i.val) % 512 = i.val
      omega
  right_inv e := by
    apply Fin.ext
    show 512 * (e.val / 512) + e.val % 512 = e.val
    omega

theorem sum_edges {M : Type*} [AddCommMonoid M] (f : E → M) :
    ∑ e : E, f e = ∑ b : Fin 625, ∑ i : Fin 512, f (edge b i) := by
  rw [← Equiv.sum_comp edgeEquiv f, Fintype.sum_prod_type]
  rfl

theorem sum_edges_ite {M : Type*} [AddCommMonoid M] (idx : E → ℕ) (n : ℕ) (f : E → M) :
    (∑ e : E, if idx e = n then f e else 0) = ∑ b : Fin 625, ∑ i : Fin 512, if idx (edge b i) = n then f (edge b i) else 0 :=
  sum_edges fun e => if idx e = n then f e else 0

theorem sum_blocks_succ {M : Type*} [AddCommMonoid M] (g : ℕ → M) (t : ℕ) :
    (∑ b ∈ Finset.range (t + 1), g b) = (∑ b ∈ Finset.range t, g b) + g t := Finset.sum_range_succ g t

theorem sum_blocks_range {M : Type*} [AddCommMonoid M] (g : Fin 625 → M) :
    ∑ b : Fin 625, g b = ∑ b ∈ Finset.range 625, if h : b < 625 then g ⟨b, h⟩ else 0 := by
  rw [← Fin.sum_univ_eq_sum_range (fun b => if h : b < 625 then g ⟨b, h⟩ else 0) 625]
  exact Finset.sum_congr rfl fun b _ => by rw [dif_pos b.isLt]

theorem ereal_zero_mul (x : EReal) : (0 : EReal) * x = 0 := zero_mul x
theorem ereal_one_mul (x : EReal) : (1 : EReal) * x = x := one_mul x

theorem sel_mul (c : Prop) [Decidable c] (x : EReal) : (if c then (1 : EReal) else 0) * x = if c then x else 0 := by
  split
  · exact one_mul x
  · exact zero_mul x

theorem sum_sel_mul {ι : Type*} [Fintype ι] (c : ι → Prop) [DecidablePred c] (g : ι → EReal) :
    (∑ i, (if c i then (1 : EReal) else 0) * g i) = ∑ i, if c i then g i else 0 :=
  Finset.sum_congr rfl fun i _ => sel_mul (c i) (g i)

end Cert.Proof.KIVal

end
-- ==== Proof.KIVal.Pool.lean ====
/- One step of the two pooling accumulators, entry by entry: a one-hot product adds an edge's message to its endpoint's row. -/

import proofs.«215230_g44530220925728_cont_8to1c4_163_46_alg».proof.Proof.Gen.KernelIdeal.Skeleton
import proofs.«215230_g44530220925728_cont_8to1c4_163_46_alg».proof.Proof.Spec
import proofs.«215230_g44530220925728_cont_8to1c4_163_46_alg».proof.Proof.SpecArgs
import proofs.«215230_g44530220925728_cont_8to1c4_163_46_alg».proof.Proof.LibColumn
import proofs.«215230_g44530220925728_cont_8to1c4_163_46_alg».proof.Proof.KIVal.Sums
import proofs.«215230_g44530220925728_cont_8to1c4_163_46_alg».proof.Proof.KIVal.Edge
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.Proof.KIVal

open Idealize.ShloMosaic Idealize.ShloMosaic.ValueIdx
open Cert.KernelIdeal Cert.KernelIdeal.Gen
open Cert.Proof.Spec
open Cert.Attn.Column

theorem ofNat_eq_iff (n : ℕ) (hn : n < 2 ^ 32) (w : BitVec 32) : BitVec.ofNat 32 n = w ↔ w.toNat = n := by
  constructor
  · rintro rfl
    rw [BitVec.toNat_ofNat]
    exact Nat.mod_eq_of_lt hn
  · intro h
    apply BitVec.eq_of_toNat_eq
    rw [BitVec.toNat_ofNat, h]
    exact Nat.mod_eq_of_lt hn

theorem cmpi_apply {s : Shape} {w : ℕ} (p : CmpIPredicate) (x y : IVec s w) (i : s.Idx) :
    cmpi p x y i = IntOp.cmpi p (x i) (y i) := rfl

theorem sel_word (x y : BitVec 32) :
    FloatOps.sitofp (F := Ideal) .f32 ((IntOp.cmpi .eq x y).setWidth 32) = if x = y then (1 : EReal) else 0 := by
  by_cases h : x = y
  · subst h
    rw [if_pos rfl]
    have hb : IntOp.cmpi .eq x x = 1#1 := by
      show BitVec.ofBool (x == x) = 1#1
      rw [beq_self_eq_true]; rfl
    rw [hb]
    show ((((1#1 : BitVec 1).setWidth 32).toInt : ℝ) : EReal) = 1
    rw [show ((1#1 : BitVec 1).setWidth 32).toInt = 1 by decide, Int.cast_one, EReal.coe_one]
  · rw [if_neg h]
    have hb : IntOp.cmpi .eq x y = 0#1 := by
      show BitVec.ofBool (x == y) = 0#1
      rw [beq_eq_false_iff_ne.2 h]; rfl
    rw [hb]
    show ((((0#1 : BitVec 1).setWidth 32).toInt : ℝ) : EReal) = 0
    rw [show ((0#1 : BitVec 1).setWidth 32).toInt = 0 by decide, Int.cast_zero, EReal.coe_zero]

theorem lift_row (h : S10240x512.Reduces [1] S10240) (n : Fin 10240) (i : Fin 512) : h.lift (ix1 n) i = ix2 n i := by
  funext c
  apply Fin.ext
  match c with
  | ⟨0, _⟩ => rfl
  | ⟨1, _⟩ => rfl

section K2

theorem k2_pay3_apply (i : S10240x128.Idx) : k2_pay3 (F := Ideal) i = 0 := by
  unfold k2_pay3
  simp only [shapeCast_self]
  exact Ideal.ofBits_zero_f32

theorem k2_pay4_apply (i : S10240x128.Idx) : k2_pay4 (F := Ideal) i = 0 :=
  k2_pay3_apply i

theorem k2_pay5_apply (v4 : Vec Ideal S512 .i32) (n : Fin 10240) (i : Fin 512) :
    k2_pay5 (F := Ideal) v4 (ix2 n i) = if (v4 (ix1 i)).toNat = n.val then (1 : EReal) else 0 := by
  unfold k2_pay5
  simp only [shapeCast_self]
  rw [sitofp_apply, extui_apply, cmpi_apply, sel_word, broadcastTo_a1_ab_apply, broadcastTo_1b_ab_apply, shapeCast_a_1a_apply,
    iota_single_apply]
  exact if_congr (ofNat_eq_iff n.val (by have := n.isLt; omega) _) rfl rfl

theorem k2_pay6_apply (v13 : Vec Ideal S512 .i32) (n : Fin 10240) (i : Fin 512) :
    k2_pay6 (F := Ideal) v13 (ix2 n i) = if (v13 (ix1 i)).toNat = n.val then (1 : EReal) else 0 :=
  k2_pay5_apply v13 n i

theorem k2_pay7_apply (v4 v13 : Vec Ideal S512 .i32) (v22 : FVec Ideal S10240x128 .f32) (v23 v27 : FVec Ideal S512x128 .f32)
    (n : Fin 10240) (j : Fin 128) :
    k2_pay7 (F := Ideal) v4 v13 v22 v23 v27 (ix2 n j)
      = v22 (ix2 n j) + ((∑ i : Fin 512, if (v4 (ix1 i)).toNat = n.val then v23 (ix2 i j) else 0)
          + (∑ i : Fin 512, if (v13 (ix1 i)).toNat = n.val then v27 (ix2 i j) else 0)) := by
  unfold k2_pay7
  simp only [shapeCast_self]
  rw [addf_apply, addf_apply, matmul0_apply dot_S10240x512_S512x128_S10240x128_1_0_0_1_n_n rfl,
    matmul0_apply dot_S10240x512_S512x128_S10240x128_1_0_0_1_n_n rfl]
  refine congrArg (v22 (ix2 n j) + ·) (congrArg₂ (· + ·) (Finset.sum_congr rfl fun i _ => ?_) (Finset.sum_congr rfl fun i _ => ?_))
  · show k2_pay5 (F := Ideal) v4 (ix2 n i) * v23 (ix2 i j) = _
    rw [k2_pay5_apply]
    exact sel_mul _ _
  · show k2_pay6 (F := Ideal) v13 (ix2 n i) * v27 (ix2 i j) = _
    rw [k2_pay6_apply]
    exact sel_mul _ _

theorem k2_pay8_apply (v4 : Vec Ideal S512 .i32) (n : Fin 10240) (u : Fin 1) :
    k2_pay8 (F := Ideal) v4 (ix2 n u) = ∑ i : Fin 512, if (v4 (ix1 i)).toNat = n.val then (1 : EReal) else 0 := by
  unfold k2_pay8
  rw [shapeCast_a_a1_apply]
  refine (Ideal.multiReduction_add_single (k2_pay5 (F := Ideal) v4) 0x00000000#32 reduces_S10240x512_S10240 (.inl rfl) rfl (ix1 n)).trans ?_
  exact Finset.sum_congr rfl fun (i : Fin 512) _ =>
    (congrArg (k2_pay5 (F := Ideal) v4) (lift_row reduces_S10240x512_S10240 n i)).trans (k2_pay5_apply v4 n i)

theorem k2_pay9_apply (v13 : Vec Ideal S512 .i32) (n : Fin 10240) :
    k2_pay9 (F := Ideal) v13 (ix1 n) = ∑ i : Fin 512, if (v13 (ix1 i)).toNat = n.val then (1 : EReal) else 0 := by
  unfold k2_pay9
  refine (Ideal.multiReduction_add_single (k2_pay6 (F := Ideal) v13) 0x00000000#32 reduces_S10240x512_S10240 (.inl rfl) rfl (ix1 n)).trans ?_
  exact Finset.sum_congr rfl fun (i : Fin 512) _ =>
    (congrArg (k2_pay6 (F := Ideal) v13) (lift_row reduces_S10240x512_S10240 n i)).trans (k2_pay6_apply v13 n i)

theorem k2_pay1_apply (v38 : FVec Ideal S10240x1 .f32) (v40 : FVec Ideal S10240 .f32) (v43 : FVec Ideal S10240x128 .f32)
    (n : Fin 10240) (j : Fin 128) :
    k2_pay1 (F := Ideal) v38 v40 v43 (ix2 n j) = v43 (ix2 n j) + (v38 (ix2 n 0) + v40 (ix1 n)) := by
  unfold k2_pay1
  simp only [shapeCast_self]
  rw [addf_apply, broadcastTo_a1_ab_apply, addf_apply, shapeCast_a_a1_apply]

theorem k2_count_apply (v4 v13 : Vec Ideal S512 .i32) (v43 : FVec Ideal S10240x128 .f32) (n : Fin 10240) (j : Fin 128) :
    k2_pay1 (F := Ideal) (k2_pay8 v4) (k2_pay9 v13) v43 (ix2 n j)
      = v43 (ix2 n j) + ((∑ i : Fin 512, if (v4 (ix1 i)).toNat = n.val then (1 : EReal) else 0)
          + (∑ i : Fin 512, if (v13 (ix1 i)).toNat = n.val then (1 : EReal) else 0)) := by
  rw [k2_pay1_apply, k2_pay8_apply, k2_pay9_apply]

def nodeRow (acc : FVec Ideal S10240x128 .f32) (cnt : FVec Ideal S10240x1 .f32) (Wa : FVec Ideal S128x128 .f32)
    (ba : FVec Ideal S1x128 .f32) (Wb : FVec Ideal S128x128 .f32) (bb : FVec Ideal S1x128 .f32) (n : Fin 10240) (j : Fin 128) : EReal :=
  relu ((∑ k : Fin 128, relu ((∑ k' : Fin 128, Ideal.div (acc (ix2 n k')) (max (cnt (ix2 n 0)) 1) * Wa (ix2 k' k)) + ba (ix2 0 k))
    * Wb (ix2 k j)) + bb (ix2 0 j))

theorem k2_pay2_apply (v53 : FVec Ideal S10240x128 .f32) (v54 : FVec Ideal S10240x1 .f32) (v59 : FVec Ideal S128x128 .f32)
    (v61 : FVec Ideal S1x128 .f32) (v67 : FVec Ideal S128x128 .f32) (v69 : FVec Ideal S1x128 .f32) (n : Fin 10240) (j : Fin 128) :
    k2_pay2 (F := Ideal) v53 v54 v59 v61 v67 v69 (ix2 n j) = nodeRow v53 v54 v59 v61 v67 v69 n j := by
  unfold k2_pay2 nodeRow
  simp only [shapeCast_self]
  rw [relu_apply, addf_apply, broadcastTo_1b_ab_apply, matmul0_apply dot_S10240x128_S128x128_S10240x128_1_0_0_1_n_n rfl]
  refine congrArg (fun x => relu (x + v69 (ix2 0 j))) (Finset.sum_congr rfl fun k _ => congrArg (· * v67 (ix2 k j)) ?_)
  rw [relu_apply, addf_apply, broadcastTo_1b_ab_apply, matmul0_apply dot_S10240x128_S128x128_S10240x128_1_0_0_1_n_n rfl]
  refine congrArg (fun x => relu (x + v61 (ix2 0 k))) (Finset.sum_congr rfl fun k' _ => congrArg (· * v59 (ix2 k' k)) ?_)
  rw [divf_apply, broadcastTo_a1_ab_apply, maximumf_apply, broadcast_apply]
  show Ideal.div (v53 (ix2 n k')) (max (v54 (ix2 n 0)) (Ideal.ofBits .f32 0x3F800000#32)) = _
  rw [Ideal.ofBits_one_f32]

end K2

section K5

/-! The second pooled call's payloads are the first's, term for term: each fact is the first's. -/

theorem k5_pay3_apply (i : S10240x128.Idx) : k5_pay3 (F := Ideal) i = 0 :=
  k2_pay3_apply i

theorem k5_pay4_apply (i : S10240x128.Idx) : k5_pay4 (F := Ideal) i = 0 :=
  k2_pay3_apply i

theorem k5_pay5_apply (v4 : Vec Ideal S512 .i32) (n : Fin 10240) (i : Fin 512) :
    k5_pay5 (F := Ideal) v4 (ix2 n i) = if (v4 (ix1 i)).toNat = n.val then (1 : EReal) else 0 :=
  k2_pay5_apply v4 n i

theorem k5_pay6_apply (v13 : Vec Ideal S512 .i32) (n : Fin 10240) (i : Fin 512) :
    k5_pay6 (F := Ideal) v13 (ix2 n i) = if (v13 (ix1 i)).toNat = n.val then (1 : EReal) else 0 :=
  k2_pay5_apply v13 n i

theorem k5_pay7_apply (v4 v13 : Vec Ideal S512 .i32) (v22 : FVec Ideal S10240x128 .f32) (v23 v27 : FVec Ideal S512x128 .f32)
    (n : Fin 10240) (j : Fin 128) :
    k5_pay7 (F := Ideal) v4 v13 v22 v23 v27 (ix2 n j)
      = v22 (ix2 n j) + ((∑ i : Fin 512, if (v4 (ix1 i)).toNat = n.val then v23 (ix2 i j) else 0)
          + (∑ i : Fin 512, if (v13 (ix1 i)).toNat = n.val then v27 (ix2 i j) else 0)) :=
  k2_pay7_apply v4 v13 v22 v23 v27 n j

theorem k5_pay8_apply (v4 : Vec Ideal S512 .i32) (n : Fin 10240) (u : Fin 1) :
    k5_pay8 (F := Ideal) v4 (ix2 n u) = ∑ i : Fin 512, if (v4 (ix1 i)).toNat = n.val then (1 : EReal) else 0 :=
  k2_pay8_apply v4 n u

theorem k5_pay9_apply (v13 : Vec Ideal S512 .i32) (n : Fin 10240) :
    k5_pay9 (F := Ideal) v13 (ix1 n) = ∑ i : Fin 512, if (v13 (ix1 i)).toNat = n.val then (1 : EReal) else 0 :=
  k2_pay9_apply v13 n

theorem k5_pay1_apply (v38 : FVec Ideal S10240x1 .f32) (v40 : FVec Ideal S10240 .f32) (v43 : FVec Ideal S10240x128 .f32)
    (n : Fin 10240) (j : Fin 128) :
    k5_pay1 (F := Ideal) v38 v40 v43 (ix2 n j) = v43 (ix2 n j) + (v38 (ix2 n 0) + v40 (ix1 n)) :=
  k2_pay1_apply v38 v40 v43 n j

theorem k5_count_apply (v4 v13 : Vec Ideal S512 .i32) (v43 : FVec Ideal S10240x128 .f32) (n : Fin 10240) (j : Fin 128) :
    k5_pay1 (F := Ideal) (k5_pay8 v4) (k5_pay9 v13) v43 (ix2 n j)
      = v43 (ix2 n j) + ((∑ i : Fin 512, if (v4 (ix1 i)).toNat = n.val then (1 : EReal) else 0)
          + (∑ i : Fin 512, if (v13 (ix1 i)).toNat = n.val then (1 : EReal) else 0)) :=
  k2_count_apply v4 v13 v43 n j

theorem k5_pay2_apply (v53 : FVec Ideal S10240x128 .f32) (v54 : FVec Ideal S10240x1 .f32) (v59 : FVec Ideal S128x128 .f32)
    (v61 : FVec Ideal S1x128 .f32) (v67 : FVec Ideal S128x128 .f32) (v69 : FVec Ideal S1x128 .f32) (n : Fin 10240) (j : Fin 128) :
    k5_pay2 (F := Ideal) v53 v54 v59 v61 v67 v69 (ix2 n j) = nodeRow v53 v54 v59 v61 v67 v69 n j :=
  k2_pay2_apply v53 v54 v59 v61 v67 v69 n j

end K5

theorem nodeRow_eq_newObj (θ : Params) (obj : ℕ → Fin 128 → EReal) (pred : E → Fin 128 → EReal) (si oi : E → ℕ)
    (a : FVec Ideal S10240x128 .f32) (c : FVec Ideal S10240x1 .f32) (Wa : FVec Ideal S128x128 .f32)
    (ba : FVec Ideal S1x128 .f32) (Wb : FVec Ideal S128x128 .f32) (bb : FVec Ideal S1x128 .f32) (n : Fin 10240)
    (ha : ∀ k, a (ix2 n k) = acc θ obj pred si oi n.val k) (hc : c (ix2 n 0) = cnt si oi n.val)
    (hWa : ∀ k' k, Wa (ix2 k' k) = θ.W2a k' k) (hba : ∀ k, ba (ix2 0 k) = θ.b2a k)
    (hWb : ∀ k j, Wb (ix2 k j) = θ.W2b k j) (hbb : ∀ j, bb (ix2 0 j) = θ.b2b j) (j : Fin 128) :
    nodeRow a c Wa ba Wb bb n j = newObj θ obj pred si oi n.val j := by
  unfold nodeRow newObj h2 pooled
  simp only [ha, hc, hWa, hba, hWb, hbb]

end Cert.Proof.KIVal

end
-- ==== Proof.KIVal.PoolSum.lean ====
/- The running sums of the pooled messages and of the counts over the 625 steps. -/
import proofs.«215230_g44530220925728_cont_8to1c4_163_46_alg».proof.Proof.Spec
import proofs.«215230_g44530220925728_cont_8to1c4_163_46_alg».proof.Proof.KIVal.Sums

noncomputable section

open scoped BigOperators

namespace Cert.Proof.KIVal

open Cert.Proof.Spec

section UpTo

variable {M : Type*} [AddCommMonoid M]

def upTo (g : Fin 625 → M) (t : ℕ) : M := ∑ b ∈ Finset.range t, if h : b < 625 then g ⟨b, h⟩ else 0

theorem upTo_zero (g : Fin 625 → M) : upTo g 0 = 0 := Finset.sum_range_zero _

theorem upTo_succ (g : Fin 625 → M) (t : Fin 625) : upTo g (t.val + 1) = upTo g t.val + g t := by
  unfold upTo
  rw [Finset.sum_range_succ, dif_pos t.isLt]

theorem upTo_one (g : Fin 625 → M) : upTo g 1 = g 0 := by
  have h : upTo g (0 + 1) = upTo g 0 + g 0 := upTo_succ g 0
  rw [upTo_zero] at h
  exact h.trans (zero_add _)

theorem upTo_all (g : Fin 625 → M) : upTo g 625 = ∑ b : Fin 625, g b := (sum_blocks_range g).symm

theorem upTo_add (g g' : Fin 625 → M) (t : ℕ) : upTo (fun b => g b + g' b) t = upTo g t + upTo g' t := by
  unfold upTo
  rw [← Finset.sum_add_distrib]
  refine Finset.sum_congr rfl fun b _ => ?_
  split
  · rfl
  · exact (add_zero (0 : M)).symm

end UpTo

def accBlock (si oi : E → ℕ) (ns no : E → Fin 128 → EReal) (n : ℕ) (j : Fin 128) (b : Fin 625) : EReal :=
  (∑ i : Fin 512, if si (edge b i) = n then ns (edge b i) j else 0) + (∑ i : Fin 512, if oi (edge b i) = n then no (edge b i) j else 0)

def cntBlock (si oi : E → ℕ) (n : ℕ) (b : Fin 625) : EReal :=
  (∑ i : Fin 512, if si (edge b i) = n then (1 : EReal) else 0) + (∑ i : Fin 512, if oi (edge b i) = n then (1 : EReal) else 0)

theorem upTo_accBlock_all (si oi : E → ℕ) (ns no : E → Fin 128 → EReal) (n : ℕ) (j : Fin 128) :
    upTo (accBlock si oi ns no n j) 625
      = (∑ e : E, if si e = n then ns e j else 0) + (∑ e : E, if oi e = n then no e j else 0) := by
  rw [upTo_all]
  unfold accBlock
  rw [Finset.sum_add_distrib, sum_edges_ite si n fun e => ns e j, sum_edges_ite oi n fun e => no e j]

theorem upTo_accBlock_spec (θ : Params) (obj : ℕ → Fin 128 → EReal) (pred : E → Fin 128 → EReal) (si oi : E → ℕ) (n : ℕ) (j : Fin 128) :
    upTo (accBlock si oi (newS θ obj pred si oi) (newO θ obj pred si oi) n j) 625 = acc θ obj pred si oi n j :=
  upTo_accBlock_all si oi _ _ n j

theorem upTo_cntBlock_spec (si oi : E → ℕ) (n : ℕ) : upTo (cntBlock si oi n) 625 = cnt si oi n := by
  rw [upTo_all]
  unfold cntBlock cnt
  rw [Finset.sum_add_distrib, sum_edges_ite si n fun _ => (1 : EReal), sum_edges_ite oi n fun _ => (1 : EReal)]

end Cert.Proof.KIVal

end
-- ==== Proof.KIVal.PoolStep.lean ====
/- A step of the accumulators takes each running sum to the next. -/
import proofs.«215230_g44530220925728_cont_8to1c4_163_46_alg».proof.Proof.KIVal.Pool
import proofs.«215230_g44530220925728_cont_8to1c4_163_46_alg».proof.Proof.KIVal.PoolSum

noncomputable section

open scoped BigOperators

namespace Cert.Proof.KIVal

open Idealize.ShloMosaic Idealize.ShloMosaic.ValueIdx
open Cert.KernelIdeal Cert.KernelIdeal.Gen
open Cert.Proof.Spec

theorem k2_acc_step (si oi : E → ℕ) (ns no : E → Fin 128 → EReal) (t : Fin 625) (v4 v13 : Vec Ideal S512 .i32)
    (v22 : FVec Ideal S10240x128 .f32) (v23 v27 : FVec Ideal S512x128 .f32) (n : Fin 10240) (j : Fin 128)
    (hs : ∀ i : Fin 512, (v4 (ix1 i)).toNat = si (edge t i)) (ho : ∀ i : Fin 512, (v13 (ix1 i)).toNat = oi (edge t i))
    (hns : ∀ i : Fin 512, v23 (ix2 i j) = ns (edge t i) j) (hno : ∀ i : Fin 512, v27 (ix2 i j) = no (edge t i) j)
    (hprev : v22 (ix2 n j) = upTo (accBlock si oi ns no n.val j) t.val) :
    k2_pay7 (F := Ideal) v4 v13 v22 v23 v27 (ix2 n j) = upTo (accBlock si oi ns no n.val j) (t.val + 1) := by
  rw [k2_pay7_apply, upTo_succ, hprev]
  unfold accBlock
  simp only [hs, ho, hns, hno]

theorem k2_cnt_step (si oi : E → ℕ) (t : Fin 625) (v4 v13 : Vec Ideal S512 .i32) (v43 : FVec Ideal S10240x128 .f32)
    (n : Fin 10240) (j : Fin 128)
    (hs : ∀ i : Fin 512, (v4 (ix1 i)).toNat = si (edge t i)) (ho : ∀ i : Fin 512, (v13 (ix1 i)).toNat = oi (edge t i))
    (hprev : v43 (ix2 n j) = upTo (cntBlock si oi n.val) t.val) :
    k2_pay1 (F := Ideal) (k2_pay8 v4) (k2_pay9 v13) v43 (ix2 n j) = upTo (cntBlock si oi n.val) (t.val + 1) := by
  rw [k2_count_apply, upTo_succ, hprev]
  unfold cntBlock
  simp only [hs, ho]

theorem k2_final (θ : Params) (obj : ℕ → Fin 128 → EReal) (pred : E → Fin 128 → EReal) (si oi : E → ℕ)
    (v53 : FVec Ideal S10240x128 .f32) (v54 : FVec Ideal S10240x1 .f32) (v59 : FVec Ideal S128x128 .f32)
    (v61 : FVec Ideal S1x128 .f32) (v67 : FVec Ideal S128x128 .f32) (v69 : FVec Ideal S1x128 .f32) (n : Fin 10240)
    (ha : ∀ k, v53 (ix2 n k) = upTo (accBlock si oi (newS θ obj pred si oi) (newO θ obj pred si oi) n.val k) 625)
    (hc : v54 (ix2 n 0) = upTo (cntBlock si oi n.val) 625)
    (hWa : ∀ k' k, v59 (ix2 k' k) = θ.W2a k' k) (hba : ∀ k, v61 (ix2 0 k) = θ.b2a k)
    (hWb : ∀ k j, v67 (ix2 k j) = θ.W2b k j) (hbb : ∀ j, v69 (ix2 0 j) = θ.b2b j) (j : Fin 128) :
    k2_pay2 (F := Ideal) v53 v54 v59 v61 v67 v69 (ix2 n j) = newObj θ obj pred si oi n.val j := by
  rw [k2_pay2_apply]
  exact nodeRow_eq_newObj θ obj pred si oi v53 v54 v59 v61 v67 v69 n
    (fun k => (ha k).trans (upTo_accBlock_spec θ obj pred si oi n.val k)) (hc.trans (upTo_cntBlock_spec si oi n.val)) hWa hba hWb hbb j

theorem k5_acc_step (si oi : E → ℕ) (ns no : E → Fin 128 → EReal) (t : Fin 625) (v4 v13 : Vec Ideal S512 .i32)
    (v22 : FVec Ideal S10240x128 .f32) (v23 v27 : FVec Ideal S512x128 .f32) (n : Fin 10240) (j : Fin 128)
    (hs : ∀ i : Fin 512, (v4 (ix1 i)).toNat = si (edge t i)) (ho : ∀ i : Fin 512, (v13 (ix1 i)).toNat = oi (edge t i))
    (hns : ∀ i : Fin 512, v23 (ix2 i j) = ns (edge t i) j) (hno : ∀ i : Fin 512, v27 (ix2 i j) = no (edge t i) j)
    (hprev : v22 (ix2 n j) = upTo (accBlock si oi ns no n.val j) t.val) :
    k5_pay7 (F := Ideal) v4 v13 v22 v23 v27 (ix2 n j) = upTo (accBlock si oi ns no n.val j) (t.val + 1) := by
  rw [k5_pay7_apply, upTo_succ, hprev]
  unfold accBlock
  simp only [hs, ho, hns, hno]

theorem k5_cnt_step (si oi : E → ℕ) (t : Fin 625) (v4 v13 : Vec Ideal S512 .i32) (v43 : FVec Ideal S10240x128 .f32)
    (n : Fin 10240) (j : Fin 128)
    (hs : ∀ i : Fin 512, (v4 (ix1 i)).toNat = si (edge t i)) (ho : ∀ i : Fin 512, (v13 (ix1 i)).toNat = oi (edge t i))
    (hprev : v43 (ix2 n j) = upTo (cntBlock si oi n.val) t.val) :
    k5_pay1 (F := Ideal) (k5_pay8 v4) (k5_pay9 v13) v43 (ix2 n j) = upTo (cntBlock si oi n.val) (t.val + 1) := by
  rw [k5_count_apply, upTo_succ, hprev]
  unfold cntBlock
  simp only [hs, ho]

theorem k5_final (θ : Params) (obj : ℕ → Fin 128 → EReal) (pred : E → Fin 128 → EReal) (si oi : E → ℕ)
    (v53 : FVec Ideal S10240x128 .f32) (v54 : FVec Ideal S10240x1 .f32) (v59 : FVec Ideal S128x128 .f32)
    (v61 : FVec Ideal S1x128 .f32) (v67 : FVec Ideal S128x128 .f32) (v69 : FVec Ideal S1x128 .f32) (n : Fin 10240)
    (ha : ∀ k, v53 (ix2 n k) = upTo (accBlock si oi (newS θ obj pred si oi) (newO θ obj pred si oi) n.val k) 625)
    (hc : v54 (ix2 n 0) = upTo (cntBlock si oi n.val) 625)
    (hWa : ∀ k' k, v59 (ix2 k' k) = θ.W2a k' k) (hba : ∀ k, v61 (ix2 0 k) = θ.b2a k)
    (hWb : ∀ k j, v67 (ix2 k j) = θ.W2b k j) (hbb : ∀ j, v69 (ix2 0 j) = θ.b2b j) (j : Fin 128) :
    k5_pay2 (F := Ideal) v53 v54 v59 v61 v67 v69 (ix2 n j) = newObj θ obj pred si oi n.val j := by
  rw [k5_pay2_apply]
  exact nodeRow_eq_newObj θ obj pred si oi v53 v54 v59 v61 v67 v69 n
    (fun k => (ha k).trans (upTo_accBlock_spec θ obj pred si oi n.val k)) (hc.trans (upTo_cntBlock_spec si oi n.val)) hWa hba hWb hbb j

end Cert.Proof.KIVal

end
-- ==== Proof.KIVal.PoolInv.lean ====
/- After every step the accumulators hold the running sums: induction on the step. -/
import proofs.«215230_g44530220925728_cont_8to1c4_163_46_alg».proof.Proof.KI.Pool.Closed
import proofs.«215230_g44530220925728_cont_8to1c4_163_46_alg».proof.Proof.KIVal.PoolStep

noncomputable section

open scoped BigOperators

namespace Cert.Proof.KIVal

open Idealize.ShloMosaic Idealize.ShloMosaic.TcCoe Idealize.ShloMosaic.ValueIdx
open Idealize.ShloMosaic.SparseCore.Cfg (HIx)
open Idealize.ShloMosaic.Pipeline (Dat)
open Idealize.SL Idealize.SL.Sem
open Cert.KernelIdeal Cert.KernelIdeal.Gen
open Cert.Proof.KI Cert.Proof.Spec

/-- A point's block number. -/
abbrev tb2 (t : Fin cfg2.N) : Fin 625 := ⟨t.val, lt_of_lt_of_eq t.isLt (show cfg2.N = 625 from N_2)⟩
/-- The last point. -/
abbrev tLast2 : Fin cfg2.N := ⟨624, by rw [show cfg2.N = 625 from N_2]; decide⟩

/-- A block index (p, 0). -/
abbrev idx2_ix (ι : Fin 2 → ℕ) (p : ℕ) : Prop := ι 0 = p ∧ ι 1 = 0

/-- The block index of every window at every point: t for the four windows of edge blocks, 0 for the four tables and the result. -/
theorem idx2_all : ∀ t : Fin cfg2.N, win2_0.index t 0 = t.val ∧ win2_1.index t 0 = t.val
    ∧ idx2_ix (win2_2.index t) t.val ∧ idx2_ix (win2_3.index t) t.val ∧ idx2_ix (win2_4.index t) 0 ∧ idx2_ix (win2_5.index t) 0
    ∧ idx2_ix (win2_6.index t) 0 ∧ idx2_ix (win2_7.index t) 0 ∧ idx2_ix (win2_8.index t) 0 :=
  (by decide +kernel : ∀ t : Fin grid2.N, _)

/-- An entry of a 512-entry block at block index t sits at entry 512·t + i of the array. -/
theorem iblk2_at1 (t : Fin cfg2.N) (f : S512.Idx → (⟨1, ![320000]⟩ : Shape).Idx) {p : ℕ} (h : p = t.val)
    (hf : ∀ y, (f y 0).val = p * 512 + 1 * (y 0).val) (i : Fin 512) : f (ix1 i) = ix1 (edge (tb2 t) i) := by
  funext a; apply Fin.ext
  match a with
  | ⟨0, _⟩ => show (f (ix1 i) 0).val = 512 * t.val + i.val; rw [hf, h]; show t.val * 512 + 1 * i.val = _; omega

/-- An entry of a 512-row block at block index (t, 0) sits at row 512·t + i, column j of the array. -/
theorem iblk2_at (t : Fin cfg2.N) (f : S512x128.Idx → S320000x128.Idx) {ι : Fin 2 → ℕ} (h : idx2_ix ι t.val)
    (hf : ∀ y a, (f y a).val = ι a * S512x128.size a + 1 * (y a).val) (i : Fin 512) (j : Fin 128) :
    f (ix2 i j) = ix2 (edge (tb2 t) i) j :=
  Shape.idx_ext₂ (by rw [hf _ 0, h.1]; show t.val * 512 + 1 * i.val = 512 * t.val + i.val; omega)
    (by rw [hf _ 1, h.2]; show 0 * 128 + 1 * j.val = j.val; omega)

/-- An entry of a block at block index (0, 0) sits in the array where it sits in the block. -/
theorem iblk2_at0 {n : Fin 2 → ℕ} (f : ((a : Fin 2) → Fin (n a)) → (a : Fin 2) → Fin (n a)) {ι : Fin 2 → ℕ} (h : idx2_ix ι 0)
    (hf : ∀ x a, (f x a).val = ι a * n a + 1 * (x a).val) (x : (a : Fin 2) → Fin (n a)) : f x = x :=
  Shape.idx_ext₂ (by rw [hf x 0, h.1]; omega) (by rw [hf x 1, h.2]; omega)

section Region
variable (V : (c : Dev nD) → (b : Ref sig .tc) → Buf (Elt Ideal) ((c : Thread nD τ).loc b))

attribute [local irreducible] outsAt2

variable (c : Dev nD) (θ : Params) (obj : ℕ → Fin 128 → EReal) (pred : E → Fin 128 → EReal) (si oi : E → ℕ)
  (hsi : ∀ e : E, (V c main_v1 (ix1 e)).toNat = si e) (hoi : ∀ e : E, (V c main_v3 (ix1 e)).toNat = oi e)
  (hns : ∀ (e : E) (j : Fin 128), V c main_v10_0 (ix2 e j) = newS θ obj pred si oi e j) (hno : ∀ (e : E) (j : Fin 128), V c main_v10_2 (ix2 e j) = newO θ obj pred si oi e j)
include hsi hoi hns hno

/-- Point `t`'s index blocks are the subjects and objects of block `t`'s edges, and its message blocks their messages. -/
theorem iblk2_in (t : Fin cfg2.N) :
    (∀ i : Fin 512, ((iblk2 V c 0 t : Vec Ideal S512 .i32) (ix1 i)).toNat = si (edge (tb2 t) i))
    ∧ (∀ i : Fin 512, ((iblk2 V c 1 t : Vec Ideal S512 .i32) (ix1 i)).toNat = oi (edge (tb2 t) i))
    ∧ (∀ (i : Fin 512) (j : Fin 128), (iblk2 V c 2 t : Vec Ideal S512x128 .f32) (ix2 i j) = newS θ obj pred si oi (edge (tb2 t) i) j)
    ∧ ∀ (i : Fin 512) (j : Fin 128), (iblk2 V c 3 t : Vec Ideal S512x128 .f32) (ix2 i j) = newO θ obj pred si oi (edge (tb2 t) i) j := by
  obtain ⟨f0, f1, f2, f3, -⟩ := idx2_all t
  exact ⟨fun i => (congrArg (fun z => BitVec.toNat (V c main_v1 z)) (iblk2_at1 t ((cfg2.win 0).blk t).view.emb f0 (fun _ => rfl) i)).trans (hsi _),
    fun i => (congrArg (fun z => BitVec.toNat (V c main_v3 z)) (iblk2_at1 t ((cfg2.win 1).blk t).view.emb f1 (fun _ => rfl) i)).trans (hoi _),
    fun i j => (congrArg (V c main_v10_0) (iblk2_at t ((cfg2.win 2).blk t).view.emb f2 (fun _ _ => rfl) i j)).trans (hns _ j),
    fun i j => (congrArg (V c main_v10_2) (iblk2_at t ((cfg2.win 3).blk t).view.emb f3 (fun _ _ => rfl) i j)).trans (hno _ j)⟩

/-- After point `t` the first accumulator holds at (r, j) the sum of the first t + 1 blocks' messages to node r, and the second, in every column, their number. -/
theorem acc_inv2 : ∀ (m : ℕ) (t : Fin cfg2.N), t.val = m → ∀ (r : Fin 10240) (j : Fin 128),
      (outsAt2 V c t.val t.isLt).2.1 (ix2 r j)
        = upTo (accBlock si oi (newS θ obj pred si oi) (newO θ obj pred si oi) r.val j) (t.val + 1)
      ∧ (outsAt2 V c t.val t.isLt).2.2 (ix2 r j) = upTo (cntBlock si oi r.val) (t.val + 1)
  | 0, t, ht, r, j => by
    obtain ⟨h0, h1, h2, h3⟩ := iblk2_in V c θ obj pred si oi hsi hoi hns hno t
    rw [outsAt2_acc_first V c t (by omega), outsAt2_cnt_first V c t (by omega)]
    exact ⟨k2_acc_step si oi _ _ (tb2 t) _ _ _ _ _ r j h0 h1 (h2 · j) (h3 · j)
        ((k2_pay3_apply _).trans (by rw [show (tb2 t).val = 0 from ht]; exact (upTo_zero _).symm)),
      k2_cnt_step si oi (tb2 t) _ _ _ r j h0 h1
        ((k2_pay4_apply _).trans (by rw [show (tb2 t).val = 0 from ht]; exact (upTo_zero _).symm))⟩
  | m + 1, t, ht, r, j => by
    obtain ⟨h0, h1, h2, h3⟩ := iblk2_in V c θ obj pred si oi hsi hoi hns hno t
    have hN : t.val < 625 := (tb2 t).isLt
    have ih := acc_inv2 m ⟨t.val - 1, Nat.lt_of_le_of_lt (Nat.sub_le _ _) t.isLt⟩ (by dsimp only; omega) r j
    rw [outsAt2_acc_pos V c t (by omega), outsAt2_cnt_pos V c t (by omega)]
    have e : (tb2 t).val = t.val - 1 + 1 := by dsimp only; omega
    exact ⟨k2_acc_step si oi _ _ (tb2 t) _ _ _ _ _ r j h0 h1 (h2 · j) (h3 · j) (e ▸ ih.1),
      k2_cnt_step si oi (tb2 t) _ _ _ r j h0 h1 (e ▸ ih.2)⟩

end Region

end Cert.Proof.KIVal

end
-- ==== Proof.KIVal.PoolFinal.lean ====
/- After the last step the region's result is the specification's node network of the pooled averages. -/
import proofs.«215230_g44530220925728_cont_8to1c4_163_46_alg».proof.Proof.KIVal.PoolInv

noncomputable section

open scoped BigOperators

namespace Cert.Proof.KIVal

open Idealize.ShloMosaic Idealize.ShloMosaic.TcCoe Idealize.ShloMosaic.ValueIdx
open Idealize.ShloMosaic.SparseCore.Cfg (HIx)
open Idealize.ShloMosaic.Pipeline (Dat)
open Idealize.SL Idealize.SL.Sem
open Cert.KernelIdeal Cert.KernelIdeal.Gen
open Cert.Proof.KI Cert.Proof.Spec

section Region
variable (V : (c : Dev nD) → (b : Ref sig .tc) → Buf (Elt Ideal) ((c : Thread nD τ).loc b))

attribute [local irreducible] outsAt2

section Out
variable (O : Dev nD → CellTallies nD τ sig (HIx 2)) (B : Dev nD → Set (SemLoc sig × HIx 2))

/-- What the last point leaves as the result, as contents of the result array (its one block is the array). -/
def result2 (c : Dev nD) : Buf (Elt Ideal) ((c : Thread nD τ).loc main_v13) := (dat2 V O B c).after 8 tLast2

/-- The result window's block is its whole array: an entry sits where it is. -/
theorem win2_8_emb (t : Fin cfg2.N) (y : S10240x128.Idx) : ((cfg2.win 8).blk t).view.emb y = y :=
  iblk2_at0 _ (idx2_all t).2.2.2.2.2.2.2.2 (fun _ _ => rfl) y

/-- Of the points' blocks of the result only the last point's reaches the array, and it is this one. -/
theorem flushed_eq2 (c : Dev nD) (t : Fin cfg2.N) (hf : (cfg2.win 8).flush t = true) :
    (dat2 V O B c).flushed 8 t = ((cfg2.win 8).blk t).view.read (Elt Ideal) (result2 V O B c) := by
  have h624 : t.val = 624 := by have := (flush2_8 t).mp hf; have : t.val < 625 := (tb2 t).isLt; omega
  obtain rfl : t = tLast2 := Fin.ext h624
  funext y
  rw [View.read_apply, win2_8_emb]
  exact (fun X => rfl : ∀ X : Vec Ideal S10240x128 .f32, (cfg2.win 8).cut (cfg2.grid.coords tLast2) X y = X y) _

/-- So the result array ends holding it: the last point's block covers it. -/
theorem final_o2 (c : Dev nD) : (dat2 V O B c).arrAt 8 cfg2.N = result2 V O B c :=
  (dat2 V O B c).arrAt_eq_of_cover 8 (result2 V O B c) (flushed_eq2 V O B c) fun i =>
    ⟨tLast2, (flush2_8 tLast2).mpr rfl, by have h := View.emb_mem_set ((cfg2.win 8).blk tLast2).view i; rwa [win2_8_emb] at h⟩

/-- Row r of the first column of the second accumulator, as the last point loads it. -/
theorem rcol_idx2 (r : Fin 10240) : rcol2.idx (ix2 r (0 : Fin 1)) = ix2 r (0 : Fin 128) :=
  Shape.idx_ext₂ (by show 0 + 1 * r.val = r.val; omega) (by show 0 + 1 * 0 = 0; rfl)

variable (c : Dev nD) (θ : Params) (obj : ℕ → Fin 128 → EReal) (pred : E → Fin 128 → EReal) (si oi : E → ℕ)
  (hsi : ∀ e : E, (V c main_v1 (ix1 e)).toNat = si e) (hoi : ∀ e : E, (V c main_v3 (ix1 e)).toNat = oi e)
  (hns : ∀ (e : E) (j : Fin 128), V c main_v10_0 (ix2 e j) = newS θ obj pred si oi e j) (hno : ∀ (e : E) (j : Fin 128), V c main_v10_2 (ix2 e j) = newO θ obj pred si oi e j)
  (hWa : ∀ k' k : Fin 128, V c main_arg7 (ix2 k' k) = θ.W2a k' k) (hba : ∀ k : Fin 128, V c main_v11 (ix2 0 k) = θ.b2a k)
  (hWb : ∀ k j : Fin 128, V c main_arg9 (ix2 k j) = θ.W2b k j) (hbb : ∀ j : Fin 128, V c main_v12 (ix2 0 j) = θ.b2b j)
include hsi hoi hns hno hWa hba hWb hbb

/-- With the two index arrays the edges' subjects and objects, the two message arrays the specification's messages and the four weight arrays its node network's weights, the result array after the region holds at (n, j) the specification's new node row. -/
theorem pool_value2 (n : Fin 10240) (j : Fin 128) :
    (dat2 (F := Ideal) V O B c).arrAt 8 cfg2.N (ix2 n j) = newObj θ obj pred si oi n.val j := by
  obtain ⟨-, -, -, -, f4, f5, f6, f7, -⟩ := idx2_all tLast2
  have inv := acc_inv2 V c θ obj pred si oi hsi hoi hns hno 624 tLast2 rfl n
  have h4 := fun k' k => (congrArg (V c main_arg7) (iblk2_at0 ((cfg2.win 4).blk tLast2).view.emb f4 (fun _ _ => rfl) (ix2 k' k))).trans (hWa k' k)
  have h5 := fun k => (congrArg (V c main_v11) (iblk2_at0 ((cfg2.win 5).blk tLast2).view.emb f5 (fun _ _ => rfl) (ix2 0 k))).trans (hba k)
  have h6 := fun k j => (congrArg (V c main_arg9) (iblk2_at0 ((cfg2.win 6).blk tLast2).view.emb f6 (fun _ _ => rfl) (ix2 k j))).trans (hWb k j)
  have h7 := fun j => (congrArg (V c main_v12) (iblk2_at0 ((cfg2.win 7).blk tLast2).view.emb f7 (fun _ _ => rfl) (ix2 0 j))).trans (hbb j)
  rw [final_o2 V O B c]
  unfold result2
  rw [after2_8, outsAt2_out_last V c tLast2 rfl]
  exact k2_final θ obj pred si oi _ _ _ _ _ _ n (fun k => (inv k).1)
    ((congrArg (outsAt2 V c tLast2.val tLast2.isLt).2.2 (rcol_idx2 n)).trans (inv 0).2) h4 h5 h6 h7 j

end Out

end Region

end Cert.Proof.KIVal

end
-- ==== Proof.KI.Pool5.Closed.lean ====
/- What each case of the pooled node network's body leaves, in closed form over the body's payloads. -/
import proofs.«215230_g44530220925728_cont_8to1c4_163_46_alg».proof.Proof.KI.Pool5
import Idealize.ShloMosaic.Lib.Pipeline.Value

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

theorem hzP5_1 : (![0] : Fin 1 → Nat) = fun _ => 0 := funext fun a => by fin_cases a; rfl
theorem hzP5_2 : (![0, 0] : Fin 2 → Nat) = fun _ => 0 := funext fun a => by fin_cases a <;> rfl

theorem rdWP5 {sp : Space} {s : Shape} {e : EltTy} (m : Memref sig .tc sp s e) (h : m.IsWhole) {off : Fin s.rank → Nat}
    (hoff : off = fun _ => 0) (inb : ∀ a, off a + s.size a ≤ s.size a) (x : s.Idx → Elt F e) :
    View.readAt (Elt F) m.view (Rect.unit off s.size inb).toLoadRect (h.unread x) = x := by
  show View.ld (m.view.read (Elt F) (h.unread x)) (Rect.unit off s.size inb) = x
  rw [h.read_unread]; exact View.ld_unit_zero hoff inb x

abbrev rcol5 : Rect S10240x128 := Rect.unit (s := S10240x128) ![0, 0] S10240x1.size inb_S10240x128_S10240x1_0_0

theorem rdCol5 (v : View sig .tc .vmem S10240x128 .f32) (w : Vec F S10240x128 .f32) :
    v.readCov [(⟨Rect.unit (s := S10240x128) ![0, 0] S10240x128.size inb_S10240x128_S10240x128_0_0, w⟩ : View.Piece (Elt F) S10240x128 .f32)] rcol5.toLoadRect
      = View.ld (Val := Elt F) w rcol5 := by
  have hc : ∀ y : S10240x128.Idx, ∃ p ∈ [(⟨Rect.unit (s := S10240x128) ![0, 0] S10240x128.size inb_S10240x128_S10240x128_0_0, w⟩ : View.Piece (Elt F) S10240x128 .f32)], y ∈ p.1.set :=
    fun y => ⟨_, List.mem_singleton_self _, View.mem_set_unit_zero (S := S10240x128) hzP5_2 inb_S10240x128_S10240x128_0_0 y⟩
  rw [View.readCov_eq_canon_ld v _ rcol5 hc, View.canon_unit_zero (S := S10240x128) hzP5_2]

section Cases
variable (c : Dev nD) (i : grid5.Coords) (arg1 : Memref sig .tc .vmem S512 .i32) (harg1 : arg1.IsWhole) (arg2 : Memref sig .tc .vmem S512 .i32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S10240x128 .f32) (harg9 : arg9.IsWhole) (arg10 : Memref sig .tc .vmem S10240x128 .f32) (harg10 : arg10.IsWhole) (arg11 : Memref sig .tc .vmem S10240x128 .f32) (harg11 : arg11.IsWhole)

theorem sout5_A_0_eq (hc0 : cond5_0 i) (hc1 : ¬cond5_1 i) (x0 x1 : Vec F S512 .i32) (x2 x3 : Vec F S512x128 .f32) :
    sout5_A_0 c i arg1 harg1 arg2 harg2 arg3 harg3 arg4 harg4 arg5 harg5 arg6 harg6 arg7 harg7 arg8 harg8 arg9 harg9 arg10 harg10 arg11 harg11 hc0 hc1 x0 x1 x2 x3 = k5_pay7 x0 x1 (k5_pay3 (F := F)) x2 x3 := by
  unfold sout5_A_0
  rw [View.read_writes_junk_eq_canon]
  unfold kernelRun5_A; dsimp only
  unfold kernelRun5_A.sl.v22 kernelRun5_A.sl.HS0_1
  rw [View.canon_cons_unit_zero (S := S10240x128) hzP5_2, rdWP5 arg1 harg1 hzP5_1 inb_S512_S512_0 x0, rdWP5 arg2 harg2 hzP5_1 inb_S512_S512_0 x1, rdWP5 arg3 harg3 hzP5_2 inb_S512x128_S512x128_0_0 x2, rdWP5 arg4 harg4 hzP5_2 inb_S512x128_S512x128_0_0 x3, View.readCov_unit_zero (Val := Elt F) (S := S10240x128) (e := .f32) arg10.view hzP5_2 inb_S10240x128_S10240x128_0_0 (k5_pay3 (F := F))]

theorem sout5_A_1_eq (hc0 : cond5_0 i) (hc1 : ¬cond5_1 i) (x0 x1 : Vec F S512 .i32) (x2 x3 : Vec F S512x128 .f32) :
    sout5_A_1 c i arg1 harg1 arg2 harg2 arg3 harg3 arg4 harg4 arg5 harg5 arg6 harg6 arg7 harg7 arg8 harg8 arg9 harg9 arg10 harg10 arg11 harg11 hc0 hc1 x0 x1 x2 x3 = k5_pay1 (k5_pay8 x0) (k5_pay9 x1) (k5_pay4 (F := F)) := by
  unfold sout5_A_1
  rw [View.read_writes_junk_eq_canon]
  unfold kernelRun5_A; dsimp only
  unfold kernelRun5_A.sl.v43 kernelRun5_A.sl.HS1_1 kernelRun5_A.sl.r kernelRun5_A.sl.r_1
  rw [View.canon_cons_unit_zero (S := S10240x128) hzP5_2, rdWP5 arg1 harg1 hzP5_1 inb_S512_S512_0 x0, rdWP5 arg2 harg2 hzP5_1 inb_S512_S512_0 x1, View.readCov_unit_zero (Val := Elt F) (S := S10240x128) (e := .f32) arg11.view hzP5_2 inb_S10240x128_S10240x128_0_0 (k5_pay4 (F := F))]

theorem sout5_B_0_eq (hc0 : ¬cond5_0 i) (hc1 : ¬cond5_1 i) (x0 x1 : Vec F S512 .i32) (x2 x3 : Vec F S512x128 .f32) (xs0 xs1 : Vec F S10240x128 .f32) :
    sout5_B_0 c i arg1 harg1 arg2 harg2 arg3 harg3 arg4 harg4 arg5 harg5 arg6 harg6 arg7 harg7 arg8 harg8 arg9 harg9 arg10 harg10 arg11 harg11 hc0 hc1 x0 x1 x2 x3 xs0 xs1 = k5_pay7 x0 x1 xs0 x2 x3 := by
  unfold sout5_B_0
  rw [View.read_writes_junk_eq_canon]
  unfold kernelRun5_B; dsimp only
  rw [View.canon_cons_unit_zero (S := S10240x128) hzP5_2, rdWP5 arg1 harg1 hzP5_1 inb_S512_S512_0 x0, rdWP5 arg2 harg2 hzP5_1 inb_S512_S512_0 x1, rdWP5 arg3 harg3 hzP5_2 inb_S512x128_S512x128_0_0 x2, rdWP5 arg4 harg4 hzP5_2 inb_S512x128_S512x128_0_0 x3, rdWP5 arg10 harg10 hzP5_2 inb_S10240x128_S10240x128_0_0 xs0]

theorem sout5_B_1_eq (hc0 : ¬cond5_0 i) (hc1 : ¬cond5_1 i) (x0 x1 : Vec F S512 .i32) (x2 x3 : Vec F S512x128 .f32) (xs0 xs1 : Vec F S10240x128 .f32) :
    sout5_B_1 c i arg1 harg1 arg2 harg2 arg3 harg3 arg4 harg4 arg5 harg5 arg6 harg6 arg7 harg7 arg8 harg8 arg9 harg9 arg10 harg10 arg11 harg11 hc0 hc1 x0 x1 x2 x3 xs0 xs1 = k5_pay1 (k5_pay8 x0) (k5_pay9 x1) xs1 := by
  unfold sout5_B_1
  rw [View.read_writes_junk_eq_canon]
  unfold kernelRun5_B; dsimp only
  unfold kernelRun5_B.sl.r kernelRun5_B.sl.r_1
  rw [View.canon_cons_unit_zero (S := S10240x128) hzP5_2, rdWP5 arg1 harg1 hzP5_1 inb_S512_S512_0 x0, rdWP5 arg2 harg2 hzP5_1 inb_S512_S512_0 x1, rdWP5 arg11 harg11 hzP5_2 inb_S10240x128_S10240x128_0_0 xs1]

theorem sout5_C_0_eq (hc0 : ¬cond5_0 i) (hc1 : cond5_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) :
    sout5_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = k5_pay7 x0 x1 xs0 x2 x3 := by
  unfold sout5_C_0
  rw [View.read_writes_junk_eq_canon]
  unfold kernelRun5_C; dsimp only
  unfold kernelRun5_C.sl.HS0_1
  rw [View.canon_cons_unit_zero (S := S10240x128) hzP5_2, rdWP5 arg1 harg1 hzP5_1 inb_S512_S512_0 x0, rdWP5 arg2 harg2 hzP5_1 inb_S512_S512_0 x1, rdWP5 arg3 harg3 hzP5_2 inb_S512x128_S512x128_0_0 x2, rdWP5 arg4 harg4 hzP5_2 inb_S512x128_S512x128_0_0 x3, rdWP5 arg10 harg10 hzP5_2 inb_S10240x128_S10240x128_0_0 xs0]

theorem sout5_C_1_eq (hc0 : ¬cond5_0 i) (hc1 : cond5_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) :
    sout5_C_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = k5_pay1 (k5_pay8 x0) (k5_pay9 x1) xs1 := by
  unfold sout5_C_1
  rw [View.read_writes_junk_eq_canon]
  unfold kernelRun5_C; dsimp only
  unfold kernelRun5_C.sl.HS1_1 kernelRun5_C.sl.r kernelRun5_C.sl.r_1
  rw [View.canon_cons_unit_zero (S := S10240x128) hzP5_2, rdWP5 arg1 harg1 hzP5_1 inb_S512_S512_0 x0, rdWP5 arg2 harg2 hzP5_1 inb_S512_S512_0 x1, rdWP5 arg11 harg11 hzP5_2 inb_S10240x128_S10240x128_0_0 xs1]

theorem out5_C_8_eq (hc0 : ¬cond5_0 i) (hc1 : cond5_1 i) (x0 x1 : Vec F S512 .i32) (x2 x3 : Vec F S512x128 .f32) (x4 : Vec F S128x128 .f32) (x5 : Vec F S1x128 .f32) (x6 : Vec F S128x128 .f32) (x7 : Vec F S1x128 .f32) (xs0 xs1 : Vec F S10240x128 .f32) :
    out5_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1
      = k5_pay2 (k5_pay7 x0 x1 xs0 x2 x3) (View.ld (Val := Elt F) (k5_pay1 (k5_pay8 x0) (k5_pay9 x1) xs1) rcol5) x4 x5 x6 x7 := by
  unfold out5_C_8
  rw [View.read_writes_junk_eq_canon]
  unfold kernelRun5_C; dsimp only
  unfold kernelRun5_C.sl.v53 kernelRun5_C.sl.v54 kernelRun5_C.sl.HS0_1 kernelRun5_C.sl.HS1_1 kernelRun5_C.sl.r kernelRun5_C.sl.r_1
  rw [View.canon_cons_unit_zero (S := S10240x128) hzP5_2, rdWP5 arg1 harg1 hzP5_1 inb_S512_S512_0 x0, rdWP5 arg2 harg2 hzP5_1 inb_S512_S512_0 x1, rdWP5 arg3 harg3 hzP5_2 inb_S512x128_S512x128_0_0 x2, rdWP5 arg4 harg4 hzP5_2 inb_S512x128_S512x128_0_0 x3, rdWP5 arg5 harg5 hzP5_2 inb_S128x128_S128x128_0_0 x4, rdWP5 arg6 harg6 hzP5_2 inb_S1x128_S1x128_0_0 x5, rdWP5 arg7 harg7 hzP5_2 inb_S128x128_S128x128_0_0 x6, rdWP5 arg8 harg8 hzP5_2 inb_S1x128_S1x128_0_0 x7, rdWP5 arg10 harg10 hzP5_2 inb_S10240x128_S10240x128_0_0 xs0, rdWP5 arg11 harg11 hzP5_2 inb_S10240x128_S10240x128_0_0 xs1,
    View.readCov_unit_zero (Val := Elt F) (S := S10240x128) (e := .f32) arg10.view hzP5_2 inb_S10240x128_S10240x128_0_0 (k5_pay7 x0 x1 xs0 x2 x3),
    rdCol5 arg11.view (k5_pay1 (k5_pay8 x0) (k5_pay9 x1) xs1)]

end Cases

section Region
variable (V : (c : Dev nD) → (b : Ref sig .tc) → Buf (Elt F) ((c : Thread nD τ).loc b))

theorem outsAt5_acc_first (c : Dev nD) (t : Fin cfg5.N) (h0 : t.val % 625 = 0) :
    (outsAt5 V c t.val t.isLt).2.1 = k5_pay7 (iblk5 V c 0 t) (iblk5 V c 1 t) (k5_pay3 (F := F)) (iblk5 V c 2 t) (iblk5 V c 3 t) := by
  have h1 : ¬t.val % 625 = 624 := by omega
  rw [outsAt5_A V c t h0 h1]
  dsimp only
  rw [sout5_A_0_eq]

theorem outsAt5_cnt_first (c : Dev nD) (t : Fin cfg5.N) (h0 : t.val % 625 = 0) :
    (outsAt5 V c t.val t.isLt).2.2 = k5_pay1 (k5_pay8 (iblk5 V c 0 t)) (k5_pay9 (iblk5 V c 1 t)) (k5_pay4 (F := F)) := by
  have h1 : ¬t.val % 625 = 624 := by omega
  rw [outsAt5_A V c t h0 h1]
  dsimp only
  rw [sout5_A_1_eq]

theorem outsAt5_acc_pos (c : Dev nD) (t : Fin cfg5.N) (h0 : ¬t.val % 625 = 0) :
    (outsAt5 V c t.val t.isLt).2.1 = k5_pay7 (iblk5 V c 0 t) (iblk5 V c 1 t) (prevS5_0 V c t) (iblk5 V c 2 t) (iblk5 V c 3 t) := by
  by_cases h1 : t.val % 625 = 624
  · rw [outsAt5_C V c t h0 h1]; dsimp only; rw [sout5_C_0_eq]
  · rw [outsAt5_B V c t h0 h1]; dsimp only; rw [sout5_B_0_eq]

theorem outsAt5_cnt_pos (c : Dev nD) (t : Fin cfg5.N) (h0 : ¬t.val % 625 = 0) :
    (outsAt5 V c t.val t.isLt).2.2 = k5_pay1 (k5_pay8 (iblk5 V c 0 t)) (k5_pay9 (iblk5 V c 1 t)) (prevS5_1 V c t) := by
  by_cases h1 : t.val % 625 = 624
  · rw [outsAt5_C V c t h0 h1]; dsimp only; rw [sout5_C_1_eq]
  · rw [outsAt5_B V c t h0 h1]; dsimp only; rw [sout5_B_1_eq]

theorem outsAt5_out_last (c : Dev nD) (t : Fin cfg5.N) (h1 : t.val % 625 = 624) :
    (outsAt5 V c t.val t.isLt).1
      = k5_pay2 (outsAt5 V c t.val t.isLt).2.1 (View.ld (Val := Elt F) (outsAt5 V c t.val t.isLt).2.2 rcol5) (iblk5 V c 4 t) (iblk5 V c 5 t) (iblk5 V c 6 t) (iblk5 V c 7 t) := by
  have h0 : ¬t.val % 625 = 0 := by omega
  rw [outsAt5_C V c t h0 h1]
  dsimp only
  rw [out5_C_8_eq, sout5_C_0_eq, sout5_C_1_eq]

end Region

end Cert.Proof.KI

end
-- ==== Proof.KIVal.PoolInv5.lean ====
/- After every step the accumulators hold the running sums: induction on the step. -/
import proofs.«215230_g44530220925728_cont_8to1c4_163_46_alg».proof.Proof.KI.Pool5.Closed
import proofs.«215230_g44530220925728_cont_8to1c4_163_46_alg».proof.Proof.KIVal.PoolStep

noncomputable section

open scoped BigOperators

namespace Cert.Proof.KIVal

open Idealize.ShloMosaic Idealize.ShloMosaic.TcCoe Idealize.ShloMosaic.ValueIdx
open Idealize.ShloMosaic.SparseCore.Cfg (HIx)
open Idealize.ShloMosaic.Pipeline (Dat)
open Idealize.SL Idealize.SL.Sem
open Cert.KernelIdeal Cert.KernelIdeal.Gen
open Cert.Proof.KI Cert.Proof.Spec

/-- A point's block number. -/
abbrev tb5 (t : Fin cfg5.N) : Fin 625 := ⟨t.val, lt_of_lt_of_eq t.isLt (show cfg5.N = 625 from N_5)⟩
/-- The last point. -/
abbrev tLast5 : Fin cfg5.N := ⟨624, by rw [show cfg5.N = 625 from N_5]; decide⟩

/-- A block index (p, 0). -/
abbrev idx5_ix (ι : Fin 2 → ℕ) (p : ℕ) : Prop := ι 0 = p ∧ ι 1 = 0

/-- The block index of every window at every point: t for the four windows of edge blocks, 0 for the four tables and the result. -/
theorem idx5_all : ∀ t : Fin cfg5.N, win5_0.index t 0 = t.val ∧ win5_1.index t 0 = t.val
    ∧ idx5_ix (win5_2.index t) t.val ∧ idx5_ix (win5_3.index t) t.val ∧ idx5_ix (win5_4.index t) 0 ∧ idx5_ix (win5_5.index t) 0
    ∧ idx5_ix (win5_6.index t) 0 ∧ idx5_ix (win5_7.index t) 0 ∧ idx5_ix (win5_8.index t) 0 :=
  (by decide +kernel : ∀ t : Fin grid5.N, _)

/-- An entry of a 512-entry block at block index t sits at entry 512·t + i of the array. -/
theorem iblk5_at1 (t : Fin cfg5.N) (f : S512.Idx → (⟨1, ![320000]⟩ : Shape).Idx) {p : ℕ} (h : p = t.val)
    (hf : ∀ y, (f y 0).val = p * 512 + 1 * (y 0).val) (i : Fin 512) : f (ix1 i) = ix1 (edge (tb5 t) i) := by
  funext a; apply Fin.ext
  match a with
  | ⟨0, _⟩ => show (f (ix1 i) 0).val = 512 * t.val + i.val; rw [hf, h]; show t.val * 512 + 1 * i.val = _; omega

/-- An entry of a 512-row block at block index (t, 0) sits at row 512·t + i, column j of the array. -/
theorem iblk5_at (t : Fin cfg5.N) (f : S512x128.Idx → S320000x128.Idx) {ι : Fin 2 → ℕ} (h : idx5_ix ι t.val)
    (hf : ∀ y a, (f y a).val = ι a * S512x128.size a + 1 * (y a).val) (i : Fin 512) (j : Fin 128) :
    f (ix2 i j) = ix2 (edge (tb5 t) i) j :=
  Shape.idx_ext₂ (by rw [hf _ 0, h.1]; show t.val * 512 + 1 * i.val = 512 * t.val + i.val; omega)
    (by rw [hf _ 1, h.2]; show 0 * 128 + 1 * j.val = j.val; omega)

/-- An entry of a block at block index (0, 0) sits in the array where it sits in the block. -/
theorem iblk5_at0 {n : Fin 2 → ℕ} (f : ((a : Fin 2) → Fin (n a)) → (a : Fin 2) → Fin (n a)) {ι : Fin 2 → ℕ} (h : idx5_ix ι 0)
    (hf : ∀ x a, (f x a).val = ι a * n a + 1 * (x a).val) (x : (a : Fin 2) → Fin (n a)) : f x = x :=
  Shape.idx_ext₂ (by rw [hf x 0, h.1]; omega) (by rw [hf x 1, h.2]; omega)

section Region
variable (V : (c : Dev nD) → (b : Ref sig .tc) → Buf (Elt Ideal) ((c : Thread nD τ).loc b))

attribute [local irreducible] outsAt5

variable (c : Dev nD) (θ : Params) (obj : ℕ → Fin 128 → EReal) (pred : E → Fin 128 → EReal) (si oi : E → ℕ)
  (hsi : ∀ e : E, (V c main_v1 (ix1 e)).toNat = si e) (hoi : ∀ e : E, (V c main_v3 (ix1 e)).toNat = oi e)
  (hns : ∀ (e : E) (j : Fin 128), V c main_v20_0 (ix2 e j) = newS θ obj pred si oi e j) (hno : ∀ (e : E) (j : Fin 128), V c main_v20_2 (ix2 e j) = newO θ obj pred si oi e j)
include hsi hoi hns hno

/-- Point `t`'s index blocks are the subjects and objects of block `t`'s edges, and its message blocks their messages. -/
theorem iblk5_in (t : Fin cfg5.N) :
    (∀ i : Fin 512, ((iblk5 V c 0 t : Vec Ideal S512 .i32) (ix1 i)).toNat = si (edge (tb5 t) i))
    ∧ (∀ i : Fin 512, ((iblk5 V c 1 t : Vec Ideal S512 .i32) (ix1 i)).toNat = oi (edge (tb5 t) i))
    ∧ (∀ (i : Fin 512) (j : Fin 128), (iblk5 V c 2 t : Vec Ideal S512x128 .f32) (ix2 i j) = newS θ obj pred si oi (edge (tb5 t) i) j)
    ∧ ∀ (i : Fin 512) (j : Fin 128), (iblk5 V c 3 t : Vec Ideal S512x128 .f32) (ix2 i j) = newO θ obj pred si oi (edge (tb5 t) i) j := by
  obtain ⟨f0, f1, f2, f3, -⟩ := idx5_all t
  exact ⟨fun i => (congrArg (fun z => BitVec.toNat (V c main_v1 z)) (iblk5_at1 t ((cfg5.win 0).blk t).view.emb f0 (fun _ => rfl) i)).trans (hsi _),
    fun i => (congrArg (fun z => BitVec.toNat (V c main_v3 z)) (iblk5_at1 t ((cfg5.win 1).blk t).view.emb f1 (fun _ => rfl) i)).trans (hoi _),
    fun i j => (congrArg (V c main_v20_0) (iblk5_at t ((cfg5.win 2).blk t).view.emb f2 (fun _ _ => rfl) i j)).trans (hns _ j),
    fun i j => (congrArg (V c main_v20_2) (iblk5_at t ((cfg5.win 3).blk t).view.emb f3 (fun _ _ => rfl) i j)).trans (hno _ j)⟩

/-- After point `t` the first accumulator holds at (r, j) the sum of the first t + 1 blocks' messages to node r, and the second, in every column, their number. -/
theorem acc_inv5 : ∀ (m : ℕ) (t : Fin cfg5.N), t.val = m → ∀ (r : Fin 10240) (j : Fin 128),
      (outsAt5 V c t.val t.isLt).2.1 (ix2 r j)
        = upTo (accBlock si oi (newS θ obj pred si oi) (newO θ obj pred si oi) r.val j) (t.val + 1)
      ∧ (outsAt5 V c t.val t.isLt).2.2 (ix2 r j) = upTo (cntBlock si oi r.val) (t.val + 1)
  | 0, t, ht, r, j => by
    obtain ⟨h0, h1, h2, h3⟩ := iblk5_in V c θ obj pred si oi hsi hoi hns hno t
    rw [outsAt5_acc_first V c t (by omega), outsAt5_cnt_first V c t (by omega)]
    exact ⟨k5_acc_step si oi _ _ (tb5 t) _ _ _ _ _ r j h0 h1 (h2 · j) (h3 · j)
        ((k5_pay3_apply _).trans (by rw [show (tb5 t).val = 0 from ht]; exact (upTo_zero _).symm)),
      k5_cnt_step si oi (tb5 t) _ _ _ r j h0 h1
        ((k5_pay4_apply _).trans (by rw [show (tb5 t).val = 0 from ht]; exact (upTo_zero _).symm))⟩
  | m + 1, t, ht, r, j => by
    obtain ⟨h0, h1, h2, h3⟩ := iblk5_in V c θ obj pred si oi hsi hoi hns hno t
    have hN : t.val < 625 := (tb5 t).isLt
    have ih := acc_inv5 m ⟨t.val - 1, Nat.lt_of_le_of_lt (Nat.sub_le _ _) t.isLt⟩ (by dsimp only; omega) r j
    rw [outsAt5_acc_pos V c t (by omega), outsAt5_cnt_pos V c t (by omega)]
    have e : (tb5 t).val = t.val - 1 + 1 := by dsimp only; omega
    exact ⟨k5_acc_step si oi _ _ (tb5 t) _ _ _ _ _ r j h0 h1 (h2 · j) (h3 · j) (e ▸ ih.1),
      k5_cnt_step si oi (tb5 t) _ _ _ r j h0 h1 (e ▸ ih.2)⟩

end Region

end Cert.Proof.KIVal

end
-- ==== Proof.KIVal.PoolFinal5.lean ====
/- After the last step the region's result is the specification's node network of the pooled averages. -/
import proofs.«215230_g44530220925728_cont_8to1c4_163_46_alg».proof.Proof.KIVal.PoolInv5

noncomputable section

open scoped BigOperators

namespace Cert.Proof.KIVal

open Idealize.ShloMosaic Idealize.ShloMosaic.TcCoe Idealize.ShloMosaic.ValueIdx
open Idealize.ShloMosaic.SparseCore.Cfg (HIx)
open Idealize.ShloMosaic.Pipeline (Dat)
open Idealize.SL Idealize.SL.Sem
open Cert.KernelIdeal Cert.KernelIdeal.Gen
open Cert.Proof.KI Cert.Proof.Spec

section Region
variable (V : (c : Dev nD) → (b : Ref sig .tc) → Buf (Elt Ideal) ((c : Thread nD τ).loc b))

attribute [local irreducible] outsAt5

section Out
variable (O : Dev nD → CellTallies nD τ sig (HIx 2)) (B : Dev nD → Set (SemLoc sig × HIx 2))

/-- What the last point leaves as the result, as contents of the result array (its one block is the array). -/
def result5 (c : Dev nD) : Buf (Elt Ideal) ((c : Thread nD τ).loc main_v23) := (dat5 V O B c).after 8 tLast5

/-- The result window's block is its whole array: an entry sits where it is. -/
theorem win5_8_emb (t : Fin cfg5.N) (y : S10240x128.Idx) : ((cfg5.win 8).blk t).view.emb y = y :=
  iblk5_at0 _ (idx5_all t).2.2.2.2.2.2.2.2 (fun _ _ => rfl) y

/-- Of the points' blocks of the result only the last point's reaches the array, and it is this one. -/
theorem flushed_eq5 (c : Dev nD) (t : Fin cfg5.N) (hf : (cfg5.win 8).flush t = true) :
    (dat5 V O B c).flushed 8 t = ((cfg5.win 8).blk t).view.read (Elt Ideal) (result5 V O B c) := by
  have h624 : t.val = 624 := by have := (flush5_8 t).mp hf; have : t.val < 625 := (tb5 t).isLt; omega
  obtain rfl : t = tLast5 := Fin.ext h624
  funext y
  rw [View.read_apply, win5_8_emb]
  exact (fun X => rfl : ∀ X : Vec Ideal S10240x128 .f32, (cfg5.win 8).cut (cfg5.grid.coords tLast5) X y = X y) _

/-- So the result array ends holding it: the last point's block covers it. -/
theorem final_o5 (c : Dev nD) : (dat5 V O B c).arrAt 8 cfg5.N = result5 V O B c :=
  (dat5 V O B c).arrAt_eq_of_cover 8 (result5 V O B c) (flushed_eq5 V O B c) fun i =>
    ⟨tLast5, (flush5_8 tLast5).mpr rfl, by have h := View.emb_mem_set ((cfg5.win 8).blk tLast5).view i; rwa [win5_8_emb] at h⟩

/-- Row r of the first column of the second accumulator, as the last point loads it. -/
theorem rcol_idx5 (r : Fin 10240) : rcol5.idx (ix2 r (0 : Fin 1)) = ix2 r (0 : Fin 128) :=
  Shape.idx_ext₂ (by show 0 + 1 * r.val = r.val; omega) (by show 0 + 1 * 0 = 0; rfl)

variable (c : Dev nD) (θ : Params) (obj : ℕ → Fin 128 → EReal) (pred : E → Fin 128 → EReal) (si oi : E → ℕ)
  (hsi : ∀ e : E, (V c main_v1 (ix1 e)).toNat = si e) (hoi : ∀ e : E, (V c main_v3 (ix1 e)).toNat = oi e)
  (hns : ∀ (e : E) (j : Fin 128), V c main_v20_0 (ix2 e j) = newS θ obj pred si oi e j) (hno : ∀ (e : E) (j : Fin 128), V c main_v20_2 (ix2 e j) = newO θ obj pred si oi e j)
  (hWa : ∀ k' k : Fin 128, V c main_arg15 (ix2 k' k) = θ.W2a k' k) (hba : ∀ k : Fin 128, V c main_v21 (ix2 0 k) = θ.b2a k)
  (hWb : ∀ k j : Fin 128, V c main_arg17 (ix2 k j) = θ.W2b k j) (hbb : ∀ j : Fin 128, V c main_v22 (ix2 0 j) = θ.b2b j)
include hsi hoi hns hno hWa hba hWb hbb

/-- With the two index arrays the edges' subjects and objects, the two message arrays the specification's messages and the four weight arrays its node network's weights, the result array after the region holds at (n, j) the specification's new node row. -/
theorem pool_value5 (n : Fin 10240) (j : Fin 128) :
    (dat5 (F := Ideal) V O B c).arrAt 8 cfg5.N (ix2 n j) = newObj θ obj pred si oi n.val j := by
  obtain ⟨-, -, -, -, f4, f5, f6, f7, -⟩ := idx5_all tLast5
  have inv := acc_inv5 V c θ obj pred si oi hsi hoi hns hno 624 tLast5 rfl n
  have h4 := fun k' k => (congrArg (V c main_arg15) (iblk5_at0 ((cfg5.win 4).blk tLast5).view.emb f4 (fun _ _ => rfl) (ix2 k' k))).trans (hWa k' k)
  have h5 := fun k => (congrArg (V c main_v21) (iblk5_at0 ((cfg5.win 5).blk tLast5).view.emb f5 (fun _ _ => rfl) (ix2 0 k))).trans (hba k)
  have h6 := fun k j => (congrArg (V c main_arg17) (iblk5_at0 ((cfg5.win 6).blk tLast5).view.emb f6 (fun _ _ => rfl) (ix2 k j))).trans (hWb k j)
  have h7 := fun j => (congrArg (V c main_v22) (iblk5_at0 ((cfg5.win 7).blk tLast5).view.emb f7 (fun _ _ => rfl) (ix2 0 j))).trans (hbb j)
  rw [final_o5 V O B c]
  unfold result5
  rw [after5_8, outsAt5_out_last V c tLast5 rfl]
  exact k5_final θ obj pred si oi _ _ _ _ _ _ n (fun k => (inv k).1)
    ((congrArg (outsAt5 V c tLast5.val tLast5.isLt).2.2 (rcol_idx5 n)).trans (inv 0).2) h4 h5 h6 h7 j

end Out

end Region

end Cert.Proof.KIVal

end
-- ==== Proof.KIVal.Final.lean ====
/- The kernel program's two results are the specification's: the contents of @main's buffers followed from the arguments to the return. -/
import proofs.«215230_g44530220925728_cont_8to1c4_163_46_alg».proof.Proof.KI.Vals
import proofs.«215230_g44530220925728_cont_8to1c4_163_46_alg».proof.Proof.KI.KeepVal
import proofs.«215230_g44530220925728_cont_8to1c4_163_46_alg».proof.Proof.KIVal.HostOps
import proofs.«215230_g44530220925728_cont_8to1c4_163_46_alg».proof.Proof.KIVal.EdgeFinal
import proofs.«215230_g44530220925728_cont_8to1c4_163_46_alg».proof.Proof.KIVal.EdgeFinal4
import proofs.«215230_g44530220925728_cont_8to1c4_163_46_alg».proof.Proof.KIVal.PoolFinal
import proofs.«215230_g44530220925728_cont_8to1c4_163_46_alg».proof.Proof.KIVal.PoolFinal5
import proofs.«215230_g44530220925728_cont_8to1c4_163_46_alg».proof.Proof.SpecArgs

noncomputable section

namespace Cert.Proof.KIVal

open Idealize.ShloMosaic Idealize.ShloMosaic.TcCoe Idealize.ShloMosaic.ValueIdx
open Idealize.ShloMosaic.SparseCore.Cfg (HIx)
open Cert.KernelIdeal Cert.KernelIdeal.Gen
open Cert.Proof.KI Cert.Proof.Spec Cert.Proof.SpecArgs

variable (m : (ℓ : Loc nD τ sig) → Buf (Elt Ideal) ℓ) (c : Dev nD)

/-- An argument array at launch. -/
abbrev arg (b : Ref sig .tc) : Buf (Elt Ideal) ((c : Thread nD τ).loc b) := m ((c : Thread nD τ).loc b)

abbrev θ0 : Params := params (arg m c main_arg3) (arg m c main_arg4) (arg m c main_arg5) (arg m c main_arg6) (arg m c main_arg7)
  (arg m c main_arg8) (arg m c main_arg9) (arg m c main_arg10)
abbrev θ1 : Params := params (arg m c main_arg11) (arg m c main_arg12) (arg m c main_arg13) (arg m c main_arg14) (arg m c main_arg15)
  (arg m c main_arg16) (arg m c main_arg17) (arg m c main_arg18)
abbrev obj0 : ℕ → Fin 128 → EReal := objOf (arg m c main_arg0)
abbrev pred0 : E → Fin 128 → EReal := predOf (arg m c main_arg1)
abbrev sI : E → ℕ := colOf (arg m c main_arg2) 0
abbrev oI : E → ℕ := colOf (arg m c main_arg2) 1
/-- The second round's table and edge rows are the first round's results. -/
abbrev obj1 : ℕ → Fin 128 → EReal := newObj (θ0 m c) (obj0 m c) (pred0 m c) (sI m c) (oI m c)
abbrev pred1 : E → Fin 128 → EReal := newP (θ0 m c) (obj0 m c) (pred0 m c) (sI m c) (oI m c)

/-- The four regions' proof data at the contents they enter with. -/
abbrev D1 := dat1 (F := Ideal) (V3 m) (Oat (F := Ideal) 1) (Bat (F := Ideal) 1) Rinv1 c
abbrev D2 := dat2 (F := Ideal) (V5 m) (Oat (F := Ideal) 1) (Bat (F := Ideal) 1) c
abbrev D4 := dat4 (F := Ideal) (V8 m) (Oat (F := Ideal) 2) (Bat (F := Ideal) 2) Rinv4 c
abbrev D5 := dat5 (F := Ideal) (V10 m) (Oat (F := Ideal) 2) (Bat (F := Ideal) 2) c

variable {m c}

theorem gath0_row (obj : Buf (Elt Ideal) (obj0Loc c)) (idx : Buf (Elt Ideal) (siLoc c)) (e : Fin 320000) (k : Fin 128) (n : ℕ) (hn : n < 10000)
    (hidx : (idx (ix1 e)).toNat = n) : gath0 c obj idx (ix2 e k) = obj (ix2 (⟨n, hn⟩ : Fin 10000) k) := by
  subst hidx
  exact gath0_apply c obj idx (ix2 e k) hn

theorem gath1_row (obj : Buf (Elt Ideal) (obj1Loc c)) (idx : Buf (Elt Ideal) (siLoc c)) (e : Fin 320000) (k : Fin 128) (n : ℕ) (hn : n < 10240)
    (hidx : (idx (ix1 e)).toNat = n) : gath1 c obj idx (ix2 e k) = obj (ix2 (⟨n, hn⟩ : Fin 10240) k) := by
  subst hidx
  exact gath1_apply c obj idx (ix2 e k) hn

section Chain

variable (hr : ∀ i, (arg m c main_arg2 i).toNat < 10000)

theorem si_read (e : E) : (W1 m c (dr main_v1) (ix1 e)).toNat = sI m c e := by
  rw [W1_v1]; exact col0_spec _ _ _ e
theorem oi_read (e : E) : (W1 m c (dr main_v3) (ix1 e)).toNat = oI m c e := by
  rw [W1_v3]; exact col1_spec _ _ _ e

theorem l0_p (e : E) (k : Fin 128) : V3 m c main_arg1 (ix2 e k) = pred0 m c e k := by rw [V3_arg1]; rfl
theorem l0_ws (k' k : Fin 128) : V3 m c main_v5 (ix2 k' k) = (θ0 m c).W1a (lo k') k := by rw [V3_v5]; exact wlo_spec _ _ k' k
theorem l0_wp (k' k : Fin 128) : V3 m c main_v6 (ix2 k' k) = (θ0 m c).W1a (mid k') k := by rw [V3_v6]; exact wmid_spec _ _ k' k
theorem l0_wo (k' k : Fin 128) : V3 m c main_v7 (ix2 k' k) = (θ0 m c).W1a (hi k') k := by rw [V3_v7]; exact whi_spec _ _ k' k
theorem l0_b1 (k : Fin 128) : V3 m c main_v8 (ix2 0 k) = (θ0 m c).b1a k := by rw [V3_v8]; exact bias128_spec _ _ k
theorem l0_W2 (k : Fin 128) (j : Fin 384) : V3 m c main_arg5 (ix2 k j) = (θ0 m c).W1b k j := by rw [V3_arg5]; rfl
theorem l0_b2 (j : Fin 384) : V3 m c main_v9 (ix2 0 j) = (θ0 m c).b1b j := by rw [V3_v9]; exact bias384_spec _ _ j
theorem l0_Wa (k' k : Fin 128) : V5 m c main_arg7 (ix2 k' k) = (θ0 m c).W2a k' k := by rw [V5_arg7]; rfl
theorem l0_ba (k : Fin 128) : V5 m c main_v11 (ix2 0 k) = (θ0 m c).b2a k := by rw [V5_v11]; exact bias128_spec _ _ k
theorem l0_Wb (k j : Fin 128) : V5 m c main_arg9 (ix2 k j) = (θ0 m c).W2b k j := by rw [V5_arg9]; rfl
theorem l0_bb (j : Fin 128) : V5 m c main_v12 (ix2 0 j) = (θ0 m c).b2b j := by rw [V5_v12]; exact bias128_spec _ _ j
theorem l0_si (e : E) : (V5 m c main_v1 (ix1 e)).toNat = sI m c e := by rw [V5_v1]; exact si_read e
theorem l0_oi (e : E) : (V5 m c main_v3 (ix1 e)).toNat = oI m c e := by rw [V5_v3]; exact oi_read e

theorem l1_ws (k' k : Fin 128) : V8 m c main_v15 (ix2 k' k) = (θ1 m c).W1a (lo k') k := by rw [V8_v15]; exact wlo_spec _ _ k' k
theorem l1_wp (k' k : Fin 128) : V8 m c main_v16 (ix2 k' k) = (θ1 m c).W1a (mid k') k := by rw [V8_v16]; exact wmid_spec _ _ k' k
theorem l1_wo (k' k : Fin 128) : V8 m c main_v17 (ix2 k' k) = (θ1 m c).W1a (hi k') k := by rw [V8_v17]; exact whi_spec _ _ k' k
theorem l1_b1 (k : Fin 128) : V8 m c main_v18 (ix2 0 k) = (θ1 m c).b1a k := by rw [V8_v18]; exact bias128_spec _ _ k
theorem l1_W2 (k : Fin 128) (j : Fin 384) : V8 m c main_arg13 (ix2 k j) = (θ1 m c).W1b k j := by rw [V8_arg13]; rfl
theorem l1_b2 (j : Fin 384) : V8 m c main_v19 (ix2 0 j) = (θ1 m c).b1b j := by rw [V8_v19]; exact bias384_spec _ _ j
theorem l1_Wa (k' k : Fin 128) : V10 m c main_arg15 (ix2 k' k) = (θ1 m c).W2a k' k := by rw [V10_arg15]; rfl
theorem l1_ba (k : Fin 128) : V10 m c main_v21 (ix2 0 k) = (θ1 m c).b2a k := by rw [V10_v21]; exact bias128_spec _ _ k
theorem l1_Wb (k j : Fin 128) : V10 m c main_arg17 (ix2 k j) = (θ1 m c).W2b k j := by rw [V10_arg17]; rfl
theorem l1_bb (j : Fin 128) : V10 m c main_v22 (ix2 0 j) = (θ1 m c).b2b j := by rw [V10_v22]; exact bias128_spec _ _ j
theorem l1_si (e : E) : (V10 m c main_v1 (ix1 e)).toNat = sI m c e := by rw [V10_v1]; exact si_read e
theorem l1_oi (e : E) : (V10 m c main_v3 (ix1 e)).toNat = oI m c e := by rw [V10_v3]; exact oi_read e

include hr

theorem l0_s (e : E) (k : Fin 128) : V3 m c main_v4_0 (ix2 e k) = obj0 m c (sI m c e) k := by
  rw [V3_v4_0, gath0_row _ _ e k (sI m c e) (hr (ix2 e 0)) (si_read e), W1_main_arg0]
  exact (objOf_row (arg m c main_arg0) ⟨sI m c e, hr (ix2 e 0)⟩ k).symm
theorem l0_o (e : E) (k : Fin 128) : V3 m c main_v4_1 (ix2 e k) = obj0 m c (oI m c e) k := by
  rw [V3_v4_1, gath0_row _ _ e k (oI m c e) (hr (ix2 e 1)) (oi_read e), W1_main_arg0]
  exact (objOf_row (arg m c main_arg0) ⟨oI m c e, hr (ix2 e 1)⟩ k).symm

/-- The first round's edge arrays are the specification's, its inputs being the specification's. -/
theorem l0_edge (e : E) (j : Fin 128) :
    (D1 m c).arrAt 9 cfg1.N (ix2 e j) = newS (θ0 m c) (obj0 m c) (pred0 m c) (sI m c) (oI m c) e j
      ∧ (D1 m c).arrAt 10 cfg1.N (ix2 e j) = newP (θ0 m c) (obj0 m c) (pred0 m c) (sI m c) (oI m c) e j
      ∧ (D1 m c).arrAt 11 cfg1.N (ix2 e j) = newO (θ0 m c) (obj0 m c) (pred0 m c) (sI m c) (oI m c) e j :=
  edge_value1 (V3 m) (Oat (F := Ideal) 1) (Bat (F := Ideal) 1) Rinv1 c (θ0 m c) (obj0 m c) (pred0 m c) (sI m c) (oI m c)
    (l0_s hr) l0_p (l0_o hr) l0_ws l0_wp l0_wo l0_b1 l0_W2 l0_b2 e j

theorem l0_ns (e : E) (j : Fin 128) : V5 m c main_v10_0 (ix2 e j) = newS (θ0 m c) (obj0 m c) (pred0 m c) (sI m c) (oI m c) e j := by
  rw [V5_v10_0]; exact (l0_edge hr e j).1
theorem l0_no (e : E) (j : Fin 128) : V5 m c main_v10_2 (ix2 e j) = newO (θ0 m c) (obj0 m c) (pred0 m c) (sI m c) (oI m c) e j := by
  rw [V5_v10_2]; exact (l0_edge hr e j).2.2

/-- The first round's pooled table is the specification's new table, on all 10240 rows. -/
theorem l0_pool (n : Fin 10240) (j : Fin 128) : (D2 m c).arrAt 8 cfg2.N (ix2 n j) = obj1 m c n.val j :=
  pool_value2 (V5 m) (Oat (F := Ideal) 1) (Bat (F := Ideal) 1) c (θ0 m c) (obj0 m c) (pred0 m c) (sI m c) (oI m c)
    l0_si l0_oi (l0_ns hr) (l0_no hr) l0_Wa l0_ba l0_Wb l0_bb n j

theorem l1_s (e : E) (k : Fin 128) : V8 m c main_v14_0 (ix2 e k) = obj1 m c (sI m c e) k := by
  rw [V8_v14_0, gath1_row _ _ e k (sI m c e) (Nat.lt_trans (hr (ix2 e 0)) (by norm_num)) (by rw [W6_keep m c main_v1 (by decide)]; exact si_read e), W6_v13]
  exact l0_pool hr ⟨sI m c e, _⟩ k
theorem l1_o (e : E) (k : Fin 128) : V8 m c main_v14_1 (ix2 e k) = obj1 m c (oI m c e) k := by
  rw [V8_v14_1, gath1_row _ _ e k (oI m c e) (Nat.lt_trans (hr (ix2 e 1)) (by norm_num)) (by rw [W6_keep m c main_v3 (by decide)]; exact oi_read e), W6_v13]
  exact l0_pool hr ⟨oI m c e, _⟩ k
theorem l1_p (e : E) (k : Fin 128) : V8 m c main_v10_1 (ix2 e k) = pred1 m c e k := by
  rw [V8_v10_1]; exact (l0_edge hr e k).2.1

theorem l1_edge (e : E) (j : Fin 128) :
    (D4 m c).arrAt 9 cfg4.N (ix2 e j) = newS (θ1 m c) (obj1 m c) (pred1 m c) (sI m c) (oI m c) e j
      ∧ (D4 m c).arrAt 10 cfg4.N (ix2 e j) = newP (θ1 m c) (obj1 m c) (pred1 m c) (sI m c) (oI m c) e j
      ∧ (D4 m c).arrAt 11 cfg4.N (ix2 e j) = newO (θ1 m c) (obj1 m c) (pred1 m c) (sI m c) (oI m c) e j :=
  edge_value4 (V8 m) (Oat (F := Ideal) 2) (Bat (F := Ideal) 2) Rinv4 c (θ1 m c) (obj1 m c) (pred1 m c) (sI m c) (oI m c)
    (l1_s hr) (l1_p hr) (l1_o hr) l1_ws l1_wp l1_wo l1_b1 l1_W2 l1_b2 e j

theorem l1_ns (e : E) (j : Fin 128) : V10 m c main_v20_0 (ix2 e j) = newS (θ1 m c) (obj1 m c) (pred1 m c) (sI m c) (oI m c) e j := by
  rw [V10_v20_0]; exact (l1_edge hr e j).1
theorem l1_no (e : E) (j : Fin 128) : V10 m c main_v20_2 (ix2 e j) = newO (θ1 m c) (obj1 m c) (pred1 m c) (sI m c) (oI m c) e j := by
  rw [V10_v20_2]; exact (l1_edge hr e j).2.2

theorem l1_pool (n : Fin 10240) (j : Fin 128) :
    (D5 m c).arrAt 8 cfg5.N (ix2 n j) = newObj (θ1 m c) (obj1 m c) (pred1 m c) (sI m c) (oI m c) n.val j :=
  pool_value5 (V10 m) (Oat (F := Ideal) 2) (Bat (F := Ideal) 2) c (θ1 m c) (obj1 m c) (pred1 m c) (sI m c) (oI m c)
    l1_si l1_oi (l1_ns hr) (l1_no hr) l1_Wa l1_ba l1_Wb l1_bb n j

end Chain

theorem final_out0 (m : (ℓ : Loc nD τ sig) → Buf (Elt Ideal) ℓ) (c : Dev nD)
    (hr : ∀ i, (m ((c : Thread nD τ).loc main_arg2) i).toNat < 10000) :
    W12 (F := Ideal) m c (dr main_v24)
      = Out0 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) := by
  rw [W12_v24]
  funext i
  obtain ⟨n, j, rfl⟩ : ∃ (n : Fin 10000) (j : Fin 128), i = ix2 n j := ⟨i 0, i 1, eq_ix2 i⟩
  rw [rows10000_apply, l1_pool hr]
  rfl

theorem final_out1 (m : (ℓ : Loc nD τ sig) → Buf (Elt Ideal) ℓ) (c : Dev nD)
    (hr : ∀ i, (m ((c : Thread nD τ).loc main_arg2) i).toNat < 10000) :
    W12 (F := Ideal) m c (dr main_v20_1)
      = Out1 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) := by
  rw [W12_v20_1]
  funext i
  obtain ⟨e, j, rfl⟩ : ∃ (e : Fin 320000) (j : Fin 128), i = ix2 e j := ⟨i 0, i 1, eq_ix2 i⟩
  rw [(l1_edge hr e j).2.1]
  rfl

end Cert.Proof.KIVal

end
-- ==== Proof.RefValueOps.lean ====
/- A gather of rows, a scatter-add and a concatenation of columns, each read at one coordinate. -/
import Idealize.ShloMosaic.PureOps.Ideal
import Idealize.ShloMosaic.PureOps.Ideal.Laws
import Idealize.ShloMosaic.Lib.ValueIdx
import Idealize.ShloMosaic.Lib.Pipeline.Value
import proofs.«215230_g44530220925728_cont_8to1c4_163_46_alg».proof.Proof.Spec
import proofs.«215230_g44530220925728_cont_8to1c4_163_46_alg».proof.Proof.LibMlp

noncomputable section

open scoped BigOperators

namespace Cert.Proof.RefValue

open Idealize.ShloMosaic Idealize.ShloMosaic.ValueIdx

section Gather
variable {α : Type}

abbrev rowsDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowsDims N R C wf) x idx (ix2 e k)
      = x (ix2 ⟨min (idx (ix2 e (0 : Fin 1))).toInt.toNat (N - 1), by omega⟩ k) := by
  unfold Host.gather
  congr 1
  funext a
  refine Fin.ext ?_
  show (rowsDims N R C wf).start (ix2 e k) idx a + (rowsDims N R C wf).batchCoord (ix2 e k) a
    + (rowsDims N R C wf).offCoord (ix2 e k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowsDims N R C wf).startIndexMap from List.mem_singleton.mpr rfl)]
    have hsi : (rowsDims N R C wf).siIdx (ix2 e k) ⟨List.idxOf (⟨0, by decide⟩ : Fin 2) (rowsDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    have hne : (⟨1, by decide⟩ : Fin 2) ≠ (⟨0, by decide⟩ : Fin 2) := by decide
    have h1 : (⟨1, by decide⟩ : Fin 2) ∉ (rowsDims N R C wf).startIndexMap :=
      fun h => hne (List.mem_singleton.mp h)
    have h2 : (⟨1, by decide⟩ : Fin 2) ∈ (rowsDims N R C wf).sKept :=
      (GatherDims.mem_sKept _ _).mpr ⟨fun h => hne (List.mem_singleton.mp h), List.not_mem_nil⟩
    unfold GatherDims.start GatherDims.offCoord
    rw [dif_neg h1, dif_pos h2]
    show 0 + 0 + (ix2 e k (1 : Fin 2)).val = k.val
    simp

end Gather

section Scatter

abbrev rowsScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

theorem rowsScatter_start0 (idx : IVec ⟨2, ![R, 1]⟩ w) (e : Fin R) (k : Fin C) :
    (rowsScatter N R C wf).start (ix2 e k) idx (0 : Fin 2) = (idx (ix2 e (0 : Fin 1))).toInt := by
  unfold ScatterDims.start
  rw [dif_pos (show (0 : Fin 2) ∈ (rowsScatter N R C wf).scatterDimsToOperandDims from List.mem_singleton.mpr rfl)]
  have hsi : (rowsScatter N R C wf).siIdx (ix2 e k) ⟨List.idxOf (0 : Fin 2) (rowsScatter N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowsScatter_start1 (idx : IVec ⟨2, ![R, 1]⟩ w) (j : (⟨2, ![R, C]⟩ : Shape).Idx) :
    (rowsScatter N R C wf).start j idx (1 : Fin 2) = 0 := by
  unfold ScatterDims.start
  rw [dif_neg (fun h => (by decide : (1 : Fin 2) ≠ 0) (List.mem_singleton.mp h))]

theorem rowsScatter_window0 (j : (⟨2, ![R, C]⟩ : Shape).Idx) : (rowsScatter N R C wf).window j (0 : Fin 2) = 0 := by
  unfold ScatterDims.window
  rw [dif_neg]
  simp [ScatterDims.sKept, Shape.kept]

theorem rowsScatter_window1 (j : (⟨2, ![R, C]⟩ : Shape).Idx) : (rowsScatter N R C wf).window j (1 : Fin 2) = (j 1).val := by
  unfold ScatterDims.window
  have h2 : (1 : Fin 2) ∈ (rowsScatter N R C wf).sKept := by simp [ScatterDims.sKept, Shape.kept]
  rw [dif_pos h2]
  rfl

theorem rowsScatter_resultIdx (idx : IVec ⟨2, ![R, 1]⟩ w) (e : Fin R) (k k' : Fin C) (n : Fin N) :
    (rowsScatter N R C wf).resultIdx? (ix2 e k) idx = some (ix2 n k')
      ↔ (idx (ix2 e (0 : Fin 1))).toInt = (n.val : Int) ∧ k = k' := by
  have hs0 := rowsScatter_start0 wf idx e k
  have hs1 := rowsScatter_start1 wf idx (ix2 e k)
  have hw0 := rowsScatter_window0 wf (ix2 e k)
  have hw1 := rowsScatter_window1 wf (ix2 e k)
  unfold ScatterDims.resultIdx?
  constructor
  · intro h
    split at h
    · rename_i hall
      have hf := Option.some.inj h
      have h0 := congrArg (fun f => (f (0 : Fin 2)).val) hf
      have h1 := congrArg (fun f => (f (1 : Fin 2)).val) hf
      simp only [hs0, hs1, hw0, hw1] at h0 h1
      have hall0 := hall (0 : Fin 2)
      rw [hs0, hw0] at hall0
      refine ⟨?_, Fin.ext ?_⟩
      · have : ((idx (ix2 e (0 : Fin 1))).toInt + ((0 : Nat) : Int)).toNat = n.val := h0
        omega
      · have : ((0 : Int) + ((ix2 e k (1 : Fin 2)).val : Int)).toNat = k'.val := h1
        have hk : (ix2 e k (1 : Fin 2)).val = k.val := rfl
        omega
    · exact absurd h (by simp)
  · rintro ⟨hn, rfl⟩
    have hk : (ix2 e k (1 : Fin 2)).val = k.val := rfl
    have hall : ∀ a : Fin 2, 0 ≤ (rowsScatter N R C wf).start (ix2 e k) idx a + (rowsScatter N R C wf).window (ix2 e k) a
        ∧ (rowsScatter N R C wf).start (ix2 e k) idx a + (rowsScatter N R C wf).window (ix2 e k) a
          < ((⟨2, ![N, C]⟩ : Shape).size a : Int) := by
      refine Fin.forall_fin_two.2 ⟨?_, ?_⟩
      · rw [hs0, hw0, hn]
        show 0 ≤ (n.val : Int) + ((0 : Nat) : Int) ∧ (n.val : Int) + ((0 : Nat) : Int) < (N : Int)
        have := n.isLt; omega
      · rw [hs1, hw1]
        show 0 ≤ (0 : Int) + ((k.val : Nat) : Int) ∧ (0 : Int) + ((k.val : Nat) : Int) < (C : Int)
        have := k.isLt; omega
    rw [dif_pos hall]
    congr 1
    refine Shape.idx_ext₂ ?_ ?_
    · show ((rowsScatter N R C wf).start (ix2 e k) idx (0 : Fin 2) + ((rowsScatter N R C wf).window (ix2 e k) (0 : Fin 2) : Int)).toNat = n.val
      rw [hs0, hw0, hn]; omega
    · show ((rowsScatter N R C wf).start (ix2 e k) idx (1 : Fin 2) + ((rowsScatter N R C wf).window (ix2 e k) (1 : Fin 2) : Int)).toNat = k.val
      rw [hs1, hw1]
      show ((0 : Int) + ((k.val : Nat) : Int)).toNat = k.val
      omega

theorem scatterAdd_rows_apply (x : FVec Ideal ⟨2, ![N, C]⟩ .f32) (idx : IVec ⟨2, ![R, 1]⟩ w) (upd : FVec Ideal ⟨2, ![R, C]⟩ .f32)
    (n : Fin N) (k : Fin C) :
    Host.scatterAdd (rowsScatter N R C wf) x idx upd (ix2 n k)
      = x (ix2 n k) + ∑ e : Fin R, if (idx (ix2 e (0 : Fin 1))).toInt = (n.val : Int) then upd (ix2 e k) else 0 := by
  show x (ix2 n k) + ∑ j ∈ Finset.univ.filter (fun j => (rowsScatter N R C wf).resultIdx? j idx = some (ix2 n k)), upd j = _
  congr 1
  rw [Finset.sum_filter, sum_idx2]
  refine Finset.sum_congr rfl fun e _ => ?_
  simp only [rowsScatter_resultIdx wf idx e _ k n]
  by_cases h : (idx (ix2 e (0 : Fin 1))).toInt = (n.val : Int)
  · simp [h]
  · simp [h]

end Scatter

section ScatterVec

abbrev vecScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)

theorem vecScatter_start0 (idx : IVec ⟨2, ![R, 1]⟩ w) (e : Fin R) :
    (vecScatter N R wf).start (ix1 e) idx (0 : Fin 1) = (idx (ix2 e (0 : Fin 1))).toInt := by
  unfold ScatterDims.start
  rw [dif_pos (show (0 : Fin 1) ∈ (vecScatter N R wf).scatterDimsToOperandDims from List.mem_singleton.mpr rfl)]
  have hsi : (vecScatter N R wf).siIdx (ix1 e) ⟨List.idxOf (0 : Fin 1) (vecScatter N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecScatter_window0 (j : (⟨1, ![R]⟩ : Shape).Idx) : (vecScatter N R wf).window j (0 : Fin 1) = 0 := by
  unfold ScatterDims.window
  rw [dif_neg]
  simp [ScatterDims.sKept, Shape.kept]

theorem vecScatter_resultIdx (idx : IVec ⟨2, ![R, 1]⟩ w) (e : Fin R) (n : Fin N) :
    (vecScatter N R wf).resultIdx? (ix1 e) idx = some (ix1 n) ↔ (idx (ix2 e (0 : Fin 1))).toInt = (n.val : Int) := by
  have hs0 := vecScatter_start0 wf idx e
  have hw0 := vecScatter_window0 wf (ix1 e)
  unfold ScatterDims.resultIdx?
  constructor
  · intro h
    split at h
    · rename_i hall
      have hf := Option.some.inj h
      have h0 := congrArg (fun f => (f (0 : Fin 1)).val) hf
      simp only [hs0, hw0] at h0
      have hall0 := hall (0 : Fin 1)
      rw [hs0, hw0] at hall0
      have : ((idx (ix2 e (0 : Fin 1))).toInt + ((0 : Nat) : Int)).toNat = n.val := h0
      omega
    · exact absurd h (by simp)
  · intro hn
    have hall : ∀ a : Fin 1, 0 ≤ (vecScatter N R wf).start (ix1 e) idx a + (vecScatter N R wf).window (ix1 e) a
        ∧ (vecScatter N R wf).start (ix1 e) idx a + (vecScatter N R wf).window (ix1 e) a
          < ((⟨1, ![N]⟩ : Shape).size a : Int) := by
      refine Fin.forall_fin_one.2 ?_
      rw [hs0, hw0, hn]
      show 0 ≤ (n.val : Int) + ((0 : Nat) : Int) ∧ (n.val : Int) + ((0 : Nat) : Int) < (N : Int)
      have := n.isLt; omega
    rw [dif_pos hall]
    congr 1
    funext a
    obtain rfl : a = 0 := Subsingleton.elim _ _
    refine Fin.ext ?_
    show ((vecScatter N R wf).start (ix1 e) idx (0 : Fin 1) + ((vecScatter N R wf).window (ix1 e) (0 : Fin 1) : Int)).toNat = n.val
    rw [hs0, hw0, hn]; omega

theorem sum_idx1 {M : Type*} [AddCommMonoid M] {n : Nat} (f : (⟨1, ![n]⟩ : Shape).Idx → M) :
    ∑ i, f i = ∑ a : Fin n, f (ix1 a) := by
  refine (Equiv.sum_comp (⟨fun i => i 0, ix1, fun i => (eq_ix1 i).symm, fun _ => rfl⟩ : (⟨1, ![n]⟩ : Shape).Idx ≃ Fin n).symm f).symm.trans ?_
  rfl

theorem scatterAdd_vec_apply (x : FVec Ideal ⟨1, ![N]⟩ .f32) (idx : IVec ⟨2, ![R, 1]⟩ w) (upd : FVec Ideal ⟨1, ![R]⟩ .f32)
    (n : Fin N) :
    Host.scatterAdd (vecScatter N R wf) x idx upd (ix1 n)
      = x (ix1 n) + ∑ e : Fin R, if (idx (ix2 e (0 : Fin 1))).toInt = (n.val : Int) then upd (ix1 e) else 0 := by
  show x (ix1 n) + ∑ j ∈ Finset.univ.filter (fun j => (vecScatter N R wf).resultIdx? j idx = some (ix1 n)), upd j = _
  congr 1
  rw [Finset.sum_filter, sum_idx1]
  refine Finset.sum_congr rfl fun e _ => ?_
  simp only [vecScatter_resultIdx wf idx e n]

end ScatterVec

section Concat
variable {α : Type} {R : Nat}

theorem concat3_lo (u0 u1 u2 : (⟨2, ![R, 128]⟩ : Shape).Idx → α)
    (h : Shape.Concatenates [(⟨2, ![R, 128]⟩ : Shape), ⟨2, ![R, 128]⟩, ⟨2, ![R, 128]⟩] ⟨2, ![R, 384]⟩ 1) (e : Fin R) (k : Fin 128) :
    concatenate (⟨2, ![R, 384]⟩ : Shape) 1 [⟨⟨2, ![R, 128]⟩, u0⟩, ⟨⟨2, ![R, 128]⟩, u1⟩, ⟨⟨2, ![R, 128]⟩, u2⟩] h (ix2 e (Spec.lo k))
      = u0 (ix2 e k) := by
  refine concatenate_apply_piece (t := ⟨2, ![R, 384]⟩) (1 : Fin 2) [⟨⟨2, ![R, 128]⟩, u0⟩, ⟨⟨2, ![R, 128]⟩, u1⟩, ⟨⟨2, ![R, 128]⟩, u2⟩] h (ix2 e (Spec.lo k)) 0 (by simp) ⟨2, ![R, 128]⟩ u0 rfl rfl 0 rfl (ix2 e k)
    (Fin.forall_fin_two.2 ⟨fun _ => rfl, fun hne => absurd rfl hne⟩) ?_
  show 0 + k.val = k.val
  omega

theorem concat3_mid (u0 u1 u2 : (⟨2, ![R, 128]⟩ : Shape).Idx → α)
    (h : Shape.Concatenates [(⟨2, ![R, 128]⟩ : Shape), ⟨2, ![R, 128]⟩, ⟨2, ![R, 128]⟩] ⟨2, ![R, 384]⟩ 1) (e : Fin R) (k : Fin 128) :
    concatenate (⟨2, ![R, 384]⟩ : Shape) 1 [⟨⟨2, ![R, 128]⟩, u0⟩, ⟨⟨2, ![R, 128]⟩, u1⟩, ⟨⟨2, ![R, 128]⟩, u2⟩] h (ix2 e (Spec.mid k))
      = u1 (ix2 e k) := by
  refine concatenate_apply_piece (t := ⟨2, ![R, 384]⟩) (1 : Fin 2) [⟨⟨2, ![R, 128]⟩, u0⟩, ⟨⟨2, ![R, 128]⟩, u1⟩, ⟨⟨2, ![R, 128]⟩, u2⟩] h (ix2 e (Spec.mid k)) 1 (by simp) ⟨2, ![R, 128]⟩ u1 rfl rfl 128 rfl (ix2 e k)
    (Fin.forall_fin_two.2 ⟨fun _ => rfl, fun hne => absurd rfl hne⟩) ?_
  show 128 + k.val = 128 + k.val
  rfl

theorem concat3_hi (u0 u1 u2 : (⟨2, ![R, 128]⟩ : Shape).Idx → α)
    (h : Shape.Concatenates [(⟨2, ![R, 128]⟩ : Shape), ⟨2, ![R, 128]⟩, ⟨2, ![R, 128]⟩] ⟨2, ![R, 384]⟩ 1) (e : Fin R) (k : Fin 128) :
    concatenate (⟨2, ![R, 384]⟩ : Shape) 1 [⟨⟨2, ![R, 128]⟩, u0⟩, ⟨⟨2, ![R, 128]⟩, u1⟩, ⟨⟨2, ![R, 128]⟩, u2⟩] h (ix2 e (Spec.hi k))
      = u2 (ix2 e k) := by
  refine concatenate_apply_piece (t := ⟨2, ![R, 384]⟩) (1 : Fin 2) [⟨⟨2, ![R, 128]⟩, u0⟩, ⟨⟨2, ![R, 128]⟩, u1⟩, ⟨⟨2, ![R, 128]⟩, u2⟩] h (ix2 e (Spec.hi k)) 2 (by simp) ⟨2, ![R, 128]⟩ u2 rfl rfl 256 rfl (ix2 e k)
    (Fin.forall_fin_two.2 ⟨fun _ => rfl, fun hne => absurd rfl hne⟩) ?_
  show 256 + k.val = 256 + k.val
  rfl

end Concat

section Columns
variable {α : Type}

theorem bcast_col1 {N : Nat} (h1 : (⟨1, ![N]⟩ : Shape).BroadcastsInDim ⟨2, ![N, 1]⟩ ![0]) (x : (⟨1, ![N]⟩ : Shape).Idx → α)
    (p : Fin N) (u : Fin 1) : broadcastInDim (⟨2, ![N, 1]⟩ : Shape) ![0] h1 x (ix2 p u) = x (ix1 p) := by
  refine broadcastInDim_apply ![0] h1 x (ix2 p u) (ix1 p) fun a => ?_
  match a with
  | ⟨0, _⟩ =>
    show p.val = if N = 1 then 0 else p.val
    split
    · rename_i h; have := p.isLt; omega
    · rfl

theorem bcast_col2 {N H : Nat} (h2 : (⟨2, ![N, 1]⟩ : Shape).BroadcastsInDim ⟨2, ![N, H]⟩ ![0, 1])
    (x : (⟨2, ![N, 1]⟩ : Shape).Idx → α) (p : Fin N) (q : Fin H) :
    broadcastInDim (⟨2, ![N, H]⟩ : Shape) ![0, 1] h2 x (ix2 p q) = x (ix2 p (0 : Fin 1)) := by
  refine broadcastInDim_apply ![0, 1] h2 x (ix2 p q) (ix2 p (0 : Fin 1)) fun a => ?_
  match a with
  | ⟨0, _⟩ =>
    show p.val = if N = 1 then 0 else p.val
    split
    · rename_i h; have := p.isLt; omega
    · rfl
  | ⟨1, _⟩ => simp

theorem col_apply {R : Nat} (c : Nat) (hc2 : c < 2) (hs : (⟨2, ![R, 2]⟩ : Shape).Slices ![0, c] ⟨2, ![R, 1]⟩)
    (hc : (⟨2, ![R, 1]⟩ : Shape).ShapeCasts ⟨1, ![R]⟩) (x : (⟨2, ![R, 2]⟩ : Shape).Idx → α) (e : Fin R) :
    shapeCast (⟨1, ![R]⟩ : Shape) (extractStridedSlice (⟨2, ![R, 1]⟩ : Shape) ![0, c] x hs) hc (ix1 e) = x (ix2 e ⟨c, hc2⟩) := by
  refine (shapeCast_apply _ hc (ix1 e) (ix2 e (0 : Fin 1)) ?_).trans
    (extractStridedSlice_apply ![0, c] x hs (ix2 e (0 : Fin 1)) (ix2 e ⟨c, hc2⟩) fun a => ?_)
  · rw [Shape.rowMajor_val_two, Shape.rowMajor_val_one]
    show e.val * 1 + 0 = e.val
    omega
  · match a with
    | ⟨0, _⟩ => show e.val = 0 + e.val; omega
    | ⟨1, _⟩ => show c = c + 0; omega

end Columns

theorem wrap_eq (v : BitVec 32) (h : v.toNat < 10000) :
    Scalar.select (IntOp.cmpi .slt v 0#32) (IntOp.addi v 10000#32) v = v := by
  have hs : v.slt 0#32 = false := by
    simp only [BitVec.slt, BitVec.toInt_eq_toNat_cond]
    simp
    omega
  simp [IntOp.cmpi, hs, Scalar.select]

theorem toInt_small (v : BitVec 32) (h : v.toNat < 10000) : v.toInt = (v.toNat : Int) := by
  rw [BitVec.toInt_eq_toNat_cond]
  split
  · rfl
  · omega

theorem bcast0_const_apply {S : Shape} (h0 : (⟨0, ![]⟩ : Shape).BroadcastsInDim S ![]) (b : BitVec 32) (i : S.Idx) :
    broadcastInDim S ![] h0 (constant (F := Ideal) (⟨0, ![]⟩ : Shape) .f32 b) i = Ideal.ofBits .f32 b := rfl

theorem host_divf_apply {S : Shape} (a b : FVec Ideal S .f32) (i : S.Idx) : Host.divf a b i = Ideal.div (a i) (b i) := rfl

theorem ofBits_one_f32 : Ideal.ofBits .f32 0x3F800000#32 = 1 := IdealRules.sign_bit.ideal_onePat .f32

theorem host_dense_apply {N K H : Nat} (d : DotDims ⟨2, ![N, K]⟩ ⟨2, ![K, H]⟩ ⟨2, ![N, H]⟩) (hd : d = DotDims.plain N K H)
    (h0 : (⟨0, ![]⟩ : Shape).BroadcastsInDim ⟨2, ![N, H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ .f32) (W : FVec Ideal ⟨2, ![K, H]⟩ .f32) (b : FVec Ideal ⟨1, ![H]⟩ .f32) (p : Fin N) (q : Fin H) :
    maximumf (addf (Host.dotGeneral d none a W)
        (broadcastInDim (⟨2, ![N, H]⟩ : Shape) ![0, 1] h2 (broadcastInDim (⟨2, ![1, H]⟩ : Shape) ![1] h1 b)))
      (broadcastInDim (⟨2, ![N, H]⟩ : Shape) ![] h0 (constant (⟨0, ![]⟩ : Shape) .f32 0x00000000#32)) (ix2 p q)
      = Spec.relu ((∑ k : Fin K, a (ix2 p k) * W (ix2 k q)) + b (ix1 q)) := by
  subst hd
  show max (Host.dotGeneral (DotDims.plain N K H) none a W (ix2 p q)
      + broadcastInDim (⟨2, ![N, H]⟩ : Shape) ![0, 1] h2 (broadcastInDim (⟨2, ![1, H]⟩ : Shape) ![1] h1 b) (ix2 p q))
    (Ideal.ofBits .f32 0x00000000#32) = max ((∑ k : Fin K, a (ix2 p k) * W (ix2 k q)) + b (ix1 q)) 0
  rw [Ideal.ofBits_zero_f32, Cert.Mlp.bcast_two h1 h2 b p q,
    show Host.dotGeneral (DotDims.plain N K H) none a W (ix2 p q) = _ from
      Ideal.dotGeneral_apply (DotDims.plain N K H) none .single a W (ix2 p q),
    Cert.Mlp.plain_sum a W (ix2 p q)]
  rfl

end Cert.Proof.RefValue

end
-- ==== Proof.RefRound.lean ====
/- One round of the convolution as the reference spells it is the specification's round. -/
import proofs.«215230_g44530220925728_cont_8to1c4_163_46_alg».proof.Proof.Gen.ReferenceIdeal
import proofs.«215230_g44530220925728_cont_8to1c4_163_46_alg».proof.Proof.Spec
import proofs.«215230_g44530220925728_cont_8to1c4_163_46_alg».proof.Proof.SpecArgs
import proofs.«215230_g44530220925728_cont_8to1c4_163_46_alg».proof.Proof.LibMlp
import proofs.«215230_g44530220925728_cont_8to1c4_163_46_alg».proof.Proof.KIVal.Sums
import proofs.«215230_g44530220925728_cont_8to1c4_163_46_alg».proof.Proof.RefValueOps

noncomputable section

open scoped BigOperators

namespace Cert.Proof.RefValue

open Cert.ReferenceIdeal Cert.ReferenceIdeal.Gen Idealize.ShloMosaic Idealize.ShloMosaic.ValueIdx
open Cert.Proof.Spec Cert.Proof.SpecArgs

def wrapIdx (v : IVec S320000 32) : IVec S320000 32 :=
  select (cmpi .slt v (broadcastInDim S320000 ![] bcast_S_S320000 (constantI S_ 32 0#32)))
    (addi v (broadcastInDim S320000 ![] bcast_S_S320000 (constantI S_ 32 10000#32))) v

def idxS (a2 : IVec S320000x2 32) : IVec S320000x1 32 :=
  broadcastInDim S320000x1 ![0] bcast_S320000_S320000x1_0
    (wrapIdx (shapeCast _ (extractStridedSlice S320000x1 ![0, 0] a2 slices_S320000x2_S320000x1_0_0) shapeCasts_S320000x1_S320000))

def idxO (a2 : IVec S320000x2 32) : IVec S320000x1 32 :=
  broadcastInDim S320000x1 ![0] bcast_S320000_S320000x1_0
    (wrapIdx (shapeCast _ (extractStridedSlice S320000x1 ![0, 1] a2 slices_S320000x2_S320000x1_0_1) shapeCasts_S320000x1_S320000))

section Stages
variable (T : FVec Ideal S10000x128 .f32) (P : FVec Ideal S320000x128 .f32) (a2 : IVec S320000x2 32)
  (W1a : FVec Ideal S384x128 .f32) (b1a : FVec Ideal S128 .f32) (W1b : FVec Ideal S128x384 .f32) (b1b : FVec Ideal S384 .f32)
  (W2a : FVec Ideal S128x128 .f32) (b2a : FVec Ideal S128 .f32) (W2b : FVec Ideal S128x128 .f32) (b2b : FVec Ideal S128 .f32)

def refCat : FVec Ideal S320000x384 .f32 :=
  concatenate S320000x384 1 [⟨S320000x128, Host.gather gather_S10000x128_S320000x1_S320000x128_1_0_n_n_0_1_1128 T (idxS a2)⟩, ⟨S320000x128, P⟩,
    ⟨S320000x128, Host.gather gather_S10000x128_S320000x1_S320000x128_1_0_n_n_0_1_1128 T (idxO a2)⟩] concatenates_S320000x128_S320000x128_S320000x128_S320000x384_d1

def refHid : FVec Ideal S320000x128 .f32 :=
  maximumf (addf (Host.dotGeneral dot_S320000x384_S384x128_S320000x128_1_0_0_1_n_n none (refCat T P a2) W1a)
      (broadcastInDim S320000x128 ![0, 1] bcast_S1x128_S320000x128_0_1 (broadcastInDim S1x128 ![1] bcast_S128_S1x128_1 b1a)))
    (broadcastInDim S320000x128 ![] bcast_S_S320000x128 (constant S_ .f32 0x00000000#32))

def refTri : FVec Ideal S320000x384 .f32 :=
  maximumf (addf (Host.dotGeneral dot_S320000x128_S128x384_S320000x384_1_0_0_1_n_n none (refHid T P a2 W1a b1a) W1b)
      (broadcastInDim S320000x384 ![0, 1] bcast_S1x384_S320000x384_0_1 (broadcastInDim S1x384 ![1] bcast_S384_S1x384_1 b1b)))
    (broadcastInDim S320000x384 ![] bcast_S_S320000x384 (constant S_ .f32 0x00000000#32))

def refNewS : FVec Ideal S320000x128 .f32 :=
  extractStridedSlice S320000x128 ![0, 0] (refTri T P a2 W1a b1a W1b b1b) slices_S320000x384_S320000x128_0_0
def refNewP : FVec Ideal S320000x128 .f32 :=
  extractStridedSlice S320000x128 ![0, 128] (refTri T P a2 W1a b1a W1b b1b) slices_S320000x384_S320000x128_0_128
def refNewO : FVec Ideal S320000x128 .f32 :=
  extractStridedSlice S320000x128 ![0, 256] (refTri T P a2 W1a b1a W1b b1b) slices_S320000x384_S320000x128_0_256

def refAcc : FVec Ideal S10000x128 .f32 :=
  Host.scatterAdd scatter_S10000x128_S320000x1_S320000x128_1_0_0_1
    (Host.scatterAdd scatter_S10000x128_S320000x1_S320000x128_1_0_0_1 (broadcastInDim S10000x128 ![] bcast_S_S10000x128 (constant S_ .f32 0x00000000#32)) (idxS a2)
      (refNewS T P a2 W1a b1a W1b b1b))
    (idxO a2) (refNewO T P a2 W1a b1a W1b b1b)

def refCnt : FVec Ideal S10000 .f32 :=
  Host.scatterAdd scatter_S10000_S320000x1_S320000_n_0_0_1
    (Host.scatterAdd scatter_S10000_S320000x1_S320000_n_0_0_1 (broadcastInDim S10000 ![] bcast_S_S10000 (constant S_ .f32 0x00000000#32)) (idxS a2)
      (broadcastInDim S320000 ![] bcast_S_S320000 (constant S_ .f32 0x3F800000#32)))
    (idxO a2) (broadcastInDim S320000 ![] bcast_S_S320000 (constant S_ .f32 0x3F800000#32))

def refClip : FVec Ideal S10000 .f32 :=
  maximumf (broadcastInDim S10000 ![] bcast_S_S10000 (id (constant S_ .f32 0x3F800000#32))) (refCnt a2)

def refPooled : FVec Ideal S10000x128 .f32 :=
  Host.divf (refAcc T P a2 W1a b1a W1b b1b)
    (broadcastInDim S10000x128 ![0, 1] bcast_S10000x1_S10000x128_0_1 (broadcastInDim S10000x1 ![0] bcast_S10000_S10000x1_0 (refClip a2)))

def refH2 : FVec Ideal S10000x128 .f32 :=
  maximumf (addf (Host.dotGeneral dot_S10000x128_S128x128_S10000x128_1_0_0_1_n_n none (refPooled T P a2 W1a b1a W1b b1b) W2a)
      (broadcastInDim S10000x128 ![0, 1] bcast_S1x128_S10000x128_0_1 (broadcastInDim S1x128 ![1] bcast_S128_S1x128_1 b2a)))
    (broadcastInDim S10000x128 ![] bcast_S_S10000x128 (constant S_ .f32 0x00000000#32))
def refNewObj : FVec Ideal S10000x128 .f32 :=
  maximumf (addf (Host.dotGeneral dot_S10000x128_S128x128_S10000x128_1_0_0_1_n_n none (refH2 T P a2 W1a b1a W1b b1b W2a b2a) W2b)
      (broadcastInDim S10000x128 ![0, 1] bcast_S1x128_S10000x128_0_1 (broadcastInDim S1x128 ![1] bcast_S128_S1x128_1 b2b)))
    (broadcastInDim S10000x128 ![] bcast_S_S10000x128 (constant S_ .f32 0x00000000#32))

end Stages

section Read
variable (T : FVec Ideal S10000x128 .f32) (P : FVec Ideal S320000x128 .f32) (a2 : IVec S320000x2 32)
  (W1a : FVec Ideal S384x128 .f32) (b1a : FVec Ideal S128 .f32) (W1b : FVec Ideal S128x384 .f32) (b1b : FVec Ideal S384 .f32)
  (W2a : FVec Ideal S128x128 .f32) (b2a : FVec Ideal S128 .f32) (W2b : FVec Ideal S128x128 .f32) (b2b : FVec Ideal S128 .f32)
  (hr : ∀ i, (a2 i).toNat < 10000)
  (obj : ℕ → Fin 128 → EReal) (pred : E → Fin 128 → EReal)
  (hobj : ∀ (r : Fin 10000) (k : Fin 128), obj r.val k = T (ix2 r k))
  (hpred : ∀ (e : E) (k : Fin 128), pred e k = P (ix2 e k))

local notation "θ" => params W1a b1a W1b b1b W2a b2a W2b b2b
local notation "si" => colOf a2 0
local notation "oi" => colOf a2 1

include hr in
theorem wrapIdx_apply (v : IVec S320000 32) (e : Fin 320000) (h : (v (ix1 e)).toNat < 10000) : wrapIdx v (ix1 e) = v (ix1 e) :=
  wrap_eq (v (ix1 e)) h

include hr in
theorem idxS_apply (e : Fin 320000) (u : Fin 1) : idxS a2 (ix2 e u) = a2 (ix2 e (0 : Fin 2)) := by
  unfold idxS
  rw [bcast_col1 bcast_S320000_S320000x1_0 _ e u]
  have hc : shapeCast S320000 (extractStridedSlice S320000x1 ![0, 0] a2 slices_S320000x2_S320000x1_0_0) shapeCasts_S320000x1_S320000 (ix1 e)
      = a2 (ix2 e (0 : Fin 2)) := col_apply 0 (by decide) slices_S320000x2_S320000x1_0_0 shapeCasts_S320000x1_S320000 a2 e
  rw [wrapIdx_apply a2 hr _ e (by rw [hc]; exact hr _), hc]

include hr in
theorem idxO_apply (e : Fin 320000) (u : Fin 1) : idxO a2 (ix2 e u) = a2 (ix2 e (1 : Fin 2)) := by
  unfold idxO
  rw [bcast_col1 bcast_S320000_S320000x1_0 _ e u]
  have hc : shapeCast S320000 (extractStridedSlice S320000x1 ![0, 1] a2 slices_S320000x2_S320000x1_0_1) shapeCasts_S320000x1_S320000 (ix1 e)
      = a2 (ix2 e (1 : Fin 2)) := col_apply 1 (by decide) slices_S320000x2_S320000x1_0_1 shapeCasts_S320000x1_S320000 a2 e
  rw [wrapIdx_apply a2 hr _ e (by rw [hc]; exact hr _), hc]

include hr hobj in
theorem gatherS_apply (e : Fin 320000) (k : Fin 128) :
    Host.gather gather_S10000x128_S320000x1_S320000x128_1_0_n_n_0_1_1128 T (idxS a2) (ix2 e k) = obj (si e) k := by
  have hg : gather_S10000x128_S320000x1_S320000x128_1_0_n_n_0_1_1128 = rowsDims 10000 320000 128 gather_S10000x128_S320000x1_S320000x128_1_0_n_n_0_1_1128_wf := rfl
  have h := hr (ix2 e (0 : Fin 2))
  have hv : min (a2 (ix2 e (0 : Fin 2))).toInt.toNat (10000 - 1) = (a2 (ix2 e (0 : Fin 2))).toNat := by
    rw [toInt_small _ h]; omega
  rw [hg, gather_rows_apply (by decide) _ T (idxS a2) e k]
  show T (ix2 ⟨min (idxS a2 (ix2 e (0 : Fin 1))).toInt.toNat (10000 - 1), _⟩ k) = obj (a2 (ix2 e (0 : Fin 2))).toNat k
  rw [show obj (a2 (ix2 e (0 : Fin 2))).toNat k = T (ix2 ⟨(a2 (ix2 e (0 : Fin 2))).toNat, h⟩ k) from hobj ⟨_, h⟩ k]
  refine congrArg (fun r => T (ix2 r k)) (Fin.ext ?_)
  show min (idxS a2 (ix2 e (0 : Fin 1))).toInt.toNat (10000 - 1) = _
  rw [idxS_apply a2 hr e 0, hv]

include hr hobj in
theorem gatherO_apply (e : Fin 320000) (k : Fin 128) :
    Host.gather gather_S10000x128_S320000x1_S320000x128_1_0_n_n_0_1_1128 T (idxO a2) (ix2 e k) = obj (oi e) k := by
  have hg : gather_S10000x128_S320000x1_S320000x128_1_0_n_n_0_1_1128 = rowsDims 10000 320000 128 gather_S10000x128_S320000x1_S320000x128_1_0_n_n_0_1_1128_wf := rfl
  have h := hr (ix2 e (1 : Fin 2))
  have hv : min (a2 (ix2 e (1 : Fin 2))).toInt.toNat (10000 - 1) = (a2 (ix2 e (1 : Fin 2))).toNat := by
    rw [toInt_small _ h]; omega
  rw [hg, gather_rows_apply (by decide) _ T (idxO a2) e k]
  show T (ix2 ⟨min (idxO a2 (ix2 e (0 : Fin 1))).toInt.toNat (10000 - 1), _⟩ k) = obj (a2 (ix2 e (1 : Fin 2))).toNat k
  rw [show obj (a2 (ix2 e (1 : Fin 2))).toNat k = T (ix2 ⟨(a2 (ix2 e (1 : Fin 2))).toNat, h⟩ k) from hobj ⟨_, h⟩ k]
  refine congrArg (fun r => T (ix2 r k)) (Fin.ext ?_)
  show min (idxO a2 (ix2 e (0 : Fin 1))).toInt.toNat (10000 - 1) = _
  rw [idxO_apply a2 hr e 0, hv]

include hr hobj in
theorem refCat_lo (e : Fin 320000) (k : Fin 128) : refCat T P a2 (ix2 e (lo k)) = obj (si e) k := by
  unfold refCat
  rw [concat3_lo]
  exact gatherS_apply T a2 hr obj hobj e k

include hpred in
theorem refCat_mid (e : Fin 320000) (k : Fin 128) : refCat T P a2 (ix2 e (mid k)) = pred e k := by
  unfold refCat
  rw [concat3_mid]
  exact (hpred e k).symm

include hr hobj in
theorem refCat_hi (e : Fin 320000) (k : Fin 128) : refCat T P a2 (ix2 e (hi k)) = obj (oi e) k := by
  unfold refCat
  rw [concat3_hi]
  exact gatherO_apply T a2 hr obj hobj e k

include hr hobj hpred in
theorem refHid_apply (e : Fin 320000) (j : Fin 128) :
    refHid T P a2 W1a b1a (ix2 e j) = hid θ obj pred si oi e j := by
  unfold refHid
  rw [host_dense_apply dot_S320000x384_S384x128_S320000x128_1_0_0_1_n_n rfl bcast_S_S320000x128 bcast_S128_S1x128_1 bcast_S1x128_S320000x128_0_1
    (refCat T P a2) W1a b1a e j, Cert.Proof.KIVal.sum_fin384]
  simp only [refCat_lo T P a2 hr obj hobj, refCat_mid T P a2 pred hpred, refCat_hi T P a2 hr obj hobj]
  rfl

include hr hobj hpred in
theorem refTri_apply (e : Fin 320000) (j : Fin 384) :
    refTri T P a2 W1a b1a W1b b1b (ix2 e j) = tri θ obj pred si oi e j := by
  unfold refTri
  rw [host_dense_apply dot_S320000x128_S128x384_S320000x384_1_0_0_1_n_n rfl bcast_S_S320000x384 bcast_S384_S1x384_1 bcast_S1x384_S320000x384_0_1
    (refHid T P a2 W1a b1a) W1b b1b e j]
  simp only [refHid_apply T P a2 W1a b1a W1b b1b W2a b2a W2b b2b hr obj pred hobj hpred]
  rfl

include hr hobj hpred in
theorem refNewS_apply (e : Fin 320000) (j : Fin 128) :
    refNewS T P a2 W1a b1a W1b b1b (ix2 e j) = newS θ obj pred si oi e j := by
  unfold refNewS
  rw [extractStridedSlice_apply ![0, 0] _ slices_S320000x384_S320000x128_0_0 (ix2 e j) (ix2 e (lo j)) (fun a => by
    match a with
    | ⟨0, _⟩ => show e.val = 0 + e.val; omega
    | ⟨1, _⟩ => show j.val = 0 + j.val; omega)]
  exact refTri_apply T P a2 W1a b1a W1b b1b W2a b2a W2b b2b hr obj pred hobj hpred e (lo j)

include hr hobj hpred in
theorem refNewP_apply (e : Fin 320000) (j : Fin 128) :
    refNewP T P a2 W1a b1a W1b b1b (ix2 e j) = newP θ obj pred si oi e j := by
  unfold refNewP
  rw [extractStridedSlice_apply ![0, 128] _ slices_S320000x384_S320000x128_0_128 (ix2 e j) (ix2 e (mid j)) (fun a => by
    match a with
    | ⟨0, _⟩ => show e.val = 0 + e.val; omega
    | ⟨1, _⟩ => show 128 + j.val = 128 + j.val; rfl)]
  exact refTri_apply T P a2 W1a b1a W1b b1b W2a b2a W2b b2b hr obj pred hobj hpred e (mid j)

include hr hobj hpred in
theorem refNewO_apply (e : Fin 320000) (j : Fin 128) :
    refNewO T P a2 W1a b1a W1b b1b (ix2 e j) = newO θ obj pred si oi e j := by
  unfold refNewO
  rw [extractStridedSlice_apply ![0, 256] _ slices_S320000x384_S320000x128_0_256 (ix2 e j) (ix2 e (hi j)) (fun a => by
    match a with
    | ⟨0, _⟩ => show e.val = 0 + e.val; omega
    | ⟨1, _⟩ => show 256 + j.val = 256 + j.val; rfl)]
  exact refTri_apply T P a2 W1a b1a W1b b1b W2a b2a W2b b2b hr obj pred hobj hpred e (hi j)

include hr in

theorem idxS_eq_iff (e : Fin 320000) (n : Fin 10000) :
    (idxS a2 (ix2 e (0 : Fin 1))).toInt = (n.val : Int) ↔ si e = n.val := by
  rw [idxS_apply a2 hr e 0, toInt_small _ (hr _)]
  exact Nat.cast_inj
include hr in
theorem idxO_eq_iff (e : Fin 320000) (n : Fin 10000) :
    (idxO a2 (ix2 e (0 : Fin 1))).toInt = (n.val : Int) ↔ oi e = n.val := by
  rw [idxO_apply a2 hr e 0, toInt_small _ (hr _)]
  exact Nat.cast_inj

include hr hobj hpred in
theorem refAcc_apply (n : Fin 10000) (j : Fin 128) :
    refAcc T P a2 W1a b1a W1b b1b (ix2 n j) = acc θ obj pred si oi n.val j := by
  have h2 : scatter_S10000x128_S320000x1_S320000x128_1_0_0_1 = rowsScatter 10000 320000 128 scatter_S10000x128_S320000x1_S320000x128_1_0_0_1_wf := rfl
  unfold refAcc
  rw [h2, scatterAdd_rows_apply, scatterAdd_rows_apply]
  rw [bcast0_const_apply, Ideal.ofBits_zero_f32, zero_add]
  unfold acc
  refine congrArg₂ (· + ·) ?_ ?_
  · refine Finset.sum_congr rfl fun e _ => ?_
    rw [refNewS_apply T P a2 W1a b1a W1b b1b W2a b2a W2b b2b hr obj pred hobj hpred e j]
    exact if_congr (idxS_eq_iff a2 hr e n) rfl rfl
  · refine Finset.sum_congr rfl fun e _ => ?_
    rw [refNewO_apply T P a2 W1a b1a W1b b1b W2a b2a W2b b2b hr obj pred hobj hpred e j]
    exact if_congr (idxO_eq_iff a2 hr e n) rfl rfl

include hr in
theorem refCnt_apply (n : Fin 10000) : refCnt a2 (ix1 n) = cnt si oi n.val := by
  have h1 : scatter_S10000_S320000x1_S320000_n_0_0_1 = vecScatter 10000 320000 scatter_S10000_S320000x1_S320000_n_0_0_1_wf := rfl
  unfold refCnt
  rw [h1, scatterAdd_vec_apply, scatterAdd_vec_apply, bcast0_const_apply, Ideal.ofBits_zero_f32, zero_add]
  unfold cnt
  refine congrArg₂ (· + ·) ?_ ?_
  · exact Finset.sum_congr rfl fun e _ => if_congr (idxS_eq_iff a2 hr e n)
      ((bcast0_const_apply bcast_S_S320000 _ (ix1 e)).trans ofBits_one_f32) rfl
  · exact Finset.sum_congr rfl fun e _ => if_congr (idxO_eq_iff a2 hr e n)
      ((bcast0_const_apply bcast_S_S320000 _ (ix1 e)).trans ofBits_one_f32) rfl

include hr in
theorem refClip_apply (n : Fin 10000) : refClip a2 (ix1 n) = max (cnt si oi n.val) 1 := by
  unfold refClip
  rw [maximumf_apply]
  show max (Ideal.ofBits .f32 0x3F800000#32) (refCnt a2 (ix1 n)) = _
  rw [ofBits_one_f32, refCnt_apply a2 hr n, max_comm]

include hr hobj hpred in
theorem refPooled_apply (n : Fin 10000) (j : Fin 128) :
    refPooled T P a2 W1a b1a W1b b1b (ix2 n j) = pooled θ obj pred si oi n.val j := by
  unfold refPooled
  rw [host_divf_apply, bcast_col2 bcast_S10000x1_S10000x128_0_1 _ n j, bcast_col1 bcast_S10000_S10000x1_0 _ n 0,
    refAcc_apply T P a2 W1a b1a W1b b1b W2a b2a W2b b2b hr obj pred hobj hpred n j, refClip_apply a2 hr n]
  rfl

include hr hobj hpred in
theorem refH2_apply (n : Fin 10000) (j : Fin 128) :
    refH2 T P a2 W1a b1a W1b b1b W2a b2a (ix2 n j) = h2 θ obj pred si oi n.val j := by
  unfold refH2
  rw [host_dense_apply dot_S10000x128_S128x128_S10000x128_1_0_0_1_n_n rfl bcast_S_S10000x128 bcast_S128_S1x128_1 bcast_S1x128_S10000x128_0_1
    (refPooled T P a2 W1a b1a W1b b1b) W2a b2a n j]
  simp only [refPooled_apply T P a2 W1a b1a W1b b1b W2a b2a W2b b2b hr obj pred hobj hpred]
  rfl

include hr hobj hpred in

theorem refNewObj_apply (n : Fin 10000) (j : Fin 128) :
    refNewObj T P a2 W1a b1a W1b b1b W2a b2a W2b b2b (ix2 n j) = newObj θ obj pred si oi n.val j := by
  unfold refNewObj
  rw [host_dense_apply dot_S10000x128_S128x128_S10000x128_1_0_0_1_n_n rfl bcast_S_S10000x128 bcast_S128_S1x128_1 bcast_S1x128_S10000x128_0_1
    (refH2 T P a2 W1a b1a W1b b1b W2a b2a) W2b b2b n j]
  simp only [refH2_apply T P a2 W1a b1a W1b b1b W2a b2a W2b b2b hr obj pred hobj hpred]
  rfl

end Read

end Cert.Proof.RefValue

end
-- ==== Proof.RefValue.lean ====
/- The reference's two results are the specification's: its two rounds are the specification's rounds. -/
import proofs.«215230_g44530220925728_cont_8to1c4_163_46_alg».proof.Proof.Gen.ReferenceIdeal.Read
import proofs.«215230_g44530220925728_cont_8to1c4_163_46_alg».proof.Proof.RefRound

noncomputable section

namespace Cert.Proof.RefValue

open Cert.ReferenceIdeal Cert.ReferenceIdeal.Gen Idealize.ShloMosaic Idealize.ShloMosaic.ValueIdx Idealize.ShloMosaic.TcCoe Idealize.SL.Sem
open Cert.Proof.Spec Cert.Proof.SpecArgs

section Bridge
variable (a0 : (⟨S10000x128, .f32⟩ : BufTy).Contents (Elt Ideal)) (a1 : (⟨S320000x128, .f32⟩ : BufTy).Contents (Elt Ideal)) (a2 : (⟨S320000x2, .i32⟩ : BufTy).Contents (Elt Ideal)) (a3 : (⟨S384x128, .f32⟩ : BufTy).Contents (Elt Ideal)) (a4 : (⟨S128, .f32⟩ : BufTy).Contents (Elt Ideal)) (a5 : (⟨S128x384, .f32⟩ : BufTy).Contents (Elt Ideal)) (a6 : (⟨S384, .f32⟩ : BufTy).Contents (Elt Ideal)) (a7 : (⟨S128x128, .f32⟩ : BufTy).Contents (Elt Ideal)) (a8 : (⟨S128, .f32⟩ : BufTy).Contents (Elt Ideal)) (a9 : (⟨S128x128, .f32⟩ : BufTy).Contents (Elt Ideal)) (a10 : (⟨S128, .f32⟩ : BufTy).Contents (Elt Ideal)) (a11 : (⟨S384x128, .f32⟩ : BufTy).Contents (Elt Ideal)) (a12 : (⟨S128, .f32⟩ : BufTy).Contents (Elt Ideal)) (a13 : (⟨S128x384, .f32⟩ : BufTy).Contents (Elt Ideal)) (a14 : (⟨S384, .f32⟩ : BufTy).Contents (Elt Ideal)) (a15 : (⟨S128x128, .f32⟩ : BufTy).Contents (Elt Ideal)) (a16 : (⟨S128, .f32⟩ : BufTy).Contents (Elt Ideal)) (a17 : (⟨S128x128, .f32⟩ : BufTy).Contents (Elt Ideal)) (a18 : (⟨S128, .f32⟩ : BufTy).Contents (Elt Ideal))

theorem newP0_eq : Read.val_main_v30 (F := Ideal) a0 a1 a2 a3 a4 a5 a6 = refNewP a0 a1 a2 a3 a4 a5 a6 := rfl

theorem obj0_eq : Read.val_main_v76 (F := Ideal) a0 a1 a2 a3 a4 a5 a6 a7 a8 a9 a10 = refNewObj a0 a1 a2 a3 a4 a5 a6 a7 a8 a9 a10 := rfl

theorem newP1_eq : Read.val_main_v103 (F := Ideal) a0 a1 a2 a3 a4 a5 a6 a7 a8 a9 a10 a11 a12 a13 a14
    = refNewP (Read.val_main_v76 (F := Ideal) a0 a1 a2 a3 a4 a5 a6 a7 a8 a9 a10) (Read.val_main_v30 (F := Ideal) a0 a1 a2 a3 a4 a5 a6) a2 a11 a12 a13 a14 := rfl

theorem obj1_eq : Read.val_main_v149 (F := Ideal) a0 a1 a2 a3 a4 a5 a6 a7 a8 a9 a10 a11 a12 a13 a14 a15 a16 a17 a18
    = refNewObj (Read.val_main_v76 (F := Ideal) a0 a1 a2 a3 a4 a5 a6 a7 a8 a9 a10) (Read.val_main_v30 (F := Ideal) a0 a1 a2 a3 a4 a5 a6) a2 a11 a12 a13 a14 a15 a16 a17 a18 := rfl

end Bridge

theorem objOf_apply (a0 : FVec Ideal S10000x128 .f32) (r : Fin 10000) (k : Fin 128) : objOf a0 r.val k = a0 (ix2 r k) := by
  unfold objOf
  rw [dif_pos r.isLt]

theorem predOf_apply (a1 : FVec Ideal S320000x128 .f32) (e : E) (k : Fin 128) : predOf a1 e k = a1 (ix2 e k) := rfl

section Results
variable (a0 : (⟨S10000x128, .f32⟩ : BufTy).Contents (Elt Ideal)) (a1 : (⟨S320000x128, .f32⟩ : BufTy).Contents (Elt Ideal)) (a2 : (⟨S320000x2, .i32⟩ : BufTy).Contents (Elt Ideal)) (a3 : (⟨S384x128, .f32⟩ : BufTy).Contents (Elt Ideal)) (a4 : (⟨S128, .f32⟩ : BufTy).Contents (Elt Ideal)) (a5 : (⟨S128x384, .f32⟩ : BufTy).Contents (Elt Ideal)) (a6 : (⟨S384, .f32⟩ : BufTy).Contents (Elt Ideal)) (a7 : (⟨S128x128, .f32⟩ : BufTy).Contents (Elt Ideal)) (a8 : (⟨S128, .f32⟩ : BufTy).Contents (Elt Ideal)) (a9 : (⟨S128x128, .f32⟩ : BufTy).Contents (Elt Ideal)) (a10 : (⟨S128, .f32⟩ : BufTy).Contents (Elt Ideal)) (a11 : (⟨S384x128, .f32⟩ : BufTy).Contents (Elt Ideal)) (a12 : (⟨S128, .f32⟩ : BufTy).Contents (Elt Ideal)) (a13 : (⟨S128x384, .f32⟩ : BufTy).Contents (Elt Ideal)) (a14 : (⟨S384, .f32⟩ : BufTy).Contents (Elt Ideal)) (a15 : (⟨S128x128, .f32⟩ : BufTy).Contents (Elt Ideal)) (a16 : (⟨S128, .f32⟩ : BufTy).Contents (Elt Ideal)) (a17 : (⟨S128x128, .f32⟩ : BufTy).Contents (Elt Ideal)) (a18 : (⟨S128, .f32⟩ : BufTy).Contents (Elt Ideal)) (hr : ∀ i, (a2 i).toNat < 10000)

local notation "θ₀" => params a3 a4 a5 a6 a7 a8 a9 a10
local notation "θ₁" => params a11 a12 a13 a14 a15 a16 a17 a18
local notation "si" => colOf a2 0
local notation "oi" => colOf a2 1

include hr in

theorem obj0_apply (r : Fin 10000) (k : Fin 128) :
    newObj θ₀ (objOf a0) (predOf a1) si oi r.val k = Read.val_main_v76 (F := Ideal) a0 a1 a2 a3 a4 a5 a6 a7 a8 a9 a10 (ix2 r k) := by
  rw [obj0_eq]
  exact (refNewObj_apply a0 a1 a2 a3 a4 a5 a6 a7 a8 a9 a10 hr (objOf a0) (predOf a1) (objOf_apply a0) (predOf_apply a1) r k).symm

include hr in

theorem newP0_apply (e : E) (k : Fin 128) :
    newP θ₀ (objOf a0) (predOf a1) si oi e k = Read.val_main_v30 (F := Ideal) a0 a1 a2 a3 a4 a5 a6 (ix2 e k) := by
  rw [newP0_eq]
  exact (refNewP_apply a0 a1 a2 a3 a4 a5 a6 a7 a8 a9 a10 hr (objOf a0) (predOf a1) (objOf_apply a0) (predOf_apply a1) e k).symm

include hr in

theorem ref_out0 : Read.val_main_v149 (F := Ideal) a0 a1 a2 a3 a4 a5 a6 a7 a8 a9 a10 a11 a12 a13 a14 a15 a16 a17 a18 = Out0 a0 a1 a2 a3 a4 a5 a6 a7 a8 a9 a10 a11 a12 a13 a14 a15 a16 a17 a18 := by
  funext i
  obtain ⟨n, j, rfl⟩ : ∃ (n : Fin 10000) (j : Fin 128), i = ix2 n j := ⟨i 0, i 1, eq_ix2 i⟩
  rw [obj1_eq]
  exact refNewObj_apply _ _ a2 a11 a12 a13 a14 a15 a16 a17 a18 hr (newObj θ₀ (objOf a0) (predOf a1) si oi) (newP θ₀ (objOf a0) (predOf a1) si oi)
    (obj0_apply a0 a1 a2 a3 a4 a5 a6 a7 a8 a9 a10 hr) (newP0_apply a0 a1 a2 a3 a4 a5 a6 a7 a8 a9 a10 hr) n j

include hr in

theorem ref_out1 : Read.val_main_v103 (F := Ideal) a0 a1 a2 a3 a4 a5 a6 a7 a8 a9 a10 a11 a12 a13 a14 = Out1 a0 a1 a2 a3 a4 a5 a6 a7 a8 a9 a10 a11 a12 a13 a14 a15 a16 a17 a18 := by
  funext i
  obtain ⟨e, j, rfl⟩ : ∃ (e : Fin 320000) (j : Fin 128), i = ix2 e j := ⟨i 0, i 1, eq_ix2 i⟩
  rw [newP1_eq]
  exact refNewP_apply _ _ a2 a11 a12 a13 a14 a15 a16 a17 a18 hr (newObj θ₀ (objOf a0) (predOf a1) si oi) (newP θ₀ (objOf a0) (predOf a1) si oi)
    (obj0_apply a0 a1 a2 a3 a4 a5 a6 a7 a8 a9 a10 hr) (newP0_apply a0 a1 a2 a3 a4 a5 a6 a7 a8 a9 a10 hr) e j

end Results

section OverMemory
variable (m : (ℓ : Loc nD τ sig) → Buf (Elt Ideal) ℓ) (c : Dev nD)
  (hr : ∀ i, (m ((c.tc : Thread nD τ).loc main_arg2) i).toNat < 10000)

include hr in
theorem ref_out0_res : Cert.ReferenceIdeal.Value.res_main_v149 (F := Ideal) m c
    = Out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  rw [Read.val_main_v149_eq]
  exact ref_out0 _ _ _ _ _ _ _ _ _ _ _ _ _ _ _ _ _ _ _ hr

include hr in
theorem ref_out1_res : Cert.ReferenceIdeal.Value.res_main_v103 (F := Ideal) m c
    = Out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  rw [Read.val_main_v103_eq]
  exact ref_out1 _ _ _ _ _ _ _ _ _ _ _ _ _ _ _ _ _ _ _ hr

end OverMemory

end Cert.Proof.RefValue

end
-- ==== Proof.Preserves.lean ====
/- The idealized kernel differs from the printed one by one rewrite applied four times: narrowing a value and widening it back is the identity at the ideal instance. -/
import proofs.«215230_g44530220925728_cont_8to1c4_163_46_alg».proof.Defs
import Idealize.ShloMosaic.PureOps.IdealRules

namespace Cert.Proof

open Idealize.ShloMosaic

theorem preserves : Cert.preserves_Kernel_KernelIdeal :=
  ⟨IdealRules.truncf_extf.statement Cert.KernelIdeal.S10240x512 .f32 .bf16,
   IdealRules.truncf_extf.statement Cert.KernelIdeal.S10240x512 .f32 .bf16,
   IdealRules.truncf_extf.statement Cert.KernelIdeal.S10240x512 .f32 .bf16,
   IdealRules.truncf_extf.statement Cert.KernelIdeal.S10240x512 .f32 .bf16⟩

end Cert.Proof
-- ==== Proof.PreRange.lean ====
/- The precondition decoded: every entry of the edge list lies in [0, 10000). -/
import proofs.«215230_g44530220925728_cont_8to1c4_163_46_alg».proof.Pre_input_domain
import proofs.«215230_g44530220925728_cont_8to1c4_163_46_alg».proof.Proof.Gen.Pre_input_domain
import Idealize.ShloMosaic.Lib.StableHlo.Predicate
import Idealize.ShloMosaic.Lib.ReduceAll

namespace Cert.Proof.PreRange

open Idealize.ShloMosaic
open Cert.Pre_input_domain

instance : Subsingleton S_.Idx := ⟨fun a b => funext fun d => d.elim0⟩

theorem word_range (w : BitVec 32) (h0 : IntOp.cmpi .sge w 0#32 = 1#1) (h1 : IntOp.cmpi .sle w 9999#32 = 1#1) :
    0 ≤ w.toInt ∧ w.toNat < 10000 := by
  rw [IntOp.cmpi_sge] at h0
  rw [IntOp.cmpi_sle] at h1
  have z : (0#32 : BitVec 32).toInt = 0 := by decide
  have n : (9999#32 : BitVec 32).toInt = 9999 := by decide
  rw [z] at h0
  rw [n] at h1
  refine ⟨h0, ?_⟩
  have hw := w.isLt
  rw [BitVec.toInt_eq_toNat_cond] at h0 h1
  split at h1 <;> omega

variable {F : FTy → Type} [FloatOps F] [Facts]
  {a0 : FVec F S10000x128 .f32} {a1 : FVec F S320000x128 .f32} {a2 : IVec S320000x2 32} {a3 : FVec F S384x128 .f32}
  {a4 : FVec F S128 .f32} {a5 : FVec F S128x384 .f32} {a6 : FVec F S384 .f32} {a7 : FVec F S128x128 .f32} {a8 : FVec F S128 .f32}
  {a9 : FVec F S128x128 .f32} {a10 : FVec F S128 .f32} {a11 : FVec F S384x128 .f32} {a12 : FVec F S128 .f32}
  {a13 : FVec F S128x384 .f32} {a14 : FVec F S384 .f32} {a15 : FVec F S128x128 .f32} {a16 : FVec F S128 .f32}
  {a17 : FVec F S128x128 .f32} {a18 : FVec F S128 .f32}

-- The predicate's conjunct for the edge list is an "all" over its entries of the two word comparisons.
theorem edges_lt (h : fn (F := F) a0 a1 a2 a3 a4 a5 a6 a7 a8 a9 a10 a11 a12 a13 a14 a15 a16 a17 a18 = fun _ => 1#1)
    (i : S320000x2.Idx) : (a2 i).toNat < 10000 := by
  have e := congrFun h (fun d => d.elim0)
  unfold fn fn_part1 fn_part2 fn_part3 fn_part4 fn_part5 at e
  dsimp only at e
  obtain ⟨-, e2⟩ := IntOp.andi_eq_one.1 e
  obtain ⟨l, u⟩ := IntOp.andi_eq_one.1 (Host.reduce_andi_all _ _ _ _ _ e2 i)
  exact (word_range (a2 i) l u).2

end Cert.Proof.PreRange
-- ==== Proof.PreOK.lean ====
/- The decoded range, at each program's launch memory. -/
import proofs.«215230_g44530220925728_cont_8to1c4_163_46_alg».proof.Defs
import proofs.«215230_g44530220925728_cont_8to1c4_163_46_alg».proof.Proof.PreRange

namespace Cert.Proof.PreRange

open Idealize.ShloMosaic Idealize.SL.Sem

theorem ok_KernelIdeal (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_input_domain.S320000x2.Idx) :
    (m ((c.tc : Thread Cert.KernelIdeal.nD Cert.KernelIdeal.τ).loc Cert.KernelIdeal.main_arg2) i).toNat < 10000 :=
  edges_lt (F := Ideal) (h c) i

theorem ok_Kernel (m : (ℓ : Loc Cert.Kernel.nD Cert.Kernel.τ Cert.Kernel.sig) → Buf (Elt Bits) ℓ)
    (h : Cert.Pre_Kernel m) (c : Dev Cert.Kernel.nD) (i : Cert.Pre_input_domain.S320000x2.Idx) :
    (m ((c.tc : Thread Cert.Kernel.nD Cert.Kernel.τ).loc Cert.Kernel.main_arg2) i).toNat < 10000 :=
  edges_lt (F := Bits) (h c) i

end Cert.Proof.PreRange
-- ==== Proof.lean ====
/- Both programs compute two rounds of a graph convolution (Proof/Spec.lean). Over the extended reals addition is commutative and
   associative and a one-hot entry times a value is that value or zero, so the kernel's blockwise sums of one-hot products and the
   reference's gather, single product and scatter-add agree index by index with no finiteness assumption; the precondition gives only
   the range of the edge list's entries, which makes every indexed access name a row. -/
import proofs.«215230_g44530220925728_cont_8to1c4_163_46_alg».proof.Defs
import proofs.«215230_g44530220925728_cont_8to1c4_163_46_alg».proof.Proof.Gen.Kernel
import proofs.«215230_g44530220925728_cont_8to1c4_163_46_alg».proof.Proof.Gen.KernelIdeal
import proofs.«215230_g44530220925728_cont_8to1c4_163_46_alg».proof.Proof.Gen.ReferenceIdeal
import proofs.«215230_g44530220925728_cont_8to1c4_163_46_alg».proof.Proof.Gen.Pre_input_domain
import proofs.«215230_g44530220925728_cont_8to1c4_163_46_alg».proof.Proof.Gen.ReferenceIdeal.Run
import proofs.«215230_g44530220925728_cont_8to1c4_163_46_alg».proof.Proof.Gen.ReferenceIdeal.Read
import proofs.«215230_g44530220925728_cont_8to1c4_163_46_alg».proof.Proof.KI.Launch
import proofs.«215230_g44530220925728_cont_8to1c4_163_46_alg».proof.Proof.KB.Launch
import proofs.«215230_g44530220925728_cont_8to1c4_163_46_alg».proof.Proof.KI.Keep
import proofs.«215230_g44530220925728_cont_8to1c4_163_46_alg».proof.Proof.KB.Keep
import proofs.«215230_g44530220925728_cont_8to1c4_163_46_alg».proof.Proof.KIVal.Final
import proofs.«215230_g44530220925728_cont_8to1c4_163_46_alg».proof.Proof.RefValue
import proofs.«215230_g44530220925728_cont_8to1c4_163_46_alg».proof.Proof.Preserves
import proofs.«215230_g44530220925728_cont_8to1c4_163_46_alg».proof.Proof.PreOK
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_input_domain := Cert.Pre_input_domain.Gen.facts) := fun m ρ hpre =>
  (θ_run (Cert.Kernel.defs (F := Bits)) _ _).mono (fun r h c => by
    have k := fun b hb => (h c _ (KB.mem_uc b (KB.args_unscoped b hb))).trans (KB.W12_arg m c b hb)
    and_intros <;> exact k _ (by decide))
    (KB.run_main (F := Bits) m ρ (KB.X_inRange m (PreRange.ok_Kernel m hpre)))

theorem frame_kernelIdeal : Cert.frame_KernelIdeal (hKernelIdeal := Cert.KernelIdeal.Gen.facts) (hPre_input_domain := Cert.Pre_input_domain.Gen.facts) := fun m ρ hpre =>
  (θ_run (Cert.KernelIdeal.defs (F := Ideal)) _ _).mono (fun r h c => by
    have k := fun b hb => (h c _ (KI.mem_uc b (KI.args_unscoped b hb))).trans (KI.W12_arg m c b hb)
    and_intros <;> exact k _ (by decide))
    (KI.run_main (F := Ideal) m ρ (KI.X_inRange m (PreRange.ok_KernelIdeal m hpre)))

theorem frame_reference : Cert.frame_ReferenceIdeal (hReferenceIdeal := Cert.ReferenceIdeal.Gen.facts) (hPre_input_domain := Cert.Pre_input_domain.Gen.facts) := fun m ρ _ =>
  (θ_run Cert.ReferenceIdeal.defs _ _).mono (fun _ h c => (h c).2.2) (Cert.ReferenceIdeal.Value.run (F := Ideal) m ρ)

set_option maxHeartbeats 2000000 in
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m ρ m' ρ' hpre hagree
  have hr := PreRange.ok_KernelIdeal m hpre
  refine ⟨_, _, (θ_run (Cert.KernelIdeal.defs (F := Ideal)) _ _).mono (fun r h c =>
      ⟨(h c _ (KI.mem_uc Cert.KernelIdeal.main_v24 (by decide))).trans (KIVal.final_out0 m c (hr c)),
       (h c _ (KI.mem_uc Cert.KernelIdeal.main_v20_1 (by decide))).trans (KIVal.final_out1 m c (hr c)), by
        have k := fun b hb => (h c _ (KI.mem_uc b (KI.args_unscoped b hb))).trans (KI.W12_arg m c b hb)
        and_intros <;> exact k _ (by decide)⟩)
      (KI.run_main (F := Ideal) m ρ (KI.X_inRange m hr)), ?_⟩
  refine (θ_run Cert.ReferenceIdeal.defs _ _).mono (fun r h c => ⟨(h c).1.trans ?_, (h c).2.1.trans ?_, (h c).2.2⟩)
    (Cert.ReferenceIdeal.Value.run (F := Ideal) m' ρ')
  · rw [RefValue.ref_out0_res m' c (by intro i; rw [(hagree c).2.2.1]; exact hr c i)]
    obtain ⟨e0, e1, e2, e3, e4, e5, e6, e7, e8, e9, e10, e11, e12, e13, e14, e15, e16, e17, e18⟩ := hagree c
    rw [e0, e1, e2, e3, e4, e5, e6, e7, e8, e9, e10, e11, e12, e13, e14, e15, e16, e17, e18]
  · rw [RefValue.ref_out1_res m' c (by intro i; rw [(hagree c).2.2.1]; exact hr c i)]
    obtain ⟨e0, e1, e2, e3, e4, e5, e6, e7, e8, e9, e10, e11, e12, e13, e14, e15, e16, e17, e18⟩ := hagree c
    rw [e0, e1, e2, e3, e4, e5, e6, e7, e8, e9, e10, e11, e12, e13, e14, e15, e16, e17, e18]

theorem claim : Cert.Claim :=
  ⟨Cert.Kernel.Gen.facts, Cert.KernelIdeal.Gen.facts, Cert.ReferenceIdeal.Gen.facts, Cert.Pre_input_domain.Gen.facts,
    frame_kernel, frame_kernelIdeal, frame_reference, preserves, algebraic⟩

end Cert.Proof

end
